-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v212)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v212) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v282) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x15x80x80 : Shape := ⟨4, ![8, 15, 80, 80]⟩
abbrev S8x64x5 : Shape := ⟨3, ![8, 64, 5]⟩
abbrev S8x1x1024x1024 : Shape := ⟨4, ![8, 1, 1024, 1024]⟩
abbrev S8x1024x1024 : Shape := ⟨3, ![8, 1024, 1024]⟩
abbrev S8x3x1024x1024 : Shape := ⟨4, ![8, 3, 1024, 1024]⟩
abbrev S8 : Shape := ⟨1, ![8]⟩
abbrev S8x3 : Shape := ⟨2, ![8, 3]⟩
abbrev S_ : Shape := ⟨0, ![]⟩

class Facts : Prop where
  bcast_S_S8x15x80x80 : S_.BroadcastsInDim S8x15x80x80 (![] : Fin 0 → Fin S8x15x80x80.rank)
  reducesTo_S8x15x80x80_S_d0_1_2_3 : S8x15x80x80.ReducesTo [0, 1, 2, 3] S_
  h_S_ : 0 < S_.numel
  bcast_S_S8x64x5 : S_.BroadcastsInDim S8x64x5 (![] : Fin 0 → Fin S8x64x5.rank)
  reducesTo_S8x64x5_S_d0_1_2 : S8x64x5.ReducesTo [0, 1, 2] S_
  bcast_S_S8x1x1024x1024 : S_.BroadcastsInDim S8x1x1024x1024 (![] : Fin 0 → Fin S8x1x1024x1024.rank)
  reducesTo_S8x1x1024x1024_S_d0_1_2_3 : S8x1x1024x1024.ReducesTo [0, 1, 2, 3] S_
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_

variable [Facts]

def fn_part1 {F : FTy → Type} [FloatOps F] (main_v13 : IVec S_ 1) (main_v16 : IVec S8x3x1024x1024 1) : IVec S_ 1 :=
  let main_c_5 : IVec S_ 1 := constantI S_ 1 1#1
  let main_v17 : IVec S_ 1 := (fun x v => Host.reduce IntOp.andi x v reducesTo_S8x3x1024x1024_S_d0_1_2_3 h_S_) main_v16 main_c_5
  let main_v18 : IVec S_ 1 := andi main_v13 main_v17
  main_v18

def fn {F : FTy → Type} [FloatOps F] (main_arg0 : FVec F S8x15x80x80 .f32) (main_arg1 : FVec F S8x64x5 .f32) (main_arg2 : FVec F S8x1x1024x1024 .f32) (main_arg3 : IVec S8x1024x1024 32) (main_arg4 : FVec F S8x3x1024x1024 .f32) (main_arg5 : IVec S8x3x1024x1024 32) (main_arg6 : IVec S8 32) (main_arg7 : IVec S8 32) (main_arg8 : IVec S8x3 32) : IVec S_ 1 :=
  let main_v0 : FVec F S8x15x80x80 .f32 := Host.absf main_arg0
  let main_cst : FVec F S_ .f32 := constant S_ .f32 0x7F800000#32
  let main_v1 : FVec F S8x15x80x80 .f32 := broadcastInDim S8x15x80x80 ![] bcast_S_S8x15x80x80 main_cst
  let main_v2 : IVec S8x15x80x80 1 := cmpf .olt main_v0 main_v1
  let main_c : IVec S_ 1 := constantI S_ 1 1#1
  let main_v3 : IVec S_ 1 := (fun x v => Host.reduce IntOp.andi x v reducesTo_S8x15x80x80_S_d0_1_2_3 h_S_) main_v2 main_c
  let main_v4 : FVec F S8x64x5 .f32 := Host.absf main_arg1
  let main_cst_0 : FVec F S_ .f32 := constant S_ .f32 0x7F800000#32
  let main_v5 : FVec F S8x64x5 .f32 := broadcastInDim S8x64x5 ![] bcast_S_S8x64x5 main_cst_0
  let main_v6 : IVec S8x64x5 1 := cmpf .olt main_v4 main_v5
  let main_c_1 : IVec S_ 1 := constantI S_ 1 1#1
  let main_v7 : IVec S_ 1 := (fun x v => Host.reduce IntOp.andi x v reducesTo_S8x64x5_S_d0_1_2 h_S_) main_v6 main_c_1
  let main_v8 : IVec S_ 1 := andi main_v3 main_v7
  let main_v9 : FVec F S8x1x1024x1024 .f32 := Host.absf main_arg2
  let main_cst_2 : FVec F S_ .f32 := constant S_ .f32 0x7F800000#32
  let main_v10 : FVec F S8x1x1024x1024 .f32 := broadcastInDim S8x1x1024x1024 ![] bcast_S_S8x1x1024x1024 main_cst_2
  let main_v11 : IVec S8x1x1024x1024 1 := cmpf .olt main_v9 main_v10
  let main_c_3 : IVec S_ 1 := constantI S_ 1 1#1
  let main_v12 : IVec S_ 1 := (fun x v => Host.reduce IntOp.andi x v reducesTo_S8x1x1024x1024_S_d0_1_2_3 h_S_) main_v11 main_c_3
  let main_v13 : IVec S_ 1 := andi main_v8 main_v12
  let main_v14 : FVec F S8x3x1024x1024 .f32 := Host.absf main_arg4
  let main_cst_4 : FVec F S_ .f32 := constant S_ .f32 0x7F800000#32
  let main_v15 : FVec F S8x3x1024x1024 .f32 := broadcastInDim S8x3x1024x1024 ![] bcast_S_S8x3x1024x1024 main_cst_4
  let main_v16 : IVec S8x3x1024x1024 1 := cmpf .olt main_v14 main_v15
  fn_part1 (F := F) main_v13 main_v16
-- ==== Kernel.lean ====
abbrev S8x15x80x80 : Shape := ⟨4, ![8, 15, 80, 80]⟩
abbrev S8x64x5 : Shape := ⟨3, ![8, 64, 5]⟩
abbrev S8x1x1024x1024 : Shape := ⟨4, ![8, 1, 1024, 1024]⟩
abbrev S8x1024x1024 : Shape := ⟨3, ![8, 1024, 1024]⟩
abbrev S8x3x1024x1024 : Shape := ⟨4, ![8, 3, 1024, 1024]⟩
abbrev S8 : Shape := ⟨1, ![8]⟩
abbrev S8x3 : Shape := ⟨2, ![8, 3]⟩
abbrev S8x64x1 : Shape := ⟨3, ![8, 64, 1]⟩
abbrev S8x64 : Shape := ⟨2, ![8, 64]⟩
abbrev S8x64x4 : Shape := ⟨3, ![8, 64, 4]⟩
abbrev S_ : Shape := ⟨0, ![]⟩
abbrev S8x1 : Shape := ⟨2, ![8, 1]⟩
abbrev S8x6401 : Shape := ⟨2, ![8, 6401]⟩
abbrev S8x64x2 : Shape := ⟨3, ![8, 64, 2]⟩
abbrev S8x6400 : Shape := ⟨2, ![8, 6400]⟩
abbrev S8x80x80 : Shape := ⟨3, ![8, 80, 80]⟩
abbrev S8x6401x4 : Shape := ⟨3, ![8, 6401, 4]⟩
abbrev S8x6400x4 : Shape := ⟨3, ![8, 6400, 4]⟩
abbrev S8x80x80x4 : Shape := ⟨4, ![8, 80, 80, 4]⟩
abbrev S8x1x80x80 : Shape := ⟨4, ![8, 1, 80, 80]⟩
abbrev S8x4x80x80 : Shape := ⟨4, ![8, 4, 80, 80]⟩
abbrev S8x80x80x1 : Shape := ⟨4, ![8, 80, 80, 1]⟩
abbrev S8x25600 : Shape := ⟨2, ![8, 25600]⟩
abbrev S8x10x80x80 : Shape := ⟨4, ![8, 10, 80, 80]⟩
abbrev S8x1x80x80x1 : Shape := ⟨5, ![8, 1, 80, 80, 1]⟩
abbrev S1 : Shape := ⟨1, ![1]⟩
abbrev S1x1x1x1x1 : Shape := ⟨5, ![1, 1, 1, 1, 1]⟩
abbrev S8x1x128x1024 : Shape := ⟨4, ![8, 1, 128, 1024]⟩
abbrev S8x128x1024 : Shape := ⟨3, ![8, 128, 1024]⟩
abbrev S8x128 : Shape := ⟨2, ![8, 128]⟩
abbrev S8x3x32x1024 : Shape := ⟨4, ![8, 3, 32, 1024]⟩
abbrev S8x3x32 : Shape := ⟨3, ![8, 3, 32]⟩
abbrev S4 : Shape := ⟨1, ![4]⟩

abbrev nBuf : Space → Nat
  | .hbm => 331
  | .vmem => 15
  | .smem => 0
  | _ => 0

abbrev hbmTy0_0 (i : Nat) : BufTy := match i % 128 with
  | 0 => ⟨S8x15x80x80, .f32⟩
  | 1 => ⟨S8x64x5, .f32⟩
  | 2 => ⟨S8x1x1024x1024, .f32⟩
  | 3 => ⟨S8x1024x1024, .i32⟩
  | 4 => ⟨S8x3x1024x1024, .f32⟩
  | 5 => ⟨S8x3x1024x1024, .i32⟩
  | 6 => ⟨S8, .i32⟩
  | 7 => ⟨S8, .i32⟩
  | 8 => ⟨S8x3, .i32⟩
  | 9 => ⟨S8x64x1, .f32⟩
  | 10 => ⟨S8x64, .f32⟩
  | 11 => ⟨S8x64, .i32⟩
  | 12 => ⟨S8x64x4, .f32⟩
  | 13 => ⟨S_, .f32⟩
  | 14 => ⟨S_, .f32⟩
  | 15 => ⟨S_, .f32⟩
  | 16 => ⟨S8x64x4, .f32⟩
  | 17 => ⟨S8x64x4, .f32⟩
  | 18 => ⟨S_, .f32⟩
  | 19 => ⟨S8x64x4, .f32⟩
  | 20 => ⟨S8x64x4, .f32⟩
  | 21 => ⟨S_, .i32⟩
  | 22 => ⟨S8x64, .i32⟩
  | 23 => ⟨S8x64, .i1⟩
  | 24 => ⟨S_, .i32⟩
  | 25 => ⟨S8x64, .i32⟩
  | 26 => ⟨S8x64, .i1⟩
  | 27 => ⟨S8x64, .i1⟩
  | 28 => ⟨S8x64x1, .f32⟩
  | 29 => ⟨S8x64, .f32⟩
  | 30 => ⟨S_, .f32⟩
  | 31 => ⟨S8x64, .f32⟩
  | 32 => ⟨S8x64, .i1⟩
  | 33 => ⟨S8x64, .i1⟩
  | 34 => ⟨S8x64x1, .f32⟩
  | 35 => ⟨S8x64, .f32⟩
  | 36 => ⟨S_, .f32⟩
  | 37 => ⟨S8x64, .f32⟩
  | 38 => ⟨S8x64, .i1⟩
  | 39 => ⟨S8x64, .i1⟩
  | 40 => ⟨S8x64x1, .f32⟩
  | 41 => ⟨S8x64, .f32⟩
  | 42 => ⟨S_, .f32⟩
  | 43 => ⟨S8x64, .f32⟩
  | 44 => ⟨S8x64, .f32⟩
  | 45 => ⟨S8x64, .i32⟩
  | 46 => ⟨S_, .i32⟩
  | 47 => ⟨S8x64, .i32⟩
  | 48 => ⟨S8x64, .i32⟩
  | 49 => ⟨S8x64x1, .f32⟩
  | 50 => ⟨S8x64, .f32⟩
  | 51 => ⟨S_, .f32⟩
  | 52 => ⟨S8x64, .f32⟩
  | 53 => ⟨S8x64, .f32⟩
  | 54 => ⟨S8x64, .i32⟩
  | 55 => ⟨S_, .i32⟩
  | 56 => ⟨S8x64, .i32⟩
  | 57 => ⟨S8x64, .i32⟩
  | 58 => ⟨S_, .i32⟩
  | 59 => ⟨S8x64, .i32⟩
  | 60 => ⟨S8x64, .i32⟩
  | 61 => ⟨S8x64, .i32⟩
  | 62 => ⟨S_, .i32⟩
  | 63 => ⟨S_, .i32⟩
  | 64 => ⟨S8x64, .i32⟩
  | 65 => ⟨S8x64, .i32⟩
  | 66 => ⟨S8, .i32⟩
  | 67 => ⟨S8x1, .i32⟩
  | 68 => ⟨S8x64, .i32⟩
  | 69 => ⟨S_, .f32⟩
  | 70 => ⟨S8x6401, .f32⟩
  | 71 => ⟨S_, .i32⟩
  | 72 => ⟨S8x64, .i32⟩
  | 73 => ⟨S8x64, .i1⟩
  | 74 => ⟨S_, .i32⟩
  | 75 => ⟨S8x64, .i32⟩
  | 76 => ⟨S8x64, .i32⟩
  | 77 => ⟨S8x64, .i32⟩
  | 78 => ⟨S_, .i32⟩
  | 79 => ⟨S8x64, .i32⟩
  | 80 => ⟨S8x64, .i1⟩
  | 81 => ⟨S_, .i32⟩
  | 82 => ⟨S8x64, .i32⟩
  | 83 => ⟨S8x64, .i32⟩
  | 84 => ⟨S8x64, .i32⟩
  | 85 => ⟨S8x64x1, .i32⟩
  | 86 => ⟨S8x64x1, .i32⟩
  | 87 => ⟨S8x64x2, .i32⟩
  | 88 => ⟨S_, .f32⟩
  | 89 => ⟨S8x64, .f32⟩
  | 90 => ⟨S8x6401, .f32⟩
  | 91 => ⟨S8x6400, .f32⟩
  | 92 => ⟨S8x80x80, .f32⟩
  | 93 => ⟨S_, .f32⟩
  | 94 => ⟨S8x6401x4, .f32⟩
  | 95 => ⟨S_, .i32⟩
  | 96 => ⟨S8x64, .i32⟩
  | 97 => ⟨S8x64, .i1⟩
  | 98 => ⟨S_, .i32⟩
  | 99 => ⟨S8x64, .i32⟩
  | 100 => ⟨S8x64, .i32⟩
  | 101 => ⟨S8x64, .i32⟩
  | 102 => ⟨S_, .i32⟩
  | 103 => ⟨S8x64, .i32⟩
  | 104 => ⟨S8x64, .i1⟩
  | 105 => ⟨S_, .i32⟩
  | 106 => ⟨S8x64, .i32⟩
  | 107 => ⟨S8x64, .i32⟩
  | 108 => ⟨S8x64, .i32⟩
  | 109 => ⟨S8x64x1, .i32⟩
  | 110 => ⟨S8x64x1, .i32⟩
  | 111 => ⟨S8x64x2, .i32⟩
  | 112 => ⟨S8x6401x4, .f32⟩
  | 113 => ⟨S8x6400x4, .f32⟩
  | 114 => ⟨S8x80x80x4, .f32⟩
  | 115 => ⟨S_, .i32⟩
  | 116 => ⟨S8x6401, .i32⟩
  | 117 => ⟨S_, .i32⟩
  | 118 => ⟨S8x64, .i32⟩
  | 119 => ⟨S8x64, .i1⟩
  | 120 => ⟨S_, .i32⟩
  | 121 => ⟨S8x64, .i32⟩
  | 122 => ⟨S8x64, .i32⟩
  | 123 => ⟨S8x64, .i32⟩
  | 124 => ⟨S_, .i32⟩
  | 125 => ⟨S8x64, .i32⟩
  | 126 => ⟨S8x64, .i1⟩
  | 127 => ⟨S_, .i32⟩
  | _ => ⟨S8x15x80x80, .f32⟩

abbrev hbmTy0_1 (i : Nat) : BufTy := match i % 128 with
  | 0 => ⟨S8x64, .i32⟩
  | 1 => ⟨S8x64, .i32⟩
  | 2 => ⟨S8x64, .i32⟩
  | 3 => ⟨S8x64x1, .i32⟩
  | 4 => ⟨S8x64x1, .i32⟩
  | 5 => ⟨S8x64x2, .i32⟩
  | 6 => ⟨S8x6401, .i32⟩
  | 7 => ⟨S8x6400, .i32⟩
  | 8 => ⟨S8x80x80, .i32⟩
  | 9 => ⟨S_, .f32⟩
  | 10 => ⟨S8x80x80, .f32⟩
  | 11 => ⟨S8x80x80, .i1⟩
  | 12 => ⟨S8x6400, .i1⟩
  | 13 => ⟨S8x6400, .i32⟩
  | 14 => ⟨S_, .i32⟩
  | 15 => ⟨S8, .i32⟩
  | 16 => ⟨S_, .i32⟩
  | 17 => ⟨S8, .i32⟩
  | 18 => ⟨S8, .i32⟩
  | 19 => ⟨S8, .f32⟩
  | 20 => ⟨S8, .f32⟩
  | 21 => ⟨S_, .f32⟩
  | 22 => ⟨S_, .f32⟩
  | 23 => ⟨S_, .f32⟩
  | 24 => ⟨S_, .f32⟩
  | 25 => ⟨S8x1x80x80, .f32⟩
  | 26 => ⟨S8x80x80, .f32⟩
  | 27 => ⟨S_, .f32⟩
  | 28 => ⟨S8x80x80, .f32⟩
  | 29 => ⟨S8x80x80, .f32⟩
  | 30 => ⟨S8x80x80, .f32⟩
  | 31 => ⟨S8x80x80, .f32⟩
  | 32 => ⟨S8x80x80, .f32⟩
  | 33 => ⟨S8x80x80, .f32⟩
  | 34 => ⟨S8x80x80, .f32⟩
  | 35 => ⟨S8x80x80, .f32⟩
  | 36 => ⟨S8x80x80, .f32⟩
  | 37 => ⟨S8x6400, .f32⟩
  | 38 => ⟨S_, .f32⟩
  | 39 => ⟨S8, .f32⟩
  | 40 => ⟨S_, .f32⟩
  | 41 => ⟨S8, .f32⟩
  | 42 => ⟨S8, .f32⟩
  | 43 => ⟨S8x4x80x80, .f32⟩
  | 44 => ⟨S8x80x80x4, .f32⟩
  | 45 => ⟨S8x80x80x4, .f32⟩
  | 46 => ⟨S8x80x80x4, .f32⟩
  | 47 => ⟨S_, .f32⟩
  | 48 => ⟨S8x80x80x4, .f32⟩
  | 49 => ⟨S8x80x80x4, .f32⟩
  | 50 => ⟨S_, .f32⟩
  | 51 => ⟨S8x80x80x4, .f32⟩
  | 52 => ⟨S8x80x80x4, .f32⟩
  | 53 => ⟨S8x80x80x4, .f32⟩
  | 54 => ⟨S8x80x80x4, .f32⟩
  | 55 => ⟨S_, .f32⟩
  | 56 => ⟨S8x80x80x4, .f32⟩
  | 57 => ⟨S8x80x80x4, .i1⟩
  | 58 => ⟨S_, .f32⟩
  | 59 => ⟨S8x80x80x4, .f32⟩
  | 60 => ⟨S8x80x80x4, .f32⟩
  | 61 => ⟨S8x80x80x4, .f32⟩
  | 62 => ⟨S_, .f32⟩
  | 63 => ⟨S8x80x80x4, .f32⟩
  | 64 => ⟨S8x80x80x4, .f32⟩
  | 65 => ⟨S8x80x80x4, .f32⟩
  | 66 => ⟨S8x80x80x1, .i1⟩
  | 67 => ⟨S8x80x80x1, .f32⟩
  | 68 => ⟨S8x80x80x4, .f32⟩
  | 69 => ⟨S8x80x80x4, .f32⟩
  | 70 => ⟨S8x25600, .f32⟩
  | 71 => ⟨S_, .f32⟩
  | 72 => ⟨S8, .f32⟩
  | 73 => ⟨S_, .f32⟩
  | 74 => ⟨S8, .f32⟩
  | 75 => ⟨S8, .f32⟩
  | 76 => ⟨S8, .f32⟩
  | 77 => ⟨S8x10x80x80, .f32⟩
  | 78 => ⟨S_, .f32⟩
  | 79 => ⟨S8x80x80, .f32⟩
  | 80 => ⟨S_, .f32⟩
  | 81 => ⟨S8x80x80, .f32⟩
  | 82 => ⟨S8x80x80, .f32⟩
  | 83 => ⟨S8x1x80x80, .f32⟩
  | 84 => ⟨S8x10x80x80, .f32⟩
  | 85 => ⟨S8x10x80x80, .f32⟩
  | 86 => ⟨S8x10x80x80, .f32⟩
  | 87 => ⟨S_, .f32⟩
  | 88 => ⟨S8x80x80, .f32⟩
  | 89 => ⟨S8x1x80x80, .f32⟩
  | 90 => ⟨S8x1x80x80, .f32⟩
  | 91 => ⟨S8x10x80x80, .f32⟩
  | 92 => ⟨S8x10x80x80, .f32⟩
  | 93 => ⟨S8x1x80x80, .i32⟩
  | 94 => ⟨S_, .i32⟩
  | 95 => ⟨S8x1x80x80, .i32⟩
  | 96 => ⟨S8x1x80x80, .i1⟩
  | 97 => ⟨S_, .i32⟩
  | 98 => ⟨S8x1x80x80, .i32⟩
  | 99 => ⟨S8x1x80x80, .i32⟩
  | 100 => ⟨S8x1x80x80, .i32⟩
  | 101 => ⟨S8x1x80x80x1, .i32⟩
  | 102 => ⟨S1, .i32⟩
  | 103 => ⟨S_, .i32⟩
  | 104 => ⟨S8x1x80x80x1, .i32⟩
  | 105 => ⟨S8x1x80x80x1, .i1⟩
  | 106 => ⟨S1x1x1x1x1, .i32⟩
  | 107 => ⟨S8x1x80x80x1, .i32⟩
  | 108 => ⟨S8x1x80x80x1, .i1⟩
  | 109 => ⟨S8x1x80x80x1, .i1⟩
  | 110 => ⟨S_, .i1⟩
  | 111 => ⟨S8x1x80x80, .i1⟩
  | 112 => ⟨S8x1x80x80, .f32⟩
  | 113 => ⟨S_, .f32⟩
  | 114 => ⟨S8x1x80x80, .f32⟩
  | 115 => ⟨S8x1x80x80, .f32⟩
  | 116 => ⟨S8x80x80, .f32⟩
  | 117 => ⟨S8x80x80, .f32⟩
  | 118 => ⟨S8x80x80, .f32⟩
  | 119 => ⟨S8x80x80, .f32⟩
  | 120 => ⟨S8x6400, .f32⟩
  | 121 => ⟨S_, .f32⟩
  | 122 => ⟨S8, .f32⟩
  | 123 => ⟨S8, .f32⟩
  | 124 => ⟨S8, .f32⟩
  | 125 => ⟨S8, .f32⟩
  | 126 => ⟨S8, .f32⟩
  | 127 => ⟨S_, .f32⟩
  | _ => ⟨S8x15x80x80, .f32⟩

abbrev hbmTy0_2 (i : Nat) : BufTy := match i % 128 with
  | 0 => ⟨S_, .f32⟩
  | 1 => ⟨S_, .f32⟩
  | 2 => ⟨S8x1, .f32⟩
  | 3 => ⟨S8x1, .f32⟩
  | 4 => ⟨S8, .f32⟩
  | 5 => ⟨S8, .f32⟩
  | 6 => ⟨S_, .f32⟩
  | 7 => ⟨S8, .f32⟩
  | 8 => ⟨S8, .f32⟩
  | 9 => ⟨S8, .f32⟩
  | 10 => ⟨S8, .f32⟩
  | 11 => ⟨S_, .f32⟩
  | 12 => ⟨S8, .f32⟩
  | 13 => ⟨S8, .i1⟩
  | 14 => ⟨S8, .f32⟩
  | 15 => ⟨S8, .f32⟩
  | 16 => ⟨S8, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S8x3, .f32⟩
  | 25 => ⟨S8x3, .f32⟩
  | 26 => ⟨S8x3, .f32⟩
  | 27 => ⟨S8x3, .f32⟩
  | 28 => ⟨S8x3, .f32⟩
  | 29 => ⟨S_, .f32⟩
  | 30 => ⟨S8x3, .f32⟩
  | 31 => ⟨S8x3, .f32⟩
  | 32 => ⟨S8x3, .f32⟩
  | 33 => ⟨S8x3, .f32⟩
  | 34 => ⟨S_, .f32⟩
  | 35 => ⟨S8x3, .f32⟩
  | 36 => ⟨S8x3, .f32⟩
  | 37 => ⟨S_, .f32⟩
  | 38 => ⟨S8x3, .f32⟩
  | 39 => ⟨S8x3, .f32⟩
  | 40 => ⟨S_, .f32⟩
  | 41 => ⟨S8x3, .f32⟩
  | 42 => ⟨S8x3, .f32⟩
  | 43 => ⟨S8x3, .f32⟩
  | 44 => ⟨S_, .f32⟩
  | 45 => ⟨S8x3, .f32⟩
  | 46 => ⟨S8x3, .f32⟩
  | 47 => ⟨S8x3, .f32⟩
  | 48 => ⟨S_, .f32⟩
  | 49 => ⟨S8x3, .f32⟩
  | 50 => ⟨S8x3, .i1⟩
  | 51 => ⟨S8x3, .f32⟩
  | 52 => ⟨S8x3, .f32⟩
  | 53 => ⟨S8x3, .f32⟩
  | 54 => ⟨S8x3, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S1, .f32⟩
  | 71 => ⟨S1, .f32⟩
  | 72 => ⟨S1, .f32⟩
  | 73 => ⟨S1, .f32⟩
  | 74 => ⟨S4, .f32⟩
  | _ => ⟨S8x15x80x80, .f32⟩

abbrev hbmTy (i : Nat) : BufTy := match i / 128 with
  | 0 => hbmTy0_0 i
  | 1 => hbmTy0_1 i
  | 2 => hbmTy0_2 i
  | _ => ⟨S8x15x80x80, .f32⟩

abbrev bufTy : (tb : Table) → Fin (tcTables nBuf tb) → BufTy
  | .hbm, ⟨i, _⟩ => hbmTy i
  | .local _ .vmem, ⟨0, _⟩ => ⟨S8x1x128x1024, .f32⟩
  | .local _ .vmem, ⟨1, _⟩ => ⟨S8x1x128x1024, .f32⟩
  | .local _ .vmem, ⟨2, _⟩ => ⟨S8x128x1024, .i32⟩
  | .local _ .vmem, ⟨3, _⟩ => ⟨S8x128x1024, .i32⟩
  | .local _ .vmem, ⟨4, _⟩ => ⟨S8x1, .f32⟩
  | .local _ .vmem, ⟨5, _⟩ => ⟨S8x1, .f32⟩
  | .local _ .vmem, ⟨6, _⟩ => ⟨S8x3x32x1024, .f32⟩
  | .local _ .vmem, ⟨7, _⟩ => ⟨S8x3x32x1024, .f32⟩
  | .local _ .vmem, ⟨8, _⟩ => ⟨S8x3x32x1024, .i32⟩
  | .local _ .vmem, ⟨9, _⟩ => ⟨S8x3x32x1024, .i32⟩
  | .local _ .vmem, ⟨10, _⟩ => ⟨S8x3, .f32⟩
  | .local _ .vmem, ⟨11, _⟩ => ⟨S8x3, .f32⟩
  | .local _ .vmem, ⟨12, _⟩ => ⟨S8x3, .f32⟩
  | .local _ .vmem, ⟨13, _⟩ => ⟨S8x3, .f32⟩
  | .local _ .vmem, ⟨14, _⟩ => ⟨S8x3, .f32⟩
  | _, _ => ⟨S8x15x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_call1_v0 : Ref sig .tc := ⟨.hbm, 63, rfl⟩
abbrev main_call1_v1 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_10 : Ref sig .tc := ⟨.hbm, 69, rfl⟩
abbrev main_v41 : Ref sig .tc := ⟨.hbm, 70, rfl⟩
abbrev main_c_11 : Ref sig .tc := ⟨.hbm, 71, rfl⟩
abbrev main_v42 : Ref sig .tc := ⟨.hbm, 72, rfl⟩
abbrev main_v43 : Ref sig .tc := ⟨.hbm, 73, rfl⟩
abbrev main_c_12 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_13 : Ref sig .tc := ⟨.hbm, 78, rfl⟩
abbrev main_v47 : Ref sig .tc := ⟨.hbm, 79, rfl⟩
abbrev main_v48 : Ref sig .tc := ⟨.hbm, 80, rfl⟩
abbrev main_c_14 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_15 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_16 : Ref sig .tc := ⟨.hbm, 93, rfl⟩
abbrev main_v59 : Ref sig .tc := ⟨.hbm, 94, rfl⟩
abbrev main_c_17 : Ref sig .tc := ⟨.hbm, 95, rfl⟩
abbrev main_v60 : Ref sig .tc := ⟨.hbm, 96, rfl⟩
abbrev main_v61 : Ref sig .tc := ⟨.hbm, 97, rfl⟩
abbrev main_c_18 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_c_19 : Ref sig .tc := ⟨.hbm, 102, rfl⟩
abbrev main_v65 : Ref sig .tc := ⟨.hbm, 103, rfl⟩
abbrev main_v66 : Ref sig .tc := ⟨.hbm, 104, rfl⟩
abbrev main_c_20 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c_21 : Ref sig .tc := ⟨.hbm, 115, rfl⟩
abbrev main_v76 : Ref sig .tc := ⟨.hbm, 116, rfl⟩
abbrev main_c_22 : Ref sig .tc := ⟨.hbm, 117, rfl⟩
abbrev main_v77 : Ref sig .tc := ⟨.hbm, 118, rfl⟩
abbrev main_v78 : Ref sig .tc := ⟨.hbm, 119, rfl⟩
abbrev main_c_23 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_24 : Ref sig .tc := ⟨.hbm, 124, rfl⟩
abbrev main_v82 : Ref sig .tc := ⟨.hbm, 125, rfl⟩
abbrev main_v83 : Ref sig .tc := ⟨.hbm, 126, rfl⟩
abbrev main_c_25 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_26 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_c_27 : Ref sig .tc := ⟨.hbm, 142, rfl⟩
abbrev main_v97 : Ref sig .tc := ⟨.hbm, 143, rfl⟩
abbrev main_c_28 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_29 : Ref sig .tc := ⟨.hbm, 149, rfl⟩
abbrev main_v102 : Ref sig .tc := ⟨.hbm, 150, rfl⟩
abbrev main_cst_30 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_31 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_32 : Ref sig .tc := ⟨.hbm, 166, rfl⟩
abbrev main_v116 : Ref sig .tc := ⟨.hbm, 167, rfl⟩
abbrev main_cst_33 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_34 : Ref sig .tc := ⟨.hbm, 175, rfl⟩
abbrev main_v123 : Ref sig .tc := ⟨.hbm, 176, rfl⟩
abbrev main_v124 : Ref sig .tc := ⟨.hbm, 177, rfl⟩
abbrev main_cst_35 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_cst_36 : Ref sig .tc := ⟨.hbm, 183, rfl⟩
abbrev main_v129 : Ref sig .tc := ⟨.hbm, 184, rfl⟩
abbrev main_v130 : Ref sig .tc := ⟨.hbm, 185, rfl⟩
abbrev main_cst_37 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_38 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_39 : Ref sig .tc := ⟨.hbm, 199, rfl⟩
abbrev main_v142 : Ref sig .tc := ⟨.hbm, 200, rfl⟩
abbrev main_cst_40 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_call3_cst : Ref sig .tc := ⟨.hbm, 206, rfl⟩
abbrev main_call3_v0 : Ref sig .tc := ⟨.hbm, 207, rfl⟩
abbrev main_call3_cst_0 : Ref sig .tc := ⟨.hbm, 208, rfl⟩
abbrev main_call3_v1 : Ref sig .tc := ⟨.hbm, 209, rfl⟩
abbrev main_call3_v2 : Ref sig .tc := ⟨.hbm, 210, rfl⟩
abbrev main_call3_v3 : Ref sig .tc := ⟨.hbm, 211, rfl⟩
abbrev main_call3_v4 : Ref sig .tc := ⟨.hbm, 212, rfl⟩
abbrev main_call3_v5 : Ref sig .tc := ⟨.hbm, 213, rfl⟩
abbrev main_call3_v6 : Ref sig .tc := ⟨.hbm, 214, rfl⟩
abbrev main_call3_cst_1 : Ref sig .tc := ⟨.hbm, 215, rfl⟩
abbrev main_call3_v7 : Ref sig .tc := ⟨.hbm, 216, rfl⟩
abbrev main_call3_v8 : Ref sig .tc := ⟨.hbm, 217, rfl⟩
abbrev main_call3_v9 : Ref sig .tc := ⟨.hbm, 218, rfl⟩
abbrev main_call3_v10 : Ref sig .tc := ⟨.hbm, 219, rfl⟩
abbrev main_v147 : Ref sig .tc := ⟨.hbm, 220, rfl⟩
abbrev main_v148 : Ref sig .tc := ⟨.hbm, 221, rfl⟩
abbrev main_call4_c : Ref sig .tc := ⟨.hbm, 222, rfl⟩
abbrev main_call4_v0 : Ref sig .tc := ⟨.hbm, 223, rfl⟩
abbrev main_call4_v1 : Ref sig .tc := ⟨.hbm, 224, rfl⟩
abbrev main_call4_c_0 : Ref sig .tc := ⟨.hbm, 225, rfl⟩
abbrev main_call4_v2 : Ref sig .tc := ⟨.hbm, 226, rfl⟩
abbrev main_call4_v3 : Ref sig .tc := ⟨.hbm, 227, rfl⟩
abbrev main_call4_v4 : Ref sig .tc := ⟨.hbm, 228, rfl⟩
abbrev main_call4_v5 : Ref sig .tc := ⟨.hbm, 229, rfl⟩
abbrev main_call4_c_1 : Ref sig .tc := ⟨.hbm, 230, rfl⟩
abbrev main_call4_c_2 : Ref sig .tc := ⟨.hbm, 231, rfl⟩
abbrev main_call4_v6 : Ref sig .tc := ⟨.hbm, 232, rfl⟩
abbrev main_call4_v7 : Ref sig .tc := ⟨.hbm, 233, rfl⟩
abbrev main_call4_v8 : Ref sig .tc := ⟨.hbm, 234, rfl⟩
abbrev main_call4_v9 : Ref sig .tc := ⟨.hbm, 235, rfl⟩
abbrev main_call4_v10 : Ref sig .tc := ⟨.hbm, 236, rfl⟩
abbrev main_call4_v11 : Ref sig .tc := ⟨.hbm, 237, rfl⟩
abbrev main_call4_c_3 : Ref sig .tc := ⟨.hbm, 238, rfl⟩
abbrev main_call4_v12 : Ref sig .tc := ⟨.hbm, 239, rfl⟩
abbrev main_call4_v13 : Ref sig .tc := ⟨.hbm, 240, rfl⟩
abbrev main_call4_cst : Ref sig .tc := ⟨.hbm, 241, rfl⟩
abbrev main_call4_v14 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_41 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_cst_42 : Ref sig .tc := ⟨.hbm, 255, rfl⟩
abbrev main_v160 : Ref sig .tc := ⟨.hbm, 256, rfl⟩
abbrev main_v161 : Ref sig .tc := ⟨.hbm, 257, rfl⟩
abbrev main_v162_0 : Ref sig .tc := ⟨.hbm, 258, rfl⟩
abbrev main_v162_1 : Ref sig .tc := ⟨.hbm, 259, rfl⟩
abbrev main_v163 : Ref sig .tc := ⟨.hbm, 260, rfl⟩
abbrev main_v164 : Ref sig .tc := ⟨.hbm, 261, rfl⟩
abbrev main_cst_43 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_cst_44 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_cst_45 : Ref sig .tc := ⟨.hbm, 273, rfl⟩
abbrev main_v174 : Ref sig .tc := ⟨.hbm, 274, rfl⟩
abbrev main_cst_46 : Ref sig .tc := ⟨.hbm, 275, rfl⟩
abbrev main_v175 : Ref sig .tc := ⟨.hbm, 276, rfl⟩
abbrev main_cst_47 : Ref sig .tc := ⟨.hbm, 277, rfl⟩
abbrev main_v176 : Ref sig .tc := ⟨.hbm, 278, rfl⟩
abbrev main_v177 : Ref sig .tc := ⟨.hbm, 279, rfl⟩
abbrev main_v178_0 : Ref sig .tc := ⟨.hbm, 280, rfl⟩
abbrev main_v178_1 : Ref sig .tc := ⟨.hbm, 281, rfl⟩
abbrev main_v178_2 : Ref sig .tc := ⟨.hbm, 282, rfl⟩
abbrev main_v178_3 : Ref sig .tc := ⟨.hbm, 283, rfl⟩
abbrev main_v178_4 : Ref sig .tc := ⟨.hbm, 284, rfl⟩
abbrev main_cst_48 : Ref sig .tc := ⟨.hbm, 285, rfl⟩
abbrev main_v179 : Ref sig .tc := ⟨.hbm, 286, rfl⟩
abbrev main_v180 : Ref sig .tc := ⟨.hbm, 287, rfl⟩
abbrev main_v181 : Ref sig .tc := ⟨.hbm, 288, rfl⟩
abbrev main_v182 : Ref sig .tc := ⟨.hbm, 289, rfl⟩
abbrev main_cst_49 : Ref sig .tc := ⟨.hbm, 290, rfl⟩
abbrev main_v183 : Ref sig .tc := ⟨.hbm, 291, rfl⟩
abbrev main_v184 : Ref sig .tc := ⟨.hbm, 292, rfl⟩
abbrev main_cst_50 : Ref sig .tc := ⟨.hbm, 293, rfl⟩
abbrev main_v185 : Ref sig .tc := ⟨.hbm, 294, rfl⟩
abbrev main_v186 : Ref sig .tc := ⟨.hbm, 295, rfl⟩
abbrev main_cst_51 : Ref sig .tc := ⟨.hbm, 296, rfl⟩
abbrev main_v187 : Ref sig .tc := ⟨.hbm, 297, rfl⟩
abbrev main_v188 : Ref sig .tc := ⟨.hbm, 298, rfl⟩
abbrev main_v189 : Ref sig .tc := ⟨.hbm, 299, rfl⟩
abbrev main_cst_52 : Ref sig .tc := ⟨.hbm, 300, rfl⟩
abbrev main_v190 : Ref sig .tc := ⟨.hbm, 301, rfl⟩
abbrev main_v191 : Ref sig .tc := ⟨.hbm, 302, rfl⟩
abbrev main_v192 : Ref sig .tc := ⟨.hbm, 303, rfl⟩
abbrev main_cst_53 : Ref sig .tc := ⟨.hbm, 304, rfl⟩
abbrev main_v193 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_v198 : Ref sig .tc := ⟨.hbm, 310, rfl⟩
abbrev main_cst_54 : Ref sig .tc := ⟨.hbm, 311, rfl⟩
abbrev main_v199 : Ref sig .tc := ⟨.hbm, 312, rfl⟩
abbrev main_cst_55 : Ref sig .tc := ⟨.hbm, 313, rfl⟩
abbrev main_v200 : Ref sig .tc := ⟨.hbm, 314, rfl⟩
abbrev main_cst_56 : Ref sig .tc := ⟨.hbm, 315, rfl⟩
abbrev main_v201 : Ref sig .tc := ⟨.hbm, 316, rfl⟩
abbrev main_v202 : Ref sig .tc := ⟨.hbm, 317, rfl⟩
abbrev main_cst_57 : Ref sig .tc := ⟨.hbm, 318, rfl⟩
abbrev main_v203 : Ref sig .tc := ⟨.hbm, 319, rfl⟩
abbrev main_cst_58 : Ref sig .tc := ⟨.hbm, 320, rfl⟩
abbrev main_v204 : Ref sig .tc := ⟨.hbm, 321, rfl⟩
abbrev main_v205 : Ref sig .tc := ⟨.hbm, 322, rfl⟩
abbrev main_cst_59 : Ref sig .tc := ⟨.hbm, 323, rfl⟩
abbrev main_v206 : Ref sig .tc := ⟨.hbm, 324, rfl⟩
abbrev main_v207 : Ref sig .tc := ⟨.hbm, 325, rfl⟩
abbrev main_v208 : Ref sig .tc := ⟨.hbm, 326, rfl⟩
abbrev main_v209 : Ref sig .tc := ⟨.hbm, 327, rfl⟩
abbrev main_v210 : Ref sig .tc := ⟨.hbm, 328, rfl⟩
abbrev main_v211 : Ref sig .tc := ⟨.hbm, 329, rfl⟩
abbrev main_v212 : Ref sig .tc := ⟨.hbm, 330, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x3x32x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x3x32x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  slices_S8x64x5_S8x64x1_0_0_0 : S8x64x5.Slices ![0, 0, 0] S8x64x1
  shapeCasts_S8x64x1_S8x64 : S8x64x1.ShapeCasts S8x64
  slices_S8x64x5_S8x64x4_0_0_1 : S8x64x5.Slices ![0, 0, 1] S8x64x4
  bcast_S_S8x64x4 : S_.BroadcastsInDim S8x64x4 (![] : Fin 0 → Fin S8x64x4.rank)
  bcast_S_S8x64 : S_.BroadcastsInDim S8x64 (![] : Fin 0 → Fin S8x64.rank)
  slices_S8x64x5_S8x64x1_0_0_3 : S8x64x5.Slices ![0, 0, 3] S8x64x1
  slices_S8x64x5_S8x64x1_0_0_4 : S8x64x5.Slices ![0, 0, 4] S8x64x1
  slices_S8x64x4_S8x64x1_0_0_0 : S8x64x4.Slices ![0, 0, 0] S8x64x1
  slices_S8x64x4_S8x64x1_0_0_1 : S8x64x4.Slices ![0, 0, 1] S8x64x1
  bcast_S8_S8x1_0 : S8.BroadcastsInDim S8x1 (![0] : Fin 1 → Fin S8x1.rank)
  bcast_S8x1_S8x64_0_1 : S8x1.BroadcastsInDim S8x64 (![0, 1] : Fin 2 → Fin S8x64.rank)
  bcast_S_S8x6401 : S_.BroadcastsInDim S8x6401 (![] : Fin 0 → Fin S8x6401.rank)
  bcast_S8x64_S8x64x1_0_1 : S8x64.BroadcastsInDim S8x64x1 (![0, 1] : Fin 2 → Fin S8x64x1.rank)
  concatenates_S8x64x1_S8x64x1_S8x64x2_d2 : Shape.Concatenates [S8x64x1, S8x64x1] S8x64x2 2
  slices_S8x6401_S8x6400_0_0 : S8x6401.Slices ![0, 0] S8x6400
  shapeCasts_S8x6400_S8x80x80 : S8x6400.ShapeCasts S8x80x80
  bcast_S_S8x6401x4 : S_.BroadcastsInDim S8x6401x4 (![] : Fin 0 → Fin S8x6401x4.rank)
  slices_S8x6401x4_S8x6400x4_0_0_0 : S8x6401x4.Slices ![0, 0, 0] S8x6400x4
  shapeCasts_S8x6400x4_S8x80x80x4 : S8x6400x4.ShapeCasts S8x80x80x4
  bcast_S_S8x80x80 : S_.BroadcastsInDim S8x80x80 (![] : Fin 0 → Fin S8x80x80.rank)
  shapeCasts_S8x80x80_S8x6400 : S8x80x80.ShapeCasts S8x6400
  natLt_1_32 : 1 < 32
  reducesTo_S8x6400_S8_d1 : S8x6400.ReducesTo [1] S8
  h_S_ : 0 < S_.numel
  bcast_S_S8 : S_.BroadcastsInDim S8 (![] : Fin 0 → Fin S8.rank)
  reducesTo_S8_S_d0 : S8.ReducesTo [0] S_
  slices_S8x15x80x80_S8x1x80x80_0_4_0_0 : S8x15x80x80.Slices ![0, 4, 0, 0] S8x1x80x80
  shapeCasts_S8x1x80x80_S8x80x80 : S8x1x80x80.ShapeCasts S8x80x80
  slices_S8x15x80x80_S8x4x80x80_0_0_0_0 : S8x15x80x80.Slices ![0, 0, 0, 0] S8x4x80x80
  transposes_S8x4x80x80_S8x80x80x4_0_2_3_1 : S8x4x80x80.Transposes [0, 2, 3, 1] S8x80x80x4
  bcast_S_S8x80x80x4 : S_.BroadcastsInDim S8x80x80x4 (![] : Fin 0 → Fin S8x80x80x4.rank)
  bcast_S8x80x80_S8x80x80x1_0_1_2 : S8x80x80.BroadcastsInDim S8x80x80x1 (![0, 1, 2] : Fin 3 → Fin S8x80x80x1.rank)
  bcast_S8x80x80x1_S8x80x80x4_0_1_2_3 : S8x80x80x1.BroadcastsInDim S8x80x80x4 (![0, 1, 2, 3] : Fin 4 → Fin S8x80x80x4.rank)
  shapeCasts_S8x80x80x4_S8x25600 : S8x80x80x4.ShapeCasts S8x25600
  reducesTo_S8x25600_S8_d1 : S8x25600.ReducesTo [1] S8
  slices_S8x15x80x80_S8x10x80x80_0_5_0_0 : S8x15x80x80.Slices ![0, 5, 0, 0] S8x10x80x80
  reducesTo_S8x10x80x80_S8x80x80_d1 : S8x10x80x80.ReducesTo [1] S8x80x80
  bcast_S8x80x80_S8x1x80x80_0_2_3 : S8x80x80.BroadcastsInDim S8x1x80x80 (![0, 2, 3] : Fin 3 → Fin S8x1x80x80.rank)
  bcast_S8x1x80x80_S8x10x80x80_0_1_2_3 : S8x1x80x80.BroadcastsInDim S8x10x80x80 (![0, 1, 2, 3] : Fin 4 → Fin S8x10x80x80.rank)
  bcast_S_S8x1x80x80 : S_.BroadcastsInDim S8x1x80x80 (![] : Fin 0 → Fin S8x1x80x80.rank)
  shapeCasts_S8x1x80x80_S8x1x80x80x1 : S8x1x80x80.ShapeCasts S8x1x80x80x1
  bcast_S_S8x1x80x80x1 : S_.BroadcastsInDim S8x1x80x80x1 (![] : Fin 0 → Fin S8x1x80x80x1.rank)
  bcast_S1_S1x1x1x1x1_4 : S1.BroadcastsInDim S1x1x1x1x1 (![4] : Fin 1 → Fin S1x1x1x1x1.rank)
  bcast_S1x1x1x1x1_S8x1x80x80x1_0_1_2_3_4 : S1x1x1x1x1.BroadcastsInDim S8x1x80x80x1 (![0, 1, 2, 3, 4] : Fin 5 → Fin S8x1x80x80x1.rank)
  reducesTo_S8x1x80x80x1_S8x1x80x80_d4 : S8x1x80x80x1.ReducesTo [4] S8x1x80x80
  inb_S8x1_S8x1_0_0 : ∀ a, (![0, 0] : Fin 2 → Nat) a + S8x1.size a ≤ S8x1.size a
  h_S8x1 : 0 < S8x1.numel
  inb_S8x1x128x1024_S8x1x128x1024_0_0_0_0 : ∀ a, (![0, 0, 0, 0] : Fin 4 → Nat) a + S8x1x128x1024.size a ≤ S8x1x128x1024.size a
  h_S8x1x128x1024 : 0 < S8x1x128x1024.numel
  shapeCasts_S8x1x128x1024_S8x128x1024 : S8x1x128x1024.ShapeCasts S8x128x1024
  inb_S8x128x1024_S8x128x1024_0_0_0 : ∀ a, (![0, 0, 0] : Fin 3 → Nat) a + S8x128x1024.size a ≤ S8x128x1024.size a
  h_S8x128x1024 : 0 < S8x128x1024.numel
  reduces_S8x128x1024_S8x128 : S8x128x1024.Reduces [2] S8x128
  reduces_S8x128_S8 : S8x128.Reduces [1] S8
  shapeCasts_S8_S8x1 : S8.ShapeCasts S8x1
  shapeCasts_S8x1_S8x1 : S8x1.ShapeCasts S8x1
  shapeCasts_S8x1_S8 : S8x1.ShapeCasts S8
  inb_S8x3_S8x3_0_0 : ∀ a, (![0, 0] : Fin 2 → Nat) a + S8x3.size a ≤ S8x3.size a
  h_S8x3 : 0 < S8x3.numel
  inb_S8x3x32x1024_S8x3x32x1024_0_0_0_0 : ∀ a, (![0, 0, 0, 0] : Fin 4 → Nat) a + S8x3x32x1024.size a ≤ S8x3x32x1024.size a
  h_S8x3x32x1024 : 0 < S8x3x32x1024.numel
  shapeCasts_S8x3_S8x3 : S8x3.ShapeCasts S8x3
  reduces_S8x3x32x1024_S8x3x32 : S8x3x32x1024.Reduces [3] S8x3x32
  reduces_S8x3x32_S8x3 : S8x3x32.Reduces [2] S8x3
  bcast_S_S8x3 : S_.BroadcastsInDim S8x3 (![] : Fin 0 → Fin S8x3.rank)
  reducesTo_S8x3_S_d0_1 : S8x3.ReducesTo [0, 1] S_
  bcast_S_S1 : S_.BroadcastsInDim S1 (![] : Fin 0 → Fin S1.rank)
  concatenates_S1_S1_S1_S1_S4_d0 : Shape.Concatenates [S1, S1, S1, S1] S4 0
  scatter_S8x6401_S8x64x2_S8x64_n_01_01_2_wf : ScatterDims.WF S8x6401 S8x64x2 S8x64 [] [0, 1] [0, 1] 2
  scatter_S8x6401x4_S8x64x2_S8x64x4_2_01_01_2_wf : ScatterDims.WF S8x6401x4 S8x64x2 S8x64x4 [2] [0, 1] [0, 1] 2
  gather_S8x10x80x80_S8x1x80x80x1_S8x1x80x80_n_1_023_023_1_4_1111_wf : GatherDims.WF S8x10x80x80 S8x1x80x80x1 S8x1x80x80 [] [1] [0, 2, 3] [1] [0, 2, 3] 4 ![1, 1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x128x1024.size a ≤ S8x1x1024x1024.size a
  hwx0_0 : ∀ i : grid0.Coords, EltTy.bits .f32 = 32 ∨ (Rect.block (s := S8x1x1024x1024) S8x1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x1024.size a ≤ S8x1024x1024.size a
  hwx0_1 : ∀ i : grid0.Coords, EltTy.bits .i32 = 32 ∨ (Rect.block (s := S8x1024x1024) S8x128x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S8x1.size a
  hwx0_2 : ∀ i : grid0.Coords, EltTy.bits .f32 = 32 ∨ (Rect.block (s := S8x1) S8x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S8x1.size a
  hwx0_3 : ∀ i : grid0.Coords, EltTy.bits .f32 = 32 ∨ (Rect.block (s := S8x1) S8x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x3x32x1024.size a ≤ S8x3x1024x1024.size a
  hwx1_0 : ∀ i : grid1.Coords, EltTy.bits .f32 = 32 ∨ (Rect.block (s := S8x3x1024x1024) S8x3x32x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x3x32x1024.size a ≤ S8x3x1024x1024.size a
  hwx1_1 : ∀ i : grid1.Coords, EltTy.bits .i32 = 32 ∨ (Rect.block (s := S8x3x1024x1024) S8x3x32x1024.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x3.size a ≤ S8x3.size a
  hwx1_2 : ∀ i : grid1.Coords, EltTy.bits .f32 = 32 ∨ (Rect.block (s := S8x3) S8x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x3.size a ≤ S8x3.size a
  hwx1_3 : ∀ i : grid1.Coords, EltTy.bits .f32 = 32 ∨ (Rect.block (s := S8x3) S8x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x3.size a ≤ S8x3.size a
  hwx1_4 : ∀ i : grid1.Coords, EltTy.bits .f32 = 32 ∨ (Rect.block (s := S8x3) S8x3.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x3.size a ≤ S8x3.size a
  hwx1_5 : ∀ i : grid1.Coords, EltTy.bits .f32 = 32 ∨ (Rect.block (s := S8x3) S8x3.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x3.size a ≤ S8x3.size a
  hwx1_6 : ∀ i : grid1.Coords, EltTy.bits .f32 = 32 ∨ (Rect.block (s := S8x3) S8x3.size (cc1_transform_6 i) (hinb1_6 i)).WholeWords (EltTy.packing .f32)

variable [Facts₀]

def scatter_S8x6401_S8x64x2_S8x64_n_01_01_2 : ScatterDims S8x6401 S8x64x2 S8x64 where
  updateWindowDims := []
  insertedWindowDims := [0, 1]
  scatterDimsToOperandDims := [0, 1]
  indexVectorDim := 2
  wf := scatter_S8x6401_S8x64x2_S8x64_n_01_01_2_wf
def scatter_S8x6401x4_S8x64x2_S8x64x4_2_01_01_2 : ScatterDims S8x6401x4 S8x64x2 S8x64x4 where
  updateWindowDims := [2]
  insertedWindowDims := [0, 1]
  scatterDimsToOperandDims := [0, 1]
  indexVectorDim := 2
  wf := scatter_S8x6401x4_S8x64x2_S8x64x4_2_01_01_2_wf
def gather_S8x10x80x80_S8x1x80x80x1_S8x1x80x80_n_1_023_023_1_4_1111 : GatherDims S8x10x80x80 S8x1x80x80x1 S8x1x80x80 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x10x80x80_S8x1x80x80x1_S8x1x80x80_n_1_023_023_1_4_1111_wf

abbrev win0_0 : Pipeline.Window sig grid0 :=
  Pipeline.Window.ofSpec (Memref.whole main_arg2) S8x1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v162_0) S8x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v162_1) S8x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg4) S8x3x32x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S8x3x32x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v178_0) S8x3.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v178_1) S8x3.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v178_2) S8x3.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v178_3) S8x3.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v178_4) S8x3.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8x15x80x80 : Shape := ⟨4, ![8, 15, 80, 80]⟩
abbrev S8x64x5 : Shape := ⟨3, ![8, 64, 5]⟩
abbrev S8x1x1024x1024 : Shape := ⟨4, ![8, 1, 1024, 1024]⟩
abbrev S8x1024x1024 : Shape := ⟨3, ![8, 1024, 1024]⟩
abbrev S8x3x1024x1024 : Shape := ⟨4, ![8, 3, 1024, 1024]⟩
abbrev S8 : Shape := ⟨1, ![8]⟩
abbrev S8x3 : Shape := ⟨2, ![8, 3]⟩
abbrev S8x64x1 : Shape := ⟨3, ![8, 64, 1]⟩
abbrev S8x64 : Shape := ⟨2, ![8, 64]⟩
abbrev S8x64x4 : Shape := ⟨3, ![8, 64, 4]⟩
abbrev S_ : Shape := ⟨0, ![]⟩
abbrev S8x1 : Shape := ⟨2, ![8, 1]⟩
abbrev S8x6401 : Shape := ⟨2, ![8, 6401]⟩
abbrev S8x64x2 : Shape := ⟨3, ![8, 64, 2]⟩
abbrev S8x6400 : Shape := ⟨2, ![8, 6400]⟩
abbrev S8x80x80 : Shape := ⟨3, ![8, 80, 80]⟩
abbrev S8x6401x4 : Shape := ⟨3, ![8, 6401, 4]⟩
abbrev S8x6400x4 : Shape := ⟨3, ![8, 6400, 4]⟩
abbrev S8x80x80x4 : Shape := ⟨4, ![8, 80, 80, 4]⟩
abbrev S8x1x80x80 : Shape := ⟨4, ![8, 1, 80, 80]⟩
abbrev S8x4x80x80 : Shape := ⟨4, ![8, 4, 80, 80]⟩
abbrev S8x80x80x1 : Shape := ⟨4, ![8, 80, 80, 1]⟩
abbrev S8x25600 : Shape := ⟨2, ![8, 25600]⟩
abbrev S8x10x80x80 : Shape := ⟨4, ![8, 10, 80, 80]⟩
abbrev S8x1x80x80x1 : Shape := ⟨5, ![8, 1, 80, 80, 1]⟩
abbrev S1 : Shape := ⟨1, ![1]⟩
abbrev S1x1x1x1x1 : Shape := ⟨5, ![1, 1, 1, 1, 1]⟩
abbrev S8x1048576 : Shape := ⟨2, ![8, 1048576]⟩
abbrev S8x3x1048576 : Shape := ⟨3, ![8, 3, 1048576]⟩
abbrev S4 : Shape := ⟨1, ![4]⟩

abbrev nBuf : Space → Nat
  | .hbm => 419
  | .vmem => 0
  | .smem => 0
  | _ => 0

abbrev hbmTy0_0 (i : Nat) : BufTy := match i % 128 with
  | 0 => ⟨S8x15x80x80, .f32⟩
  | 1 => ⟨S8x64x5, .f32⟩
  | 2 => ⟨S8x1x1024x1024, .f32⟩
  | 3 => ⟨S8x1024x1024, .i32⟩
  | 4 => ⟨S8x3x1024x1024, .f32⟩
  | 5 => ⟨S8x3x1024x1024, .i32⟩
  | 6 => ⟨S8, .i32⟩
  | 7 => ⟨S8, .i32⟩
  | 8 => ⟨S8x3, .i32⟩
  | 9 => ⟨S8x64x1, .f32⟩
  | 10 => ⟨S8x64, .f32⟩
  | 11 => ⟨S8x64, .i32⟩
  | 12 => ⟨S8x64x4, .f32⟩
  | 13 => ⟨S_, .f32⟩
  | 14 => ⟨S_, .f32⟩
  | 15 => ⟨S_, .f32⟩
  | 16 => ⟨S8x64x4, .f32⟩
  | 17 => ⟨S8x64x4, .f32⟩
  | 18 => ⟨S_, .f32⟩
  | 19 => ⟨S8x64x4, .f32⟩
  | 20 => ⟨S8x64x4, .f32⟩
  | 21 => ⟨S_, .i32⟩
  | 22 => ⟨S8x64, .i32⟩
  | 23 => ⟨S8x64, .i1⟩
  | 24 => ⟨S_, .i32⟩
  | 25 => ⟨S8x64, .i32⟩
  | 26 => ⟨S8x64, .i1⟩
  | 27 => ⟨S8x64, .i1⟩
  | 28 => ⟨S8x64x1, .f32⟩
  | 29 => ⟨S8x64, .f32⟩
  | 30 => ⟨S_, .f32⟩
  | 31 => ⟨S8x64, .f32⟩
  | 32 => ⟨S8x64, .i1⟩
  | 33 => ⟨S8x64, .i1⟩
  | 34 => ⟨S8x64x1, .f32⟩
  | 35 => ⟨S8x64, .f32⟩
  | 36 => ⟨S_, .f32⟩
  | 37 => ⟨S8x64, .f32⟩
  | 38 => ⟨S8x64, .i1⟩
  | 39 => ⟨S8x64, .i1⟩
  | 40 => ⟨S8x64x1, .f32⟩
  | 41 => ⟨S8x64, .f32⟩
  | 42 => ⟨S_, .f32⟩
  | 43 => ⟨S8x64, .f32⟩
  | 44 => ⟨S8x64, .f32⟩
  | 45 => ⟨S8x64, .i32⟩
  | 46 => ⟨S_, .i32⟩
  | 47 => ⟨S8x64, .i32⟩
  | 48 => ⟨S8x64, .i32⟩
  | 49 => ⟨S8x64x1, .f32⟩
  | 50 => ⟨S8x64, .f32⟩
  | 51 => ⟨S_, .f32⟩
  | 52 => ⟨S8x64, .f32⟩
  | 53 => ⟨S8x64, .f32⟩
  | 54 => ⟨S8x64, .i32⟩
  | 55 => ⟨S_, .i32⟩
  | 56 => ⟨S8x64, .i32⟩
  | 57 => ⟨S8x64, .i32⟩
  | 58 => ⟨S_, .i32⟩
  | 59 => ⟨S8x64, .i32⟩
  | 60 => ⟨S8x64, .i32⟩
  | 61 => ⟨S8x64, .i32⟩
  | 62 => ⟨S_, .i32⟩
  | 63 => ⟨S_, .i32⟩
  | 64 => ⟨S8x64, .i32⟩
  | 65 => ⟨S8x64, .i32⟩
  | 66 => ⟨S8, .i32⟩
  | 67 => ⟨S8x1, .i32⟩
  | 68 => ⟨S8x64, .i32⟩
  | 69 => ⟨S_, .f32⟩
  | 70 => ⟨S8x6401, .f32⟩
  | 71 => ⟨S_, .i32⟩
  | 72 => ⟨S8x64, .i32⟩
  | 73 => ⟨S8x64, .i1⟩
  | 74 => ⟨S_, .i32⟩
  | 75 => ⟨S8x64, .i32⟩
  | 76 => ⟨S8x64, .i32⟩
  | 77 => ⟨S8x64, .i32⟩
  | 78 => ⟨S_, .i32⟩
  | 79 => ⟨S8x64, .i32⟩
  | 80 => ⟨S8x64, .i1⟩
  | 81 => ⟨S_, .i32⟩
  | 82 => ⟨S8x64, .i32⟩
  | 83 => ⟨S8x64, .i32⟩
  | 84 => ⟨S8x64, .i32⟩
  | 85 => ⟨S8x64x1, .i32⟩
  | 86 => ⟨S8x64x1, .i32⟩
  | 87 => ⟨S8x64x2, .i32⟩
  | 88 => ⟨S_, .f32⟩
  | 89 => ⟨S8x64, .f32⟩
  | 90 => ⟨S8x6401, .f32⟩
  | 91 => ⟨S8x6400, .f32⟩
  | 92 => ⟨S8x80x80, .f32⟩
  | 93 => ⟨S_, .f32⟩
  | 94 => ⟨S8x6401x4, .f32⟩
  | 95 => ⟨S_, .i32⟩
  | 96 => ⟨S8x64, .i32⟩
  | 97 => ⟨S8x64, .i1⟩
  | 98 => ⟨S_, .i32⟩
  | 99 => ⟨S8x64, .i32⟩
  | 100 => ⟨S8x64, .i32⟩
  | 101 => ⟨S8x64, .i32⟩
  | 102 => ⟨S_, .i32⟩
  | 103 => ⟨S8x64, .i32⟩
  | 104 => ⟨S8x64, .i1⟩
  | 105 => ⟨S_, .i32⟩
  | 106 => ⟨S8x64, .i32⟩
  | 107 => ⟨S8x64, .i32⟩
  | 108 => ⟨S8x64, .i32⟩
  | 109 => ⟨S8x64x1, .i32⟩
  | 110 => ⟨S8x64x1, .i32⟩
  | 111 => ⟨S8x64x2, .i32⟩
  | 112 => ⟨S8x6401x4, .f32⟩
  | 113 => ⟨S8x6400x4, .f32⟩
  | 114 => ⟨S8x80x80x4, .f32⟩
  | 115 => ⟨S_, .i32⟩
  | 116 => ⟨S8x6401, .i32⟩
  | 117 => ⟨S_, .i32⟩
  | 118 => ⟨S8x64, .i32⟩
  | 119 => ⟨S8x64, .i1⟩
  | 120 => ⟨S_, .i32⟩
  | 121 => ⟨S8x64, .i32⟩
  | 122 => ⟨S8x64, .i32⟩
  | 123 => ⟨S8x64, .i32⟩
  | 124 => ⟨S_, .i32⟩
  | 125 => ⟨S8x64, .i32⟩
  | 126 => ⟨S8x64, .i1⟩
  | 127 => ⟨S_, .i32⟩
  | _ => ⟨S8x15x80x80, .f32⟩

abbrev hbmTy0_1 (i : Nat) : BufTy := match i % 128 with
  | 0 => ⟨S8x64, .i32⟩
  | 1 => ⟨S8x64, .i32⟩
  | 2 => ⟨S8x64, .i32⟩
  | 3 => ⟨S8x64x1, .i32⟩
  | 4 => ⟨S8x64x1, .i32⟩
  | 5 => ⟨S8x64x2, .i32⟩
  | 6 => ⟨S8x6401, .i32⟩
  | 7 => ⟨S8x6400, .i32⟩
  | 8 => ⟨S8x80x80, .i32⟩
  | 9 => ⟨S_, .f32⟩
  | 10 => ⟨S8x80x80, .f32⟩
  | 11 => ⟨S8x80x80, .i1⟩
  | 12 => ⟨S8x6400, .i1⟩
  | 13 => ⟨S8x6400, .i32⟩
  | 14 => ⟨S_, .i32⟩
  | 15 => ⟨S8, .i32⟩
  | 16 => ⟨S_, .i32⟩
  | 17 => ⟨S8, .i32⟩
  | 18 => ⟨S8, .i32⟩
  | 19 => ⟨S8, .f32⟩
  | 20 => ⟨S8, .f32⟩
  | 21 => ⟨S_, .f32⟩
  | 22 => ⟨S_, .f32⟩
  | 23 => ⟨S_, .f32⟩
  | 24 => ⟨S_, .f32⟩
  | 25 => ⟨S8x1x80x80, .f32⟩
  | 26 => ⟨S8x80x80, .f32⟩
  | 27 => ⟨S_, .f32⟩
  | 28 => ⟨S8x80x80, .f32⟩
  | 29 => ⟨S8x80x80, .f32⟩
  | 30 => ⟨S8x80x80, .f32⟩
  | 31 => ⟨S8x80x80, .f32⟩
  | 32 => ⟨S8x80x80, .f32⟩
  | 33 => ⟨S8x80x80, .f32⟩
  | 34 => ⟨S8x80x80, .f32⟩
  | 35 => ⟨S8x80x80, .f32⟩
  | 36 => ⟨S8x80x80, .f32⟩
  | 37 => ⟨S8x6400, .f32⟩
  | 38 => ⟨S_, .f32⟩
  | 39 => ⟨S8, .f32⟩
  | 40 => ⟨S_, .f32⟩
  | 41 => ⟨S8, .f32⟩
  | 42 => ⟨S8, .f32⟩
  | 43 => ⟨S8x4x80x80, .f32⟩
  | 44 => ⟨S8x80x80x4, .f32⟩
  | 45 => ⟨S8x80x80x4, .f32⟩
  | 46 => ⟨S8x80x80x4, .f32⟩
  | 47 => ⟨S_, .f32⟩
  | 48 => ⟨S8x80x80x4, .f32⟩
  | 49 => ⟨S8x80x80x4, .f32⟩
  | 50 => ⟨S_, .f32⟩
  | 51 => ⟨S8x80x80x4, .f32⟩
  | 52 => ⟨S8x80x80x4, .f32⟩
  | 53 => ⟨S8x80x80x4, .f32⟩
  | 54 => ⟨S8x80x80x4, .f32⟩
  | 55 => ⟨S_, .f32⟩
  | 56 => ⟨S8x80x80x4, .f32⟩
  | 57 => ⟨S8x80x80x4, .i1⟩
  | 58 => ⟨S_, .f32⟩
  | 59 => ⟨S8x80x80x4, .f32⟩
  | 60 => ⟨S8x80x80x4, .f32⟩
  | 61 => ⟨S8x80x80x4, .f32⟩
  | 62 => ⟨S_, .f32⟩
  | 63 => ⟨S8x80x80x4, .f32⟩
  | 64 => ⟨S8x80x80x4, .f32⟩
  | 65 => ⟨S8x80x80x4, .f32⟩
  | 66 => ⟨S8x80x80x1, .i1⟩
  | 67 => ⟨S8x80x80x1, .f32⟩
  | 68 => ⟨S8x80x80x4, .f32⟩
  | 69 => ⟨S8x80x80x4, .f32⟩
  | 70 => ⟨S8x25600, .f32⟩
  | 71 => ⟨S_, .f32⟩
  | 72 => ⟨S8, .f32⟩
  | 73 => ⟨S_, .f32⟩
  | 74 => ⟨S8, .f32⟩
  | 75 => ⟨S8, .f32⟩
  | 76 => ⟨S8, .f32⟩
  | 77 => ⟨S8x10x80x80, .f32⟩
  | 78 => ⟨S_, .f32⟩
  | 79 => ⟨S8x80x80, .f32⟩
  | 80 => ⟨S_, .f32⟩
  | 81 => ⟨S8x80x80, .f32⟩
  | 82 => ⟨S8x80x80, .f32⟩
  | 83 => ⟨S8x1x80x80, .f32⟩
  | 84 => ⟨S8x10x80x80, .f32⟩
  | 85 => ⟨S8x10x80x80, .f32⟩
  | 86 => ⟨S8x10x80x80, .f32⟩
  | 87 => ⟨S_, .f32⟩
  | 88 => ⟨S8x80x80, .f32⟩
  | 89 => ⟨S8x1x80x80, .f32⟩
  | 90 => ⟨S8x1x80x80, .f32⟩
  | 91 => ⟨S8x10x80x80, .f32⟩
  | 92 => ⟨S8x10x80x80, .f32⟩
  | 93 => ⟨S8x1x80x80, .i32⟩
  | 94 => ⟨S_, .i32⟩
  | 95 => ⟨S8x1x80x80, .i32⟩
  | 96 => ⟨S8x1x80x80, .i1⟩
  | 97 => ⟨S_, .i32⟩
  | 98 => ⟨S8x1x80x80, .i32⟩
  | 99 => ⟨S8x1x80x80, .i32⟩
  | 100 => ⟨S8x1x80x80, .i32⟩
  | 101 => ⟨S8x1x80x80x1, .i32⟩
  | 102 => ⟨S1, .i32⟩
  | 103 => ⟨S_, .i32⟩
  | 104 => ⟨S8x1x80x80x1, .i32⟩
  | 105 => ⟨S8x1x80x80x1, .i1⟩
  | 106 => ⟨S1x1x1x1x1, .i32⟩
  | 107 => ⟨S8x1x80x80x1, .i32⟩
  | 108 => ⟨S8x1x80x80x1, .i1⟩
  | 109 => ⟨S8x1x80x80x1, .i1⟩
  | 110 => ⟨S_, .i1⟩
  | 111 => ⟨S8x1x80x80, .i1⟩
  | 112 => ⟨S8x1x80x80, .f32⟩
  | 113 => ⟨S_, .f32⟩
  | 114 => ⟨S8x1x80x80, .f32⟩
  | 115 => ⟨S8x1x80x80, .f32⟩
  | 116 => ⟨S8x80x80, .f32⟩
  | 117 => ⟨S8x80x80, .f32⟩
  | 118 => ⟨S8x80x80, .f32⟩
  | 119 => ⟨S8x80x80, .f32⟩
  | 120 => ⟨S8x6400, .f32⟩
  | 121 => ⟨S_, .f32⟩
  | 122 => ⟨S8, .f32⟩
  | 123 => ⟨S8, .f32⟩
  | 124 => ⟨S8, .f32⟩
  | 125 => ⟨S8, .f32⟩
  | 126 => ⟨S8, .f32⟩
  | 127 => ⟨S_, .f32⟩
  | _ => ⟨S8x15x80x80, .f32⟩

abbrev hbmTy0_2 (i : Nat) : BufTy := match i % 128 with
  | 0 => ⟨S_, .f32⟩
  | 1 => ⟨S_, .f32⟩
  | 2 => ⟨S_, .i32⟩
  | 3 => ⟨S8x1024x1024, .i32⟩
  | 4 => ⟨S8x1024x1024, .i1⟩
  | 5 => ⟨S_, .i32⟩
  | 6 => ⟨S_, .i32⟩
  | 7 => ⟨S8x1024x1024, .i32⟩
  | 8 => ⟨S8x1024x1024, .i32⟩
  | 9 => ⟨S8x1024x1024, .f32⟩
  | 10 => ⟨S8x1024x1024, .f32⟩
  | 11 => ⟨S_, .f32⟩
  | 12 => ⟨S8x1024x1024, .f32⟩
  | 13 => ⟨S8x1024x1024, .f32⟩
  | 14 => ⟨S8x1024x1024, .f32⟩
  | 15 => ⟨S8x1024x1024, .f32⟩
  | 16 => ⟨S8x1024x1024, .f32⟩
  | 17 => ⟨S8x1024x1024, .f32⟩
  | 18 => ⟨S8x1024x1024, .f32⟩
  | 19 => ⟨S8x1024x1024, .f32⟩
  | 20 => ⟨S8x1024x1024, .f32⟩
  | 21 => ⟨S8x1024x1024, .f32⟩
  | 22 => ⟨S8x1024x1024, .f32⟩
  | 23 => ⟨S8x1048576, .i1⟩
  | 24 => ⟨S8x1048576, .i32⟩
  | 25 => ⟨S_, .i32⟩
  | 26 => ⟨S8, .i32⟩
  | 27 => ⟨S_, .i32⟩
  | 28 => ⟨S8, .i32⟩
  | 29 => ⟨S8, .i32⟩
  | 30 => ⟨S8, .f32⟩
  | 31 => ⟨S8x1048576, .f32⟩
  | 32 => ⟨S_, .f32⟩
  | 33 => ⟨S8, .f32⟩
  | 34 => ⟨S8, .f32⟩
  | 35 => ⟨S8, .f32⟩
  | 36 => ⟨S8x1048576, .i1⟩
  | 37 => ⟨S_, .i1⟩
  | 38 => ⟨S8, .i1⟩
  | 39 => ⟨S8, .f32⟩
  | 40 => ⟨S8, .f32⟩
  | 41 => ⟨S8, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .i32⟩
  | 50 => ⟨S8x3x1024x1024, .i32⟩
  | 51 => ⟨S8x3x1024x1024, .i1⟩
  | 52 => ⟨S_, .i32⟩
  | 53 => ⟨S_, .i32⟩
  | 54 => ⟨S8x3x1024x1024, .i32⟩
  | 55 => ⟨S8x3x1024x1024, .i32⟩
  | 56 => ⟨S8x3x1024x1024, .f32⟩
  | 57 => ⟨S_, .f32⟩
  | 58 => ⟨S8x3x1024x1024, .f32⟩
  | 59 => ⟨S8x3x1024x1024, .f32⟩
  | 60 => ⟨S8x3x1024x1024, .f32⟩
  | 61 => ⟨S8x3x1024x1024, .f32⟩
  | 62 => ⟨S8x3x1024x1024, .f32⟩
  | 63 => ⟨S8x3x1024x1024, .f32⟩
  | 64 => ⟨S8x3x1024x1024, .f32⟩
  | 65 => ⟨S8x3x1024x1024, .f32⟩
  | 66 => ⟨S8x3x1024x1024, .f32⟩
  | 67 => ⟨S8x3x1024x1024, .f32⟩
  | 68 => ⟨S8x3x1024x1024, .f32⟩
  | 69 => ⟨S_, .f32⟩
  | 70 => ⟨S8x3x1024x1024, .f32⟩
  | 71 => ⟨S8x3x1024x1024, .f32⟩
  | 72 => ⟨S_, .f32⟩
  | 73 => ⟨S8x3x1024x1024, .f32⟩
  | 74 => ⟨S8x3x1024x1024, .f32⟩
  | 75 => ⟨S8x3x1024x1024, .f32⟩
  | 76 => ⟨S_, .f32⟩
  | 77 => ⟨S8x3x1024x1024, .f32⟩
  | 78 => ⟨S8x3x1024x1024, .f32⟩
  | 79 => ⟨S_, .f32⟩
  | 80 => ⟨S8x3x1024x1024, .f32⟩
  | 81 => ⟨S8x3x1024x1024, .f32⟩
  | 82 => ⟨S8x3x1024x1024, .f32⟩
  | 83 => ⟨S8x3x1024x1024, .f32⟩
  | 84 => ⟨S8x3x1048576, .i1⟩
  | 85 => ⟨S8x3x1048576, .i32⟩
  | 86 => ⟨S_, .i32⟩
  | 87 => ⟨S8x3, .i32⟩
  | 88 => ⟨S_, .i32⟩
  | 89 => ⟨S8x3, .i32⟩
  | 90 => ⟨S8x3, .i32⟩
  | 91 => ⟨S8x3, .f32⟩
  | 92 => ⟨S_, .f32⟩
  | 93 => ⟨S8x3x1024x1024, .f32⟩
  | 94 => ⟨S8x3x1024x1024, .f32⟩
  | 95 => ⟨S_, .f32⟩
  | 96 => ⟨S8x3x1024x1024, .f32⟩
  | 97 => ⟨S8x3x1024x1024, .f32⟩
  | 98 => ⟨S8x3x1024x1024, .f32⟩
  | 99 => ⟨S8x3x1024x1024, .f32⟩
  | 100 => ⟨S8x3x1024x1024, .f32⟩
  | 101 => ⟨S8x3x1048576, .f32⟩
  | 102 => ⟨S_, .f32⟩
  | 103 => ⟨S8x3, .f32⟩
  | 104 => ⟨S8x3, .f32⟩
  | 105 => ⟨S8x3x1024x1024, .f32⟩
  | 106 => ⟨S8x3x1024x1024, .f32⟩
  | 107 => ⟨S8x3x1024x1024, .f32⟩
  | 108 => ⟨S8x3x1048576, .f32⟩
  | 109 => ⟨S_, .f32⟩
  | 110 => ⟨S8x3, .f32⟩
  | 111 => ⟨S8x3x1024x1024, .f32⟩
  | 112 => ⟨S8x3x1024x1024, .f32⟩
  | 113 => ⟨S8x3x1048576, .f32⟩
  | 114 => ⟨S_, .f32⟩
  | 115 => ⟨S8x3, .f32⟩
  | 116 => ⟨S8x3x1024x1024, .f32⟩
  | 117 => ⟨S8x3x1024x1024, .f32⟩
  | 118 => ⟨S8x3x1048576, .f32⟩
  | 119 => ⟨S_, .f32⟩
  | 120 => ⟨S8x3, .f32⟩
  | 121 => ⟨S8x3, .f32⟩
  | 122 => ⟨S_, .f32⟩
  | 123 => ⟨S8x3, .f32⟩
  | 124 => ⟨S8x3, .f32⟩
  | 125 => ⟨S_, .f32⟩
  | 126 => ⟨S8x3, .f32⟩
  | 127 => ⟨S8x3, .f32⟩
  | _ => ⟨S8x15x80x80, .f32⟩

abbrev hbmTy0_3 (i : Nat) : BufTy := match i % 128 with
  | 0 => ⟨S_, .f32⟩
  | 1 => ⟨S8x3, .f32⟩
  | 2 => ⟨S8x3, .f32⟩
  | 3 => ⟨S8x3, .f32⟩
  | 4 => ⟨S_, .f32⟩
  | 5 => ⟨S8x3, .f32⟩
  | 6 => ⟨S8x3, .f32⟩
  | 7 => ⟨S8x3, .f32⟩
  | 8 => ⟨S8x3x1048576, .i1⟩
  | 9 => ⟨S_, .i1⟩
  | 10 => ⟨S8x3, .i1⟩
  | 11 => ⟨S8x3, .f32⟩
  | 12 => ⟨S8x3, .f32⟩
  | 13 => ⟨S8x3, .f32⟩
  | 14 => ⟨S8x3, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S1, .f32⟩
  | 31 => ⟨S1, .f32⟩
  | 32 => ⟨S1, .f32⟩
  | 33 => ⟨S1, .f32⟩
  | 34 => ⟨S4, .f32⟩
  | _ => ⟨S8x15x80x80, .f32⟩

abbrev hbmTy (i : Nat) : BufTy := match i / 128 with
  | 0 => hbmTy0_0 i
  | 1 => hbmTy0_1 i
  | 2 => hbmTy0_2 i
  | 3 => hbmTy0_3 i
  | _ => ⟨S8x15x80x80, .f32⟩

abbrev bufTy : (tb : Table) → Fin (tcTables nBuf tb) → BufTy
  | .hbm, ⟨i, _⟩ => hbmTy i
  | _, _ => ⟨S8x15x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_call1_v0 : Ref sig .tc := ⟨.hbm, 63, rfl⟩
abbrev main_call1_v1 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_10 : Ref sig .tc := ⟨.hbm, 69, rfl⟩
abbrev main_v41 : Ref sig .tc := ⟨.hbm, 70, rfl⟩
abbrev main_c_11 : Ref sig .tc := ⟨.hbm, 71, rfl⟩
abbrev main_v42 : Ref sig .tc := ⟨.hbm, 72, rfl⟩
abbrev main_v43 : Ref sig .tc := ⟨.hbm, 73, rfl⟩
abbrev main_c_12 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_13 : Ref sig .tc := ⟨.hbm, 78, rfl⟩
abbrev main_v47 : Ref sig .tc := ⟨.hbm, 79, rfl⟩
abbrev main_v48 : Ref sig .tc := ⟨.hbm, 80, rfl⟩
abbrev main_c_14 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_15 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_16 : Ref sig .tc := ⟨.hbm, 93, rfl⟩
abbrev main_v59 : Ref sig .tc := ⟨.hbm, 94, rfl⟩
abbrev main_c_17 : Ref sig .tc := ⟨.hbm, 95, rfl⟩
abbrev main_v60 : Ref sig .tc := ⟨.hbm, 96, rfl⟩
abbrev main_v61 : Ref sig .tc := ⟨.hbm, 97, rfl⟩
abbrev main_c_18 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_c_19 : Ref sig .tc := ⟨.hbm, 102, rfl⟩
abbrev main_v65 : Ref sig .tc := ⟨.hbm, 103, rfl⟩
abbrev main_v66 : Ref sig .tc := ⟨.hbm, 104, rfl⟩
abbrev main_c_20 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c_21 : Ref sig .tc := ⟨.hbm, 115, rfl⟩
abbrev main_v76 : Ref sig .tc := ⟨.hbm, 116, rfl⟩
abbrev main_c_22 : Ref sig .tc := ⟨.hbm, 117, rfl⟩
abbrev main_v77 : Ref sig .tc := ⟨.hbm, 118, rfl⟩
abbrev main_v78 : Ref sig .tc := ⟨.hbm, 119, rfl⟩
abbrev main_c_23 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_24 : Ref sig .tc := ⟨.hbm, 124, rfl⟩
abbrev main_v82 : Ref sig .tc := ⟨.hbm, 125, rfl⟩
abbrev main_v83 : Ref sig .tc := ⟨.hbm, 126, rfl⟩
abbrev main_c_25 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_26 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_c_27 : Ref sig .tc := ⟨.hbm, 142, rfl⟩
abbrev main_v97 : Ref sig .tc := ⟨.hbm, 143, rfl⟩
abbrev main_c_28 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_29 : Ref sig .tc := ⟨.hbm, 149, rfl⟩
abbrev main_v102 : Ref sig .tc := ⟨.hbm, 150, rfl⟩
abbrev main_cst_30 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_31 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_32 : Ref sig .tc := ⟨.hbm, 166, rfl⟩
abbrev main_v116 : Ref sig .tc := ⟨.hbm, 167, rfl⟩
abbrev main_cst_33 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_34 : Ref sig .tc := ⟨.hbm, 175, rfl⟩
abbrev main_v123 : Ref sig .tc := ⟨.hbm, 176, rfl⟩
abbrev main_v124 : Ref sig .tc := ⟨.hbm, 177, rfl⟩
abbrev main_cst_35 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_cst_36 : Ref sig .tc := ⟨.hbm, 183, rfl⟩
abbrev main_v129 : Ref sig .tc := ⟨.hbm, 184, rfl⟩
abbrev main_v130 : Ref sig .tc := ⟨.hbm, 185, rfl⟩
abbrev main_cst_37 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_38 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_39 : Ref sig .tc := ⟨.hbm, 199, rfl⟩
abbrev main_v142 : Ref sig .tc := ⟨.hbm, 200, rfl⟩
abbrev main_cst_40 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_call3_cst : Ref sig .tc := ⟨.hbm, 206, rfl⟩
abbrev main_call3_v0 : Ref sig .tc := ⟨.hbm, 207, rfl⟩
abbrev main_call3_cst_0 : Ref sig .tc := ⟨.hbm, 208, rfl⟩
abbrev main_call3_v1 : Ref sig .tc := ⟨.hbm, 209, rfl⟩
abbrev main_call3_v2 : Ref sig .tc := ⟨.hbm, 210, rfl⟩
abbrev main_call3_v3 : Ref sig .tc := ⟨.hbm, 211, rfl⟩
abbrev main_call3_v4 : Ref sig .tc := ⟨.hbm, 212, rfl⟩
abbrev main_call3_v5 : Ref sig .tc := ⟨.hbm, 213, rfl⟩
abbrev main_call3_v6 : Ref sig .tc := ⟨.hbm, 214, rfl⟩
abbrev main_call3_cst_1 : Ref sig .tc := ⟨.hbm, 215, rfl⟩
abbrev main_call3_v7 : Ref sig .tc := ⟨.hbm, 216, rfl⟩
abbrev main_call3_v8 : Ref sig .tc := ⟨.hbm, 217, rfl⟩
abbrev main_call3_v9 : Ref sig .tc := ⟨.hbm, 218, rfl⟩
abbrev main_call3_v10 : Ref sig .tc := ⟨.hbm, 219, rfl⟩
abbrev main_v147 : Ref sig .tc := ⟨.hbm, 220, rfl⟩
abbrev main_v148 : Ref sig .tc := ⟨.hbm, 221, rfl⟩
abbrev main_call4_c : Ref sig .tc := ⟨.hbm, 222, rfl⟩
abbrev main_call4_v0 : Ref sig .tc := ⟨.hbm, 223, rfl⟩
abbrev main_call4_v1 : Ref sig .tc := ⟨.hbm, 224, rfl⟩
abbrev main_call4_c_0 : Ref sig .tc := ⟨.hbm, 225, rfl⟩
abbrev main_call4_v2 : Ref sig .tc := ⟨.hbm, 226, rfl⟩
abbrev main_call4_v3 : Ref sig .tc := ⟨.hbm, 227, rfl⟩
abbrev main_call4_v4 : Ref sig .tc := ⟨.hbm, 228, rfl⟩
abbrev main_call4_v5 : Ref sig .tc := ⟨.hbm, 229, rfl⟩
abbrev main_call4_c_1 : Ref sig .tc := ⟨.hbm, 230, rfl⟩
abbrev main_call4_c_2 : Ref sig .tc := ⟨.hbm, 231, rfl⟩
abbrev main_call4_v6 : Ref sig .tc := ⟨.hbm, 232, rfl⟩
abbrev main_call4_v7 : Ref sig .tc := ⟨.hbm, 233, rfl⟩
abbrev main_call4_v8 : Ref sig .tc := ⟨.hbm, 234, rfl⟩
abbrev main_call4_v9 : Ref sig .tc := ⟨.hbm, 235, rfl⟩
abbrev main_call4_v10 : Ref sig .tc := ⟨.hbm, 236, rfl⟩
abbrev main_call4_v11 : Ref sig .tc := ⟨.hbm, 237, rfl⟩
abbrev main_call4_c_3 : Ref sig .tc := ⟨.hbm, 238, rfl⟩
abbrev main_call4_v12 : Ref sig .tc := ⟨.hbm, 239, rfl⟩
abbrev main_call4_v13 : Ref sig .tc := ⟨.hbm, 240, rfl⟩
abbrev main_call4_cst : Ref sig .tc := ⟨.hbm, 241, rfl⟩
abbrev main_call4_v14 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_41 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_cst_42 : Ref sig .tc := ⟨.hbm, 255, rfl⟩
abbrev main_v160 : Ref sig .tc := ⟨.hbm, 256, rfl⟩
abbrev main_v161 : Ref sig .tc := ⟨.hbm, 257, rfl⟩
abbrev main_c_43 : Ref sig .tc := ⟨.hbm, 258, rfl⟩
abbrev main_v162 : Ref sig .tc := ⟨.hbm, 259, rfl⟩
abbrev main_v163 : Ref sig .tc := ⟨.hbm, 260, rfl⟩
abbrev main_c_44 : Ref sig .tc := ⟨.hbm, 261, rfl⟩
abbrev main_call5_v0 : Ref sig .tc := ⟨.hbm, 262, rfl⟩
abbrev main_call5_v1 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_cst_45 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_v179 : Ref sig .tc := ⟨.hbm, 280, rfl⟩
abbrev main_c_46 : Ref sig .tc := ⟨.hbm, 281, rfl⟩
abbrev main_v180 : Ref sig .tc := ⟨.hbm, 282, rfl⟩
abbrev main_c_47 : Ref sig .tc := ⟨.hbm, 283, rfl⟩
abbrev main_v181 : Ref sig .tc := ⟨.hbm, 284, rfl⟩
abbrev main_v182 : Ref sig .tc := ⟨.hbm, 285, rfl⟩
abbrev main_v183 : Ref sig .tc := ⟨.hbm, 286, rfl⟩
abbrev main_v184 : Ref sig .tc := ⟨.hbm, 287, rfl⟩
abbrev main_cst_48 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_c_49 : Ref sig .tc := ⟨.hbm, 293, rfl⟩
abbrev main_v189 : Ref sig .tc := ⟨.hbm, 294, rfl⟩
abbrev main_v190 : Ref sig .tc := ⟨.hbm, 295, rfl⟩
abbrev main_v191 : Ref sig .tc := ⟨.hbm, 296, rfl⟩
abbrev main_v192 : Ref sig .tc := ⟨.hbm, 297, rfl⟩
abbrev main_cst_50 : Ref sig .tc := ⟨.hbm, 298, rfl⟩
abbrev main_v193 : Ref sig .tc := ⟨.hbm, 299, rfl⟩
abbrev main_cst_51 : Ref sig .tc := ⟨.hbm, 300, rfl⟩
abbrev main_v194 : Ref sig .tc := ⟨.hbm, 301, rfl⟩
abbrev main_cst_52 : Ref sig .tc := ⟨.hbm, 302, rfl⟩
abbrev main_v195 : Ref sig .tc := ⟨.hbm, 303, rfl⟩
abbrev main_v196 : Ref sig .tc := ⟨.hbm, 304, rfl⟩
abbrev main_c_53 : Ref sig .tc := ⟨.hbm, 305, rfl⟩
abbrev main_v197 : Ref sig .tc := ⟨.hbm, 306, rfl⟩
abbrev main_v198 : Ref sig .tc := ⟨.hbm, 307, rfl⟩
abbrev main_c_54 : Ref sig .tc := ⟨.hbm, 308, rfl⟩
abbrev main_call6_v0 : Ref sig .tc := ⟨.hbm, 309, rfl⟩
abbrev main_call6_v1 : Ref sig .tc := ⟨.hbm, 310, rfl⟩
abbrev main_v199 : Ref sig .tc := ⟨.hbm, 311, rfl⟩
abbrev main_v200 : Ref sig .tc := ⟨.hbm, 312, rfl⟩
abbrev main_cst_55 : Ref sig .tc := ⟨.hbm, 313, rfl⟩
abbrev main_v201 : Ref sig .tc := ⟨.hbm, 314, rfl⟩
abbrev main_v202 : Ref sig .tc := ⟨.hbm, 315, rfl⟩
abbrev main_v203 : Ref sig .tc := ⟨.hbm, 316, rfl⟩
abbrev main_v204 : Ref sig .tc := ⟨.hbm, 317, rfl⟩
abbrev main_v205 : Ref sig .tc := ⟨.hbm, 318, rfl⟩
abbrev main_v206 : Ref sig .tc := ⟨.hbm, 319, rfl⟩
abbrev main_v207 : Ref sig .tc := ⟨.hbm, 320, rfl⟩
abbrev main_v208 : Ref sig .tc := ⟨.hbm, 321, rfl⟩
abbrev main_v209 : Ref sig .tc := ⟨.hbm, 322, rfl⟩
abbrev main_v210 : Ref sig .tc := ⟨.hbm, 323, rfl⟩
abbrev main_v211 : Ref sig .tc := ⟨.hbm, 324, rfl⟩
abbrev main_cst_56 : Ref sig .tc := ⟨.hbm, 325, rfl⟩
abbrev main_v212 : Ref sig .tc := ⟨.hbm, 326, rfl⟩
abbrev main_v213 : Ref sig .tc := ⟨.hbm, 327, rfl⟩
abbrev main_cst_57 : Ref sig .tc := ⟨.hbm, 328, rfl⟩
abbrev main_v214 : Ref sig .tc := ⟨.hbm, 329, rfl⟩
abbrev main_v215 : Ref sig .tc := ⟨.hbm, 330, rfl⟩
abbrev main_v216 : Ref sig .tc := ⟨.hbm, 331, rfl⟩
abbrev main_cst_58 : Ref sig .tc := ⟨.hbm, 332, rfl⟩
abbrev main_v217 : Ref sig .tc := ⟨.hbm, 333, rfl⟩
abbrev main_v218 : Ref sig .tc := ⟨.hbm, 334, rfl⟩
abbrev main_cst_59 : Ref sig .tc := ⟨.hbm, 335, rfl⟩
abbrev main_v219 : Ref sig .tc := ⟨.hbm, 336, rfl⟩
abbrev main_v220 : Ref sig .tc := ⟨.hbm, 337, rfl⟩
abbrev main_v221 : Ref sig .tc := ⟨.hbm, 338, rfl⟩
abbrev main_v222 : Ref sig .tc := ⟨.hbm, 339, rfl⟩
abbrev main_v223 : Ref sig .tc := ⟨.hbm, 340, rfl⟩
abbrev main_v224 : Ref sig .tc := ⟨.hbm, 341, rfl⟩
abbrev main_c_60 : Ref sig .tc := ⟨.hbm, 342, rfl⟩
abbrev main_v225 : Ref sig .tc := ⟨.hbm, 343, rfl⟩
abbrev main_c_61 : Ref sig .tc := ⟨.hbm, 344, rfl⟩
abbrev main_v226 : Ref sig .tc := ⟨.hbm, 345, rfl⟩
abbrev main_v227 : Ref sig .tc := ⟨.hbm, 346, rfl⟩
abbrev main_v228 : Ref sig .tc := ⟨.hbm, 347, rfl⟩
abbrev main_cst_62 : Ref sig .tc := ⟨.hbm, 348, rfl⟩
abbrev main_v229 : Ref sig .tc := ⟨.hbm, 349, rfl⟩
abbrev main_v230 : Ref sig .tc := ⟨.hbm, 350, rfl⟩
abbrev main_cst_63 : Ref sig .tc := ⟨.hbm, 351, rfl⟩
abbrev main_v231 : Ref sig .tc := ⟨.hbm, 352, rfl⟩
abbrev main_v232 : Ref sig .tc := ⟨.hbm, 353, rfl⟩
abbrev main_v233 : Ref sig .tc := ⟨.hbm, 354, rfl⟩
abbrev main_v234 : Ref sig .tc := ⟨.hbm, 355, rfl⟩
abbrev main_v235 : Ref sig .tc := ⟨.hbm, 356, rfl⟩
abbrev main_v236 : Ref sig .tc := ⟨.hbm, 357, rfl⟩
abbrev main_cst_64 : Ref sig .tc := ⟨.hbm, 358, rfl⟩
abbrev main_v237 : Ref sig .tc := ⟨.hbm, 359, rfl⟩
abbrev main_v238 : Ref sig .tc := ⟨.hbm, 360, rfl⟩
abbrev main_v239 : Ref sig .tc := ⟨.hbm, 361, rfl⟩
abbrev main_v240 : Ref sig .tc := ⟨.hbm, 362, rfl⟩
abbrev main_v241 : Ref sig .tc := ⟨.hbm, 363, rfl⟩
abbrev main_v242 : Ref sig .tc := ⟨.hbm, 364, rfl⟩
abbrev main_cst_65 : Ref sig .tc := ⟨.hbm, 365, rfl⟩
abbrev main_v243 : Ref sig .tc := ⟨.hbm, 366, rfl⟩
abbrev main_v244 : Ref sig .tc := ⟨.hbm, 367, rfl⟩
abbrev main_v245 : Ref sig .tc := ⟨.hbm, 368, rfl⟩
abbrev main_v246 : Ref sig .tc := ⟨.hbm, 369, rfl⟩
abbrev main_cst_66 : Ref sig .tc := ⟨.hbm, 370, rfl⟩
abbrev main_v247 : Ref sig .tc := ⟨.hbm, 371, rfl⟩
abbrev main_v248 : Ref sig .tc := ⟨.hbm, 372, rfl⟩
abbrev main_v249 : Ref sig .tc := ⟨.hbm, 373, rfl⟩
abbrev main_v250 : Ref sig .tc := ⟨.hbm, 374, rfl⟩
abbrev main_cst_67 : Ref sig .tc := ⟨.hbm, 375, rfl⟩
abbrev main_v251 : Ref sig .tc := ⟨.hbm, 376, rfl⟩
abbrev main_v252 : Ref sig .tc := ⟨.hbm, 377, rfl⟩
abbrev main_cst_68 : Ref sig .tc := ⟨.hbm, 378, rfl⟩
abbrev main_v253 : Ref sig .tc := ⟨.hbm, 379, rfl⟩
abbrev main_v254 : Ref sig .tc := ⟨.hbm, 380, rfl⟩
abbrev main_cst_69 : Ref sig .tc := ⟨.hbm, 381, rfl⟩
abbrev main_v255 : Ref sig .tc := ⟨.hbm, 382, rfl⟩
abbrev main_v256 : Ref sig .tc := ⟨.hbm, 383, rfl⟩
abbrev main_cst_70 : Ref sig .tc := ⟨.hbm, 384, rfl⟩
abbrev main_v257 : Ref sig .tc := ⟨.hbm, 385, rfl⟩
abbrev main_v258 : Ref sig .tc := ⟨.hbm, 386, rfl⟩
abbrev main_v259 : Ref sig .tc := ⟨.hbm, 387, rfl⟩
abbrev main_cst_71 : Ref sig .tc := ⟨.hbm, 388, rfl⟩
abbrev main_v260 : Ref sig .tc := ⟨.hbm, 389, rfl⟩
abbrev main_v261 : Ref sig .tc := ⟨.hbm, 390, rfl⟩
abbrev main_v262 : Ref sig .tc := ⟨.hbm, 391, rfl⟩
abbrev main_v263 : Ref sig .tc := ⟨.hbm, 392, rfl⟩
abbrev main_c_72 : Ref sig .tc := ⟨.hbm, 393, rfl⟩
abbrev main_v264 : Ref sig .tc := ⟨.hbm, 394, rfl⟩
abbrev main_v265 : Ref sig .tc := ⟨.hbm, 395, rfl⟩
abbrev main_v266 : Ref sig .tc := ⟨.hbm, 396, rfl⟩
abbrev main_v267 : Ref sig .tc := ⟨.hbm, 397, rfl⟩
abbrev main_v268 : Ref sig .tc := ⟨.hbm, 398, rfl⟩
abbrev main_cst_73 : Ref sig .tc := ⟨.hbm, 399, rfl⟩
abbrev main_v269 : Ref sig .tc := ⟨.hbm, 400, rfl⟩
abbrev main_cst_74 : Ref sig .tc := ⟨.hbm, 401, rfl⟩
abbrev main_v270 : Ref sig .tc := ⟨.hbm, 402, rfl⟩
abbrev main_cst_75 : Ref sig .tc := ⟨.hbm, 403, rfl⟩
abbrev main_v271 : Ref sig .tc := ⟨.hbm, 404, rfl⟩
abbrev main_v272 : Ref sig .tc := ⟨.hbm, 405, rfl⟩
abbrev main_cst_76 : Ref sig .tc := ⟨.hbm, 406, rfl⟩
abbrev main_v273 : Ref sig .tc := ⟨.hbm, 407, rfl⟩
abbrev main_cst_77 : Ref sig .tc := ⟨.hbm, 408, rfl⟩
abbrev main_v274 : Ref sig .tc := ⟨.hbm, 409, rfl⟩
abbrev main_v275 : Ref sig .tc := ⟨.hbm, 410, rfl⟩
abbrev main_cst_78 : Ref sig .tc := ⟨.hbm, 411, rfl⟩
abbrev main_v276 : Ref sig .tc := ⟨.hbm, 412, rfl⟩
abbrev main_v277 : Ref sig .tc := ⟨.hbm, 413, rfl⟩
abbrev main_v278 : Ref sig .tc := ⟨.hbm, 414, rfl⟩
abbrev main_v279 : Ref sig .tc := ⟨.hbm, 415, rfl⟩
abbrev main_v280 : Ref sig .tc := ⟨.hbm, 416, rfl⟩
abbrev main_v281 : Ref sig .tc := ⟨.hbm, 417, rfl⟩
abbrev main_v282 : Ref sig .tc := ⟨.hbm, 418, rfl⟩

abbrev nD : Nat := 1
abbrev τ : Topo := Topo.v7x

variable {F : FTy → Type} [FloatOps F]

class Facts₀ : Prop where
  slices_S8x64x5_S8x64x1_0_0_0 : S8x64x5.Slices ![0, 0, 0] S8x64x1
  shapeCasts_S8x64x1_S8x64 : S8x64x1.ShapeCasts S8x64
  slices_S8x64x5_S8x64x4_0_0_1 : S8x64x5.Slices ![0, 0, 1] S8x64x4
  bcast_S_S8x64x4 : S_.BroadcastsInDim S8x64x4 (![] : Fin 0 → Fin S8x64x4.rank)
  bcast_S_S8x64 : S_.BroadcastsInDim S8x64 (![] : Fin 0 → Fin S8x64.rank)
  slices_S8x64x5_S8x64x1_0_0_3 : S8x64x5.Slices ![0, 0, 3] S8x64x1
  slices_S8x64x5_S8x64x1_0_0_4 : S8x64x5.Slices ![0, 0, 4] S8x64x1
  slices_S8x64x4_S8x64x1_0_0_0 : S8x64x4.Slices ![0, 0, 0] S8x64x1
  slices_S8x64x4_S8x64x1_0_0_1 : S8x64x4.Slices ![0, 0, 1] S8x64x1
  bcast_S8_S8x1_0 : S8.BroadcastsInDim S8x1 (![0] : Fin 1 → Fin S8x1.rank)
  bcast_S8x1_S8x64_0_1 : S8x1.BroadcastsInDim S8x64 (![0, 1] : Fin 2 → Fin S8x64.rank)
  bcast_S_S8x6401 : S_.BroadcastsInDim S8x6401 (![] : Fin 0 → Fin S8x6401.rank)
  bcast_S8x64_S8x64x1_0_1 : S8x64.BroadcastsInDim S8x64x1 (![0, 1] : Fin 2 → Fin S8x64x1.rank)
  concatenates_S8x64x1_S8x64x1_S8x64x2_d2 : Shape.Concatenates [S8x64x1, S8x64x1] S8x64x2 2
  slices_S8x6401_S8x6400_0_0 : S8x6401.Slices ![0, 0] S8x6400
  shapeCasts_S8x6400_S8x80x80 : S8x6400.ShapeCasts S8x80x80
  bcast_S_S8x6401x4 : S_.BroadcastsInDim S8x6401x4 (![] : Fin 0 → Fin S8x6401x4.rank)
  slices_S8x6401x4_S8x6400x4_0_0_0 : S8x6401x4.Slices ![0, 0, 0] S8x6400x4
  shapeCasts_S8x6400x4_S8x80x80x4 : S8x6400x4.ShapeCasts S8x80x80x4
  bcast_S_S8x80x80 : S_.BroadcastsInDim S8x80x80 (![] : Fin 0 → Fin S8x80x80.rank)
  shapeCasts_S8x80x80_S8x6400 : S8x80x80.ShapeCasts S8x6400
  natLt_1_32 : 1 < 32
  reducesTo_S8x6400_S8_d1 : S8x6400.ReducesTo [1] S8
  h_S_ : 0 < S_.numel
  bcast_S_S8 : S_.BroadcastsInDim S8 (![] : Fin 0 → Fin S8.rank)
  reducesTo_S8_S_d0 : S8.ReducesTo [0] S_
  slices_S8x15x80x80_S8x1x80x80_0_4_0_0 : S8x15x80x80.Slices ![0, 4, 0, 0] S8x1x80x80
  shapeCasts_S8x1x80x80_S8x80x80 : S8x1x80x80.ShapeCasts S8x80x80
  slices_S8x15x80x80_S8x4x80x80_0_0_0_0 : S8x15x80x80.Slices ![0, 0, 0, 0] S8x4x80x80
  transposes_S8x4x80x80_S8x80x80x4_0_2_3_1 : S8x4x80x80.Transposes [0, 2, 3, 1] S8x80x80x4
  bcast_S_S8x80x80x4 : S_.BroadcastsInDim S8x80x80x4 (![] : Fin 0 → Fin S8x80x80x4.rank)
  bcast_S8x80x80_S8x80x80x1_0_1_2 : S8x80x80.BroadcastsInDim S8x80x80x1 (![0, 1, 2] : Fin 3 → Fin S8x80x80x1.rank)
  bcast_S8x80x80x1_S8x80x80x4_0_1_2_3 : S8x80x80x1.BroadcastsInDim S8x80x80x4 (![0, 1, 2, 3] : Fin 4 → Fin S8x80x80x4.rank)
  shapeCasts_S8x80x80x4_S8x25600 : S8x80x80x4.ShapeCasts S8x25600
  reducesTo_S8x25600_S8_d1 : S8x25600.ReducesTo [1] S8
  slices_S8x15x80x80_S8x10x80x80_0_5_0_0 : S8x15x80x80.Slices ![0, 5, 0, 0] S8x10x80x80
  reducesTo_S8x10x80x80_S8x80x80_d1 : S8x10x80x80.ReducesTo [1] S8x80x80
  bcast_S8x80x80_S8x1x80x80_0_2_3 : S8x80x80.BroadcastsInDim S8x1x80x80 (![0, 2, 3] : Fin 3 → Fin S8x1x80x80.rank)
  bcast_S8x1x80x80_S8x10x80x80_0_1_2_3 : S8x1x80x80.BroadcastsInDim S8x10x80x80 (![0, 1, 2, 3] : Fin 4 → Fin S8x10x80x80.rank)
  bcast_S_S8x1x80x80 : S_.BroadcastsInDim S8x1x80x80 (![] : Fin 0 → Fin S8x1x80x80.rank)
  shapeCasts_S8x1x80x80_S8x1x80x80x1 : S8x1x80x80.ShapeCasts S8x1x80x80x1
  bcast_S_S8x1x80x80x1 : S_.BroadcastsInDim S8x1x80x80x1 (![] : Fin 0 → Fin S8x1x80x80x1.rank)
  bcast_S1_S1x1x1x1x1_4 : S1.BroadcastsInDim S1x1x1x1x1 (![4] : Fin 1 → Fin S1x1x1x1x1.rank)
  bcast_S1x1x1x1x1_S8x1x80x80x1_0_1_2_3_4 : S1x1x1x1x1.BroadcastsInDim S8x1x80x80x1 (![0, 1, 2, 3, 4] : Fin 5 → Fin S8x1x80x80x1.rank)
  reducesTo_S8x1x80x80x1_S8x1x80x80_d4 : S8x1x80x80x1.ReducesTo [4] S8x1x80x80
  bcast_S_S8x1024x1024 : S_.BroadcastsInDim S8x1024x1024 (![] : Fin 0 → Fin S8x1024x1024.rank)
  shapeCasts_S8x1x1024x1024_S8x1024x1024 : S8x1x1024x1024.ShapeCasts S8x1024x1024
  shapeCasts_S8x1024x1024_S8x1048576 : S8x1024x1024.ShapeCasts S8x1048576
  reducesTo_S8x1048576_S8_d1 : S8x1048576.ReducesTo [1] S8
  bcast_S_S8x3x1024x1024 : S_.BroadcastsInDim S8x3x1024x1024 (![] : Fin 0 → Fin S8x3x1024x1024.rank)
  shapeCasts_S8x3x1024x1024_S8x3x1048576 : S8x3x1024x1024.ShapeCasts S8x3x1048576
  reducesTo_S8x3x1048576_S8x3_d2 : S8x3x1048576.ReducesTo [2] S8x3
  bcast_S_S8x3 : S_.BroadcastsInDim S8x3 (![] : Fin 0 → Fin S8x3.rank)
  reducesTo_S8x3_S_d0_1 : S8x3.ReducesTo [0, 1] S_
  bcast_S_S1 : S_.BroadcastsInDim S1 (![] : Fin 0 → Fin S1.rank)
  concatenates_S1_S1_S1_S1_S4_d0 : Shape.Concatenates [S1, S1, S1, S1] S4 0
  scatter_S8x6401_S8x64x2_S8x64_n_01_01_2_wf : ScatterDims.WF S8x6401 S8x64x2 S8x64 [] [0, 1] [0, 1] 2
  scatter_S8x6401x4_S8x64x2_S8x64x4_2_01_01_2_wf : ScatterDims.WF S8x6401x4 S8x64x2 S8x64x4 [2] [0, 1] [0, 1] 2
  gather_S8x10x80x80_S8x1x80x80x1_S8x1x80x80_n_1_023_023_1_4_1111_wf : GatherDims.WF S8x10x80x80 S8x1x80x80x1 S8x1x80x80 [] [1] [0, 2, 3] [1] [0, 2, 3] 4 ![1, 1, 1, 1]

variable [Facts₀]

def scatter_S8x6401_S8x64x2_S8x64_n_01_01_2 : ScatterDims S8x6401 S8x64x2 S8x64 where
  updateWindowDims := []
  insertedWindowDims := [0, 1]
  scatterDimsToOperandDims := [0, 1]
  indexVectorDim := 2
  wf := scatter_S8x6401_S8x64x2_S8x64_n_01_01_2_wf
def scatter_S8x6401x4_S8x64x2_S8x64x4_2_01_01_2 : ScatterDims S8x6401x4 S8x64x2 S8x64x4 where
  updateWindowDims := [2]
  insertedWindowDims := [0, 1]
  scatterDimsToOperandDims := [0, 1]
  indexVectorDim := 2
  wf := scatter_S8x6401x4_S8x64x2_S8x64x4_2_01_01_2_wf
def gather_S8x10x80x80_S8x1x80x80x1_S8x1x80x80_n_1_023_023_1_4_1111 : GatherDims S8x10x80x80 S8x1x80x80x1 S8x1x80x80 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x10x80x80_S8x1x80x80x1_S8x1x80x80_n_1_023_023_1_4_1111_wf

class Facts : Prop extends Facts₀ where

variable [Facts]
-- ==== Proof.KI.R0Runs.lean ====
import proofs.«134848_j7748121002193_1_alg».proof.Proof.Gen.KernelIdeal.Launch
import proofs.«134848_j7748121002193_1_alg».proof.Proof.Gen.KernelIdeal.Skeleton
import proofs.«134848_j7748121002193_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

abbrev VO0_2 : View sig .tc .vmem S8x1 .f32 := (Memref.whole cc0_stg2_0 : Memref sig .tc .vmem S8x1 .f32).view
abbrev VO0_3 : View sig .tc .vmem S8x1 .f32 := (Memref.whole cc0_stg3_0 : Memref sig .tc .vmem S8x1 .f32).view

abbrev ms0_0 (t : Fin cfg0.N) : Memref sig .tc .vmem S8x1x128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1 .f32 := win0_3.stage (cfg0.slots t 3)
abbrev hs0_3 (t : Fin cfg0.N) : (ms0_3 t).IsWhole := hstage0_3 ((cfg0.slots t 3).cast nbuf0_3)

end Cert.KernelIdeal.Hand

end
-- ==== Proof.KI.R0RunA.lean ====
import proofs.«134848_j7748121002193_1_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_A (c : Dev nD) (i : grid0.Coords) (arg1 : Memref sig .tc .vmem S8x1x128x1024 .f32) (harg1 : arg1.IsWhole) (arg2 : Memref sig .tc .vmem S8x128x1024 .i32) (harg2 : arg2.IsWhole) (arg3 : Memref sig .tc .vmem S8x1 .f32) (harg3 : arg3.IsWhole) (arg4 : Memref sig .tc .vmem S8x1 .f32) (harg4 : arg4.IsWhole) (hc0 : cond0_0 i)
    (x0 : Vec F S8x1x128x1024 .f32) (x1 : Vec F S8x128x1024 .i32) :
    Σ' (L2 : List (View.Piece (Elt F) S8x1 .f32)), { L3 : List (View.Piece (Elt F) S8x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0__da_kernel i arg1 harg1 arg2 harg2 arg3 harg3 arg4 harg4) K } := by
  refine ⟨?_, ?_, fun E K => ?run⟩
  case run =>
    simp only [cc0__da_kernel_eq_skeleton]; unfold cc0__da_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.KernelIdeal.Hand

end
-- ==== Proof.KI.R0RunB.lean ====
import proofs.«134848_j7748121002193_1_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_B (c : Dev nD) (i : grid0.Coords) (arg1 : Memref sig .tc .vmem S8x1x128x1024 .f32) (harg1 : arg1.IsWhole) (arg2 : Memref sig .tc .vmem S8x128x1024 .i32) (harg2 : arg2.IsWhole) (arg3 : Memref sig .tc .vmem S8x1 .f32) (harg3 : arg3.IsWhole) (arg4 : Memref sig .tc .vmem S8x1 .f32) (harg4 : arg4.IsWhole) (hc0 : ¬cond0_0 i)
    (x0 : Vec F S8x1x128x1024 .f32) (x1 : Vec F S8x128x1024 .i32) (xo2 : Vec F S8x1 .f32) (xo3 : Vec F S8x1 .f32) :
    Σ' (L2 : List (View.Piece (Elt F) S8x1 .f32)), { L3 : List (View.Piece (Elt F) S8x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2 ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0__da_kernel i arg1 harg1 arg2 harg2 arg3 harg3 arg4 harg4) K } := by
  refine ⟨?_, ?_, fun E K => ?run⟩
  case run =>
    simp only [cc0__da_kernel_eq_skeleton]; unfold cc0__da_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.KernelIdeal.Hand

end
-- ==== Proof.KI.R0.lean ====
import proofs.«134848_j7748121002193_1_alg».proof.Proof.KI.R0RunB
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros0_2 : (![0, 0] : Fin 2 → Nat) = fun _ => 0 := funext fun a => by fin_cases a <;> rfl
theorem zeros0_3 : (![0, 0, 0] : Fin 3 → Nat) = fun _ => 0 := funext fun a => by fin_cases a <;> rfl
theorem zeros0_4 : (![0, 0, 0, 0] : Fin 4 → Nat) = fun _ => 0 := funext fun a => by fin_cases a <;> rfl

section
variable (c : Dev nD) (i : grid0.Coords) (arg1 : Memref sig .tc .vmem S8x1x128x1024 .f32) (harg1 : arg1.IsWhole) (arg2 : Memref sig .tc .vmem S8x128x1024 .i32) (harg2 : arg2.IsWhole) (arg3 : Memref sig .tc .vmem S8x1 .f32) (harg3 : arg3.IsWhole) (arg4 : Memref sig .tc .vmem S8x1 .f32) (harg4 : arg4.IsWhole)

theorem cover0_A_2 (hc0 : cond0_0 i) (x0 : Vec F S8x1x128x1024 .f32) (x1 : Vec F S8x128x1024 .i32) (y : S8x1.Idx) :
    ∃ pc ∈ (kernelRun0_A c i arg1 harg1 arg2 harg2 arg3 harg3 arg4 harg4 hc0 x0 x1).1, y ∈ pc.1.set :=
  View.cover_of_tiledL (kernelRun0_A c i arg1 harg1 arg2 harg2 arg3 harg3 arg4 harg4 hc0 x0 x1).1 S8x1.size (by sl_kernel_rfl) y

theorem cover0_A_3 (hc0 : cond0_0 i) (x0 : Vec F S8x1x128x1024 .f32) (x1 : Vec F S8x128x1024 .i32) (y : S8x1.Idx) :
    ∃ pc ∈ (kernelRun0_A c i arg1 harg1 arg2 harg2 arg3 harg3 arg4 harg4 hc0 x0 x1).2.1, y ∈ pc.1.set :=
  View.cover_of_tiledL (kernelRun0_A c i arg1 harg1 arg2 harg2 arg3 harg3 arg4 harg4 hc0 x0 x1).2.1 S8x1.size (by sl_kernel_rfl) y

def out0_A (hc0 : cond0_0 i) (x0 : Vec F S8x1x128x1024 .f32) (x1 : Vec F S8x128x1024 .i32) : Vec F S8x1 .f32 × Vec F S8x1 .f32 :=
  (VO0_2.read (Elt F) (VO0_2.writes (Elt F) VO0_2.junk (kernelRun0_A c i arg1 harg1 arg2 harg2 arg3 harg3 arg4 harg4 hc0 x0 x1).1),
   VO0_3.read (Elt F) (VO0_3.writes (Elt F) VO0_3.junk (kernelRun0_A c i arg1 harg1 arg2 harg2 arg3 harg3 arg4 harg4 hc0 x0 x1).2.1))

theorem cover0_B_2 (hc0 : ¬cond0_0 i) (x0 : Vec F S8x1x128x1024 .f32) (x1 : Vec F S8x128x1024 .i32) (xo2 : Vec F S8x1 .f32) (xo3 : Vec F S8x1 .f32) (y : S8x1.Idx) :
    ∃ pc ∈ (kernelRun0_B c i arg1 harg1 arg2 harg2 arg3 harg3 arg4 harg4 hc0 x0 x1 xo2 xo3).1, y ∈ pc.1.set :=
  View.cover_of_tiledL (kernelRun0_B c i arg1 harg1 arg2 harg2 arg3 harg3 arg4 harg4 hc0 x0 x1 xo2 xo3).1 S8x1.size (by sl_kernel_rfl) y

theorem cover0_B_3 (hc0 : ¬cond0_0 i) (x0 : Vec F S8x1x128x1024 .f32) (x1 : Vec F S8x128x1024 .i32) (xo2 : Vec F S8x1 .f32) (xo3 : Vec F S8x1 .f32) (y : S8x1.Idx) :
    ∃ pc ∈ (kernelRun0_B c i arg1 harg1 arg2 harg2 arg3 harg3 arg4 harg4 hc0 x0 x1 xo2 xo3).2.1, y ∈ pc.1.set :=
  View.cover_of_tiledL (kernelRun0_B c i arg1 harg1 arg2 harg2 arg3 harg3 arg4 harg4 hc0 x0 x1 xo2 xo3).2.1 S8x1.size (by sl_kernel_rfl) y

def out0_B (hc0 : ¬cond0_0 i) (x0 : Vec F S8x1x128x1024 .f32) (x1 : Vec F S8x128x1024 .i32) (xo2 : Vec F S8x1 .f32) (xo3 : Vec F S8x1 .f32) : Vec F S8x1 .f32 × Vec F S8x1 .f32 :=
  (VO0_2.read (Elt F) (VO0_2.writes (Elt F) VO0_2.junk (kernelRun0_B c i arg1 harg1 arg2 harg2 arg3 harg3 arg4 harg4 hc0 x0 x1 xo2 xo3).1),
   VO0_3.read (Elt F) (VO0_3.writes (Elt F) VO0_3.junk (kernelRun0_B c i arg1 harg1 arg2 harg2 arg3 harg3 arg4 harg4 hc0 x0 x1 xo2 xo3).2.1))

theorem out0_A_eq (hc0 : cond0_0 i) (x0 : Vec F S8x1x128x1024 .f32) (x1 : Vec F S8x128x1024 .i32) :
    out0_A c i arg1 harg1 arg2 harg2 arg3 harg3 arg4 harg4 hc0 x0 x1 = (k0_pay7 x0 x1 (k0_pay2 (F := F)), k0_pay1 (k0_pay6 x1) (k0_pay3 (F := F))) := by
  unfold out0_A
  rw [View.read_writes_eq_canon _ _ _ (cover0_A_2 c i arg1 harg1 arg2 harg2 arg3 harg3 arg4 harg4 hc0 x0 x1), View.read_writes_eq_canon _ _ _ (cover0_A_3 c i arg1 harg1 arg2 harg2 arg3 harg3 arg4 harg4 hc0 x0 x1)]
  unfold kernelRun0_A
  dsimp only
  sl_unfold_words
  rw [View.canon_cons_unit_zero (S := S8x1) zeros0_2, View.canon_cons_unit_zero (S := S8x1) zeros0_2,
    View.readCov_unit_zero (S := S8x1) _ zeros0_2, View.readCov_unit_zero (S := S8x1) _ zeros0_2]
  simp only [View.readAt_eq_ld, harg1.read_unread, harg2.read_unread, View.ld_unit_zero (S := S8x1x128x1024) zeros0_4,
    View.ld_unit_zero (S := S8x128x1024) zeros0_3]

theorem out0_B_eq (hc0 : ¬cond0_0 i) (x0 : Vec F S8x1x128x1024 .f32) (x1 : Vec F S8x128x1024 .i32) (xo2 : Vec F S8x1 .f32) (xo3 : Vec F S8x1 .f32) :
    out0_B c i arg1 harg1 arg2 harg2 arg3 harg3 arg4 harg4 hc0 x0 x1 xo2 xo3 = (k0_pay7 x0 x1 xo2, k0_pay1 (k0_pay6 x1) xo3) := by
  unfold out0_B
  rw [View.read_writes_eq_canon _ _ _ (cover0_B_2 c i arg1 harg1 arg2 harg2 arg3 harg3 arg4 harg4 hc0 x0 x1 xo2 xo3), View.read_writes_eq_canon _ _ _ (cover0_B_3 c i arg1 harg1 arg2 harg2 arg3 harg3 arg4 harg4 hc0 x0 x1 xo2 xo3)]
  unfold kernelRun0_B
  dsimp only
  rw [View.canon_unit_zero (S := S8x1) zeros0_2, View.canon_unit_zero (S := S8x1) zeros0_2]
  simp only [View.readAt_eq_ld, harg1.read_unread, harg2.read_unread, harg3.read_unread, harg4.read_unread,
    View.ld_unit_zero (S := S8x1x128x1024) zeros0_4, View.ld_unit_zero (S := S8x128x1024) zeros0_3, View.ld_unit_zero (S := S8x1) zeros0_2]

end

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xlog0 (c : Dev nD) (t : Fin cfg0.N) : Vec F S8x1x128x1024 .f32 := iblk0 V c 0 t
abbrev xmsk0 (c : Dev nD) (t : Fin cfg0.N) : Vec F S8x128x1024 .i32 := iblk0 V c 1 t

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

def acc0 (c : Dev nD) : (n : ℕ) → n < cfg0.N → Vec F S8x1 .f32 × Vec F S8x1 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr rfl) (iblk0 V c 0 ⟨0, hn⟩) (iblk0 V c 1 ⟨0, hn⟩)
  | n + 1, hn => out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => Nat.succ_ne_zero n ((hcond0_0 ⟨n + 1, hn⟩).mp h)) (iblk0 V c 0 ⟨n + 1, hn⟩) (iblk0 V c 1 ⟨n + 1, hn⟩)
      (acc0 c n (Nat.lt_of_succ_lt hn)).1 (acc0 c n (Nat.lt_of_succ_lt hn)).2

theorem acc0_A (c : Dev nD) (t : Fin cfg0.N) (h0 : t.val = 0) :
    acc0 V c t.val t.isLt = out0_A c (grid0.coords t) (ms0_0 t) (hs0_0 t) (ms0_1 t) (hs0_1 t) (ms0_2 t) (hs0_2 t) (ms0_3 t) (hs0_3 t) ((hcond0_0 t).mpr h0) (iblk0 V c 0 t) (iblk0 V c 1 t) := by
  obtain ⟨n, hn⟩ := t
  cases n with
  | zero => exact rfl
  | succ n => exact absurd h0 (Nat.succ_ne_zero n)

theorem acc0_B (c : Dev nD) (t : Fin cfg0.N) (h0 : ¬t.val = 0) :
    acc0 V c t.val t.isLt = out0_B c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t)
      (acc0 V c (t.val - 1) (Nat.lt_of_le_of_lt (Nat.sub_le _ _) t.isLt)).1 (acc0 V c (t.val - 1) (Nat.lt_of_le_of_lt (Nat.sub_le _ _) t.isLt)).2 := by
  obtain ⟨n, hn⟩ := t
  cases n with
  | zero => exact absurd rfl h0
  | succ n => exact rfl

theorem acc0_zero (c : Dev nD) (h : 0 < cfg0.N) :
    acc0 V c 0 h = (k0_pay7 (xlog0 V c ⟨0, h⟩) (xmsk0 V c ⟨0, h⟩) (k0_pay2 (F := F)), k0_pay1 (k0_pay6 (xmsk0 V c ⟨0, h⟩)) (k0_pay3 (F := F))) :=
  (acc0_A V c ⟨0, h⟩ rfl).trans (out0_A_eq ..)

theorem acc0_succ (c : Dev nD) (n : ℕ) (h : n + 1 < cfg0.N) :
    acc0 V c (n + 1) h = (k0_pay7 (xlog0 V c ⟨n + 1, h⟩) (xmsk0 V c ⟨n + 1, h⟩) (acc0 V c n (Nat.lt_of_succ_lt h)).1,
      k0_pay1 (k0_pay6 (xmsk0 V c ⟨n + 1, h⟩)) (acc0 V c n (Nat.lt_of_succ_lt h)).2) :=
  (acc0_B V c ⟨n + 1, h⟩ (Nat.succ_ne_zero n)).trans (out0_B_eq ..)

/-- The first kernel's proof data: after point `t` the two accumulators hold the sums over the bands up to `t`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem after0_3 (c : Dev nD) (t : Fin cfg0.N) : (dat0 V c).after 3 t = (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem before0_2_B (c : Dev nD) (t : Fin cfg0.N) (h0 : ¬t.val = 0) (d) :
    (dat0 V c).before 2 t d = (acc0 V c (t.val - 1) (Nat.lt_of_le_of_lt (Nat.sub_le _ _) t.isLt)).1 := by
  have hN : t.val < 8 := lt_of_lt_of_eq t.isLt (show cfg0.N = 8 from N_0)
  rw [Dat.before_out_kept _ 2 rfl t h0 (Bool.eq_false_iff.mpr fun h => by have := (flush0_2 _).mp h; dsimp only at this; omega)
    (fun _ => rfl) (fun _ _ => rfl)]
  dsimp only [dat0]
theorem before0_3_B (c : Dev nD) (t : Fin cfg0.N) (h0 : ¬t.val = 0) (d) :
    (dat0 V c).before 3 t d = (acc0 V c (t.val - 1) (Nat.lt_of_le_of_lt (Nat.sub_le _ _) t.isLt)).2 := by
  have hN : t.val < 8 := lt_of_lt_of_eq t.isLt (show cfg0.N = 8 from N_0)
  rw [Dat.before_out_kept _ 3 rfl t h0 (Bool.eq_false_iff.mpr fun h => by have := (flush0_3 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val = 0
  · rw [acc0_A V c t h0]
    unfold out0_A
    dsimp only
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk0 V c 0 t) (iblk0 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [acc0_B V c t h0]
    simp only [before0_2_B V c t h0, before0_3_B V c t h0]
    unfold out0_B
    dsimp only
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk0 V c 0 t) (iblk0 V c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

abbrev res0_2 (c : Dev nD) : Buf (Elt F) ((c : Thread nD τ).loc main_v162_0) := (acc0 V c 7 (by rw [show cfg0.N = 8 from N_0]; decide)).1
abbrev res0_3 (c : Dev nD) : Buf (Elt F) ((c : Thread nD τ).loc main_v162_1) := (acc0 V c 7 (by rw [show cfg0.N = 8 from N_0]; decide)).2

theorem flushed0_2 (c : Dev nD) (t : Fin cfg0.N) (hf : (cfg0.win 2).flush t = true) :
    (dat0 V c).flushed 2 t = ((cfg0.win 2).blk t).view.read (Elt F) (res0_2 V c) := by
  have hN : cfg0.N = 8 := N_0
  have h7 : t.val = 7 := by have := (flush0_2 t).mp hf; have := t.isLt; omega
  obtain rfl : t = t0_7 := Fin.ext h7
  show (cfg0.win 2).cut (grid0.coords t0_7) ((dat0 V c).after 2 t0_7) = _
  rw [after0_2]
  have hz' : (fun a => win0_2.index t0_7 a * main_v162_0.ty.shape.size a) = fun _ => 0 := funext fun a => by fin_cases a <;> decide
  exact (Memref.read_access_unit_zero (Elt F) main_v162_0 hz' (fun a => by rw [congrFun hz' a]; simp) (res0_2 V c)).symm

theorem flushed0_3 (c : Dev nD) (t : Fin cfg0.N) (hf : (cfg0.win 3).flush t = true) :
    (dat0 V c).flushed 3 t = ((cfg0.win 3).blk t).view.read (Elt F) (res0_3 V c) := by
  have hN : cfg0.N = 8 := N_0
  have h7 : t.val = 7 := by have := (flush0_3 t).mp hf; have := t.isLt; omega
  obtain rfl : t = t0_7 := Fin.ext h7
  show (cfg0.win 3).cut (grid0.coords t0_7) ((dat0 V c).after 3 t0_7) = _
  rw [after0_3]
  have hz' : (fun a => win0_3.index t0_7 a * main_v162_1.ty.shape.size a) = fun _ => 0 := funext fun a => by fin_cases a <;> decide
  exact (Memref.read_access_unit_zero (Elt F) main_v162_1 hz' (fun a => by rw [congrFun hz' a]; simp) (res0_3 V c)).symm

theorem arrAt0_0 (c : Dev nD) : (dat0 V c).arrAt 0 cfg0.N = V c (Pipeline.arrRef spec0 0) :=
  ((dat0 V c).arrAt_in 0 rfl _).trans (A_eq0 V c 0)
theorem arrAt0_1 (c : Dev nD) : (dat0 V c).arrAt 1 cfg0.N = V c (Pipeline.arrRef spec0 1) :=
  ((dat0 V c).arrAt_in 1 rfl _).trans (A_eq0 V c 1)
theorem arrAt0_2 (c : Dev nD) : (dat0 V c).arrAt 2 cfg0.N = (acc0 V c 7 (by rw [show cfg0.N = 8 from N_0]; decide)).1 :=
  (dat0 V c).arrAt_eq_of_cover 2 (res0_2 V c) (flushed0_2 V c) fun i =>
    ⟨t0_7, (flush0_2 t0_7).mpr rfl, by
      show i ∈ ((View.whole main_v162_0).slice (win0_2.rect t0_7)).set
      rw [View.set_slice_whole, Rect.mem_set_unit]
      intro a
      have h0 : (i 0 : Nat) < 8 := (i 0).isLt
      have h1 : (i 1 : Nat) < 1 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 8 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 1 from by decide +kernel]; omega⟩
theorem arrAt0_3 (c : Dev nD) : (dat0 V c).arrAt 3 cfg0.N = (acc0 V c 7 (by rw [show cfg0.N = 8 from N_0]; decide)).2 :=
  (dat0 V c).arrAt_eq_of_cover 3 (res0_3 V c) (flushed0_3 V c) fun i =>
    ⟨t0_7, (flush0_3 t0_7).mpr rfl, by
      show i ∈ ((View.whole main_v162_1).slice (win0_3.rect t0_7)).set
      rw [View.set_slice_whole, Rect.mem_set_unit]
      intro a
      have h0 : (i 0 : Nat) < 8 := (i 0).isLt
      have h1 : (i 1 : Nat) < 1 := (i 1).isLt
      match a with
      | ⟨0, _⟩ => show win0_3.index t0_7 0 * win0_3.size 0 ≤ (i 0 : Nat) ∧ (i 0 : Nat) < win0_3.index t0_7 0 * win0_3.size 0 + win0_3.xsize (grid0.coords t0_7) 0
                  rw [show win0_3.index t0_7 0 * win0_3.size 0 = 0 from by decide +kernel, show win0_3.xsize (grid0.coords t0_7) 0 = 8 from by decide +kernel]; omega
      | ⟨1, _⟩ => show win0_3.index t0_7 1 * win0_3.size 1 ≤ (i 1 : Nat) ∧ (i 1 : Nat) < win0_3.index t0_7 1 * win0_3.size 1 + win0_3.xsize (grid0.coords t0_7) 1
                  rw [show win0_3.index t0_7 1 * win0_3.size 1 = 0 from by decide +kernel, show win0_3.xsize (grid0.coords t0_7) 1 = 1 from by decide +kernel]; omega⟩

end

end Cert.KernelIdeal.Hand

end
-- ==== Proof.K.R0.lean ====
/- The word-level program's two kernel functions are, word for word, the idealized program's; so each kernel's frame,
   proved there for any float family, serves here. -/
import proofs.«134848_j7748121002193_1_alg».proof.Proof.Gen.Kernel.Launch
import proofs.«134848_j7748121002193_1_alg».proof.Proof.KI.R0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem cc0_eq : cc0__da_kernel (F := F) = Cert.KernelIdeal.cc0__da_kernel := rfl
theorem k1_part1_eq : k1_part1 (F := F) = Cert.KernelIdeal.k1_part1 := rfl
theorem k1_part2_eq : k1_part2 (F := F) = Cert.KernelIdeal.k1_part2 := rfl
theorem cc1_eq : cc1__rm_kernel (F := F) = Cert.KernelIdeal.cc1__rm_kernel := by
  unfold cc1__rm_kernel Cert.KernelIdeal.cc1__rm_kernel; rw [k1_part1_eq, k1_part2_eq]; rfl

/-- The two programs' kernel functions are one table. -/
theorem defs₀_eq : defs₀ (F := F) = Cert.KernelIdeal.defs₀ := by
  unfold defs₀ Cert.KernelIdeal.defs₀
  congr 1
  funext l a
  match l, a with
  | 0, (t, s) => rw [cc0_eq]; rfl
  | 1, (t, s) => rw [cc1_eq]; rfl
  | ⟨n + 2, h⟩, _ => exact absurd h (by omega)

variable (V : (c : Dev nD) → (b : Ref sig .tc) → Buf (Elt F) ((c : Thread nD τ).loc b))

def dat0 (c : Dev nD) : Dat τ (Elt F) Unit ℕ (UR sig nD τ) ℕ cfg0 c := Cert.KernelIdeal.Hand.dat0 V c

theorem body_obligation0 (c : Dev nD) : BodyObligation (dat0 (F := F) V c) (defs₀ (F := F)) Variants.none () Set.univ := by
  rw [defs₀_eq]; exact Cert.KernelIdeal.Hand.body_obligation0 V c

theorem arrAt0_0 (c : Dev nD) : (dat0 V c).arrAt 0 cfg0.N = V c (Pipeline.arrRef spec0 0) := Cert.KernelIdeal.Hand.arrAt0_0 V c
theorem arrAt0_1 (c : Dev nD) : (dat0 V c).arrAt 1 cfg0.N = V c (Pipeline.arrRef spec0 1) := Cert.KernelIdeal.Hand.arrAt0_1 V c

end Cert.Kernel.Hand

end
-- ==== Proof.KI.R1Runs.lean ====
import proofs.«134848_j7748121002193_1_alg».proof.Proof.Gen.KernelIdeal.Launch
import proofs.«134848_j7748121002193_1_alg».proof.Proof.Gen.KernelIdeal.Skeleton
import proofs.«134848_j7748121002193_1_alg».proof.Proof.Gen.KernelIdeal.Points
import Idealize.ShloMosaic.Lib.Pipeline.FrameBody
import Idealize.ShloMosaic.Lib.Ring
import Idealize.ShloMosaic.Lib.Tactic
import Mathlib.Tactic.FinCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 32 = 0 :=
  (by decide +kernel : ∀ t : Fin grid1.N, cond1_0 (grid1.coords t) ↔ t.val % 32 = 0)

abbrev ms1_0 (t : Fin cfg1.N) : Memref sig .tc .vmem S8x3x32x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x3x32x1024 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x3 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x3 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x3 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x3 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x3 .f32 := win1_6.stage (cfg1.slots t 6)
abbrev hs1_6 (t : Fin cfg1.N) : (ms1_6 t).IsWhole := hstage1_6 ((cfg1.slots t 6).cast nbuf1_6)

theorem hz2 : (![0, 0] : Fin 2 → Nat) = fun _ => 0 := funext fun a => by fin_cases a <;> rfl

end Cert.KernelIdeal.Hand

end
-- ==== Proof.KI.R1RunA.lean ====
import proofs.«134848_j7748121002193_1_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_A (c : Dev nD) (i : grid1.Coords) (arg1 : Memref sig .tc .vmem S8x3x32x1024 .f32) (harg1 : arg1.IsWhole) (arg2 : Memref sig .tc .vmem S8x3x32x1024 .i32) (harg2 : arg2.IsWhole) (arg3 : Memref sig .tc .vmem S8x3 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (hc0 : cond1_0 i)
    (x0 : Vec F S8x3x32x1024 .f32) (x1 : Vec F S8x3x32x1024 .i32) :
    Σ' (L2 : List (View.Piece (Elt F) S8x3 .f32)) (L3 : List (View.Piece (Elt F) S8x3 .f32)) (L4 : List (View.Piece (Elt F) S8x3 .f32)) (L5 : List (View.Piece (Elt F) S8x3 .f32)), { L6 : List (View.Piece (Elt F) S8x3 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc1__rm_kernel i arg1 harg1 arg2 harg2 arg3 harg3 arg4 harg4 arg5 harg5 arg6 harg6 arg7 harg7) K } := by
  refine ⟨?_, ?_, ?_, ?_, ?_, fun E K => ?run⟩
  case run =>
    simp only [cc1__rm_kernel_eq_skeleton]; unfold cc1__rm_kernel_skel
    simp only [k1_part1_eq_skeleton, k1_part2_eq_skeleton]; unfold k1_part1_skel k1_part2_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    iexists _; iexact H6

end Cert.KernelIdeal.Hand

end
-- ==== Proof.KI.R1RunB.lean ====
import proofs.«134848_j7748121002193_1_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun1_B (c : Dev nD) (i : grid1.Coords) (arg1 : Memref sig .tc .vmem S8x3x32x1024 .f32) (harg1 : arg1.IsWhole) (arg2 : Memref sig .tc .vmem S8x3x32x1024 .i32) (harg2 : arg2.IsWhole) (arg3 : Memref sig .tc .vmem S8x3 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole) (hc0 : ¬cond1_0 i)
    (x0 : Vec F S8x3x32x1024 .f32) (x1 : Vec F S8x3x32x1024 .i32)
    (xo2 : Vec F S8x3 .f32) (xo3 : Vec F S8x3 .f32) (xo4 : Vec F S8x3 .f32) (xo5 : Vec F S8x3 .f32) (xo6 : Vec F S8x3 .f32) :
    Σ' (L2 : List (View.Piece (Elt F) S8x3 .f32)) (L3 : List (View.Piece (Elt F) S8x3 .f32)) (L4 : List (View.Piece (Elt F) S8x3 .f32)) (L5 : List (View.Piece (Elt F) S8x3 .f32)), { L6 : List (View.Piece (Elt F) S8x3 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo2 ∗ owns (c : Thread nD τ) arg4 fullShare xo3 ∗ owns (c : Thread nD τ) arg5 fullShare xo4 ∗ owns (c : Thread nD τ) arg6 fullShare xo5 ∗ owns (c : Thread nD τ) arg7 fullShare xo6
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc1__rm_kernel i arg1 harg1 arg2 harg2 arg3 harg3 arg4 harg4 arg5 harg5 arg6 harg6 arg7 harg7) K } := by
  refine ⟨?_, ?_, ?_, ?_, ?_, fun E K => ?run⟩
  case run =>
    simp only [cc1__rm_kernel_eq_skeleton]; unfold cc1__rm_kernel_skel
    simp only [k1_part1_eq_skeleton, k1_part2_eq_skeleton]; unfold k1_part1_skel k1_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1
    obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    iexists _; iexact H6

end Cert.KernelIdeal.Hand

end
-- ==== Proof.KI.R1.lean ====
import proofs.«134848_j7748121002193_1_alg».proof.Proof.Gen.KernelIdeal.Launch
import proofs.«134848_j7748121002193_1_alg».proof.Proof.Gen.KernelIdeal.Skeleton
import proofs.«134848_j7748121002193_1_alg».proof.Proof.Gen.KernelIdeal.Points
import Idealize.ShloMosaic.Lib.Pipeline.FrameBody
import Idealize.ShloMosaic.Lib.Ring
import Idealize.ShloMosaic.Lib.Tactic
import proofs.«134848_j7748121002193_1_alg».proof.Proof.KI.R1RunB
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

structure Acc1 (F : FTy → Type) [FloatOps F] where
  focal : Vec F S8x3 .f32
  inter : Vec F S8x3 .f32
  probrv : Vec F S8x3 .f32
  rtrv : Vec F S8x3 .f32
  rv : Vec F S8x3 .f32

def step1 (x : Vec F S8x3x32x1024 .f32) (k : Vec F S8x3x32x1024 .i32) (a : Acc1 F) : Acc1 F where
  focal := k1_pay14 (k1_pay7 k) (k1_pay9 k) (k1_pay11 x k) (k1_pay12 x k) (k1_pay13 x k) a.focal
  inter := k1_pay15 (k1_pay8 k) (k1_pay9 k) (k1_pay10 x) a.inter
  probrv := k1_pay16 (k1_pay9 k) (k1_pay10 x) a.probrv
  rtrv := k1_pay17 (k1_pay8 k) (k1_pay9 k) a.rtrv
  rv := k1_pay1 (k1_pay9 k) a.rv

def zero1 : Acc1 F := ⟨k1_pay2, k1_pay3, k1_pay4, k1_pay5, k1_pay6⟩

theorem hz4 : (![0, 0, 0, 0] : Fin 4 → Nat) = fun _ => 0 := funext fun a => by fin_cases a <;> rfl

section
variable (c : Dev nD) (i : grid1.Coords) (arg1 : Memref sig .tc .vmem S8x3x32x1024 .f32) (harg1 : arg1.IsWhole) (arg2 : Memref sig .tc .vmem S8x3x32x1024 .i32) (harg2 : arg2.IsWhole) (arg3 : Memref sig .tc .vmem S8x3 .f32) (harg3 : arg3.IsWhole) (arg4 : Memref sig .tc .vmem S8x3 .f32) (harg4 : arg4.IsWhole) (arg5 : Memref sig .tc .vmem S8x3 .f32) (harg5 : arg5.IsWhole) (arg6 : Memref sig .tc .vmem S8x3 .f32) (harg6 : arg6.IsWhole) (arg7 : Memref sig .tc .vmem S8x3 .f32) (harg7 : arg7.IsWhole)

theorem cover1_A_2 (hc0 : cond1_0 i)
    (x0 : Vec F S8x3x32x1024 .f32) (x1 : Vec F S8x3x32x1024 .i32) (y : S8x3.Idx) :
    ∃ pc ∈ (kernelRun1_A c i arg1 harg1 arg2 harg2 arg3 harg3 arg4 harg4 arg5 harg5 arg6 harg6 arg7 harg7 hc0 x0 x1).1, y ∈ pc.1.set :=
  View.cover_of_tiledL (kernelRun1_A c i arg1 harg1 arg2 harg2 arg3 harg3 arg4 harg4 arg5 harg5 arg6 harg6 arg7 harg7 hc0 x0 x1).1 S8x3.size (by sl_kernel_rfl) y

theorem canon1_A_2 (hc0 : cond1_0 i)
    (x0 : Vec F S8x3x32x1024 .f32) (x1 : Vec F S8x3x32x1024 .i32) :
    View.canon (kernelRun1_A c i arg1 harg1 arg2 harg2 arg3 harg3 arg4 harg4 arg5 harg5 arg6 harg6 arg7 harg7 hc0 x0 x1).1 = k1_pay14 (k1_pay7 x1) (k1_pay9 x1) (k1_pay11 x0 x1) (k1_pay12 x0 x1) (k1_pay13 x0 x1) k1_pay2 := by
  unfold kernelRun1_A
  dsimp only
  sl_unfold_words
  rw [View.canon_cons_unit_zero (S := S8x3) hz2, View.readCov_unit_zero (S := S8x3) _ hz2]
  simp only [View.readAt_eq_ld, harg1.read_unread, harg2.read_unread, harg3.read_unread, harg4.read_unread, harg5.read_unread, harg6.read_unread, harg7.read_unread, View.ld_unit_zero (S := S8x3x32x1024) hz4, View.ld_unit_zero (S := S8x3) hz2]

theorem cover1_B_2 (hc0 : ¬cond1_0 i)
    (x0 : Vec F S8x3x32x1024 .f32) (x1 : Vec F S8x3x32x1024 .i32)
    (xo2 : Vec F S8x3 .f32) (xo3 : Vec F S8x3 .f32) (xo4 : Vec F S8x3 .f32) (xo5 : Vec F S8x3 .f32) (xo6 : Vec F S8x3 .f32) (y : S8x3.Idx) :
    ∃ pc ∈ (kernelRun1_B c i arg1 harg1 arg2 harg2 arg3 harg3 arg4 harg4 arg5 harg5 arg6 harg6 arg7 harg7 hc0 x0 x1 xo2 xo3 xo4 xo5 xo6).1, y ∈ pc.1.set :=
  View.cover_of_tiledL (kernelRun1_B c i arg1 harg1 arg2 harg2 arg3 harg3 arg4 harg4 arg5 harg5 arg6 harg6 arg7 harg7 hc0 x0 x1 xo2 xo3 xo4 xo5 xo6).1 S8x3.size (by sl_kernel_rfl) y

theorem canon1_B_2 (hc0 : ¬cond1_0 i)
    (x0 : Vec F S8x3x32x1024 .f32) (x1 : Vec F S8x3x32x1024 .i32)
    (xo2 : Vec F S8x3 .f32) (xo3 : Vec F S8x3 .f32) (xo4 : Vec F S8x3 .f32) (xo5 : Vec F S8x3 .f32) (xo6 : Vec F S8x3 .f32) :
    View.canon (kernelRun1_B c i arg1 harg1 arg2 harg2 arg3 harg3 arg4 harg4 arg5 harg5 arg6 harg6 arg7 harg7 hc0 x0 x1 xo2 xo3 xo4 xo5 xo6).1 = k1_pay14 (k1_pay7 x1) (k1_pay9 x1) (k1_pay11 x0 x1) (k1_pay12 x0 x1) (k1_pay13 x0 x1) xo2 := by
  unfold kernelRun1_B
  dsimp only
  rw [View.canon_unit_zero (S := S8x3) hz2]
  simp only [View.readAt_eq_ld, harg1.read_unread, harg2.read_unread, harg3.read_unread, harg4.read_unread, harg5.read_unread, harg6.read_unread, harg7.read_unread, View.ld_unit_zero (S := S8x3x32x1024) hz4, View.ld_unit_zero (S := S8x3) hz2]

theorem cover1_A_3 (hc0 : cond1_0 i)
    (x0 : Vec F S8x3x32x1024 .f32) (x1 : Vec F S8x3x32x1024 .i32) (y : S8x3.Idx) :
    ∃ pc ∈ (kernelRun1_A c i arg1 harg1 arg2 harg2 arg3 harg3 arg4 harg4 arg5 harg5 arg6 harg6 arg7 harg7 hc0 x0 x1).2.1, y ∈ pc.1.set :=
  View.cover_of_tiledL (kernelRun1_A c i arg1 harg1 arg2 harg2 arg3 harg3 arg4 harg4 arg5 harg5 arg6 harg6 arg7 harg7 hc0 x0 x1).2.1 S8x3.size (by sl_kernel_rfl) y

theorem canon1_A_3 (hc0 : cond1_0 i)
    (x0 : Vec F S8x3x32x1024 .f32) (x1 : Vec F S8x3x32x1024 .i32) :
    View.canon (kernelRun1_A c i arg1 harg1 arg2 harg2 arg3 harg3 arg4 harg4 arg5 harg5 arg6 harg6 arg7 harg7 hc0 x0 x1).2.1 = k1_pay15 (k1_pay8 x1) (k1_pay9 x1) (k1_pay10 x0) k1_pay3 := by
  unfold kernelRun1_A
  dsimp only
  sl_unfold_words
  rw [View.canon_cons_unit_zero (S := S8x3) hz2, View.readCov_unit_zero (S := S8x3) _ hz2]
  simp only [View.readAt_eq_ld, harg1.read_unread, harg2.read_unread, harg3.read_unread, harg4.read_unread, harg5.read_unread, harg6.read_unread, harg7.read_unread, View.ld_unit_zero (S := S8x3x32x1024) hz4, View.ld_unit_zero (S := S8x3) hz2]

theorem cover1_B_3 (hc0 : ¬cond1_0 i)
    (x0 : Vec F S8x3x32x1024 .f32) (x1 : Vec F S8x3x32x1024 .i32)
    (xo2 : Vec F S8x3 .f32) (xo3 : Vec F S8x3 .f32) (xo4 : Vec F S8x3 .f32) (xo5 : Vec F S8x3 .f32) (xo6 : Vec F S8x3 .f32) (y : S8x3.Idx) :
    ∃ pc ∈ (kernelRun1_B c i arg1 harg1 arg2 harg2 arg3 harg3 arg4 harg4 arg5 harg5 arg6 harg6 arg7 harg7 hc0 x0 x1 xo2 xo3 xo4 xo5 xo6).2.1, y ∈ pc.1.set :=
  View.cover_of_tiledL (kernelRun1_B c i arg1 harg1 arg2 harg2 arg3 harg3 arg4 harg4 arg5 harg5 arg6 harg6 arg7 harg7 hc0 x0 x1 xo2 xo3 xo4 xo5 xo6).2.1 S8x3.size (by sl_kernel_rfl) y

theorem canon1_B_3 (hc0 : ¬cond1_0 i)
    (x0 : Vec F S8x3x32x1024 .f32) (x1 : Vec F S8x3x32x1024 .i32)
    (xo2 : Vec F S8x3 .f32) (xo3 : Vec F S8x3 .f32) (xo4 : Vec F S8x3 .f32) (xo5 : Vec F S8x3 .f32) (xo6 : Vec F S8x3 .f32) :
    View.canon (kernelRun1_B c i arg1 harg1 arg2 harg2 arg3 harg3 arg4 harg4 arg5 harg5 arg6 harg6 arg7 harg7 hc0 x0 x1 xo2 xo3 xo4 xo5 xo6).2.1 = k1_pay15 (k1_pay8 x1) (k1_pay9 x1) (k1_pay10 x0) xo3 := by
  unfold kernelRun1_B
  dsimp only
  rw [View.canon_unit_zero (S := S8x3) hz2]
  simp only [View.readAt_eq_ld, harg1.read_unread, harg2.read_unread, harg3.read_unread, harg4.read_unread, harg5.read_unread, harg6.read_unread, harg7.read_unread, View.ld_unit_zero (S := S8x3x32x1024) hz4, View.ld_unit_zero (S := S8x3) hz2]

theorem cover1_A_4 (hc0 : cond1_0 i)
    (x0 : Vec F S8x3x32x1024 .f32) (x1 : Vec F S8x3x32x1024 .i32) (y : S8x3.Idx) :
    ∃ pc ∈ (kernelRun1_A c i arg1 harg1 arg2 harg2 arg3 harg3 arg4 harg4 arg5 harg5 arg6 harg6 arg7 harg7 hc0 x0 x1).2.2.1, y ∈ pc.1.set :=
  View.cover_of_tiledL (kernelRun1_A c i arg1 harg1 arg2 harg2 arg3 harg3 arg4 harg4 arg5 harg5 arg6 harg6 arg7 harg7 hc0 x0 x1).2.2.1 S8x3.size (by sl_kernel_rfl) y

theorem canon1_A_4 (hc0 : cond1_0 i)
    (x0 : Vec F S8x3x32x1024 .f32) (x1 : Vec F S8x3x32x1024 .i32) :
    View.canon (kernelRun1_A c i arg1 harg1 arg2 harg2 arg3 harg3 arg4 harg4 arg5 harg5 arg6 harg6 arg7 harg7 hc0 x0 x1).2.2.1 = k1_pay16 (k1_pay9 x1) (k1_pay10 x0) k1_pay4 := by
  unfold kernelRun1_A
  dsimp only
  sl_unfold_words
  rw [View.canon_cons_unit_zero (S := S8x3) hz2, View.readCov_unit_zero (S := S8x3) _ hz2]
  simp only [View.readAt_eq_ld, harg1.read_unread, harg2.read_unread, harg3.read_unread, harg4.read_unread, harg5.read_unread, harg6.read_unread, harg7.read_unread, View.ld_unit_zero (S := S8x3x32x1024) hz4, View.ld_unit_zero (S := S8x3) hz2]

theorem cover1_B_4 (hc0 : ¬cond1_0 i)
    (x0 : Vec F S8x3x32x1024 .f32) (x1 : Vec F S8x3x32x1024 .i32)
    (xo2 : Vec F S8x3 .f32) (xo3 : Vec F S8x3 .f32) (xo4 : Vec F S8x3 .f32) (xo5 : Vec F S8x3 .f32) (xo6 : Vec F S8x3 .f32) (y : S8x3.Idx) :
    ∃ pc ∈ (kernelRun1_B c i arg1 harg1 arg2 harg2 arg3 harg3 arg4 harg4 arg5 harg5 arg6 harg6 arg7 harg7 hc0 x0 x1 xo2 xo3 xo4 xo5 xo6).2.2.1, y ∈ pc.1.set :=
  View.cover_of_tiledL (kernelRun1_B c i arg1 harg1 arg2 harg2 arg3 harg3 arg4 harg4 arg5 harg5 arg6 harg6 arg7 harg7 hc0 x0 x1 xo2 xo3 xo4 xo5 xo6).2.2.1 S8x3.size (by sl_kernel_rfl) y

theorem canon1_B_4 (hc0 : ¬cond1_0 i)
    (x0 : Vec F S8x3x32x1024 .f32) (x1 : Vec F S8x3x32x1024 .i32)
    (xo2 : Vec F S8x3 .f32) (xo3 : Vec F S8x3 .f32) (xo4 : Vec F S8x3 .f32) (xo5 : Vec F S8x3 .f32) (xo6 : Vec F S8x3 .f32) :
    View.canon (kernelRun1_B c i arg1 harg1 arg2 harg2 arg3 harg3 arg4 harg4 arg5 harg5 arg6 harg6 arg7 harg7 hc0 x0 x1 xo2 xo3 xo4 xo5 xo6).2.2.1 = k1_pay16 (k1_pay9 x1) (k1_pay10 x0) xo4 := by
  unfold kernelRun1_B
  dsimp only
  rw [View.canon_unit_zero (S := S8x3) hz2]
  simp only [View.readAt_eq_ld, harg1.read_unread, harg2.read_unread, harg3.read_unread, harg4.read_unread, harg5.read_unread, harg6.read_unread, harg7.read_unread, View.ld_unit_zero (S := S8x3x32x1024) hz4, View.ld_unit_zero (S := S8x3) hz2]

theorem cover1_A_5 (hc0 : cond1_0 i)
    (x0 : Vec F S8x3x32x1024 .f32) (x1 : Vec F S8x3x32x1024 .i32) (y : S8x3.Idx) :
    ∃ pc ∈ (kernelRun1_A c i arg1 harg1 arg2 harg2 arg3 harg3 arg4 harg4 arg5 harg5 arg6 harg6 arg7 harg7 hc0 x0 x1).2.2.2.1, y ∈ pc.1.set :=
  View.cover_of_tiledL (kernelRun1_A c i arg1 harg1 arg2 harg2 arg3 harg3 arg4 harg4 arg5 harg5 arg6 harg6 arg7 harg7 hc0 x0 x1).2.2.2.1 S8x3.size (by sl_kernel_rfl) y

theorem canon1_A_5 (hc0 : cond1_0 i)
    (x0 : Vec F S8x3x32x1024 .f32) (x1 : Vec F S8x3x32x1024 .i32) :
    View.canon (kernelRun1_A c i arg1 harg1 arg2 harg2 arg3 harg3 arg4 harg4 arg5 harg5 arg6 harg6 arg7 harg7 hc0 x0 x1).2.2.2.1 = k1_pay17 (k1_pay8 x1) (k1_pay9 x1) k1_pay5 := by
  unfold kernelRun1_A
  dsimp only
  sl_unfold_words
  rw [View.canon_cons_unit_zero (S := S8x3) hz2, View.readCov_unit_zero (S := S8x3) _ hz2]
  simp only [View.readAt_eq_ld, harg1.read_unread, harg2.read_unread, harg3.read_unread, harg4.read_unread, harg5.read_unread, harg6.read_unread, harg7.read_unread, View.ld_unit_zero (S := S8x3x32x1024) hz4, View.ld_unit_zero (S := S8x3) hz2]

theorem cover1_B_5 (hc0 : ¬cond1_0 i)
    (x0 : Vec F S8x3x32x1024 .f32) (x1 : Vec F S8x3x32x1024 .i32)
    (xo2 : Vec F S8x3 .f32) (xo3 : Vec F S8x3 .f32) (xo4 : Vec F S8x3 .f32) (xo5 : Vec F S8x3 .f32) (xo6 : Vec F S8x3 .f32) (y : S8x3.Idx) :
    ∃ pc ∈ (kernelRun1_B c i arg1 harg1 arg2 harg2 arg3 harg3 arg4 harg4 arg5 harg5 arg6 harg6 arg7 harg7 hc0 x0 x1 xo2 xo3 xo4 xo5 xo6).2.2.2.1, y ∈ pc.1.set :=
  View.cover_of_tiledL (kernelRun1_B c i arg1 harg1 arg2 harg2 arg3 harg3 arg4 harg4 arg5 harg5 arg6 harg6 arg7 harg7 hc0 x0 x1 xo2 xo3 xo4 xo5 xo6).2.2.2.1 S8x3.size (by sl_kernel_rfl) y

theorem canon1_B_5 (hc0 : ¬cond1_0 i)
    (x0 : Vec F S8x3x32x1024 .f32) (x1 : Vec F S8x3x32x1024 .i32)
    (xo2 : Vec F S8x3 .f32) (xo3 : Vec F S8x3 .f32) (xo4 : Vec F S8x3 .f32) (xo5 : Vec F S8x3 .f32) (xo6 : Vec F S8x3 .f32) :
    View.canon (kernelRun1_B c i arg1 harg1 arg2 harg2 arg3 harg3 arg4 harg4 arg5 harg5 arg6 harg6 arg7 harg7 hc0 x0 x1 xo2 xo3 xo4 xo5 xo6).2.2.2.1 = k1_pay17 (k1_pay8 x1) (k1_pay9 x1) xo5 := by
  unfold kernelRun1_B
  dsimp only
  rw [View.canon_unit_zero (S := S8x3) hz2]
  simp only [View.readAt_eq_ld, harg1.read_unread, harg2.read_unread, harg3.read_unread, harg4.read_unread, harg5.read_unread, harg6.read_unread, harg7.read_unread, View.ld_unit_zero (S := S8x3x32x1024) hz4, View.ld_unit_zero (S := S8x3) hz2]

theorem cover1_A_6 (hc0 : cond1_0 i)
    (x0 : Vec F S8x3x32x1024 .f32) (x1 : Vec F S8x3x32x1024 .i32) (y : S8x3.Idx) :
    ∃ pc ∈ (kernelRun1_A c i arg1 harg1 arg2 harg2 arg3 harg3 arg4 harg4 arg5 harg5 arg6 harg6 arg7 harg7 hc0 x0 x1).2.2.2.2.1, y ∈ pc.1.set :=
  View.cover_of_tiledL (kernelRun1_A c i arg1 harg1 arg2 harg2 arg3 harg3 arg4 harg4 arg5 harg5 arg6 harg6 arg7 harg7 hc0 x0 x1).2.2.2.2.1 S8x3.size (by sl_kernel_rfl) y

theorem canon1_A_6 (hc0 : cond1_0 i)
    (x0 : Vec F S8x3x32x1024 .f32) (x1 : Vec F S8x3x32x1024 .i32) :
    View.canon (kernelRun1_A c i arg1 harg1 arg2 harg2 arg3 harg3 arg4 harg4 arg5 harg5 arg6 harg6 arg7 harg7 hc0 x0 x1).2.2.2.2.1 = k1_pay1 (k1_pay9 x1) k1_pay6 := by
  unfold kernelRun1_A
  dsimp only
  sl_unfold_words
  rw [View.canon_cons_unit_zero (S := S8x3) hz2, View.readCov_unit_zero (S := S8x3) _ hz2]
  simp only [View.readAt_eq_ld, harg1.read_unread, harg2.read_unread, harg3.read_unread, harg4.read_unread, harg5.read_unread, harg6.read_unread, harg7.read_unread, View.ld_unit_zero (S := S8x3x32x1024) hz4, View.ld_unit_zero (S := S8x3) hz2]

theorem cover1_B_6 (hc0 : ¬cond1_0 i)
    (x0 : Vec F S8x3x32x1024 .f32) (x1 : Vec F S8x3x32x1024 .i32)
    (xo2 : Vec F S8x3 .f32) (xo3 : Vec F S8x3 .f32) (xo4 : Vec F S8x3 .f32) (xo5 : Vec F S8x3 .f32) (xo6 : Vec F S8x3 .f32) (y : S8x3.Idx) :
    ∃ pc ∈ (kernelRun1_B c i arg1 harg1 arg2 harg2 arg3 harg3 arg4 harg4 arg5 harg5 arg6 harg6 arg7 harg7 hc0 x0 x1 xo2 xo3 xo4 xo5 xo6).2.2.2.2.1, y ∈ pc.1.set :=
  View.cover_of_tiledL (kernelRun1_B c i arg1 harg1 arg2 harg2 arg3 harg3 arg4 harg4 arg5 harg5 arg6 harg6 arg7 harg7 hc0 x0 x1 xo2 xo3 xo4 xo5 xo6).2.2.2.2.1 S8x3.size (by sl_kernel_rfl) y

theorem canon1_B_6 (hc0 : ¬cond1_0 i)
    (x0 : Vec F S8x3x32x1024 .f32) (x1 : Vec F S8x3x32x1024 .i32)
    (xo2 : Vec F S8x3 .f32) (xo3 : Vec F S8x3 .f32) (xo4 : Vec F S8x3 .f32) (xo5 : Vec F S8x3 .f32) (xo6 : Vec F S8x3 .f32) :
    View.canon (kernelRun1_B c i arg1 harg1 arg2 harg2 arg3 harg3 arg4 harg4 arg5 harg5 arg6 harg6 arg7 harg7 hc0 x0 x1 xo2 xo3 xo4 xo5 xo6).2.2.2.2.1 = k1_pay1 (k1_pay9 x1) xo6 := by
  unfold kernelRun1_B
  dsimp only
  rw [View.canon_unit_zero (S := S8x3) hz2]
  simp only [View.readAt_eq_ld, harg1.read_unread, harg2.read_unread, harg3.read_unread, harg4.read_unread, harg5.read_unread, harg6.read_unread, harg7.read_unread, View.ld_unit_zero (S := S8x3x32x1024) hz4, View.ld_unit_zero (S := S8x3) hz2]

end

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xlog1 (c : Dev nD) (t : Fin cfg1.N) : Vec F S8x3x32x1024 .f32 := iblk1 V c 0 t
abbrev xmsk1 (c : Dev nD) (t : Fin cfg1.N) : Vec F S8x3x32x1024 .i32 := iblk1 V c 1 t

def acc1 (c : Dev nD) : (n : ℕ) → n < cfg1.N → Acc1 F
  | 0, h => step1 (xlog1 V c ⟨0, h⟩) (xmsk1 V c ⟨0, h⟩) zero1
  | n + 1, h => step1 (xlog1 V c ⟨n + 1, h⟩) (xmsk1 V c ⟨n + 1, h⟩) (acc1 c n (Nat.lt_of_succ_lt h))

theorem acc1_zero (c : Dev nD) (h : 0 < cfg1.N) :
    acc1 V c 0 h = step1 (xlog1 V c ⟨0, h⟩) (xmsk1 V c ⟨0, h⟩) zero1 := rfl

theorem acc1_succ (c : Dev nD) (n : ℕ) (h : n + 1 < cfg1.N) :
    acc1 V c (n + 1) h = step1 (xlog1 V c ⟨n + 1, h⟩) (xmsk1 V c ⟨n + 1, h⟩) (acc1 V c n (Nat.lt_of_succ_lt h)) := rfl

theorem acc1_A (c : Dev nD) (t : Fin cfg1.N) (h0 : t.val % 32 = 0) :
    acc1 V c t.val t.isLt = step1 (xlog1 V c t) (xmsk1 V c t) zero1 := by
  obtain ⟨n, hn⟩ := t
  have hN : n < 32 := lt_of_lt_of_eq hn (show cfg1.N = 32 from N_1)
  cases n with
  | zero => exact rfl
  | succ n => exact absurd h0 (by dsimp only; omega)

theorem acc1_B (c : Dev nD) (t : Fin cfg1.N) (h0 : ¬t.val % 32 = 0) :
    acc1 V c t.val t.isLt = step1 (xlog1 V c t) (xmsk1 V c t) (acc1 V c (t.val - 1) (Nat.lt_of_le_of_lt (Nat.sub_le _ _) t.isLt)) := by
  obtain ⟨n, hn⟩ := t
  cases n with
  | zero => exact absurd (Nat.zero_mod _) h0
  | succ n => exact rfl

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The second kernel's proof data: after point `t` the five accumulators hold the sums over the bands up to `t`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (acc1 V c t.val t.isLt).focal
    | ⟨3, _⟩ => (acc1 V c t.val t.isLt).inter
    | ⟨4, _⟩ => (acc1 V c t.val t.isLt).probrv
    | ⟨5, _⟩ => (acc1 V c t.val t.isLt).rtrv
    | ⟨6, _⟩ => (acc1 V c t.val t.isLt).rv
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (acc1 V c t.val t.isLt).focal := by dsimp only [dat1]
theorem after1_3 (c : Dev nD) (t : Fin cfg1.N) : (dat1 V c).after 3 t = (acc1 V c t.val t.isLt).inter := by dsimp only [dat1]
theorem after1_4 (c : Dev nD) (t : Fin cfg1.N) : (dat1 V c).after 4 t = (acc1 V c t.val t.isLt).probrv := by dsimp only [dat1]
theorem after1_5 (c : Dev nD) (t : Fin cfg1.N) : (dat1 V c).after 5 t = (acc1 V c t.val t.isLt).rtrv := by dsimp only [dat1]
theorem after1_6 (c : Dev nD) (t : Fin cfg1.N) : (dat1 V c).after 6 t = (acc1 V c t.val t.isLt).rv := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem before1_2_B (c : Dev nD) (t : Fin cfg1.N) (h0 : ¬t.val % 32 = 0) (d) :
    (dat1 V c).before 2 t d = (acc1 V c (t.val - 1) (Nat.lt_of_le_of_lt (Nat.sub_le _ _) t.isLt)).focal := by
  have hN : t.val < 32 := lt_of_lt_of_eq t.isLt (show cfg1.N = 32 from N_1)
  rw [Dat.before_out_kept _ 2 rfl t (by omega) (Bool.eq_false_iff.mpr fun h => by have := (flush1_2 _).mp h; dsimp only at this; omega)
    (fun _ => rfl) (fun _ _ => rfl)]
  dsimp only [dat1]
theorem before1_3_B (c : Dev nD) (t : Fin cfg1.N) (h0 : ¬t.val % 32 = 0) (d) :
    (dat1 V c).before 3 t d = (acc1 V c (t.val - 1) (Nat.lt_of_le_of_lt (Nat.sub_le _ _) t.isLt)).inter := by
  have hN : t.val < 32 := lt_of_lt_of_eq t.isLt (show cfg1.N = 32 from N_1)
  rw [Dat.before_out_kept _ 3 rfl t (by omega) (Bool.eq_false_iff.mpr fun h => by have := (flush1_3 _).mp h; dsimp only at this; omega)
    (fun _ => rfl) (fun _ _ => rfl)]
  dsimp only [dat1]
theorem before1_4_B (c : Dev nD) (t : Fin cfg1.N) (h0 : ¬t.val % 32 = 0) (d) :
    (dat1 V c).before 4 t d = (acc1 V c (t.val - 1) (Nat.lt_of_le_of_lt (Nat.sub_le _ _) t.isLt)).probrv := by
  have hN : t.val < 32 := lt_of_lt_of_eq t.isLt (show cfg1.N = 32 from N_1)
  rw [Dat.before_out_kept _ 4 rfl t (by omega) (Bool.eq_false_iff.mpr fun h => by have := (flush1_4 _).mp h; dsimp only at this; omega)
    (fun _ => rfl) (fun _ _ => rfl)]
  dsimp only [dat1]
theorem before1_5_B (c : Dev nD) (t : Fin cfg1.N) (h0 : ¬t.val % 32 = 0) (d) :
    (dat1 V c).before 5 t d = (acc1 V c (t.val - 1) (Nat.lt_of_le_of_lt (Nat.sub_le _ _) t.isLt)).rtrv := by
  have hN : t.val < 32 := lt_of_lt_of_eq t.isLt (show cfg1.N = 32 from N_1)
  rw [Dat.before_out_kept _ 5 rfl t (by omega) (Bool.eq_false_iff.mpr fun h => by have := (flush1_5 _).mp h; dsimp only at this; omega)
    (fun _ => rfl) (fun _ _ => rfl)]
  dsimp only [dat1]
theorem before1_6_B (c : Dev nD) (t : Fin cfg1.N) (h0 : ¬t.val % 32 = 0) (d) :
    (dat1 V c).before 6 t d = (acc1 V c (t.val - 1) (Nat.lt_of_le_of_lt (Nat.sub_le _ _) t.isLt)).rv := by
  have hN : t.val < 32 := lt_of_lt_of_eq t.isLt (show cfg1.N = 32 from N_1)
  rw [Dat.before_out_kept _ 6 rfl t (by omega) (Bool.eq_false_iff.mpr fun h => by have := (flush1_6 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 1600000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  have hN : t.val < 32 := lt_of_lt_of_eq t.isLt (show cfg1.N = 32 from N_1)
  have hp : t.val - 1 < cfg1.N := Nat.lt_of_le_of_lt (Nat.sub_le _ _) t.isLt
  by_cases h0 : t.val % 32 = 0
  · rw [acc1_A V c t h0]
    dsimp only [step1, zero1]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    unfold owns
    isplitl [H2]
    · iexists _; isplitr
      swap; · iexact H2
      ipureintro; exact (View.read_writes_eq_canon _ _ _ (cover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t))).trans (canon1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t))
    isplitl [H3]
    · iexists _; isplitr
      swap; · iexact H3
      ipureintro; exact (View.read_writes_eq_canon _ _ _ (cover1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t))).trans (canon1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t))
    isplitl [H4]
    · iexists _; isplitr
      swap; · iexact H4
      ipureintro; exact (View.read_writes_eq_canon _ _ _ (cover1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t))).trans (canon1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t))
    isplitl [H5]
    · iexists _; isplitr
      swap; · iexact H5
      ipureintro; exact (View.read_writes_eq_canon _ _ _ (cover1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t))).trans (canon1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t))
    iexists _; isplitr
    swap; · iexact H6
    ipureintro; exact (View.read_writes_eq_canon _ _ _ (cover1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t))).trans (canon1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t))
  · rw [acc1_B V c t h0]
    simp only [before1_2_B V c t h0, before1_3_B V c t h0, before1_4_B V c t h0, before1_5_B V c t h0, before1_6_B V c t h0]
    dsimp only [step1]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t)
      (acc1 V c (t.val - 1) hp).focal (acc1 V c (t.val - 1) hp).inter
      (acc1 V c (t.val - 1) hp).probrv (acc1 V c (t.val - 1) hp).rtrv
      (acc1 V c (t.val - 1) hp).rv).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    unfold owns
    isplitl [H2]
    · iexists _; isplitr
      swap; · iexact H2
      ipureintro; exact (View.read_writes_eq_canon _ _ _ (cover1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (acc1 V c (t.val - 1) hp).focal (acc1 V c (t.val - 1) hp).inter (acc1 V c (t.val - 1) hp).probrv (acc1 V c (t.val - 1) hp).rtrv (acc1 V c (t.val - 1) hp).rv)).trans (canon1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (acc1 V c (t.val - 1) hp).focal (acc1 V c (t.val - 1) hp).inter (acc1 V c (t.val - 1) hp).probrv (acc1 V c (t.val - 1) hp).rtrv (acc1 V c (t.val - 1) hp).rv)
    isplitl [H3]
    · iexists _; isplitr
      swap; · iexact H3
      ipureintro; exact (View.read_writes_eq_canon _ _ _ (cover1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (acc1 V c (t.val - 1) hp).focal (acc1 V c (t.val - 1) hp).inter (acc1 V c (t.val - 1) hp).probrv (acc1 V c (t.val - 1) hp).rtrv (acc1 V c (t.val - 1) hp).rv)).trans (canon1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (acc1 V c (t.val - 1) hp).focal (acc1 V c (t.val - 1) hp).inter (acc1 V c (t.val - 1) hp).probrv (acc1 V c (t.val - 1) hp).rtrv (acc1 V c (t.val - 1) hp).rv)
    isplitl [H4]
    · iexists _; isplitr
      swap; · iexact H4
      ipureintro; exact (View.read_writes_eq_canon _ _ _ (cover1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (acc1 V c (t.val - 1) hp).focal (acc1 V c (t.val - 1) hp).inter (acc1 V c (t.val - 1) hp).probrv (acc1 V c (t.val - 1) hp).rtrv (acc1 V c (t.val - 1) hp).rv)).trans (canon1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (acc1 V c (t.val - 1) hp).focal (acc1 V c (t.val - 1) hp).inter (acc1 V c (t.val - 1) hp).probrv (acc1 V c (t.val - 1) hp).rtrv (acc1 V c (t.val - 1) hp).rv)
    isplitl [H5]
    · iexists _; isplitr
      swap; · iexact H5
      ipureintro; exact (View.read_writes_eq_canon _ _ _ (cover1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (acc1 V c (t.val - 1) hp).focal (acc1 V c (t.val - 1) hp).inter (acc1 V c (t.val - 1) hp).probrv (acc1 V c (t.val - 1) hp).rtrv (acc1 V c (t.val - 1) hp).rv)).trans (canon1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (acc1 V c (t.val - 1) hp).focal (acc1 V c (t.val - 1) hp).inter (acc1 V c (t.val - 1) hp).probrv (acc1 V c (t.val - 1) hp).rtrv (acc1 V c (t.val - 1) hp).rv)
    iexists _; isplitr
    swap; · iexact H6
    ipureintro; exact (View.read_writes_eq_canon _ _ _ (cover1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (acc1 V c (t.val - 1) hp).focal (acc1 V c (t.val - 1) hp).inter (acc1 V c (t.val - 1) hp).probrv (acc1 V c (t.val - 1) hp).rtrv (acc1 V c (t.val - 1) hp).rv)).trans (canon1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (acc1 V c (t.val - 1) hp).focal (acc1 V c (t.val - 1) hp).inter (acc1 V c (t.val - 1) hp).probrv (acc1 V c (t.val - 1) hp).rtrv (acc1 V c (t.val - 1) hp).rv)

theorem body_obligation1 (c : Dev nD) : BodyObligation (dat1 (F := F) V c) (defs₀ (F := F)) Variants.none () Set.univ := fun t => by
  rw [bigSep_W1, bigSep_W1]
  exact sound_body1 V c t

def tlast1 : Fin grid1.N := ⟨31, by rw [N_1]; decide⟩

theorem arrAt1_0 (c : Dev nD) : (dat1 V c).arrAt 0 cfg1.N = V c (Pipeline.arrRef spec1 0) :=
  ((dat1 V c).arrAt_in 0 rfl _).trans (A_eq1 V c 0)
theorem arrAt1_1 (c : Dev nD) : (dat1 V c).arrAt 1 cfg1.N = V c (Pipeline.arrRef spec1 1) :=
  ((dat1 V c).arrAt_in 1 rfl _).trans (A_eq1 V c 1)

theorem lt31 : 31 < cfg1.N := by rw [show cfg1.N = 32 from N_1]; decide

theorem flushed1_2 (c : Dev nD) (t : Fin cfg1.N) (hf : (cfg1.win 2).flush t = true) :
    (dat1 V c).flushed 2 t = ((cfg1.win 2).blk t).view.read (Elt F) (acc1 V c 31 lt31).focal := by
  have hN : cfg1.N = 32 := N_1
  have h31 : t.val = 31 := by have := (flush1_2 t).mp hf; have := t.isLt; omega
  obtain rfl : t = tlast1 := Fin.ext h31
  show (cfg1.win 2).cut (grid1.coords tlast1) ((dat1 V c).after 2 tlast1) = _
  rw [after1_2]
  have hz' : (fun a => win1_2.index tlast1 a * main_v178_0.ty.shape.size a) = fun _ => 0 := funext fun a => by fin_cases a <;> decide +kernel
  exact (Memref.read_access_unit_zero (Elt F) main_v178_0 hz' (fun a => by rw [congrFun hz' a]; simp) (acc1 V c 31 lt31).focal).symm

theorem arrAt1_2 (c : Dev nD) : (dat1 V c).arrAt 2 cfg1.N = (acc1 V c 31 lt31).focal :=
  (dat1 V c).arrAt_eq_of_cover 2 (acc1 V c 31 lt31).focal (flushed1_2 V c) fun i =>
    ⟨tlast1, (flush1_2 tlast1).mpr rfl, by
      show i ∈ ((View.whole main_v178_0).slice (win1_2.rect tlast1)).set
      rw [View.set_slice_whole, Rect.mem_set_unit]
      intro a
      have h0 : (i 0 : Nat) < 8 := (i 0).isLt
      have h1 : (i 1 : Nat) < 3 := (i 1).isLt
      match a with
      | ⟨0, _⟩ => show win1_2.index tlast1 0 * win1_2.size 0 ≤ (i 0 : Nat) ∧ (i 0 : Nat) < win1_2.index tlast1 0 * win1_2.size 0 + win1_2.xsize (grid1.coords tlast1) 0
                  rw [show win1_2.index tlast1 0 * win1_2.size 0 = 0 from by decide +kernel, show win1_2.xsize (grid1.coords tlast1) 0 = 8 from by decide +kernel]; omega
      | ⟨1, _⟩ => show win1_2.index tlast1 1 * win1_2.size 1 ≤ (i 1 : Nat) ∧ (i 1 : Nat) < win1_2.index tlast1 1 * win1_2.size 1 + win1_2.xsize (grid1.coords tlast1) 1
                  rw [show win1_2.index tlast1 1 * win1_2.size 1 = 0 from by decide +kernel, show win1_2.xsize (grid1.coords tlast1) 1 = 3 from by decide +kernel]; omega⟩

theorem flushed1_3 (c : Dev nD) (t : Fin cfg1.N) (hf : (cfg1.win 3).flush t = true) :
    (dat1 V c).flushed 3 t = ((cfg1.win 3).blk t).view.read (Elt F) (acc1 V c 31 lt31).inter := by
  have hN : cfg1.N = 32 := N_1
  have h31 : t.val = 31 := by have := (flush1_3 t).mp hf; have := t.isLt; omega
  obtain rfl : t = tlast1 := Fin.ext h31
  show (cfg1.win 3).cut (grid1.coords tlast1) ((dat1 V c).after 3 tlast1) = _
  rw [after1_3]
  have hz' : (fun a => win1_3.index tlast1 a * main_v178_1.ty.shape.size a) = fun _ => 0 := funext fun a => by fin_cases a <;> decide +kernel
  exact (Memref.read_access_unit_zero (Elt F) main_v178_1 hz' (fun a => by rw [congrFun hz' a]; simp) (acc1 V c 31 lt31).inter).symm

theorem arrAt1_3 (c : Dev nD) : (dat1 V c).arrAt 3 cfg1.N = (acc1 V c 31 lt31).inter :=
  (dat1 V c).arrAt_eq_of_cover 3 (acc1 V c 31 lt31).inter (flushed1_3 V c) fun i =>
    ⟨tlast1, (flush1_3 tlast1).mpr rfl, by
      show i ∈ ((View.whole main_v178_1).slice (win1_3.rect tlast1)).set
      rw [View.set_slice_whole, Rect.mem_set_unit]
      intro a
      have h0 : (i 0 : Nat) < 8 := (i 0).isLt
      have h1 : (i 1 : Nat) < 3 := (i 1).isLt
      match a with
      | ⟨0, _⟩ => show win1_3.index tlast1 0 * win1_3.size 0 ≤ (i 0 : Nat) ∧ (i 0 : Nat) < win1_3.index tlast1 0 * win1_3.size 0 + win1_3.xsize (grid1.coords tlast1) 0
                  rw [show win1_3.index tlast1 0 * win1_3.size 0 = 0 from by decide +kernel, show win1_3.xsize (grid1.coords tlast1) 0 = 8 from by decide +kernel]; omega
      | ⟨1, _⟩ => show win1_3.index tlast1 1 * win1_3.size 1 ≤ (i 1 : Nat) ∧ (i 1 : Nat) < win1_3.index tlast1 1 * win1_3.size 1 + win1_3.xsize (grid1.coords tlast1) 1
                  rw [show win1_3.index tlast1 1 * win1_3.size 1 = 0 from by decide +kernel, show win1_3.xsize (grid1.coords tlast1) 1 = 3 from by decide +kernel]; omega⟩

theorem flushed1_4 (c : Dev nD) (t : Fin cfg1.N) (hf : (cfg1.win 4).flush t = true) :
    (dat1 V c).flushed 4 t = ((cfg1.win 4).blk t).view.read (Elt F) (acc1 V c 31 lt31).probrv := by
  have hN : cfg1.N = 32 := N_1
  have h31 : t.val = 31 := by have := (flush1_4 t).mp hf; have := t.isLt; omega
  obtain rfl : t = tlast1 := Fin.ext h31
  show (cfg1.win 4).cut (grid1.coords tlast1) ((dat1 V c).after 4 tlast1) = _
  rw [after1_4]
  have hz' : (fun a => win1_4.index tlast1 a * main_v178_2.ty.shape.size a) = fun _ => 0 := funext fun a => by fin_cases a <;> decide +kernel
  exact (Memref.read_access_unit_zero (Elt F) main_v178_2 hz' (fun a => by rw [congrFun hz' a]; simp) (acc1 V c 31 lt31).probrv).symm

theorem arrAt1_4 (c : Dev nD) : (dat1 V c).arrAt 4 cfg1.N = (acc1 V c 31 lt31).probrv :=
  (dat1 V c).arrAt_eq_of_cover 4 (acc1 V c 31 lt31).probrv (flushed1_4 V c) fun i =>
    ⟨tlast1, (flush1_4 tlast1).mpr rfl, by
      show i ∈ ((View.whole main_v178_2).slice (win1_4.rect tlast1)).set
      rw [View.set_slice_whole, Rect.mem_set_unit]
      intro a
      have h0 : (i 0 : Nat) < 8 := (i 0).isLt
      have h1 : (i 1 : Nat) < 3 := (i 1).isLt
      match a with
      | ⟨0, _⟩ => show win1_4.index tlast1 0 * win1_4.size 0 ≤ (i 0 : Nat) ∧ (i 0 : Nat) < win1_4.index tlast1 0 * win1_4.size 0 + win1_4.xsize (grid1.coords tlast1) 0
                  rw [show win1_4.index tlast1 0 * win1_4.size 0 = 0 from by decide +kernel, show win1_4.xsize (grid1.coords tlast1) 0 = 8 from by decide +kernel]; omega
      | ⟨1, _⟩ => show win1_4.index tlast1 1 * win1_4.size 1 ≤ (i 1 : Nat) ∧ (i 1 : Nat) < win1_4.index tlast1 1 * win1_4.size 1 + win1_4.xsize (grid1.coords tlast1) 1
                  rw [show win1_4.index tlast1 1 * win1_4.size 1 = 0 from by decide +kernel, show win1_4.xsize (grid1.coords tlast1) 1 = 3 from by decide +kernel]; omega⟩

theorem flushed1_5 (c : Dev nD) (t : Fin cfg1.N) (hf : (cfg1.win 5).flush t = true) :
    (dat1 V c).flushed 5 t = ((cfg1.win 5).blk t).view.read (Elt F) (acc1 V c 31 lt31).rtrv := by
  have hN : cfg1.N = 32 := N_1
  have h31 : t.val = 31 := by have := (flush1_5 t).mp hf; have := t.isLt; omega
  obtain rfl : t = tlast1 := Fin.ext h31
  show (cfg1.win 5).cut (grid1.coords tlast1) ((dat1 V c).after 5 tlast1) = _
  rw [after1_5]
  have hz' : (fun a => win1_5.index tlast1 a * main_v178_3.ty.shape.size a) = fun _ => 0 := funext fun a => by fin_cases a <;> decide +kernel
  exact (Memref.read_access_unit_zero (Elt F) main_v178_3 hz' (fun a => by rw [congrFun hz' a]; simp) (acc1 V c 31 lt31).rtrv).symm

theorem arrAt1_5 (c : Dev nD) : (dat1 V c).arrAt 5 cfg1.N = (acc1 V c 31 lt31).rtrv :=
  (dat1 V c).arrAt_eq_of_cover 5 (acc1 V c 31 lt31).rtrv (flushed1_5 V c) fun i =>
    ⟨tlast1, (flush1_5 tlast1).mpr rfl, by
      show i ∈ ((View.whole main_v178_3).slice (win1_5.rect tlast1)).set
      rw [View.set_slice_whole, Rect.mem_set_unit]
      intro a
      have h0 : (i 0 : Nat) < 8 := (i 0).isLt
      have h1 : (i 1 : Nat) < 3 := (i 1).isLt
      match a with
      | ⟨0, _⟩ => show win1_5.index tlast1 0 * win1_5.size 0 ≤ (i 0 : Nat) ∧ (i 0 : Nat) < win1_5.index tlast1 0 * win1_5.size 0 + win1_5.xsize (grid1.coords tlast1) 0
                  rw [show win1_5.index tlast1 0 * win1_5.size 0 = 0 from by decide +kernel, show win1_5.xsize (grid1.coords tlast1) 0 = 8 from by decide +kernel]; omega
      | ⟨1, _⟩ => show win1_5.index tlast1 1 * win1_5.size 1 ≤ (i 1 : Nat) ∧ (i 1 : Nat) < win1_5.index tlast1 1 * win1_5.size 1 + win1_5.xsize (grid1.coords tlast1) 1
                  rw [show win1_5.index tlast1 1 * win1_5.size 1 = 0 from by decide +kernel, show win1_5.xsize (grid1.coords tlast1) 1 = 3 from by decide +kernel]; omega⟩

theorem flushed1_6 (c : Dev nD) (t : Fin cfg1.N) (hf : (cfg1.win 6).flush t = true) :
    (dat1 V c).flushed 6 t = ((cfg1.win 6).blk t).view.read (Elt F) (acc1 V c 31 lt31).rv := by
  have hN : cfg1.N = 32 := N_1
  have h31 : t.val = 31 := by have := (flush1_6 t).mp hf; have := t.isLt; omega
  obtain rfl : t = tlast1 := Fin.ext h31
  show (cfg1.win 6).cut (grid1.coords tlast1) ((dat1 V c).after 6 tlast1) = _
  rw [after1_6]
  have hz' : (fun a => win1_6.index tlast1 a * main_v178_4.ty.shape.size a) = fun _ => 0 := funext fun a => by fin_cases a <;> decide +kernel
  exact (Memref.read_access_unit_zero (Elt F) main_v178_4 hz' (fun a => by rw [congrFun hz' a]; simp) (acc1 V c 31 lt31).rv).symm

theorem arrAt1_6 (c : Dev nD) : (dat1 V c).arrAt 6 cfg1.N = (acc1 V c 31 lt31).rv :=
  (dat1 V c).arrAt_eq_of_cover 6 (acc1 V c 31 lt31).rv (flushed1_6 V c) fun i =>
    ⟨tlast1, (flush1_6 tlast1).mpr rfl, by
      show i ∈ ((View.whole main_v178_4).slice (win1_6.rect tlast1)).set
      rw [View.set_slice_whole, Rect.mem_set_unit]
      intro a
      have h0 : (i 0 : Nat) < 8 := (i 0).isLt
      have h1 : (i 1 : Nat) < 3 := (i 1).isLt
      match a with
      | ⟨0, _⟩ => show win1_6.index tlast1 0 * win1_6.size 0 ≤ (i 0 : Nat) ∧ (i 0 : Nat) < win1_6.index tlast1 0 * win1_6.size 0 + win1_6.xsize (grid1.coords tlast1) 0
                  rw [show win1_6.index tlast1 0 * win1_6.size 0 = 0 from by decide +kernel, show win1_6.xsize (grid1.coords tlast1) 0 = 8 from by decide +kernel]; omega
      | ⟨1, _⟩ => show win1_6.index tlast1 1 * win1_6.size 1 ≤ (i 1 : Nat) ∧ (i 1 : Nat) < win1_6.index tlast1 1 * win1_6.size 1 + win1_6.xsize (grid1.coords tlast1) 1
                  rw [show win1_6.index tlast1 1 * win1_6.size 1 = 0 from by decide +kernel, show win1_6.xsize (grid1.coords tlast1) 1 = 3 from by decide +kernel]; omega⟩

end

end Cert.KernelIdeal.Hand

end
-- ==== Proof.K.R1.lean ====
/- The second kernel's frame, carried over likewise. -/
import proofs.«134848_j7748121002193_1_alg».proof.Proof.K.R0
import proofs.«134848_j7748121002193_1_alg».proof.Proof.KI.R1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def dat1 (c : Dev nD) : Dat τ (Elt F) Unit ℕ (UR sig nD τ) ℕ cfg1 c := Cert.KernelIdeal.Hand.dat1 V c

theorem body_obligation1 (c : Dev nD) : BodyObligation (dat1 (F := F) V c) (defs₀ (F := F)) Variants.none () Set.univ := by
  rw [defs₀_eq]; exact Cert.KernelIdeal.Hand.body_obligation1 V c

theorem arrAt1_0 (c : Dev nD) : (dat1 V c).arrAt 0 cfg1.N = V c (Pipeline.arrRef spec1 0) := Cert.KernelIdeal.Hand.arrAt1_0 V c
theorem arrAt1_1 (c : Dev nD) : (dat1 V c).arrAt 1 cfg1.N = V c (Pipeline.arrRef spec1 1) := Cert.KernelIdeal.Hand.arrAt1_1 V c

end Cert.Kernel.Hand

end
-- ==== Proof.K.Fold.lean ====
import proofs.«134848_j7748121002193_1_alg».proof.Proof.K.R0
import proofs.«134848_j7748121002193_1_alg».proof.Proof.K.R1
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `W k`: the contents of every buffer after the first `k` items of @main, each item applied to the one before. -/
abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)

abbrev W4 : Dev nD → Valuation τ sig (Elt F) := fun c => StableHlo.after hostOps0_3 (W3 m ρ c)

abbrev W5 : Dev nD → Valuation τ sig (Elt F) := fun c => StableHlo.after hostOps0_4 (W4 m ρ c)

abbrev W6 : Dev nD → Valuation τ sig (Elt F) := fun c => StableHlo.after hostOps0_5 (W5 m ρ c)

abbrev W7 : Dev nD → Valuation τ sig (Elt F) := fun c => StableHlo.after hostOps0_6 (W6 m ρ c)

abbrev W8 : Dev nD → Valuation τ sig (Elt F) := fun c => StableHlo.after hostOps0_7 (W7 m ρ c)

abbrev W9 : Dev nD → Valuation τ sig (Elt F) := fun c => StableHlo.after hostOps0_8 (W8 m ρ c)

abbrev W10 : Dev nD → Valuation τ sig (Elt F) := fun c => StableHlo.after hostOps0_9 (W9 m ρ c)

abbrev W11 : Dev nD → Valuation τ sig (Elt F) := fun c => StableHlo.after hostOps0_10 (W10 m ρ c)

abbrev V11 : (c : Dev nD) → (b : Ref sig .tc) → Buf (Elt F) ((c : Thread nD τ).loc b) := fun c b => W11 m ρ c b

def W12 (c : Dev nD) : Valuation τ sig (Elt F) :=
  Pipeline.withArrays spec0 c (W11 m ρ c) fun w => (dat0 (V11 m ρ) c).arrAt w cfg0.N
theorem W12_arr (c : Dev nD) (w : Fin cfg0.W) :
    W12 m ρ c (Proc.devRef .tc (Pipeline.arrRef spec0 w)) = (dat0 (V11 m ρ) c).arrAt w cfg0.N := by
  unfold W12; exact Pipeline.withArrays_arr spec0 launch0.win.arr_inj c _ _ w
theorem W12_of_ne (c : Dev nD) (b : Ref sig .tc) (hb : ∀ w, Pipeline.arrRef spec0 w ≠ b) :
    W12 m ρ c (Proc.devRef .tc b) = W11 m ρ c (Proc.devRef .tc b) := by
  unfold W12; exact Pipeline.withArrays_of_ne spec0 c _ _ b hb
abbrev V12 : (c : Dev nD) → (b : Ref sig .tc) → Buf (Elt F) ((c : Thread nD τ).loc b) := fun c b => W12 m ρ c b
theorem hF0 (c : Dev nD) (w : Fin cfg0.W) : (dat0 (V11 m ρ) c).arrAt w cfg0.N = V12 m ρ c (Pipeline.arrRef spec0 w) :=
  (W12_arr m ρ c w).symm
theorem hrest0 (c : Dev nD) : ∀ b, b ∉ Finset.univ.image (Pipeline.arrRef spec0) → V12 m ρ c b = V11 m ρ c b :=
  fun b hb => W12_of_ne m ρ c b fun w e => hb (Finset.mem_image.mpr ⟨w, Finset.mem_univ _, e⟩)

abbrev W13 : Dev nD → Valuation τ sig (Elt F) := fun c => StableHlo.after hostOps1 (W12 m ρ c)
abbrev V13 : (c : Dev nD) → (b : Ref sig .tc) → Buf (Elt F) ((c : Thread nD τ).loc b) := fun c b => W13 m ρ c b

def W14 (c : Dev nD) : Valuation τ sig (Elt F) :=
  Pipeline.withArrays spec1 c (W13 m ρ c) fun w => (dat1 (V13 m ρ) c).arrAt w cfg1.N
theorem W14_arr (c : Dev nD) (w : Fin cfg1.W) :
    W14 m ρ c (Proc.devRef .tc (Pipeline.arrRef spec1 w)) = (dat1 (V13 m ρ) c).arrAt w cfg1.N := by
  unfold W14; exact Pipeline.withArrays_arr spec1 launch1.win.arr_inj c _ _ w
theorem W14_of_ne (c : Dev nD) (b : Ref sig .tc) (hb : ∀ w, Pipeline.arrRef spec1 w ≠ b) :
    W14 m ρ c (Proc.devRef .tc b) = W13 m ρ c (Proc.devRef .tc b) := by
  unfold W14; exact Pipeline.withArrays_of_ne spec1 c _ _ b hb
abbrev V14 : (c : Dev nD) → (b : Ref sig .tc) → Buf (Elt F) ((c : Thread nD τ).loc b) := fun c b => W14 m ρ c b
theorem hF1 (c : Dev nD) (w : Fin cfg1.W) : (dat1 (V13 m ρ) c).arrAt w cfg1.N = V14 m ρ c (Pipeline.arrRef spec1 w) :=
  (W14_arr m ρ c w).symm
theorem hrest1 (c : Dev nD) : ∀ b, b ∉ Finset.univ.image (Pipeline.arrRef spec1) → V14 m ρ c b = V13 m ρ c b :=
  fun b hb => W14_of_ne m ρ c b fun w e => hb (Finset.mem_image.mpr ⟨w, Finset.mem_univ _, e⟩)

abbrev W15 : Dev nD → Valuation τ sig (Elt F) := fun c => StableHlo.after hostOps2 (W14 m ρ c)

end Cert.Kernel.Hand

end
-- ==== Proof.K.Segs.lean ====
import proofs.«134848_j7748121002193_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V11 m ρ) c
  | ⟨1, _⟩ => fun c => dat1 (V13 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor

theorem hostOps0_1_fresh : (hostOps0_1 : List (HloOp τ sig (Elt F))).Forall fun op => op.fresh = ∅ := by
  simp only [List.Forall]; repeat' constructor

theorem hostOps0_2_fresh : (hostOps0_2 : List (HloOp τ sig (Elt F))).Forall fun op => op.fresh = ∅ := by
  simp only [List.Forall]; repeat' constructor

theorem hostOps0_3_fresh : (hostOps0_3 : List (HloOp τ sig (Elt F))).Forall fun op => op.fresh = ∅ := by
  simp only [List.Forall]; repeat' constructor
set_option maxHeartbeats 40000000 in

theorem hostOps0_4_fresh : (hostOps0_4 : List (HloOp τ sig (Elt F))).Forall fun op => op.fresh = ∅ := by
  simp only [List.Forall]; repeat' constructor

theorem hostOps0_5_fresh : (hostOps0_5 : List (HloOp τ sig (Elt F))).Forall fun op => op.fresh = ∅ := by
  simp only [List.Forall]; repeat' constructor

theorem hostOps0_6_fresh : (hostOps0_6 : List (HloOp τ sig (Elt F))).Forall fun op => op.fresh = ∅ := by
  simp only [List.Forall]; repeat' constructor

theorem hostOps0_7_fresh : (hostOps0_7 : List (HloOp τ sig (Elt F))).Forall fun op => op.fresh = ∅ := by
  simp only [List.Forall]; repeat' constructor

theorem hostOps0_8_fresh : (hostOps0_8 : List (HloOp τ sig (Elt F))).Forall fun op => op.fresh = ∅ := by
  simp only [List.Forall]; repeat' constructor

theorem hostOps0_9_fresh : (hostOps0_9 : List (HloOp τ sig (Elt F))).Forall fun op => op.fresh = ∅ := by
  simp only [List.Forall]; repeat' constructor

theorem hostOps0_10_fresh : (hostOps0_10 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hostOps2_fresh : (hostOps2 : List (HloOp τ sig (Elt F))).Forall fun op => op.fresh = ∅ := by
  simp only [List.Forall]; repeat' constructor

abbrev Tₙ (c : Dev nD) : sProp 𝕄 := iprop(StableHlo.held (c : Thread nD τ) (Pipeline.ucRefs τ sig) (W15 m ρ c) ∗ ∃ r, prngReg c r)

end Cert.Kernel.Hand

end
-- ==== Proof.K.MainRun.lean ====
import proofs.«134848_j7748121002193_1_alg».proof.Proof.K.Segs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V11 m ρ) c).loose
  hwaits := Pipeline.hwaits_of_owed_zero _ _ _ _ L lv 0 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec0 c (V11 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V11 m ρ c) (V12 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V13 m ρ) c).loose
  hwaits := Pipeline.hwaits_of_owed_zero _ _ _ _ L lv 1 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec1 c (V13 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V13 m ρ c) (V14 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .region (reg0 m ρ),
    .host (hseg hostOps1 hostOps1_sub hostOps1_fresh (W12 m ρ)),
    .region (reg1 m ρ),
    .host (hseg hostOps2 hostOps2_sub hostOps2_fresh (W14 m ρ)) ]

/-- @main is the run of its fifteen items: eleven host stretches, a region, a stretch, a region, a stretch. -/
theorem main_run (c : Dev nD) : main (F := F) c = Pipeline.Seg.run (segs m ρ) := (main_chain c).trans (by chain_rfl)

theorem last_link (c : Dev nD) :
    iprop(StableHlo.held (c : Thread nD τ) (Pipeline.ucRefs τ sig) (W15 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in

/-- Every weakly fair execution of @main terminates, faulting nowhere, with every buffer of the program at the last
    boundary's contents: the host stretches and the two kernels' regions chained. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

end Cert.Kernel.Hand

end
-- ==== Proof.K.KeepsLong.lean ====
import proofs.«134848_j7748121002193_1_alg».proof.Proof.Gen.Kernel.Launch
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

def argRefs : List (Ref sig .tc) :=
  [main_arg0, main_arg1, main_arg2, main_arg3, main_arg4, main_arg5, main_arg6, main_arg7, main_arg8]

theorem ref_ne_of_mem_of_not_mem {K : List (Ref sig .tc)} {r y : Ref sig .tc} (hr : r ∈ K) (hy : y ∉ K) : r ≠ y :=
  fun e => hy (e ▸ hr)

set_option maxHeartbeats 1000000 in

theorem hostOps0_4_keeps {r : Ref sig .tc} (hr : r ∈ argRefs) :
    ∀ op ∈ (hostOps0_4 : List (HloOp τ sig (Elt F))), Proc.devRef (τ := τ) .tc r ∉ op.writes :=
  List.forall_iff_forall_mem.mp (by
    simp only [hostOps0_4, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

end Cert.Kernel.Hand

end
-- ==== Proof.K.Keeps.lean ====
import proofs.«134848_j7748121002193_1_alg».proof.Proof.K.KeepsLong

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hostOps0_keeps {r : Ref sig .tc} (hr : r ∈ argRefs) :
    ∀ op ∈ (hostOps0 : List (HloOp τ sig (Elt F))), Proc.devRef (τ := τ) .tc r ∉ op.writes :=
  List.forall_iff_forall_mem.mp (by
    simp only [hostOps0, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps0_1_keeps {r : Ref sig .tc} (hr : r ∈ argRefs) :
    ∀ op ∈ (hostOps0_1 : List (HloOp τ sig (Elt F))), Proc.devRef (τ := τ) .tc r ∉ op.writes :=
  List.forall_iff_forall_mem.mp (by
    simp only [hostOps0_1, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps0_2_keeps {r : Ref sig .tc} (hr : r ∈ argRefs) :
    ∀ op ∈ (hostOps0_2 : List (HloOp τ sig (Elt F))), Proc.devRef (τ := τ) .tc r ∉ op.writes :=
  List.forall_iff_forall_mem.mp (by
    simp only [hostOps0_2, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps0_3_keeps {r : Ref sig .tc} (hr : r ∈ argRefs) :
    ∀ op ∈ (hostOps0_3 : List (HloOp τ sig (Elt F))), Proc.devRef (τ := τ) .tc r ∉ op.writes :=
  List.forall_iff_forall_mem.mp (by
    simp only [hostOps0_3, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps0_5_keeps {r : Ref sig .tc} (hr : r ∈ argRefs) :
    ∀ op ∈ (hostOps0_5 : List (HloOp τ sig (Elt F))), Proc.devRef (τ := τ) .tc r ∉ op.writes :=
  List.forall_iff_forall_mem.mp (by
    simp only [hostOps0_5, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps0_6_keeps {r : Ref sig .tc} (hr : r ∈ argRefs) :
    ∀ op ∈ (hostOps0_6 : List (HloOp τ sig (Elt F))), Proc.devRef (τ := τ) .tc r ∉ op.writes :=
  List.forall_iff_forall_mem.mp (by
    simp only [hostOps0_6, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps0_7_keeps {r : Ref sig .tc} (hr : r ∈ argRefs) :
    ∀ op ∈ (hostOps0_7 : List (HloOp τ sig (Elt F))), Proc.devRef (τ := τ) .tc r ∉ op.writes :=
  List.forall_iff_forall_mem.mp (by
    simp only [hostOps0_7, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps0_8_keeps {r : Ref sig .tc} (hr : r ∈ argRefs) :
    ∀ op ∈ (hostOps0_8 : List (HloOp τ sig (Elt F))), Proc.devRef (τ := τ) .tc r ∉ op.writes :=
  List.forall_iff_forall_mem.mp (by
    simp only [hostOps0_8, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps0_9_keeps {r : Ref sig .tc} (hr : r ∈ argRefs) :
    ∀ op ∈ (hostOps0_9 : List (HloOp τ sig (Elt F))), Proc.devRef (τ := τ) .tc r ∉ op.writes :=
  List.forall_iff_forall_mem.mp (by
    simp only [hostOps0_9, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps0_10_keeps {r : Ref sig .tc} (hr : r ∈ argRefs) :
    ∀ op ∈ (hostOps0_10 : List (HloOp τ sig (Elt F))), Proc.devRef (τ := τ) .tc r ∉ op.writes :=
  List.forall_iff_forall_mem.mp (by
    simp only [hostOps0_10, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps2_keeps {r : Ref sig .tc} (hr : r ∈ argRefs) :
    ∀ op ∈ (hostOps2 : List (HloOp τ sig (Elt F))), Proc.devRef (τ := τ) .tc r ∉ op.writes :=
  List.forall_iff_forall_mem.mp (by
    simp only [hostOps2, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps1_keeps {r : Ref sig .tc} (hr : r ∈ main_v161 :: argRefs) :
    ∀ op ∈ (hostOps1 : List (HloOp τ sig (Elt F))), Proc.devRef (τ := τ) .tc r ∉ op.writes :=
  List.forall_iff_forall_mem.mp (by
    simp only [hostOps1, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

end Cert.Kernel.Hand

end
-- ==== Proof.K.ArgsKept.lean ====
import proofs.«134848_j7748121002193_1_alg».proof.Proof.K.Fold
import proofs.«134848_j7748121002193_1_alg».proof.Proof.K.Keeps

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W11_of_arg {r : Ref sig .tc} (hr : r ∈ argRefs) (c : Dev nD) :
    W11 m ρ c (Proc.devRef .tc r) = m ((c : Thread nD τ).loc r) :=
  calc W11 m ρ c (Proc.devRef .tc r)
    _ = W10 m ρ c (Proc.devRef .tc r) := StableHlo.after_of_forall_not_mem (b := Proc.devRef .tc r) _ _ (hostOps0_10_keeps hr)
    _ = W9 m ρ c (Proc.devRef .tc r) := StableHlo.after_of_forall_not_mem (b := Proc.devRef .tc r) _ _ (hostOps0_9_keeps hr)
    _ = W8 m ρ c (Proc.devRef .tc r) := StableHlo.after_of_forall_not_mem (b := Proc.devRef .tc r) _ _ (hostOps0_8_keeps hr)
    _ = W7 m ρ c (Proc.devRef .tc r) := StableHlo.after_of_forall_not_mem (b := Proc.devRef .tc r) _ _ (hostOps0_7_keeps hr)
    _ = W6 m ρ c (Proc.devRef .tc r) := StableHlo.after_of_forall_not_mem (b := Proc.devRef .tc r) _ _ (hostOps0_6_keeps hr)
    _ = W5 m ρ c (Proc.devRef .tc r) := StableHlo.after_of_forall_not_mem (b := Proc.devRef .tc r) _ _ (hostOps0_5_keeps hr)
    _ = W4 m ρ c (Proc.devRef .tc r) := StableHlo.after_of_forall_not_mem (b := Proc.devRef .tc r) _ _ (hostOps0_4_keeps hr)
    _ = W3 m ρ c (Proc.devRef .tc r) := StableHlo.after_of_forall_not_mem (b := Proc.devRef .tc r) _ _ (hostOps0_3_keeps hr)
    _ = W2 m ρ c (Proc.devRef .tc r) := StableHlo.after_of_forall_not_mem (b := Proc.devRef .tc r) _ _ (hostOps0_2_keeps hr)
    _ = W1 m ρ c (Proc.devRef .tc r) := StableHlo.after_of_forall_not_mem (b := Proc.devRef .tc r) _ _ (hostOps0_1_keeps hr)
    _ = W0 m ρ c (Proc.devRef .tc r) := StableHlo.after_of_forall_not_mem (b := Proc.devRef .tc r) _ _ (hostOps0_keeps hr)
    _ = m ((c : Thread nD τ).loc r) := rfl

theorem W12_of_arg {r : Ref sig .tc} (hr : r ∈ argRefs) (c : Dev nD) :
    W12 m ρ c (Proc.devRef .tc r) = m ((c : Thread nD τ).loc r) := by
  have h11 := W11_of_arg m ρ hr c
  simp only [argRefs, List.mem_cons, List.not_mem_nil, or_false] at hr
  rcases hr with rfl | rfl | rfl | rfl | rfl | rfl | rfl | rfl | rfl
  · exact (W12_of_ne m ρ c _ (by decide)).trans h11
  · exact (W12_of_ne m ρ c _ (by decide)).trans h11
  · exact (W12_arr m ρ c 0).trans ((arrAt0_0 (V11 m ρ) c).trans h11)
  · exact (W12_arr m ρ c 1).trans ((arrAt0_1 (V11 m ρ) c).trans h11)
  · exact (W12_of_ne m ρ c _ (by decide)).trans h11
  · exact (W12_of_ne m ρ c _ (by decide)).trans h11
  · exact (W12_of_ne m ρ c _ (by decide)).trans h11
  · exact (W12_of_ne m ρ c _ (by decide)).trans h11
  · exact (W12_of_ne m ρ c _ (by decide)).trans h11

theorem W13_of_arg {r : Ref sig .tc} (hr : r ∈ argRefs) (c : Dev nD) :
    W13 m ρ c (Proc.devRef .tc r) = m ((c : Thread nD τ).loc r) :=
  (StableHlo.after_of_forall_not_mem (b := Proc.devRef .tc r) _ _ (hostOps1_keeps (List.mem_cons_of_mem _ hr))).trans (W12_of_arg m ρ hr c)

theorem W14_of_arg {r : Ref sig .tc} (hr : r ∈ argRefs) (c : Dev nD) :
    W14 m ρ c (Proc.devRef .tc r) = m ((c : Thread nD τ).loc r) := by
  have h13 := W13_of_arg m ρ hr c
  simp only [argRefs, List.mem_cons, List.not_mem_nil, or_false] at hr
  rcases hr with rfl | rfl | rfl | rfl | rfl | rfl | rfl | rfl | rfl
  · exact (W14_of_ne m ρ c _ (by decide)).trans h13
  · exact (W14_of_ne m ρ c _ (by decide)).trans h13
  · exact (W14_of_ne m ρ c _ (by decide)).trans h13
  · exact (W14_of_ne m ρ c _ (by decide)).trans h13
  · exact (W14_arr m ρ c 0).trans ((arrAt1_0 (V13 m ρ) c).trans h13)
  · exact (W14_arr m ρ c 1).trans ((arrAt1_1 (V13 m ρ) c).trans h13)
  · exact (W14_of_ne m ρ c _ (by decide)).trans h13
  · exact (W14_of_ne m ρ c _ (by decide)).trans h13
  · exact (W14_of_ne m ρ c _ (by decide)).trans h13

/-- No host operation writes an argument and a region leaves its input arrays as found: an argument's buffer ends as launched. -/
theorem W15_of_arg {r : Ref sig .tc} (hr : r ∈ argRefs) (c : Dev nD) :
    W15 m ρ c (Proc.devRef .tc r) = m ((c : Thread nD τ).loc r) :=
  (StableHlo.after_of_forall_not_mem (b := Proc.devRef .tc r) _ _ (hostOps2_keeps hr)).trans (W14_of_arg m ρ hr c)

theorem V11_main_arg2 (c : Dev nD) : V11 m ρ c main_arg2 = m ((c : Thread nD τ).loc main_arg2) := W11_of_arg m ρ (by decide) c
theorem V11_main_arg3 (c : Dev nD) : V11 m ρ c main_arg3 = m ((c : Thread nD τ).loc main_arg3) := W11_of_arg m ρ (by decide) c

theorem V13_main_arg4 (c : Dev nD) : V13 m ρ c main_arg4 = m ((c : Thread nD τ).loc main_arg4) := W13_of_arg m ρ (by decide) c
theorem V13_main_arg5 (c : Dev nD) : V13 m ρ c main_arg5 = m ((c : Thread nD τ).loc main_arg5) := W13_of_arg m ρ (by decide) c

theorem W12_main_arg7 (c : Dev nD) : W12 m ρ c (Proc.devRef .tc main_arg7) = m ((c : Thread nD τ).loc main_arg7) := W12_of_arg m ρ (by decide) c
theorem W14_main_arg8 (c : Dev nD) : W14 m ρ c (Proc.devRef .tc main_arg8) = m ((c : Thread nD τ).loc main_arg8) := W14_of_arg m ρ (by decide) c
theorem W14_main_v161 (c : Dev nD) : W14 m ρ c (Proc.devRef .tc main_v161) = W11 m ρ c (Proc.devRef .tc main_v161) :=
  calc W14 m ρ c (Proc.devRef .tc main_v161)
    _ = W13 m ρ c (Proc.devRef .tc main_v161) := W14_of_ne m ρ c main_v161 (by decide)
    _ = W12 m ρ c (Proc.devRef .tc main_v161) :=
          StableHlo.after_of_forall_not_mem (b := Proc.devRef .tc main_v161) _ _ (hostOps1_keeps List.mem_cons_self)
    _ = W11 m ρ c (Proc.devRef .tc main_v161) := W12_of_ne m ρ c main_v161 (by decide)
theorem W14_main_v177 (c : Dev nD) : W14 m ρ c (Proc.devRef .tc main_v177) = W13 m ρ c (Proc.devRef .tc main_v177) :=
  W14_of_ne m ρ c main_v177 (by decide)

theorem W0_main_arg0 (c : Dev nD) : W0 m ρ c (Proc.devRef .tc main_arg0) = m ((c : Thread nD τ).loc main_arg0) := rfl
theorem W0_main_arg1 (c : Dev nD) : W0 m ρ c (Proc.devRef .tc main_arg1) = m ((c : Thread nD τ).loc main_arg1) := rfl
theorem W0_main_arg6 (c : Dev nD) : W0 m ρ c (Proc.devRef .tc main_arg6) = m ((c : Thread nD τ).loc main_arg6) := rfl

end Cert.Kernel.Hand

end
-- ==== Proof.K.Frame.lean ====
import proofs.«134848_j7748121002193_1_alg».proof.Proof.K.MainRun
import proofs.«134848_j7748121002193_1_alg».proof.Proof.K.ArgsKept

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The nine argument buffers hold what they held at launch. -/
def Kept (m : (ℓ : Loc nD τ sig) → Buf (Elt F) ℓ) (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)

variable (m : (ℓ : Loc nD τ sig) → Buf (Elt F) ℓ) (ρ : Dev nD → PrngReg)

/-- No host operation and no region writes an argument: read back boundary by boundary, its buffer is the launch's. -/
theorem kept_of_run {s : MemSt nD τ sig (Elt F)} {c : Dev nD}
    (h : ∀ b ∈ Pipeline.ucRefs τ sig, s.mem ((c : Thread nD τ).1, b) = W15 m ρ c b) : Kept m s c :=
  have k {a : Ref sig .tc} (ha : a ∈ argRefs) : s.mem ((c.tc : Thread nD τ).loc a) = m ((c.tc : Thread nD τ).loc a) :=
    (h _ (mem_uc a ((by decide : ∀ a ∈ argRefs, ¬ (Proc.devRef .tc a : DevRef τ sig).isScoped) a ha))).trans (W15_of_arg m ρ ha c)
  ⟨k (by decide), k (by decide), k (by decide), k (by decide), k (by decide), k (by decide), k (by decide), k (by decide), k (by decide)⟩

theorem frame_any : θ_run defs (onTc (τ := τ) (main (F := F))) ⟨m, fun _ => 0, ρ⟩ (fun r => ∀ c : Dev nD, Kept m r.2 c) :=
  (θ_run defs _ _).mono (fun _ h c => kept_of_run m ρ (h c)) (run_all m ρ)

end Cert.Kernel.Hand

end
-- ==== Proof.KI.Fold.lean ====
import proofs.«134848_j7748121002193_1_alg».proof.Proof.KI.R0
import proofs.«134848_j7748121002193_1_alg».proof.Proof.KI.R1
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `W k`: the contents of every buffer after the first `k` items of @main, each item applied to the one before. -/
abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)

abbrev W4 : Dev nD → Valuation τ sig (Elt F) := fun c => StableHlo.after hostOps0_3 (W3 m ρ c)

abbrev W5 : Dev nD → Valuation τ sig (Elt F) := fun c => StableHlo.after hostOps0_4 (W4 m ρ c)

abbrev W6 : Dev nD → Valuation τ sig (Elt F) := fun c => StableHlo.after hostOps0_5 (W5 m ρ c)

abbrev W7 : Dev nD → Valuation τ sig (Elt F) := fun c => StableHlo.after hostOps0_6 (W6 m ρ c)

abbrev W8 : Dev nD → Valuation τ sig (Elt F) := fun c => StableHlo.after hostOps0_7 (W7 m ρ c)

abbrev W9 : Dev nD → Valuation τ sig (Elt F) := fun c => StableHlo.after hostOps0_8 (W8 m ρ c)

abbrev W10 : Dev nD → Valuation τ sig (Elt F) := fun c => StableHlo.after hostOps0_9 (W9 m ρ c)

abbrev W11 : Dev nD → Valuation τ sig (Elt F) := fun c => StableHlo.after hostOps0_10 (W10 m ρ c)

abbrev V11 : (c : Dev nD) → (b : Ref sig .tc) → Buf (Elt F) ((c : Thread nD τ).loc b) := fun c b => W11 m ρ c b

def W12 (c : Dev nD) : Valuation τ sig (Elt F) :=
  Pipeline.withArrays spec0 c (W11 m ρ c) fun w => (dat0 (V11 m ρ) c).arrAt w cfg0.N
theorem W12_arr (c : Dev nD) (w : Fin cfg0.W) :
    W12 m ρ c (Proc.devRef .tc (Pipeline.arrRef spec0 w)) = (dat0 (V11 m ρ) c).arrAt w cfg0.N := by
  unfold W12; exact Pipeline.withArrays_arr spec0 launch0.win.arr_inj c _ _ w
theorem W12_of_ne (c : Dev nD) (b : Ref sig .tc) (hb : ∀ w, Pipeline.arrRef spec0 w ≠ b) :
    W12 m ρ c (Proc.devRef .tc b) = W11 m ρ c (Proc.devRef .tc b) := by
  unfold W12; exact Pipeline.withArrays_of_ne spec0 c _ _ b hb
abbrev V12 : (c : Dev nD) → (b : Ref sig .tc) → Buf (Elt F) ((c : Thread nD τ).loc b) := fun c b => W12 m ρ c b
theorem hF0 (c : Dev nD) (w : Fin cfg0.W) : (dat0 (V11 m ρ) c).arrAt w cfg0.N = V12 m ρ c (Pipeline.arrRef spec0 w) :=
  (W12_arr m ρ c w).symm
theorem hrest0 (c : Dev nD) : ∀ b, b ∉ Finset.univ.image (Pipeline.arrRef spec0) → V12 m ρ c b = V11 m ρ c b :=
  fun b hb => W12_of_ne m ρ c b fun w e => hb (Finset.mem_image.mpr ⟨w, Finset.mem_univ _, e⟩)

abbrev W13 : Dev nD → Valuation τ sig (Elt F) := fun c => StableHlo.after hostOps1 (W12 m ρ c)
abbrev V13 : (c : Dev nD) → (b : Ref sig .tc) → Buf (Elt F) ((c : Thread nD τ).loc b) := fun c b => W13 m ρ c b

def W14 (c : Dev nD) : Valuation τ sig (Elt F) :=
  Pipeline.withArrays spec1 c (W13 m ρ c) fun w => (dat1 (V13 m ρ) c).arrAt w cfg1.N
theorem W14_arr (c : Dev nD) (w : Fin cfg1.W) :
    W14 m ρ c (Proc.devRef .tc (Pipeline.arrRef spec1 w)) = (dat1 (V13 m ρ) c).arrAt w cfg1.N := by
  unfold W14; exact Pipeline.withArrays_arr spec1 launch1.win.arr_inj c _ _ w
theorem W14_of_ne (c : Dev nD) (b : Ref sig .tc) (hb : ∀ w, Pipeline.arrRef spec1 w ≠ b) :
    W14 m ρ c (Proc.devRef .tc b) = W13 m ρ c (Proc.devRef .tc b) := by
  unfold W14; exact Pipeline.withArrays_of_ne spec1 c _ _ b hb
abbrev V14 : (c : Dev nD) → (b : Ref sig .tc) → Buf (Elt F) ((c : Thread nD τ).loc b) := fun c b => W14 m ρ c b
theorem hF1 (c : Dev nD) (w : Fin cfg1.W) : (dat1 (V13 m ρ) c).arrAt w cfg1.N = V14 m ρ c (Pipeline.arrRef spec1 w) :=
  (W14_arr m ρ c w).symm
theorem hrest1 (c : Dev nD) : ∀ b, b ∉ Finset.univ.image (Pipeline.arrRef spec1) → V14 m ρ c b = V13 m ρ c b :=
  fun b hb => W14_of_ne m ρ c b fun w e => hb (Finset.mem_image.mpr ⟨w, Finset.mem_univ _, e⟩)

abbrev W15 : Dev nD → Valuation τ sig (Elt F) := fun c => StableHlo.after hostOps2 (W14 m ρ c)

end Cert.KernelIdeal.Hand

end
-- ==== Proof.KI.Segs.lean ====
import proofs.«134848_j7748121002193_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V11 m ρ) c
  | ⟨1, _⟩ => fun c => dat1 (V13 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor

theorem hostOps0_1_fresh : (hostOps0_1 : List (HloOp τ sig (Elt F))).Forall fun op => op.fresh = ∅ := by
  simp only [List.Forall]; repeat' constructor

theorem hostOps0_2_fresh : (hostOps0_2 : List (HloOp τ sig (Elt F))).Forall fun op => op.fresh = ∅ := by
  simp only [List.Forall]; repeat' constructor

theorem hostOps0_3_fresh : (hostOps0_3 : List (HloOp τ sig (Elt F))).Forall fun op => op.fresh = ∅ := by
  simp only [List.Forall]; repeat' constructor
set_option maxHeartbeats 40000000 in

theorem hostOps0_4_fresh : (hostOps0_4 : List (HloOp τ sig (Elt F))).Forall fun op => op.fresh = ∅ := by
  simp only [List.Forall]; repeat' constructor

theorem hostOps0_5_fresh : (hostOps0_5 : List (HloOp τ sig (Elt F))).Forall fun op => op.fresh = ∅ := by
  simp only [List.Forall]; repeat' constructor

theorem hostOps0_6_fresh : (hostOps0_6 : List (HloOp τ sig (Elt F))).Forall fun op => op.fresh = ∅ := by
  simp only [List.Forall]; repeat' constructor

theorem hostOps0_7_fresh : (hostOps0_7 : List (HloOp τ sig (Elt F))).Forall fun op => op.fresh = ∅ := by
  simp only [List.Forall]; repeat' constructor

theorem hostOps0_8_fresh : (hostOps0_8 : List (HloOp τ sig (Elt F))).Forall fun op => op.fresh = ∅ := by
  simp only [List.Forall]; repeat' constructor

theorem hostOps0_9_fresh : (hostOps0_9 : List (HloOp τ sig (Elt F))).Forall fun op => op.fresh = ∅ := by
  simp only [List.Forall]; repeat' constructor

theorem hostOps0_10_fresh : (hostOps0_10 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hostOps2_fresh : (hostOps2 : List (HloOp τ sig (Elt F))).Forall fun op => op.fresh = ∅ := by
  simp only [List.Forall]; repeat' constructor

abbrev Tₙ (c : Dev nD) : sProp 𝕄 := iprop(StableHlo.held (c : Thread nD τ) (Pipeline.ucRefs τ sig) (W15 m ρ c) ∗ ∃ r, prngReg c r)

end Cert.KernelIdeal.Hand

end
-- ==== Proof.KI.MainRun.lean ====
import proofs.«134848_j7748121002193_1_alg».proof.Proof.KI.Segs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V11 m ρ) c).loose
  hwaits := Pipeline.hwaits_of_owed_zero _ _ _ _ L lv 0 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec0 c (V11 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V11 m ρ c) (V12 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V13 m ρ) c).loose
  hwaits := Pipeline.hwaits_of_owed_zero _ _ _ _ L lv 1 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec1 c (V13 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V13 m ρ c) (V14 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .region (reg0 m ρ),
    .host (hseg hostOps1 hostOps1_sub hostOps1_fresh (W12 m ρ)),
    .region (reg1 m ρ),
    .host (hseg hostOps2 hostOps2_sub hostOps2_fresh (W14 m ρ)) ]

/-- @main is the run of its fifteen items: eleven host stretches, a region, a stretch, a region, a stretch. -/
theorem main_run (c : Dev nD) : main (F := F) c = Pipeline.Seg.run (segs m ρ) := (main_chain c).trans (by chain_rfl)

theorem last_link (c : Dev nD) :
    iprop(StableHlo.held (c : Thread nD τ) (Pipeline.ucRefs τ sig) (W15 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in

/-- Every weakly fair execution of @main terminates, faulting nowhere, with every buffer of the program at the last
    boundary's contents: the host stretches and the two kernels' regions chained. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

end Cert.KernelIdeal.Hand

end
-- ==== Proof.KI.KeepsLong.lean ====
import proofs.«134848_j7748121002193_1_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

def argRefs : List (Ref sig .tc) :=
  [main_arg0, main_arg1, main_arg2, main_arg3, main_arg4, main_arg5, main_arg6, main_arg7, main_arg8]

theorem ref_ne_of_mem_of_not_mem {K : List (Ref sig .tc)} {r y : Ref sig .tc} (hr : r ∈ K) (hy : y ∉ K) : r ≠ y :=
  fun e => hy (e ▸ hr)

set_option maxHeartbeats 1000000 in

theorem hostOps0_4_keeps {r : Ref sig .tc} (hr : r ∈ argRefs) :
    ∀ op ∈ (hostOps0_4 : List (HloOp τ sig (Elt F))), Proc.devRef (τ := τ) .tc r ∉ op.writes :=
  List.forall_iff_forall_mem.mp (by
    simp only [hostOps0_4, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

end Cert.KernelIdeal.Hand

end
-- ==== Proof.KI.Keeps.lean ====
import proofs.«134848_j7748121002193_1_alg».proof.Proof.KI.KeepsLong

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hostOps0_keeps {r : Ref sig .tc} (hr : r ∈ argRefs) :
    ∀ op ∈ (hostOps0 : List (HloOp τ sig (Elt F))), Proc.devRef (τ := τ) .tc r ∉ op.writes :=
  List.forall_iff_forall_mem.mp (by
    simp only [hostOps0, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps0_1_keeps {r : Ref sig .tc} (hr : r ∈ argRefs) :
    ∀ op ∈ (hostOps0_1 : List (HloOp τ sig (Elt F))), Proc.devRef (τ := τ) .tc r ∉ op.writes :=
  List.forall_iff_forall_mem.mp (by
    simp only [hostOps0_1, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps0_2_keeps {r : Ref sig .tc} (hr : r ∈ argRefs) :
    ∀ op ∈ (hostOps0_2 : List (HloOp τ sig (Elt F))), Proc.devRef (τ := τ) .tc r ∉ op.writes :=
  List.forall_iff_forall_mem.mp (by
    simp only [hostOps0_2, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps0_3_keeps {r : Ref sig .tc} (hr : r ∈ argRefs) :
    ∀ op ∈ (hostOps0_3 : List (HloOp τ sig (Elt F))), Proc.devRef (τ := τ) .tc r ∉ op.writes :=
  List.forall_iff_forall_mem.mp (by
    simp only [hostOps0_3, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps0_5_keeps {r : Ref sig .tc} (hr : r ∈ argRefs) :
    ∀ op ∈ (hostOps0_5 : List (HloOp τ sig (Elt F))), Proc.devRef (τ := τ) .tc r ∉ op.writes :=
  List.forall_iff_forall_mem.mp (by
    simp only [hostOps0_5, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps0_6_keeps {r : Ref sig .tc} (hr : r ∈ argRefs) :
    ∀ op ∈ (hostOps0_6 : List (HloOp τ sig (Elt F))), Proc.devRef (τ := τ) .tc r ∉ op.writes :=
  List.forall_iff_forall_mem.mp (by
    simp only [hostOps0_6, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps0_7_keeps {r : Ref sig .tc} (hr : r ∈ argRefs) :
    ∀ op ∈ (hostOps0_7 : List (HloOp τ sig (Elt F))), Proc.devRef (τ := τ) .tc r ∉ op.writes :=
  List.forall_iff_forall_mem.mp (by
    simp only [hostOps0_7, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps0_8_keeps {r : Ref sig .tc} (hr : r ∈ argRefs) :
    ∀ op ∈ (hostOps0_8 : List (HloOp τ sig (Elt F))), Proc.devRef (τ := τ) .tc r ∉ op.writes :=
  List.forall_iff_forall_mem.mp (by
    simp only [hostOps0_8, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps0_9_keeps {r : Ref sig .tc} (hr : r ∈ argRefs) :
    ∀ op ∈ (hostOps0_9 : List (HloOp τ sig (Elt F))), Proc.devRef (τ := τ) .tc r ∉ op.writes :=
  List.forall_iff_forall_mem.mp (by
    simp only [hostOps0_9, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps0_10_keeps {r : Ref sig .tc} (hr : r ∈ argRefs) :
    ∀ op ∈ (hostOps0_10 : List (HloOp τ sig (Elt F))), Proc.devRef (τ := τ) .tc r ∉ op.writes :=
  List.forall_iff_forall_mem.mp (by
    simp only [hostOps0_10, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps2_keeps {r : Ref sig .tc} (hr : r ∈ argRefs) :
    ∀ op ∈ (hostOps2 : List (HloOp τ sig (Elt F))), Proc.devRef (τ := τ) .tc r ∉ op.writes :=
  List.forall_iff_forall_mem.mp (by
    simp only [hostOps2, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

theorem hostOps1_keeps {r : Ref sig .tc} (hr : r ∈ main_v161 :: argRefs) :
    ∀ op ∈ (hostOps1 : List (HloOp τ sig (Elt F))), Proc.devRef (τ := τ) .tc r ∉ op.writes :=
  List.forall_iff_forall_mem.mp (by
    simp only [hostOps1, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ref_ne_of_mem_of_not_mem hr (by decide)))

end Cert.KernelIdeal.Hand

end
-- ==== Proof.KI.ArgsKept.lean ====
import proofs.«134848_j7748121002193_1_alg».proof.Proof.KI.Fold
import proofs.«134848_j7748121002193_1_alg».proof.Proof.KI.Keeps

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W11_of_arg {r : Ref sig .tc} (hr : r ∈ argRefs) (c : Dev nD) :
    W11 m ρ c (Proc.devRef .tc r) = m ((c : Thread nD τ).loc r) :=
  calc W11 m ρ c (Proc.devRef .tc r)
    _ = W10 m ρ c (Proc.devRef .tc r) := StableHlo.after_of_forall_not_mem (b := Proc.devRef .tc r) _ _ (hostOps0_10_keeps hr)
    _ = W9 m ρ c (Proc.devRef .tc r) := StableHlo.after_of_forall_not_mem (b := Proc.devRef .tc r) _ _ (hostOps0_9_keeps hr)
    _ = W8 m ρ c (Proc.devRef .tc r) := StableHlo.after_of_forall_not_mem (b := Proc.devRef .tc r) _ _ (hostOps0_8_keeps hr)
    _ = W7 m ρ c (Proc.devRef .tc r) := StableHlo.after_of_forall_not_mem (b := Proc.devRef .tc r) _ _ (hostOps0_7_keeps hr)
    _ = W6 m ρ c (Proc.devRef .tc r) := StableHlo.after_of_forall_not_mem (b := Proc.devRef .tc r) _ _ (hostOps0_6_keeps hr)
    _ = W5 m ρ c (Proc.devRef .tc r) := StableHlo.after_of_forall_not_mem (b := Proc.devRef .tc r) _ _ (hostOps0_5_keeps hr)
    _ = W4 m ρ c (Proc.devRef .tc r) := StableHlo.after_of_forall_not_mem (b := Proc.devRef .tc r) _ _ (hostOps0_4_keeps hr)
    _ = W3 m ρ c (Proc.devRef .tc r) := StableHlo.after_of_forall_not_mem (b := Proc.devRef .tc r) _ _ (hostOps0_3_keeps hr)
    _ = W2 m ρ c (Proc.devRef .tc r) := StableHlo.after_of_forall_not_mem (b := Proc.devRef .tc r) _ _ (hostOps0_2_keeps hr)
    _ = W1 m ρ c (Proc.devRef .tc r) := StableHlo.after_of_forall_not_mem (b := Proc.devRef .tc r) _ _ (hostOps0_1_keeps hr)
    _ = W0 m ρ c (Proc.devRef .tc r) := StableHlo.after_of_forall_not_mem (b := Proc.devRef .tc r) _ _ (hostOps0_keeps hr)
    _ = m ((c : Thread nD τ).loc r) := rfl

theorem W12_of_arg {r : Ref sig .tc} (hr : r ∈ argRefs) (c : Dev nD) :
    W12 m ρ c (Proc.devRef .tc r) = m ((c : Thread nD τ).loc r) := by
  have h11 := W11_of_arg m ρ hr c
  simp only [argRefs, List.mem_cons, List.not_mem_nil, or_false] at hr
  rcases hr with rfl | rfl | rfl | rfl | rfl | rfl | rfl | rfl | rfl
  · exact (W12_of_ne m ρ c _ (by decide)).trans h11
  · exact (W12_of_ne m ρ c _ (by decide)).trans h11
  · exact (W12_arr m ρ c 0).trans ((arrAt0_0 (V11 m ρ) c).trans h11)
  · exact (W12_arr m ρ c 1).trans ((arrAt0_1 (V11 m ρ) c).trans h11)
  · exact (W12_of_ne m ρ c _ (by decide)).trans h11
  · exact (W12_of_ne m ρ c _ (by decide)).trans h11
  · exact (W12_of_ne m ρ c _ (by decide)).trans h11
  · exact (W12_of_ne m ρ c _ (by decide)).trans h11
  · exact (W12_of_ne m ρ c _ (by decide)).trans h11

theorem W13_of_arg {r : Ref sig .tc} (hr : r ∈ argRefs) (c : Dev nD) :
    W13 m ρ c (Proc.devRef .tc r) = m ((c : Thread nD τ).loc r) :=
  (StableHlo.after_of_forall_not_mem (b := Proc.devRef .tc r) _ _ (hostOps1_keeps (List.mem_cons_of_mem _ hr))).trans (W12_of_arg m ρ hr c)

theorem W14_of_arg {r : Ref sig .tc} (hr : r ∈ argRefs) (c : Dev nD) :
    W14 m ρ c (Proc.devRef .tc r) = m ((c : Thread nD τ).loc r) := by
  have h13 := W13_of_arg m ρ hr c
  simp only [argRefs, List.mem_cons, List.not_mem_nil, or_false] at hr
  rcases hr with rfl | rfl | rfl | rfl | rfl | rfl | rfl | rfl | rfl
  · exact (W14_of_ne m ρ c _ (by decide)).trans h13
  · exact (W14_of_ne m ρ c _ (by decide)).trans h13
  · exact (W14_of_ne m ρ c _ (by decide)).trans h13
  · exact (W14_of_ne m ρ c _ (by decide)).trans h13
  · exact (W14_arr m ρ c 0).trans ((arrAt1_0 (V13 m ρ) c).trans h13)
  · exact (W14_arr m ρ c 1).trans ((arrAt1_1 (V13 m ρ) c).trans h13)
  · exact (W14_of_ne m ρ c _ (by decide)).trans h13
  · exact (W14_of_ne m ρ c _ (by decide)).trans h13
  · exact (W14_of_ne m ρ c _ (by decide)).trans h13

/-- No host operation writes an argument and a region leaves its input arrays as found: an argument's buffer ends as launched. -/
theorem W15_of_arg {r : Ref sig .tc} (hr : r ∈ argRefs) (c : Dev nD) :
    W15 m ρ c (Proc.devRef .tc r) = m ((c : Thread nD τ).loc r) :=
  (StableHlo.after_of_forall_not_mem (b := Proc.devRef .tc r) _ _ (hostOps2_keeps hr)).trans (W14_of_arg m ρ hr c)

theorem V11_main_arg2 (c : Dev nD) : V11 m ρ c main_arg2 = m ((c : Thread nD τ).loc main_arg2) := W11_of_arg m ρ (by decide) c
theorem V11_main_arg3 (c : Dev nD) : V11 m ρ c main_arg3 = m ((c : Thread nD τ).loc main_arg3) := W11_of_arg m ρ (by decide) c

theorem V13_main_arg4 (c : Dev nD) : V13 m ρ c main_arg4 = m ((c : Thread nD τ).loc main_arg4) := W13_of_arg m ρ (by decide) c
theorem V13_main_arg5 (c : Dev nD) : V13 m ρ c main_arg5 = m ((c : Thread nD τ).loc main_arg5) := W13_of_arg m ρ (by decide) c

theorem W12_main_arg7 (c : Dev nD) : W12 m ρ c (Proc.devRef .tc main_arg7) = m ((c : Thread nD τ).loc main_arg7) := W12_of_arg m ρ (by decide) c
theorem W14_main_arg8 (c : Dev nD) : W14 m ρ c (Proc.devRef .tc main_arg8) = m ((c : Thread nD τ).loc main_arg8) := W14_of_arg m ρ (by decide) c
theorem W14_main_v161 (c : Dev nD) : W14 m ρ c (Proc.devRef .tc main_v161) = W11 m ρ c (Proc.devRef .tc main_v161) :=
  calc W14 m ρ c (Proc.devRef .tc main_v161)
    _ = W13 m ρ c (Proc.devRef .tc main_v161) := W14_of_ne m ρ c main_v161 (by decide)
    _ = W12 m ρ c (Proc.devRef .tc main_v161) :=
          StableHlo.after_of_forall_not_mem (b := Proc.devRef .tc main_v161) _ _ (hostOps1_keeps List.mem_cons_self)
    _ = W11 m ρ c (Proc.devRef .tc main_v161) := W12_of_ne m ρ c main_v161 (by decide)
theorem W14_main_v177 (c : Dev nD) : W14 m ρ c (Proc.devRef .tc main_v177) = W13 m ρ c (Proc.devRef .tc main_v177) :=
  W14_of_ne m ρ c main_v177 (by decide)

theorem W0_main_arg0 (c : Dev nD) : W0 m ρ c (Proc.devRef .tc main_arg0) = m ((c : Thread nD τ).loc main_arg0) := rfl
theorem W0_main_arg1 (c : Dev nD) : W0 m ρ c (Proc.devRef .tc main_arg1) = m ((c : Thread nD τ).loc main_arg1) := rfl
theorem W0_main_arg6 (c : Dev nD) : W0 m ρ c (Proc.devRef .tc main_arg6) = m ((c : Thread nD τ).loc main_arg6) := rfl

end Cert.KernelIdeal.Hand

end
-- ==== Proof.KI.Frame.lean ====
import proofs.«134848_j7748121002193_1_alg».proof.Proof.KI.MainRun
import proofs.«134848_j7748121002193_1_alg».proof.Proof.KI.ArgsKept

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The nine argument buffers hold what they held at launch. -/
def Kept (m : (ℓ : Loc nD τ sig) → Buf (Elt F) ℓ) (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)

variable (m : (ℓ : Loc nD τ sig) → Buf (Elt F) ℓ) (ρ : Dev nD → PrngReg)

/-- No host operation and no region writes an argument: read back boundary by boundary, its buffer is the launch's. -/
theorem kept_of_run {s : MemSt nD τ sig (Elt F)} {c : Dev nD}
    (h : ∀ b ∈ Pipeline.ucRefs τ sig, s.mem ((c : Thread nD τ).1, b) = W15 m ρ c b) : Kept m s c :=
  have k {a : Ref sig .tc} (ha : a ∈ argRefs) : s.mem ((c.tc : Thread nD τ).loc a) = m ((c.tc : Thread nD τ).loc a) :=
    (h _ (mem_uc a ((by decide : ∀ a ∈ argRefs, ¬ (Proc.devRef .tc a : DevRef τ sig).isScoped) a ha))).trans (W15_of_arg m ρ ha c)
  ⟨k (by decide), k (by decide), k (by decide), k (by decide), k (by decide), k (by decide), k (by decide), k (by decide), k (by decide)⟩

theorem frame_any : θ_run defs (onTc (τ := τ) (main (F := F))) ⟨m, fun _ => 0, ρ⟩ (fun r => ∀ c : Dev nD, Kept m r.2 c) :=
  (θ_run defs _ _).mono (fun _ h c => kept_of_run m ρ (h c)) (run_all m ρ)

end Cert.KernelIdeal.Hand

end
-- ==== Proof.KI.Epi.lean ====
import proofs.«134848_j7748121002193_1_alg».proof.Proof.Gen.KernelIdeal.Launch
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def daLoss (sb sd : (⟨S8x1, .f32⟩ : BufTy).Contents (Elt F)) (hd : (⟨S8, .i32⟩ : BufTy).Contents (Elt F)) :
    (⟨S_, .f32⟩ : BufTy).Contents (Elt F) :=
  let b : (⟨S8, .f32⟩ : BufTy).Contents (Elt F) := shapeCast S8 sb shapeCasts_S8x1_S8
  let d : (⟨S8, .f32⟩ : BufTy).Contents (Elt F) := shapeCast S8 sd shapeCasts_S8x1_S8
  let w : (⟨S8, .f32⟩ : BufTy).Contents (Elt F) :=
    mulf (sitofp .f32 hd) (uitofp .f32 (cmpf .ogt d (broadcastInDim S8 ![] bcast_S_S8 (constant S_ .f32 0x00000000#32))))
  Host.divf
    (Host.reduceAdd (mulf (Host.divf b (maximumf d (broadcastInDim S8 ![] bcast_S_S8 (constant S_ .f32 0x3F800000#32)))) w)
      (constant S_ .f32 0x00000000#32) reducesTo_S8_S_d0 h_S_)
    (maximumf (Host.reduceAdd w (constant S_ .f32 0x00000000#32) reducesTo_S8_S_d0 h_S_) (constant S_ .f32 0x3F800000#32))

def rmLoss (f i p r v : (⟨S8x3, .f32⟩ : BufTy).Contents (Elt F)) (hr : (⟨S8x3, .i32⟩ : BufTy).Contents (Elt F)) :
    (⟨S_, .f32⟩ : BufTy).Contents (Elt F) :=
  let focal : (⟨S8x3, .f32⟩ : BufTy).Contents (Elt F) :=
    Host.divf f (maximumf v (broadcastInDim S8x3 ![] bcast_S_S8x3 (constant S_ .f32 0x3F800000#32)))
  let dice : (⟨S8x3, .f32⟩ : BufTy).Contents (Elt F) :=
    subf (broadcastInDim S8x3 ![] bcast_S_S8x3 (constant S_ .f32 0x3F800000#32))
      (Host.divf
        (addf (mulf (broadcastInDim S8x3 ![] bcast_S_S8x3 (constant S_ .f32 0x40000000#32)) i)
          (broadcastInDim S8x3 ![] bcast_S_S8x3 (constant S_ .f32 0x358637BD#32)))
        (addf (addf p r) (broadcastInDim S8x3 ![] bcast_S_S8x3 (constant S_ .f32 0x358637BD#32))))
  let w : (⟨S8x3, .f32⟩ : BufTy).Contents (Elt F) :=
    mulf (sitofp .f32 hr) (uitofp .f32 (cmpf .ogt v (broadcastInDim S8x3 ![] bcast_S_S8x3 (constant S_ .f32 0x00000000#32))))
  Host.divf
    (Host.reduceAdd (mulf (addf focal dice) w) (constant S_ .f32 0x00000000#32) reducesTo_S8x3_S_d0_1 h_S_)
    (maximumf (Host.reduceAdd w (constant S_ .f32 0x00000000#32) reducesTo_S8x3_S_d0_1 h_S_) (constant S_ .f32 0x3F800000#32))

def lossVec (od da rm : (⟨S_, .f32⟩ : BufTy).Contents (Elt F)) : (⟨S4, .f32⟩ : BufTy).Contents (Elt F) :=
  concatenate S4 0
    [⟨S1, broadcastInDim S1 ![] bcast_S_S1
        (addf (addf (mulf (constant S_ .f32 0x3F800000#32) od) (mulf (constant S_ .f32 0x3F800000#32) da))
          (mulf (constant S_ .f32 0x40000000#32) rm))⟩,
     ⟨S1, broadcastInDim S1 ![] bcast_S_S1 od⟩, ⟨S1, broadcastInDim S1 ![] bcast_S_S1 da⟩,
     ⟨S1, broadcastInDim S1 ![] bcast_S_S1 rm⟩] concatenates_S1_S1_S1_S1_S4_d0

end Cert.KernelIdeal.Hand

end
-- ==== Proof.RefStages.lean ====
/- The reference, one operation at a time: `val_<buffer>` is what an operation writes as a function of @main's arguments;
   `val_<buffer>_apply` reads it at an index (only the operations the value proof reads). -/
import proofs.«134848_j7748121002193_1_alg».proof.Proof.Gen.ReferenceIdeal
import Idealize.ShloMosaic.Lib.StableHlo.Run
import Idealize.ShloMosaic.Lib.Pipeline.Value
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

variable (x0 : (⟨S8x15x80x80, .f32⟩ : BufTy).Contents (Elt F))
  (x1 : (⟨S8x64x5, .f32⟩ : BufTy).Contents (Elt F))
  (x2 : (⟨S8x1x1024x1024, .f32⟩ : BufTy).Contents (Elt F))
  (x3 : (⟨S8x1024x1024, .i32⟩ : BufTy).Contents (Elt F))
  (x4 : (⟨S8x3x1024x1024, .f32⟩ : BufTy).Contents (Elt F))
  (x5 : (⟨S8x3x1024x1024, .i32⟩ : BufTy).Contents (Elt F))
  (x6 : (⟨S8, .i32⟩ : BufTy).Contents (Elt F))
  (x7 : (⟨S8, .i32⟩ : BufTy).Contents (Elt F))
  (x8 : (⟨S8x3, .i32⟩ : BufTy).Contents (Elt F))

def val_main_v0 : (⟨S8x64x1, .f32⟩ : BufTy).Contents (Elt F) :=
  extractStridedSlice S8x64x1 ![0, 0, 0] (x1) slices_S8x64x5_S8x64x1_0_0_0

def val_main_v1 : (⟨S8x64, .f32⟩ : BufTy).Contents (Elt F) :=
  shapeCast _ (val_main_v0 (F := F) x1) shapeCasts_S8x64x1_S8x64

def val_main_v2 : (⟨S8x64, .i32⟩ : BufTy).Contents (Elt F) :=
  fptosi 32 (val_main_v1 (F := F) x1)

def val_main_v3 : (⟨S8x64x4, .f32⟩ : BufTy).Contents (Elt F) :=
  extractStridedSlice S8x64x4 ![0, 0, 1] (x1) slices_S8x64x5_S8x64x4_0_0_1

def val_main_cst : (⟨S_, .f32⟩ : BufTy).Contents (Elt F) :=
  constant S_ .f32 0x00000000#32

def val_main_cst_0 : (⟨S_, .f32⟩ : BufTy).Contents (Elt F) :=
  constant S_ .f32 0x3F800000#32

def val_main_call0_v0 : (⟨S_, .f32⟩ : BufTy).Contents (Elt F) :=
  id (val_main_cst (F := F))

def val_main_call0_v1 : (⟨S8x64x4, .f32⟩ : BufTy).Contents (Elt F) :=
  broadcastInDim S8x64x4 ![] bcast_S_S8x64x4 (val_main_call0_v0 (F := F))

def val_main_call0_v2 : (⟨S8x64x4, .f32⟩ : BufTy).Contents (Elt F) :=
  maximumf (val_main_call0_v1 (F := F)) (val_main_v3 (F := F) x1)

def val_main_call0_v3 : (⟨S_, .f32⟩ : BufTy).Contents (Elt F) :=
  id (val_main_cst_0 (F := F))

def val_main_call0_v4 : (⟨S8x64x4, .f32⟩ : BufTy).Contents (Elt F) :=
  broadcastInDim S8x64x4 ![] bcast_S_S8x64x4 (val_main_call0_v3 (F := F))

def val_main_v4 : (⟨S8x64x4, .f32⟩ : BufTy).Contents (Elt F) :=
  minimumf (val_main_call0_v4 (F := F)) (val_main_call0_v2 (F := F) x1)

def val_main_c : (⟨S_, .i32⟩ : BufTy).Contents (Elt F) :=
  constantI S_ 32 0#32

def val_main_v5 : (⟨S8x64, .i32⟩ : BufTy).Contents (Elt F) :=
  broadcastInDim S8x64 ![] bcast_S_S8x64 (val_main_c (F := F))

def val_main_v6 : (⟨S8x64, .i1⟩ : BufTy).Contents (Elt F) :=
  cmpi .sge (val_main_v2 (F := F) x1) (val_main_v5 (F := F))

def val_main_c_1 : (⟨S_, .i32⟩ : BufTy).Contents (Elt F) :=
  constantI S_ 32 10#32

def val_main_v7 : (⟨S8x64, .i32⟩ : BufTy).Contents (Elt F) :=
  broadcastInDim S8x64 ![] bcast_S_S8x64 (val_main_c_1 (F := F))

def val_main_v8 : (⟨S8x64, .i1⟩ : BufTy).Contents (Elt F) :=
  cmpi .slt (val_main_v2 (F := F) x1) (val_main_v7 (F := F))

def val_main_v9 : (⟨S8x64, .i1⟩ : BufTy).Contents (Elt F) :=
  andi (val_main_v6 (F := F) x1) (val_main_v8 (F := F) x1)

def val_main_v10 : (⟨S8x64x1, .f32⟩ : BufTy).Contents (Elt F) :=
  extractStridedSlice S8x64x1 ![0, 0, 3] (x1) slices_S8x64x5_S8x64x1_0_0_3

def val_main_v11 : (⟨S8x64, .f32⟩ : BufTy).Contents (Elt F) :=
  shapeCast _ (val_main_v10 (F := F) x1) shapeCasts_S8x64x1_S8x64

def val_main_cst_2 : (⟨S_, .f32⟩ : BufTy).Contents (Elt F) :=
  constant S_ .f32 0x00000000#32

def val_main_v12 : (⟨S8x64, .f32⟩ : BufTy).Contents (Elt F) :=
  broadcastInDim S8x64 ![] bcast_S_S8x64 (val_main_cst_2 (F := F))

def val_main_v13 : (⟨S8x64, .i1⟩ : BufTy).Contents (Elt F) :=
  cmpf .ogt (val_main_v11 (F := F) x1) (val_main_v12 (F := F))

def val_main_v14 : (⟨S8x64, .i1⟩ : BufTy).Contents (Elt F) :=
  andi (val_main_v9 (F := F) x1) (val_main_v13 (F := F) x1)

def val_main_v15 : (⟨S8x64x1, .f32⟩ : BufTy).Contents (Elt F) :=
  extractStridedSlice S8x64x1 ![0, 0, 4] (x1) slices_S8x64x5_S8x64x1_0_0_4

def val_main_v16 : (⟨S8x64, .f32⟩ : BufTy).Contents (Elt F) :=
  shapeCast _ (val_main_v15 (F := F) x1) shapeCasts_S8x64x1_S8x64

def val_main_cst_3 : (⟨S_, .f32⟩ : BufTy).Contents (Elt F) :=
  constant S_ .f32 0x00000000#32

def val_main_v17 : (⟨S8x64, .f32⟩ : BufTy).Contents (Elt F) :=
  broadcastInDim S8x64 ![] bcast_S_S8x64 (val_main_cst_3 (F := F))

def val_main_v18 : (⟨S8x64, .i1⟩ : BufTy).Contents (Elt F) :=
  cmpf .ogt (val_main_v16 (F := F) x1) (val_main_v17 (F := F))

def val_main_v19 : (⟨S8x64, .i1⟩ : BufTy).Contents (Elt F) :=
  andi (val_main_v14 (F := F) x1) (val_main_v18 (F := F) x1)

def val_main_v20 : (⟨S8x64x1, .f32⟩ : BufTy).Contents (Elt F) :=
  extractStridedSlice S8x64x1 ![0, 0, 0] (val_main_v4 (F := F) x1) slices_S8x64x4_S8x64x1_0_0_0

def val_main_v21 : (⟨S8x64, .f32⟩ : BufTy).Contents (Elt F) :=
  shapeCast _ (val_main_v20 (F := F) x1) shapeCasts_S8x64x1_S8x64

def val_main_cst_4 : (⟨S_, .f32⟩ : BufTy).Contents (Elt F) :=
  constant S_ .f32 0x42A00000#32

def val_main_v22 : (⟨S8x64, .f32⟩ : BufTy).Contents (Elt F) :=
  broadcastInDim S8x64 ![] bcast_S_S8x64 (val_main_cst_4 (F := F))

def val_main_v23 : (⟨S8x64, .f32⟩ : BufTy).Contents (Elt F) :=
  mulf (val_main_v21 (F := F) x1) (val_main_v22 (F := F))

def val_main_v24 : (⟨S8x64, .i32⟩ : BufTy).Contents (Elt F) :=
  fptosi 32 (val_main_v23 (F := F) x1)

def val_main_c_5 : (⟨S_, .i32⟩ : BufTy).Contents (Elt F) :=
  constantI S_ 32 79#32

def val_main_v25 : (⟨S8x64, .i32⟩ : BufTy).Contents (Elt F) :=
  broadcastInDim S8x64 ![] bcast_S_S8x64 (val_main_c_5 (F := F))

def val_main_v26 : (⟨S8x64, .i32⟩ : BufTy).Contents (Elt F) :=
  minsi (val_main_v24 (F := F) x1) (val_main_v25 (F := F))

def val_main_v27 : (⟨S8x64x1, .f32⟩ : BufTy).Contents (Elt F) :=
  extractStridedSlice S8x64x1 ![0, 0, 1] (val_main_v4 (F := F) x1) slices_S8x64x4_S8x64x1_0_0_1

def val_main_v28 : (⟨S8x64, .f32⟩ : BufTy).Contents (Elt F) :=
  shapeCast _ (val_main_v27 (F := F) x1) shapeCasts_S8x64x1_S8x64

def val_main_cst_6 : (⟨S_, .f32⟩ : BufTy).Contents (Elt F) :=
  constant S_ .f32 0x42A00000#32

def val_main_v29 : (⟨S8x64, .f32⟩ : BufTy).Contents (Elt F) :=
  broadcastInDim S8x64 ![] bcast_S_S8x64 (val_main_cst_6 (F := F))

def val_main_v30 : (⟨S8x64, .f32⟩ : BufTy).Contents (Elt F) :=
  mulf (val_main_v28 (F := F) x1) (val_main_v29 (F := F))

def val_main_v31 : (⟨S8x64, .i32⟩ : BufTy).Contents (Elt F) :=
  fptosi 32 (val_main_v30 (F := F) x1)

def val_main_c_7 : (⟨S_, .i32⟩ : BufTy).Contents (Elt F) :=
  constantI S_ 32 79#32

def val_main_v32 : (⟨S8x64, .i32⟩ : BufTy).Contents (Elt F) :=
  broadcastInDim S8x64 ![] bcast_S_S8x64 (val_main_c_7 (F := F))

def val_main_v33 : (⟨S8x64, .i32⟩ : BufTy).Contents (Elt F) :=
  minsi (val_main_v31 (F := F) x1) (val_main_v32 (F := F))

def val_main_c_8 : (⟨S_, .i32⟩ : BufTy).Contents (Elt F) :=
  constantI S_ 32 80#32

def val_main_v34 : (⟨S8x64, .i32⟩ : BufTy).Contents (Elt F) :=
  broadcastInDim S8x64 ![] bcast_S_S8x64 (val_main_c_8 (F := F))

def val_main_v35 : (⟨S8x64, .i32⟩ : BufTy).Contents (Elt F) :=
  muli (val_main_v33 (F := F) x1) (val_main_v34 (F := F))

def val_main_v36 : (⟨S8x64, .i32⟩ : BufTy).Contents (Elt F) :=
  addi (val_main_v35 (F := F) x1) (val_main_v26 (F := F) x1)

def val_main_c_9 : (⟨S_, .i32⟩ : BufTy).Contents (Elt F) :=
  constantI S_ 32 6400#32

def val_main_call1_v0 : (⟨S_, .i32⟩ : BufTy).Contents (Elt F) :=
  id (val_main_c_9 (F := F))

def val_main_call1_v1 : (⟨S8x64, .i32⟩ : BufTy).Contents (Elt F) :=
  broadcastInDim S8x64 ![] bcast_S_S8x64 (val_main_call1_v0 (F := F))

def val_main_v37 : (⟨S8x64, .i32⟩ : BufTy).Contents (Elt F) :=
  select (val_main_v19 (F := F) x1) (val_main_v36 (F := F) x1) (val_main_call1_v1 (F := F))

def val_main_v38 : (⟨S8, .i32⟩ : BufTy).Contents (Elt F) :=
  iotaInDim S8 32 0

def val_main_v39 : (⟨S8x1, .i32⟩ : BufTy).Contents (Elt F) :=
  broadcastInDim S8x1 ![0] bcast_S8_S8x1_0 (val_main_v38 (F := F))

def val_main_v40 : (⟨S8x64, .i32⟩ : BufTy).Contents (Elt F) :=
  broadcastInDim S8x64 ![0, 1] bcast_S8x1_S8x64_0_1 (val_main_v39 (F := F))

def val_main_cst_10 : (⟨S_, .f32⟩ : BufTy).Contents (Elt F) :=
  constant S_ .f32 0x00000000#32

def val_main_v41 : (⟨S8x6401, .f32⟩ : BufTy).Contents (Elt F) :=
  broadcastInDim S8x6401 ![] bcast_S_S8x6401 (val_main_cst_10 (F := F))

def val_main_c_11 : (⟨S_, .i32⟩ : BufTy).Contents (Elt F) :=
  constantI S_ 32 0#32

def val_main_v42 : (⟨S8x64, .i32⟩ : BufTy).Contents (Elt F) :=
  broadcastInDim S8x64 ![] bcast_S_S8x64 (val_main_c_11 (F := F))

def val_main_v43 : (⟨S8x64, .i1⟩ : BufTy).Contents (Elt F) :=
  cmpi .slt (val_main_v40 (F := F)) (val_main_v42 (F := F))

def val_main_c_12 : (⟨S_, .i32⟩ : BufTy).Contents (Elt F) :=
  constantI S_ 32 8#32

def val_main_v44 : (⟨S8x64, .i32⟩ : BufTy).Contents (Elt F) :=
  broadcastInDim S8x64 ![] bcast_S_S8x64 (val_main_c_12 (F := F))

def val_main_v45 : (⟨S8x64, .i32⟩ : BufTy).Contents (Elt F) :=
  addi (val_main_v40 (F := F)) (val_main_v44 (F := F))

def val_main_v46 : (⟨S8x64, .i32⟩ : BufTy).Contents (Elt F) :=
  select (val_main_v43 (F := F)) (val_main_v45 (F := F)) (val_main_v40 (F := F))

def val_main_c_13 : (⟨S_, .i32⟩ : BufTy).Contents (Elt F) :=
  constantI S_ 32 0#32

def val_main_v47 : (⟨S8x64, .i32⟩ : BufTy).Contents (Elt F) :=
  broadcastInDim S8x64 ![] bcast_S_S8x64 (val_main_c_13 (F := F))

def val_main_v48 : (⟨S8x64, .i1⟩ : BufTy).Contents (Elt F) :=
  cmpi .slt (val_main_v37 (F := F) x1) (val_main_v47 (F := F))

def val_main_c_14 : (⟨S_, .i32⟩ : BufTy).Contents (Elt F) :=
  constantI S_ 32 6401#32

def val_main_v49 : (⟨S8x64, .i32⟩ : BufTy).Contents (Elt F) :=
  broadcastInDim S8x64 ![] bcast_S_S8x64 (val_main_c_14 (F := F))

def val_main_v50 : (⟨S8x64, .i32⟩ : BufTy).Contents (Elt F) :=
  addi (val_main_v37 (F := F) x1) (val_main_v49 (F := F))

def val_main_v51 : (⟨S8x64, .i32⟩ : BufTy).Contents (Elt F) :=
  select (val_main_v48 (F := F) x1) (val_main_v50 (F := F) x1) (val_main_v37 (F := F) x1)

def val_main_v52 : (⟨S8x64x1, .i32⟩ : BufTy).Contents (Elt F) :=
  broadcastInDim S8x64x1 ![0, 1] bcast_S8x64_S8x64x1_0_1 (val_main_v46 (F := F))

def val_main_v53 : (⟨S8x64x1, .i32⟩ : BufTy).Contents (Elt F) :=
  broadcastInDim S8x64x1 ![0, 1] bcast_S8x64_S8x64x1_0_1 (val_main_v51 (F := F) x1)

def val_main_v54 : (⟨S8x64x2, .i32⟩ : BufTy).Contents (Elt F) :=
  concatenate S8x64x2 2 [⟨S8x64x1, (val_main_v52 (F := F))⟩, ⟨S8x64x1, (val_main_v53 (F := F) x1)⟩] concatenates_S8x64x1_S8x64x1_S8x64x2_d2

def val_main_cst_15 : (⟨S_, .f32⟩ : BufTy).Contents (Elt F) :=
  constant S_ .f32 0x3F800000#32

def val_main_v55 : (⟨S8x64, .f32⟩ : BufTy).Contents (Elt F) :=
  broadcastInDim S8x64 ![] bcast_S_S8x64 (val_main_cst_15 (F := F))

def val_main_v56 : (⟨S8x6401, .f32⟩ : BufTy).Contents (Elt F) :=
  Host.scatter scatter_S8x6401_S8x64x2_S8x64_n_01_01_2 (fun _ b => b) (val_main_v41 (F := F)) (val_main_v54 (F := F) x1) (val_main_v55 (F := F))

def val_main_v57 : (⟨S8x6400, .f32⟩ : BufTy).Contents (Elt F) :=
  extractStridedSlice S8x6400 ![0, 0] (val_main_v56 (F := F) x1) slices_S8x6401_S8x6400_0_0

def val_main_v58 : (⟨S8x80x80, .f32⟩ : BufTy).Contents (Elt F) :=
  shapeCast _ (val_main_v57 (F := F) x1) shapeCasts_S8x6400_S8x80x80

def val_main_cst_16 : (⟨S_, .f32⟩ : BufTy).Contents (Elt F) :=
  constant S_ .f32 0x00000000#32

def val_main_v59 : (⟨S8x6401x4, .f32⟩ : BufTy).Contents (Elt F) :=
  broadcastInDim S8x6401x4 ![] bcast_S_S8x6401x4 (val_main_cst_16 (F := F))

def val_main_c_17 : (⟨S_, .i32⟩ : BufTy).Contents (Elt F) :=
  constantI S_ 32 0#32

def val_main_v60 : (⟨S8x64, .i32⟩ : BufTy).Contents (Elt F) :=
  broadcastInDim S8x64 ![] bcast_S_S8x64 (val_main_c_17 (F := F))

def val_main_v61 : (⟨S8x64, .i1⟩ : BufTy).Contents (Elt F) :=
  cmpi .slt (val_main_v40 (F := F)) (val_main_v60 (F := F))

def val_main_c_18 : (⟨S_, .i32⟩ : BufTy).Contents (Elt F) :=
  constantI S_ 32 8#32

def val_main_v62 : (⟨S8x64, .i32⟩ : BufTy).Contents (Elt F) :=
  broadcastInDim S8x64 ![] bcast_S_S8x64 (val_main_c_18 (F := F))

def val_main_v63 : (⟨S8x64, .i32⟩ : BufTy).Contents (Elt F) :=
  addi (val_main_v40 (F := F)) (val_main_v62 (F := F))

def val_main_v64 : (⟨S8x64, .i32⟩ : BufTy).Contents (Elt F) :=
  select (val_main_v61 (F := F)) (val_main_v63 (F := F)) (val_main_v40 (F := F))

def val_main_c_19 : (⟨S_, .i32⟩ : BufTy).Contents (Elt F) :=
  constantI S_ 32 0#32

def val_main_v65 : (⟨S8x64, .i32⟩ : BufTy).Contents (Elt F) :=
  broadcastInDim S8x64 ![] bcast_S_S8x64 (val_main_c_19 (F := F))

def val_main_v66 : (⟨S8x64, .i1⟩ : BufTy).Contents (Elt F) :=
  cmpi .slt (val_main_v37 (F := F) x1) (val_main_v65 (F := F))

def val_main_c_20 : (⟨S_, .i32⟩ : BufTy).Contents (Elt F) :=
  constantI S_ 32 6401#32

def val_main_v67 : (⟨S8x64, .i32⟩ : BufTy).Contents (Elt F) :=
  broadcastInDim S8x64 ![] bcast_S_S8x64 (val_main_c_20 (F := F))

def val_main_v68 : (⟨S8x64, .i32⟩ : BufTy).Contents (Elt F) :=
  addi (val_main_v37 (F := F) x1) (val_main_v67 (F := F))

def val_main_v69 : (⟨S8x64, .i32⟩ : BufTy).Contents (Elt F) :=
  select (val_main_v66 (F := F) x1) (val_main_v68 (F := F) x1) (val_main_v37 (F := F) x1)

def val_main_v70 : (⟨S8x64x1, .i32⟩ : BufTy).Contents (Elt F) :=
  broadcastInDim S8x64x1 ![0, 1] bcast_S8x64_S8x64x1_0_1 (val_main_v64 (F := F))

def val_main_v71 : (⟨S8x64x1, .i32⟩ : BufTy).Contents (Elt F) :=
  broadcastInDim S8x64x1 ![0, 1] bcast_S8x64_S8x64x1_0_1 (val_main_v69 (F := F) x1)

def val_main_v72 : (⟨S8x64x2, .i32⟩ : BufTy).Contents (Elt F) :=
  concatenate S8x64x2 2 [⟨S8x64x1, (val_main_v70 (F := F))⟩, ⟨S8x64x1, (val_main_v71 (F := F) x1)⟩] concatenates_S8x64x1_S8x64x1_S8x64x2_d2

def val_main_v73 : (⟨S8x6401x4, .f32⟩ : BufTy).Contents (Elt F) :=
  Host.scatter scatter_S8x6401x4_S8x64x2_S8x64x4_2_01_01_2 (fun _ b => b) (val_main_v59 (F := F)) (val_main_v72 (F := F) x1) (val_main_v4 (F := F) x1)

def val_main_v74 : (⟨S8x6400x4, .f32⟩ : BufTy).Contents (Elt F) :=
  extractStridedSlice S8x6400x4 ![0, 0, 0] (val_main_v73 (F := F) x1) slices_S8x6401x4_S8x6400x4_0_0_0

def val_main_v75 : (⟨S8x80x80x4, .f32⟩ : BufTy).Contents (Elt F) :=
  shapeCast _ (val_main_v74 (F := F) x1) shapeCasts_S8x6400x4_S8x80x80x4

def val_main_c_21 : (⟨S_, .i32⟩ : BufTy).Contents (Elt F) :=
  constantI S_ 32 0#32

def val_main_v76 : (⟨S8x6401, .i32⟩ : BufTy).Contents (Elt F) :=
  broadcastInDim S8x6401 ![] bcast_S_S8x6401 (val_main_c_21 (F := F))

def val_main_c_22 : (⟨S_, .i32⟩ : BufTy).Contents (Elt F) :=
  constantI S_ 32 0#32

def val_main_v77 : (⟨S8x64, .i32⟩ : BufTy).Contents (Elt F) :=
  broadcastInDim S8x64 ![] bcast_S_S8x64 (val_main_c_22 (F := F))

def val_main_v78 : (⟨S8x64, .i1⟩ : BufTy).Contents (Elt F) :=
  cmpi .slt (val_main_v40 (F := F)) (val_main_v77 (F := F))

def val_main_c_23 : (⟨S_, .i32⟩ : BufTy).Contents (Elt F) :=
  constantI S_ 32 8#32

def val_main_v79 : (⟨S8x64, .i32⟩ : BufTy).Contents (Elt F) :=
  broadcastInDim S8x64 ![] bcast_S_S8x64 (val_main_c_23 (F := F))

def val_main_v80 : (⟨S8x64, .i32⟩ : BufTy).Contents (Elt F) :=
  addi (val_main_v40 (F := F)) (val_main_v79 (F := F))

def val_main_v81 : (⟨S8x64, .i32⟩ : BufTy).Contents (Elt F) :=
  select (val_main_v78 (F := F)) (val_main_v80 (F := F)) (val_main_v40 (F := F))

def val_main_c_24 : (⟨S_, .i32⟩ : BufTy).Contents (Elt F) :=
  constantI S_ 32 0#32

def val_main_v82 : (⟨S8x64, .i32⟩ : BufTy).Contents (Elt F) :=
  broadcastInDim S8x64 ![] bcast_S_S8x64 (val_main_c_24 (F := F))

def val_main_v83 : (⟨S8x64, .i1⟩ : BufTy).Contents (Elt F) :=
  cmpi .slt (val_main_v37 (F := F) x1) (val_main_v82 (F := F))

def val_main_c_25 : (⟨S_, .i32⟩ : BufTy).Contents (Elt F) :=
  constantI S_ 32 6401#32

def val_main_v84 : (⟨S8x64, .i32⟩ : BufTy).Contents (Elt F) :=
  broadcastInDim S8x64 ![] bcast_S_S8x64 (val_main_c_25 (F := F))

def val_main_v85 : (⟨S8x64, .i32⟩ : BufTy).Contents (Elt F) :=
  addi (val_main_v37 (F := F) x1) (val_main_v84 (F := F))

def val_main_v86 : (⟨S8x64, .i32⟩ : BufTy).Contents (Elt F) :=
  select (val_main_v83 (F := F) x1) (val_main_v85 (F := F) x1) (val_main_v37 (F := F) x1)

def val_main_v87 : (⟨S8x64x1, .i32⟩ : BufTy).Contents (Elt F) :=
  broadcastInDim S8x64x1 ![0, 1] bcast_S8x64_S8x64x1_0_1 (val_main_v81 (F := F))

def val_main_v88 : (⟨S8x64x1, .i32⟩ : BufTy).Contents (Elt F) :=
  broadcastInDim S8x64x1 ![0, 1] bcast_S8x64_S8x64x1_0_1 (val_main_v86 (F := F) x1)

def val_main_v89 : (⟨S8x64x2, .i32⟩ : BufTy).Contents (Elt F) :=
  concatenate S8x64x2 2 [⟨S8x64x1, (val_main_v87 (F := F))⟩, ⟨S8x64x1, (val_main_v88 (F := F) x1)⟩] concatenates_S8x64x1_S8x64x1_S8x64x2_d2

def val_main_v90 : (⟨S8x6401, .i32⟩ : BufTy).Contents (Elt F) :=
  Host.scatter scatter_S8x6401_S8x64x2_S8x64_n_01_01_2 (fun _ b => b) (val_main_v76 (F := F)) (val_main_v89 (F := F) x1) (val_main_v2 (F := F) x1)

def val_main_v91 : (⟨S8x6400, .i32⟩ : BufTy).Contents (Elt F) :=
  extractStridedSlice S8x6400 ![0, 0] (val_main_v90 (F := F) x1) slices_S8x6401_S8x6400_0_0

def val_main_v92 : (⟨S8x80x80, .i32⟩ : BufTy).Contents (Elt F) :=
  shapeCast _ (val_main_v91 (F := F) x1) shapeCasts_S8x6400_S8x80x80

def val_main_cst_26 : (⟨S_, .f32⟩ : BufTy).Contents (Elt F) :=
  constant S_ .f32 0x00000000#32

def val_main_v93 : (⟨S8x80x80, .f32⟩ : BufTy).Contents (Elt F) :=
  broadcastInDim S8x80x80 ![] bcast_S_S8x80x80 (val_main_cst_26 (F := F))

def val_main_v94 : (⟨S8x80x80, .i1⟩ : BufTy).Contents (Elt F) :=
  cmpf .ogt (val_main_v58 (F := F) x1) (val_main_v93 (F := F))

def val_main_v95 : (⟨S8x6400, .i1⟩ : BufTy).Contents (Elt F) :=
  shapeCast _ (val_main_v94 (F := F) x1) shapeCasts_S8x80x80_S8x6400

def val_main_v96 : (⟨S8x6400, .i32⟩ : BufTy).Contents (Elt F) :=
  extui 32 (val_main_v95 (F := F) x1) natLt_1_32

def val_main_c_27 : (⟨S_, .i32⟩ : BufTy).Contents (Elt F) :=
  constantI S_ 32 0#32

def val_main_v97 : (⟨S8, .i32⟩ : BufTy).Contents (Elt F) :=
  Host.reduce IntOp.addi (val_main_v96 (F := F) x1) (val_main_c_27 (F := F)) reducesTo_S8x6400_S8_d1 h_S_

def val_main_c_28 : (⟨S_, .i32⟩ : BufTy).Contents (Elt F) :=
  constantI S_ 32 1#32

def val_main_v98 : (⟨S8, .i32⟩ : BufTy).Contents (Elt F) :=
  broadcastInDim S8 ![] bcast_S_S8 (val_main_c_28 (F := F))

def val_main_v99 : (⟨S8, .i32⟩ : BufTy).Contents (Elt F) :=
  maxsi (val_main_v97 (F := F) x1) (val_main_v98 (F := F))

def val_main_v100 : (⟨S8, .f32⟩ : BufTy).Contents (Elt F) :=
  sitofp .f32 (val_main_v99 (F := F) x1)

def val_main_v101 : (⟨S8, .f32⟩ : BufTy).Contents (Elt F) :=
  sitofp .f32 (x6)

def val_main_cst_29 : (⟨S_, .f32⟩ : BufTy).Contents (Elt F) :=
  constant S_ .f32 0x00000000#32

def val_main_v102 : (⟨S_, .f32⟩ : BufTy).Contents (Elt F) :=
  Host.reduceAdd (val_main_v101 (F := F) x6) (val_main_cst_29 (F := F)) reducesTo_S8_S_d0 h_S_

def val_main_cst_30 : (⟨S_, .f32⟩ : BufTy).Contents (Elt F) :=
  constant S_ .f32 0x3F800000#32

def val_main_v103 : (⟨S_, .f32⟩ : BufTy).Contents (Elt F) :=
  maximumf (val_main_v102 (F := F) x6) (val_main_cst_30 (F := F))

def val_main_v104 : (⟨S8x1x80x80, .f32⟩ : BufTy).Contents (Elt F) :=
  extractStridedSlice S8x1x80x80 ![0, 4, 0, 0] (x0) slices_S8x15x80x80_S8x1x80x80_0_4_0_0

def val_main_v105 : (⟨S8x80x80, .f32⟩ : BufTy).Contents (Elt F) :=
  shapeCast _ (val_main_v104 (F := F) x0) shapeCasts_S8x1x80x80_S8x80x80

def val_main_cst_31 : (⟨S_, .f32⟩ : BufTy).Contents (Elt F) :=
  constant S_ .f32 0x00000000#32

def val_main_v106 : (⟨S8x80x80, .f32⟩ : BufTy).Contents (Elt F) :=
  broadcastInDim S8x80x80 ![] bcast_S_S8x80x80 (val_main_cst_31 (F := F))

def val_main_v107 : (⟨S8x80x80, .f32⟩ : BufTy).Contents (Elt F) :=
  maximumf (val_main_v105 (F := F) x0) (val_main_v106 (F := F))

def val_main_v108 : (⟨S8x80x80, .f32⟩ : BufTy).Contents (Elt F) :=
  mulf (val_main_v105 (F := F) x0) (val_main_v58 (F := F) x1)

def val_main_v109 : (⟨S8x80x80, .f32⟩ : BufTy).Contents (Elt F) :=
  subf (val_main_v107 (F := F) x0) (val_main_v108 (F := F) x0 x1)

def val_main_v110 : (⟨S8x80x80, .f32⟩ : BufTy).Contents (Elt F) :=
  Host.absf (val_main_v105 (F := F) x0)

def val_main_v111 : (⟨S8x80x80, .f32⟩ : BufTy).Contents (Elt F) :=
  Host.negf (val_main_v110 (F := F) x0)

def val_main_v112 : (⟨S8x80x80, .f32⟩ : BufTy).Contents (Elt F) :=
  Host.exp (val_main_v111 (F := F) x0)

def val_main_v113 : (⟨S8x80x80, .f32⟩ : BufTy).Contents (Elt F) :=
  Host.log1p (val_main_v112 (F := F) x0)

def val_main_v114 : (⟨S8x80x80, .f32⟩ : BufTy).Contents (Elt F) :=
  addf (val_main_v109 (F := F) x0 x1) (val_main_v113 (F := F) x0)

def val_main_v115 : (⟨S8x6400, .f32⟩ : BufTy).Contents (Elt F) :=
  shapeCast _ (val_main_v114 (F := F) x0 x1) shapeCasts_S8x80x80_S8x6400

def val_main_cst_32 : (⟨S_, .f32⟩ : BufTy).Contents (Elt F) :=
  constant S_ .f32 0x00000000#32

def val_main_v116 : (⟨S8, .f32⟩ : BufTy).Contents (Elt F) :=
  Host.reduceAdd (val_main_v115 (F := F) x0 x1) (val_main_cst_32 (F := F)) reducesTo_S8x6400_S8_d1 h_S_

def val_main_cst_33 : (⟨S_, .f32⟩ : BufTy).Contents (Elt F) :=
  constant S_ .f32 0x45C80000#32

def val_main_v117 : (⟨S8, .f32⟩ : BufTy).Contents (Elt F) :=
  broadcastInDim S8 ![] bcast_S_S8 (val_main_cst_33 (F := F))

def val_main_v118 : (⟨S8, .f32⟩ : BufTy).Contents (Elt F) :=
  Host.divf (val_main_v116 (F := F) x0 x1) (val_main_v117 (F := F))

def val_main_v119 : (⟨S8x4x80x80, .f32⟩ : BufTy).Contents (Elt F) :=
  extractStridedSlice S8x4x80x80 ![0, 0, 0, 0] (x0) slices_S8x15x80x80_S8x4x80x80_0_0_0_0

def val_main_v120 : (⟨S8x80x80x4, .f32⟩ : BufTy).Contents (Elt F) :=
  transpose S8x80x80x4 [0, 2, 3, 1] (val_main_v119 (F := F) x0) transposes_S8x4x80x80_S8x80x80x4_0_2_3_1

def val_main_v121 : (⟨S8x80x80x4, .f32⟩ : BufTy).Contents (Elt F) :=
  Host.negf (val_main_v120 (F := F) x0)

def val_main_v122 : (⟨S8x80x80x4, .f32⟩ : BufTy).Contents (Elt F) :=
  Host.exp (val_main_v121 (F := F) x0)

def val_main_cst_34 : (⟨S_, .f32⟩ : BufTy).Contents (Elt F) :=
  constant S_ .f32 0x3F800000#32

def val_main_v123 : (⟨S8x80x80x4, .f32⟩ : BufTy).Contents (Elt F) :=
  broadcastInDim S8x80x80x4 ![] bcast_S_S8x80x80x4 (val_main_cst_34 (F := F))

def val_main_v124 : (⟨S8x80x80x4, .f32⟩ : BufTy).Contents (Elt F) :=
  addf (val_main_v123 (F := F)) (val_main_v122 (F := F) x0)

def val_main_cst_35 : (⟨S_, .f32⟩ : BufTy).Contents (Elt F) :=
  constant S_ .f32 0x3F800000#32

def val_main_v125 : (⟨S8x80x80x4, .f32⟩ : BufTy).Contents (Elt F) :=
  broadcastInDim S8x80x80x4 ![] bcast_S_S8x80x80x4 (val_main_cst_35 (F := F))

def val_main_v126 : (⟨S8x80x80x4, .f32⟩ : BufTy).Contents (Elt F) :=
  Host.divf (val_main_v125 (F := F)) (val_main_v124 (F := F) x0)

def val_main_v127 : (⟨S8x80x80x4, .f32⟩ : BufTy).Contents (Elt F) :=
  subf (val_main_v126 (F := F) x0) (val_main_v75 (F := F) x1)

def val_main_v128 : (⟨S8x80x80x4, .f32⟩ : BufTy).Contents (Elt F) :=
  Host.absf (val_main_v127 (F := F) x0 x1)

def val_main_cst_36 : (⟨S_, .f32⟩ : BufTy).Contents (Elt F) :=
  constant S_ .f32 0x3F800000#32

def val_main_v129 : (⟨S8x80x80x4, .f32⟩ : BufTy).Contents (Elt F) :=
  broadcastInDim S8x80x80x4 ![] bcast_S_S8x80x80x4 (val_main_cst_36 (F := F))

def val_main_v130 : (⟨S8x80x80x4, .i1⟩ : BufTy).Contents (Elt F) :=
  cmpf .olt (val_main_v128 (F := F) x0 x1) (val_main_v129 (F := F))

def val_main_cst_37 : (⟨S_, .f32⟩ : BufTy).Contents (Elt F) :=
  constant S_ .f32 0x3F000000#32

def val_main_v131 : (⟨S8x80x80x4, .f32⟩ : BufTy).Contents (Elt F) :=
  broadcastInDim S8x80x80x4 ![] bcast_S_S8x80x80x4 (val_main_cst_37 (F := F))

def val_main_v132 : (⟨S8x80x80x4, .f32⟩ : BufTy).Contents (Elt F) :=
  mulf (val_main_v131 (F := F)) (val_main_v128 (F := F) x0 x1)

def val_main_v133 : (⟨S8x80x80x4, .f32⟩ : BufTy).Contents (Elt F) :=
  mulf (val_main_v132 (F := F) x0 x1) (val_main_v128 (F := F) x0 x1)

def val_main_cst_38 : (⟨S_, .f32⟩ : BufTy).Contents (Elt F) :=
  constant S_ .f32 0x3F000000#32

def val_main_v134 : (⟨S8x80x80x4, .f32⟩ : BufTy).Contents (Elt F) :=
  broadcastInDim S8x80x80x4 ![] bcast_S_S8x80x80x4 (val_main_cst_38 (F := F))

def val_main_v135 : (⟨S8x80x80x4, .f32⟩ : BufTy).Contents (Elt F) :=
  subf (val_main_v128 (F := F) x0 x1) (val_main_v134 (F := F))

def val_main_v136 : (⟨S8x80x80x4, .f32⟩ : BufTy).Contents (Elt F) :=
  select (val_main_v130 (F := F) x0 x1) (val_main_v133 (F := F) x0 x1) (val_main_v135 (F := F) x0 x1)

def val_main_v137 : (⟨S8x80x80x1, .i1⟩ : BufTy).Contents (Elt F) :=
  broadcastInDim S8x80x80x1 ![0, 1, 2] bcast_S8x80x80_S8x80x80x1_0_1_2 (val_main_v94 (F := F) x1)

def val_main_v138 : (⟨S8x80x80x1, .f32⟩ : BufTy).Contents (Elt F) :=
  uitofp .f32 (val_main_v137 (F := F) x1)

def val_main_v139 : (⟨S8x80x80x4, .f32⟩ : BufTy).Contents (Elt F) :=
  broadcastInDim S8x80x80x4 ![0, 1, 2, 3] bcast_S8x80x80x1_S8x80x80x4_0_1_2_3 (val_main_v138 (F := F) x1)

def val_main_v140 : (⟨S8x80x80x4, .f32⟩ : BufTy).Contents (Elt F) :=
  mulf (val_main_v136 (F := F) x0 x1) (val_main_v139 (F := F) x1)

def val_main_v141 : (⟨S8x25600, .f32⟩ : BufTy).Contents (Elt F) :=
  shapeCast _ (val_main_v140 (F := F) x0 x1) shapeCasts_S8x80x80x4_S8x25600

def val_main_cst_39 : (⟨S_, .f32⟩ : BufTy).Contents (Elt F) :=
  constant S_ .f32 0x00000000#32

def val_main_v142 : (⟨S8, .f32⟩ : BufTy).Contents (Elt F) :=
  Host.reduceAdd (val_main_v141 (F := F) x0 x1) (val_main_cst_39 (F := F)) reducesTo_S8x25600_S8_d1 h_S_

def val_main_cst_40 : (⟨S_, .f32⟩ : BufTy).Contents (Elt F) :=
  constant S_ .f32 0x40800000#32

def val_main_v143 : (⟨S8, .f32⟩ : BufTy).Contents (Elt F) :=
  broadcastInDim S8 ![] bcast_S_S8 (val_main_cst_40 (F := F))

def val_main_v144 : (⟨S8, .f32⟩ : BufTy).Contents (Elt F) :=
  mulf (val_main_v100 (F := F) x1) (val_main_v143 (F := F))

def val_main_v145 : (⟨S8, .f32⟩ : BufTy).Contents (Elt F) :=
  Host.divf (val_main_v142 (F := F) x0 x1) (val_main_v144 (F := F) x1)

def val_main_v146 : (⟨S8x10x80x80, .f32⟩ : BufTy).Contents (Elt F) :=
  extractStridedSlice S8x10x80x80 ![0, 5, 0, 0] (x0) slices_S8x15x80x80_S8x10x80x80_0_5_0_0

def val_main_call3_cst : (⟨S_, .f32⟩ : BufTy).Contents (Elt F) :=
  constant S_ .f32 0xFF800000#32

def val_main_call3_v0 : (⟨S8x80x80, .f32⟩ : BufTy).Contents (Elt F) :=
  Host.reduce FloatOps.maximumf (val_main_v146 (F := F) x0) (val_main_call3_cst (F := F)) reducesTo_S8x10x80x80_S8x80x80_d1 h_S_

def val_main_call3_cst_0 : (⟨S_, .f32⟩ : BufTy).Contents (Elt F) :=
  constant S_ .f32 0xFF800000#32

def val_main_call3_v1 : (⟨S8x80x80, .f32⟩ : BufTy).Contents (Elt F) :=
  broadcastInDim S8x80x80 ![] bcast_S_S8x80x80 (val_main_call3_cst_0 (F := F))

def val_main_call3_v2 : (⟨S8x80x80, .f32⟩ : BufTy).Contents (Elt F) :=
  maximumf (val_main_call3_v1 (F := F)) (val_main_call3_v0 (F := F) x0)

def val_main_call3_v3 : (⟨S8x1x80x80, .f32⟩ : BufTy).Contents (Elt F) :=
  broadcastInDim S8x1x80x80 ![0, 2, 3] bcast_S8x80x80_S8x1x80x80_0_2_3 (val_main_call3_v2 (F := F) x0)

def val_main_call3_v4 : (⟨S8x10x80x80, .f32⟩ : BufTy).Contents (Elt F) :=
  broadcastInDim S8x10x80x80 ![0, 1, 2, 3] bcast_S8x1x80x80_S8x10x80x80_0_1_2_3 (val_main_call3_v3 (F := F) x0)

def val_main_call3_v5 : (⟨S8x10x80x80, .f32⟩ : BufTy).Contents (Elt F) :=
  subf (val_main_v146 (F := F) x0) (val_main_call3_v4 (F := F) x0)

def val_main_call3_v6 : (⟨S8x10x80x80, .f32⟩ : BufTy).Contents (Elt F) :=
  Host.exp (val_main_call3_v5 (F := F) x0)

def val_main_call3_cst_1 : (⟨S_, .f32⟩ : BufTy).Contents (Elt F) :=
  constant S_ .f32 0x00000000#32

def val_main_call3_v7 : (⟨S8x80x80, .f32⟩ : BufTy).Contents (Elt F) :=
  Host.reduceAdd (val_main_call3_v6 (F := F) x0) (val_main_call3_cst_1 (F := F)) reducesTo_S8x10x80x80_S8x80x80_d1 h_S_

def val_main_call3_v8 : (⟨S8x1x80x80, .f32⟩ : BufTy).Contents (Elt F) :=
  broadcastInDim S8x1x80x80 ![0, 2, 3] bcast_S8x80x80_S8x1x80x80_0_2_3 (val_main_call3_v7 (F := F) x0)

def val_main_call3_v9 : (⟨S8x1x80x80, .f32⟩ : BufTy).Contents (Elt F) :=
  Host.log (val_main_call3_v8 (F := F) x0)

def val_main_call3_v10 : (⟨S8x10x80x80, .f32⟩ : BufTy).Contents (Elt F) :=
  broadcastInDim S8x10x80x80 ![0, 1, 2, 3] bcast_S8x1x80x80_S8x10x80x80_0_1_2_3 (val_main_call3_v9 (F := F) x0)

def val_main_v147 : (⟨S8x10x80x80, .f32⟩ : BufTy).Contents (Elt F) :=
  subf (val_main_call3_v5 (F := F) x0) (val_main_call3_v10 (F := F) x0)

def val_main_v148 : (⟨S8x1x80x80, .i32⟩ : BufTy).Contents (Elt F) :=
  broadcastInDim S8x1x80x80 ![0, 2, 3] bcast_S8x80x80_S8x1x80x80_0_2_3 (val_main_v92 (F := F) x1)

def val_main_call4_c : (⟨S_, .i32⟩ : BufTy).Contents (Elt F) :=
  constantI S_ 32 0#32

def val_main_call4_v0 : (⟨S8x1x80x80, .i32⟩ : BufTy).Contents (Elt F) :=
  broadcastInDim S8x1x80x80 ![] bcast_S_S8x1x80x80 (val_main_call4_c (F := F))

def val_main_call4_v1 : (⟨S8x1x80x80, .i1⟩ : BufTy).Contents (Elt F) :=
  cmpi .slt (val_main_v148 (F := F) x1) (val_main_call4_v0 (F := F))

def val_main_call4_c_0 : (⟨S_, .i32⟩ : BufTy).Contents (Elt F) :=
  constantI S_ 32 10#32

def val_main_call4_v2 : (⟨S8x1x80x80, .i32⟩ : BufTy).Contents (Elt F) :=
  broadcastInDim S8x1x80x80 ![] bcast_S_S8x1x80x80 (val_main_call4_c_0 (F := F))

def val_main_call4_v3 : (⟨S8x1x80x80, .i32⟩ : BufTy).Contents (Elt F) :=
  addi (val_main_v148 (F := F) x1) (val_main_call4_v2 (F := F))

def val_main_call4_v4 : (⟨S8x1x80x80, .i32⟩ : BufTy).Contents (Elt F) :=
  select (val_main_call4_v1 (F := F) x1) (val_main_call4_v3 (F := F) x1) (val_main_v148 (F := F) x1)

def val_main_call4_v5 : (⟨S8x1x80x80x1, .i32⟩ : BufTy).Contents (Elt F) :=
  shapeCast _ (val_main_call4_v4 (F := F) x1) shapeCasts_S8x1x80x80_S8x1x80x80x1

def val_main_call4_c_1 : (⟨S1, .i32⟩ : BufTy).Contents (Elt F) :=
  constantI S1 32 9#32

def val_main_call4_c_2 : (⟨S_, .i32⟩ : BufTy).Contents (Elt F) :=
  constantI S_ 32 0#32

def val_main_call4_v6 : (⟨S8x1x80x80x1, .i32⟩ : BufTy).Contents (Elt F) :=
  broadcastInDim S8x1x80x80x1 ![] bcast_S_S8x1x80x80x1 (val_main_call4_c_2 (F := F))

def val_main_call4_v7 : (⟨S8x1x80x80x1, .i1⟩ : BufTy).Contents (Elt F) :=
  cmpi .sge (val_main_call4_v5 (F := F) x1) (val_main_call4_v6 (F := F))

def val_main_call4_v8 : (⟨S1x1x1x1x1, .i32⟩ : BufTy).Contents (Elt F) :=
  broadcastInDim S1x1x1x1x1 ![4] bcast_S1_S1x1x1x1x1_4 (val_main_call4_c_1 (F := F))

def val_main_call4_v9 : (⟨S8x1x80x80x1, .i32⟩ : BufTy).Contents (Elt F) :=
  broadcastInDim S8x1x80x80x1 ![0, 1, 2, 3, 4] bcast_S1x1x1x1x1_S8x1x80x80x1_0_1_2_3_4 (val_main_call4_v8 (F := F))

def val_main_call4_v10 : (⟨S8x1x80x80x1, .i1⟩ : BufTy).Contents (Elt F) :=
  cmpi .sle (val_main_call4_v5 (F := F) x1) (val_main_call4_v9 (F := F))

def val_main_call4_v11 : (⟨S8x1x80x80x1, .i1⟩ : BufTy).Contents (Elt F) :=
  andi (val_main_call4_v7 (F := F) x1) (val_main_call4_v10 (F := F) x1)

def val_main_call4_c_3 : (⟨S_, .i1⟩ : BufTy).Contents (Elt F) :=
  constantI S_ 1 1#1

def val_main_call4_v12 : (⟨S8x1x80x80, .i1⟩ : BufTy).Contents (Elt F) :=
  Host.reduce IntOp.andi (val_main_call4_v11 (F := F) x1) (val_main_call4_c_3 (F := F)) reducesTo_S8x1x80x80x1_S8x1x80x80_d4 h_S_

def val_main_call4_v13 : (⟨S8x1x80x80, .f32⟩ : BufTy).Contents (Elt F) :=
  Host.gather gather_S8x10x80x80_S8x1x80x80x1_S8x1x80x80_n_1_023_023_1_4_1111 (val_main_v147 (F := F) x0) (val_main_call4_v5 (F := F) x1)

def val_main_call4_cst : (⟨S_, .f32⟩ : BufTy).Contents (Elt F) :=
  constant S_ .f32 0x7FC00000#32

def val_main_call4_v14 : (⟨S8x1x80x80, .f32⟩ : BufTy).Contents (Elt F) :=
  broadcastInDim S8x1x80x80 ![] bcast_S_S8x1x80x80 (val_main_call4_cst (F := F))

def val_main_v149 : (⟨S8x1x80x80, .f32⟩ : BufTy).Contents (Elt F) :=
  select (val_main_call4_v12 (F := F) x1) (val_main_call4_v13 (F := F) x0 x1) (val_main_call4_v14 (F := F))

def val_main_v150 : (⟨S8x80x80, .f32⟩ : BufTy).Contents (Elt F) :=
  shapeCast _ (val_main_v149 (F := F) x0 x1) shapeCasts_S8x1x80x80_S8x80x80

def val_main_v151 : (⟨S8x80x80, .f32⟩ : BufTy).Contents (Elt F) :=
  Host.negf (val_main_v150 (F := F) x0 x1)

def val_main_v152 : (⟨S8x80x80, .f32⟩ : BufTy).Contents (Elt F) :=
  uitofp .f32 (val_main_v94 (F := F) x1)

def val_main_v153 : (⟨S8x80x80, .f32⟩ : BufTy).Contents (Elt F) :=
  mulf (val_main_v151 (F := F) x0 x1) (val_main_v152 (F := F) x1)

def val_main_v154 : (⟨S8x6400, .f32⟩ : BufTy).Contents (Elt F) :=
  shapeCast _ (val_main_v153 (F := F) x0 x1) shapeCasts_S8x80x80_S8x6400

def val_main_cst_41 : (⟨S_, .f32⟩ : BufTy).Contents (Elt F) :=
  constant S_ .f32 0x00000000#32

def val_main_v155 : (⟨S8, .f32⟩ : BufTy).Contents (Elt F) :=
  Host.reduceAdd (val_main_v154 (F := F) x0 x1) (val_main_cst_41 (F := F)) reducesTo_S8x6400_S8_d1 h_S_

def val_main_v156 : (⟨S8, .f32⟩ : BufTy).Contents (Elt F) :=
  Host.divf (val_main_v155 (F := F) x0 x1) (val_main_v100 (F := F) x1)

def val_main_v157 : (⟨S8, .f32⟩ : BufTy).Contents (Elt F) :=
  addf (val_main_v118 (F := F) x0 x1) (val_main_v145 (F := F) x0 x1)

def val_main_v158 : (⟨S8, .f32⟩ : BufTy).Contents (Elt F) :=
  addf (val_main_v157 (F := F) x0 x1) (val_main_v156 (F := F) x0 x1)

def val_main_v159 : (⟨S8, .f32⟩ : BufTy).Contents (Elt F) :=
  mulf (val_main_v158 (F := F) x0 x1) (val_main_v101 (F := F) x6)

def val_main_cst_42 : (⟨S_, .f32⟩ : BufTy).Contents (Elt F) :=
  constant S_ .f32 0x00000000#32

def val_main_v160 : (⟨S_, .f32⟩ : BufTy).Contents (Elt F) :=
  Host.reduceAdd (val_main_v159 (F := F) x0 x1 x6) (val_main_cst_42 (F := F)) reducesTo_S8_S_d0 h_S_

def val_main_v161 : (⟨S_, .f32⟩ : BufTy).Contents (Elt F) :=
  Host.divf (val_main_v160 (F := F) x0 x1 x6) (val_main_v103 (F := F) x6)

def val_main_c_43 : (⟨S_, .i32⟩ : BufTy).Contents (Elt F) :=
  constantI S_ 32 255#32

def val_main_v162 : (⟨S8x1024x1024, .i32⟩ : BufTy).Contents (Elt F) :=
  broadcastInDim S8x1024x1024 ![] bcast_S_S8x1024x1024 (val_main_c_43 (F := F))

abbrev idx_main_v162 (i : S8x1024x1024.Idx) : S_.Idx := fun a => a.elim0

theorem val_main_v162_apply (i : S8x1024x1024.Idx) :
    val_main_v162 (F := F) i = val_main_c_43 (F := F) (idx_main_v162 i) := by
  unfold val_main_v162
  generalize val_main_c_43 (F := F) = y
  exact broadcastInDim_apply _ bcast_S_S8x1024x1024 y i (idx_main_v162 i) (fun a => a.elim0)

def val_main_v163 : (⟨S8x1024x1024, .i1⟩ : BufTy).Contents (Elt F) :=
  cmpi .ne (x3) (val_main_v162 (F := F))

def val_main_c_44 : (⟨S_, .i32⟩ : BufTy).Contents (Elt F) :=
  constantI S_ 32 0#32

def val_main_call5_v0 : (⟨S_, .i32⟩ : BufTy).Contents (Elt F) :=
  id (val_main_c_44 (F := F))

def val_main_call5_v1 : (⟨S8x1024x1024, .i32⟩ : BufTy).Contents (Elt F) :=
  broadcastInDim S8x1024x1024 ![] bcast_S_S8x1024x1024 (val_main_call5_v0 (F := F))

abbrev idx_main_call5_v1 (i : S8x1024x1024.Idx) : S_.Idx := fun a => a.elim0

theorem val_main_call5_v1_apply (i : S8x1024x1024.Idx) :
    val_main_call5_v1 (F := F) i = val_main_call5_v0 (F := F) (idx_main_call5_v1 i) := by
  unfold val_main_call5_v1
  generalize val_main_call5_v0 (F := F) = y
  exact broadcastInDim_apply _ bcast_S_S8x1024x1024 y i (idx_main_call5_v1 i) (fun a => a.elim0)

def val_main_v164 : (⟨S8x1024x1024, .i32⟩ : BufTy).Contents (Elt F) :=
  select (val_main_v163 (F := F) x3) (x3) (val_main_call5_v1 (F := F))

def val_main_v165 : (⟨S8x1024x1024, .f32⟩ : BufTy).Contents (Elt F) :=
  sitofp .f32 (val_main_v164 (F := F) x3)

def val_main_v166 : (⟨S8x1024x1024, .f32⟩ : BufTy).Contents (Elt F) :=
  shapeCast _ (x2) shapeCasts_S8x1x1024x1024_S8x1024x1024

abbrev idx_main_v166 (i : S8x1024x1024.Idx) : S8x1x1024x1024.Idx := fun a => match a with
  | ⟨0, _⟩ => ⟨(((i 0).val * 1024 + (i 1).val) * 1024 + (i 2).val) / 1048576, by have h0 : (i 0).val < 8 := (i 0).isLt; have h1 : (i 1).val < 1024 := (i 1).isLt; have h2 : (i 2).val < 1024 := (i 2).isLt; show (((i 0).val * 1024 + (i 1).val) * 1024 + (i 2).val) / 1048576 < 8; omega⟩
  | ⟨1, _⟩ => ⟨0, Nat.one_pos⟩
  | ⟨2, _⟩ => ⟨(((i 0).val * 1024 + (i 1).val) * 1024 + (i 2).val) / 1024 % 1024, by have h0 : (i 0).val < 8 := (i 0).isLt; have h1 : (i 1).val < 1024 := (i 1).isLt; have h2 : (i 2).val < 1024 := (i 2).isLt; show (((i 0).val * 1024 + (i 1).val) * 1024 + (i 2).val) / 1024 % 1024 < 1024; omega⟩
  | ⟨3, _⟩ => ⟨(((i 0).val * 1024 + (i 1).val) * 1024 + (i 2).val) % 1024, by have h0 : (i 0).val < 8 := (i 0).isLt; have h1 : (i 1).val < 1024 := (i 1).isLt; have h2 : (i 2).val < 1024 := (i 2).isLt; show (((i 0).val * 1024 + (i 1).val) * 1024 + (i 2).val) % 1024 < 1024; omega⟩

theorem val_main_v166_apply (i : S8x1024x1024.Idx) :
    val_main_v166 (F := F) x2 i = x2 (idx_main_v166 i) := by
  unfold val_main_v166
  exact shapeCast_apply x2 shapeCasts_S8x1x1024x1024_S8x1024x1024 i (idx_main_v166 i)
    (by rewrite [Shape.rowMajor_val_four, Shape.rowMajor_val_three]; have h0 : (i 0).val < 8 := (i 0).isLt; have h1 : (i 1).val < 1024 := (i 1).isLt; have h2 : (i 2).val < 1024 := (i 2).isLt; show (((((i 0).val * 1024 + (i 1).val) * 1024 + (i 2).val) / 1048576 * 1 + 0) * 1024 + (((i 0).val * 1024 + (i 1).val) * 1024 + (i 2).val) / 1024 % 1024) * 1024 + (((i 0).val * 1024 + (i 1).val) * 1024 + (i 2).val) % 1024 = ((i 0).val * 1024 + (i 1).val) * 1024 + (i 2).val; omega)

def val_main_cst_45 : (⟨S_, .f32⟩ : BufTy).Contents (Elt F) :=
  constant S_ .f32 0x00000000#32

def val_main_v167 : (⟨S8x1024x1024, .f32⟩ : BufTy).Contents (Elt F) :=
  broadcastInDim S8x1024x1024 ![] bcast_S_S8x1024x1024 (val_main_cst_45 (F := F))

abbrev idx_main_v167 (i : S8x1024x1024.Idx) : S_.Idx := fun a => a.elim0

theorem val_main_v167_apply (i : S8x1024x1024.Idx) :
    val_main_v167 (F := F) i = val_main_cst_45 (F := F) (idx_main_v167 i) := by
  unfold val_main_v167
  generalize val_main_cst_45 (F := F) = y
  exact broadcastInDim_apply _ bcast_S_S8x1024x1024 y i (idx_main_v167 i) (fun a => a.elim0)

def val_main_v168 : (⟨S8x1024x1024, .f32⟩ : BufTy).Contents (Elt F) :=
  maximumf (val_main_v166 (F := F) x2) (val_main_v167 (F := F))

def val_main_v169 : (⟨S8x1024x1024, .f32⟩ : BufTy).Contents (Elt F) :=
  mulf (val_main_v166 (F := F) x2) (val_main_v165 (F := F) x3)

def val_main_v170 : (⟨S8x1024x1024, .f32⟩ : BufTy).Contents (Elt F) :=
  subf (val_main_v168 (F := F) x2) (val_main_v169 (F := F) x2 x3)

def val_main_v171 : (⟨S8x1024x1024, .f32⟩ : BufTy).Contents (Elt F) :=
  Host.absf (val_main_v166 (F := F) x2)

def val_main_v172 : (⟨S8x1024x1024, .f32⟩ : BufTy).Contents (Elt F) :=
  Host.negf (val_main_v171 (F := F) x2)

def val_main_v173 : (⟨S8x1024x1024, .f32⟩ : BufTy).Contents (Elt F) :=
  Host.exp (val_main_v172 (F := F) x2)

def val_main_v174 : (⟨S8x1024x1024, .f32⟩ : BufTy).Contents (Elt F) :=
  Host.log1p (val_main_v173 (F := F) x2)

def val_main_v175 : (⟨S8x1024x1024, .f32⟩ : BufTy).Contents (Elt F) :=
  addf (val_main_v170 (F := F) x2 x3) (val_main_v174 (F := F) x2)

def val_main_v176 : (⟨S8x1024x1024, .f32⟩ : BufTy).Contents (Elt F) :=
  uitofp .f32 (val_main_v163 (F := F) x3)

def val_main_v177 : (⟨S8x1024x1024, .f32⟩ : BufTy).Contents (Elt F) :=
  mulf (val_main_v175 (F := F) x2 x3) (val_main_v176 (F := F) x3)

def val_main_v178 : (⟨S8x1048576, .i1⟩ : BufTy).Contents (Elt F) :=
  shapeCast _ (val_main_v163 (F := F) x3) shapeCasts_S8x1024x1024_S8x1048576

abbrev idx_main_v178 (i : S8x1048576.Idx) : S8x1024x1024.Idx := fun a => match a with
  | ⟨0, _⟩ => ⟨((i 0).val * 1048576 + (i 1).val) / 1048576, by have h0 : (i 0).val < 8 := (i 0).isLt; have h1 : (i 1).val < 1048576 := (i 1).isLt; show ((i 0).val * 1048576 + (i 1).val) / 1048576 < 8; omega⟩
  | ⟨1, _⟩ => ⟨((i 0).val * 1048576 + (i 1).val) / 1024 % 1024, by have h0 : (i 0).val < 8 := (i 0).isLt; have h1 : (i 1).val < 1048576 := (i 1).isLt; show ((i 0).val * 1048576 + (i 1).val) / 1024 % 1024 < 1024; omega⟩
  | ⟨2, _⟩ => ⟨((i 0).val * 1048576 + (i 1).val) % 1024, by have h0 : (i 0).val < 8 := (i 0).isLt; have h1 : (i 1).val < 1048576 := (i 1).isLt; show ((i 0).val * 1048576 + (i 1).val) % 1024 < 1024; omega⟩

theorem val_main_v178_apply (i : S8x1048576.Idx) :
    val_main_v178 (F := F) x3 i = val_main_v163 (F := F) x3 (idx_main_v178 i) := by
  unfold val_main_v178
  generalize val_main_v163 (F := F) x3 = y
  exact shapeCast_apply y shapeCasts_S8x1024x1024_S8x1048576 i (idx_main_v178 i)
    (by rewrite [Shape.rowMajor_val_three, Shape.rowMajor_val_two]; have h0 : (i 0).val < 8 := (i 0).isLt; have h1 : (i 1).val < 1048576 := (i 1).isLt; show (((i 0).val * 1048576 + (i 1).val) / 1048576 * 1024 + ((i 0).val * 1048576 + (i 1).val) / 1024 % 1024) * 1024 + ((i 0).val * 1048576 + (i 1).val) % 1024 = (i 0).val * 1048576 + (i 1).val; omega)

def val_main_v179 : (⟨S8x1048576, .i32⟩ : BufTy).Contents (Elt F) :=
  extui 32 (val_main_v178 (F := F) x3) natLt_1_32

def val_main_c_46 : (⟨S_, .i32⟩ : BufTy).Contents (Elt F) :=
  constantI S_ 32 0#32

def val_main_v180 : (⟨S8, .i32⟩ : BufTy).Contents (Elt F) :=
  Host.reduce IntOp.addi (val_main_v179 (F := F) x3) (val_main_c_46 (F := F)) reducesTo_S8x1048576_S8_d1 h_S_

def val_main_c_47 : (⟨S_, .i32⟩ : BufTy).Contents (Elt F) :=
  constantI S_ 32 1#32

def val_main_v181 : (⟨S8, .i32⟩ : BufTy).Contents (Elt F) :=
  broadcastInDim S8 ![] bcast_S_S8 (val_main_c_47 (F := F))

abbrev idx_main_v181 (i : S8.Idx) : S_.Idx := fun a => a.elim0

theorem val_main_v181_apply (i : S8.Idx) :
    val_main_v181 (F := F) i = val_main_c_47 (F := F) (idx_main_v181 i) := by
  unfold val_main_v181
  generalize val_main_c_47 (F := F) = y
  exact broadcastInDim_apply _ bcast_S_S8 y i (idx_main_v181 i) (fun a => a.elim0)

def val_main_v182 : (⟨S8, .i32⟩ : BufTy).Contents (Elt F) :=
  maxsi (val_main_v180 (F := F) x3) (val_main_v181 (F := F))

def val_main_v183 : (⟨S8, .f32⟩ : BufTy).Contents (Elt F) :=
  sitofp .f32 (val_main_v182 (F := F) x3)

def val_main_v184 : (⟨S8x1048576, .f32⟩ : BufTy).Contents (Elt F) :=
  shapeCast _ (val_main_v177 (F := F) x2 x3) shapeCasts_S8x1024x1024_S8x1048576

abbrev idx_main_v184 (i : S8x1048576.Idx) : S8x1024x1024.Idx := fun a => match a with
  | ⟨0, _⟩ => ⟨((i 0).val * 1048576 + (i 1).val) / 1048576, by have h0 : (i 0).val < 8 := (i 0).isLt; have h1 : (i 1).val < 1048576 := (i 1).isLt; show ((i 0).val * 1048576 + (i 1).val) / 1048576 < 8; omega⟩
  | ⟨1, _⟩ => ⟨((i 0).val * 1048576 + (i 1).val) / 1024 % 1024, by have h0 : (i 0).val < 8 := (i 0).isLt; have h1 : (i 1).val < 1048576 := (i 1).isLt; show ((i 0).val * 1048576 + (i 1).val) / 1024 % 1024 < 1024; omega⟩
  | ⟨2, _⟩ => ⟨((i 0).val * 1048576 + (i 1).val) % 1024, by have h0 : (i 0).val < 8 := (i 0).isLt; have h1 : (i 1).val < 1048576 := (i 1).isLt; show ((i 0).val * 1048576 + (i 1).val) % 1024 < 1024; omega⟩

theorem val_main_v184_apply (i : S8x1048576.Idx) :
    val_main_v184 (F := F) x2 x3 i = val_main_v177 (F := F) x2 x3 (idx_main_v184 i) := by
  unfold val_main_v184
  generalize val_main_v177 (F := F) x2 x3 = y
  exact shapeCast_apply y shapeCasts_S8x1024x1024_S8x1048576 i (idx_main_v184 i)
    (by rewrite [Shape.rowMajor_val_three, Shape.rowMajor_val_two]; have h0 : (i 0).val < 8 := (i 0).isLt; have h1 : (i 1).val < 1048576 := (i 1).isLt; show (((i 0).val * 1048576 + (i 1).val) / 1048576 * 1024 + ((i 0).val * 1048576 + (i 1).val) / 1024 % 1024) * 1024 + ((i 0).val * 1048576 + (i 1).val) % 1024 = (i 0).val * 1048576 + (i 1).val; omega)

def val_main_cst_48 : (⟨S_, .f32⟩ : BufTy).Contents (Elt F) :=
  constant S_ .f32 0x00000000#32

def val_main_v185 : (⟨S8, .f32⟩ : BufTy).Contents (Elt F) :=
  Host.reduceAdd (val_main_v184 (F := F) x2 x3) (val_main_cst_48 (F := F)) reducesTo_S8x1048576_S8_d1 h_S_

abbrev idx_main_v185 (i : S8.Idx) (k : Fin 1048576) : S8x1048576.Idx := fun a => match a with
  | ⟨0, _⟩ => ⟨(i 0).val, (i 0).isLt⟩
  | ⟨1, _⟩ => ⟨k.val, k.isLt⟩

theorem val_main_v185_apply (x2 : (⟨S8x1x1024x1024, .f32⟩ : BufTy).Contents (Elt Ideal)) (x3 : (⟨S8x1024x1024, .i32⟩ : BufTy).Contents (Elt Ideal)) (i : S8.Idx) :
    val_main_v185 (F := Ideal) x2 x3 i = (val_main_cst_48 (F := Ideal)) (Shape.Idx.first h_S_) + ∑ k : Fin 1048576, (val_main_v184 (F := Ideal) x2 x3) (idx_main_v185 i k) := by
  unfold val_main_v185
  generalize val_main_v184 (F := Ideal) x2 x3 = y0
  simp only [Host.reduceAdd, Ideal.hostReduceAdd_def]
  rw [Ideal.hostReduceAdd_single reducesTo_S8x1048576_S8_d1 (by decide)]
  refine congrArg (_ + ·) (Finset.sum_congr rfl fun k _ => ?_)
  exact congrArg y0 (funext fun a => Fin.ext (by match a with | ⟨0, _⟩ => rfl | ⟨1, _⟩ => rfl))

def val_main_v186 : (⟨S8, .f32⟩ : BufTy).Contents (Elt F) :=
  Host.divf (val_main_v185 (F := F) x2 x3) (val_main_v183 (F := F) x3)

def val_main_v187 : (⟨S8, .f32⟩ : BufTy).Contents (Elt F) :=
  sitofp .f32 (x7)

def val_main_v188 : (⟨S8x1048576, .i1⟩ : BufTy).Contents (Elt F) :=
  shapeCast _ (val_main_v163 (F := F) x3) shapeCasts_S8x1024x1024_S8x1048576

abbrev idx_main_v188 (i : S8x1048576.Idx) : S8x1024x1024.Idx := fun a => match a with
  | ⟨0, _⟩ => ⟨((i 0).val * 1048576 + (i 1).val) / 1048576, by have h0 : (i 0).val < 8 := (i 0).isLt; have h1 : (i 1).val < 1048576 := (i 1).isLt; show ((i 0).val * 1048576 + (i 1).val) / 1048576 < 8; omega⟩
  | ⟨1, _⟩ => ⟨((i 0).val * 1048576 + (i 1).val) / 1024 % 1024, by have h0 : (i 0).val < 8 := (i 0).isLt; have h1 : (i 1).val < 1048576 := (i 1).isLt; show ((i 0).val * 1048576 + (i 1).val) / 1024 % 1024 < 1024; omega⟩
  | ⟨2, _⟩ => ⟨((i 0).val * 1048576 + (i 1).val) % 1024, by have h0 : (i 0).val < 8 := (i 0).isLt; have h1 : (i 1).val < 1048576 := (i 1).isLt; show ((i 0).val * 1048576 + (i 1).val) % 1024 < 1024; omega⟩

theorem val_main_v188_apply (i : S8x1048576.Idx) :
    val_main_v188 (F := F) x3 i = val_main_v163 (F := F) x3 (idx_main_v188 i) := by
  unfold val_main_v188
  generalize val_main_v163 (F := F) x3 = y
  exact shapeCast_apply y shapeCasts_S8x1024x1024_S8x1048576 i (idx_main_v188 i)
    (by rewrite [Shape.rowMajor_val_three, Shape.rowMajor_val_two]; have h0 : (i 0).val < 8 := (i 0).isLt; have h1 : (i 1).val < 1048576 := (i 1).isLt; show (((i 0).val * 1048576 + (i 1).val) / 1048576 * 1024 + ((i 0).val * 1048576 + (i 1).val) / 1024 % 1024) * 1024 + ((i 0).val * 1048576 + (i 1).val) % 1024 = (i 0).val * 1048576 + (i 1).val; omega)

def val_main_c_49 : (⟨S_, .i1⟩ : BufTy).Contents (Elt F) :=
  constantI S_ 1 0#1

def val_main_v189 : (⟨S8, .i1⟩ : BufTy).Contents (Elt F) :=
  Host.reduce IntOp.ori (val_main_v188 (F := F) x3) (val_main_c_49 (F := F)) reducesTo_S8x1048576_S8_d1 h_S_

def val_main_v190 : (⟨S8, .f32⟩ : BufTy).Contents (Elt F) :=
  uitofp .f32 (val_main_v189 (F := F) x3)

def val_main_v191 : (⟨S8, .f32⟩ : BufTy).Contents (Elt F) :=
  mulf (val_main_v187 (F := F) x7) (val_main_v190 (F := F) x3)

def val_main_v192 : (⟨S8, .f32⟩ : BufTy).Contents (Elt F) :=
  mulf (val_main_v186 (F := F) x2 x3) (val_main_v191 (F := F) x3 x7)

def val_main_cst_50 : (⟨S_, .f32⟩ : BufTy).Contents (Elt F) :=
  constant S_ .f32 0x00000000#32

def val_main_v193 : (⟨S_, .f32⟩ : BufTy).Contents (Elt F) :=
  Host.reduceAdd (val_main_v192 (F := F) x2 x3 x7) (val_main_cst_50 (F := F)) reducesTo_S8_S_d0 h_S_

def val_main_cst_51 : (⟨S_, .f32⟩ : BufTy).Contents (Elt F) :=
  constant S_ .f32 0x00000000#32

def val_main_v194 : (⟨S_, .f32⟩ : BufTy).Contents (Elt F) :=
  Host.reduceAdd (val_main_v191 (F := F) x3 x7) (val_main_cst_51 (F := F)) reducesTo_S8_S_d0 h_S_

def val_main_cst_52 : (⟨S_, .f32⟩ : BufTy).Contents (Elt F) :=
  constant S_ .f32 0x3F800000#32

def val_main_v195 : (⟨S_, .f32⟩ : BufTy).Contents (Elt F) :=
  maximumf (val_main_v194 (F := F) x3 x7) (val_main_cst_52 (F := F))

def val_main_v196 : (⟨S_, .f32⟩ : BufTy).Contents (Elt F) :=
  Host.divf (val_main_v193 (F := F) x2 x3 x7) (val_main_v195 (F := F) x3 x7)

def val_main_c_53 : (⟨S_, .i32⟩ : BufTy).Contents (Elt F) :=
  constantI S_ 32 255#32

def val_main_v197 : (⟨S8x3x1024x1024, .i32⟩ : BufTy).Contents (Elt F) :=
  broadcastInDim S8x3x1024x1024 ![] bcast_S_S8x3x1024x1024 (val_main_c_53 (F := F))

abbrev idx_main_v197 (i : S8x3x1024x1024.Idx) : S_.Idx := fun a => a.elim0

theorem val_main_v197_apply (i : S8x3x1024x1024.Idx) :
    val_main_v197 (F := F) i = val_main_c_53 (F := F) (idx_main_v197 i) := by
  unfold val_main_v197
  generalize val_main_c_53 (F := F) = y
  exact broadcastInDim_apply _ bcast_S_S8x3x1024x1024 y i (idx_main_v197 i) (fun a => a.elim0)

def val_main_v198 : (⟨S8x3x1024x1024, .i1⟩ : BufTy).Contents (Elt F) :=
  cmpi .ne (x5) (val_main_v197 (F := F))

theorem val_main_v198_apply (i : S8x3x1024x1024.Idx) :
    val_main_v198 (F := F) x5 i = IntOp.cmpi .ne (x5 i) (val_main_v197 (F := F) i) := rfl

def val_main_c_54 : (⟨S_, .i32⟩ : BufTy).Contents (Elt F) :=
  constantI S_ 32 0#32

def val_main_call6_v0 : (⟨S_, .i32⟩ : BufTy).Contents (Elt F) :=
  id (val_main_c_54 (F := F))

def val_main_call6_v1 : (⟨S8x3x1024x1024, .i32⟩ : BufTy).Contents (Elt F) :=
  broadcastInDim S8x3x1024x1024 ![] bcast_S_S8x3x1024x1024 (val_main_call6_v0 (F := F))

abbrev idx_main_call6_v1 (i : S8x3x1024x1024.Idx) : S_.Idx := fun a => a.elim0

theorem val_main_call6_v1_apply (i : S8x3x1024x1024.Idx) :
    val_main_call6_v1 (F := F) i = val_main_call6_v0 (F := F) (idx_main_call6_v1 i) := by
  unfold val_main_call6_v1
  generalize val_main_call6_v0 (F := F) = y
  exact broadcastInDim_apply _ bcast_S_S8x3x1024x1024 y i (idx_main_call6_v1 i) (fun a => a.elim0)

def val_main_v199 : (⟨S8x3x1024x1024, .i32⟩ : BufTy).Contents (Elt F) :=
  select (val_main_v198 (F := F) x5) (x5) (val_main_call6_v1 (F := F))

theorem val_main_v199_apply (i : S8x3x1024x1024.Idx) :
    val_main_v199 (F := F) x5 i = Scalar.select (val_main_v198 (F := F) x5 i) (x5 i) (val_main_call6_v1 (F := F) i) := rfl

def val_main_v200 : (⟨S8x3x1024x1024, .f32⟩ : BufTy).Contents (Elt F) :=
  sitofp .f32 (val_main_v199 (F := F) x5)

theorem val_main_v200_apply (i : S8x3x1024x1024.Idx) :
    val_main_v200 (F := F) x5 i = FloatOps.sitofp .f32 (val_main_v199 (F := F) x5 i) := rfl

def val_main_cst_55 : (⟨S_, .f32⟩ : BufTy).Contents (Elt F) :=
  constant S_ .f32 0x00000000#32

def val_main_v201 : (⟨S8x3x1024x1024, .f32⟩ : BufTy).Contents (Elt F) :=
  broadcastInDim S8x3x1024x1024 ![] bcast_S_S8x3x1024x1024 (val_main_cst_55 (F := F))

abbrev idx_main_v201 (i : S8x3x1024x1024.Idx) : S_.Idx := fun a => a.elim0

theorem val_main_v201_apply (i : S8x3x1024x1024.Idx) :
    val_main_v201 (F := F) i = val_main_cst_55 (F := F) (idx_main_v201 i) := by
  unfold val_main_v201
  generalize val_main_cst_55 (F := F) = y
  exact broadcastInDim_apply _ bcast_S_S8x3x1024x1024 y i (idx_main_v201 i) (fun a => a.elim0)

def val_main_v202 : (⟨S8x3x1024x1024, .f32⟩ : BufTy).Contents (Elt F) :=
  maximumf (x4) (val_main_v201 (F := F))

theorem val_main_v202_apply (i : S8x3x1024x1024.Idx) :
    val_main_v202 (F := F) x4 i = FloatOps.maximumf (x4 i) (val_main_v201 (F := F) i) := rfl

def val_main_v203 : (⟨S8x3x1024x1024, .f32⟩ : BufTy).Contents (Elt F) :=
  mulf (x4) (val_main_v200 (F := F) x5)

theorem val_main_v203_apply (i : S8x3x1024x1024.Idx) :
    val_main_v203 (F := F) x4 x5 i = FloatOps.mulf (x4 i) (val_main_v200 (F := F) x5 i) := rfl

def val_main_v204 : (⟨S8x3x1024x1024, .f32⟩ : BufTy).Contents (Elt F) :=
  subf (val_main_v202 (F := F) x4) (val_main_v203 (F := F) x4 x5)

theorem val_main_v204_apply (i : S8x3x1024x1024.Idx) :
    val_main_v204 (F := F) x4 x5 i = FloatOps.subf (val_main_v202 (F := F) x4 i) (val_main_v203 (F := F) x4 x5 i) := rfl

def val_main_v205 : (⟨S8x3x1024x1024, .f32⟩ : BufTy).Contents (Elt F) :=
  Host.absf (x4)

theorem val_main_v205_apply (i : S8x3x1024x1024.Idx) :
    val_main_v205 (F := F) x4 i = FloatOps.hostAbsf (x4 i) := rfl

def val_main_v206 : (⟨S8x3x1024x1024, .f32⟩ : BufTy).Contents (Elt F) :=
  Host.negf (val_main_v205 (F := F) x4)

theorem val_main_v206_apply (i : S8x3x1024x1024.Idx) :
    val_main_v206 (F := F) x4 i = FloatOps.hostNegf (val_main_v205 (F := F) x4 i) := rfl

def val_main_v207 : (⟨S8x3x1024x1024, .f32⟩ : BufTy).Contents (Elt F) :=
  Host.exp (val_main_v206 (F := F) x4)

theorem val_main_v207_apply (i : S8x3x1024x1024.Idx) :
    val_main_v207 (F := F) x4 i = FloatOps.hostUnary .exp (val_main_v206 (F := F) x4 i) := rfl

def val_main_v208 : (⟨S8x3x1024x1024, .f32⟩ : BufTy).Contents (Elt F) :=
  Host.log1p (val_main_v207 (F := F) x4)

theorem val_main_v208_apply (i : S8x3x1024x1024.Idx) :
    val_main_v208 (F := F) x4 i = FloatOps.hostUnary .log1p (val_main_v207 (F := F) x4 i) := rfl

def val_main_v209 : (⟨S8x3x1024x1024, .f32⟩ : BufTy).Contents (Elt F) :=
  addf (val_main_v204 (F := F) x4 x5) (val_main_v208 (F := F) x4)

theorem val_main_v209_apply (i : S8x3x1024x1024.Idx) :
    val_main_v209 (F := F) x4 x5 i = FloatOps.addf (val_main_v204 (F := F) x4 x5 i) (val_main_v208 (F := F) x4 i) := rfl

def val_main_v210 : (⟨S8x3x1024x1024, .f32⟩ : BufTy).Contents (Elt F) :=
  Host.negf (x4)

theorem val_main_v210_apply (i : S8x3x1024x1024.Idx) :
    val_main_v210 (F := F) x4 i = FloatOps.hostNegf (x4 i) := rfl

def val_main_v211 : (⟨S8x3x1024x1024, .f32⟩ : BufTy).Contents (Elt F) :=
  Host.exp (val_main_v210 (F := F) x4)

theorem val_main_v211_apply (i : S8x3x1024x1024.Idx) :
    val_main_v211 (F := F) x4 i = FloatOps.hostUnary .exp (val_main_v210 (F := F) x4 i) := rfl

def val_main_cst_56 : (⟨S_, .f32⟩ : BufTy).Contents (Elt F) :=
  constant S_ .f32 0x3F800000#32

def val_main_v212 : (⟨S8x3x1024x1024, .f32⟩ : BufTy).Contents (Elt F) :=
  broadcastInDim S8x3x1024x1024 ![] bcast_S_S8x3x1024x1024 (val_main_cst_56 (F := F))

abbrev idx_main_v212 (i : S8x3x1024x1024.Idx) : S_.Idx := fun a => a.elim0

theorem val_main_v212_apply (i : S8x3x1024x1024.Idx) :
    val_main_v212 (F := F) i = val_main_cst_56 (F := F) (idx_main_v212 i) := by
  unfold val_main_v212
  generalize val_main_cst_56 (F := F) = y
  exact broadcastInDim_apply _ bcast_S_S8x3x1024x1024 y i (idx_main_v212 i) (fun a => a.elim0)

def val_main_v213 : (⟨S8x3x1024x1024, .f32⟩ : BufTy).Contents (Elt F) :=
  addf (val_main_v212 (F := F)) (val_main_v211 (F := F) x4)

theorem val_main_v213_apply (i : S8x3x1024x1024.Idx) :
    val_main_v213 (F := F) x4 i = FloatOps.addf (val_main_v212 (F := F) i) (val_main_v211 (F := F) x4 i) := rfl

def val_main_cst_57 : (⟨S_, .f32⟩ : BufTy).Contents (Elt F) :=
  constant S_ .f32 0x3F800000#32

def val_main_v214 : (⟨S8x3x1024x1024, .f32⟩ : BufTy).Contents (Elt F) :=
  broadcastInDim S8x3x1024x1024 ![] bcast_S_S8x3x1024x1024 (val_main_cst_57 (F := F))

abbrev idx_main_v214 (i : S8x3x1024x1024.Idx) : S_.Idx := fun a => a.elim0

theorem val_main_v214_apply (i : S8x3x1024x1024.Idx) :
    val_main_v214 (F := F) i = val_main_cst_57 (F := F) (idx_main_v214 i) := by
  unfold val_main_v214
  generalize val_main_cst_57 (F := F) = y
  exact broadcastInDim_apply _ bcast_S_S8x3x1024x1024 y i (idx_main_v214 i) (fun a => a.elim0)

def val_main_v215 : (⟨S8x3x1024x1024, .f32⟩ : BufTy).Contents (Elt F) :=
  Host.divf (val_main_v214 (F := F)) (val_main_v213 (F := F) x4)

theorem val_main_v215_apply (i : S8x3x1024x1024.Idx) :
    val_main_v215 (F := F) x4 i = FloatOps.hostDivf (val_main_v214 (F := F) i) (val_main_v213 (F := F) x4 i) := rfl

def val_main_v216 : (⟨S8x3x1024x1024, .f32⟩ : BufTy).Contents (Elt F) :=
  mulf (val_main_v215 (F := F) x4) (val_main_v200 (F := F) x5)

theorem val_main_v216_apply (i : S8x3x1024x1024.Idx) :
    val_main_v216 (F := F) x4 x5 i = FloatOps.mulf (val_main_v215 (F := F) x4 i) (val_main_v200 (F := F) x5 i) := rfl

def val_main_cst_58 : (⟨S_, .f32⟩ : BufTy).Contents (Elt F) :=
  constant S_ .f32 0x3F800000#32

def val_main_v217 : (⟨S8x3x1024x1024, .f32⟩ : BufTy).Contents (Elt F) :=
  broadcastInDim S8x3x1024x1024 ![] bcast_S_S8x3x1024x1024 (val_main_cst_58 (F := F))

abbrev idx_main_v217 (i : S8x3x1024x1024.Idx) : S_.Idx := fun a => a.elim0

theorem val_main_v217_apply (i : S8x3x1024x1024.Idx) :
    val_main_v217 (F := F) i = val_main_cst_58 (F := F) (idx_main_v217 i) := by
  unfold val_main_v217
  generalize val_main_cst_58 (F := F) = y
  exact broadcastInDim_apply _ bcast_S_S8x3x1024x1024 y i (idx_main_v217 i) (fun a => a.elim0)

def val_main_v218 : (⟨S8x3x1024x1024, .f32⟩ : BufTy).Contents (Elt F) :=
  subf (val_main_v217 (F := F)) (val_main_v215 (F := F) x4)

theorem val_main_v218_apply (i : S8x3x1024x1024.Idx) :
    val_main_v218 (F := F) x4 i = FloatOps.subf (val_main_v217 (F := F) i) (val_main_v215 (F := F) x4 i) := rfl

def val_main_cst_59 : (⟨S_, .f32⟩ : BufTy).Contents (Elt F) :=
  constant S_ .f32 0x3F800000#32

def val_main_v219 : (⟨S8x3x1024x1024, .f32⟩ : BufTy).Contents (Elt F) :=
  broadcastInDim S8x3x1024x1024 ![] bcast_S_S8x3x1024x1024 (val_main_cst_59 (F := F))

abbrev idx_main_v219 (i : S8x3x1024x1024.Idx) : S_.Idx := fun a => a.elim0

theorem val_main_v219_apply (i : S8x3x1024x1024.Idx) :
    val_main_v219 (F := F) i = val_main_cst_59 (F := F) (idx_main_v219 i) := by
  unfold val_main_v219
  generalize val_main_cst_59 (F := F) = y
  exact broadcastInDim_apply _ bcast_S_S8x3x1024x1024 y i (idx_main_v219 i) (fun a => a.elim0)

def val_main_v220 : (⟨S8x3x1024x1024, .f32⟩ : BufTy).Contents (Elt F) :=
  subf (val_main_v219 (F := F)) (val_main_v200 (F := F) x5)

theorem val_main_v220_apply (i : S8x3x1024x1024.Idx) :
    val_main_v220 (F := F) x5 i = FloatOps.subf (val_main_v219 (F := F) i) (val_main_v200 (F := F) x5 i) := rfl

def val_main_v221 : (⟨S8x3x1024x1024, .f32⟩ : BufTy).Contents (Elt F) :=
  mulf (val_main_v218 (F := F) x4) (val_main_v220 (F := F) x5)

theorem val_main_v221_apply (i : S8x3x1024x1024.Idx) :
    val_main_v221 (F := F) x4 x5 i = FloatOps.mulf (val_main_v218 (F := F) x4 i) (val_main_v220 (F := F) x5 i) := rfl

def val_main_v222 : (⟨S8x3x1024x1024, .f32⟩ : BufTy).Contents (Elt F) :=
  addf (val_main_v216 (F := F) x4 x5) (val_main_v221 (F := F) x4 x5)

theorem val_main_v222_apply (i : S8x3x1024x1024.Idx) :
    val_main_v222 (F := F) x4 x5 i = FloatOps.addf (val_main_v216 (F := F) x4 x5 i) (val_main_v221 (F := F) x4 x5 i) := rfl

def val_main_v223 : (⟨S8x3x1048576, .i1⟩ : BufTy).Contents (Elt F) :=
  shapeCast _ (val_main_v198 (F := F) x5) shapeCasts_S8x3x1024x1024_S8x3x1048576

abbrev idx_main_v223 (i : S8x3x1048576.Idx) : S8x3x1024x1024.Idx := fun a => match a with
  | ⟨0, _⟩ => ⟨(((i 0).val * 3 + (i 1).val) * 1048576 + (i 2).val) / 3145728, by have h0 : (i 0).val < 8 := (i 0).isLt; have h1 : (i 1).val < 3 := (i 1).isLt; have h2 : (i 2).val < 1048576 := (i 2).isLt; show (((i 0).val * 3 + (i 1).val) * 1048576 + (i 2).val) / 3145728 < 8; omega⟩
  | ⟨1, _⟩ => ⟨(((i 0).val * 3 + (i 1).val) * 1048576 + (i 2).val) / 1048576 % 3, by have h0 : (i 0).val < 8 := (i 0).isLt; have h1 : (i 1).val < 3 := (i 1).isLt; have h2 : (i 2).val < 1048576 := (i 2).isLt; show (((i 0).val * 3 + (i 1).val) * 1048576 + (i 2).val) / 1048576 % 3 < 3; omega⟩
  | ⟨2, _⟩ => ⟨(((i 0).val * 3 + (i 1).val) * 1048576 + (i 2).val) / 1024 % 1024, by have h0 : (i 0).val < 8 := (i 0).isLt; have h1 : (i 1).val < 3 := (i 1).isLt; have h2 : (i 2).val < 1048576 := (i 2).isLt; show (((i 0).val * 3 + (i 1).val) * 1048576 + (i 2).val) / 1024 % 1024 < 1024; omega⟩
  | ⟨3, _⟩ => ⟨(((i 0).val * 3 + (i 1).val) * 1048576 + (i 2).val) % 1024, by have h0 : (i 0).val < 8 := (i 0).isLt; have h1 : (i 1).val < 3 := (i 1).isLt; have h2 : (i 2).val < 1048576 := (i 2).isLt; show (((i 0).val * 3 + (i 1).val) * 1048576 + (i 2).val) % 1024 < 1024; omega⟩

theorem val_main_v223_apply (i : S8x3x1048576.Idx) :
    val_main_v223 (F := F) x5 i = val_main_v198 (F := F) x5 (idx_main_v223 i) := by
  unfold val_main_v223
  generalize val_main_v198 (F := F) x5 = y
  exact shapeCast_apply y shapeCasts_S8x3x1024x1024_S8x3x1048576 i (idx_main_v223 i)
    (by rewrite [Shape.rowMajor_val_four, Shape.rowMajor_val_three]; have h0 : (i 0).val < 8 := (i 0).isLt; have h1 : (i 1).val < 3 := (i 1).isLt; have h2 : (i 2).val < 1048576 := (i 2).isLt; show (((((i 0).val * 3 + (i 1).val) * 1048576 + (i 2).val) / 3145728 * 3 + (((i 0).val * 3 + (i 1).val) * 1048576 + (i 2).val) / 1048576 % 3) * 1024 + (((i 0).val * 3 + (i 1).val) * 1048576 + (i 2).val) / 1024 % 1024) * 1024 + (((i 0).val * 3 + (i 1).val) * 1048576 + (i 2).val) % 1024 = ((i 0).val * 3 + (i 1).val) * 1048576 + (i 2).val; omega)

def val_main_v224 : (⟨S8x3x1048576, .i32⟩ : BufTy).Contents (Elt F) :=
  extui 32 (val_main_v223 (F := F) x5) natLt_1_32

def val_main_c_60 : (⟨S_, .i32⟩ : BufTy).Contents (Elt F) :=
  constantI S_ 32 0#32

def val_main_v225 : (⟨S8x3, .i32⟩ : BufTy).Contents (Elt F) :=
  Host.reduce IntOp.addi (val_main_v224 (F := F) x5) (val_main_c_60 (F := F)) reducesTo_S8x3x1048576_S8x3_d2 h_S_

def val_main_c_61 : (⟨S_, .i32⟩ : BufTy).Contents (Elt F) :=
  constantI S_ 32 1#32

def val_main_v226 : (⟨S8x3, .i32⟩ : BufTy).Contents (Elt F) :=
  broadcastInDim S8x3 ![] bcast_S_S8x3 (val_main_c_61 (F := F))

abbrev idx_main_v226 (i : S8x3.Idx) : S_.Idx := fun a => a.elim0

theorem val_main_v226_apply (i : S8x3.Idx) :
    val_main_v226 (F := F) i = val_main_c_61 (F := F) (idx_main_v226 i) := by
  unfold val_main_v226
  generalize val_main_c_61 (F := F) = y
  exact broadcastInDim_apply _ bcast_S_S8x3 y i (idx_main_v226 i) (fun a => a.elim0)

def val_main_v227 : (⟨S8x3, .i32⟩ : BufTy).Contents (Elt F) :=
  maxsi (val_main_v225 (F := F) x5) (val_main_v226 (F := F))

def val_main_v228 : (⟨S8x3, .f32⟩ : BufTy).Contents (Elt F) :=
  sitofp .f32 (val_main_v227 (F := F) x5)

def val_main_cst_62 : (⟨S_, .f32⟩ : BufTy).Contents (Elt F) :=
  constant S_ .f32 0x3F800000#32

def val_main_v229 : (⟨S8x3x1024x1024, .f32⟩ : BufTy).Contents (Elt F) :=
  broadcastInDim S8x3x1024x1024 ![] bcast_S_S8x3x1024x1024 (val_main_cst_62 (F := F))

abbrev idx_main_v229 (i : S8x3x1024x1024.Idx) : S_.Idx := fun a => a.elim0

theorem val_main_v229_apply (i : S8x3x1024x1024.Idx) :
    val_main_v229 (F := F) i = val_main_cst_62 (F := F) (idx_main_v229 i) := by
  unfold val_main_v229
  generalize val_main_cst_62 (F := F) = y
  exact broadcastInDim_apply _ bcast_S_S8x3x1024x1024 y i (idx_main_v229 i) (fun a => a.elim0)

def val_main_v230 : (⟨S8x3x1024x1024, .f32⟩ : BufTy).Contents (Elt F) :=
  subf (val_main_v229 (F := F)) (val_main_v222 (F := F) x4 x5)

theorem val_main_v230_apply (i : S8x3x1024x1024.Idx) :
    val_main_v230 (F := F) x4 x5 i = FloatOps.subf (val_main_v229 (F := F) i) (val_main_v222 (F := F) x4 x5 i) := rfl

def val_main_cst_63 : (⟨S_, .f32⟩ : BufTy).Contents (Elt F) :=
  constant S_ .f32 0x40000000#32

def val_main_v231 : (⟨S8x3x1024x1024, .f32⟩ : BufTy).Contents (Elt F) :=
  broadcastInDim S8x3x1024x1024 ![] bcast_S_S8x3x1024x1024 (val_main_cst_63 (F := F))

abbrev idx_main_v231 (i : S8x3x1024x1024.Idx) : S_.Idx := fun a => a.elim0

theorem val_main_v231_apply (i : S8x3x1024x1024.Idx) :
    val_main_v231 (F := F) i = val_main_cst_63 (F := F) (idx_main_v231 i) := by
  unfold val_main_v231
  generalize val_main_cst_63 (F := F) = y
  exact broadcastInDim_apply _ bcast_S_S8x3x1024x1024 y i (idx_main_v231 i) (fun a => a.elim0)

def val_main_v232 : (⟨S8x3x1024x1024, .f32⟩ : BufTy).Contents (Elt F) :=
  Host.powf (val_main_v230 (F := F) x4 x5) (val_main_v231 (F := F))

theorem val_main_v232_apply (i : S8x3x1024x1024.Idx) :
    val_main_v232 (F := F) x4 x5 i = FloatOps.hostPowf (val_main_v230 (F := F) x4 x5 i) (val_main_v231 (F := F) i) := rfl

def val_main_v233 : (⟨S8x3x1024x1024, .f32⟩ : BufTy).Contents (Elt F) :=
  mulf (val_main_v232 (F := F) x4 x5) (val_main_v209 (F := F) x4 x5)

theorem val_main_v233_apply (i : S8x3x1024x1024.Idx) :
    val_main_v233 (F := F) x4 x5 i = FloatOps.mulf (val_main_v232 (F := F) x4 x5 i) (val_main_v209 (F := F) x4 x5 i) := rfl

def val_main_v234 : (⟨S8x3x1024x1024, .f32⟩ : BufTy).Contents (Elt F) :=
  uitofp .f32 (val_main_v198 (F := F) x5)

theorem val_main_v234_apply (i : S8x3x1024x1024.Idx) :
    val_main_v234 (F := F) x5 i = FloatOps.uitofp .f32 (val_main_v198 (F := F) x5 i) := rfl

def val_main_v235 : (⟨S8x3x1024x1024, .f32⟩ : BufTy).Contents (Elt F) :=
  mulf (val_main_v233 (F := F) x4 x5) (val_main_v234 (F := F) x5)

theorem val_main_v235_apply (i : S8x3x1024x1024.Idx) :
    val_main_v235 (F := F) x4 x5 i = FloatOps.mulf (val_main_v233 (F := F) x4 x5 i) (val_main_v234 (F := F) x5 i) := rfl

def val_main_v236 : (⟨S8x3x1048576, .f32⟩ : BufTy).Contents (Elt F) :=
  shapeCast _ (val_main_v235 (F := F) x4 x5) shapeCasts_S8x3x1024x1024_S8x3x1048576

abbrev idx_main_v236 (i : S8x3x1048576.Idx) : S8x3x1024x1024.Idx := fun a => match a with
  | ⟨0, _⟩ => ⟨(((i 0).val * 3 + (i 1).val) * 1048576 + (i 2).val) / 3145728, by have h0 : (i 0).val < 8 := (i 0).isLt; have h1 : (i 1).val < 3 := (i 1).isLt; have h2 : (i 2).val < 1048576 := (i 2).isLt; show (((i 0).val * 3 + (i 1).val) * 1048576 + (i 2).val) / 3145728 < 8; omega⟩
  | ⟨1, _⟩ => ⟨(((i 0).val * 3 + (i 1).val) * 1048576 + (i 2).val) / 1048576 % 3, by have h0 : (i 0).val < 8 := (i 0).isLt; have h1 : (i 1).val < 3 := (i 1).isLt; have h2 : (i 2).val < 1048576 := (i 2).isLt; show (((i 0).val * 3 + (i 1).val) * 1048576 + (i 2).val) / 1048576 % 3 < 3; omega⟩
  | ⟨2, _⟩ => ⟨(((i 0).val * 3 + (i 1).val) * 1048576 + (i 2).val) / 1024 % 1024, by have h0 : (i 0).val < 8 := (i 0).isLt; have h1 : (i 1).val < 3 := (i 1).isLt; have h2 : (i 2).val < 1048576 := (i 2).isLt; show (((i 0).val * 3 + (i 1).val) * 1048576 + (i 2).val) / 1024 % 1024 < 1024; omega⟩
  | ⟨3, _⟩ => ⟨(((i 0).val * 3 + (i 1).val) * 1048576 + (i 2).val) % 1024, by have h0 : (i 0).val < 8 := (i 0).isLt; have h1 : (i 1).val < 3 := (i 1).isLt; have h2 : (i 2).val < 1048576 := (i 2).isLt; show (((i 0).val * 3 + (i 1).val) * 1048576 + (i 2).val) % 1024 < 1024; omega⟩

theorem val_main_v236_apply (i : S8x3x1048576.Idx) :
    val_main_v236 (F := F) x4 x5 i = val_main_v235 (F := F) x4 x5 (idx_main_v236 i) := by
  unfold val_main_v236
  generalize val_main_v235 (F := F) x4 x5 = y
  exact shapeCast_apply y shapeCasts_S8x3x1024x1024_S8x3x1048576 i (idx_main_v236 i)
    (by rewrite [Shape.rowMajor_val_four, Shape.rowMajor_val_three]; have h0 : (i 0).val < 8 := (i 0).isLt; have h1 : (i 1).val < 3 := (i 1).isLt; have h2 : (i 2).val < 1048576 := (i 2).isLt; show (((((i 0).val * 3 + (i 1).val) * 1048576 + (i 2).val) / 3145728 * 3 + (((i 0).val * 3 + (i 1).val) * 1048576 + (i 2).val) / 1048576 % 3) * 1024 + (((i 0).val * 3 + (i 1).val) * 1048576 + (i 2).val) / 1024 % 1024) * 1024 + (((i 0).val * 3 + (i 1).val) * 1048576 + (i 2).val) % 1024 = ((i 0).val * 3 + (i 1).val) * 1048576 + (i 2).val; omega)

def val_main_cst_64 : (⟨S_, .f32⟩ : BufTy).Contents (Elt F) :=
  constant S_ .f32 0x00000000#32

def val_main_v237 : (⟨S8x3, .f32⟩ : BufTy).Contents (Elt F) :=
  Host.reduceAdd (val_main_v236 (F := F) x4 x5) (val_main_cst_64 (F := F)) reducesTo_S8x3x1048576_S8x3_d2 h_S_

abbrev idx_main_v237 (i : S8x3.Idx) (k : Fin 1048576) : S8x3x1048576.Idx := fun a => match a with
  | ⟨0, _⟩ => ⟨(i 0).val, (i 0).isLt⟩
  | ⟨1, _⟩ => ⟨(i 1).val, (i 1).isLt⟩
  | ⟨2, _⟩ => ⟨k.val, k.isLt⟩

theorem val_main_v237_apply (x4 : (⟨S8x3x1024x1024, .f32⟩ : BufTy).Contents (Elt Ideal)) (x5 : (⟨S8x3x1024x1024, .i32⟩ : BufTy).Contents (Elt Ideal)) (i : S8x3.Idx) :
    val_main_v237 (F := Ideal) x4 x5 i = (val_main_cst_64 (F := Ideal)) (Shape.Idx.first h_S_) + ∑ k : Fin 1048576, (val_main_v236 (F := Ideal) x4 x5) (idx_main_v237 i k) := by
  unfold val_main_v237
  generalize val_main_v236 (F := Ideal) x4 x5 = y0
  simp only [Host.reduceAdd, Ideal.hostReduceAdd_def]
  rw [Ideal.hostReduceAdd_single reducesTo_S8x3x1048576_S8x3_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v238 : (⟨S8x3, .f32⟩ : BufTy).Contents (Elt F) :=
  Host.divf (val_main_v237 (F := F) x4 x5) (val_main_v228 (F := F) x5)

def val_main_v239 : (⟨S8x3x1024x1024, .f32⟩ : BufTy).Contents (Elt F) :=
  mulf (val_main_v215 (F := F) x4) (val_main_v200 (F := F) x5)

theorem val_main_v239_apply (i : S8x3x1024x1024.Idx) :
    val_main_v239 (F := F) x4 x5 i = FloatOps.mulf (val_main_v215 (F := F) x4 i) (val_main_v200 (F := F) x5 i) := rfl

def val_main_v240 : (⟨S8x3x1024x1024, .f32⟩ : BufTy).Contents (Elt F) :=
  uitofp .f32 (val_main_v198 (F := F) x5)

theorem val_main_v240_apply (i : S8x3x1024x1024.Idx) :
    val_main_v240 (F := F) x5 i = FloatOps.uitofp .f32 (val_main_v198 (F := F) x5 i) := rfl

def val_main_v241 : (⟨S8x3x1024x1024, .f32⟩ : BufTy).Contents (Elt F) :=
  mulf (val_main_v239 (F := F) x4 x5) (val_main_v240 (F := F) x5)

theorem val_main_v241_apply (i : S8x3x1024x1024.Idx) :
    val_main_v241 (F := F) x4 x5 i = FloatOps.mulf (val_main_v239 (F := F) x4 x5 i) (val_main_v240 (F := F) x5 i) := rfl

def val_main_v242 : (⟨S8x3x1048576, .f32⟩ : BufTy).Contents (Elt F) :=
  shapeCast _ (val_main_v241 (F := F) x4 x5) shapeCasts_S8x3x1024x1024_S8x3x1048576

abbrev idx_main_v242 (i : S8x3x1048576.Idx) : S8x3x1024x1024.Idx := fun a => match a with
  | ⟨0, _⟩ => ⟨(((i 0).val * 3 + (i 1).val) * 1048576 + (i 2).val) / 3145728, by have h0 : (i 0).val < 8 := (i 0).isLt; have h1 : (i 1).val < 3 := (i 1).isLt; have h2 : (i 2).val < 1048576 := (i 2).isLt; show (((i 0).val * 3 + (i 1).val) * 1048576 + (i 2).val) / 3145728 < 8; omega⟩
  | ⟨1, _⟩ => ⟨(((i 0).val * 3 + (i 1).val) * 1048576 + (i 2).val) / 1048576 % 3, by have h0 : (i 0).val < 8 := (i 0).isLt; have h1 : (i 1).val < 3 := (i 1).isLt; have h2 : (i 2).val < 1048576 := (i 2).isLt; show (((i 0).val * 3 + (i 1).val) * 1048576 + (i 2).val) / 1048576 % 3 < 3; omega⟩
  | ⟨2, _⟩ => ⟨(((i 0).val * 3 + (i 1).val) * 1048576 + (i 2).val) / 1024 % 1024, by have h0 : (i 0).val < 8 := (i 0).isLt; have h1 : (i 1).val < 3 := (i 1).isLt; have h2 : (i 2).val < 1048576 := (i 2).isLt; show (((i 0).val * 3 + (i 1).val) * 1048576 + (i 2).val) / 1024 % 1024 < 1024; omega⟩
  | ⟨3, _⟩ => ⟨(((i 0).val * 3 + (i 1).val) * 1048576 + (i 2).val) % 1024, by have h0 : (i 0).val < 8 := (i 0).isLt; have h1 : (i 1).val < 3 := (i 1).isLt; have h2 : (i 2).val < 1048576 := (i 2).isLt; show (((i 0).val * 3 + (i 1).val) * 1048576 + (i 2).val) % 1024 < 1024; omega⟩

theorem val_main_v242_apply (i : S8x3x1048576.Idx) :
    val_main_v242 (F := F) x4 x5 i = val_main_v241 (F := F) x4 x5 (idx_main_v242 i) := by
  unfold val_main_v242
  generalize val_main_v241 (F := F) x4 x5 = y
  exact shapeCast_apply y shapeCasts_S8x3x1024x1024_S8x3x1048576 i (idx_main_v242 i)
    (by rewrite [Shape.rowMajor_val_four, Shape.rowMajor_val_three]; have h0 : (i 0).val < 8 := (i 0).isLt; have h1 : (i 1).val < 3 := (i 1).isLt; have h2 : (i 2).val < 1048576 := (i 2).isLt; show (((((i 0).val * 3 + (i 1).val) * 1048576 + (i 2).val) / 3145728 * 3 + (((i 0).val * 3 + (i 1).val) * 1048576 + (i 2).val) / 1048576 % 3) * 1024 + (((i 0).val * 3 + (i 1).val) * 1048576 + (i 2).val) / 1024 % 1024) * 1024 + (((i 0).val * 3 + (i 1).val) * 1048576 + (i 2).val) % 1024 = ((i 0).val * 3 + (i 1).val) * 1048576 + (i 2).val; omega)

def val_main_cst_65 : (⟨S_, .f32⟩ : BufTy).Contents (Elt F) :=
  constant S_ .f32 0x00000000#32

def val_main_v243 : (⟨S8x3, .f32⟩ : BufTy).Contents (Elt F) :=
  Host.reduceAdd (val_main_v242 (F := F) x4 x5) (val_main_cst_65 (F := F)) reducesTo_S8x3x1048576_S8x3_d2 h_S_

abbrev idx_main_v243 (i : S8x3.Idx) (k : Fin 1048576) : S8x3x1048576.Idx := fun a => match a with
  | ⟨0, _⟩ => ⟨(i 0).val, (i 0).isLt⟩
  | ⟨1, _⟩ => ⟨(i 1).val, (i 1).isLt⟩
  | ⟨2, _⟩ => ⟨k.val, k.isLt⟩

theorem val_main_v243_apply (x4 : (⟨S8x3x1024x1024, .f32⟩ : BufTy).Contents (Elt Ideal)) (x5 : (⟨S8x3x1024x1024, .i32⟩ : BufTy).Contents (Elt Ideal)) (i : S8x3.Idx) :
    val_main_v243 (F := Ideal) x4 x5 i = (val_main_cst_65 (F := Ideal)) (Shape.Idx.first h_S_) + ∑ k : Fin 1048576, (val_main_v242 (F := Ideal) x4 x5) (idx_main_v243 i k) := by
  unfold val_main_v243
  generalize val_main_v242 (F := Ideal) x4 x5 = y0
  simp only [Host.reduceAdd, Ideal.hostReduceAdd_def]
  rw [Ideal.hostReduceAdd_single reducesTo_S8x3x1048576_S8x3_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v244 : (⟨S8x3x1024x1024, .f32⟩ : BufTy).Contents (Elt F) :=
  uitofp .f32 (val_main_v198 (F := F) x5)

theorem val_main_v244_apply (i : S8x3x1024x1024.Idx) :
    val_main_v244 (F := F) x5 i = FloatOps.uitofp .f32 (val_main_v198 (F := F) x5 i) := rfl

def val_main_v245 : (⟨S8x3x1024x1024, .f32⟩ : BufTy).Contents (Elt F) :=
  mulf (val_main_v215 (F := F) x4) (val_main_v244 (F := F) x5)

theorem val_main_v245_apply (i : S8x3x1024x1024.Idx) :
    val_main_v245 (F := F) x4 x5 i = FloatOps.mulf (val_main_v215 (F := F) x4 i) (val_main_v244 (F := F) x5 i) := rfl

def val_main_v246 : (⟨S8x3x1048576, .f32⟩ : BufTy).Contents (Elt F) :=
  shapeCast _ (val_main_v245 (F := F) x4 x5) shapeCasts_S8x3x1024x1024_S8x3x1048576

abbrev idx_main_v246 (i : S8x3x1048576.Idx) : S8x3x1024x1024.Idx := fun a => match a with
  | ⟨0, _⟩ => ⟨(((i 0).val * 3 + (i 1).val) * 1048576 + (i 2).val) / 3145728, by have h0 : (i 0).val < 8 := (i 0).isLt; have h1 : (i 1).val < 3 := (i 1).isLt; have h2 : (i 2).val < 1048576 := (i 2).isLt; show (((i 0).val * 3 + (i 1).val) * 1048576 + (i 2).val) / 3145728 < 8; omega⟩
  | ⟨1, _⟩ => ⟨(((i 0).val * 3 + (i 1).val) * 1048576 + (i 2).val) / 1048576 % 3, by have h0 : (i 0).val < 8 := (i 0).isLt; have h1 : (i 1).val < 3 := (i 1).isLt; have h2 : (i 2).val < 1048576 := (i 2).isLt; show (((i 0).val * 3 + (i 1).val) * 1048576 + (i 2).val) / 1048576 % 3 < 3; omega⟩
  | ⟨2, _⟩ => ⟨(((i 0).val * 3 + (i 1).val) * 1048576 + (i 2).val) / 1024 % 1024, by have h0 : (i 0).val < 8 := (i 0).isLt; have h1 : (i 1).val < 3 := (i 1).isLt; have h2 : (i 2).val < 1048576 := (i 2).isLt; show (((i 0).val * 3 + (i 1).val) * 1048576 + (i 2).val) / 1024 % 1024 < 1024; omega⟩
  | ⟨3, _⟩ => ⟨(((i 0).val * 3 + (i 1).val) * 1048576 + (i 2).val) % 1024, by have h0 : (i 0).val < 8 := (i 0).isLt; have h1 : (i 1).val < 3 := (i 1).isLt; have h2 : (i 2).val < 1048576 := (i 2).isLt; show (((i 0).val * 3 + (i 1).val) * 1048576 + (i 2).val) % 1024 < 1024; omega⟩

theorem val_main_v246_apply (i : S8x3x1048576.Idx) :
    val_main_v246 (F := F) x4 x5 i = val_main_v245 (F := F) x4 x5 (idx_main_v246 i) := by
  unfold val_main_v246
  generalize val_main_v245 (F := F) x4 x5 = y
  exact shapeCast_apply y shapeCasts_S8x3x1024x1024_S8x3x1048576 i (idx_main_v246 i)
    (by rewrite [Shape.rowMajor_val_four, Shape.rowMajor_val_three]; have h0 : (i 0).val < 8 := (i 0).isLt; have h1 : (i 1).val < 3 := (i 1).isLt; have h2 : (i 2).val < 1048576 := (i 2).isLt; show (((((i 0).val * 3 + (i 1).val) * 1048576 + (i 2).val) / 3145728 * 3 + (((i 0).val * 3 + (i 1).val) * 1048576 + (i 2).val) / 1048576 % 3) * 1024 + (((i 0).val * 3 + (i 1).val) * 1048576 + (i 2).val) / 1024 % 1024) * 1024 + (((i 0).val * 3 + (i 1).val) * 1048576 + (i 2).val) % 1024 = ((i 0).val * 3 + (i 1).val) * 1048576 + (i 2).val; omega)

def val_main_cst_66 : (⟨S_, .f32⟩ : BufTy).Contents (Elt F) :=
  constant S_ .f32 0x00000000#32

def val_main_v247 : (⟨S8x3, .f32⟩ : BufTy).Contents (Elt F) :=
  Host.reduceAdd (val_main_v246 (F := F) x4 x5) (val_main_cst_66 (F := F)) reducesTo_S8x3x1048576_S8x3_d2 h_S_

abbrev idx_main_v247 (i : S8x3.Idx) (k : Fin 1048576) : S8x3x1048576.Idx := fun a => match a with
  | ⟨0, _⟩ => ⟨(i 0).val, (i 0).isLt⟩
  | ⟨1, _⟩ => ⟨(i 1).val, (i 1).isLt⟩
  | ⟨2, _⟩ => ⟨k.val, k.isLt⟩

theorem val_main_v247_apply (x4 : (⟨S8x3x1024x1024, .f32⟩ : BufTy).Contents (Elt Ideal)) (x5 : (⟨S8x3x1024x1024, .i32⟩ : BufTy).Contents (Elt Ideal)) (i : S8x3.Idx) :
    val_main_v247 (F := Ideal) x4 x5 i = (val_main_cst_66 (F := Ideal)) (Shape.Idx.first h_S_) + ∑ k : Fin 1048576, (val_main_v246 (F := Ideal) x4 x5) (idx_main_v247 i k) := by
  unfold val_main_v247
  generalize val_main_v246 (F := Ideal) x4 x5 = y0
  simp only [Host.reduceAdd, Ideal.hostReduceAdd_def]
  rw [Ideal.hostReduceAdd_single reducesTo_S8x3x1048576_S8x3_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v248 : (⟨S8x3x1024x1024, .f32⟩ : BufTy).Contents (Elt F) :=
  uitofp .f32 (val_main_v198 (F := F) x5)

theorem val_main_v248_apply (i : S8x3x1024x1024.Idx) :
    val_main_v248 (F := F) x5 i = FloatOps.uitofp .f32 (val_main_v198 (F := F) x5 i) := rfl

def val_main_v249 : (⟨S8x3x1024x1024, .f32⟩ : BufTy).Contents (Elt F) :=
  mulf (val_main_v200 (F := F) x5) (val_main_v248 (F := F) x5)

theorem val_main_v249_apply (i : S8x3x1024x1024.Idx) :
    val_main_v249 (F := F) x5 i = FloatOps.mulf (val_main_v200 (F := F) x5 i) (val_main_v248 (F := F) x5 i) := rfl

def val_main_v250 : (⟨S8x3x1048576, .f32⟩ : BufTy).Contents (Elt F) :=
  shapeCast _ (val_main_v249 (F := F) x5) shapeCasts_S8x3x1024x1024_S8x3x1048576

abbrev idx_main_v250 (i : S8x3x1048576.Idx) : S8x3x1024x1024.Idx := fun a => match a with
  | ⟨0, _⟩ => ⟨(((i 0).val * 3 + (i 1).val) * 1048576 + (i 2).val) / 3145728, by have h0 : (i 0).val < 8 := (i 0).isLt; have h1 : (i 1).val < 3 := (i 1).isLt; have h2 : (i 2).val < 1048576 := (i 2).isLt; show (((i 0).val * 3 + (i 1).val) * 1048576 + (i 2).val) / 3145728 < 8; omega⟩
  | ⟨1, _⟩ => ⟨(((i 0).val * 3 + (i 1).val) * 1048576 + (i 2).val) / 1048576 % 3, by have h0 : (i 0).val < 8 := (i 0).isLt; have h1 : (i 1).val < 3 := (i 1).isLt; have h2 : (i 2).val < 1048576 := (i 2).isLt; show (((i 0).val * 3 + (i 1).val) * 1048576 + (i 2).val) / 1048576 % 3 < 3; omega⟩
  | ⟨2, _⟩ => ⟨(((i 0).val * 3 + (i 1).val) * 1048576 + (i 2).val) / 1024 % 1024, by have h0 : (i 0).val < 8 := (i 0).isLt; have h1 : (i 1).val < 3 := (i 1).isLt; have h2 : (i 2).val < 1048576 := (i 2).isLt; show (((i 0).val * 3 + (i 1).val) * 1048576 + (i 2).val) / 1024 % 1024 < 1024; omega⟩
  | ⟨3, _⟩ => ⟨(((i 0).val * 3 + (i 1).val) * 1048576 + (i 2).val) % 1024, by have h0 : (i 0).val < 8 := (i 0).isLt; have h1 : (i 1).val < 3 := (i 1).isLt; have h2 : (i 2).val < 1048576 := (i 2).isLt; show (((i 0).val * 3 + (i 1).val) * 1048576 + (i 2).val) % 1024 < 1024; omega⟩

theorem val_main_v250_apply (i : S8x3x1048576.Idx) :
    val_main_v250 (F := F) x5 i = val_main_v249 (F := F) x5 (idx_main_v250 i) := by
  unfold val_main_v250
  generalize val_main_v249 (F := F) x5 = y
  exact shapeCast_apply y shapeCasts_S8x3x1024x1024_S8x3x1048576 i (idx_main_v250 i)
    (by rewrite [Shape.rowMajor_val_four, Shape.rowMajor_val_three]; have h0 : (i 0).val < 8 := (i 0).isLt; have h1 : (i 1).val < 3 := (i 1).isLt; have h2 : (i 2).val < 1048576 := (i 2).isLt; show (((((i 0).val * 3 + (i 1).val) * 1048576 + (i 2).val) / 3145728 * 3 + (((i 0).val * 3 + (i 1).val) * 1048576 + (i 2).val) / 1048576 % 3) * 1024 + (((i 0).val * 3 + (i 1).val) * 1048576 + (i 2).val) / 1024 % 1024) * 1024 + (((i 0).val * 3 + (i 1).val) * 1048576 + (i 2).val) % 1024 = ((i 0).val * 3 + (i 1).val) * 1048576 + (i 2).val; omega)

def val_main_cst_67 : (⟨S_, .f32⟩ : BufTy).Contents (Elt F) :=
  constant S_ .f32 0x00000000#32

def val_main_v251 : (⟨S8x3, .f32⟩ : BufTy).Contents (Elt F) :=
  Host.reduceAdd (val_main_v250 (F := F) x5) (val_main_cst_67 (F := F)) reducesTo_S8x3x1048576_S8x3_d2 h_S_

abbrev idx_main_v251 (i : S8x3.Idx) (k : Fin 1048576) : S8x3x1048576.Idx := fun a => match a with
  | ⟨0, _⟩ => ⟨(i 0).val, (i 0).isLt⟩
  | ⟨1, _⟩ => ⟨(i 1).val, (i 1).isLt⟩
  | ⟨2, _⟩ => ⟨k.val, k.isLt⟩

theorem val_main_v251_apply (x5 : (⟨S8x3x1024x1024, .i32⟩ : BufTy).Contents (Elt Ideal)) (i : S8x3.Idx) :
    val_main_v251 (F := Ideal) x5 i = (val_main_cst_67 (F := Ideal)) (Shape.Idx.first h_S_) + ∑ k : Fin 1048576, (val_main_v250 (F := Ideal) x5) (idx_main_v251 i k) := by
  unfold val_main_v251
  generalize val_main_v250 (F := Ideal) x5 = y0
  simp only [Host.reduceAdd, Ideal.hostReduceAdd_def]
  rw [Ideal.hostReduceAdd_single reducesTo_S8x3x1048576_S8x3_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

def val_main_v252 : (⟨S8x3, .f32⟩ : BufTy).Contents (Elt F) :=
  addf (val_main_v247 (F := F) x4 x5) (val_main_v251 (F := F) x5)

def val_main_cst_68 : (⟨S_, .f32⟩ : BufTy).Contents (Elt F) :=
  constant S_ .f32 0x40000000#32

def val_main_v253 : (⟨S8x3, .f32⟩ : BufTy).Contents (Elt F) :=
  broadcastInDim S8x3 ![] bcast_S_S8x3 (val_main_cst_68 (F := F))

def val_main_v254 : (⟨S8x3, .f32⟩ : BufTy).Contents (Elt F) :=
  mulf (val_main_v253 (F := F)) (val_main_v243 (F := F) x4 x5)

def val_main_cst_69 : (⟨S_, .f32⟩ : BufTy).Contents (Elt F) :=
  constant S_ .f32 0x358637BD#32

def val_main_v255 : (⟨S8x3, .f32⟩ : BufTy).Contents (Elt F) :=
  broadcastInDim S8x3 ![] bcast_S_S8x3 (val_main_cst_69 (F := F))

def val_main_v256 : (⟨S8x3, .f32⟩ : BufTy).Contents (Elt F) :=
  addf (val_main_v254 (F := F) x4 x5) (val_main_v255 (F := F))

def val_main_cst_70 : (⟨S_, .f32⟩ : BufTy).Contents (Elt F) :=
  constant S_ .f32 0x358637BD#32

def val_main_v257 : (⟨S8x3, .f32⟩ : BufTy).Contents (Elt F) :=
  broadcastInDim S8x3 ![] bcast_S_S8x3 (val_main_cst_70 (F := F))

def val_main_v258 : (⟨S8x3, .f32⟩ : BufTy).Contents (Elt F) :=
  addf (val_main_v252 (F := F) x4 x5) (val_main_v257 (F := F))

def val_main_v259 : (⟨S8x3, .f32⟩ : BufTy).Contents (Elt F) :=
  Host.divf (val_main_v256 (F := F) x4 x5) (val_main_v258 (F := F) x4 x5)

def val_main_cst_71 : (⟨S_, .f32⟩ : BufTy).Contents (Elt F) :=
  constant S_ .f32 0x3F800000#32

def val_main_v260 : (⟨S8x3, .f32⟩ : BufTy).Contents (Elt F) :=
  broadcastInDim S8x3 ![] bcast_S_S8x3 (val_main_cst_71 (F := F))

def val_main_v261 : (⟨S8x3, .f32⟩ : BufTy).Contents (Elt F) :=
  subf (val_main_v260 (F := F)) (val_main_v259 (F := F) x4 x5)

def val_main_v262 : (⟨S8x3, .f32⟩ : BufTy).Contents (Elt F) :=
  sitofp .f32 (x8)

def val_main_v263 : (⟨S8x3x1048576, .i1⟩ : BufTy).Contents (Elt F) :=
  shapeCast _ (val_main_v198 (F := F) x5) shapeCasts_S8x3x1024x1024_S8x3x1048576

abbrev idx_main_v263 (i : S8x3x1048576.Idx) : S8x3x1024x1024.Idx := fun a => match a with
  | ⟨0, _⟩ => ⟨(((i 0).val * 3 + (i 1).val) * 1048576 + (i 2).val) / 3145728, by have h0 : (i 0).val < 8 := (i 0).isLt; have h1 : (i 1).val < 3 := (i 1).isLt; have h2 : (i 2).val < 1048576 := (i 2).isLt; show (((i 0).val * 3 + (i 1).val) * 1048576 + (i 2).val) / 3145728 < 8; omega⟩
  | ⟨1, _⟩ => ⟨(((i 0).val * 3 + (i 1).val) * 1048576 + (i 2).val) / 1048576 % 3, by have h0 : (i 0).val < 8 := (i 0).isLt; have h1 : (i 1).val < 3 := (i 1).isLt; have h2 : (i 2).val < 1048576 := (i 2).isLt; show (((i 0).val * 3 + (i 1).val) * 1048576 + (i 2).val) / 1048576 % 3 < 3; omega⟩
  | ⟨2, _⟩ => ⟨(((i 0).val * 3 + (i 1).val) * 1048576 + (i 2).val) / 1024 % 1024, by have h0 : (i 0).val < 8 := (i 0).isLt; have h1 : (i 1).val < 3 := (i 1).isLt; have h2 : (i 2).val < 1048576 := (i 2).isLt; show (((i 0).val * 3 + (i 1).val) * 1048576 + (i 2).val) / 1024 % 1024 < 1024; omega⟩
  | ⟨3, _⟩ => ⟨(((i 0).val * 3 + (i 1).val) * 1048576 + (i 2).val) % 1024, by have h0 : (i 0).val < 8 := (i 0).isLt; have h1 : (i 1).val < 3 := (i 1).isLt; have h2 : (i 2).val < 1048576 := (i 2).isLt; show (((i 0).val * 3 + (i 1).val) * 1048576 + (i 2).val) % 1024 < 1024; omega⟩

theorem val_main_v263_apply (i : S8x3x1048576.Idx) :
    val_main_v263 (F := F) x5 i = val_main_v198 (F := F) x5 (idx_main_v263 i) := by
  unfold val_main_v263
  generalize val_main_v198 (F := F) x5 = y
  exact shapeCast_apply y shapeCasts_S8x3x1024x1024_S8x3x1048576 i (idx_main_v263 i)
    (by rewrite [Shape.rowMajor_val_four, Shape.rowMajor_val_three]; have h0 : (i 0).val < 8 := (i 0).isLt; have h1 : (i 1).val < 3 := (i 1).isLt; have h2 : (i 2).val < 1048576 := (i 2).isLt; show (((((i 0).val * 3 + (i 1).val) * 1048576 + (i 2).val) / 3145728 * 3 + (((i 0).val * 3 + (i 1).val) * 1048576 + (i 2).val) / 1048576 % 3) * 1024 + (((i 0).val * 3 + (i 1).val) * 1048576 + (i 2).val) / 1024 % 1024) * 1024 + (((i 0).val * 3 + (i 1).val) * 1048576 + (i 2).val) % 1024 = ((i 0).val * 3 + (i 1).val) * 1048576 + (i 2).val; omega)

def val_main_c_72 : (⟨S_, .i1⟩ : BufTy).Contents (Elt F) :=
  constantI S_ 1 0#1

def val_main_v264 : (⟨S8x3, .i1⟩ : BufTy).Contents (Elt F) :=
  Host.reduce IntOp.ori (val_main_v263 (F := F) x5) (val_main_c_72 (F := F)) reducesTo_S8x3x1048576_S8x3_d2 h_S_

def val_main_v265 : (⟨S8x3, .f32⟩ : BufTy).Contents (Elt F) :=
  uitofp .f32 (val_main_v264 (F := F) x5)

def val_main_v266 : (⟨S8x3, .f32⟩ : BufTy).Contents (Elt F) :=
  mulf (val_main_v262 (F := F) x8) (val_main_v265 (F := F) x5)

def val_main_v267 : (⟨S8x3, .f32⟩ : BufTy).Contents (Elt F) :=
  addf (val_main_v238 (F := F) x4 x5) (val_main_v261 (F := F) x4 x5)

def val_main_v268 : (⟨S8x3, .f32⟩ : BufTy).Contents (Elt F) :=
  mulf (val_main_v267 (F := F) x4 x5) (val_main_v266 (F := F) x5 x8)

def val_main_cst_73 : (⟨S_, .f32⟩ : BufTy).Contents (Elt F) :=
  constant S_ .f32 0x00000000#32

def val_main_v269 : (⟨S_, .f32⟩ : BufTy).Contents (Elt F) :=
  Host.reduceAdd (val_main_v268 (F := F) x4 x5 x8) (val_main_cst_73 (F := F)) reducesTo_S8x3_S_d0_1 h_S_

def val_main_cst_74 : (⟨S_, .f32⟩ : BufTy).Contents (Elt F) :=
  constant S_ .f32 0x00000000#32

def val_main_v270 : (⟨S_, .f32⟩ : BufTy).Contents (Elt F) :=
  Host.reduceAdd (val_main_v266 (F := F) x5 x8) (val_main_cst_74 (F := F)) reducesTo_S8x3_S_d0_1 h_S_

def val_main_cst_75 : (⟨S_, .f32⟩ : BufTy).Contents (Elt F) :=
  constant S_ .f32 0x3F800000#32

def val_main_v271 : (⟨S_, .f32⟩ : BufTy).Contents (Elt F) :=
  maximumf (val_main_v270 (F := F) x5 x8) (val_main_cst_75 (F := F))

def val_main_v272 : (⟨S_, .f32⟩ : BufTy).Contents (Elt F) :=
  Host.divf (val_main_v269 (F := F) x4 x5 x8) (val_main_v271 (F := F) x5 x8)

def val_main_cst_76 : (⟨S_, .f32⟩ : BufTy).Contents (Elt F) :=
  constant S_ .f32 0x3F800000#32

def val_main_v273 : (⟨S_, .f32⟩ : BufTy).Contents (Elt F) :=
  mulf (val_main_cst_76 (F := F)) (val_main_v161 (F := F) x0 x1 x6)

def val_main_cst_77 : (⟨S_, .f32⟩ : BufTy).Contents (Elt F) :=
  constant S_ .f32 0x3F800000#32

def val_main_v274 : (⟨S_, .f32⟩ : BufTy).Contents (Elt F) :=
  mulf (val_main_cst_77 (F := F)) (val_main_v196 (F := F) x2 x3 x7)

def val_main_v275 : (⟨S_, .f32⟩ : BufTy).Contents (Elt F) :=
  addf (val_main_v273 (F := F) x0 x1 x6) (val_main_v274 (F := F) x2 x3 x7)

def val_main_cst_78 : (⟨S_, .f32⟩ : BufTy).Contents (Elt F) :=
  constant S_ .f32 0x40000000#32

def val_main_v276 : (⟨S_, .f32⟩ : BufTy).Contents (Elt F) :=
  mulf (val_main_cst_78 (F := F)) (val_main_v272 (F := F) x4 x5 x8)

def val_main_v277 : (⟨S_, .f32⟩ : BufTy).Contents (Elt F) :=
  addf (val_main_v275 (F := F) x0 x1 x2 x3 x6 x7) (val_main_v276 (F := F) x4 x5 x8)

def val_main_v278 : (⟨S1, .f32⟩ : BufTy).Contents (Elt F) :=
  broadcastInDim S1 ![] bcast_S_S1 (val_main_v277 (F := F) x0 x1 x2 x3 x4 x5 x6 x7 x8)

def val_main_v279 : (⟨S1, .f32⟩ : BufTy).Contents (Elt F) :=
  broadcastInDim S1 ![] bcast_S_S1 (val_main_v161 (F := F) x0 x1 x6)

def val_main_v280 : (⟨S1, .f32⟩ : BufTy).Contents (Elt F) :=
  broadcastInDim S1 ![] bcast_S_S1 (val_main_v196 (F := F) x2 x3 x7)

def val_main_v281 : (⟨S1, .f32⟩ : BufTy).Contents (Elt F) :=
  broadcastInDim S1 ![] bcast_S_S1 (val_main_v272 (F := F) x4 x5 x8)

def val_main_v282 : (⟨S4, .f32⟩ : BufTy).Contents (Elt F) :=
  concatenate S4 0 [⟨S1, (val_main_v278 (F := F) x0 x1 x2 x3 x4 x5 x6 x7 x8)⟩, ⟨S1, (val_main_v279 (F := F) x0 x1 x6)⟩, ⟨S1, (val_main_v280 (F := F) x2 x3 x7)⟩, ⟨S1, (val_main_v281 (F := F) x4 x5 x8)⟩] concatenates_S1_S1_S1_S1_S4_d0

end Cert.ReferenceIdeal.ReadP

end
-- ==== Proof.KI.DaVal.lean ====
import proofs.«134848_j7748121002193_1_alg».proof.Proof.Gen.KernelIdeal.Launch
import proofs.«134848_j7748121002193_1_alg».proof.Proof.KI.Epi
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hostOps1_computes_daLoss (V : Valuation τ sig (Elt F)) :
    StableHlo.after hostOps1 V (Proc.devRef .tc main_v177)
      = daLoss (V (Proc.devRef .tc main_v162_0)) (V (Proc.devRef .tc main_v162_1)) (V (Proc.devRef .tc main_arg7)) := by
  after_results
  unfold daLoss
  rfl

end Cert.KernelIdeal.Hand

end
-- ==== Proof.KI.ResVal.lean ====
import proofs.«134848_j7748121002193_1_alg».proof.Proof.Gen.KernelIdeal.Launch
import proofs.«134848_j7748121002193_1_alg».proof.Proof.KI.Epi
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hostOps2_computes_lossVec (V : Valuation τ sig (Elt F)) :
    StableHlo.after hostOps2 V (Proc.devRef .tc main_v212)
      = lossVec (V (Proc.devRef .tc main_v161)) (V (Proc.devRef .tc main_v177))
          (rmLoss (V (Proc.devRef .tc main_v178_0)) (V (Proc.devRef .tc main_v178_1)) (V (Proc.devRef .tc main_v178_2))
            (V (Proc.devRef .tc main_v178_3)) (V (Proc.devRef .tc main_v178_4)) (V (Proc.devRef .tc main_arg8))) := by
  after_results
  unfold lossVec rmLoss
  rfl

end Cert.KernelIdeal.Hand

end
-- ==== Proof.KI.OdHead.lean ====
import proofs.«134848_j7748121002193_1_alg».proof.Proof.Gen.KernelIdeal.Launch
import proofs.«134848_j7748121002193_1_alg».proof.Proof.RefStages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem odS0_main_v2 (V : Valuation τ sig (Elt F)) (x1 : (⟨Cert.ReferenceIdeal.S8x64x5, .f32⟩ : BufTy).Contents (Elt F))
    (h_main_arg1 : V (Proc.devRef .tc main_arg1) = x1) :
    StableHlo.after (hostOps0 (F := F)) V (Proc.devRef .tc main_v2) = Cert.ReferenceIdeal.ReadP.val_main_v2 (F := F) x1 := by
  after_results_simp
  rw [h_main_arg1]
  rfl

theorem odS0_main_v3 (V : Valuation τ sig (Elt F)) (x1 : (⟨Cert.ReferenceIdeal.S8x64x5, .f32⟩ : BufTy).Contents (Elt F))
    (h_main_arg1 : V (Proc.devRef .tc main_arg1) = x1) :
    StableHlo.after (hostOps0 (F := F)) V (Proc.devRef .tc main_v3) = Cert.ReferenceIdeal.ReadP.val_main_v3 (F := F) x1 := by
  after_results_simp
  rw [h_main_arg1]
  rfl

theorem odS0_main_cst (V : Valuation τ sig (Elt F)) :
    StableHlo.after (hostOps0 (F := F)) V (Proc.devRef .tc main_cst) = Cert.ReferenceIdeal.ReadP.val_main_cst (F := F) := by
  after_results_simp
  rfl

theorem odS0_main_cst_0 (V : Valuation τ sig (Elt F)) :
    StableHlo.after (hostOps0 (F := F)) V (Proc.devRef .tc main_cst_0) = Cert.ReferenceIdeal.ReadP.val_main_cst_0 (F := F) := by
  after_results_simp
  rfl

def odS0Kept : List (Ref sig .tc) := [main_arg1, main_arg6, main_arg0]

theorem odS0_writes_none {r : Ref sig .tc} (hr : r ∈ odS0Kept) :
    ∀ op ∈ (hostOps0 : List (HloOp τ sig (Elt F))), Proc.devRef (τ := τ) .tc r ∉ op.writes :=
  List.forall_iff_forall_mem.mp (by
    simp only [hostOps0, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem odS0_kept (V : Valuation τ sig (Elt F)) {r : Ref sig .tc} (hr : r ∈ odS0Kept) :
    StableHlo.after (hostOps0 (F := F)) V (Proc.devRef .tc r) = V (Proc.devRef .tc r) :=
  StableHlo.after_of_forall_not_mem _ V (odS0_writes_none hr)

theorem odS1_main_v4 (V : Valuation τ sig (Elt F)) (x1 : (⟨Cert.ReferenceIdeal.S8x64x5, .f32⟩ : BufTy).Contents (Elt F))
    (h_main_cst_0 : V (Proc.devRef .tc main_cst_0) = Cert.ReferenceIdeal.ReadP.val_main_cst_0 (F := F))
    (h_main_cst : V (Proc.devRef .tc main_cst) = Cert.ReferenceIdeal.ReadP.val_main_cst (F := F))
    (h_main_v3 : V (Proc.devRef .tc main_v3) = Cert.ReferenceIdeal.ReadP.val_main_v3 (F := F) x1) :
    StableHlo.after (hostOps0_1 (F := F)) V (Proc.devRef .tc main_v4) = Cert.ReferenceIdeal.ReadP.val_main_v4 (F := F) x1 := by
  after_results_simp
  rw [h_main_cst_0, h_main_cst, h_main_v3]
  (try simp only [StableHlo.TRef.ofBuf, StableHlo.TRef.toBuf, cast_eq])
  rfl

def odS1Kept : List (Ref sig .tc) := [main_v2, main_arg1, main_arg6, main_arg0]

theorem odS1_writes_none {r : Ref sig .tc} (hr : r ∈ odS1Kept) :
    ∀ op ∈ (hostOps0_1 : List (HloOp τ sig (Elt F))), Proc.devRef (τ := τ) .tc r ∉ op.writes :=
  List.forall_iff_forall_mem.mp (by
    simp only [hostOps0_1, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem odS1_kept (V : Valuation τ sig (Elt F)) {r : Ref sig .tc} (hr : r ∈ odS1Kept) :
    StableHlo.after (hostOps0_1 (F := F)) V (Proc.devRef .tc r) = V (Proc.devRef .tc r) :=
  StableHlo.after_of_forall_not_mem _ V (odS1_writes_none hr)

theorem odS3_main_v37 (V : Valuation τ sig (Elt F)) (x1 : (⟨Cert.ReferenceIdeal.S8x64x5, .f32⟩ : BufTy).Contents (Elt F))
    (h_main_v19 : V (Proc.devRef .tc main_v19) = Cert.ReferenceIdeal.ReadP.val_main_v19 (F := F) x1)
    (h_main_v36 : V (Proc.devRef .tc main_v36) = Cert.ReferenceIdeal.ReadP.val_main_v36 (F := F) x1)
    (h_main_c_9 : V (Proc.devRef .tc main_c_9) = Cert.ReferenceIdeal.ReadP.val_main_c_9 (F := F)) :
    StableHlo.after (hostOps0_3 (F := F)) V (Proc.devRef .tc main_v37) = Cert.ReferenceIdeal.ReadP.val_main_v37 (F := F) x1 := by
  after_results_simp
  rw [h_main_v19, h_main_v36, h_main_c_9]
  (try simp only [StableHlo.TRef.ofBuf, StableHlo.TRef.toBuf, cast_eq])
  rfl

def odS3Kept : List (Ref sig .tc) := [main_v4, main_v2, main_arg6, main_arg0]

theorem odS3_writes_none {r : Ref sig .tc} (hr : r ∈ odS3Kept) :
    ∀ op ∈ (hostOps0_3 : List (HloOp τ sig (Elt F))), Proc.devRef (τ := τ) .tc r ∉ op.writes :=
  List.forall_iff_forall_mem.mp (by
    simp only [hostOps0_3, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem odS3_kept (V : Valuation τ sig (Elt F)) {r : Ref sig .tc} (hr : r ∈ odS3Kept) :
    StableHlo.after (hostOps0_3 (F := F)) V (Proc.devRef .tc r) = V (Proc.devRef .tc r) :=
  StableHlo.after_of_forall_not_mem _ V (odS3_writes_none hr)

end Cert.KernelIdeal.Hand

end
-- ==== Proof.KI.OdCells.lean ====
import proofs.«134848_j7748121002193_1_alg».proof.Proof.Gen.KernelIdeal.Launch
import proofs.«134848_j7748121002193_1_alg».proof.Proof.RefStages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem odS2_main_v19 (V : Valuation τ sig (Elt F)) (x1 : (⟨Cert.ReferenceIdeal.S8x64x5, .f32⟩ : BufTy).Contents (Elt F))
    (h_main_v2 : V (Proc.devRef .tc main_v2) = Cert.ReferenceIdeal.ReadP.val_main_v2 (F := F) x1)
    (h_main_arg1 : V (Proc.devRef .tc main_arg1) = x1) :
    StableHlo.after (hostOps0_2 (F := F)) V (Proc.devRef .tc main_v19) = Cert.ReferenceIdeal.ReadP.val_main_v19 (F := F) x1 := by
  after_results_simp
  rw [h_main_v2, h_main_arg1]
  rfl

theorem odS2_main_v36 (V : Valuation τ sig (Elt F)) (x1 : (⟨Cert.ReferenceIdeal.S8x64x5, .f32⟩ : BufTy).Contents (Elt F))
    (h_main_v4 : V (Proc.devRef .tc main_v4) = Cert.ReferenceIdeal.ReadP.val_main_v4 (F := F) x1) :
    StableHlo.after (hostOps0_2 (F := F)) V (Proc.devRef .tc main_v36) = Cert.ReferenceIdeal.ReadP.val_main_v36 (F := F) x1 := by
  after_results_simp
  rw [h_main_v4]
  rfl

theorem odS2_main_c_9 (V : Valuation τ sig (Elt F)) :
    StableHlo.after (hostOps0_2 (F := F)) V (Proc.devRef .tc main_c_9) = Cert.ReferenceIdeal.ReadP.val_main_c_9 (F := F) := by
  after_results_simp
  rfl

def odS2Kept : List (Ref sig .tc) := [main_v4, main_v2, main_arg6, main_arg0]

theorem odS2_writes_none {r : Ref sig .tc} (hr : r ∈ odS2Kept) :
    ∀ op ∈ (hostOps0_2 : List (HloOp τ sig (Elt F))), Proc.devRef (τ := τ) .tc r ∉ op.writes :=
  List.forall_iff_forall_mem.mp (by
    simp only [hostOps0_2, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem odS2_kept (V : Valuation τ sig (Elt F)) {r : Ref sig .tc} (hr : r ∈ odS2Kept) :
    StableHlo.after (hostOps0_2 (F := F)) V (Proc.devRef .tc r) = V (Proc.devRef .tc r) :=
  StableHlo.after_of_forall_not_mem _ V (odS2_writes_none hr)

end Cert.KernelIdeal.Hand

end
-- ==== Proof.KI.OdCuts.lean ====
import proofs.«134848_j7748121002193_1_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev objCellOps : List (HloOp τ sig (Elt F)) :=
  ( StableHlo.nullary main_v38 (iotaInDim S8 32 0)
  :: StableHlo.unary main_v38 main_v39 (broadcastInDim S8x1 ![0] bcast_S8_S8x1_0 : (⟨S8, .i32⟩ : BufTy).Contents (Elt F) → (⟨S8x1, .i32⟩ : BufTy).Contents (Elt F))
  :: StableHlo.unary main_v39 main_v40 (broadcastInDim S8x64 ![0, 1] bcast_S8x1_S8x64_0_1 : (⟨S8x1, .i32⟩ : BufTy).Contents (Elt F) → (⟨S8x64, .i32⟩ : BufTy).Contents (Elt F))
  :: StableHlo.nullary main_cst_10 (constant S_ .f32 0x00000000#32)
  :: StableHlo.unary main_cst_10 main_v41 (broadcastInDim S8x6401 ![] bcast_S_S8x6401 : (⟨S_, .f32⟩ : BufTy).Contents (Elt F) → (⟨S8x6401, .f32⟩ : BufTy).Contents (Elt F))
  :: StableHlo.nullary main_c_11 (constantI S_ 32 0#32)
  :: StableHlo.unary main_c_11 main_v42 (broadcastInDim S8x64 ![] bcast_S_S8x64 : (⟨S_, .i32⟩ : BufTy).Contents (Elt F) → (⟨S8x64, .i32⟩ : BufTy).Contents (Elt F))
  :: StableHlo.binary main_v40 main_v42 main_v43 (cmpi .slt : (⟨S8x64, .i32⟩ : BufTy).Contents (Elt F) → (⟨S8x64, .i32⟩ : BufTy).Contents (Elt F) → (⟨S8x64, .i1⟩ : BufTy).Contents (Elt F))
  :: StableHlo.nullary main_c_12 (constantI S_ 32 8#32)
  :: StableHlo.unary main_c_12 main_v44 (broadcastInDim S8x64 ![] bcast_S_S8x64 : (⟨S_, .i32⟩ : BufTy).Contents (Elt F) → (⟨S8x64, .i32⟩ : BufTy).Contents (Elt F))
  :: StableHlo.binary main_v40 main_v44 main_v45 (addi : (⟨S8x64, .i32⟩ : BufTy).Contents (Elt F) → (⟨S8x64, .i32⟩ : BufTy).Contents (Elt F) → (⟨S8x64, .i32⟩ : BufTy).Contents (Elt F))
  :: StableHlo.ternary main_v43 main_v45 main_v40 main_v46 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F))
  :: StableHlo.nullary main_c_13 (constantI S_ 32 0#32)
  :: StableHlo.unary main_c_13 main_v47 (broadcastInDim S8x64 ![] bcast_S_S8x64 : (⟨S_, .i32⟩ : BufTy).Contents (Elt F) → (⟨S8x64, .i32⟩ : BufTy).Contents (Elt F))
  :: StableHlo.binary main_v37 main_v47 main_v48 (cmpi .slt : (⟨S8x64, .i32⟩ : BufTy).Contents (Elt F) → (⟨S8x64, .i32⟩ : BufTy).Contents (Elt F) → (⟨S8x64, .i1⟩ : BufTy).Contents (Elt F))
  :: StableHlo.nullary main_c_14 (constantI S_ 32 6401#32)
  :: StableHlo.unary main_c_14 main_v49 (broadcastInDim S8x64 ![] bcast_S_S8x64 : (⟨S_, .i32⟩ : BufTy).Contents (Elt F) → (⟨S8x64, .i32⟩ : BufTy).Contents (Elt F))
  :: StableHlo.binary main_v37 main_v49 main_v50 (addi : (⟨S8x64, .i32⟩ : BufTy).Contents (Elt F) → (⟨S8x64, .i32⟩ : BufTy).Contents (Elt F) → (⟨S8x64, .i32⟩ : BufTy).Contents (Elt F))
  :: StableHlo.ternary main_v48 main_v50 main_v37 main_v51 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F))
  :: StableHlo.unary main_v46 main_v52 (broadcastInDim S8x64x1 ![0, 1] bcast_S8x64_S8x64x1_0_1 : (⟨S8x64, .i32⟩ : BufTy).Contents (Elt F) → (⟨S8x64x1, .i32⟩ : BufTy).Contents (Elt F))
  :: StableHlo.unary main_v51 main_v53 (broadcastInDim S8x64x1 ![0, 1] bcast_S8x64_S8x64x1_0_1 : (⟨S8x64, .i32⟩ : BufTy).Contents (Elt F) → (⟨S8x64x1, .i32⟩ : BufTy).Contents (Elt F))
  :: [] )

abbrev objScatterOps : List (HloOp τ sig (Elt F)) :=
  ( StableHlo.binary main_v52 main_v53 main_v54 ((fun a b => concatenate S8x64x2 2 [⟨S8x64x1, a⟩, ⟨S8x64x1, b⟩] concatenates_S8x64x1_S8x64x1_S8x64x2_d2) : (⟨S8x64x1, .i32⟩ : BufTy).Contents (Elt F) → (⟨S8x64x1, .i32⟩ : BufTy).Contents (Elt F) → (⟨S8x64x2, .i32⟩ : BufTy).Contents (Elt F))
  :: StableHlo.nullary main_cst_15 (constant S_ .f32 0x3F800000#32)
  :: StableHlo.unary main_cst_15 main_v55 (broadcastInDim S8x64 ![] bcast_S_S8x64 : (⟨S_, .f32⟩ : BufTy).Contents (Elt F) → (⟨S8x64, .f32⟩ : BufTy).Contents (Elt F))
  :: StableHlo.ternary main_v41 main_v54 main_v55 main_v56 ((fun x i u => Host.scatter scatter_S8x6401_S8x64x2_S8x64_n_01_01_2 (fun _ b => b) x i u) : (⟨S8x6401, .f32⟩ : BufTy).Contents (Elt F) → (⟨S8x64x2, .i32⟩ : BufTy).Contents (Elt F) → (⟨S8x64, .f32⟩ : BufTy).Contents (Elt F) → (⟨S8x6401, .f32⟩ : BufTy).Contents (Elt F))
  :: StableHlo.unary main_v56 main_v57 ((extractStridedSlice S8x6400 ![0, 0] · slices_S8x6401_S8x6400_0_0) : (⟨S8x6401, .f32⟩ : BufTy).Contents (Elt F) → (⟨S8x6400, .f32⟩ : BufTy).Contents (Elt F))
  :: StableHlo.reshape main_v57 main_v58 rfl shapeCasts_S8x6400_S8x80x80
  :: [] )

abbrev boxCellOps : List (HloOp τ sig (Elt F)) :=
  ( StableHlo.nullary main_cst_16 (constant S_ .f32 0x00000000#32)
  :: StableHlo.unary main_cst_16 main_v59 (broadcastInDim S8x6401x4 ![] bcast_S_S8x6401x4 : (⟨S_, .f32⟩ : BufTy).Contents (Elt F) → (⟨S8x6401x4, .f32⟩ : BufTy).Contents (Elt F))
  :: StableHlo.nullary main_c_17 (constantI S_ 32 0#32)
  :: StableHlo.unary main_c_17 main_v60 (broadcastInDim S8x64 ![] bcast_S_S8x64 : (⟨S_, .i32⟩ : BufTy).Contents (Elt F) → (⟨S8x64, .i32⟩ : BufTy).Contents (Elt F))
  :: StableHlo.binary main_v40 main_v60 main_v61 (cmpi .slt : (⟨S8x64, .i32⟩ : BufTy).Contents (Elt F) → (⟨S8x64, .i32⟩ : BufTy).Contents (Elt F) → (⟨S8x64, .i1⟩ : BufTy).Contents (Elt F))
  :: StableHlo.nullary main_c_18 (constantI S_ 32 8#32)
  :: StableHlo.unary main_c_18 main_v62 (broadcastInDim S8x64 ![] bcast_S_S8x64 : (⟨S_, .i32⟩ : BufTy).Contents (Elt F) → (⟨S8x64, .i32⟩ : BufTy).Contents (Elt F))
  :: StableHlo.binary main_v40 main_v62 main_v63 (addi : (⟨S8x64, .i32⟩ : BufTy).Contents (Elt F) → (⟨S8x64, .i32⟩ : BufTy).Contents (Elt F) → (⟨S8x64, .i32⟩ : BufTy).Contents (Elt F))
  :: StableHlo.ternary main_v61 main_v63 main_v40 main_v64 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F))
  :: StableHlo.nullary main_c_19 (constantI S_ 32 0#32)
  :: StableHlo.unary main_c_19 main_v65 (broadcastInDim S8x64 ![] bcast_S_S8x64 : (⟨S_, .i32⟩ : BufTy).Contents (Elt F) → (⟨S8x64, .i32⟩ : BufTy).Contents (Elt F))
  :: StableHlo.binary main_v37 main_v65 main_v66 (cmpi .slt : (⟨S8x64, .i32⟩ : BufTy).Contents (Elt F) → (⟨S8x64, .i32⟩ : BufTy).Contents (Elt F) → (⟨S8x64, .i1⟩ : BufTy).Contents (Elt F))
  :: StableHlo.nullary main_c_20 (constantI S_ 32 6401#32)
  :: StableHlo.unary main_c_20 main_v67 (broadcastInDim S8x64 ![] bcast_S_S8x64 : (⟨S_, .i32⟩ : BufTy).Contents (Elt F) → (⟨S8x64, .i32⟩ : BufTy).Contents (Elt F))
  :: StableHlo.binary main_v37 main_v67 main_v68 (addi : (⟨S8x64, .i32⟩ : BufTy).Contents (Elt F) → (⟨S8x64, .i32⟩ : BufTy).Contents (Elt F) → (⟨S8x64, .i32⟩ : BufTy).Contents (Elt F))
  :: StableHlo.ternary main_v66 main_v68 main_v37 main_v69 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F))
  :: StableHlo.unary main_v64 main_v70 (broadcastInDim S8x64x1 ![0, 1] bcast_S8x64_S8x64x1_0_1 : (⟨S8x64, .i32⟩ : BufTy).Contents (Elt F) → (⟨S8x64x1, .i32⟩ : BufTy).Contents (Elt F))
  :: StableHlo.unary main_v69 main_v71 (broadcastInDim S8x64x1 ![0, 1] bcast_S8x64_S8x64x1_0_1 : (⟨S8x64, .i32⟩ : BufTy).Contents (Elt F) → (⟨S8x64x1, .i32⟩ : BufTy).Contents (Elt F))
  :: [] )

abbrev boxScatterOps : List (HloOp τ sig (Elt F)) :=
  ( StableHlo.binary main_v70 main_v71 main_v72 ((fun a b => concatenate S8x64x2 2 [⟨S8x64x1, a⟩, ⟨S8x64x1, b⟩] concatenates_S8x64x1_S8x64x1_S8x64x2_d2) : (⟨S8x64x1, .i32⟩ : BufTy).Contents (Elt F) → (⟨S8x64x1, .i32⟩ : BufTy).Contents (Elt F) → (⟨S8x64x2, .i32⟩ : BufTy).Contents (Elt F))
  :: StableHlo.ternary main_v59 main_v72 main_v4 main_v73 ((fun x i u => Host.scatter scatter_S8x6401x4_S8x64x2_S8x64x4_2_01_01_2 (fun _ b => b) x i u) : (⟨S8x6401x4, .f32⟩ : BufTy).Contents (Elt F) → (⟨S8x64x2, .i32⟩ : BufTy).Contents (Elt F) → (⟨S8x64x4, .f32⟩ : BufTy).Contents (Elt F) → (⟨S8x6401x4, .f32⟩ : BufTy).Contents (Elt F))
  :: StableHlo.unary main_v73 main_v74 ((extractStridedSlice S8x6400x4 ![0, 0, 0] · slices_S8x6401x4_S8x6400x4_0_0_0) : (⟨S8x6401x4, .f32⟩ : BufTy).Contents (Elt F) → (⟨S8x6400x4, .f32⟩ : BufTy).Contents (Elt F))
  :: StableHlo.reshape main_v74 main_v75 rfl shapeCasts_S8x6400x4_S8x80x80x4
  :: [] )

abbrev clsCellOps : List (HloOp τ sig (Elt F)) :=
  ( StableHlo.nullary main_c_21 (constantI S_ 32 0#32)
  :: StableHlo.unary main_c_21 main_v76 (broadcastInDim S8x6401 ![] bcast_S_S8x6401 : (⟨S_, .i32⟩ : BufTy).Contents (Elt F) → (⟨S8x6401, .i32⟩ : BufTy).Contents (Elt F))
  :: StableHlo.nullary main_c_22 (constantI S_ 32 0#32)
  :: StableHlo.unary main_c_22 main_v77 (broadcastInDim S8x64 ![] bcast_S_S8x64 : (⟨S_, .i32⟩ : BufTy).Contents (Elt F) → (⟨S8x64, .i32⟩ : BufTy).Contents (Elt F))
  :: StableHlo.binary main_v40 main_v77 main_v78 (cmpi .slt : (⟨S8x64, .i32⟩ : BufTy).Contents (Elt F) → (⟨S8x64, .i32⟩ : BufTy).Contents (Elt F) → (⟨S8x64, .i1⟩ : BufTy).Contents (Elt F))
  :: StableHlo.nullary main_c_23 (constantI S_ 32 8#32)
  :: StableHlo.unary main_c_23 main_v79 (broadcastInDim S8x64 ![] bcast_S_S8x64 : (⟨S_, .i32⟩ : BufTy).Contents (Elt F) → (⟨S8x64, .i32⟩ : BufTy).Contents (Elt F))
  :: StableHlo.binary main_v40 main_v79 main_v80 (addi : (⟨S8x64, .i32⟩ : BufTy).Contents (Elt F) → (⟨S8x64, .i32⟩ : BufTy).Contents (Elt F) → (⟨S8x64, .i32⟩ : BufTy).Contents (Elt F))
  :: StableHlo.ternary main_v78 main_v80 main_v40 main_v81 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F))
  :: StableHlo.nullary main_c_24 (constantI S_ 32 0#32)
  :: StableHlo.unary main_c_24 main_v82 (broadcastInDim S8x64 ![] bcast_S_S8x64 : (⟨S_, .i32⟩ : BufTy).Contents (Elt F) → (⟨S8x64, .i32⟩ : BufTy).Contents (Elt F))
  :: StableHlo.binary main_v37 main_v82 main_v83 (cmpi .slt : (⟨S8x64, .i32⟩ : BufTy).Contents (Elt F) → (⟨S8x64, .i32⟩ : BufTy).Contents (Elt F) → (⟨S8x64, .i1⟩ : BufTy).Contents (Elt F))
  :: StableHlo.nullary main_c_25 (constantI S_ 32 6401#32)
  :: StableHlo.unary main_c_25 main_v84 (broadcastInDim S8x64 ![] bcast_S_S8x64 : (⟨S_, .i32⟩ : BufTy).Contents (Elt F) → (⟨S8x64, .i32⟩ : BufTy).Contents (Elt F))
  :: StableHlo.binary main_v37 main_v84 main_v85 (addi : (⟨S8x64, .i32⟩ : BufTy).Contents (Elt F) → (⟨S8x64, .i32⟩ : BufTy).Contents (Elt F) → (⟨S8x64, .i32⟩ : BufTy).Contents (Elt F))
  :: StableHlo.ternary main_v83 main_v85 main_v37 main_v86 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F))
  :: StableHlo.unary main_v81 main_v87 (broadcastInDim S8x64x1 ![0, 1] bcast_S8x64_S8x64x1_0_1 : (⟨S8x64, .i32⟩ : BufTy).Contents (Elt F) → (⟨S8x64x1, .i32⟩ : BufTy).Contents (Elt F))
  :: StableHlo.unary main_v86 main_v88 (broadcastInDim S8x64x1 ![0, 1] bcast_S8x64_S8x64x1_0_1 : (⟨S8x64, .i32⟩ : BufTy).Contents (Elt F) → (⟨S8x64x1, .i32⟩ : BufTy).Contents (Elt F))
  :: [] )

abbrev clsScatterOps : List (HloOp τ sig (Elt F)) :=
  ( StableHlo.binary main_v87 main_v88 main_v89 ((fun a b => concatenate S8x64x2 2 [⟨S8x64x1, a⟩, ⟨S8x64x1, b⟩] concatenates_S8x64x1_S8x64x1_S8x64x2_d2) : (⟨S8x64x1, .i32⟩ : BufTy).Contents (Elt F) → (⟨S8x64x1, .i32⟩ : BufTy).Contents (Elt F) → (⟨S8x64x2, .i32⟩ : BufTy).Contents (Elt F))
  :: StableHlo.ternary main_v76 main_v89 main_v2 main_v90 ((fun x i u => Host.scatter scatter_S8x6401_S8x64x2_S8x64_n_01_01_2 (fun _ b => b) x i u) : (⟨S8x6401, .i32⟩ : BufTy).Contents (Elt F) → (⟨S8x64x2, .i32⟩ : BufTy).Contents (Elt F) → (⟨S8x64, .i32⟩ : BufTy).Contents (Elt F) → (⟨S8x6401, .i32⟩ : BufTy).Contents (Elt F))
  :: StableHlo.unary main_v90 main_v91 ((extractStridedSlice S8x6400 ![0, 0] · slices_S8x6401_S8x6400_0_0) : (⟨S8x6401, .i32⟩ : BufTy).Contents (Elt F) → (⟨S8x6400, .i32⟩ : BufTy).Contents (Elt F))
  :: StableHlo.reshape main_v91 main_v92 rfl shapeCasts_S8x6400_S8x80x80
  :: [] )

abbrev objLossOps : List (HloOp τ sig (Elt F)) :=
  ( StableHlo.nullary main_cst_26 (constant S_ .f32 0x00000000#32)
  :: StableHlo.unary main_cst_26 main_v93 (broadcastInDim S8x80x80 ![] bcast_S_S8x80x80 : (⟨S_, .f32⟩ : BufTy).Contents (Elt F) → (⟨S8x80x80, .f32⟩ : BufTy).Contents (Elt F))
  :: StableHlo.binary main_v58 main_v93 main_v94 (cmpf .ogt : (⟨S8x80x80, .f32⟩ : BufTy).Contents (Elt F) → (⟨S8x80x80, .f32⟩ : BufTy).Contents (Elt F) → (⟨S8x80x80, .i1⟩ : BufTy).Contents (Elt F))
  :: StableHlo.reshape main_v94 main_v95 rfl shapeCasts_S8x80x80_S8x6400
  :: StableHlo.unary main_v95 main_v96 ((extui 32 · natLt_1_32) : (⟨S8x6400, .i1⟩ : BufTy).Contents (Elt F) → (⟨S8x6400, .i32⟩ : BufTy).Contents (Elt F))
  :: StableHlo.nullary main_c_27 (constantI S_ 32 0#32)
  :: StableHlo.binary main_v96 main_c_27 main_v97 ((fun x v => Host.reduce IntOp.addi x v reducesTo_S8x6400_S8_d1 h_S_) : (⟨S8x6400, .i32⟩ : BufTy).Contents (Elt F) → (⟨S_, .i32⟩ : BufTy).Contents (Elt F) → (⟨S8, .i32⟩ : BufTy).Contents (Elt F))
  :: StableHlo.nullary main_c_28 (constantI S_ 32 1#32)
  :: StableHlo.unary main_c_28 main_v98 (broadcastInDim S8 ![] bcast_S_S8 : (⟨S_, .i32⟩ : BufTy).Contents (Elt F) → (⟨S8, .i32⟩ : BufTy).Contents (Elt F))
  :: StableHlo.binary main_v97 main_v98 main_v99 (maxsi : (⟨S8, .i32⟩ : BufTy).Contents (Elt F) → (⟨S8, .i32⟩ : BufTy).Contents (Elt F) → (⟨S8, .i32⟩ : BufTy).Contents (Elt F))
  :: StableHlo.unary main_v99 main_v100 (sitofp .f32 : (⟨S8, .i32⟩ : BufTy).Contents (Elt F) → (⟨S8, .f32⟩ : BufTy).Contents (Elt F))
  :: StableHlo.unary main_arg6 main_v101 (sitofp .f32 : (⟨S8, .i32⟩ : BufTy).Contents (Elt F) → (⟨S8, .f32⟩ : BufTy).Contents (Elt F))
  :: StableHlo.nullary main_cst_29 (constant S_ .f32 0x00000000#32)
  :: StableHlo.binary main_v101 main_cst_29 main_v102 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F))
  :: StableHlo.nullary main_cst_30 (constant S_ .f32 0x3F800000#32)
  :: StableHlo.binary main_v102 main_cst_30 main_v103 (maximumf : (⟨S_, .f32⟩ : BufTy).Contents (Elt F) → (⟨S_, .f32⟩ : BufTy).Contents (Elt F) → (⟨S_, .f32⟩ : BufTy).Contents (Elt F))
  :: StableHlo.unary main_arg0 main_v104 ((extractStridedSlice S8x1x80x80 ![0, 4, 0, 0] · slices_S8x15x80x80_S8x1x80x80_0_4_0_0) : (⟨S8x15x80x80, .f32⟩ : BufTy).Contents (Elt F) → (⟨S8x1x80x80, .f32⟩ : BufTy).Contents (Elt F))
  :: StableHlo.reshape main_v104 main_v105 rfl shapeCasts_S8x1x80x80_S8x80x80
  :: StableHlo.nullary main_cst_31 (constant S_ .f32 0x00000000#32)
  :: StableHlo.unary main_cst_31 main_v106 (broadcastInDim S8x80x80 ![] bcast_S_S8x80x80 : (⟨S_, .f32⟩ : BufTy).Contents (Elt F) → (⟨S8x80x80, .f32⟩ : BufTy).Contents (Elt F))
  :: StableHlo.binary main_v105 main_v106 main_v107 (maximumf : (⟨S8x80x80, .f32⟩ : BufTy).Contents (Elt F) → (⟨S8x80x80, .f32⟩ : BufTy).Contents (Elt F) → (⟨S8x80x80, .f32⟩ : BufTy).Contents (Elt F))
  :: StableHlo.binary main_v105 main_v58 main_v108 (mulf : (⟨S8x80x80, .f32⟩ : BufTy).Contents (Elt F) → (⟨S8x80x80, .f32⟩ : BufTy).Contents (Elt F) → (⟨S8x80x80, .f32⟩ : BufTy).Contents (Elt F))
  :: StableHlo.binary main_v107 main_v108 main_v109 (subf : (⟨S8x80x80, .f32⟩ : BufTy).Contents (Elt F) → (⟨S8x80x80, .f32⟩ : BufTy).Contents (Elt F) → (⟨S8x80x80, .f32⟩ : BufTy).Contents (Elt F))
  :: StableHlo.unary main_v105 main_v110 (Host.absf : (⟨S8x80x80, .f32⟩ : BufTy).Contents (Elt F) → (⟨S8x80x80, .f32⟩ : BufTy).Contents (Elt F))
  :: StableHlo.unary main_v110 main_v111 (Host.negf : (⟨S8x80x80, .f32⟩ : BufTy).Contents (Elt F) → (⟨S8x80x80, .f32⟩ : BufTy).Contents (Elt F))
  :: StableHlo.unary main_v111 main_v112 (Host.exp : (⟨S8x80x80, .f32⟩ : BufTy).Contents (Elt F) → (⟨S8x80x80, .f32⟩ : BufTy).Contents (Elt F))
  :: StableHlo.unary main_v112 main_v113 (Host.log1p : (⟨S8x80x80, .f32⟩ : BufTy).Contents (Elt F) → (⟨S8x80x80, .f32⟩ : BufTy).Contents (Elt F))
  :: StableHlo.binary main_v109 main_v113 main_v114 (addf : (⟨S8x80x80, .f32⟩ : BufTy).Contents (Elt F) → (⟨S8x80x80, .f32⟩ : BufTy).Contents (Elt F) → (⟨S8x80x80, .f32⟩ : BufTy).Contents (Elt F))
  :: StableHlo.reshape main_v114 main_v115 rfl shapeCasts_S8x80x80_S8x6400
  :: StableHlo.nullary main_cst_32 (constant S_ .f32 0x00000000#32)
  :: StableHlo.binary main_v115 main_cst_32 main_v116 ((fun x v => Host.reduceAdd x v reducesTo_S8x6400_S8_d1 h_S_) : (⟨S8x6400, .f32⟩ : BufTy).Contents (Elt F) → (⟨S_, .f32⟩ : BufTy).Contents (Elt F) → (⟨S8, .f32⟩ : BufTy).Contents (Elt F))
  :: StableHlo.nullary main_cst_33 (constant S_ .f32 0x45C80000#32)
  :: StableHlo.unary main_cst_33 main_v117 (broadcastInDim S8 ![] bcast_S_S8 : (⟨S_, .f32⟩ : BufTy).Contents (Elt F) → (⟨S8, .f32⟩ : BufTy).Contents (Elt F))
  :: StableHlo.binary main_v116 main_v117 main_v118 (Host.divf : (⟨S8, .f32⟩ : BufTy).Contents (Elt F) → (⟨S8, .f32⟩ : BufTy).Contents (Elt F) → (⟨S8, .f32⟩ : BufTy).Contents (Elt F))
  :: [] )

abbrev boxResidualOps : List (HloOp τ sig (Elt F)) :=
  ( StableHlo.unary main_arg0 main_v119 ((extractStridedSlice S8x4x80x80 ![0, 0, 0, 0] · slices_S8x15x80x80_S8x4x80x80_0_0_0_0) : (⟨S8x15x80x80, .f32⟩ : BufTy).Contents (Elt F) → (⟨S8x4x80x80, .f32⟩ : BufTy).Contents (Elt F))
  :: StableHlo.unary main_v119 main_v120 ((transpose S8x80x80x4 [0, 2, 3, 1] · transposes_S8x4x80x80_S8x80x80x4_0_2_3_1) : (⟨S8x4x80x80, .f32⟩ : BufTy).Contents (Elt F) → (⟨S8x80x80x4, .f32⟩ : BufTy).Contents (Elt F))
  :: StableHlo.unary main_v120 main_v121 (Host.negf : (⟨S8x80x80x4, .f32⟩ : BufTy).Contents (Elt F) → (⟨S8x80x80x4, .f32⟩ : BufTy).Contents (Elt F))
  :: StableHlo.unary main_v121 main_v122 (Host.exp : (⟨S8x80x80x4, .f32⟩ : BufTy).Contents (Elt F) → (⟨S8x80x80x4, .f32⟩ : BufTy).Contents (Elt F))
  :: StableHlo.nullary main_cst_34 (constant S_ .f32 0x3F800000#32)
  :: StableHlo.unary main_cst_34 main_v123 (broadcastInDim S8x80x80x4 ![] bcast_S_S8x80x80x4 : (⟨S_, .f32⟩ : BufTy).Contents (Elt F) → (⟨S8x80x80x4, .f32⟩ : BufTy).Contents (Elt F))
  :: StableHlo.binary main_v123 main_v122 main_v124 (addf : (⟨S8x80x80x4, .f32⟩ : BufTy).Contents (Elt F) → (⟨S8x80x80x4, .f32⟩ : BufTy).Contents (Elt F) → (⟨S8x80x80x4, .f32⟩ : BufTy).Contents (Elt F))
  :: StableHlo.nullary main_cst_35 (constant S_ .f32 0x3F800000#32)
  :: StableHlo.unary main_cst_35 main_v125 (broadcastInDim S8x80x80x4 ![] bcast_S_S8x80x80x4 : (⟨S_, .f32⟩ : BufTy).Contents (Elt F) → (⟨S8x80x80x4, .f32⟩ : BufTy).Contents (Elt F))
  :: StableHlo.binary main_v125 main_v124 main_v126 (Host.divf : (⟨S8x80x80x4, .f32⟩ : BufTy).Contents (Elt F) → (⟨S8x80x80x4, .f32⟩ : BufTy).Contents (Elt F) → (⟨S8x80x80x4, .f32⟩ : BufTy).Contents (Elt F))
  :: StableHlo.binary main_v126 main_v75 main_v127 (subf : (⟨S8x80x80x4, .f32⟩ : BufTy).Contents (Elt F) → (⟨S8x80x80x4, .f32⟩ : BufTy).Contents (Elt F) → (⟨S8x80x80x4, .f32⟩ : BufTy).Contents (Elt F))
  :: StableHlo.unary main_v127 main_v128 (Host.absf : (⟨S8x80x80x4, .f32⟩ : BufTy).Contents (Elt F) → (⟨S8x80x80x4, .f32⟩ : BufTy).Contents (Elt F))
  :: StableHlo.nullary main_cst_36 (constant S_ .f32 0x3F800000#32)
  :: StableHlo.unary main_cst_36 main_v129 (broadcastInDim S8x80x80x4 ![] bcast_S_S8x80x80x4 : (⟨S_, .f32⟩ : BufTy).Contents (Elt F) → (⟨S8x80x80x4, .f32⟩ : BufTy).Contents (Elt F))
  :: StableHlo.binary main_v128 main_v129 main_v130 (cmpf .olt : (⟨S8x80x80x4, .f32⟩ : BufTy).Contents (Elt F) → (⟨S8x80x80x4, .f32⟩ : BufTy).Contents (Elt F) → (⟨S8x80x80x4, .i1⟩ : BufTy).Contents (Elt F))
  :: StableHlo.nullary main_cst_37 (constant S_ .f32 0x3F000000#32)
  :: StableHlo.unary main_cst_37 main_v131 (broadcastInDim S8x80x80x4 ![] bcast_S_S8x80x80x4 : (⟨S_, .f32⟩ : BufTy).Contents (Elt F) → (⟨S8x80x80x4, .f32⟩ : BufTy).Contents (Elt F))
  :: StableHlo.binary main_v131 main_v128 main_v132 (mulf : (⟨S8x80x80x4, .f32⟩ : BufTy).Contents (Elt F) → (⟨S8x80x80x4, .f32⟩ : BufTy).Contents (Elt F) → (⟨S8x80x80x4, .f32⟩ : BufTy).Contents (Elt F))
  :: StableHlo.binary main_v132 main_v128 main_v133 (mulf : (⟨S8x80x80x4, .f32⟩ : BufTy).Contents (Elt F) → (⟨S8x80x80x4, .f32⟩ : BufTy).Contents (Elt F) → (⟨S8x80x80x4, .f32⟩ : BufTy).Contents (Elt F))
  :: StableHlo.nullary main_cst_38 (constant S_ .f32 0x3F000000#32)
  :: StableHlo.unary main_cst_38 main_v134 (broadcastInDim S8x80x80x4 ![] bcast_S_S8x80x80x4 : (⟨S_, .f32⟩ : BufTy).Contents (Elt F) → (⟨S8x80x80x4, .f32⟩ : BufTy).Contents (Elt F))
  :: StableHlo.binary main_v128 main_v134 main_v135 (subf : (⟨S8x80x80x4, .f32⟩ : BufTy).Contents (Elt F) → (⟨S8x80x80x4, .f32⟩ : BufTy).Contents (Elt F) → (⟨S8x80x80x4, .f32⟩ : BufTy).Contents (Elt F))
  :: [] )

set_option maxHeartbeats 4000000 in

theorem hostOps0_4_eq_pieces :
    (hostOps0_4 : List (HloOp τ sig (Elt F)))
      = objCellOps ++ (objScatterOps ++ (boxCellOps ++ (boxScatterOps ++ (clsCellOps ++ (clsScatterOps ++ (objLossOps ++ (boxResidualOps))))))) := rfl

end Cert.KernelIdeal.Hand

end
-- ==== Proof.KI.OdObjScatter.lean ====
import proofs.«134848_j7748121002193_1_alg».proof.Proof.Gen.KernelIdeal.Launch
import proofs.«134848_j7748121002193_1_alg».proof.Proof.RefStages
import Idealize.ShloMosaic.Lib.StableHlo.Run
import proofs.«134848_j7748121002193_1_alg».proof.Proof.KI.OdCuts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem odS4a_main_v40 (V : Valuation τ sig (Elt F)) :
    StableHlo.after (objCellOps (F := F)) V (Proc.devRef .tc main_v40) = Cert.ReferenceIdeal.ReadP.val_main_v40 (F := F) := by
  after_results_simp
  rfl

theorem odS4a_main_v41 (V : Valuation τ sig (Elt F)) :
    StableHlo.after (objCellOps (F := F)) V (Proc.devRef .tc main_v41) = Cert.ReferenceIdeal.ReadP.val_main_v41 (F := F) := by
  after_results_simp
  rfl

theorem odS4a_main_v52 (V : Valuation τ sig (Elt F)) :
    StableHlo.after (objCellOps (F := F)) V (Proc.devRef .tc main_v52) = Cert.ReferenceIdeal.ReadP.val_main_v52 (F := F) := by
  after_results_simp
  rfl

theorem odS4a_main_v53 (V : Valuation τ sig (Elt F)) (x1 : (⟨Cert.ReferenceIdeal.S8x64x5, .f32⟩ : BufTy).Contents (Elt F))
    (h_main_v37 : V (Proc.devRef .tc main_v37) = Cert.ReferenceIdeal.ReadP.val_main_v37 (F := F) x1) :
    StableHlo.after (objCellOps (F := F)) V (Proc.devRef .tc main_v53) = Cert.ReferenceIdeal.ReadP.val_main_v53 (F := F) x1 := by
  after_results_simp
  rw [h_main_v37]
  rfl

def odS4aKept : List (Ref sig .tc) := [main_v37, main_v4, main_v2, main_arg6, main_arg0]

theorem odS4a_writes_none {r : Ref sig .tc} (hr : r ∈ odS4aKept) :
    ∀ op ∈ (objCellOps : List (HloOp τ sig (Elt F))), Proc.devRef (τ := τ) .tc r ∉ op.writes :=
  List.forall_iff_forall_mem.mp (by
    simp only [objCellOps, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem odS4a_kept (V : Valuation τ sig (Elt F)) {r : Ref sig .tc} (hr : r ∈ odS4aKept) :
    StableHlo.after (objCellOps (F := F)) V (Proc.devRef .tc r) = V (Proc.devRef .tc r) :=
  StableHlo.after_of_forall_not_mem _ V (odS4a_writes_none hr)

theorem odS4b_main_v58 (V : Valuation τ sig (Elt F)) (x1 : (⟨Cert.ReferenceIdeal.S8x64x5, .f32⟩ : BufTy).Contents (Elt F))
    (h_main_v41 : V (Proc.devRef .tc main_v41) = Cert.ReferenceIdeal.ReadP.val_main_v41 (F := F))
    (h_main_v52 : V (Proc.devRef .tc main_v52) = Cert.ReferenceIdeal.ReadP.val_main_v52 (F := F))
    (h_main_v53 : V (Proc.devRef .tc main_v53) = Cert.ReferenceIdeal.ReadP.val_main_v53 (F := F) x1) :
    StableHlo.after (objScatterOps (F := F)) V (Proc.devRef .tc main_v58) = Cert.ReferenceIdeal.ReadP.val_main_v58 (F := F) x1 := by
  after_results_simp
  rw [h_main_v41, h_main_v52, h_main_v53]
  rfl

def odS4bKept : List (Ref sig .tc) := [main_v40, main_v37, main_v4, main_v2, main_arg6, main_arg0]

theorem odS4b_writes_none {r : Ref sig .tc} (hr : r ∈ odS4bKept) :
    ∀ op ∈ (objScatterOps : List (HloOp τ sig (Elt F))), Proc.devRef (τ := τ) .tc r ∉ op.writes :=
  List.forall_iff_forall_mem.mp (by
    simp only [objScatterOps, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem odS4b_kept (V : Valuation τ sig (Elt F)) {r : Ref sig .tc} (hr : r ∈ odS4bKept) :
    StableHlo.after (objScatterOps (F := F)) V (Proc.devRef .tc r) = V (Proc.devRef .tc r) :=
  StableHlo.after_of_forall_not_mem _ V (odS4b_writes_none hr)

end Cert.KernelIdeal.Hand

end
-- ==== Proof.KI.OdBoxScatter.lean ====
import proofs.«134848_j7748121002193_1_alg».proof.Proof.Gen.KernelIdeal.Launch
import proofs.«134848_j7748121002193_1_alg».proof.Proof.RefStages
import Idealize.ShloMosaic.Lib.StableHlo.Run
import proofs.«134848_j7748121002193_1_alg».proof.Proof.KI.OdCuts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem odS4c_main_v59 (V : Valuation τ sig (Elt F)) :
    StableHlo.after (boxCellOps (F := F)) V (Proc.devRef .tc main_v59) = Cert.ReferenceIdeal.ReadP.val_main_v59 (F := F) := by
  after_results_simp
  rfl

theorem odS4c_main_v70 (V : Valuation τ sig (Elt F))
    (h_main_v40 : V (Proc.devRef .tc main_v40) = Cert.ReferenceIdeal.ReadP.val_main_v40 (F := F)) :
    StableHlo.after (boxCellOps (F := F)) V (Proc.devRef .tc main_v70) = Cert.ReferenceIdeal.ReadP.val_main_v70 (F := F) := by
  after_results_simp
  rw [h_main_v40]
  rfl

theorem odS4c_main_v71 (V : Valuation τ sig (Elt F)) (x1 : (⟨Cert.ReferenceIdeal.S8x64x5, .f32⟩ : BufTy).Contents (Elt F))
    (h_main_v37 : V (Proc.devRef .tc main_v37) = Cert.ReferenceIdeal.ReadP.val_main_v37 (F := F) x1) :
    StableHlo.after (boxCellOps (F := F)) V (Proc.devRef .tc main_v71) = Cert.ReferenceIdeal.ReadP.val_main_v71 (F := F) x1 := by
  after_results_simp
  rw [h_main_v37]
  rfl

def odS4cKept : List (Ref sig .tc) := [main_v4, main_v40, main_v37, main_v2, main_v58, main_arg6, main_arg0]

theorem odS4c_writes_none {r : Ref sig .tc} (hr : r ∈ odS4cKept) :
    ∀ op ∈ (boxCellOps : List (HloOp τ sig (Elt F))), Proc.devRef (τ := τ) .tc r ∉ op.writes :=
  List.forall_iff_forall_mem.mp (by
    simp only [boxCellOps, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem odS4c_kept (V : Valuation τ sig (Elt F)) {r : Ref sig .tc} (hr : r ∈ odS4cKept) :
    StableHlo.after (boxCellOps (F := F)) V (Proc.devRef .tc r) = V (Proc.devRef .tc r) :=
  StableHlo.after_of_forall_not_mem _ V (odS4c_writes_none hr)

theorem odS4d_main_v75 (V : Valuation τ sig (Elt F)) (x1 : (⟨Cert.ReferenceIdeal.S8x64x5, .f32⟩ : BufTy).Contents (Elt F))
    (h_main_v59 : V (Proc.devRef .tc main_v59) = Cert.ReferenceIdeal.ReadP.val_main_v59 (F := F))
    (h_main_v70 : V (Proc.devRef .tc main_v70) = Cert.ReferenceIdeal.ReadP.val_main_v70 (F := F))
    (h_main_v71 : V (Proc.devRef .tc main_v71) = Cert.ReferenceIdeal.ReadP.val_main_v71 (F := F) x1)
    (h_main_v4 : V (Proc.devRef .tc main_v4) = Cert.ReferenceIdeal.ReadP.val_main_v4 (F := F) x1) :
    StableHlo.after (boxScatterOps (F := F)) V (Proc.devRef .tc main_v75) = Cert.ReferenceIdeal.ReadP.val_main_v75 (F := F) x1 := by
  after_results_simp
  rw [h_main_v59, h_main_v70, h_main_v71, h_main_v4]
  rfl

def odS4dKept : List (Ref sig .tc) := [main_v40, main_v37, main_v2, main_v58, main_arg6, main_arg0]

theorem odS4d_writes_none {r : Ref sig .tc} (hr : r ∈ odS4dKept) :
    ∀ op ∈ (boxScatterOps : List (HloOp τ sig (Elt F))), Proc.devRef (τ := τ) .tc r ∉ op.writes :=
  List.forall_iff_forall_mem.mp (by
    simp only [boxScatterOps, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem odS4d_kept (V : Valuation τ sig (Elt F)) {r : Ref sig .tc} (hr : r ∈ odS4dKept) :
    StableHlo.after (boxScatterOps (F := F)) V (Proc.devRef .tc r) = V (Proc.devRef .tc r) :=
  StableHlo.after_of_forall_not_mem _ V (odS4d_writes_none hr)

end Cert.KernelIdeal.Hand

end
-- ==== Proof.KI.OdClsScatter.lean ====
import proofs.«134848_j7748121002193_1_alg».proof.Proof.Gen.KernelIdeal.Launch
import proofs.«134848_j7748121002193_1_alg».proof.Proof.RefStages
import Idealize.ShloMosaic.Lib.StableHlo.Run
import proofs.«134848_j7748121002193_1_alg».proof.Proof.KI.OdCuts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem odS4e_main_v76 (V : Valuation τ sig (Elt F)) :
    StableHlo.after (clsCellOps (F := F)) V (Proc.devRef .tc main_v76) = Cert.ReferenceIdeal.ReadP.val_main_v76 (F := F) := by
  after_results_simp
  rfl

theorem odS4e_main_v87 (V : Valuation τ sig (Elt F))
    (h_main_v40 : V (Proc.devRef .tc main_v40) = Cert.ReferenceIdeal.ReadP.val_main_v40 (F := F)) :
    StableHlo.after (clsCellOps (F := F)) V (Proc.devRef .tc main_v87) = Cert.ReferenceIdeal.ReadP.val_main_v87 (F := F) := by
  after_results_simp
  rw [h_main_v40]
  rfl

theorem odS4e_main_v88 (V : Valuation τ sig (Elt F)) (x1 : (⟨Cert.ReferenceIdeal.S8x64x5, .f32⟩ : BufTy).Contents (Elt F))
    (h_main_v37 : V (Proc.devRef .tc main_v37) = Cert.ReferenceIdeal.ReadP.val_main_v37 (F := F) x1) :
    StableHlo.after (clsCellOps (F := F)) V (Proc.devRef .tc main_v88) = Cert.ReferenceIdeal.ReadP.val_main_v88 (F := F) x1 := by
  after_results_simp
  rw [h_main_v37]
  rfl

def odS4eKept : List (Ref sig .tc) := [main_v2, main_v58, main_arg6, main_arg0, main_v75]

theorem odS4e_writes_none {r : Ref sig .tc} (hr : r ∈ odS4eKept) :
    ∀ op ∈ (clsCellOps : List (HloOp τ sig (Elt F))), Proc.devRef (τ := τ) .tc r ∉ op.writes :=
  List.forall_iff_forall_mem.mp (by
    simp only [clsCellOps, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem odS4e_kept (V : Valuation τ sig (Elt F)) {r : Ref sig .tc} (hr : r ∈ odS4eKept) :
    StableHlo.after (clsCellOps (F := F)) V (Proc.devRef .tc r) = V (Proc.devRef .tc r) :=
  StableHlo.after_of_forall_not_mem _ V (odS4e_writes_none hr)

theorem odS4f_main_v92 (V : Valuation τ sig (Elt F)) (x1 : (⟨Cert.ReferenceIdeal.S8x64x5, .f32⟩ : BufTy).Contents (Elt F))
    (h_main_v76 : V (Proc.devRef .tc main_v76) = Cert.ReferenceIdeal.ReadP.val_main_v76 (F := F))
    (h_main_v87 : V (Proc.devRef .tc main_v87) = Cert.ReferenceIdeal.ReadP.val_main_v87 (F := F))
    (h_main_v88 : V (Proc.devRef .tc main_v88) = Cert.ReferenceIdeal.ReadP.val_main_v88 (F := F) x1)
    (h_main_v2 : V (Proc.devRef .tc main_v2) = Cert.ReferenceIdeal.ReadP.val_main_v2 (F := F) x1) :
    StableHlo.after (clsScatterOps (F := F)) V (Proc.devRef .tc main_v92) = Cert.ReferenceIdeal.ReadP.val_main_v92 (F := F) x1 := by
  after_results_simp
  rw [h_main_v76, h_main_v87, h_main_v88, h_main_v2]
  rfl

def odS4fKept : List (Ref sig .tc) := [main_v58, main_arg6, main_arg0, main_v75]

theorem odS4f_writes_none {r : Ref sig .tc} (hr : r ∈ odS4fKept) :
    ∀ op ∈ (clsScatterOps : List (HloOp τ sig (Elt F))), Proc.devRef (τ := τ) .tc r ∉ op.writes :=
  List.forall_iff_forall_mem.mp (by
    simp only [clsScatterOps, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem odS4f_kept (V : Valuation τ sig (Elt F)) {r : Ref sig .tc} (hr : r ∈ odS4fKept) :
    StableHlo.after (clsScatterOps (F := F)) V (Proc.devRef .tc r) = V (Proc.devRef .tc r) :=
  StableHlo.after_of_forall_not_mem _ V (odS4f_writes_none hr)

end Cert.KernelIdeal.Hand

end
-- ==== Proof.KI.OdObjLoss.lean ====
import proofs.«134848_j7748121002193_1_alg».proof.Proof.Gen.KernelIdeal.Launch
import proofs.«134848_j7748121002193_1_alg».proof.Proof.RefStages
import Idealize.ShloMosaic.Lib.StableHlo.Run
import proofs.«134848_j7748121002193_1_alg».proof.Proof.KI.OdCuts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem odS4g_main_v94 (V : Valuation τ sig (Elt F)) (x1 : (⟨Cert.ReferenceIdeal.S8x64x5, .f32⟩ : BufTy).Contents (Elt F))
    (h_main_v58 : V (Proc.devRef .tc main_v58) = Cert.ReferenceIdeal.ReadP.val_main_v58 (F := F) x1) :
    StableHlo.after (objLossOps (F := F)) V (Proc.devRef .tc main_v94) = Cert.ReferenceIdeal.ReadP.val_main_v94 (F := F) x1 := by
  after_results_simp
  rw [h_main_v58]
  rfl

theorem odS4g_main_v100 (V : Valuation τ sig (Elt F)) (x1 : (⟨Cert.ReferenceIdeal.S8x64x5, .f32⟩ : BufTy).Contents (Elt F))
    (h_main_v58 : V (Proc.devRef .tc main_v58) = Cert.ReferenceIdeal.ReadP.val_main_v58 (F := F) x1) :
    StableHlo.after (objLossOps (F := F)) V (Proc.devRef .tc main_v100) = Cert.ReferenceIdeal.ReadP.val_main_v100 (F := F) x1 := by
  after_results_simp
  rw [h_main_v58]
  rfl

theorem odS4g_main_v101 (V : Valuation τ sig (Elt F)) (x6 : (⟨Cert.ReferenceIdeal.S8, .i32⟩ : BufTy).Contents (Elt F))
    (h_main_arg6 : V (Proc.devRef .tc main_arg6) = x6) :
    StableHlo.after (objLossOps (F := F)) V (Proc.devRef .tc main_v101) = Cert.ReferenceIdeal.ReadP.val_main_v101 (F := F) x6 := by
  after_results_simp
  rw [h_main_arg6]
  rfl

theorem odS4g_main_v103 (V : Valuation τ sig (Elt F)) (x6 : (⟨Cert.ReferenceIdeal.S8, .i32⟩ : BufTy).Contents (Elt F))
    (h_main_arg6 : V (Proc.devRef .tc main_arg6) = x6) :
    StableHlo.after (objLossOps (F := F)) V (Proc.devRef .tc main_v103) = Cert.ReferenceIdeal.ReadP.val_main_v103 (F := F) x6 := by
  after_results_simp
  rw [h_main_arg6]
  rfl

theorem odS4g_main_v118 (V : Valuation τ sig (Elt F)) (x0 : (⟨Cert.ReferenceIdeal.S8x15x80x80, .f32⟩ : BufTy).Contents (Elt F)) (x1 : (⟨Cert.ReferenceIdeal.S8x64x5, .f32⟩ : BufTy).Contents (Elt F))
    (h_main_arg0 : V (Proc.devRef .tc main_arg0) = x0)
    (h_main_v58 : V (Proc.devRef .tc main_v58) = Cert.ReferenceIdeal.ReadP.val_main_v58 (F := F) x1) :
    StableHlo.after (objLossOps (F := F)) V (Proc.devRef .tc main_v118) = Cert.ReferenceIdeal.ReadP.val_main_v118 (F := F) x0 x1 := by
  after_results_simp
  rw [h_main_arg0, h_main_v58]
  rfl

def odS4gKept : List (Ref sig .tc) := [main_arg0, main_v75, main_v92]

theorem odS4g_writes_none {r : Ref sig .tc} (hr : r ∈ odS4gKept) :
    ∀ op ∈ (objLossOps : List (HloOp τ sig (Elt F))), Proc.devRef (τ := τ) .tc r ∉ op.writes :=
  List.forall_iff_forall_mem.mp (by
    simp only [objLossOps, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem odS4g_kept (V : Valuation τ sig (Elt F)) {r : Ref sig .tc} (hr : r ∈ odS4gKept) :
    StableHlo.after (objLossOps (F := F)) V (Proc.devRef .tc r) = V (Proc.devRef .tc r) :=
  StableHlo.after_of_forall_not_mem _ V (odS4g_writes_none hr)

end Cert.KernelIdeal.Hand

end
-- ==== Proof.KI.OdBoxResidual.lean ====
import proofs.«134848_j7748121002193_1_alg».proof.Proof.Gen.KernelIdeal.Launch
import proofs.«134848_j7748121002193_1_alg».proof.Proof.RefStages
import Idealize.ShloMosaic.Lib.StableHlo.Run
import proofs.«134848_j7748121002193_1_alg».proof.Proof.KI.OdCuts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem odS4h_main_v130 (V : Valuation τ sig (Elt F)) (x0 : (⟨Cert.ReferenceIdeal.S8x15x80x80, .f32⟩ : BufTy).Contents (Elt F)) (x1 : (⟨Cert.ReferenceIdeal.S8x64x5, .f32⟩ : BufTy).Contents (Elt F))
    (h_main_arg0 : V (Proc.devRef .tc main_arg0) = x0)
    (h_main_v75 : V (Proc.devRef .tc main_v75) = Cert.ReferenceIdeal.ReadP.val_main_v75 (F := F) x1) :
    StableHlo.after (boxResidualOps (F := F)) V (Proc.devRef .tc main_v130) = Cert.ReferenceIdeal.ReadP.val_main_v130 (F := F) x0 x1 := by
  after_results_simp
  rw [h_main_arg0, h_main_v75]
  rfl

theorem odS4h_main_v133 (V : Valuation τ sig (Elt F)) (x0 : (⟨Cert.ReferenceIdeal.S8x15x80x80, .f32⟩ : BufTy).Contents (Elt F)) (x1 : (⟨Cert.ReferenceIdeal.S8x64x5, .f32⟩ : BufTy).Contents (Elt F))
    (h_main_arg0 : V (Proc.devRef .tc main_arg0) = x0)
    (h_main_v75 : V (Proc.devRef .tc main_v75) = Cert.ReferenceIdeal.ReadP.val_main_v75 (F := F) x1) :
    StableHlo.after (boxResidualOps (F := F)) V (Proc.devRef .tc main_v133) = Cert.ReferenceIdeal.ReadP.val_main_v133 (F := F) x0 x1 := by
  after_results_simp
  rw [h_main_arg0, h_main_v75]
  rfl

theorem odS4h_main_v135 (V : Valuation τ sig (Elt F)) (x0 : (⟨Cert.ReferenceIdeal.S8x15x80x80, .f32⟩ : BufTy).Contents (Elt F)) (x1 : (⟨Cert.ReferenceIdeal.S8x64x5, .f32⟩ : BufTy).Contents (Elt F))
    (h_main_arg0 : V (Proc.devRef .tc main_arg0) = x0)
    (h_main_v75 : V (Proc.devRef .tc main_v75) = Cert.ReferenceIdeal.ReadP.val_main_v75 (F := F) x1) :
    StableHlo.after (boxResidualOps (F := F)) V (Proc.devRef .tc main_v135) = Cert.ReferenceIdeal.ReadP.val_main_v135 (F := F) x0 x1 := by
  after_results_simp
  rw [h_main_arg0, h_main_v75]
  rfl

def odS4hKept : List (Ref sig .tc) := [main_v94, main_v100, main_arg0, main_v92, main_v118, main_v101, main_v103]

theorem odS4h_writes_none {r : Ref sig .tc} (hr : r ∈ odS4hKept) :
    ∀ op ∈ (boxResidualOps : List (HloOp τ sig (Elt F))), Proc.devRef (τ := τ) .tc r ∉ op.writes :=
  List.forall_iff_forall_mem.mp (by
    simp only [boxResidualOps, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem odS4h_kept (V : Valuation τ sig (Elt F)) {r : Ref sig .tc} (hr : r ∈ odS4hKept) :
    StableHlo.after (boxResidualOps (F := F)) V (Proc.devRef .tc r) = V (Proc.devRef .tc r) :=
  StableHlo.after_of_forall_not_mem _ V (odS4h_writes_none hr)

end Cert.KernelIdeal.Hand

end
-- ==== Proof.KI.OdBoxLoss.lean ====
import proofs.«134848_j7748121002193_1_alg».proof.Proof.Gen.KernelIdeal.Launch
import proofs.«134848_j7748121002193_1_alg».proof.Proof.RefStages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem odS5_main_v136 (V : Valuation τ sig (Elt F)) (x0 : (⟨Cert.ReferenceIdeal.S8x15x80x80, .f32⟩ : BufTy).Contents (Elt F)) (x1 : (⟨Cert.ReferenceIdeal.S8x64x5, .f32⟩ : BufTy).Contents (Elt F))
    (h_main_v130 : V (Proc.devRef .tc main_v130) = Cert.ReferenceIdeal.ReadP.val_main_v130 (F := F) x0 x1)
    (h_main_v133 : V (Proc.devRef .tc main_v133) = Cert.ReferenceIdeal.ReadP.val_main_v133 (F := F) x0 x1)
    (h_main_v135 : V (Proc.devRef .tc main_v135) = Cert.ReferenceIdeal.ReadP.val_main_v135 (F := F) x0 x1) :
    StableHlo.after (hostOps0_5 (F := F)) V (Proc.devRef .tc main_v136) = Cert.ReferenceIdeal.ReadP.val_main_v136 (F := F) x0 x1 := by
  after_results_simp
  rw [h_main_v130, h_main_v133, h_main_v135]
  (try simp only [StableHlo.TRef.ofBuf, StableHlo.TRef.toBuf, cast_eq])
  rfl

def odS5Kept : List (Ref sig .tc) := [main_v94, main_v100, main_arg0, main_v92, main_v118, main_v101, main_v103]

theorem odS5_writes_none {r : Ref sig .tc} (hr : r ∈ odS5Kept) :
    ∀ op ∈ (hostOps0_5 : List (HloOp τ sig (Elt F))), Proc.devRef (τ := τ) .tc r ∉ op.writes :=
  List.forall_iff_forall_mem.mp (by
    simp only [hostOps0_5, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem odS5_kept (V : Valuation τ sig (Elt F)) {r : Ref sig .tc} (hr : r ∈ odS5Kept) :
    StableHlo.after (hostOps0_5 (F := F)) V (Proc.devRef .tc r) = V (Proc.devRef .tc r) :=
  StableHlo.after_of_forall_not_mem _ V (odS5_writes_none hr)

theorem odS6_main_v145 (V : Valuation τ sig (Elt F)) (x0 : (⟨Cert.ReferenceIdeal.S8x15x80x80, .f32⟩ : BufTy).Contents (Elt F)) (x1 : (⟨Cert.ReferenceIdeal.S8x64x5, .f32⟩ : BufTy).Contents (Elt F))
    (h_main_v136 : V (Proc.devRef .tc main_v136) = Cert.ReferenceIdeal.ReadP.val_main_v136 (F := F) x0 x1)
    (h_main_v94 : V (Proc.devRef .tc main_v94) = Cert.ReferenceIdeal.ReadP.val_main_v94 (F := F) x1)
    (h_main_v100 : V (Proc.devRef .tc main_v100) = Cert.ReferenceIdeal.ReadP.val_main_v100 (F := F) x1) :
    StableHlo.after (hostOps0_6 (F := F)) V (Proc.devRef .tc main_v145) = Cert.ReferenceIdeal.ReadP.val_main_v145 (F := F) x0 x1 := by
  after_results_simp
  rw [h_main_v136, h_main_v94, h_main_v100]
  rfl

theorem odS6_main_v146 (V : Valuation τ sig (Elt F)) (x0 : (⟨Cert.ReferenceIdeal.S8x15x80x80, .f32⟩ : BufTy).Contents (Elt F))
    (h_main_arg0 : V (Proc.devRef .tc main_arg0) = x0) :
    StableHlo.after (hostOps0_6 (F := F)) V (Proc.devRef .tc main_v146) = Cert.ReferenceIdeal.ReadP.val_main_v146 (F := F) x0 := by
  after_results_simp
  rw [h_main_arg0]
  rfl

def odS6Kept : List (Ref sig .tc) := [main_v92, main_v94, main_v100, main_v118, main_v101, main_v103]

theorem odS6_writes_none {r : Ref sig .tc} (hr : r ∈ odS6Kept) :
    ∀ op ∈ (hostOps0_6 : List (HloOp τ sig (Elt F))), Proc.devRef (τ := τ) .tc r ∉ op.writes :=
  List.forall_iff_forall_mem.mp (by
    simp only [hostOps0_6, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem odS6_kept (V : Valuation τ sig (Elt F)) {r : Ref sig .tc} (hr : r ∈ odS6Kept) :
    StableHlo.after (hostOps0_6 (F := F)) V (Proc.devRef .tc r) = V (Proc.devRef .tc r) :=
  StableHlo.after_of_forall_not_mem _ V (odS6_writes_none hr)

theorem odS8_main_v148 (V : Valuation τ sig (Elt F)) (x1 : (⟨Cert.ReferenceIdeal.S8x64x5, .f32⟩ : BufTy).Contents (Elt F))
    (h_main_v92 : V (Proc.devRef .tc main_v92) = Cert.ReferenceIdeal.ReadP.val_main_v92 (F := F) x1) :
    StableHlo.after (hostOps0_8 (F := F)) V (Proc.devRef .tc main_v148) = Cert.ReferenceIdeal.ReadP.val_main_v148 (F := F) x1 := by
  after_results_simp
  rw [h_main_v92]
  rfl

def odS8Kept : List (Ref sig .tc) := [main_v147, main_v94, main_v100, main_v118, main_v145, main_v101, main_v103]

theorem odS8_writes_none {r : Ref sig .tc} (hr : r ∈ odS8Kept) :
    ∀ op ∈ (hostOps0_8 : List (HloOp τ sig (Elt F))), Proc.devRef (τ := τ) .tc r ∉ op.writes :=
  List.forall_iff_forall_mem.mp (by
    simp only [hostOps0_8, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem odS8_kept (V : Valuation τ sig (Elt F)) {r : Ref sig .tc} (hr : r ∈ odS8Kept) :
    StableHlo.after (hostOps0_8 (F := F)) V (Proc.devRef .tc r) = V (Proc.devRef .tc r) :=
  StableHlo.after_of_forall_not_mem _ V (odS8_writes_none hr)

end Cert.KernelIdeal.Hand

end
-- ==== Proof.KI.OdLogSoftmax.lean ====
import proofs.«134848_j7748121002193_1_alg».proof.Proof.Gen.KernelIdeal.Launch
import proofs.«134848_j7748121002193_1_alg».proof.Proof.RefStages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem odS7_main_v147 (V : Valuation τ sig (Elt F)) (x0 : (⟨Cert.ReferenceIdeal.S8x15x80x80, .f32⟩ : BufTy).Contents (Elt F))
    (h_main_v146 : V (Proc.devRef .tc main_v146) = Cert.ReferenceIdeal.ReadP.val_main_v146 (F := F) x0) :
    StableHlo.after (hostOps0_7 (F := F)) V (Proc.devRef .tc main_v147) = Cert.ReferenceIdeal.ReadP.val_main_v147 (F := F) x0 := by
  after_results_simp
  rw [h_main_v146]
  (try simp only [StableHlo.TRef.ofBuf, StableHlo.TRef.toBuf, cast_eq])
  rfl

def odS7Kept : List (Ref sig .tc) := [main_v92, main_v94, main_v100, main_v118, main_v145, main_v101, main_v103]

theorem odS7_writes_none {r : Ref sig .tc} (hr : r ∈ odS7Kept) :
    ∀ op ∈ (hostOps0_7 : List (HloOp τ sig (Elt F))), Proc.devRef (τ := τ) .tc r ∉ op.writes :=
  List.forall_iff_forall_mem.mp (by
    simp only [hostOps0_7, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem odS7_kept (V : Valuation τ sig (Elt F)) {r : Ref sig .tc} (hr : r ∈ odS7Kept) :
    StableHlo.after (hostOps0_7 (F := F)) V (Proc.devRef .tc r) = V (Proc.devRef .tc r) :=
  StableHlo.after_of_forall_not_mem _ V (odS7_writes_none hr)

end Cert.KernelIdeal.Hand

end
-- ==== Proof.KI.OdTake.lean ====
import proofs.«134848_j7748121002193_1_alg».proof.Proof.Gen.KernelIdeal.Launch
import proofs.«134848_j7748121002193_1_alg».proof.Proof.RefStages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem odS9_main_v149 (V : Valuation τ sig (Elt F)) (x0 : (⟨Cert.ReferenceIdeal.S8x15x80x80, .f32⟩ : BufTy).Contents (Elt F)) (x1 : (⟨Cert.ReferenceIdeal.S8x64x5, .f32⟩ : BufTy).Contents (Elt F))
    (h_main_v148 : V (Proc.devRef .tc main_v148) = Cert.ReferenceIdeal.ReadP.val_main_v148 (F := F) x1)
    (h_main_v147 : V (Proc.devRef .tc main_v147) = Cert.ReferenceIdeal.ReadP.val_main_v147 (F := F) x0) :
    StableHlo.after (hostOps0_9 (F := F)) V (Proc.devRef .tc main_v149) = Cert.ReferenceIdeal.ReadP.val_main_v149 (F := F) x0 x1 := by
  after_results_simp
  rw [h_main_v148, h_main_v147]
  (try simp only [StableHlo.TRef.ofBuf, StableHlo.TRef.toBuf, cast_eq])
  rfl

def odS9Kept : List (Ref sig .tc) := [main_v94, main_v100, main_v118, main_v145, main_v101, main_v103]

theorem odS9_writes_none {r : Ref sig .tc} (hr : r ∈ odS9Kept) :
    ∀ op ∈ (hostOps0_9 : List (HloOp τ sig (Elt F))), Proc.devRef (τ := τ) .tc r ∉ op.writes :=
  List.forall_iff_forall_mem.mp (by
    simp only [hostOps0_9, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem odS9_kept (V : Valuation τ sig (Elt F)) {r : Ref sig .tc} (hr : r ∈ odS9Kept) :
    StableHlo.after (hostOps0_9 (F := F)) V (Proc.devRef .tc r) = V (Proc.devRef .tc r) :=
  StableHlo.after_of_forall_not_mem _ V (odS9_writes_none hr)

end Cert.KernelIdeal.Hand

end
-- ==== Proof.KI.OdTotal.lean ====
import proofs.«134848_j7748121002193_1_alg».proof.Proof.Gen.KernelIdeal.Launch
import proofs.«134848_j7748121002193_1_alg».proof.Proof.RefStages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem odS10_main_v161 (V : Valuation τ sig (Elt F)) (x0 : (⟨Cert.ReferenceIdeal.S8x15x80x80, .f32⟩ : BufTy).Contents (Elt F)) (x1 : (⟨Cert.ReferenceIdeal.S8x64x5, .f32⟩ : BufTy).Contents (Elt F)) (x6 : (⟨Cert.ReferenceIdeal.S8, .i32⟩ : BufTy).Contents (Elt F))
    (h_main_v118 : V (Proc.devRef .tc main_v118) = Cert.ReferenceIdeal.ReadP.val_main_v118 (F := F) x0 x1)
    (h_main_v145 : V (Proc.devRef .tc main_v145) = Cert.ReferenceIdeal.ReadP.val_main_v145 (F := F) x0 x1)
    (h_main_v149 : V (Proc.devRef .tc main_v149) = Cert.ReferenceIdeal.ReadP.val_main_v149 (F := F) x0 x1)
    (h_main_v94 : V (Proc.devRef .tc main_v94) = Cert.ReferenceIdeal.ReadP.val_main_v94 (F := F) x1)
    (h_main_v100 : V (Proc.devRef .tc main_v100) = Cert.ReferenceIdeal.ReadP.val_main_v100 (F := F) x1)
    (h_main_v101 : V (Proc.devRef .tc main_v101) = Cert.ReferenceIdeal.ReadP.val_main_v101 (F := F) x6)
    (h_main_v103 : V (Proc.devRef .tc main_v103) = Cert.ReferenceIdeal.ReadP.val_main_v103 (F := F) x6) :
    StableHlo.after (hostOps0_10 (F := F)) V (Proc.devRef .tc main_v161) = Cert.ReferenceIdeal.ReadP.val_main_v161 (F := F) x0 x1 x6 := by
  after_results_simp
  rw [h_main_v118, h_main_v145, h_main_v149, h_main_v94, h_main_v100, h_main_v101, h_main_v103]
  rfl

end Cert.KernelIdeal.Hand

end
-- ==== Proof.KI.OdVal.lean ====
import proofs.«134848_j7748121002193_1_alg».proof.Proof.KI.Fold
import proofs.«134848_j7748121002193_1_alg».proof.Proof.RefStages
import proofs.«134848_j7748121002193_1_alg».proof.Proof.KI.OdHead
import proofs.«134848_j7748121002193_1_alg».proof.Proof.KI.OdCells
import proofs.«134848_j7748121002193_1_alg».proof.Proof.KI.OdObjScatter
import proofs.«134848_j7748121002193_1_alg».proof.Proof.KI.OdBoxScatter
import proofs.«134848_j7748121002193_1_alg».proof.Proof.KI.OdClsScatter
import proofs.«134848_j7748121002193_1_alg».proof.Proof.KI.OdObjLoss
import proofs.«134848_j7748121002193_1_alg».proof.Proof.KI.OdBoxResidual
import proofs.«134848_j7748121002193_1_alg».proof.Proof.KI.OdBoxLoss
import proofs.«134848_j7748121002193_1_alg».proof.Proof.KI.OdLogSoftmax
import proofs.«134848_j7748121002193_1_alg».proof.Proof.KI.OdTake
import proofs.«134848_j7748121002193_1_alg».proof.Proof.KI.OdTotal
import proofs.«134848_j7748121002193_1_alg».proof.Proof.KI.OdCuts
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev in0 (c : Dev nD) := m ((c : Thread nD τ).loc main_arg0)
abbrev in1 (c : Dev nD) := m ((c : Thread nD τ).loc main_arg1)
abbrev in6 (c : Dev nD) := m ((c : Thread nD τ).loc main_arg6)

abbrev odW4a : Dev nD → Valuation τ sig (Elt F) := fun c => StableHlo.after objCellOps (W4 m ρ c)

abbrev odW4b : Dev nD → Valuation τ sig (Elt F) := fun c => StableHlo.after objScatterOps (odW4a m ρ c)

abbrev odW4c : Dev nD → Valuation τ sig (Elt F) := fun c => StableHlo.after boxCellOps (odW4b m ρ c)

abbrev odW4d : Dev nD → Valuation τ sig (Elt F) := fun c => StableHlo.after boxScatterOps (odW4c m ρ c)

abbrev odW4e : Dev nD → Valuation τ sig (Elt F) := fun c => StableHlo.after clsCellOps (odW4d m ρ c)

abbrev odW4f : Dev nD → Valuation τ sig (Elt F) := fun c => StableHlo.after clsScatterOps (odW4e m ρ c)

abbrev odW4g : Dev nD → Valuation τ sig (Elt F) := fun c => StableHlo.after objLossOps (odW4f m ρ c)

theorem od_W5_eq_pieces (c : Dev nD) : W5 m ρ c = StableHlo.after boxResidualOps (odW4g m ρ c) := by
  show StableHlo.after hostOps0_4 (W4 m ρ c) = _
  rw [hostOps0_4_eq_pieces, StableHlo.after_append, StableHlo.after_append, StableHlo.after_append, StableHlo.after_append, StableHlo.after_append, StableHlo.after_append, StableHlo.after_append]

theorem od_W0_main_arg0 (c : Dev nD) : W0 m ρ c (Proc.devRef .tc main_arg0) = m ((c : Thread nD τ).loc main_arg0) := rfl
theorem od_W0_main_arg1 (c : Dev nD) : W0 m ρ c (Proc.devRef .tc main_arg1) = m ((c : Thread nD τ).loc main_arg1) := rfl
theorem od_W0_main_arg6 (c : Dev nD) : W0 m ρ c (Proc.devRef .tc main_arg6) = m ((c : Thread nD τ).loc main_arg6) := rfl

theorem od_W1_main_v2 (c : Dev nD) : W1 m ρ c (Proc.devRef .tc main_v2) = Cert.ReferenceIdeal.ReadP.val_main_v2 (F := F) (in1 m c) :=
  odS0_main_v2 (W0 m ρ c) (in1 m c) (od_W0_main_arg1 m ρ c)
theorem od_W1_main_v3 (c : Dev nD) : W1 m ρ c (Proc.devRef .tc main_v3) = Cert.ReferenceIdeal.ReadP.val_main_v3 (F := F) (in1 m c) :=
  odS0_main_v3 (W0 m ρ c) (in1 m c) (od_W0_main_arg1 m ρ c)
theorem od_W1_main_cst (c : Dev nD) : W1 m ρ c (Proc.devRef .tc main_cst) = Cert.ReferenceIdeal.ReadP.val_main_cst (F := F) :=
  odS0_main_cst (W0 m ρ c)
theorem od_W1_main_cst_0 (c : Dev nD) : W1 m ρ c (Proc.devRef .tc main_cst_0) = Cert.ReferenceIdeal.ReadP.val_main_cst_0 (F := F) :=
  odS0_main_cst_0 (W0 m ρ c)
theorem od_W1_main_arg1 (c : Dev nD) : W1 m ρ c (Proc.devRef .tc main_arg1) = m ((c : Thread nD τ).loc main_arg1) :=
  (odS0_kept (W0 m ρ c) (r := main_arg1) (by decide)).trans (od_W0_main_arg1 m ρ c)
theorem od_W1_main_arg6 (c : Dev nD) : W1 m ρ c (Proc.devRef .tc main_arg6) = m ((c : Thread nD τ).loc main_arg6) :=
  (odS0_kept (W0 m ρ c) (r := main_arg6) (by decide)).trans (od_W0_main_arg6 m ρ c)
theorem od_W1_main_arg0 (c : Dev nD) : W1 m ρ c (Proc.devRef .tc main_arg0) = m ((c : Thread nD τ).loc main_arg0) :=
  (odS0_kept (W0 m ρ c) (r := main_arg0) (by decide)).trans (od_W0_main_arg0 m ρ c)

theorem od_W2_main_v4 (c : Dev nD) : W2 m ρ c (Proc.devRef .tc main_v4) = Cert.ReferenceIdeal.ReadP.val_main_v4 (F := F) (in1 m c) :=
  odS1_main_v4 (W1 m ρ c) (in1 m c) (od_W1_main_cst_0 m ρ c) (od_W1_main_cst m ρ c) (od_W1_main_v3 m ρ c)
theorem od_W2_main_v2 (c : Dev nD) : W2 m ρ c (Proc.devRef .tc main_v2) = Cert.ReferenceIdeal.ReadP.val_main_v2 (F := F) (in1 m c) :=
  (odS1_kept (W1 m ρ c) (r := main_v2) (by decide)).trans (od_W1_main_v2 m ρ c)
theorem od_W2_main_arg1 (c : Dev nD) : W2 m ρ c (Proc.devRef .tc main_arg1) = m ((c : Thread nD τ).loc main_arg1) :=
  (odS1_kept (W1 m ρ c) (r := main_arg1) (by decide)).trans (od_W1_main_arg1 m ρ c)
theorem od_W2_main_arg6 (c : Dev nD) : W2 m ρ c (Proc.devRef .tc main_arg6) = m ((c : Thread nD τ).loc main_arg6) :=
  (odS1_kept (W1 m ρ c) (r := main_arg6) (by decide)).trans (od_W1_main_arg6 m ρ c)
theorem od_W2_main_arg0 (c : Dev nD) : W2 m ρ c (Proc.devRef .tc main_arg0) = m ((c : Thread nD τ).loc main_arg0) :=
  (odS1_kept (W1 m ρ c) (r := main_arg0) (by decide)).trans (od_W1_main_arg0 m ρ c)

theorem od_W3_main_v19 (c : Dev nD) : W3 m ρ c (Proc.devRef .tc main_v19) = Cert.ReferenceIdeal.ReadP.val_main_v19 (F := F) (in1 m c) :=
  odS2_main_v19 (W2 m ρ c) (in1 m c) (od_W2_main_v2 m ρ c) (od_W2_main_arg1 m ρ c)
theorem od_W3_main_v36 (c : Dev nD) : W3 m ρ c (Proc.devRef .tc main_v36) = Cert.ReferenceIdeal.ReadP.val_main_v36 (F := F) (in1 m c) :=
  odS2_main_v36 (W2 m ρ c) (in1 m c) (od_W2_main_v4 m ρ c)
theorem od_W3_main_c_9 (c : Dev nD) : W3 m ρ c (Proc.devRef .tc main_c_9) = Cert.ReferenceIdeal.ReadP.val_main_c_9 (F := F) :=
  odS2_main_c_9 (W2 m ρ c)
theorem od_W3_main_v4 (c : Dev nD) : W3 m ρ c (Proc.devRef .tc main_v4) = Cert.ReferenceIdeal.ReadP.val_main_v4 (F := F) (in1 m c) :=
  (odS2_kept (W2 m ρ c) (r := main_v4) (by decide)).trans (od_W2_main_v4 m ρ c)
theorem od_W3_main_v2 (c : Dev nD) : W3 m ρ c (Proc.devRef .tc main_v2) = Cert.ReferenceIdeal.ReadP.val_main_v2 (F := F) (in1 m c) :=
  (odS2_kept (W2 m ρ c) (r := main_v2) (by decide)).trans (od_W2_main_v2 m ρ c)
theorem od_W3_main_arg6 (c : Dev nD) : W3 m ρ c (Proc.devRef .tc main_arg6) = m ((c : Thread nD τ).loc main_arg6) :=
  (odS2_kept (W2 m ρ c) (r := main_arg6) (by decide)).trans (od_W2_main_arg6 m ρ c)
theorem od_W3_main_arg0 (c : Dev nD) : W3 m ρ c (Proc.devRef .tc main_arg0) = m ((c : Thread nD τ).loc main_arg0) :=
  (odS2_kept (W2 m ρ c) (r := main_arg0) (by decide)).trans (od_W2_main_arg0 m ρ c)

theorem od_W4_main_v37 (c : Dev nD) : W4 m ρ c (Proc.devRef .tc main_v37) = Cert.ReferenceIdeal.ReadP.val_main_v37 (F := F) (in1 m c) :=
  odS3_main_v37 (W3 m ρ c) (in1 m c) (od_W3_main_v19 m ρ c) (od_W3_main_v36 m ρ c) (od_W3_main_c_9 m ρ c)
theorem od_W4_main_v4 (c : Dev nD) : W4 m ρ c (Proc.devRef .tc main_v4) = Cert.ReferenceIdeal.ReadP.val_main_v4 (F := F) (in1 m c) :=
  (odS3_kept (W3 m ρ c) (r := main_v4) (by decide)).trans (od_W3_main_v4 m ρ c)
theorem od_W4_main_v2 (c : Dev nD) : W4 m ρ c (Proc.devRef .tc main_v2) = Cert.ReferenceIdeal.ReadP.val_main_v2 (F := F) (in1 m c) :=
  (odS3_kept (W3 m ρ c) (r := main_v2) (by decide)).trans (od_W3_main_v2 m ρ c)
theorem od_W4_main_arg6 (c : Dev nD) : W4 m ρ c (Proc.devRef .tc main_arg6) = m ((c : Thread nD τ).loc main_arg6) :=
  (odS3_kept (W3 m ρ c) (r := main_arg6) (by decide)).trans (od_W3_main_arg6 m ρ c)
theorem od_W4_main_arg0 (c : Dev nD) : W4 m ρ c (Proc.devRef .tc main_arg0) = m ((c : Thread nD τ).loc main_arg0) :=
  (odS3_kept (W3 m ρ c) (r := main_arg0) (by decide)).trans (od_W3_main_arg0 m ρ c)

theorem od_W4a_main_v40 (c : Dev nD) : odW4a m ρ c (Proc.devRef .tc main_v40) = Cert.ReferenceIdeal.ReadP.val_main_v40 (F := F) :=
  odS4a_main_v40 (W4 m ρ c)
theorem od_W4a_main_v41 (c : Dev nD) : odW4a m ρ c (Proc.devRef .tc main_v41) = Cert.ReferenceIdeal.ReadP.val_main_v41 (F := F) :=
  odS4a_main_v41 (W4 m ρ c)
theorem od_W4a_main_v52 (c : Dev nD) : odW4a m ρ c (Proc.devRef .tc main_v52) = Cert.ReferenceIdeal.ReadP.val_main_v52 (F := F) :=
  odS4a_main_v52 (W4 m ρ c)
theorem od_W4a_main_v53 (c : Dev nD) : odW4a m ρ c (Proc.devRef .tc main_v53) = Cert.ReferenceIdeal.ReadP.val_main_v53 (F := F) (in1 m c) :=
  odS4a_main_v53 (W4 m ρ c) (in1 m c) (od_W4_main_v37 m ρ c)
theorem od_W4a_main_v37 (c : Dev nD) : odW4a m ρ c (Proc.devRef .tc main_v37) = Cert.ReferenceIdeal.ReadP.val_main_v37 (F := F) (in1 m c) :=
  (odS4a_kept (W4 m ρ c) (r := main_v37) (by decide)).trans (od_W4_main_v37 m ρ c)
theorem od_W4a_main_v4 (c : Dev nD) : odW4a m ρ c (Proc.devRef .tc main_v4) = Cert.ReferenceIdeal.ReadP.val_main_v4 (F := F) (in1 m c) :=
  (odS4a_kept (W4 m ρ c) (r := main_v4) (by decide)).trans (od_W4_main_v4 m ρ c)
theorem od_W4a_main_v2 (c : Dev nD) : odW4a m ρ c (Proc.devRef .tc main_v2) = Cert.ReferenceIdeal.ReadP.val_main_v2 (F := F) (in1 m c) :=
  (odS4a_kept (W4 m ρ c) (r := main_v2) (by decide)).trans (od_W4_main_v2 m ρ c)
theorem od_W4a_main_arg6 (c : Dev nD) : odW4a m ρ c (Proc.devRef .tc main_arg6) = m ((c : Thread nD τ).loc main_arg6) :=
  (odS4a_kept (W4 m ρ c) (r := main_arg6) (by decide)).trans (od_W4_main_arg6 m ρ c)
theorem od_W4a_main_arg0 (c : Dev nD) : odW4a m ρ c (Proc.devRef .tc main_arg0) = m ((c : Thread nD τ).loc main_arg0) :=
  (odS4a_kept (W4 m ρ c) (r := main_arg0) (by decide)).trans (od_W4_main_arg0 m ρ c)

theorem od_W4b_main_v58 (c : Dev nD) : odW4b m ρ c (Proc.devRef .tc main_v58) = Cert.ReferenceIdeal.ReadP.val_main_v58 (F := F) (in1 m c) :=
  odS4b_main_v58 (odW4a m ρ c) (in1 m c) (od_W4a_main_v41 m ρ c) (od_W4a_main_v52 m ρ c) (od_W4a_main_v53 m ρ c)
theorem od_W4b_main_v40 (c : Dev nD) : odW4b m ρ c (Proc.devRef .tc main_v40) = Cert.ReferenceIdeal.ReadP.val_main_v40 (F := F) :=
  (odS4b_kept (odW4a m ρ c) (r := main_v40) (by decide)).trans (od_W4a_main_v40 m ρ c)
theorem od_W4b_main_v37 (c : Dev nD) : odW4b m ρ c (Proc.devRef .tc main_v37) = Cert.ReferenceIdeal.ReadP.val_main_v37 (F := F) (in1 m c) :=
  (odS4b_kept (odW4a m ρ c) (r := main_v37) (by decide)).trans (od_W4a_main_v37 m ρ c)
theorem od_W4b_main_v4 (c : Dev nD) : odW4b m ρ c (Proc.devRef .tc main_v4) = Cert.ReferenceIdeal.ReadP.val_main_v4 (F := F) (in1 m c) :=
  (odS4b_kept (odW4a m ρ c) (r := main_v4) (by decide)).trans (od_W4a_main_v4 m ρ c)
theorem od_W4b_main_v2 (c : Dev nD) : odW4b m ρ c (Proc.devRef .tc main_v2) = Cert.ReferenceIdeal.ReadP.val_main_v2 (F := F) (in1 m c) :=
  (odS4b_kept (odW4a m ρ c) (r := main_v2) (by decide)).trans (od_W4a_main_v2 m ρ c)
theorem od_W4b_main_arg6 (c : Dev nD) : odW4b m ρ c (Proc.devRef .tc main_arg6) = m ((c : Thread nD τ).loc main_arg6) :=
  (odS4b_kept (odW4a m ρ c) (r := main_arg6) (by decide)).trans (od_W4a_main_arg6 m ρ c)
theorem od_W4b_main_arg0 (c : Dev nD) : odW4b m ρ c (Proc.devRef .tc main_arg0) = m ((c : Thread nD τ).loc main_arg0) :=
  (odS4b_kept (odW4a m ρ c) (r := main_arg0) (by decide)).trans (od_W4a_main_arg0 m ρ c)

theorem od_W4c_main_v59 (c : Dev nD) : odW4c m ρ c (Proc.devRef .tc main_v59) = Cert.ReferenceIdeal.ReadP.val_main_v59 (F := F) :=
  odS4c_main_v59 (odW4b m ρ c)
theorem od_W4c_main_v70 (c : Dev nD) : odW4c m ρ c (Proc.devRef .tc main_v70) = Cert.ReferenceIdeal.ReadP.val_main_v70 (F := F) :=
  odS4c_main_v70 (odW4b m ρ c) (od_W4b_main_v40 m ρ c)
theorem od_W4c_main_v71 (c : Dev nD) : odW4c m ρ c (Proc.devRef .tc main_v71) = Cert.ReferenceIdeal.ReadP.val_main_v71 (F := F) (in1 m c) :=
  odS4c_main_v71 (odW4b m ρ c) (in1 m c) (od_W4b_main_v37 m ρ c)
theorem od_W4c_main_v4 (c : Dev nD) : odW4c m ρ c (Proc.devRef .tc main_v4) = Cert.ReferenceIdeal.ReadP.val_main_v4 (F := F) (in1 m c) :=
  (odS4c_kept (odW4b m ρ c) (r := main_v4) (by decide)).trans (od_W4b_main_v4 m ρ c)
theorem od_W4c_main_v40 (c : Dev nD) : odW4c m ρ c (Proc.devRef .tc main_v40) = Cert.ReferenceIdeal.ReadP.val_main_v40 (F := F) :=
  (odS4c_kept (odW4b m ρ c) (r := main_v40) (by decide)).trans (od_W4b_main_v40 m ρ c)
theorem od_W4c_main_v37 (c : Dev nD) : odW4c m ρ c (Proc.devRef .tc main_v37) = Cert.ReferenceIdeal.ReadP.val_main_v37 (F := F) (in1 m c) :=
  (odS4c_kept (odW4b m ρ c) (r := main_v37) (by decide)).trans (od_W4b_main_v37 m ρ c)
theorem od_W4c_main_v2 (c : Dev nD) : odW4c m ρ c (Proc.devRef .tc main_v2) = Cert.ReferenceIdeal.ReadP.val_main_v2 (F := F) (in1 m c) :=
  (odS4c_kept (odW4b m ρ c) (r := main_v2) (by decide)).trans (od_W4b_main_v2 m ρ c)
theorem od_W4c_main_v58 (c : Dev nD) : odW4c m ρ c (Proc.devRef .tc main_v58) = Cert.ReferenceIdeal.ReadP.val_main_v58 (F := F) (in1 m c) :=
  (odS4c_kept (odW4b m ρ c) (r := main_v58) (by decide)).trans (od_W4b_main_v58 m ρ c)
theorem od_W4c_main_arg6 (c : Dev nD) : odW4c m ρ c (Proc.devRef .tc main_arg6) = m ((c : Thread nD τ).loc main_arg6) :=
  (odS4c_kept (odW4b m ρ c) (r := main_arg6) (by decide)).trans (od_W4b_main_arg6 m ρ c)
theorem od_W4c_main_arg0 (c : Dev nD) : odW4c m ρ c (Proc.devRef .tc main_arg0) = m ((c : Thread nD τ).loc main_arg0) :=
  (odS4c_kept (odW4b m ρ c) (r := main_arg0) (by decide)).trans (od_W4b_main_arg0 m ρ c)

theorem od_W4d_main_v75 (c : Dev nD) : odW4d m ρ c (Proc.devRef .tc main_v75) = Cert.ReferenceIdeal.ReadP.val_main_v75 (F := F) (in1 m c) :=
  odS4d_main_v75 (odW4c m ρ c) (in1 m c) (od_W4c_main_v59 m ρ c) (od_W4c_main_v70 m ρ c) (od_W4c_main_v71 m ρ c) (od_W4c_main_v4 m ρ c)
theorem od_W4d_main_v40 (c : Dev nD) : odW4d m ρ c (Proc.devRef .tc main_v40) = Cert.ReferenceIdeal.ReadP.val_main_v40 (F := F) :=
  (odS4d_kept (odW4c m ρ c) (r := main_v40) (by decide)).trans (od_W4c_main_v40 m ρ c)
theorem od_W4d_main_v37 (c : Dev nD) : odW4d m ρ c (Proc.devRef .tc main_v37) = Cert.ReferenceIdeal.ReadP.val_main_v37 (F := F) (in1 m c) :=
  (odS4d_kept (odW4c m ρ c) (r := main_v37) (by decide)).trans (od_W4c_main_v37 m ρ c)
theorem od_W4d_main_v2 (c : Dev nD) : odW4d m ρ c (Proc.devRef .tc main_v2) = Cert.ReferenceIdeal.ReadP.val_main_v2 (F := F) (in1 m c) :=
  (odS4d_kept (odW4c m ρ c) (r := main_v2) (by decide)).trans (od_W4c_main_v2 m ρ c)
theorem od_W4d_main_v58 (c : Dev nD) : odW4d m ρ c (Proc.devRef .tc main_v58) = Cert.ReferenceIdeal.ReadP.val_main_v58 (F := F) (in1 m c) :=
  (odS4d_kept (odW4c m ρ c) (r := main_v58) (by decide)).trans (od_W4c_main_v58 m ρ c)
theorem od_W4d_main_arg6 (c : Dev nD) : odW4d m ρ c (Proc.devRef .tc main_arg6) = m ((c : Thread nD τ).loc main_arg6) :=
  (odS4d_kept (odW4c m ρ c) (r := main_arg6) (by decide)).trans (od_W4c_main_arg6 m ρ c)
theorem od_W4d_main_arg0 (c : Dev nD) : odW4d m ρ c (Proc.devRef .tc main_arg0) = m ((c : Thread nD τ).loc main_arg0) :=
  (odS4d_kept (odW4c m ρ c) (r := main_arg0) (by decide)).trans (od_W4c_main_arg0 m ρ c)

theorem od_W4e_main_v76 (c : Dev nD) : odW4e m ρ c (Proc.devRef .tc main_v76) = Cert.ReferenceIdeal.ReadP.val_main_v76 (F := F) :=
  odS4e_main_v76 (odW4d m ρ c)
theorem od_W4e_main_v87 (c : Dev nD) : odW4e m ρ c (Proc.devRef .tc main_v87) = Cert.ReferenceIdeal.ReadP.val_main_v87 (F := F) :=
  odS4e_main_v87 (odW4d m ρ c) (od_W4d_main_v40 m ρ c)
theorem od_W4e_main_v88 (c : Dev nD) : odW4e m ρ c (Proc.devRef .tc main_v88) = Cert.ReferenceIdeal.ReadP.val_main_v88 (F := F) (in1 m c) :=
  odS4e_main_v88 (odW4d m ρ c) (in1 m c) (od_W4d_main_v37 m ρ c)
theorem od_W4e_main_v2 (c : Dev nD) : odW4e m ρ c (Proc.devRef .tc main_v2) = Cert.ReferenceIdeal.ReadP.val_main_v2 (F := F) (in1 m c) :=
  (odS4e_kept (odW4d m ρ c) (r := main_v2) (by decide)).trans (od_W4d_main_v2 m ρ c)
theorem od_W4e_main_v58 (c : Dev nD) : odW4e m ρ c (Proc.devRef .tc main_v58) = Cert.ReferenceIdeal.ReadP.val_main_v58 (F := F) (in1 m c) :=
  (odS4e_kept (odW4d m ρ c) (r := main_v58) (by decide)).trans (od_W4d_main_v58 m ρ c)
theorem od_W4e_main_arg6 (c : Dev nD) : odW4e m ρ c (Proc.devRef .tc main_arg6) = m ((c : Thread nD τ).loc main_arg6) :=
  (odS4e_kept (odW4d m ρ c) (r := main_arg6) (by decide)).trans (od_W4d_main_arg6 m ρ c)
theorem od_W4e_main_arg0 (c : Dev nD) : odW4e m ρ c (Proc.devRef .tc main_arg0) = m ((c : Thread nD τ).loc main_arg0) :=
  (odS4e_kept (odW4d m ρ c) (r := main_arg0) (by decide)).trans (od_W4d_main_arg0 m ρ c)
theorem od_W4e_main_v75 (c : Dev nD) : odW4e m ρ c (Proc.devRef .tc main_v75) = Cert.ReferenceIdeal.ReadP.val_main_v75 (F := F) (in1 m c) :=
  (odS4e_kept (odW4d m ρ c) (r := main_v75) (by decide)).trans (od_W4d_main_v75 m ρ c)

theorem od_W4f_main_v92 (c : Dev nD) : odW4f m ρ c (Proc.devRef .tc main_v92) = Cert.ReferenceIdeal.ReadP.val_main_v92 (F := F) (in1 m c) :=
  odS4f_main_v92 (odW4e m ρ c) (in1 m c) (od_W4e_main_v76 m ρ c) (od_W4e_main_v87 m ρ c) (od_W4e_main_v88 m ρ c) (od_W4e_main_v2 m ρ c)
theorem od_W4f_main_v58 (c : Dev nD) : odW4f m ρ c (Proc.devRef .tc main_v58) = Cert.ReferenceIdeal.ReadP.val_main_v58 (F := F) (in1 m c) :=
  (odS4f_kept (odW4e m ρ c) (r := main_v58) (by decide)).trans (od_W4e_main_v58 m ρ c)
theorem od_W4f_main_arg6 (c : Dev nD) : odW4f m ρ c (Proc.devRef .tc main_arg6) = m ((c : Thread nD τ).loc main_arg6) :=
  (odS4f_kept (odW4e m ρ c) (r := main_arg6) (by decide)).trans (od_W4e_main_arg6 m ρ c)
theorem od_W4f_main_arg0 (c : Dev nD) : odW4f m ρ c (Proc.devRef .tc main_arg0) = m ((c : Thread nD τ).loc main_arg0) :=
  (odS4f_kept (odW4e m ρ c) (r := main_arg0) (by decide)).trans (od_W4e_main_arg0 m ρ c)
theorem od_W4f_main_v75 (c : Dev nD) : odW4f m ρ c (Proc.devRef .tc main_v75) = Cert.ReferenceIdeal.ReadP.val_main_v75 (F := F) (in1 m c) :=
  (odS4f_kept (odW4e m ρ c) (r := main_v75) (by decide)).trans (od_W4e_main_v75 m ρ c)

theorem od_W4g_main_v94 (c : Dev nD) : odW4g m ρ c (Proc.devRef .tc main_v94) = Cert.ReferenceIdeal.ReadP.val_main_v94 (F := F) (in1 m c) :=
  odS4g_main_v94 (odW4f m ρ c) (in1 m c) (od_W4f_main_v58 m ρ c)
theorem od_W4g_main_v100 (c : Dev nD) : odW4g m ρ c (Proc.devRef .tc main_v100) = Cert.ReferenceIdeal.ReadP.val_main_v100 (F := F) (in1 m c) :=
  odS4g_main_v100 (odW4f m ρ c) (in1 m c) (od_W4f_main_v58 m ρ c)
theorem od_W4g_main_v101 (c : Dev nD) : odW4g m ρ c (Proc.devRef .tc main_v101) = Cert.ReferenceIdeal.ReadP.val_main_v101 (F := F) (in6 m c) :=
  odS4g_main_v101 (odW4f m ρ c) (in6 m c) (od_W4f_main_arg6 m ρ c)
theorem od_W4g_main_v103 (c : Dev nD) : odW4g m ρ c (Proc.devRef .tc main_v103) = Cert.ReferenceIdeal.ReadP.val_main_v103 (F := F) (in6 m c) :=
  odS4g_main_v103 (odW4f m ρ c) (in6 m c) (od_W4f_main_arg6 m ρ c)
theorem od_W4g_main_v118 (c : Dev nD) : odW4g m ρ c (Proc.devRef .tc main_v118) = Cert.ReferenceIdeal.ReadP.val_main_v118 (F := F) (in0 m c) (in1 m c) :=
  odS4g_main_v118 (odW4f m ρ c) (in0 m c) (in1 m c) (od_W4f_main_arg0 m ρ c) (od_W4f_main_v58 m ρ c)
theorem od_W4g_main_arg0 (c : Dev nD) : odW4g m ρ c (Proc.devRef .tc main_arg0) = m ((c : Thread nD τ).loc main_arg0) :=
  (odS4g_kept (odW4f m ρ c) (r := main_arg0) (by decide)).trans (od_W4f_main_arg0 m ρ c)
theorem od_W4g_main_v75 (c : Dev nD) : odW4g m ρ c (Proc.devRef .tc main_v75) = Cert.ReferenceIdeal.ReadP.val_main_v75 (F := F) (in1 m c) :=
  (odS4g_kept (odW4f m ρ c) (r := main_v75) (by decide)).trans (od_W4f_main_v75 m ρ c)
theorem od_W4g_main_v92 (c : Dev nD) : odW4g m ρ c (Proc.devRef .tc main_v92) = Cert.ReferenceIdeal.ReadP.val_main_v92 (F := F) (in1 m c) :=
  (odS4g_kept (odW4f m ρ c) (r := main_v92) (by decide)).trans (od_W4f_main_v92 m ρ c)

theorem od_W5_main_v130 (c : Dev nD) : W5 m ρ c (Proc.devRef .tc main_v130) = Cert.ReferenceIdeal.ReadP.val_main_v130 (F := F) (in0 m c) (in1 m c) :=
  (congrFun (od_W5_eq_pieces m ρ c) _).trans (odS4h_main_v130 (odW4g m ρ c) (in0 m c) (in1 m c) (od_W4g_main_arg0 m ρ c) (od_W4g_main_v75 m ρ c))
theorem od_W5_main_v133 (c : Dev nD) : W5 m ρ c (Proc.devRef .tc main_v133) = Cert.ReferenceIdeal.ReadP.val_main_v133 (F := F) (in0 m c) (in1 m c) :=
  (congrFun (od_W5_eq_pieces m ρ c) _).trans (odS4h_main_v133 (odW4g m ρ c) (in0 m c) (in1 m c) (od_W4g_main_arg0 m ρ c) (od_W4g_main_v75 m ρ c))
theorem od_W5_main_v135 (c : Dev nD) : W5 m ρ c (Proc.devRef .tc main_v135) = Cert.ReferenceIdeal.ReadP.val_main_v135 (F := F) (in0 m c) (in1 m c) :=
  (congrFun (od_W5_eq_pieces m ρ c) _).trans (odS4h_main_v135 (odW4g m ρ c) (in0 m c) (in1 m c) (od_W4g_main_arg0 m ρ c) (od_W4g_main_v75 m ρ c))
theorem od_W5_main_v94 (c : Dev nD) : W5 m ρ c (Proc.devRef .tc main_v94) = Cert.ReferenceIdeal.ReadP.val_main_v94 (F := F) (in1 m c) :=
  (congrFun (od_W5_eq_pieces m ρ c) _).trans ((odS4h_kept (odW4g m ρ c) (r := main_v94) (by decide)).trans (od_W4g_main_v94 m ρ c))
theorem od_W5_main_v100 (c : Dev nD) : W5 m ρ c (Proc.devRef .tc main_v100) = Cert.ReferenceIdeal.ReadP.val_main_v100 (F := F) (in1 m c) :=
  (congrFun (od_W5_eq_pieces m ρ c) _).trans ((odS4h_kept (odW4g m ρ c) (r := main_v100) (by decide)).trans (od_W4g_main_v100 m ρ c))
theorem od_W5_main_arg0 (c : Dev nD) : W5 m ρ c (Proc.devRef .tc main_arg0) = m ((c : Thread nD τ).loc main_arg0) :=
  (congrFun (od_W5_eq_pieces m ρ c) _).trans ((odS4h_kept (odW4g m ρ c) (r := main_arg0) (by decide)).trans (od_W4g_main_arg0 m ρ c))
theorem od_W5_main_v92 (c : Dev nD) : W5 m ρ c (Proc.devRef .tc main_v92) = Cert.ReferenceIdeal.ReadP.val_main_v92 (F := F) (in1 m c) :=
  (congrFun (od_W5_eq_pieces m ρ c) _).trans ((odS4h_kept (odW4g m ρ c) (r := main_v92) (by decide)).trans (od_W4g_main_v92 m ρ c))
theorem od_W5_main_v118 (c : Dev nD) : W5 m ρ c (Proc.devRef .tc main_v118) = Cert.ReferenceIdeal.ReadP.val_main_v118 (F := F) (in0 m c) (in1 m c) :=
  (congrFun (od_W5_eq_pieces m ρ c) _).trans ((odS4h_kept (odW4g m ρ c) (r := main_v118) (by decide)).trans (od_W4g_main_v118 m ρ c))
theorem od_W5_main_v101 (c : Dev nD) : W5 m ρ c (Proc.devRef .tc main_v101) = Cert.ReferenceIdeal.ReadP.val_main_v101 (F := F) (in6 m c) :=
  (congrFun (od_W5_eq_pieces m ρ c) _).trans ((odS4h_kept (odW4g m ρ c) (r := main_v101) (by decide)).trans (od_W4g_main_v101 m ρ c))
theorem od_W5_main_v103 (c : Dev nD) : W5 m ρ c (Proc.devRef .tc main_v103) = Cert.ReferenceIdeal.ReadP.val_main_v103 (F := F) (in6 m c) :=
  (congrFun (od_W5_eq_pieces m ρ c) _).trans ((odS4h_kept (odW4g m ρ c) (r := main_v103) (by decide)).trans (od_W4g_main_v103 m ρ c))

theorem od_W6_main_v136 (c : Dev nD) : W6 m ρ c (Proc.devRef .tc main_v136) = Cert.ReferenceIdeal.ReadP.val_main_v136 (F := F) (in0 m c) (in1 m c) :=
  odS5_main_v136 (W5 m ρ c) (in0 m c) (in1 m c) (od_W5_main_v130 m ρ c) (od_W5_main_v133 m ρ c) (od_W5_main_v135 m ρ c)
theorem od_W6_main_v94 (c : Dev nD) : W6 m ρ c (Proc.devRef .tc main_v94) = Cert.ReferenceIdeal.ReadP.val_main_v94 (F := F) (in1 m c) :=
  (odS5_kept (W5 m ρ c) (r := main_v94) (by decide)).trans (od_W5_main_v94 m ρ c)
theorem od_W6_main_v100 (c : Dev nD) : W6 m ρ c (Proc.devRef .tc main_v100) = Cert.ReferenceIdeal.ReadP.val_main_v100 (F := F) (in1 m c) :=
  (odS5_kept (W5 m ρ c) (r := main_v100) (by decide)).trans (od_W5_main_v100 m ρ c)
theorem od_W6_main_arg0 (c : Dev nD) : W6 m ρ c (Proc.devRef .tc main_arg0) = m ((c : Thread nD τ).loc main_arg0) :=
  (odS5_kept (W5 m ρ c) (r := main_arg0) (by decide)).trans (od_W5_main_arg0 m ρ c)
theorem od_W6_main_v92 (c : Dev nD) : W6 m ρ c (Proc.devRef .tc main_v92) = Cert.ReferenceIdeal.ReadP.val_main_v92 (F := F) (in1 m c) :=
  (odS5_kept (W5 m ρ c) (r := main_v92) (by decide)).trans (od_W5_main_v92 m ρ c)
theorem od_W6_main_v118 (c : Dev nD) : W6 m ρ c (Proc.devRef .tc main_v118) = Cert.ReferenceIdeal.ReadP.val_main_v118 (F := F) (in0 m c) (in1 m c) :=
  (odS5_kept (W5 m ρ c) (r := main_v118) (by decide)).trans (od_W5_main_v118 m ρ c)
theorem od_W6_main_v101 (c : Dev nD) : W6 m ρ c (Proc.devRef .tc main_v101) = Cert.ReferenceIdeal.ReadP.val_main_v101 (F := F) (in6 m c) :=
  (odS5_kept (W5 m ρ c) (r := main_v101) (by decide)).trans (od_W5_main_v101 m ρ c)
theorem od_W6_main_v103 (c : Dev nD) : W6 m ρ c (Proc.devRef .tc main_v103) = Cert.ReferenceIdeal.ReadP.val_main_v103 (F := F) (in6 m c) :=
  (odS5_kept (W5 m ρ c) (r := main_v103) (by decide)).trans (od_W5_main_v103 m ρ c)

theorem od_W7_main_v145 (c : Dev nD) : W7 m ρ c (Proc.devRef .tc main_v145) = Cert.ReferenceIdeal.ReadP.val_main_v145 (F := F) (in0 m c) (in1 m c) :=
  odS6_main_v145 (W6 m ρ c) (in0 m c) (in1 m c) (od_W6_main_v136 m ρ c) (od_W6_main_v94 m ρ c) (od_W6_main_v100 m ρ c)
theorem od_W7_main_v146 (c : Dev nD) : W7 m ρ c (Proc.devRef .tc main_v146) = Cert.ReferenceIdeal.ReadP.val_main_v146 (F := F) (in0 m c) :=
  odS6_main_v146 (W6 m ρ c) (in0 m c) (od_W6_main_arg0 m ρ c)
theorem od_W7_main_v92 (c : Dev nD) : W7 m ρ c (Proc.devRef .tc main_v92) = Cert.ReferenceIdeal.ReadP.val_main_v92 (F := F) (in1 m c) :=
  (odS6_kept (W6 m ρ c) (r := main_v92) (by decide)).trans (od_W6_main_v92 m ρ c)
theorem od_W7_main_v94 (c : Dev nD) : W7 m ρ c (Proc.devRef .tc main_v94) = Cert.ReferenceIdeal.ReadP.val_main_v94 (F := F) (in1 m c) :=
  (odS6_kept (W6 m ρ c) (r := main_v94) (by decide)).trans (od_W6_main_v94 m ρ c)
theorem od_W7_main_v100 (c : Dev nD) : W7 m ρ c (Proc.devRef .tc main_v100) = Cert.ReferenceIdeal.ReadP.val_main_v100 (F := F) (in1 m c) :=
  (odS6_kept (W6 m ρ c) (r := main_v100) (by decide)).trans (od_W6_main_v100 m ρ c)
theorem od_W7_main_v118 (c : Dev nD) : W7 m ρ c (Proc.devRef .tc main_v118) = Cert.ReferenceIdeal.ReadP.val_main_v118 (F := F) (in0 m c) (in1 m c) :=
  (odS6_kept (W6 m ρ c) (r := main_v118) (by decide)).trans (od_W6_main_v118 m ρ c)
theorem od_W7_main_v101 (c : Dev nD) : W7 m ρ c (Proc.devRef .tc main_v101) = Cert.ReferenceIdeal.ReadP.val_main_v101 (F := F) (in6 m c) :=
  (odS6_kept (W6 m ρ c) (r := main_v101) (by decide)).trans (od_W6_main_v101 m ρ c)
theorem od_W7_main_v103 (c : Dev nD) : W7 m ρ c (Proc.devRef .tc main_v103) = Cert.ReferenceIdeal.ReadP.val_main_v103 (F := F) (in6 m c) :=
  (odS6_kept (W6 m ρ c) (r := main_v103) (by decide)).trans (od_W6_main_v103 m ρ c)

theorem od_W8_main_v147 (c : Dev nD) : W8 m ρ c (Proc.devRef .tc main_v147) = Cert.ReferenceIdeal.ReadP.val_main_v147 (F := F) (in0 m c) :=
  odS7_main_v147 (W7 m ρ c) (in0 m c) (od_W7_main_v146 m ρ c)
theorem od_W8_main_v92 (c : Dev nD) : W8 m ρ c (Proc.devRef .tc main_v92) = Cert.ReferenceIdeal.ReadP.val_main_v92 (F := F) (in1 m c) :=
  (odS7_kept (W7 m ρ c) (r := main_v92) (by decide)).trans (od_W7_main_v92 m ρ c)
theorem od_W8_main_v94 (c : Dev nD) : W8 m ρ c (Proc.devRef .tc main_v94) = Cert.ReferenceIdeal.ReadP.val_main_v94 (F := F) (in1 m c) :=
  (odS7_kept (W7 m ρ c) (r := main_v94) (by decide)).trans (od_W7_main_v94 m ρ c)
theorem od_W8_main_v100 (c : Dev nD) : W8 m ρ c (Proc.devRef .tc main_v100) = Cert.ReferenceIdeal.ReadP.val_main_v100 (F := F) (in1 m c) :=
  (odS7_kept (W7 m ρ c) (r := main_v100) (by decide)).trans (od_W7_main_v100 m ρ c)
theorem od_W8_main_v118 (c : Dev nD) : W8 m ρ c (Proc.devRef .tc main_v118) = Cert.ReferenceIdeal.ReadP.val_main_v118 (F := F) (in0 m c) (in1 m c) :=
  (odS7_kept (W7 m ρ c) (r := main_v118) (by decide)).trans (od_W7_main_v118 m ρ c)
theorem od_W8_main_v145 (c : Dev nD) : W8 m ρ c (Proc.devRef .tc main_v145) = Cert.ReferenceIdeal.ReadP.val_main_v145 (F := F) (in0 m c) (in1 m c) :=
  (odS7_kept (W7 m ρ c) (r := main_v145) (by decide)).trans (od_W7_main_v145 m ρ c)
theorem od_W8_main_v101 (c : Dev nD) : W8 m ρ c (Proc.devRef .tc main_v101) = Cert.ReferenceIdeal.ReadP.val_main_v101 (F := F) (in6 m c) :=
  (odS7_kept (W7 m ρ c) (r := main_v101) (by decide)).trans (od_W7_main_v101 m ρ c)
theorem od_W8_main_v103 (c : Dev nD) : W8 m ρ c (Proc.devRef .tc main_v103) = Cert.ReferenceIdeal.ReadP.val_main_v103 (F := F) (in6 m c) :=
  (odS7_kept (W7 m ρ c) (r := main_v103) (by decide)).trans (od_W7_main_v103 m ρ c)

theorem od_W9_main_v148 (c : Dev nD) : W9 m ρ c (Proc.devRef .tc main_v148) = Cert.ReferenceIdeal.ReadP.val_main_v148 (F := F) (in1 m c) :=
  odS8_main_v148 (W8 m ρ c) (in1 m c) (od_W8_main_v92 m ρ c)
theorem od_W9_main_v147 (c : Dev nD) : W9 m ρ c (Proc.devRef .tc main_v147) = Cert.ReferenceIdeal.ReadP.val_main_v147 (F := F) (in0 m c) :=
  (odS8_kept (W8 m ρ c) (r := main_v147) (by decide)).trans (od_W8_main_v147 m ρ c)
theorem od_W9_main_v94 (c : Dev nD) : W9 m ρ c (Proc.devRef .tc main_v94) = Cert.ReferenceIdeal.ReadP.val_main_v94 (F := F) (in1 m c) :=
  (odS8_kept (W8 m ρ c) (r := main_v94) (by decide)).trans (od_W8_main_v94 m ρ c)
theorem od_W9_main_v100 (c : Dev nD) : W9 m ρ c (Proc.devRef .tc main_v100) = Cert.ReferenceIdeal.ReadP.val_main_v100 (F := F) (in1 m c) :=
  (odS8_kept (W8 m ρ c) (r := main_v100) (by decide)).trans (od_W8_main_v100 m ρ c)
theorem od_W9_main_v118 (c : Dev nD) : W9 m ρ c (Proc.devRef .tc main_v118) = Cert.ReferenceIdeal.ReadP.val_main_v118 (F := F) (in0 m c) (in1 m c) :=
  (odS8_kept (W8 m ρ c) (r := main_v118) (by decide)).trans (od_W8_main_v118 m ρ c)
theorem od_W9_main_v145 (c : Dev nD) : W9 m ρ c (Proc.devRef .tc main_v145) = Cert.ReferenceIdeal.ReadP.val_main_v145 (F := F) (in0 m c) (in1 m c) :=
  (odS8_kept (W8 m ρ c) (r := main_v145) (by decide)).trans (od_W8_main_v145 m ρ c)
theorem od_W9_main_v101 (c : Dev nD) : W9 m ρ c (Proc.devRef .tc main_v101) = Cert.ReferenceIdeal.ReadP.val_main_v101 (F := F) (in6 m c) :=
  (odS8_kept (W8 m ρ c) (r := main_v101) (by decide)).trans (od_W8_main_v101 m ρ c)
theorem od_W9_main_v103 (c : Dev nD) : W9 m ρ c (Proc.devRef .tc main_v103) = Cert.ReferenceIdeal.ReadP.val_main_v103 (F := F) (in6 m c) :=
  (odS8_kept (W8 m ρ c) (r := main_v103) (by decide)).trans (od_W8_main_v103 m ρ c)

theorem od_W10_main_v149 (c : Dev nD) : W10 m ρ c (Proc.devRef .tc main_v149) = Cert.ReferenceIdeal.ReadP.val_main_v149 (F := F) (in0 m c) (in1 m c) :=
  odS9_main_v149 (W9 m ρ c) (in0 m c) (in1 m c) (od_W9_main_v148 m ρ c) (od_W9_main_v147 m ρ c)
theorem od_W10_main_v94 (c : Dev nD) : W10 m ρ c (Proc.devRef .tc main_v94) = Cert.ReferenceIdeal.ReadP.val_main_v94 (F := F) (in1 m c) :=
  (odS9_kept (W9 m ρ c) (r := main_v94) (by decide)).trans (od_W9_main_v94 m ρ c)
theorem od_W10_main_v100 (c : Dev nD) : W10 m ρ c (Proc.devRef .tc main_v100) = Cert.ReferenceIdeal.ReadP.val_main_v100 (F := F) (in1 m c) :=
  (odS9_kept (W9 m ρ c) (r := main_v100) (by decide)).trans (od_W9_main_v100 m ρ c)
theorem od_W10_main_v118 (c : Dev nD) : W10 m ρ c (Proc.devRef .tc main_v118) = Cert.ReferenceIdeal.ReadP.val_main_v118 (F := F) (in0 m c) (in1 m c) :=
  (odS9_kept (W9 m ρ c) (r := main_v118) (by decide)).trans (od_W9_main_v118 m ρ c)
theorem od_W10_main_v145 (c : Dev nD) : W10 m ρ c (Proc.devRef .tc main_v145) = Cert.ReferenceIdeal.ReadP.val_main_v145 (F := F) (in0 m c) (in1 m c) :=
  (odS9_kept (W9 m ρ c) (r := main_v145) (by decide)).trans (od_W9_main_v145 m ρ c)
theorem od_W10_main_v101 (c : Dev nD) : W10 m ρ c (Proc.devRef .tc main_v101) = Cert.ReferenceIdeal.ReadP.val_main_v101 (F := F) (in6 m c) :=
  (odS9_kept (W9 m ρ c) (r := main_v101) (by decide)).trans (od_W9_main_v101 m ρ c)
theorem od_W10_main_v103 (c : Dev nD) : W10 m ρ c (Proc.devRef .tc main_v103) = Cert.ReferenceIdeal.ReadP.val_main_v103 (F := F) (in6 m c) :=
  (odS9_kept (W9 m ρ c) (r := main_v103) (by decide)).trans (od_W9_main_v103 m ρ c)

theorem od_W11_main_v161 (c : Dev nD) : W11 m ρ c (Proc.devRef .tc main_v161) = Cert.ReferenceIdeal.ReadP.val_main_v161 (F := F) (in0 m c) (in1 m c) (in6 m c) :=
  odS10_main_v161 (W10 m ρ c) (in0 m c) (in1 m c) (in6 m c) (od_W10_main_v118 m ρ c) (od_W10_main_v145 m ρ c) (od_W10_main_v149 m ρ c) (od_W10_main_v94 m ρ c) (od_W10_main_v100 m ρ c) (od_W10_main_v101 m ρ c) (od_W10_main_v103 m ρ c)

theorem W11_holds_reference_od (c : Dev nD) :
    W11 m ρ c (Proc.devRef .tc main_v161)
      = Cert.ReferenceIdeal.ReadP.val_main_v161 (F := F) (in0 m c) (in1 m c) (in6 m c) :=
  od_W11_main_v161 m ρ c

end Cert.KernelIdeal.Hand

end
-- ==== Proof.KI.HostVals.lean ====
import proofs.«134848_j7748121002193_1_alg».proof.Proof.KI.Fold
import proofs.«134848_j7748121002193_1_alg».proof.Proof.KI.Epi
import proofs.«134848_j7748121002193_1_alg».proof.Proof.RefStages
import proofs.«134848_j7748121002193_1_alg».proof.Proof.KI.DaVal
import proofs.«134848_j7748121002193_1_alg».proof.Proof.KI.ResVal
import proofs.«134848_j7748121002193_1_alg».proof.Proof.KI.OdVal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem od_val (c : Dev nD) :
    W11 m ρ c (Proc.devRef .tc main_v161)
      = Cert.ReferenceIdeal.ReadP.val_main_v161 (F := F) (m ((c : Thread nD τ).loc main_arg0)) (m ((c : Thread nD τ).loc main_arg1)) (m ((c : Thread nD τ).loc main_arg6)) :=
  W11_holds_reference_od m ρ c

theorem da_val (c : Dev nD) :
    W13 m ρ c (Proc.devRef .tc main_v177)
      = daLoss (W12 m ρ c (Proc.devRef .tc main_v162_0)) (W12 m ρ c (Proc.devRef .tc main_v162_1)) (W12 m ρ c (Proc.devRef .tc main_arg7)) :=
  hostOps1_computes_daLoss (W12 m ρ c)

theorem result_val (c : Dev nD) :
    W15 m ρ c (Proc.devRef .tc main_v212)
      = lossVec (W14 m ρ c (Proc.devRef .tc main_v161)) (W14 m ρ c (Proc.devRef .tc main_v177))
          (rmLoss (W14 m ρ c (Proc.devRef .tc main_v178_0)) (W14 m ρ c (Proc.devRef .tc main_v178_1)) (W14 m ρ c (Proc.devRef .tc main_v178_2))
            (W14 m ρ c (Proc.devRef .tc main_v178_3)) (W14 m ρ c (Proc.devRef .tc main_v178_4)) (W14 m ρ c (Proc.devRef .tc main_arg8))) :=
  hostOps2_computes_lossVec (W14 m ρ c)

end Cert.KernelIdeal.Hand

end
-- ==== Proof.KI.DaPay.lean ====
import proofs.«134848_j7748121002193_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

def validPix (k : BitVec 32) : EReal := (((IntOp.cmpi .ne k 255#32).toNat : ℝ) : EReal)

def bcePix (x : EReal) (k : BitVec 32) : EReal :=
  (max x 0 - x * (((Scalar.select (IntOp.cmpi .ne k 255#32) k 0#32).toInt : ℝ) : EReal)
    + Ideal.log1p (Ideal.exp (-(max x (-x))))) * validPix k

theorem toInt_setWidth_bit (v : BitVec 1) : (v.setWidth 32).toInt = (v.toNat : ℤ) := by
  rcases BitVec.eq_zero_or_eq_one v with h | h <;> subst h <;> decide

theorem validPix_eq_sitofp (k : BitVec 32) :
    FloatOps.sitofp (F := Ideal) .f32 ((IntOp.cmpi .ne k 255#32).setWidth 32) = validPix k := by
  show ((((IntOp.cmpi .ne k 255#32).setWidth 32).toInt : ℝ) : EReal) = _
  unfold validPix
  rw [toInt_setWidth_bit]
  norm_cast

theorem rowsum_colsum_apply (v : FVec Ideal S8x128x1024 .f32) (b : Fin 8) :
    shapeCast S8x1 (multiReduction .add [1] S8 (multiReduction .add [2] S8x128 v 0x00000000#32 reduces_S8x128x1024_S8x128 (.inl rfl) rfl)
        0x00000000#32 reduces_S8x128_S8 (.inl rfl) rfl) shapeCasts_S8_S8x1 (ix2 b 0)
      = ∑ r : Fin 128, ∑ q : Fin 1024, v (ix3 b r q) := by
  rw [shapeCast_apply _ shapeCasts_S8_S8x1 (ix2 b 0) (ix1 b) (by rw [Shape.rowMajor_val_one, Shape.rowMajor_val_two]; show b.val = b.val * 1 + 0; omega)]
  refine (Ideal.multiReduction_add_single _ 0x00000000#32 reduces_S8x128_S8 (.inl rfl) rfl (ix1 b)).trans ?_
  refine Finset.sum_congr rfl fun r _ => ?_
  refine (Ideal.multiReduction_add_single v 0x00000000#32 reduces_S8x128x1024_S8x128 (.inl rfl) rfl _).trans ?_
  refine Finset.sum_congr rfl fun q _ => ?_
  refine congrArg v (funext fun a => Fin.ext ?_)
  match a with
  | ⟨0, _⟩ => rfl
  | ⟨1, _⟩ => rfl
  | ⟨2, _⟩ => rfl

theorem pay5_apply (k : Vec Ideal S8x128x1024 .i32) (i : S8x128x1024.Idx) : k0_pay5 (F := Ideal) k i = validPix (k i) :=
  validPix_eq_sitofp (k i)

theorem bcePix_of_ops (x : Ideal .f32) (k : BitVec 32) :
    FloatOps.mulf
      (FloatOps.addf
        (FloatOps.subf (FloatOps.maximumf x (Scalar.ofBits (F := Ideal) .f32 0x00000000#32))
          (FloatOps.mulf x (FloatOps.sitofp (F := Ideal) .f32 (Scalar.select (IntOp.cmpi .ne k 255#32) k 0#32))))
        (FloatOps.log1p (FloatOps.exp (FloatOps.subf (Scalar.ofBits (F := Ideal) .f32 0x00000000#32) (FloatOps.absf x)))))
      (FloatOps.sitofp (F := Ideal) .f32 ((IntOp.cmpi .ne k 255#32).setWidth 32))
      = bcePix x k := by
  show (max x (Ideal.ofBits .f32 0x00000000#32) - x * _
      + Ideal.log1p (Ideal.exp (Ideal.ofBits .f32 0x00000000#32 - max x (-x)))) * _ = _
  rw [Ideal.ofBits_zero_f32, zero_sub, validPix_eq_sitofp]
  rfl

theorem logits_dropUnit_apply (x : Vec Ideal S8x1x128x1024 .f32) (b : Fin 8) (r : Fin 128) (q : Fin 1024) :
    shapeCast S8x128x1024 x shapeCasts_S8x1x128x1024_S8x128x1024 (ix3 b r q) = x (ix4 b 0 r q) :=
  shapeCast_apply x _ _ _ (by
    rw [Shape.rowMajor_val_four, Shape.rowMajor_val_three]
    show ((b.val * 1 + 0) * 128 + r.val) * 1024 + q.val = (b.val * 128 + r.val) * 1024 + q.val
    omega)

theorem pay7_apply (x : Vec Ideal S8x1x128x1024 .f32) (k : Vec Ideal S8x128x1024 .i32) (prev : Vec Ideal S8x1 .f32) (b : Fin 8) :
    k0_pay7 (F := Ideal) x k prev (ix2 b 0)
      = prev (ix2 b 0) + ∑ r : Fin 128, ∑ q : Fin 1024, bcePix (x (ix4 b 0 r q)) (k (ix3 b r q)) := by
  unfold k0_pay7
  dsimp only
  show (shapeCast S8x1 prev shapeCasts_S8x1_S8x1 (ix2 b 0) : EReal) + shapeCast S8x1 _ shapeCasts_S8_S8x1 (ix2 b 0) = _
  rw [shapeCast_self, rowsum_colsum_apply]
  refine congrArg (_ + ·) (Finset.sum_congr rfl fun r _ => Finset.sum_congr rfl fun q _ => ?_)
  refine Eq.trans ?_ (bcePix_of_ops (x (ix4 b 0 r q)) (k (ix3 b r q)))
  rw [← logits_dropUnit_apply x b r q]
  rfl

theorem pay1_pay6_apply (k : Vec Ideal S8x128x1024 .i32) (prev : Vec Ideal S8x1 .f32) (b : Fin 8) :
    k0_pay1 (F := Ideal) (k0_pay6 k) prev (ix2 b 0)
      = prev (ix2 b 0) + ∑ r : Fin 128, ∑ q : Fin 1024, validPix (k (ix3 b r q)) := by
  unfold k0_pay1 k0_pay6
  dsimp only
  show (shapeCast S8x1 prev shapeCasts_S8x1_S8x1 (ix2 b 0) : EReal) + shapeCast S8x1 _ shapeCasts_S8_S8x1 (ix2 b 0) = _
  rw [shapeCast_self, rowsum_colsum_apply]
  refine congrArg (_ + ·) (Finset.sum_congr rfl fun r _ => Finset.sum_congr rfl fun q _ => ?_)
  exact pay5_apply k _

theorem pay2_apply (j : S8x1.Idx) : k0_pay2 (F := Ideal) j = 0 := Ideal.ofBits_zero_f32
theorem pay3_apply (j : S8x1.Idx) : k0_pay3 (F := Ideal) j = 0 := Ideal.ofBits_zero_f32

end Cert.KernelIdeal.Hand

end
-- ==== Proof.KI.DaBlk.lean ====
import proofs.«134848_j7748121002193_1_alg».proof.Proof.KI.R0
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

section
variable (V : (c : Dev nD) → (b : Ref sig .tc) → Buf (Elt F) ((c : Thread nD τ).loc b))

theorem band_index_log (t : Fin cfg0.N) :
    win0_0.index t 0 = 0 ∧ win0_0.index t 1 = 0 ∧ win0_0.index t 2 = t.val ∧ win0_0.index t 3 = 0 := by
  rcases fin_N0 t with rfl | rfl | rfl | rfl | rfl | rfl | rfl | rfl <;> decide
theorem band_index_msk (t : Fin cfg0.N) :
    win0_1.index t 0 = 0 ∧ win0_1.index t 1 = t.val ∧ win0_1.index t 2 = 0 := by
  rcases fin_N0 t with rfl | rfl | rfl | rfl | rfl | rfl | rfl | rfl <;> decide

theorem xlog0_apply (c : Dev nD) (t : Fin cfg0.N) (b : Fin 8) (r : Fin 128) (q : Fin 1024) (R : Fin 1024)
    (hR : R.val = 128 * t.val + r.val) :
    xlog0 V c t (ix4 b 0 r q) = (V c (Pipeline.arrRef spec0 0) : S8x1x1024x1024.Idx → Elt F .f32) (ix4 b 0 R q) := by
  obtain ⟨h0, h1, h2, h3⟩ := band_index_log t
  show iblk0 V c 0 t (ix4 b 0 r q) = _
  unfold iblk0
  rw [View.read_apply]
  show V c (Pipeline.arrRef spec0 0) _ = V c (Pipeline.arrRef spec0 0) _
  congr 1
  funext a
  apply Fin.ext
  match a with
  | ⟨0, _⟩ => show win0_0.index t 0 * 8 + 1 * b.val = b.val; rw [h0]; omega
  | ⟨1, _⟩ => show win0_0.index t 1 * 1 + 1 * 0 = 0; rw [h1]
  | ⟨2, _⟩ => show win0_0.index t 2 * 128 + 1 * r.val = R.val; rw [h2, hR]; omega
  | ⟨3, _⟩ => show win0_0.index t 3 * 1024 + 1 * q.val = q.val; rw [h3]; omega

theorem xmsk0_apply (c : Dev nD) (t : Fin cfg0.N) (b : Fin 8) (r : Fin 128) (q : Fin 1024) (R : Fin 1024)
    (hR : R.val = 128 * t.val + r.val) :
    xmsk0 V c t (ix3 b r q) = (V c (Pipeline.arrRef spec0 1) : S8x1024x1024.Idx → Elt F .i32) (ix3 b R q) := by
  obtain ⟨h0, h1, h2⟩ := band_index_msk t
  show iblk0 V c 1 t (ix3 b r q) = _
  unfold iblk0
  rw [View.read_apply]
  show V c (Pipeline.arrRef spec0 1) _ = V c (Pipeline.arrRef spec0 1) _
  congr 1
  funext a
  apply Fin.ext
  match a with
  | ⟨0, _⟩ => show win0_1.index t 0 * 8 + 1 * b.val = b.val; rw [h0]; omega
  | ⟨1, _⟩ => show win0_1.index t 1 * 128 + 1 * r.val = R.val; rw [h1, hR]; omega
  | ⟨2, _⟩ => show win0_1.index t 2 * 1024 + 1 * q.val = q.val; rw [h2]; omega

end

end Cert.KernelIdeal.Hand

end
-- ==== Proof.KI.DaRefPix.lean ====
import proofs.«134848_j7748121002193_1_alg».proof.Proof.KI.DaPay
import proofs.«134848_j7748121002193_1_alg».proof.Proof.RefStages
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

theorem ref_bce_apply (x2 : (⟨S8x1x1024x1024, .f32⟩ : BufTy).Contents (Elt Ideal)) (x3 : (⟨S8x1024x1024, .i32⟩ : BufTy).Contents (Elt Ideal))
    (b : Fin 8) (R q : Fin 1024) :
    Cert.ReferenceIdeal.ReadP.val_main_v177 (F := Ideal) x2 x3 (ix3 b R q) = bcePix (x2 (ix4 b 0 R q)) (x3 (ix3 b R q)) := by
  have e166 : Cert.ReferenceIdeal.ReadP.val_main_v166 (F := Ideal) x2 (ix3 b R q) = x2 (ix4 b 0 R q) := by
    rw [Cert.ReferenceIdeal.ReadP.val_main_v166_apply]
    refine congrArg x2 (funext fun a => Fin.ext ?_)
    have hR := R.isLt
    have hq := q.isLt
    have hb := b.isLt
    match a with
    | ⟨0, _⟩ => show ((b.val * 1024 + R.val) * 1024 + q.val) / 1048576 = b.val; omega
    | ⟨1, _⟩ => rfl
    | ⟨2, _⟩ => show ((b.val * 1024 + R.val) * 1024 + q.val) / 1024 % 1024 = R.val; omega
    | ⟨3, _⟩ => show ((b.val * 1024 + R.val) * 1024 + q.val) % 1024 = q.val; omega
  have e162 : Cert.ReferenceIdeal.ReadP.val_main_v162 (F := Ideal) (ix3 b R q) = 255#32 := by rw [Cert.ReferenceIdeal.ReadP.val_main_v162_apply]; rfl
  have e51 : Cert.ReferenceIdeal.ReadP.val_main_call5_v1 (F := Ideal) (ix3 b R q) = 0#32 := by rw [Cert.ReferenceIdeal.ReadP.val_main_call5_v1_apply]; rfl
  have e167 : Cert.ReferenceIdeal.ReadP.val_main_v167 (F := Ideal) (ix3 b R q) = 0 := by
    rw [Cert.ReferenceIdeal.ReadP.val_main_v167_apply]; exact Ideal.ofBits_zero_f32
  show FloatOps.mulf
      (FloatOps.addf
        (FloatOps.subf (FloatOps.maximumf (Cert.ReferenceIdeal.ReadP.val_main_v166 (F := Ideal) x2 (ix3 b R q)) (Cert.ReferenceIdeal.ReadP.val_main_v167 (F := Ideal) (ix3 b R q)))
          (FloatOps.mulf (Cert.ReferenceIdeal.ReadP.val_main_v166 (F := Ideal) x2 (ix3 b R q))
            (FloatOps.sitofp (F := Ideal) .f32
              (Scalar.select (IntOp.cmpi .ne (x3 (ix3 b R q)) (Cert.ReferenceIdeal.ReadP.val_main_v162 (F := Ideal) (ix3 b R q))) (x3 (ix3 b R q))
                (Cert.ReferenceIdeal.ReadP.val_main_call5_v1 (F := Ideal) (ix3 b R q))))))
        (FloatOps.hostUnary .log1p (FloatOps.hostUnary .exp (FloatOps.hostNegf (FloatOps.hostAbsf (Cert.ReferenceIdeal.ReadP.val_main_v166 (F := Ideal) x2 (ix3 b R q)))))))
      (FloatOps.uitofp (F := Ideal) .f32 (IntOp.cmpi .ne (x3 (ix3 b R q)) (Cert.ReferenceIdeal.ReadP.val_main_v162 (F := Ideal) (ix3 b R q)))) = _
  rw [e166, e162, e51, e167]
  rfl

theorem ref_valid_apply (x3 : (⟨S8x1024x1024, .i32⟩ : BufTy).Contents (Elt Ideal)) (b : Fin 8) (R q : Fin 1024) :
    Cert.ReferenceIdeal.ReadP.val_main_v176 (F := Ideal) x3 (ix3 b R q) = validPix (x3 (ix3 b R q)) := by
  have e162 : Cert.ReferenceIdeal.ReadP.val_main_v162 (F := Ideal) (ix3 b R q) = 255#32 := by rw [Cert.ReferenceIdeal.ReadP.val_main_v162_apply]; rfl
  show FloatOps.uitofp (F := Ideal) .f32 (IntOp.cmpi .ne (x3 (ix3 b R q)) (Cert.ReferenceIdeal.ReadP.val_main_v162 (F := Ideal) (ix3 b R q))) = _
  rw [e162]
  rfl

theorem ref_bit_apply (x3 : (⟨S8x1024x1024, .i32⟩ : BufTy).Contents (Elt Ideal)) (b : Fin 8) (R q : Fin 1024) :
    Cert.ReferenceIdeal.ReadP.val_main_v163 (F := Ideal) x3 (ix3 b R q) = IntOp.cmpi .ne (x3 (ix3 b R q)) 255#32 := by
  have e162 : Cert.ReferenceIdeal.ReadP.val_main_v162 (F := Ideal) (ix3 b R q) = 255#32 := by rw [Cert.ReferenceIdeal.ReadP.val_main_v162_apply]; rfl
  show IntOp.cmpi .ne (x3 (ix3 b R q)) (Cert.ReferenceIdeal.ReadP.val_main_v162 (F := Ideal) (ix3 b R q)) = _
  rw [e162]

end Cert.KernelIdeal.Hand

end
-- ==== Proof.KI.DaKer.lean ====
import proofs.«134848_j7748121002193_1_alg».proof.Proof.KI.R0
import proofs.«134848_j7748121002193_1_alg».proof.Proof.RefStages
import proofs.«134848_j7748121002193_1_alg».proof.Proof.KI.DaPay
import proofs.«134848_j7748121002193_1_alg».proof.Proof.KI.DaBlk
import proofs.«134848_j7748121002193_1_alg».proof.Proof.KI.DaRefPix
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

def row0 (t : Fin 8) (r : Fin 128) : Fin 1024 := ⟨128 * t.val + r.val, by omega⟩

theorem h7 : 7 < cfg0.N := by rw [show cfg0.N = 8 from N_0]; decide

section
variable (V : (c : Dev nD) → (b : Ref sig .tc) → Buf (Elt Ideal) ((c : Thread nD τ).loc b))

def rowN (s : ℕ) (r : Fin 128) : Fin 1024 := ⟨(128 * s + r.val) % 1024, Nat.mod_lt _ (by decide)⟩

theorem rowN_val (s : ℕ) (hs : s < 8) (r : Fin 128) : (rowN s r).val = 128 * s + r.val := by
  show (128 * s + r.val) % 1024 = 128 * s + r.val
  have := r.isLt
  omega

def bandBce (x2 : S8x1x1024x1024.Idx → EReal) (x3 : S8x1024x1024.Idx → BitVec 32) (b : Fin 8) (s : ℕ) : EReal :=
  ∑ r : Fin 128, ∑ q : Fin 1024, bcePix (x2 (ix4 b 0 (rowN s r) q)) (x3 (ix3 b (rowN s r) q))
def bandCnt (x3 : S8x1024x1024.Idx → BitVec 32) (b : Fin 8) (s : ℕ) : EReal :=
  ∑ r : Fin 128, ∑ q : Fin 1024, validPix (x3 (ix3 b (rowN s r) q))

theorem acc0_fst_apply (c : Dev nD) (b : Fin 8) : ∀ (n : ℕ) (h : n < cfg0.N),
    (acc0 V c n h).1 (ix2 b 0) = ∑ s ∈ Finset.range (n + 1),
      bandBce (V c (Pipeline.arrRef spec0 0)) (V c (Pipeline.arrRef spec0 1)) b s
  | 0, h => by
    rw [acc0_zero]
    show k0_pay7 _ _ _ (ix2 b 0) = _
    rw [pay7_apply, pay2_apply, zero_add, Finset.sum_range_one]
    refine Finset.sum_congr rfl fun r _ => Finset.sum_congr rfl fun q _ => ?_
    rw [xlog0_apply V c ⟨0, h⟩ b r q (rowN 0 r) (rowN_val 0 (by decide) r),
      xmsk0_apply V c ⟨0, h⟩ b r q (rowN 0 r) (rowN_val 0 (by decide) r)]
  | n + 1, h => by
    have h8 : n + 1 < 8 := by have := h; rw [show cfg0.N = 8 from N_0] at this; exact this
    rw [acc0_succ]
    show k0_pay7 _ _ _ (ix2 b 0) = _
    rw [pay7_apply, acc0_fst_apply c b n _, Finset.sum_range_succ _ (n + 1)]
    refine congrArg (_ + ·) (Finset.sum_congr rfl fun r _ => Finset.sum_congr rfl fun q _ => ?_)
    rw [xlog0_apply V c ⟨n + 1, h⟩ b r q (rowN (n + 1) r) (rowN_val (n + 1) h8 r),
      xmsk0_apply V c ⟨n + 1, h⟩ b r q (rowN (n + 1) r) (rowN_val (n + 1) h8 r)]

theorem acc0_snd_apply (c : Dev nD) (b : Fin 8) : ∀ (n : ℕ) (h : n < cfg0.N),
    (acc0 V c n h).2 (ix2 b 0) = ∑ s ∈ Finset.range (n + 1), bandCnt (V c (Pipeline.arrRef spec0 1)) b s
  | 0, h => by
    rw [acc0_zero]
    show k0_pay1 (k0_pay6 _) _ (ix2 b 0) = _
    rw [pay1_pay6_apply, pay3_apply, zero_add, Finset.sum_range_one]
    refine Finset.sum_congr rfl fun r _ => Finset.sum_congr rfl fun q _ => ?_
    rw [xmsk0_apply V c ⟨0, h⟩ b r q (rowN 0 r) (rowN_val 0 (by decide) r)]
  | n + 1, h => by
    have h8 : n + 1 < 8 := by have := h; rw [show cfg0.N = 8 from N_0] at this; exact this
    rw [acc0_succ]
    show k0_pay1 (k0_pay6 _) _ (ix2 b 0) = _
    rw [pay1_pay6_apply, acc0_snd_apply c b n _, Finset.sum_range_succ _ (n + 1)]
    refine congrArg (_ + ·) (Finset.sum_congr rfl fun r _ => Finset.sum_congr rfl fun q _ => ?_)
    rw [xmsk0_apply V c ⟨n + 1, h⟩ b r q (rowN (n + 1) r) (rowN_val (n + 1) h8 r)]

theorem acc0_bce (c : Dev nD) (x2 : (⟨S8x1x1024x1024, .f32⟩ : BufTy).Contents (Elt Ideal)) (x3 : (⟨S8x1024x1024, .i32⟩ : BufTy).Contents (Elt Ideal))
    (h2 : V c main_arg2 = x2) (h3 : V c main_arg3 = x3) (b : Fin 8) :
    (acc0 V c 7 h7).1 (ix2 b 0)
      = ∑ t : Fin 8, ∑ r : Fin 128, ∑ q : Fin 1024, Cert.ReferenceIdeal.ReadP.val_main_v177 (F := Ideal) x2 x3 (ix3 b (row0 t r) q) := by
  have h2' : V c (Pipeline.arrRef spec0 0) = x2 := h2
  have h3' : V c (Pipeline.arrRef spec0 1) = x3 := h3
  rw [acc0_fst_apply V c b 7 h7, h2', h3']
  refine (Fin.sum_univ_eq_sum_range (fun s => bandBce x2 x3 b s) 8).symm.trans (Finset.sum_congr rfl fun t _ => ?_)
  unfold bandBce
  refine Finset.sum_congr rfl fun r _ => Finset.sum_congr rfl fun q _ => ?_
  rw [ref_bce_apply, show rowN t.val r = row0 t r from Fin.ext (rowN_val t.val t.isLt r)]

theorem acc0_cnt (c : Dev nD) (x3 : (⟨S8x1024x1024, .i32⟩ : BufTy).Contents (Elt Ideal))
    (h3 : V c main_arg3 = x3) (b : Fin 8) :
    (acc0 V c 7 h7).2 (ix2 b 0)
      = ∑ t : Fin 8, ∑ r : Fin 128, ∑ q : Fin 1024, Cert.ReferenceIdeal.ReadP.val_main_v176 (F := Ideal) x3 (ix3 b (row0 t r) q) := by
  have h3' : V c (Pipeline.arrRef spec0 1) = x3 := h3
  rw [acc0_snd_apply V c b 7 h7, h3']
  refine (Fin.sum_univ_eq_sum_range (fun s => bandCnt x3 b s) 8).symm.trans (Finset.sum_congr rfl fun t _ => ?_)
  unfold bandCnt
  refine Finset.sum_congr rfl fun r _ => Finset.sum_congr rfl fun q _ => ?_
  rw [ref_valid_apply, show rowN t.val r = row0 t r from Fin.ext (rowN_val t.val t.isLt r)]

end

end Cert.KernelIdeal.Hand

end
-- ==== Proof.KI.SumLaws.lean ====
import Mathlib.Algebra.BigOperators.Fin
import Mathlib.Logic.Equiv.Fin.Basic
import Mathlib.Algebra.BigOperators.Group.Finset.Sigma

namespace Cert.KernelIdeal.Hand

open scoped BigOperators

theorem sum_fin_mul {M : Type*} [AddCommMonoid M] {m n : ℕ} (g : Fin (m * n) → M) :
    ∑ k : Fin (m * n), g k = ∑ a : Fin m, ∑ b : Fin n, g (finProdFinEquiv (a, b)) := by
  rw [← finProdFinEquiv.sum_comp, Fintype.sum_prod_type]

theorem sum_fin_split {M : Type*} [AddCommMonoid M] {m n N : ℕ} (hN : N = m * n) (g : Fin N → M)
    (hlt : ∀ (a : Fin m) (b : Fin n), n * a.val + b.val < N) :
    ∑ k : Fin N, g k = ∑ a : Fin m, ∑ b : Fin n, g ⟨n * a.val + b.val, hlt a b⟩ := by
  subst hN
  rw [sum_fin_mul]
  refine Finset.sum_congr rfl fun a _ => Finset.sum_congr rfl fun b _ => congrArg g (Fin.ext ?_)
  show b.val + n * a.val = n * a.val + b.val
  exact Nat.add_comm _ _

theorem sum_flat_eq_bands {M : Type*} [AddCommMonoid M] {A B C R N : ℕ} (hR : R = A * B) (hN : N = R * C)
    (f : Fin R → Fin C → M) (hd : ∀ k : Fin N, k.val / C < R) (hm : ∀ k : Fin N, k.val % C < C)
    (hrow : ∀ (t : Fin A) (r : Fin B), B * t.val + r.val < R) :
    ∑ k : Fin N, f ⟨k.val / C, hd k⟩ ⟨k.val % C, hm k⟩
      = ∑ t : Fin A, ∑ r : Fin B, ∑ q : Fin C, f ⟨B * t.val + r.val, hrow t r⟩ q := by
  have hlt : ∀ (a : Fin R) (b : Fin C), C * a.val + b.val < N := fun a b => by
    subst hN
    calc C * a.val + b.val < C * a.val + C := Nat.add_lt_add_left b.isLt _
      _ = C * (a.val + 1) := by rw [Nat.mul_succ]
      _ ≤ C * R := Nat.mul_le_mul_left _ a.isLt
      _ = R * C := Nat.mul_comm _ _
  rw [sum_fin_split hN _ hlt, sum_fin_split hR _ hrow]
  refine Finset.sum_congr rfl fun t _ => Finset.sum_congr rfl fun r _ => Finset.sum_congr rfl fun q _ => ?_
  have hC : 0 < C := Nat.pos_of_ne_zero fun h => by have := q.isLt; omega
  congr 1
  · exact Fin.ext (by
      show (C * (B * t.val + r.val) + q.val) / C = B * t.val + r.val
      rw [Nat.add_comm, Nat.add_mul_div_left _ _ hC, Nat.div_eq_of_lt q.isLt, Nat.zero_add])
  · exact Fin.ext (by
      show (C * (B * t.val + r.val) + q.val) % C = q.val
      rw [Nat.add_comm, Nat.add_mul_mod_self_left, Nat.mod_eq_of_lt q.isLt])

end Cert.KernelIdeal.Hand
-- ==== Proof.KI.CountLaws.lean ====
import Idealize.ShloMosaic.PureOps.Ideal.Laws
import Idealize.ShloMosaic.Lib.StableHlo.Predicate

namespace Cert.KernelIdeal.Hand

open Idealize.ShloMosaic
open scoped BigOperators

theorem ofBits_one_f32 : Ideal.ofBits .f32 0x3F800000#32 = 1 := by
  simp [Ideal.ofBits, Ideal.ieee, -EReal.coe_mul]; norm_num

theorem ereal_coe_sum {ι : Type*} (S : Finset ι) (g : ι → ℝ) :
    ∑ i ∈ S, ((g i : ℝ) : EReal) = ((∑ i ∈ S, g i : ℝ) : EReal) := by
  classical
  induction S using Finset.induction_on with
  | empty => simp
  | insert a S ha ih => rw [Finset.sum_insert ha, Finset.sum_insert ha, ih, EReal.coe_add]

theorem sum_bits_cast {ι : Type*} [Fintype ι] (g : ι → BitVec 1) :
    ∑ i, (((g i).toNat : ℝ) : EReal) = (((∑ i, (g i).toNat : ℕ) : ℝ) : EReal) := by
  rw [ereal_coe_sum, Nat.cast_sum]

theorem toNat_setWidth_bit' (b : BitVec 1) : (b.setWidth 32).toNat = b.toNat := by
  rcases BitVec.eq_zero_or_eq_one b with rfl | rfl <;> rfl

theorem toNat_bit_le (b : BitVec 1) : b.toNat ≤ 1 := by
  have := b.isLt; omega

theorem sum_bits_le {ι : Type*} [Fintype ι] (g : ι → BitVec 1) : ∑ i, (g i).toNat ≤ Fintype.card ι := by
  calc ∑ i, (g i).toNat ≤ ∑ _i : ι, 1 := Finset.sum_le_sum fun i _ => toNat_bit_le (g i)
    _ = Fintype.card ι := by simp

theorem toNat_fold_addi_bits {ι : Type} [Fintype ι] [DecidableEq ι] (g : ι → BitVec 1) (G : ι → BitVec 32)
    (hG : ∀ k, G k = (g k).setWidth 32) (hcard : Fintype.card ι < 2 ^ 32) :
    (Finset.univ.fold IntOp.addi 0#32 G).toNat = ∑ k, (g k).toNat := by
  have hv : ∀ k, (G k).toNat = (g k).toNat := fun k => by rw [hG, toNat_setWidth_bit']
  have hsum : ∑ k, (G k).toNat = ∑ k, (g k).toNat := Finset.sum_congr rfl fun k _ => hv k
  rw [StableHlo.Predicate.toNat_fold_addi _ _ (by rw [hsum]; exact lt_of_le_of_lt (sum_bits_le g) hcard), hsum]

theorem toNat_ori_bit (x y : BitVec 1) : (IntOp.ori x y).toNat = if 0 < x.toNat + y.toNat then 1 else 0 := by
  rcases BitVec.eq_zero_or_eq_one x with rfl | rfl <;> rcases BitVec.eq_zero_or_eq_one y with rfl | rfl <;> rfl

theorem toNat_fold_ori_bits {ι : Type} [DecidableEq ι] (S : Finset ι) (g : ι → BitVec 1) :
    (S.fold IntOp.ori 0#1 g).toNat = if 0 < ∑ k ∈ S, (g k).toNat then 1 else 0 := by
  induction S using Finset.cons_induction with
  | empty => rfl
  | cons a S ha ih =>
    rw [Finset.fold_cons, Finset.sum_cons, toNat_ori_bit, ih]
    have := toNat_bit_le (g a)
    split_ifs <;> omega

theorem maxsi_one_cast (c : BitVec 32) (hc : c.toNat < 2 ^ 31) :
    (((IntOp.maxsi c 1#32).toInt : ℝ) : EReal) = max (((c.toNat : ℝ)) : EReal) (Ideal.ofBits .f32 0x3F800000#32) := by
  have hci : c.toInt = c.toNat := StableHlo.Predicate.toInt_eq_toNat_of_lt hc
  have h1 : (1#32 : BitVec 32).toInt = 1 := by decide
  rw [ofBits_one_f32]
  unfold IntOp.maxsi
  by_cases h : (1#32 : BitVec 32).slt c = true
  · rw [if_pos h]
    simp only [BitVec.slt, h1, hci, decide_eq_true_eq] at h
    have h' : (1 : ℕ) < c.toNat := by exact_mod_cast h
    rw [hci, max_eq_left]
    · norm_cast
    · have : ((1 : ℝ) : EReal) ≤ ((c.toNat : ℝ) : EReal) := EReal.coe_le_coe_iff.2 (by exact_mod_cast h'.le)
      simpa using this
  · rw [if_neg h]
    simp only [BitVec.slt, h1, hci, decide_eq_true_eq, not_lt] at h
    have h' : c.toNat ≤ 1 := by exact_mod_cast h
    rw [h1, max_eq_right]
    · norm_cast
    · have : ((c.toNat : ℝ) : EReal) ≤ ((1 : ℝ) : EReal) := EReal.coe_le_coe_iff.2 (by exact_mod_cast h')
      simpa using this

theorem cmp_ogt_zero_cast (N : ℕ) :
    (((Ideal.cmp .ogt ((N : ℝ) : EReal) (Ideal.ofBits .f32 0x00000000#32)).toNat : ℝ) : EReal)
      = (((if 0 < N then 1 else 0 : ℕ) : ℝ) : EReal) := by
  rw [Ideal.ofBits_zero_f32]
  unfold Ideal.cmp
  by_cases h : 0 < N
  · have : (0 : EReal) < ((N : ℝ) : EReal) := EReal.coe_pos.2 (by exact_mod_cast h)
    simp [h, this]
  · have h0 : N = 0 := by omega
    subst h0
    simp

end Cert.KernelIdeal.Hand
-- ==== Proof.KI.DaJoin.lean ====
import proofs.«134848_j7748121002193_1_alg».proof.Proof.RefStages
import proofs.«134848_j7748121002193_1_alg».proof.Proof.KI.SumLaws
import proofs.«134848_j7748121002193_1_alg».proof.Proof.KI.CountLaws
import proofs.«134848_j7748121002193_1_alg».proof.Proof.KI.Epi
import Idealize.ShloMosaic.Lib.ValueIdx
import Idealize.ShloMosaic.Lib.Pipeline.Value
import Idealize.ShloMosaic.PureOps.Ideal.Laws
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

abbrev pixRow (k : Fin 1048576) : Fin 1024 := ⟨k.val / 1024, by have := k.isLt; omega⟩
abbrev pixCol (k : Fin 1048576) : Fin 1024 := ⟨k.val % 1024, by omega⟩

def validBit (x3 : (⟨S8x1024x1024, .i32⟩ : BufTy).Contents (Elt Ideal)) (b : Fin 8) (k : Fin 1048576) : BitVec 1 :=
  Cert.ReferenceIdeal.ReadP.val_main_v163 (F := Ideal) x3 (ix3 b (pixRow k) (pixCol k))
def validCountDa (x3 : (⟨S8x1024x1024, .i32⟩ : BufTy).Contents (Elt Ideal)) (b : Fin 8) : ℕ :=
  ∑ k : Fin 1048576, (validBit x3 b k).toNat

theorem validCountDa_le (x3 : (⟨S8x1024x1024, .i32⟩ : BufTy).Contents (Elt Ideal)) (b : Fin 8) : validCountDa x3 b ≤ 1048576 := by
  have := sum_bits_le (validBit x3 b)
  rwa [Fintype.card_fin] at this

theorem flat_idx (b : Fin 8) (k : Fin 1048576) (i : Cert.ReferenceIdeal.S8x1048576.Idx) (h0 : (i 0).val = b.val) (h1 : (i 1).val = k.val) :
    Cert.ReferenceIdeal.ReadP.idx_main_v184 i = ix3 b (pixRow k) (pixCol k) := by
  have := k.isLt
  have := b.isLt
  refine funext fun a => Fin.ext ?_
  match a with
  | ⟨0, _⟩ => show ((i 0).val * 1048576 + (i 1).val) / 1048576 = b.val; rw [h0, h1]; omega
  | ⟨1, _⟩ => show ((i 0).val * 1048576 + (i 1).val) / 1024 % 1024 = k.val / 1024; rw [h0, h1]; omega
  | ⟨2, _⟩ => show ((i 0).val * 1048576 + (i 1).val) % 1024 = k.val % 1024; rw [h0, h1]; omega

theorem ref_bce_sum (x2 : (⟨S8x1x1024x1024, .f32⟩ : BufTy).Contents (Elt Ideal)) (x3 : (⟨S8x1024x1024, .i32⟩ : BufTy).Contents (Elt Ideal)) (b : Fin 8) :
    Cert.ReferenceIdeal.ReadP.val_main_v185 (F := Ideal) x2 x3 (ix1 b)
      = ∑ t : Fin 8, ∑ r : Fin 128, ∑ q : Fin 1024,
          Cert.ReferenceIdeal.ReadP.val_main_v177 (F := Ideal) x2 x3 (ix3 b ⟨128 * t.val + r.val, by omega⟩ q) := by
  rw [Cert.ReferenceIdeal.ReadP.val_main_v185_apply]
  show Ideal.ofBits .f32 0x00000000#32 + _ = _
  rw [Ideal.ofBits_zero_f32, zero_add]
  refine Eq.trans (Finset.sum_congr rfl fun k _ => ?_)
    (sum_flat_eq_bands (A := 8) (B := 128) (C := 1024) (R := 1024) (N := 1048576) rfl rfl
      (fun R q => Cert.ReferenceIdeal.ReadP.val_main_v177 (F := Ideal) x2 x3 (ix3 b R q))
      (fun k => by have := k.isLt; omega) (fun k => by omega) (fun t r => by omega))
  rw [Cert.ReferenceIdeal.ReadP.val_main_v184_apply, flat_idx b k _ rfl rfl]

theorem ker_count_eq (x3 : (⟨S8x1024x1024, .i32⟩ : BufTy).Contents (Elt Ideal)) (b : Fin 8) :
    (∑ t : Fin 8, ∑ r : Fin 128, ∑ q : Fin 1024,
        Cert.ReferenceIdeal.ReadP.val_main_v176 (F := Ideal) x3 (ix3 b ⟨128 * t.val + r.val, by omega⟩ q))
      = (((validCountDa x3 b : ℕ) : ℝ) : EReal) := by
  refine (sum_flat_eq_bands (A := 8) (B := 128) (C := 1024) (R := 1024) (N := 1048576) rfl rfl
      (fun R q => Cert.ReferenceIdeal.ReadP.val_main_v176 (F := Ideal) x3 (ix3 b R q))
      (fun k => by have := k.isLt; omega) (fun k => by omega) (fun t r => by omega)).symm.trans ?_
  exact sum_bits_cast (validBit x3 b)

theorem ref_count_toNat (x3 : (⟨S8x1024x1024, .i32⟩ : BufTy).Contents (Elt Ideal)) (b : Fin 8) :
    (Cert.ReferenceIdeal.ReadP.val_main_v180 (F := Ideal) x3 (ix1 b)).toNat = validCountDa x3 b := by
  unfold Cert.ReferenceIdeal.ReadP.val_main_v180
  rw [Host.reduce_eq_fold_single IntOp.addi _ _ Cert.ReferenceIdeal.Gen.reducesTo_S8x1048576_S8_d1 (by decide) Cert.ReferenceIdeal.Gen.h_S_ (ix1 b)]
  refine toNat_fold_addi_bits (validBit x3 b) _ (fun k => ?_) (by rw [Fintype.card_fin]; decide)
  show (Cert.ReferenceIdeal.ReadP.val_main_v178 (F := Ideal) x3 _).setWidth 32 = _
  rw [Cert.ReferenceIdeal.ReadP.val_main_v178_apply]
  exact congrArg (fun i => (Cert.ReferenceIdeal.ReadP.val_main_v163 (F := Ideal) x3 i).setWidth 32) (flat_idx b k _ rfl rfl)

theorem ref_divisor_apply (x3 : (⟨S8x1024x1024, .i32⟩ : BufTy).Contents (Elt Ideal)) (b : Fin 8) :
    Cert.ReferenceIdeal.ReadP.val_main_v183 (F := Ideal) x3 (ix1 b)
      = max ((((validCountDa x3 b : ℕ) : ℝ)) : EReal) (Ideal.ofBits .f32 0x3F800000#32) := by
  have e181 : Cert.ReferenceIdeal.ReadP.val_main_v181 (F := Ideal) (ix1 b) = 1#32 := by rw [Cert.ReferenceIdeal.ReadP.val_main_v181_apply]; rfl
  show ((((IntOp.maxsi (Cert.ReferenceIdeal.ReadP.val_main_v180 (F := Ideal) x3 (ix1 b)) (Cert.ReferenceIdeal.ReadP.val_main_v181 (F := Ideal) (ix1 b))).toInt : ℝ)) : EReal) = _
  rw [e181, maxsi_one_cast _ (by rw [ref_count_toNat]; have := validCountDa_le x3 b; omega), ref_count_toNat]

theorem ref_any_apply (x3 : (⟨S8x1024x1024, .i32⟩ : BufTy).Contents (Elt Ideal)) (b : Fin 8) :
    Cert.ReferenceIdeal.ReadP.val_main_v190 (F := Ideal) x3 (ix1 b) = (((if 0 < validCountDa x3 b then 1 else 0 : ℕ) : ℝ) : EReal) := by
  show ((((Cert.ReferenceIdeal.ReadP.val_main_v189 (F := Ideal) x3 (ix1 b)).toNat : ℝ)) : EReal) = _
  unfold Cert.ReferenceIdeal.ReadP.val_main_v189
  rw [Host.reduce_eq_fold_single IntOp.ori _ _ Cert.ReferenceIdeal.Gen.reducesTo_S8x1048576_S8_d1 (by decide) Cert.ReferenceIdeal.Gen.h_S_ (ix1 b)]
  have hg : (Cert.ReferenceIdeal.ReadP.val_main_v188 (F := Ideal) x3 ∘ Shape.Reduces.lift (by decide : Cert.ReferenceIdeal.S8x1048576.Reduces [1] Cert.ReferenceIdeal.S8) (ix1 b)) = validBit x3 b := by
    funext k
    show Cert.ReferenceIdeal.ReadP.val_main_v188 (F := Ideal) x3 _ = _
    rw [Cert.ReferenceIdeal.ReadP.val_main_v188_apply]
    exact congrArg (Cert.ReferenceIdeal.ReadP.val_main_v163 (F := Ideal) x3) (flat_idx b k _ rfl rfl)
  rw [hg]
  show ((((Finset.univ.fold IntOp.ori 0#1 (validBit x3 b)).toNat : ℝ)) : EReal) = _
  rw [toNat_fold_ori_bits]
  rfl

theorem col_apply (s : Vec Ideal S8x1 .f32) (b : Fin 8) : shapeCast S8 s shapeCasts_S8x1_S8 (ix1 b) = s (ix2 b 0) :=
  shapeCast_apply s _ _ _ (by rw [Shape.rowMajor_val_two, Shape.rowMajor_val_one]; show b.val * 1 + 0 = b.val; omega)

theorem spread_apply (z : (⟨S_, .f32⟩ : BufTy).Contents (Elt Ideal)) (b : Fin 8) :
    broadcastInDim S8 ![] bcast_S_S8 z (ix1 b) = z ix0 :=
  broadcastInDim_apply _ bcast_S_S8 z (ix1 b) ix0 (fun a => a.elim0)

theorem daLoss_eq_ref (sb sd : (⟨S8x1, .f32⟩ : BufTy).Contents (Elt Ideal))
    (x2 : (⟨S8x1x1024x1024, .f32⟩ : BufTy).Contents (Elt Ideal)) (x3 : (⟨S8x1024x1024, .i32⟩ : BufTy).Contents (Elt Ideal))
    (x7 : (⟨S8, .i32⟩ : BufTy).Contents (Elt Ideal))
    (hsb : ∀ b : Fin 8, sb (ix2 b 0) = ∑ t : Fin 8, ∑ r : Fin 128, ∑ q : Fin 1024,
      Cert.ReferenceIdeal.ReadP.val_main_v177 (F := Ideal) x2 x3 (ix3 b ⟨128 * t.val + r.val, by omega⟩ q))
    (hsd : ∀ b : Fin 8, sd (ix2 b 0) = ∑ t : Fin 8, ∑ r : Fin 128, ∑ q : Fin 1024,
      Cert.ReferenceIdeal.ReadP.val_main_v176 (F := Ideal) x3 (ix3 b ⟨128 * t.val + r.val, by omega⟩ q)) :
    daLoss (F := Ideal) sb sd x7 = Cert.ReferenceIdeal.ReadP.val_main_v196 (F := Ideal) x2 x3 x7 := by
  have ha : shapeCast S8 sb shapeCasts_S8x1_S8 = Cert.ReferenceIdeal.ReadP.val_main_v185 (F := Ideal) x2 x3 := funext fun i => by
    obtain ⟨b, rfl⟩ : ∃ b : Fin 8, i = ix1 b := ⟨i 0, eq_ix1 i⟩
    rw [col_apply, hsb, ref_bce_sum]
  have hd : ∀ b : Fin 8, shapeCast S8 sd shapeCasts_S8x1_S8 (ix1 b) = (((validCountDa x3 b : ℕ) : ℝ) : EReal) := fun b => by
    rw [col_apply, hsd, ker_count_eq]
  have hb : maximumf (shapeCast S8 sd shapeCasts_S8x1_S8)
      (broadcastInDim S8 ![] bcast_S_S8 (constant (F := Ideal) S_ .f32 0x3F800000#32)) = Cert.ReferenceIdeal.ReadP.val_main_v183 (F := Ideal) x3 :=
    funext fun i => by
      obtain ⟨b, rfl⟩ : ∃ b : Fin 8, i = ix1 b := ⟨i 0, eq_ix1 i⟩
      show max (shapeCast S8 sd shapeCasts_S8x1_S8 (ix1 b))
        (broadcastInDim S8 ![] bcast_S_S8 (constant (F := Ideal) S_ .f32 0x3F800000#32) (ix1 b)) = _
      rw [hd, spread_apply, ref_divisor_apply]
      rfl
  have hc : uitofp (F := Ideal) .f32 (cmpf .ogt (shapeCast S8 sd shapeCasts_S8x1_S8)
      (broadcastInDim S8 ![] bcast_S_S8 (constant (F := Ideal) S_ .f32 0x00000000#32))) = Cert.ReferenceIdeal.ReadP.val_main_v190 (F := Ideal) x3 :=
    funext fun i => by
      obtain ⟨b, rfl⟩ : ∃ b : Fin 8, i = ix1 b := ⟨i 0, eq_ix1 i⟩
      show ((((Ideal.cmp .ogt (shapeCast S8 sd shapeCasts_S8x1_S8 (ix1 b))
        (broadcastInDim S8 ![] bcast_S_S8 (constant (F := Ideal) S_ .f32 0x00000000#32) (ix1 b))).toNat : ℝ)) : EReal) = _
      rw [hd, spread_apply, ref_any_apply]
      exact cmp_ogt_zero_cast _
  unfold daLoss
  dsimp only
  rw [ha, hb, hc]
  rfl

end Cert.KernelIdeal.Hand

end
-- ==== Proof.KI.DaRef.lean ====
import proofs.«134848_j7748121002193_1_alg».proof.Proof.KI.DaKer
import proofs.«134848_j7748121002193_1_alg».proof.Proof.KI.DaJoin
import proofs.«134848_j7748121002193_1_alg».proof.Proof.KI.Epi
import proofs.«134848_j7748121002193_1_alg».proof.Proof.RefStages
import Idealize.ShloMosaic.Lib.ValueIdx
import Idealize.ShloMosaic.Lib.Pipeline.Value
import Idealize.ShloMosaic.PureOps.Ideal.Laws
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

section
variable (V : (c : Dev nD) → (b : Ref sig .tc) → Buf (Elt Ideal) ((c : Thread nD τ).loc b))

theorem da_math (c : Dev nD) (x2 : (⟨S8x1x1024x1024, .f32⟩ : BufTy).Contents (Elt Ideal)) (x3 : (⟨S8x1024x1024, .i32⟩ : BufTy).Contents (Elt Ideal))
    (x7 : (⟨S8, .i32⟩ : BufTy).Contents (Elt Ideal)) (h2 : V c main_arg2 = x2) (h3 : V c main_arg3 = x3) :
    daLoss (F := Ideal) (acc0 V c 7 h7).1 (acc0 V c 7 h7).2 x7 = Cert.ReferenceIdeal.ReadP.val_main_v196 (F := Ideal) x2 x3 x7 :=
  daLoss_eq_ref _ _ x2 x3 x7 (fun b => acc0_bce V c x2 x3 h2 h3 b) (fun b => acc0_cnt V c x3 h3 b)

end

end Cert.KernelIdeal.Hand

end
-- ==== Proof.KI.RmPix.lean ====
import Idealize.ShloMosaic.PureOps.Ideal.Laws
import Idealize.ShloMosaic.Lib.ValueIdx
import Idealize.ShloMosaic.Lib.Pipeline.Value

set_option maxRecDepth 16384

noncomputable section

namespace Cert.KernelIdeal.Hand

open Idealize.ShloMosaic
open Idealize.ShloMosaic.ValueIdx
open scoped BigOperators

def zW : EReal := Ideal.ofBits .f32 0x00000000#32
def oW : EReal := Ideal.ofBits .f32 0x3F800000#32
def twoW : EReal := Ideal.ofBits .f32 0x40000000#32

theorem zW_eq : zW = 0 := Ideal.ofBits_zero_f32
theorem oW_eq : oW = 1 := by
  unfold oW; simp [Ideal.ofBits, Ideal.ieee, -EReal.coe_mul]; norm_num
theorem twoW_eq : twoW = ((2 : ℝ) : EReal) := by
  unfold twoW; simp [Ideal.ofBits, Ideal.ieee, -EReal.coe_mul]; norm_num

def pxC (k : BitVec 32) : BitVec 1 := IntOp.cmpi .ne k 255#32

def pxRt (k : BitVec 32) : EReal := (((Scalar.select (pxC k) k 0#32).toInt : ℝ) : EReal)

def pxV (k : BitVec 32) : EReal := ((((pxC k).setWidth 32).toInt : ℝ) : EReal)

def pxProb (x : EReal) : EReal := Ideal.logistic x

def pxBce (x : EReal) (k : BitVec 32) : EReal := (max x zW - x * pxRt k) + Ideal.log1p (Ideal.exp (zW - max x (-x)))

def pxPt (x : EReal) (k : BitVec 32) : EReal := pxProb x * pxRt k + (oW - pxProb x) * (oW - pxRt k)

def pxOmp (x : EReal) (k : BitVec 32) : EReal := oW - pxPt x k

def pxSel (x : EReal) (k : BitVec 32) : EReal := Scalar.select (pxC k) (pxOmp x k) (oW - pxPt x k)
def pxFocal (x : EReal) (k : BitVec 32) : EReal := ((pxSel x k * pxSel x k) * pxBce x k) * pxV k
def pxInter (x : EReal) (k : BitVec 32) : EReal := (pxProb x * pxRt k) * pxV k
def pxProbrv (x : EReal) (k : BitVec 32) : EReal := pxProb x * pxV k
def pxRtrv (k : BitVec 32) : EReal := pxRt k * pxV k

def rfV (k : BitVec 32) : EReal := (((pxC k).toNat : ℝ) : EReal)

def rfProb (x : EReal) : EReal := Ideal.div oW (oW + Ideal.exp (-x))
def rfBce (x : EReal) (k : BitVec 32) : EReal := (max x zW - x * pxRt k) + Ideal.log1p (Ideal.exp (-(max x (-x))))
def rfPt (x : EReal) (k : BitVec 32) : EReal := rfProb x * pxRt k + (oW - rfProb x) * (oW - pxRt k)
def rfFocal (x : EReal) (k : BitVec 32) : EReal := (Ideal.pow (oW - rfPt x k) twoW * rfBce x k) * rfV k
def rfInter (x : EReal) (k : BitVec 32) : EReal := (rfProb x * pxRt k) * rfV k
def rfProbrv (x : EReal) (k : BitVec 32) : EReal := rfProb x * rfV k
def rfRtrv (k : BitVec 32) : EReal := pxRt k * rfV k

theorem rfV_eq (k : BitVec 32) : rfV k = pxV k := by
  unfold rfV pxV
  rcases BitVec.eq_zero_or_eq_one (pxC k) with h | h <;> rw [h] <;> simp

theorem rfProb_eq (x : EReal) : rfProb x = pxProb x := by
  unfold rfProb pxProb; rw [oW_eq]; rfl

theorem rfBce_eq (x : EReal) (k : BitVec 32) : rfBce x k = pxBce x k := by
  unfold rfBce pxBce; rw [zW_eq, zero_sub]

theorem rfPt_eq (x : EReal) (k : BitVec 32) : rfPt x k = pxPt x k := by
  unfold rfPt pxPt; rw [rfProb_eq]

theorem logistic_real (x : EReal) : ∃ p : ℝ, Ideal.logistic x = (p : EReal) := by
  induction x using EReal.rec with
  | bot => exact ⟨0, by rw [Ideal.logistic_bot, EReal.coe_zero]⟩
  | top => exact ⟨1, by rw [Ideal.logistic_top, EReal.coe_one]⟩
  | coe r => exact ⟨_, Ideal.logistic_coe r⟩

theorem pow_two_real (r : ℝ) : Ideal.pow (r : EReal) ((2 : ℝ) : EReal) = (r : EReal) * (r : EReal) := by
  rw [Ideal.pow_coe_coe, ← EReal.coe_mul]
  congr 1
  show r ^ (2 : ℝ) = r * r
  rw [Real.rpow_two, sq]

theorem omp_real (x : EReal) (k : BitVec 32) : ∃ r : ℝ, oW - pxPt x k = (r : EReal) := by
  obtain ⟨p, hp⟩ := logistic_real x
  refine ⟨1 - (p * ((Scalar.select (pxC k) k 0#32).toInt : ℝ) + (1 - p) * (1 - ((Scalar.select (pxC k) k 0#32).toInt : ℝ))), ?_⟩
  unfold pxPt pxProb pxRt
  rw [hp, oW_eq]
  push_cast
  rfl

theorem select_self {α : Type} (c : BitVec 1) (a : α) : Scalar.select c a a = a := by
  unfold Scalar.select; split_ifs <;> rfl

theorem pxSel_eq (x : EReal) (k : BitVec 32) : pxSel x k = oW - pxPt x k := by
  unfold pxSel pxOmp; exact select_self _ _

theorem rfFocal_eq (x : EReal) (k : BitVec 32) : rfFocal x k = pxFocal x k := by
  unfold rfFocal pxFocal
  rw [rfPt_eq, rfBce_eq, rfV_eq, pxSel_eq, twoW_eq]
  obtain ⟨r, hr⟩ := omp_real x k
  rw [hr, pow_two_real]

theorem rfInter_eq (x : EReal) (k : BitVec 32) : rfInter x k = pxInter x k := by
  unfold rfInter pxInter; rw [rfProb_eq, rfV_eq]
theorem rfProbrv_eq (x : EReal) (k : BitVec 32) : rfProbrv x k = pxProbrv x k := by
  unfold rfProbrv pxProbrv; rw [rfProb_eq, rfV_eq]
theorem rfRtrv_eq (k : BitVec 32) : rfRtrv k = pxRtrv k := by
  unfold rfRtrv pxRtrv; rw [rfV_eq]

theorem lift_lane (h : Shape.Reduces ⟨4, ![8, 3, 32, 1024]⟩ [3] ⟨3, ![8, 3, 32]⟩) (b : Fin 8) (ch : Fin 3) (r : Fin 32)
    (q : Fin 1024) : h.lift (ix3 b ch r) q = ix4 b ch r q := by
  funext c; apply Fin.ext
  match c with
  | ⟨0, _⟩ => rfl
  | ⟨1, _⟩ => rfl
  | ⟨2, _⟩ => rfl
  | ⟨3, _⟩ => rfl

theorem lift_row (h : Shape.Reduces ⟨3, ![8, 3, 32]⟩ [2] ⟨2, ![8, 3]⟩) (b : Fin 8) (ch : Fin 3) (r : Fin 32) :
    h.lift (ix2 b ch) r = ix3 b ch r := by
  funext c; apply Fin.ext
  match c with
  | ⟨0, _⟩ => rfl
  | ⟨1, _⟩ => rfl
  | ⟨2, _⟩ => rfl

theorem add_two_sums (src : FVec Ideal ⟨4, ![8, 3, 32, 1024]⟩ .f32) (prev : Vec Ideal ⟨2, ![8, 3]⟩ .f32)
    (h1 : Shape.Reduces ⟨4, ![8, 3, 32, 1024]⟩ [3] ⟨3, ![8, 3, 32]⟩) (h2 : Shape.Reduces ⟨3, ![8, 3, 32]⟩ [2] ⟨2, ![8, 3]⟩)
    (hc : Shape.ShapeCasts ⟨2, ![8, 3]⟩ ⟨2, ![8, 3]⟩)
    (hφ1 hφ2 : FKind.Formats .f32)
    (hacc1 : (0x00000000#32 : BitVec 32) = FKind.add.neutral .f32 hφ1)
    (hacc2 : (0x00000000#32 : BitVec 32) = FKind.add.neutral .f32 hφ2) (b : Fin 8) (ch : Fin 3) :
    addf (shapeCast ⟨2, ![8, 3]⟩ prev hc)
        (multiReduction .add [2] ⟨2, ![8, 3]⟩ (multiReduction .add [3] ⟨3, ![8, 3, 32]⟩ src 0x00000000#32 h1 hφ1 hacc1)
          0x00000000#32 h2 hφ2 hacc2) (ix2 b ch)
      = prev (ix2 b ch) + ∑ r : Fin 32, ∑ q : Fin 1024, src (ix4 b ch r q) := by
  rw [shapeCast_self]
  refine (addf_apply _ _ _).trans ?_
  refine congrArg (prev (ix2 b ch) + ·) ?_
  refine (Ideal.multiReduction_add_single _ _ h2 hφ2 hacc2 (ix2 b ch)).trans ?_
  refine Finset.sum_congr rfl fun (r : Fin 32) _ => ?_
  rw [lift_row h2 b ch r]
  refine (Ideal.multiReduction_add_single src _ h1 hφ1 hacc1 (ix3 b ch r)).trans ?_
  refine Finset.sum_congr rfl fun (q : Fin 1024) _ => ?_
  rw [lift_lane h1 b ch r q]

theorem eq_sum_of_steps {N : ℕ} (a : (n : ℕ) → n < N → EReal) (M : ℕ → EReal)
    (h0 : ∀ h : 0 < N, a 0 h = M 0)
    (hs : ∀ (n : ℕ) (h : n + 1 < N), a (n + 1) h = a n (Nat.lt_of_succ_lt h) + M (n + 1)) :
    ∀ (n : ℕ) (h : n < N), a n h = ∑ s ∈ Finset.range (n + 1), M s
  | 0, h => by rw [h0 h, Finset.sum_range_one]
  | n + 1, h => by
    rw [hs n h, eq_sum_of_steps a M h0 hs n (Nat.lt_of_succ_lt h), Finset.sum_range_succ _ (n + 1)]

theorem sum_range_dite (f : Fin 32 → EReal) :
    ∑ s ∈ Finset.range 32, (if h : s < 32 then f ⟨s, h⟩ else 0) = ∑ t : Fin 32, f t := by
  rw [← Fin.sum_univ_eq_sum_range (fun s => if h : s < 32 then f ⟨s, h⟩ else 0) 32]
  refine Finset.sum_congr rfl fun t _ => ?_
  rw [dif_pos t.isLt]

end Cert.KernelIdeal.Hand

end
-- ==== Proof.KI.RmBlk.lean ====
import proofs.«134848_j7748121002193_1_alg».proof.Proof.KI.R1
import proofs.«134848_j7748121002193_1_alg».proof.Proof.KI.RmPix
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

def bandRow (t : Fin 32) (r : Fin 32) : Fin 1024 := ⟨32 * t.val + r.val, by omega⟩

theorem index1_0 : ∀ t : Fin grid1.N,
    win1_0.index t 0 = 0 ∧ win1_0.index t 1 = 0 ∧ win1_0.index t 2 = t.val ∧ win1_0.index t 3 = 0 := by
  decide +kernel

theorem index1_1 : ∀ t : Fin grid1.N,
    win1_1.index t 0 = 0 ∧ win1_1.index t 1 = 0 ∧ win1_1.index t 2 = t.val ∧ win1_1.index t 3 = 0 := by
  decide +kernel

section
variable (V : (c : Dev nD) → (b : Ref sig .tc) → Buf (Elt Ideal) ((c : Thread nD τ).loc b))

theorem xlog1_apply (c : Dev nD) (t : ℕ) (ht : t < 32) (h : t < cfg1.N) (b : Fin 8) (ch : Fin 3) (r : Fin 32) (q : Fin 1024) :
    xlog1 V c ⟨t, h⟩ (ix4 b ch r q) = (V c main_arg4 : S8x3x1024x1024.Idx → EReal) (ix4 b ch (bandRow ⟨t, ht⟩ r) q) := by
  have hi := index1_0 ⟨t, h⟩
  have hi2 : win1_0.index ⟨t, h⟩ 2 = t := hi.2.2.1
  unfold xlog1 iblk1
  rw [View.read_apply]
  show V c main_arg4 _ = V c main_arg4 _
  congr 1
  funext a
  apply Fin.ext
  match a with
  | ⟨0, _⟩ => show win1_0.index ⟨t, h⟩ 0 * 8 + 1 * b.val = b.val; rw [hi.1]; omega
  | ⟨1, _⟩ => show win1_0.index ⟨t, h⟩ 1 * 3 + 1 * ch.val = ch.val; rw [hi.2.1]; omega
  | ⟨2, _⟩ => show win1_0.index ⟨t, h⟩ 2 * 32 + 1 * r.val = 32 * t + r.val; rw [hi2]; omega
  | ⟨3, _⟩ => show win1_0.index ⟨t, h⟩ 3 * 1024 + 1 * q.val = q.val; rw [hi.2.2.2]; omega

theorem xmsk1_apply (c : Dev nD) (t : ℕ) (ht : t < 32) (h : t < cfg1.N) (b : Fin 8) (ch : Fin 3) (r : Fin 32) (q : Fin 1024) :
    xmsk1 V c ⟨t, h⟩ (ix4 b ch r q) = (V c main_arg5 : S8x3x1024x1024.Idx → BitVec 32) (ix4 b ch (bandRow ⟨t, ht⟩ r) q) := by
  have hi := index1_1 ⟨t, h⟩
  have hi2 : win1_1.index ⟨t, h⟩ 2 = t := hi.2.2.1
  unfold xmsk1 iblk1
  rw [View.read_apply]
  show V c main_arg5 _ = V c main_arg5 _
  congr 1
  funext a
  apply Fin.ext
  match a with
  | ⟨0, _⟩ => show win1_1.index ⟨t, h⟩ 0 * 8 + 1 * b.val = b.val; rw [hi.1]; omega
  | ⟨1, _⟩ => show win1_1.index ⟨t, h⟩ 1 * 3 + 1 * ch.val = ch.val; rw [hi.2.1]; omega
  | ⟨2, _⟩ => show win1_1.index ⟨t, h⟩ 2 * 32 + 1 * r.val = 32 * t + r.val; rw [hi2]; omega
  | ⟨3, _⟩ => show win1_1.index ⟨t, h⟩ 3 * 1024 + 1 * q.val = q.val; rw [hi.2.2.2]; omega

end

section
variable (x : Vec Ideal S8x3x32x1024 .f32) (k : Vec Ideal S8x3x32x1024 .i32) (prev : Vec Ideal S8x3 .f32) (b : Fin 8) (ch : Fin 3)

theorem focal_pay :
    k1_pay14 (k1_pay7 k) (k1_pay9 k) (k1_pay11 x k) (k1_pay12 x k) (k1_pay13 x k) prev (ix2 b ch)
      = prev (ix2 b ch) + ∑ r : Fin 32, ∑ q : Fin 1024, pxFocal (x (ix4 b ch r q)) (k (ix4 b ch r q)) := by
  unfold k1_pay14
  refine (add_two_sums _ prev _ _ _ _ _ _ _ b ch).trans ?_
  refine congrArg (prev (ix2 b ch) + ·) (Finset.sum_congr rfl fun r _ => Finset.sum_congr rfl fun q _ => ?_)
  rfl

theorem inter_pay :
    k1_pay15 (k1_pay8 k) (k1_pay9 k) (k1_pay10 x) prev (ix2 b ch)
      = prev (ix2 b ch) + ∑ r : Fin 32, ∑ q : Fin 1024, pxInter (x (ix4 b ch r q)) (k (ix4 b ch r q)) := by
  unfold k1_pay15
  refine (add_two_sums _ prev _ _ _ _ _ _ _ b ch).trans ?_
  refine congrArg (prev (ix2 b ch) + ·) (Finset.sum_congr rfl fun r _ => Finset.sum_congr rfl fun q _ => ?_)
  rfl

theorem probrv_pay :
    k1_pay16 (k1_pay9 k) (k1_pay10 x) prev (ix2 b ch)
      = prev (ix2 b ch) + ∑ r : Fin 32, ∑ q : Fin 1024, pxProbrv (x (ix4 b ch r q)) (k (ix4 b ch r q)) := by
  unfold k1_pay16
  refine (add_two_sums _ prev _ _ _ _ _ _ _ b ch).trans ?_
  refine congrArg (prev (ix2 b ch) + ·) (Finset.sum_congr rfl fun r _ => Finset.sum_congr rfl fun q _ => ?_)
  rfl

theorem rtrv_pay :
    k1_pay17 (k1_pay8 k) (k1_pay9 k) prev (ix2 b ch)
      = prev (ix2 b ch) + ∑ r : Fin 32, ∑ q : Fin 1024, pxRtrv (k (ix4 b ch r q)) := by
  unfold k1_pay17
  refine (add_two_sums _ prev _ _ _ _ _ _ _ b ch).trans ?_
  refine congrArg (prev (ix2 b ch) + ·) (Finset.sum_congr rfl fun r _ => Finset.sum_congr rfl fun q _ => ?_)
  rfl

theorem rv_pay :
    k1_pay1 (k1_pay9 k) prev (ix2 b ch)
      = prev (ix2 b ch) + ∑ r : Fin 32, ∑ q : Fin 1024, pxV (k (ix4 b ch r q)) := by
  unfold k1_pay1
  refine (add_two_sums _ prev _ _ _ _ _ _ _ b ch).trans ?_
  refine congrArg (prev (ix2 b ch) + ·) (Finset.sum_congr rfl fun r _ => Finset.sum_congr rfl fun q _ => ?_)
  rfl

theorem zero1_focal : (zero1 (F := Ideal)).focal (ix2 b ch) = 0 := zW_eq
theorem zero1_inter : (zero1 (F := Ideal)).inter (ix2 b ch) = 0 := zW_eq
theorem zero1_probrv : (zero1 (F := Ideal)).probrv (ix2 b ch) = 0 := zW_eq
theorem zero1_rtrv : (zero1 (F := Ideal)).rtrv (ix2 b ch) = 0 := zW_eq
theorem zero1_rv : (zero1 (F := Ideal)).rv (ix2 b ch) = 0 := zW_eq

end

end Cert.KernelIdeal.Hand

end
-- ==== Proof.KI.RmRefPix.lean ====
import proofs.«134848_j7748121002193_1_alg».proof.Proof.RefStages
import proofs.«134848_j7748121002193_1_alg».proof.Proof.KI.RmPix
import Idealize.ShloMosaic.PureOps.Ideal.Laws
import Idealize.ShloMosaic.Lib.ValueIdx
import Idealize.ShloMosaic.Lib.Pipeline.Value

set_option maxRecDepth 16384

noncomputable section

namespace Cert.KernelIdeal.Hand

open Idealize.ShloMosaic
open Idealize.ShloMosaic.ValueIdx
open scoped BigOperators

section
open Cert.ReferenceIdeal.ReadP

variable (x4 : (⟨Cert.ReferenceIdeal.S8x3x1024x1024, .f32⟩ : BufTy).Contents (Elt Ideal))
  (x5 : (⟨Cert.ReferenceIdeal.S8x3x1024x1024, .i32⟩ : BufTy).Contents (Elt Ideal)) (i : Cert.ReferenceIdeal.S8x3x1024x1024.Idx)

theorem v198_px : val_main_v198 (F := Ideal) x5 i = pxC (x5 i) := by
  rw [val_main_v198_apply, val_main_v197_apply]; rfl

theorem v200_px : val_main_v200 (F := Ideal) x5 i = pxRt (x5 i) := by
  rw [val_main_v200_apply, val_main_v199_apply, v198_px, val_main_call6_v1_apply]; rfl

theorem v234_px : val_main_v234 (F := Ideal) x5 i = rfV (x5 i) := by
  rw [val_main_v234_apply, v198_px]; rfl
theorem v240_px : val_main_v240 (F := Ideal) x5 i = rfV (x5 i) := by
  rw [val_main_v240_apply, v198_px]; rfl
theorem v244_px : val_main_v244 (F := Ideal) x5 i = rfV (x5 i) := by
  rw [val_main_v244_apply, v198_px]; rfl
theorem v248_px : val_main_v248 (F := Ideal) x5 i = rfV (x5 i) := by
  rw [val_main_v248_apply, v198_px]; rfl

theorem v215_px : val_main_v215 (F := Ideal) x4 i = rfProb (x4 i) := by
  rw [val_main_v215_apply, val_main_v214_apply, val_main_v213_apply, val_main_v212_apply, val_main_v211_apply,
    val_main_v210_apply]; rfl

theorem v209_px : val_main_v209 (F := Ideal) x4 x5 i = rfBce (x4 i) (x5 i) := by
  rw [val_main_v209_apply, val_main_v204_apply, val_main_v202_apply, val_main_v201_apply, val_main_v203_apply, v200_px,
    val_main_v208_apply, val_main_v207_apply, val_main_v206_apply, val_main_v205_apply]; rfl

theorem v222_px : val_main_v222 (F := Ideal) x4 x5 i = rfPt (x4 i) (x5 i) := by
  rw [val_main_v222_apply, val_main_v216_apply, val_main_v221_apply, val_main_v218_apply, val_main_v220_apply, v215_px,
    v200_px, val_main_v217_apply, val_main_v219_apply]; rfl

theorem v235_px : val_main_v235 (F := Ideal) x4 x5 i = pxFocal (x4 i) (x5 i) := by
  rw [val_main_v235_apply, val_main_v233_apply, val_main_v232_apply, val_main_v230_apply, val_main_v229_apply,
    val_main_v231_apply, v222_px, v209_px, v234_px]
  exact rfFocal_eq (x4 i) (x5 i)

theorem v241_px : val_main_v241 (F := Ideal) x4 x5 i = pxInter (x4 i) (x5 i) := by
  rw [val_main_v241_apply, val_main_v239_apply, v215_px, v200_px, v240_px]
  exact rfInter_eq (x4 i) (x5 i)

theorem v245_px : val_main_v245 (F := Ideal) x4 x5 i = pxProbrv (x4 i) (x5 i) := by
  rw [val_main_v245_apply, v215_px, v244_px]
  exact rfProbrv_eq (x4 i) (x5 i)

theorem v249_px : val_main_v249 (F := Ideal) x5 i = pxRtrv (x5 i) := by
  rw [val_main_v249_apply, v200_px, v248_px]
  exact rfRtrv_eq (x5 i)

theorem v234_px' : val_main_v234 (F := Ideal) x5 i = pxV (x5 i) := by
  rw [v234_px]; exact rfV_eq (x5 i)

end

end Cert.KernelIdeal.Hand

end
-- ==== Proof.KI.RmKer.lean ====
import proofs.«134848_j7748121002193_1_alg».proof.Proof.KI.R1
import proofs.«134848_j7748121002193_1_alg».proof.Proof.RefStages
import proofs.«134848_j7748121002193_1_alg».proof.Proof.KI.RmPix
import proofs.«134848_j7748121002193_1_alg».proof.Proof.KI.RmBlk
import proofs.«134848_j7748121002193_1_alg».proof.Proof.KI.RmRefPix
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

section
variable (V : (c : Dev nD) → (b : Ref sig .tc) → Buf (Elt Ideal) ((c : Thread nD τ).loc b))

def row1 (t : Fin 32) (r : Fin 32) : Fin 1024 := ⟨32 * t.val + r.val, by omega⟩

theorem h31 : 31 < cfg1.N := by rw [show cfg1.N = 32 from N_1]; decide

theorem acc1_sum (c : Dev nD) (b : Fin 8) (ch : Fin 3) (f : Acc1 Ideal → Vec Ideal S8x3 .f32) (term : S8x3x1024x1024.Idx → EReal)
    (hz : f zero1 (ix2 b ch) = 0)
    (hstep : ∀ (n : ℕ) (h : n < cfg1.N) (hn : n < 32) (a : Acc1 Ideal),
      f (step1 (xlog1 V c ⟨n, h⟩) (xmsk1 V c ⟨n, h⟩) a) (ix2 b ch)
        = f a (ix2 b ch) + ∑ r : Fin 32, ∑ q : Fin 1024, term (ix4 b ch (bandRow ⟨n, hn⟩ r) q)) :
    f (acc1 V c 31 h31) (ix2 b ch) = ∑ t : Fin 32, ∑ r : Fin 32, ∑ q : Fin 1024, term (ix4 b ch (row1 t r) q) := by
  have hN : cfg1.N = 32 := N_1
  have key := eq_sum_of_steps (N := cfg1.N) (fun n h => f (acc1 V c n h) (ix2 b ch))
    (fun s => if hs : s < 32 then ∑ r : Fin 32, ∑ q : Fin 1024, term (ix4 b ch (bandRow ⟨s, hs⟩ r) q) else 0)
    (fun h => by
      show f (acc1 V c 0 h) (ix2 b ch) = _
      rw [acc1_zero, hstep 0 h (by omega), hz, zero_add, dif_pos (by omega : 0 < 32)])
    (fun n h => by
      have hn : n + 1 < 32 := by omega
      show f (acc1 V c (n + 1) h) (ix2 b ch) = f (acc1 V c n _) (ix2 b ch) + _
      rw [acc1_succ, hstep (n + 1) h hn, dif_pos hn])
    31 h31
  exact key.trans (sum_range_dite fun t => ∑ r : Fin 32, ∑ q : Fin 1024, term (ix4 b ch (bandRow t r) q))

theorem acc1_focal (c : Dev nD) (x4 : (⟨S8x3x1024x1024, .f32⟩ : BufTy).Contents (Elt Ideal)) (x5 : (⟨S8x3x1024x1024, .i32⟩ : BufTy).Contents (Elt Ideal))
    (h4 : V c main_arg4 = x4) (h5 : V c main_arg5 = x5) (b : Fin 8) (ch : Fin 3) :
    (acc1 V c 31 h31).focal (ix2 b ch)
      = ∑ t : Fin 32, ∑ r : Fin 32, ∑ q : Fin 1024, Cert.ReferenceIdeal.ReadP.val_main_v235 (F := Ideal) x4 x5 (ix4 b ch (row1 t r) q) := by
  subst h4; subst h5
  refine acc1_sum V c b ch (fun a => a.focal) _ (zero1_focal b ch) fun n h hn a => ?_
  refine (focal_pay _ _ a.focal b ch).trans ?_
  refine congrArg (a.focal (ix2 b ch) + ·) (Finset.sum_congr rfl fun r _ => Finset.sum_congr rfl fun q _ => ?_)
  refine (congrArg₂ pxFocal (xlog1_apply V c n hn h b ch r q) (xmsk1_apply V c n hn h b ch r q)).trans ?_
  exact (v235_px _ _ _).symm

theorem acc1_inter (c : Dev nD) (x4 : (⟨S8x3x1024x1024, .f32⟩ : BufTy).Contents (Elt Ideal)) (x5 : (⟨S8x3x1024x1024, .i32⟩ : BufTy).Contents (Elt Ideal))
    (h4 : V c main_arg4 = x4) (h5 : V c main_arg5 = x5) (b : Fin 8) (ch : Fin 3) :
    (acc1 V c 31 h31).inter (ix2 b ch)
      = ∑ t : Fin 32, ∑ r : Fin 32, ∑ q : Fin 1024, Cert.ReferenceIdeal.ReadP.val_main_v241 (F := Ideal) x4 x5 (ix4 b ch (row1 t r) q) := by
  subst h4; subst h5
  refine acc1_sum V c b ch (fun a => a.inter) _ (zero1_inter b ch) fun n h hn a => ?_
  refine (inter_pay _ _ a.inter b ch).trans ?_
  refine congrArg (a.inter (ix2 b ch) + ·) (Finset.sum_congr rfl fun r _ => Finset.sum_congr rfl fun q _ => ?_)
  refine (congrArg₂ pxInter (xlog1_apply V c n hn h b ch r q) (xmsk1_apply V c n hn h b ch r q)).trans ?_
  exact (v241_px _ _ _).symm

theorem acc1_probrv (c : Dev nD) (x4 : (⟨S8x3x1024x1024, .f32⟩ : BufTy).Contents (Elt Ideal)) (x5 : (⟨S8x3x1024x1024, .i32⟩ : BufTy).Contents (Elt Ideal))
    (h4 : V c main_arg4 = x4) (h5 : V c main_arg5 = x5) (b : Fin 8) (ch : Fin 3) :
    (acc1 V c 31 h31).probrv (ix2 b ch)
      = ∑ t : Fin 32, ∑ r : Fin 32, ∑ q : Fin 1024, Cert.ReferenceIdeal.ReadP.val_main_v245 (F := Ideal) x4 x5 (ix4 b ch (row1 t r) q) := by
  subst h4; subst h5
  refine acc1_sum V c b ch (fun a => a.probrv) _ (zero1_probrv b ch) fun n h hn a => ?_
  refine (probrv_pay _ _ a.probrv b ch).trans ?_
  refine congrArg (a.probrv (ix2 b ch) + ·) (Finset.sum_congr rfl fun r _ => Finset.sum_congr rfl fun q _ => ?_)
  refine (congrArg₂ pxProbrv (xlog1_apply V c n hn h b ch r q) (xmsk1_apply V c n hn h b ch r q)).trans ?_
  exact (v245_px _ _ _).symm

theorem acc1_rtrv (c : Dev nD) (x4 : (⟨S8x3x1024x1024, .f32⟩ : BufTy).Contents (Elt Ideal)) (x5 : (⟨S8x3x1024x1024, .i32⟩ : BufTy).Contents (Elt Ideal))
    (h4 : V c main_arg4 = x4) (h5 : V c main_arg5 = x5) (b : Fin 8) (ch : Fin 3) :
    (acc1 V c 31 h31).rtrv (ix2 b ch)
      = ∑ t : Fin 32, ∑ r : Fin 32, ∑ q : Fin 1024, Cert.ReferenceIdeal.ReadP.val_main_v249 (F := Ideal) x5 (ix4 b ch (row1 t r) q) := by
  subst h4; subst h5
  refine acc1_sum V c b ch (fun a => a.rtrv) _ (zero1_rtrv b ch) fun n h hn a => ?_
  refine (rtrv_pay _ a.rtrv b ch).trans ?_
  refine congrArg (a.rtrv (ix2 b ch) + ·) (Finset.sum_congr rfl fun r _ => Finset.sum_congr rfl fun q _ => ?_)
  refine (congrArg pxRtrv (xmsk1_apply V c n hn h b ch r q)).trans ?_
  exact (v249_px _ _).symm

theorem acc1_rv (c : Dev nD) (x4 : (⟨S8x3x1024x1024, .f32⟩ : BufTy).Contents (Elt Ideal)) (x5 : (⟨S8x3x1024x1024, .i32⟩ : BufTy).Contents (Elt Ideal))
    (h4 : V c main_arg4 = x4) (h5 : V c main_arg5 = x5) (b : Fin 8) (ch : Fin 3) :
    (acc1 V c 31 h31).rv (ix2 b ch)
      = ∑ t : Fin 32, ∑ r : Fin 32, ∑ q : Fin 1024, Cert.ReferenceIdeal.ReadP.val_main_v234 (F := Ideal) x5 (ix4 b ch (row1 t r) q) := by
  subst h4; subst h5
  refine acc1_sum V c b ch (fun a => a.rv) _ (zero1_rv b ch) fun n h hn a => ?_
  refine (rv_pay _ a.rv b ch).trans ?_
  refine congrArg (a.rv (ix2 b ch) + ·) (Finset.sum_congr rfl fun r _ => Finset.sum_congr rfl fun q _ => ?_)
  refine (congrArg pxV (xmsk1_apply V c n hn h b ch r q)).trans ?_
  exact (v234_px' _ _).symm

end

end Cert.KernelIdeal.Hand

end
-- ==== Proof.KI.RmRefSide.lean ====
import proofs.«134848_j7748121002193_1_alg».proof.Proof.KI.Epi
import proofs.«134848_j7748121002193_1_alg».proof.Proof.KI.SumLaws
import proofs.«134848_j7748121002193_1_alg».proof.Proof.KI.CountLaws
import proofs.«134848_j7748121002193_1_alg».proof.Proof.RefStages
import Idealize.ShloMosaic.Lib.ValueIdx
import Idealize.ShloMosaic.Lib.Pipeline.Value
import Idealize.ShloMosaic.PureOps.Ideal.Laws
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Cert.ReferenceIdeal.ReadP
open scoped BigOperators

abbrev pix (b : Fin 8) (ch : Fin 3) (k : Fin 1048576) : S8x3x1024x1024.Idx :=
  ix4 b ch ⟨k.val / 1024, by omega⟩ ⟨k.val % 1024, by omega⟩

theorem flat_index (b : Fin 8) (ch : Fin 3) (k : Fin 1048576) :
    idx_main_v236 (idx_main_v237 (ix2 b ch) k) = pix b ch k := by
  funext a
  match a with
  | ⟨0, _⟩ => exact Fin.ext (show ((b.val * 3 + ch.val) * 1048576 + k.val) / 3145728 = b.val by omega)
  | ⟨1, _⟩ => exact Fin.ext (show ((b.val * 3 + ch.val) * 1048576 + k.val) / 1048576 % 3 = ch.val by omega)
  | ⟨2, _⟩ => exact Fin.ext (show ((b.val * 3 + ch.val) * 1048576 + k.val) / 1024 % 1024 = k.val / 1024 by omega)
  | ⟨3, _⟩ => exact Fin.ext (show ((b.val * 3 + ch.val) * 1048576 + k.val) % 1024 = k.val % 1024 by omega)

theorem lift_index (h : Cert.ReferenceIdeal.S8x3x1048576.Reduces [2] Cert.ReferenceIdeal.S8x3) (b : Fin 8) (ch : Fin 3)
    (k : Fin 1048576) : h.lift (ix2 b ch) k = idx_main_v237 (ix2 b ch) k :=
  funext fun a => Fin.ext (by match a with | ⟨0, _⟩ => rfl | ⟨1, _⟩ => rfl | ⟨2, _⟩ => rfl)

theorem sum_pix_bands {M : Type*} [AddCommMonoid M] (y : S8x3x1024x1024.Idx → M) (b : Fin 8) (ch : Fin 3) :
    ∑ k : Fin 1048576, y (pix b ch k)
      = ∑ t : Fin 32, ∑ r : Fin 32, ∑ q : Fin 1024, y (ix4 b ch ⟨32 * t.val + r.val, by omega⟩ q) :=
  sum_flat_eq_bands (A := 32) (B := 32) (C := 1024) (R := 1024) (N := 1048576) rfl rfl
    (fun row q => y (ix4 b ch row q)) (fun k => by omega) (fun k => by omega) (fun t r => by omega)

theorem v237_bands (x4 : (⟨S8x3x1024x1024, .f32⟩ : BufTy).Contents (Elt Ideal)) (x5 : (⟨S8x3x1024x1024, .i32⟩ : BufTy).Contents (Elt Ideal))
    (b : Fin 8) (ch : Fin 3) :
    val_main_v237 (F := Ideal) x4 x5 (ix2 b ch)
      = ∑ t : Fin 32, ∑ r : Fin 32, ∑ q : Fin 1024, val_main_v235 (F := Ideal) x4 x5 (ix4 b ch ⟨32 * t.val + r.val, by omega⟩ q) := by
  have h0 : ∀ i, val_main_cst_64 (F := Ideal) i = (0 : EReal) := fun _ => Ideal.ofBits_zero_f32
  rw [val_main_v237_apply, h0, zero_add, ← sum_pix_bands]
  exact Finset.sum_congr rfl fun k _ => (val_main_v236_apply x4 x5 _).trans (congrArg _ (flat_index b ch k))

theorem v243_bands (x4 : (⟨S8x3x1024x1024, .f32⟩ : BufTy).Contents (Elt Ideal)) (x5 : (⟨S8x3x1024x1024, .i32⟩ : BufTy).Contents (Elt Ideal))
    (b : Fin 8) (ch : Fin 3) :
    val_main_v243 (F := Ideal) x4 x5 (ix2 b ch)
      = ∑ t : Fin 32, ∑ r : Fin 32, ∑ q : Fin 1024, val_main_v241 (F := Ideal) x4 x5 (ix4 b ch ⟨32 * t.val + r.val, by omega⟩ q) := by
  have h0 : ∀ i, val_main_cst_65 (F := Ideal) i = (0 : EReal) := fun _ => Ideal.ofBits_zero_f32
  rw [val_main_v243_apply, h0, zero_add, ← sum_pix_bands]
  exact Finset.sum_congr rfl fun k _ => (val_main_v242_apply x4 x5 _).trans (congrArg _ (flat_index b ch k))

theorem v247_bands (x4 : (⟨S8x3x1024x1024, .f32⟩ : BufTy).Contents (Elt Ideal)) (x5 : (⟨S8x3x1024x1024, .i32⟩ : BufTy).Contents (Elt Ideal))
    (b : Fin 8) (ch : Fin 3) :
    val_main_v247 (F := Ideal) x4 x5 (ix2 b ch)
      = ∑ t : Fin 32, ∑ r : Fin 32, ∑ q : Fin 1024, val_main_v245 (F := Ideal) x4 x5 (ix4 b ch ⟨32 * t.val + r.val, by omega⟩ q) := by
  have h0 : ∀ i, val_main_cst_66 (F := Ideal) i = (0 : EReal) := fun _ => Ideal.ofBits_zero_f32
  rw [val_main_v247_apply, h0, zero_add, ← sum_pix_bands]
  exact Finset.sum_congr rfl fun k _ => (val_main_v246_apply x4 x5 _).trans (congrArg _ (flat_index b ch k))

theorem v251_bands (x5 : (⟨S8x3x1024x1024, .i32⟩ : BufTy).Contents (Elt Ideal)) (b : Fin 8) (ch : Fin 3) :
    val_main_v251 (F := Ideal) x5 (ix2 b ch)
      = ∑ t : Fin 32, ∑ r : Fin 32, ∑ q : Fin 1024, val_main_v249 (F := Ideal) x5 (ix4 b ch ⟨32 * t.val + r.val, by omega⟩ q) := by
  have h0 : ∀ i, val_main_cst_67 (F := Ideal) i = (0 : EReal) := fun _ => Ideal.ofBits_zero_f32
  rw [val_main_v251_apply, h0, zero_add, ← sum_pix_bands]
  exact Finset.sum_congr rfl fun k _ => (val_main_v250_apply x5 _).trans (congrArg _ (flat_index b ch k))

def validCount (x5 : (⟨S8x3x1024x1024, .i32⟩ : BufTy).Contents (Elt Ideal)) (b : Fin 8) (ch : Fin 3) : ℕ :=
  ∑ k : Fin 1048576, (val_main_v198 (F := Ideal) x5 (pix b ch k)).toNat

theorem validCount_le (x5 : (⟨S8x3x1024x1024, .i32⟩ : BufTy).Contents (Elt Ideal)) (b : Fin 8) (ch : Fin 3) :
    validCount x5 b ch ≤ 1048576 :=
  (sum_bits_le _).trans (by simp)

theorem rv_bands_count (x5 : (⟨S8x3x1024x1024, .i32⟩ : BufTy).Contents (Elt Ideal)) (b : Fin 8) (ch : Fin 3) :
    (∑ t : Fin 32, ∑ r : Fin 32, ∑ q : Fin 1024, val_main_v234 (F := Ideal) x5 (ix4 b ch ⟨32 * t.val + r.val, by omega⟩ q))
      = (((validCount x5 b ch : ℕ) : ℝ) : EReal) := by
  rw [← sum_pix_bands (fun i => val_main_v234 (F := Ideal) x5 i)]
  exact sum_bits_cast (fun k => val_main_v198 (F := Ideal) x5 (pix b ch k))

theorem v225_toNat (x5 : (⟨S8x3x1024x1024, .i32⟩ : BufTy).Contents (Elt Ideal)) (b : Fin 8) (ch : Fin 3) :
    (val_main_v225 (F := Ideal) x5 (ix2 b ch)).toNat = validCount x5 b ch := by
  have hR : Cert.ReferenceIdeal.S8x3x1048576.Reduces [2] Cert.ReferenceIdeal.S8x3 := by decide
  unfold val_main_v225
  rw [Host.reduce_eq_fold_single IntOp.addi _ _ Cert.ReferenceIdeal.Gen.reducesTo_S8x3x1048576_S8x3_d2 hR
    Cert.ReferenceIdeal.Gen.h_S_]
  refine toNat_fold_addi_bits (fun k => val_main_v198 (F := Ideal) x5 (pix b ch k)) _ (fun k => ?_) (by simp)
  exact congrArg (BitVec.setWidth 32) ((val_main_v223_apply x5 _).trans
    (congrArg (val_main_v198 (F := Ideal) x5) ((congrArg idx_main_v236 (lift_index hR b ch k)).trans (flat_index b ch k))))

theorem v228_read (x5 : (⟨S8x3x1024x1024, .i32⟩ : BufTy).Contents (Elt Ideal)) (b : Fin 8) (ch : Fin 3) :
    val_main_v228 (F := Ideal) x5 (ix2 b ch)
      = max (((validCount x5 b ch : ℕ) : ℝ) : EReal) (Ideal.ofBits .f32 0x3F800000#32) := by
  have hc := v225_toNat x5 b ch
  have hlt : (val_main_v225 (F := Ideal) x5 (ix2 b ch)).toNat < 2 ^ 31 := by
    rw [hc]; exact lt_of_le_of_lt (validCount_le x5 b ch) (by norm_num)
  have h226 : val_main_v226 (F := Ideal) (ix2 b ch) = 1#32 := by rw [val_main_v226_apply]; rfl
  rw [← hc]
  show (((IntOp.maxsi (val_main_v225 (F := Ideal) x5 (ix2 b ch)) (val_main_v226 (F := Ideal) (ix2 b ch))).toInt : ℝ) : EReal) = _
  rw [h226]
  exact maxsi_one_cast _ hlt

theorem v264_toNat (x5 : (⟨S8x3x1024x1024, .i32⟩ : BufTy).Contents (Elt Ideal)) (b : Fin 8) (ch : Fin 3) :
    (val_main_v264 (F := Ideal) x5 (ix2 b ch)).toNat = if 0 < validCount x5 b ch then 1 else 0 := by
  have hR : Cert.ReferenceIdeal.S8x3x1048576.Reduces [2] Cert.ReferenceIdeal.S8x3 := by decide
  unfold val_main_v264
  rw [Host.reduce_eq_fold_single IntOp.ori _ _ Cert.ReferenceIdeal.Gen.reducesTo_S8x3x1048576_S8x3_d2 hR
    Cert.ReferenceIdeal.Gen.h_S_]
  have hg : (val_main_v263 (F := Ideal) x5 ∘ hR.lift (ix2 b ch)) = fun k : Fin 1048576 => val_main_v198 (F := Ideal) x5 (pix b ch k) :=
    funext fun k => (val_main_v263_apply x5 _).trans
      (congrArg (val_main_v198 (F := Ideal) x5) ((congrArg idx_main_v236 (lift_index hR b ch k)).trans (flat_index b ch k)))
  rw [hg]
  exact toNat_fold_ori_bits Finset.univ _

theorem v265_read (x5 : (⟨S8x3x1024x1024, .i32⟩ : BufTy).Contents (Elt Ideal)) (b : Fin 8) (ch : Fin 3) :
    val_main_v265 (F := Ideal) x5 (ix2 b ch) = (((if 0 < validCount x5 b ch then 1 else 0 : ℕ) : ℝ) : EReal) := by
  show ((((val_main_v264 (F := Ideal) x5 (ix2 b ch)).toNat : ℝ)) : EReal) = _
  rw [v264_toNat]

theorem bcast_const_apply (w : BitVec 32) (j : S8x3.Idx) :
    broadcastInDim S8x3 ![] bcast_S_S8x3 (constant (F := Ideal) S_ .f32 w) j = Ideal.ofBits .f32 w :=
  StableHlo.Predicate.bcast_scalar bcast_S_S8x3 h_S_ _ j

theorem count_sides (v : (⟨S8x3, .f32⟩ : BufTy).Contents (Elt Ideal)) (x5 : (⟨S8x3x1024x1024, .i32⟩ : BufTy).Contents (Elt Ideal))
    (hv : ∀ (b : Fin 8) (ch : Fin 3), v (ix2 b ch) = (((validCount x5 b ch : ℕ) : ℝ) : EReal)) :
    maximumf (F := Ideal) v (broadcastInDim S8x3 ![] bcast_S_S8x3 (constant S_ .f32 0x3F800000#32)) = val_main_v228 (F := Ideal) x5
      ∧ uitofp (F := Ideal) .f32 (cmpf (F := Ideal) .ogt v (broadcastInDim S8x3 ![] bcast_S_S8x3 (constant S_ .f32 0x00000000#32)))
          = val_main_v265 (F := Ideal) x5 := by
  constructor
  · funext j
    obtain ⟨b, ch, rfl⟩ : ∃ b ch, j = ix2 b ch := ⟨j 0, j 1, eq_ix2 j⟩
    rw [v228_read, maximumf_apply, bcast_const_apply, hv]
  · funext j
    obtain ⟨b, ch, rfl⟩ : ∃ b ch, j = ix2 b ch := ⟨j 0, j 1, eq_ix2 j⟩
    rw [v265_read]
    show (((Ideal.cmp .ogt (v (ix2 b ch))
      (broadcastInDim S8x3 ![] bcast_S_S8x3 (constant (F := Ideal) S_ .f32 0x00000000#32) (ix2 b ch))).toNat : ℝ) : EReal) = _
    rw [bcast_const_apply, hv]
    exact cmp_ogt_zero_cast _

theorem rmLoss_eq_ref (f i p r v : (⟨S8x3, .f32⟩ : BufTy).Contents (Elt Ideal))
    (x4 : (⟨S8x3x1024x1024, .f32⟩ : BufTy).Contents (Elt Ideal)) (x5 : (⟨S8x3x1024x1024, .i32⟩ : BufTy).Contents (Elt Ideal))
    (x8 : (⟨S8x3, .i32⟩ : BufTy).Contents (Elt Ideal))
    (hf : f = val_main_v237 (F := Ideal) x4 x5) (hi : i = val_main_v243 (F := Ideal) x4 x5)
    (hp : p = val_main_v247 (F := Ideal) x4 x5) (hr : r = val_main_v251 (F := Ideal) x5)
    (hmax : maximumf (F := Ideal) v (broadcastInDim S8x3 ![] bcast_S_S8x3 (constant S_ .f32 0x3F800000#32)) = val_main_v228 (F := Ideal) x5)
    (hpos : uitofp (F := Ideal) .f32 (cmpf (F := Ideal) .ogt v (broadcastInDim S8x3 ![] bcast_S_S8x3 (constant S_ .f32 0x00000000#32)))
        = val_main_v265 (F := Ideal) x5) :
    rmLoss (F := Ideal) f i p r v x8 = val_main_v272 (F := Ideal) x4 x5 x8 := by
  subst hf hi hp hr
  unfold rmLoss
  simp only []
  rw [hmax, hpos]
  rfl

end Cert.KernelIdeal.Hand

end
-- ==== Proof.KI.RmRef.lean ====
import proofs.«134848_j7748121002193_1_alg».proof.Proof.KI.RmKer
import proofs.«134848_j7748121002193_1_alg».proof.Proof.KI.Epi
import proofs.«134848_j7748121002193_1_alg».proof.Proof.KI.RmRefSide
import proofs.«134848_j7748121002193_1_alg».proof.Proof.RefStages
import Idealize.ShloMosaic.Lib.ValueIdx
import Idealize.ShloMosaic.Lib.Pipeline.Value
import Idealize.ShloMosaic.PureOps.Ideal.Laws
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

section
variable (V : (c : Dev nD) → (b : Ref sig .tc) → Buf (Elt Ideal) ((c : Thread nD τ).loc b))

theorem rm_math (c : Dev nD) (x4 : (⟨S8x3x1024x1024, .f32⟩ : BufTy).Contents (Elt Ideal)) (x5 : (⟨S8x3x1024x1024, .i32⟩ : BufTy).Contents (Elt Ideal))
    (x8 : (⟨S8x3, .i32⟩ : BufTy).Contents (Elt Ideal)) (h4 : V c main_arg4 = x4) (h5 : V c main_arg5 = x5) :
    rmLoss (F := Ideal) (acc1 V c 31 h31).focal (acc1 V c 31 h31).inter (acc1 V c 31 h31).probrv (acc1 V c 31 h31).rtrv (acc1 V c 31 h31).rv x8
      = Cert.ReferenceIdeal.ReadP.val_main_v272 (F := Ideal) x4 x5 x8 := by
  have hcount := count_sides (acc1 V c 31 h31).rv x5
    (fun b ch => (acc1_rv V c x4 x5 h4 h5 b ch).trans (rv_bands_count x5 b ch))
  refine rmLoss_eq_ref _ _ _ _ _ x4 x5 x8 ?_ ?_ ?_ ?_ hcount.1 hcount.2
  · funext j
    obtain ⟨b, ch, rfl⟩ : ∃ b ch, j = ix2 b ch := ⟨j 0, j 1, eq_ix2 j⟩
    exact (acc1_focal V c x4 x5 h4 h5 b ch).trans (v237_bands x4 x5 b ch).symm
  · funext j
    obtain ⟨b, ch, rfl⟩ : ∃ b ch, j = ix2 b ch := ⟨j 0, j 1, eq_ix2 j⟩
    exact (acc1_inter V c x4 x5 h4 h5 b ch).trans (v243_bands x4 x5 b ch).symm
  · funext j
    obtain ⟨b, ch, rfl⟩ : ∃ b ch, j = ix2 b ch := ⟨j 0, j 1, eq_ix2 j⟩
    exact (acc1_probrv V c x4 x5 h4 h5 b ch).trans (v247_bands x4 x5 b ch).symm
  · funext j
    obtain ⟨b, ch, rfl⟩ : ∃ b ch, j = ix2 b ch := ⟨j 0, j 1, eq_ix2 j⟩
    exact (acc1_rtrv V c x4 x5 h4 h5 b ch).trans (v251_bands x5 b ch).symm

end

end Cert.KernelIdeal.Hand

end
-- ==== Proof.KI.KerValue.lean ====
import proofs.«134848_j7748121002193_1_alg».proof.Proof.KI.HostVals
import proofs.«134848_j7748121002193_1_alg».proof.Proof.KI.ArgsKept
import proofs.«134848_j7748121002193_1_alg».proof.Proof.KI.DaRef
import proofs.«134848_j7748121002193_1_alg».proof.Proof.KI.RmRef

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- The result buffer ends at the reference's last stage: the detection loss by the same operations, each kernel's band
    sums the reference's whole-image sums regrouped, the losses assembled by the same arithmetic. -/
theorem ker_result (c : Dev nD) :
    W15 m ρ c (Proc.devRef .tc main_v212)
      = Cert.ReferenceIdeal.ReadP.val_main_v282 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  have e0 : W12 m ρ c (Proc.devRef .tc main_v162_0) = (acc0 (V11 m ρ) c 7 h7).1 := (W12_arr m ρ c 2).trans (arrAt0_2 (V11 m ρ) c)
  have e1 : W12 m ρ c (Proc.devRef .tc main_v162_1) = (acc0 (V11 m ρ) c 7 h7).2 := (W12_arr m ρ c 3).trans (arrAt0_3 (V11 m ρ) c)
  have f0 : W14 m ρ c (Proc.devRef .tc main_v178_0) = (acc1 (V13 m ρ) c 31 h31).focal := (W14_arr m ρ c 2).trans (arrAt1_2 (V13 m ρ) c)
  have f1 : W14 m ρ c (Proc.devRef .tc main_v178_1) = (acc1 (V13 m ρ) c 31 h31).inter := (W14_arr m ρ c 3).trans (arrAt1_3 (V13 m ρ) c)
  have f2 : W14 m ρ c (Proc.devRef .tc main_v178_2) = (acc1 (V13 m ρ) c 31 h31).probrv := (W14_arr m ρ c 4).trans (arrAt1_4 (V13 m ρ) c)
  have f3 : W14 m ρ c (Proc.devRef .tc main_v178_3) = (acc1 (V13 m ρ) c 31 h31).rtrv := (W14_arr m ρ c 5).trans (arrAt1_5 (V13 m ρ) c)
  have f4 : W14 m ρ c (Proc.devRef .tc main_v178_4) = (acc1 (V13 m ρ) c 31 h31).rv := (W14_arr m ρ c 6).trans (arrAt1_6 (V13 m ρ) c)
  rw [result_val, W14_main_v161, od_val, W14_main_v177, da_val, W14_main_arg8, W12_main_arg7, e0, e1, f0, f1, f2, f3, f4,
    da_math (V11 m ρ) c _ _ _ (V11_main_arg2 m ρ c) (V11_main_arg3 m ρ c),
    rm_math (V13 m ρ) c _ _ _ (V13_main_arg4 m ρ c) (V13_main_arg5 m ρ c)]
  rfl

end Cert.KernelIdeal.Hand

end
-- ==== Proof.RH.Ops00.lean ====
import proofs.«134848_j7748121002193_1_alg».proof.Proof.Gen.ReferenceIdeal
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev refOps00 : List (HloOp τ sig (Elt F)) :=
  [ unary main_arg1 main_v0 ((extractStridedSlice S8x64x1 ![0, 0, 0] · slices_S8x64x5_S8x64x1_0_0_0) : (⟨S8x64x5, .f32⟩ : BufTy).Contents (Elt F) → (⟨S8x64x1, .f32⟩ : BufTy).Contents (Elt F)),
    reshape main_v0 main_v1 rfl shapeCasts_S8x64x1_S8x64,
    unary main_v1 main_v2 (fptosi 32 : (⟨S8x64, .f32⟩ : BufTy).Contents (Elt F) → (⟨S8x64, .i32⟩ : BufTy).Contents (Elt F)),
    unary main_arg1 main_v3 ((extractStridedSlice S8x64x4 ![0, 0, 1] · slices_S8x64x5_S8x64x4_0_0_1) : (⟨S8x64x5, .f32⟩ : BufTy).Contents (Elt F) → (⟨S8x64x4, .f32⟩ : BufTy).Contents (Elt F)),
    nullary main_cst (constant S_ .f32 0x00000000#32),
    nullary main_cst_0 (constant S_ .f32 0x3F800000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S8x64x4, .f32⟩) main_call0_v1) (broadcastInDim S8x64x4 ![] bcast_S_S8x64x4),
    TRef.binary (TRef.of (T := ⟨S8x64x4, .f32⟩) main_call0_v1) (TRef.of (T := ⟨S8x64x4, .f32⟩) main_v3) (TRef.of (T := ⟨S8x64x4, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S8x64x4, .f32⟩) main_call0_v4) (broadcastInDim S8x64x4 ![] bcast_S_S8x64x4),
    TRef.binary (TRef.of (T := ⟨S8x64x4, .f32⟩) main_call0_v4) (TRef.of (T := ⟨S8x64x4, .f32⟩) main_call0_v2) (TRef.of (T := ⟨S8x64x4, .f32⟩) main_v4) minimumf,
    nullary main_c (constantI S_ 32 0#32),
    unary main_c main_v5 (broadcastInDim S8x64 ![] bcast_S_S8x64 : (⟨S_, .i32⟩ : BufTy).Contents (Elt F) → (⟨S8x64, .i32⟩ : BufTy).Contents (Elt F)),
    binary main_v2 main_v5 main_v6 (cmpi .sge : (⟨S8x64, .i32⟩ : BufTy).Contents (Elt F) → (⟨S8x64, .i32⟩ : BufTy).Contents (Elt F) → (⟨S8x64, .i1⟩ : BufTy).Contents (Elt F)),
    nullary main_c_1 (constantI S_ 32 10#32),
    unary main_c_1 main_v7 (broadcastInDim S8x64 ![] bcast_S_S8x64 : (⟨S_, .i32⟩ : BufTy).Contents (Elt F) → (⟨S8x64, .i32⟩ : BufTy).Contents (Elt F)),
    binary main_v2 main_v7 main_v8 (cmpi .slt : (⟨S8x64, .i32⟩ : BufTy).Contents (Elt F) → (⟨S8x64, .i32⟩ : BufTy).Contents (Elt F) → (⟨S8x64, .i1⟩ : BufTy).Contents (Elt F)),
    binary main_v6 main_v8 main_v9 (andi : (⟨S8x64, .i1⟩ : BufTy).Contents (Elt F) → (⟨S8x64, .i1⟩ : BufTy).Contents (Elt F) → (⟨S8x64, .i1⟩ : BufTy).Contents (Elt F)),
    unary main_arg1 main_v10 ((extractStridedSlice S8x64x1 ![0, 0, 3] · slices_S8x64x5_S8x64x1_0_0_3) : (⟨S8x64x5, .f32⟩ : BufTy).Contents (Elt F) → (⟨S8x64x1, .f32⟩ : BufTy).Contents (Elt F)),
    reshape main_v10 main_v11 rfl shapeCasts_S8x64x1_S8x64,
    nullary main_cst_2 (constant S_ .f32 0x00000000#32),
    unary main_cst_2 main_v12 (broadcastInDim S8x64 ![] bcast_S_S8x64 : (⟨S_, .f32⟩ : BufTy).Contents (Elt F) → (⟨S8x64, .f32⟩ : BufTy).Contents (Elt F)),
    binary main_v11 main_v12 main_v13 (cmpf (F := F) .ogt : (⟨S8x64, .f32⟩ : BufTy).Contents (Elt F) → (⟨S8x64, .f32⟩ : BufTy).Contents (Elt F) → (⟨S8x64, .i1⟩ : BufTy).Contents (Elt F)),
    binary main_v9 main_v13 main_v14 (andi : (⟨S8x64, .i1⟩ : BufTy).Contents (Elt F) → (⟨S8x64, .i1⟩ : BufTy).Contents (Elt F) → (⟨S8x64, .i1⟩ : BufTy).Contents (Elt F)),
    unary main_arg1 main_v15 ((extractStridedSlice S8x64x1 ![0, 0, 4] · slices_S8x64x5_S8x64x1_0_0_4) : (⟨S8x64x5, .f32⟩ : BufTy).Contents (Elt F) → (⟨S8x64x1, .f32⟩ : BufTy).Contents (Elt F)),
    reshape main_v15 main_v16 rfl shapeCasts_S8x64x1_S8x64,
    nullary main_cst_3 (constant S_ .f32 0x00000000#32),
    unary main_cst_3 main_v17 (broadcastInDim S8x64 ![] bcast_S_S8x64 : (⟨S_, .f32⟩ : BufTy).Contents (Elt F) → (⟨S8x64, .f32⟩ : BufTy).Contents (Elt F)),
    binary main_v16 main_v17 main_v18 (cmpf (F := F) .ogt : (⟨S8x64, .f32⟩ : BufTy).Contents (Elt F) → (⟨S8x64, .f32⟩ : BufTy).Contents (Elt F) → (⟨S8x64, .i1⟩ : BufTy).Contents (Elt F)),
    binary main_v14 main_v18 main_v19 (andi : (⟨S8x64, .i1⟩ : BufTy).Contents (Elt F) → (⟨S8x64, .i1⟩ : BufTy).Contents (Elt F) → (⟨S8x64, .i1⟩ : BufTy).Contents (Elt F)),
    unary main_v4 main_v20 ((extractStridedSlice S8x64x1 ![0, 0, 0] · slices_S8x64x4_S8x64x1_0_0_0) : (⟨S8x64x4, .f32⟩ : BufTy).Contents (Elt F) → (⟨S8x64x1, .f32⟩ : BufTy).Contents (Elt F)),
    reshape main_v20 main_v21 rfl shapeCasts_S8x64x1_S8x64,
    nullary main_cst_4 (constant S_ .f32 0x42A00000#32) ]

theorem refOps00_sub : (refOps00 : List (HloOp τ sig (Elt F))).Forall fun op => op.bufs ⊆ tcRefs τ sig :=
  ⟨unary_bufs_sub .., reshape_bufs_sub .., unary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub .., nullary_bufs_sub ..⟩

theorem refOps00_fresh : (refOps00 : List (HloOp τ sig (Elt F))).Forall fun op => op.fresh = ∅ := by
  simp only [List.Forall]; repeat' constructor

def refOps00Kept : List (Ref sig .tc) :=
  [main_arg0, main_arg1, main_arg2, main_arg3, main_arg4, main_arg5, main_arg6, main_arg7, main_arg8]

set_option maxHeartbeats 1000000 in

theorem refOps00_writes_none {r : Ref sig .tc} (hr : r ∈ refOps00Kept) :
    ∀ op ∈ (refOps00 : List (HloOp τ sig (Elt F))), Proc.devRef (τ := τ) .tc r ∉ op.writes :=
  List.forall_iff_forall_mem.mp (by
    simp only [refOps00, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem refOps00_kept (V : Valuation τ sig (Elt F)) {r : Ref sig .tc} (hr : r ∈ refOps00Kept) :
    StableHlo.after (refOps00 (F := F)) V (Proc.devRef .tc r) = V (Proc.devRef .tc r) :=
  StableHlo.after_of_forall_not_mem _ V (refOps00_writes_none hr)

end Cert.ReferenceIdeal.RunH

end
-- ==== Proof.RH.Ops01.lean ====
import proofs.«134848_j7748121002193_1_alg».proof.Proof.Gen.ReferenceIdeal
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev refOps01 : List (HloOp τ sig (Elt F)) :=
  [ unary main_cst_4 main_v22 (broadcastInDim S8x64 ![] bcast_S_S8x64 : (⟨S_, .f32⟩ : BufTy).Contents (Elt F) → (⟨S8x64, .f32⟩ : BufTy).Contents (Elt F)),
    binary main_v21 main_v22 main_v23 (mulf : (⟨S8x64, .f32⟩ : BufTy).Contents (Elt F) → (⟨S8x64, .f32⟩ : BufTy).Contents (Elt F) → (⟨S8x64, .f32⟩ : BufTy).Contents (Elt F)),
    unary main_v23 main_v24 (fptosi 32 : (⟨S8x64, .f32⟩ : BufTy).Contents (Elt F) → (⟨S8x64, .i32⟩ : BufTy).Contents (Elt F)),
    nullary main_c_5 (constantI S_ 32 79#32),
    unary main_c_5 main_v25 (broadcastInDim S8x64 ![] bcast_S_S8x64 : (⟨S_, .i32⟩ : BufTy).Contents (Elt F) → (⟨S8x64, .i32⟩ : BufTy).Contents (Elt F)),
    binary main_v24 main_v25 main_v26 (minsi : (⟨S8x64, .i32⟩ : BufTy).Contents (Elt F) → (⟨S8x64, .i32⟩ : BufTy).Contents (Elt F) → (⟨S8x64, .i32⟩ : BufTy).Contents (Elt F)),
    unary main_v4 main_v27 ((extractStridedSlice S8x64x1 ![0, 0, 1] · slices_S8x64x4_S8x64x1_0_0_1) : (⟨S8x64x4, .f32⟩ : BufTy).Contents (Elt F) → (⟨S8x64x1, .f32⟩ : BufTy).Contents (Elt F)),
    reshape main_v27 main_v28 rfl shapeCasts_S8x64x1_S8x64,
    nullary main_cst_6 (constant S_ .f32 0x42A00000#32),
    unary main_cst_6 main_v29 (broadcastInDim S8x64 ![] bcast_S_S8x64 : (⟨S_, .f32⟩ : BufTy).Contents (Elt F) → (⟨S8x64, .f32⟩ : BufTy).Contents (Elt F)),
    binary main_v28 main_v29 main_v30 (mulf : (⟨S8x64, .f32⟩ : BufTy).Contents (Elt F) → (⟨S8x64, .f32⟩ : BufTy).Contents (Elt F) → (⟨S8x64, .f32⟩ : BufTy).Contents (Elt F)),
    unary main_v30 main_v31 (fptosi 32 : (⟨S8x64, .f32⟩ : BufTy).Contents (Elt F) → (⟨S8x64, .i32⟩ : BufTy).Contents (Elt F)),
    nullary main_c_7 (constantI S_ 32 79#32),
    unary main_c_7 main_v32 (broadcastInDim S8x64 ![] bcast_S_S8x64 : (⟨S_, .i32⟩ : BufTy).Contents (Elt F) → (⟨S8x64, .i32⟩ : BufTy).Contents (Elt F)),
    binary main_v31 main_v32 main_v33 (minsi : (⟨S8x64, .i32⟩ : BufTy).Contents (Elt F) → (⟨S8x64, .i32⟩ : BufTy).Contents (Elt F) → (⟨S8x64, .i32⟩ : BufTy).Contents (Elt F)),
    nullary main_c_8 (constantI S_ 32 80#32),
    unary main_c_8 main_v34 (broadcastInDim S8x64 ![] bcast_S_S8x64 : (⟨S_, .i32⟩ : BufTy).Contents (Elt F) → (⟨S8x64, .i32⟩ : BufTy).Contents (Elt F)),
    binary main_v33 main_v34 main_v35 (muli : (⟨S8x64, .i32⟩ : BufTy).Contents (Elt F) → (⟨S8x64, .i32⟩ : BufTy).Contents (Elt F) → (⟨S8x64, .i32⟩ : BufTy).Contents (Elt F)),
    binary main_v35 main_v26 main_v36 (addi : (⟨S8x64, .i32⟩ : BufTy).Contents (Elt F) → (⟨S8x64, .i32⟩ : BufTy).Contents (Elt F) → (⟨S8x64, .i32⟩ : BufTy).Contents (Elt F)),
    nullary main_c_9 (constantI S_ 32 6400#32),
    TRef.unary (TRef.of (T := ⟨S_, .i32⟩) main_c_9) (TRef.of (T := ⟨S_, .i32⟩) main_call1_v0) id,
    TRef.unary (TRef.of (T := ⟨S_, .i32⟩) main_call1_v0) (TRef.of (T := ⟨S8x64, .i32⟩) main_call1_v1) (broadcastInDim S8x64 ![] bcast_S_S8x64),
    TRef.ternary (TRef.of (T := ⟨S8x64, .i1⟩) main_v19) (TRef.of (T := ⟨S8x64, .i32⟩) main_v36) (TRef.of (T := ⟨S8x64, .i32⟩) main_call1_v1) (TRef.of (T := ⟨S8x64, .i32⟩) main_v37) select,
    nullary main_v38 (iotaInDim S8 32 0),
    unary main_v38 main_v39 (broadcastInDim S8x1 ![0] bcast_S8_S8x1_0 : (⟨S8, .i32⟩ : BufTy).Contents (Elt F) → (⟨S8x1, .i32⟩ : BufTy).Contents (Elt F)),
    unary main_v39 main_v40 (broadcastInDim S8x64 ![0, 1] bcast_S8x1_S8x64_0_1 : (⟨S8x1, .i32⟩ : BufTy).Contents (Elt F) → (⟨S8x64, .i32⟩ : BufTy).Contents (Elt F)),
    nullary main_cst_10 (constant S_ .f32 0x00000000#32),
    unary main_cst_10 main_v41 (broadcastInDim S8x6401 ![] bcast_S_S8x6401 : (⟨S_, .f32⟩ : BufTy).Contents (Elt F) → (⟨S8x6401, .f32⟩ : BufTy).Contents (Elt F)),
    nullary main_c_11 (constantI S_ 32 0#32),
    unary main_c_11 main_v42 (broadcastInDim S8x64 ![] bcast_S_S8x64 : (⟨S_, .i32⟩ : BufTy).Contents (Elt F) → (⟨S8x64, .i32⟩ : BufTy).Contents (Elt F)),
    binary main_v40 main_v42 main_v43 (cmpi .slt : (⟨S8x64, .i32⟩ : BufTy).Contents (Elt F) → (⟨S8x64, .i32⟩ : BufTy).Contents (Elt F) → (⟨S8x64, .i1⟩ : BufTy).Contents (Elt F)),
    nullary main_c_12 (constantI S_ 32 8#32),
    unary main_c_12 main_v44 (broadcastInDim S8x64 ![] bcast_S_S8x64 : (⟨S_, .i32⟩ : BufTy).Contents (Elt F) → (⟨S8x64, .i32⟩ : BufTy).Contents (Elt F)) ]

theorem refOps01_sub : (refOps01 : List (HloOp τ sig (Elt F))).Forall fun op => op.bufs ⊆ tcRefs τ sig :=
  ⟨unary_bufs_sub .., binary_bufs_sub .., unary_bufs_sub .., nullary_bufs_sub .., unary_bufs_sub .., binary_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., unary_bufs_sub .., nullary_bufs_sub .., unary_bufs_sub .., nullary_bufs_sub .., unary_bufs_sub .., binary_bufs_sub .., nullary_bufs_sub .., unary_bufs_sub ..⟩

theorem refOps01_fresh : (refOps01 : List (HloOp τ sig (Elt F))).Forall fun op => op.fresh = ∅ := by
  simp only [List.Forall]; repeat' constructor

def refOps01Kept : List (Ref sig .tc) :=
  [main_arg0, main_arg1, main_arg2, main_arg3, main_arg4, main_arg5, main_arg6, main_arg7, main_arg8, main_v2, main_v4]

set_option maxHeartbeats 1000000 in

theorem refOps01_writes_none {r : Ref sig .tc} (hr : r ∈ refOps01Kept) :
    ∀ op ∈ (refOps01 : List (HloOp τ sig (Elt F))), Proc.devRef (τ := τ) .tc r ∉ op.writes :=
  List.forall_iff_forall_mem.mp (by
    simp only [refOps01, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem refOps01_kept (V : Valuation τ sig (Elt F)) {r : Ref sig .tc} (hr : r ∈ refOps01Kept) :
    StableHlo.after (refOps01 (F := F)) V (Proc.devRef .tc r) = V (Proc.devRef .tc r) :=
  StableHlo.after_of_forall_not_mem _ V (refOps01_writes_none hr)

end Cert.ReferenceIdeal.RunH

end
-- ==== Proof.RH.Ops02a.lean ====
import proofs.«134848_j7748121002193_1_alg».proof.Proof.Gen.ReferenceIdeal
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev refOps02a : List (HloOp τ sig (Elt F)) :=
  [ binary main_v40 main_v44 main_v45 (addi : (⟨S8x64, .i32⟩ : BufTy).Contents (Elt F) → (⟨S8x64, .i32⟩ : BufTy).Contents (Elt F) → (⟨S8x64, .i32⟩ : BufTy).Contents (Elt F)),
    ternary main_v43 main_v45 main_v40 main_v46 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    nullary main_c_13 (constantI S_ 32 0#32),
    unary main_c_13 main_v47 (broadcastInDim S8x64 ![] bcast_S_S8x64 : (⟨S_, .i32⟩ : BufTy).Contents (Elt F) → (⟨S8x64, .i32⟩ : BufTy).Contents (Elt F)),
    binary main_v37 main_v47 main_v48 (cmpi .slt : (⟨S8x64, .i32⟩ : BufTy).Contents (Elt F) → (⟨S8x64, .i32⟩ : BufTy).Contents (Elt F) → (⟨S8x64, .i1⟩ : BufTy).Contents (Elt F)),
    nullary main_c_14 (constantI S_ 32 6401#32),
    unary main_c_14 main_v49 (broadcastInDim S8x64 ![] bcast_S_S8x64 : (⟨S_, .i32⟩ : BufTy).Contents (Elt F) → (⟨S8x64, .i32⟩ : BufTy).Contents (Elt F)),
    binary main_v37 main_v49 main_v50 (addi : (⟨S8x64, .i32⟩ : BufTy).Contents (Elt F) → (⟨S8x64, .i32⟩ : BufTy).Contents (Elt F) → (⟨S8x64, .i32⟩ : BufTy).Contents (Elt F)),
    ternary main_v48 main_v50 main_v37 main_v51 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    unary main_v46 main_v52 (broadcastInDim S8x64x1 ![0, 1] bcast_S8x64_S8x64x1_0_1 : (⟨S8x64, .i32⟩ : BufTy).Contents (Elt F) → (⟨S8x64x1, .i32⟩ : BufTy).Contents (Elt F)),
    unary main_v51 main_v53 (broadcastInDim S8x64x1 ![0, 1] bcast_S8x64_S8x64x1_0_1 : (⟨S8x64, .i32⟩ : BufTy).Contents (Elt F) → (⟨S8x64x1, .i32⟩ : BufTy).Contents (Elt F)) ]

theorem refOps02a_sub : (refOps02a : List (HloOp τ sig (Elt F))).Forall fun op => op.bufs ⊆ tcRefs τ sig :=
  ⟨binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

theorem refOps02a_fresh : (refOps02a : List (HloOp τ sig (Elt F))).Forall fun op => op.fresh = ∅ := by
  simp only [List.Forall]; repeat' constructor

def refOps02aKept : List (Ref sig .tc) :=
  [main_arg0, main_arg1, main_arg2, main_arg3, main_arg4, main_arg5, main_arg6, main_arg7, main_arg8, main_v2, main_v4, main_v37, main_v40, main_v41]

set_option maxHeartbeats 1000000 in

theorem refOps02a_writes_none {r : Ref sig .tc} (hr : r ∈ refOps02aKept) :
    ∀ op ∈ (refOps02a : List (HloOp τ sig (Elt F))), Proc.devRef (τ := τ) .tc r ∉ op.writes :=
  List.forall_iff_forall_mem.mp (by
    simp only [refOps02a, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem refOps02a_kept (V : Valuation τ sig (Elt F)) {r : Ref sig .tc} (hr : r ∈ refOps02aKept) :
    StableHlo.after (refOps02a (F := F)) V (Proc.devRef .tc r) = V (Proc.devRef .tc r) :=
  StableHlo.after_of_forall_not_mem _ V (refOps02a_writes_none hr)

end Cert.ReferenceIdeal.RunH

end
-- ==== Proof.RH.Ops02b.lean ====
import proofs.«134848_j7748121002193_1_alg».proof.Proof.Gen.ReferenceIdeal
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev refOps02b : List (HloOp τ sig (Elt F)) :=
  [ binary main_v52 main_v53 main_v54 ((fun a b => concatenate S8x64x2 2 [⟨S8x64x1, a⟩, ⟨S8x64x1, b⟩] concatenates_S8x64x1_S8x64x1_S8x64x2_d2) : (⟨S8x64x1, .i32⟩ : BufTy).Contents (Elt F) → (⟨S8x64x1, .i32⟩ : BufTy).Contents (Elt F) → (⟨S8x64x2, .i32⟩ : BufTy).Contents (Elt F)),
    nullary main_cst_15 (constant S_ .f32 0x3F800000#32),
    unary main_cst_15 main_v55 (broadcastInDim S8x64 ![] bcast_S_S8x64 : (⟨S_, .f32⟩ : BufTy).Contents (Elt F) → (⟨S8x64, .f32⟩ : BufTy).Contents (Elt F)),
    ternary main_v41 main_v54 main_v55 main_v56 ((fun x i u => Host.scatter scatter_S8x6401_S8x64x2_S8x64_n_01_01_2 (fun _ b => b) x i u) : (⟨S8x6401, .f32⟩ : BufTy).Contents (Elt F) → (⟨S8x64x2, .i32⟩ : BufTy).Contents (Elt F) → (⟨S8x64, .f32⟩ : BufTy).Contents (Elt F) → (⟨S8x6401, .f32⟩ : BufTy).Contents (Elt F)),
    unary main_v56 main_v57 ((extractStridedSlice S8x6400 ![0, 0] · slices_S8x6401_S8x6400_0_0) : (⟨S8x6401, .f32⟩ : BufTy).Contents (Elt F) → (⟨S8x6400, .f32⟩ : BufTy).Contents (Elt F)),
    reshape main_v57 main_v58 rfl shapeCasts_S8x6400_S8x80x80,
    nullary main_cst_16 (constant S_ .f32 0x00000000#32),
    unary main_cst_16 main_v59 (broadcastInDim S8x6401x4 ![] bcast_S_S8x6401x4 : (⟨S_, .f32⟩ : BufTy).Contents (Elt F) → (⟨S8x6401x4, .f32⟩ : BufTy).Contents (Elt F)),
    nullary main_c_17 (constantI S_ 32 0#32),
    unary main_c_17 main_v60 (broadcastInDim S8x64 ![] bcast_S_S8x64 : (⟨S_, .i32⟩ : BufTy).Contents (Elt F) → (⟨S8x64, .i32⟩ : BufTy).Contents (Elt F)),
    binary main_v40 main_v60 main_v61 (cmpi .slt : (⟨S8x64, .i32⟩ : BufTy).Contents (Elt F) → (⟨S8x64, .i32⟩ : BufTy).Contents (Elt F) → (⟨S8x64, .i1⟩ : BufTy).Contents (Elt F)),
    nullary main_c_18 (constantI S_ 32 8#32),
    unary main_c_18 main_v62 (broadcastInDim S8x64 ![] bcast_S_S8x64 : (⟨S_, .i32⟩ : BufTy).Contents (Elt F) → (⟨S8x64, .i32⟩ : BufTy).Contents (Elt F)),
    binary main_v40 main_v62 main_v63 (addi : (⟨S8x64, .i32⟩ : BufTy).Contents (Elt F) → (⟨S8x64, .i32⟩ : BufTy).Contents (Elt F) → (⟨S8x64, .i32⟩ : BufTy).Contents (Elt F)),
    ternary main_v61 main_v63 main_v40 main_v64 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    nullary main_c_19 (constantI S_ 32 0#32),
    unary main_c_19 main_v65 (broadcastInDim S8x64 ![] bcast_S_S8x64 : (⟨S_, .i32⟩ : BufTy).Contents (Elt F) → (⟨S8x64, .i32⟩ : BufTy).Contents (Elt F)),
    binary main_v37 main_v65 main_v66 (cmpi .slt : (⟨S8x64, .i32⟩ : BufTy).Contents (Elt F) → (⟨S8x64, .i32⟩ : BufTy).Contents (Elt F) → (⟨S8x64, .i1⟩ : BufTy).Contents (Elt F)),
    nullary main_c_20 (constantI S_ 32 6401#32),
    unary main_c_20 main_v67 (broadcastInDim S8x64 ![] bcast_S_S8x64 : (⟨S_, .i32⟩ : BufTy).Contents (Elt F) → (⟨S8x64, .i32⟩ : BufTy).Contents (Elt F)),
    binary main_v37 main_v67 main_v68 (addi : (⟨S8x64, .i32⟩ : BufTy).Contents (Elt F) → (⟨S8x64, .i32⟩ : BufTy).Contents (Elt F) → (⟨S8x64, .i32⟩ : BufTy).Contents (Elt F)),
    ternary main_v66 main_v68 main_v37 main_v69 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    unary main_v64 main_v70 (broadcastInDim S8x64x1 ![0, 1] bcast_S8x64_S8x64x1_0_1 : (⟨S8x64, .i32⟩ : BufTy).Contents (Elt F) → (⟨S8x64x1, .i32⟩ : BufTy).Contents (Elt F)),
    unary main_v69 main_v71 (broadcastInDim S8x64x1 ![0, 1] bcast_S8x64_S8x64x1_0_1 : (⟨S8x64, .i32⟩ : BufTy).Contents (Elt F) → (⟨S8x64x1, .i32⟩ : BufTy).Contents (Elt F)) ]

theorem refOps02b_sub : (refOps02b : List (HloOp τ sig (Elt F))).Forall fun op => op.bufs ⊆ tcRefs τ sig :=
  ⟨binary_bufs_sub .., nullary_bufs_sub .., unary_bufs_sub .., ternary_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

theorem refOps02b_fresh : (refOps02b : List (HloOp τ sig (Elt F))).Forall fun op => op.fresh = ∅ := by
  simp only [List.Forall]; repeat' constructor

def refOps02bKept : List (Ref sig .tc) :=
  [main_arg0, main_arg1, main_arg2, main_arg3, main_arg4, main_arg5, main_arg6, main_arg7, main_arg8, main_v2, main_v4, main_v37, main_v40]

set_option maxHeartbeats 1000000 in

theorem refOps02b_writes_none {r : Ref sig .tc} (hr : r ∈ refOps02bKept) :
    ∀ op ∈ (refOps02b : List (HloOp τ sig (Elt F))), Proc.devRef (τ := τ) .tc r ∉ op.writes :=
  List.forall_iff_forall_mem.mp (by
    simp only [refOps02b, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem refOps02b_kept (V : Valuation τ sig (Elt F)) {r : Ref sig .tc} (hr : r ∈ refOps02bKept) :
    StableHlo.after (refOps02b (F := F)) V (Proc.devRef .tc r) = V (Proc.devRef .tc r) :=
  StableHlo.after_of_forall_not_mem _ V (refOps02b_writes_none hr)

end Cert.ReferenceIdeal.RunH

end
-- ==== Proof.RH.Ops03a.lean ====
import proofs.«134848_j7748121002193_1_alg».proof.Proof.Gen.ReferenceIdeal
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev refOps03a : List (HloOp τ sig (Elt F)) :=
  [ binary main_v70 main_v71 main_v72 ((fun a b => concatenate S8x64x2 2 [⟨S8x64x1, a⟩, ⟨S8x64x1, b⟩] concatenates_S8x64x1_S8x64x1_S8x64x2_d2) : (⟨S8x64x1, .i32⟩ : BufTy).Contents (Elt F) → (⟨S8x64x1, .i32⟩ : BufTy).Contents (Elt F) → (⟨S8x64x2, .i32⟩ : BufTy).Contents (Elt F)),
    ternary main_v59 main_v72 main_v4 main_v73 ((fun x i u => Host.scatter scatter_S8x6401x4_S8x64x2_S8x64x4_2_01_01_2 (fun _ b => b) x i u) : (⟨S8x6401x4, .f32⟩ : BufTy).Contents (Elt F) → (⟨S8x64x2, .i32⟩ : BufTy).Contents (Elt F) → (⟨S8x64x4, .f32⟩ : BufTy).Contents (Elt F) → (⟨S8x6401x4, .f32⟩ : BufTy).Contents (Elt F)),
    unary main_v73 main_v74 ((extractStridedSlice S8x6400x4 ![0, 0, 0] · slices_S8x6401x4_S8x6400x4_0_0_0) : (⟨S8x6401x4, .f32⟩ : BufTy).Contents (Elt F) → (⟨S8x6400x4, .f32⟩ : BufTy).Contents (Elt F)),
    reshape main_v74 main_v75 rfl shapeCasts_S8x6400x4_S8x80x80x4,
    nullary main_c_21 (constantI S_ 32 0#32),
    unary main_c_21 main_v76 (broadcastInDim S8x6401 ![] bcast_S_S8x6401 : (⟨S_, .i32⟩ : BufTy).Contents (Elt F) → (⟨S8x6401, .i32⟩ : BufTy).Contents (Elt F)),
    nullary main_c_22 (constantI S_ 32 0#32),
    unary main_c_22 main_v77 (broadcastInDim S8x64 ![] bcast_S_S8x64 : (⟨S_, .i32⟩ : BufTy).Contents (Elt F) → (⟨S8x64, .i32⟩ : BufTy).Contents (Elt F)),
    binary main_v40 main_v77 main_v78 (cmpi .slt : (⟨S8x64, .i32⟩ : BufTy).Contents (Elt F) → (⟨S8x64, .i32⟩ : BufTy).Contents (Elt F) → (⟨S8x64, .i1⟩ : BufTy).Contents (Elt F)),
    nullary main_c_23 (constantI S_ 32 8#32),
    unary main_c_23 main_v79 (broadcastInDim S8x64 ![] bcast_S_S8x64 : (⟨S_, .i32⟩ : BufTy).Contents (Elt F) → (⟨S8x64, .i32⟩ : BufTy).Contents (Elt F)),
    binary main_v40 main_v79 main_v80 (addi : (⟨S8x64, .i32⟩ : BufTy).Contents (Elt F) → (⟨S8x64, .i32⟩ : BufTy).Contents (Elt F) → (⟨S8x64, .i32⟩ : BufTy).Contents (Elt F)),
    ternary main_v78 main_v80 main_v40 main_v81 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    nullary main_c_24 (constantI S_ 32 0#32),
    unary main_c_24 main_v82 (broadcastInDim S8x64 ![] bcast_S_S8x64 : (⟨S_, .i32⟩ : BufTy).Contents (Elt F) → (⟨S8x64, .i32⟩ : BufTy).Contents (Elt F)),
    binary main_v37 main_v82 main_v83 (cmpi .slt : (⟨S8x64, .i32⟩ : BufTy).Contents (Elt F) → (⟨S8x64, .i32⟩ : BufTy).Contents (Elt F) → (⟨S8x64, .i1⟩ : BufTy).Contents (Elt F)),
    nullary main_c_25 (constantI S_ 32 6401#32),
    unary main_c_25 main_v84 (broadcastInDim S8x64 ![] bcast_S_S8x64 : (⟨S_, .i32⟩ : BufTy).Contents (Elt F) → (⟨S8x64, .i32⟩ : BufTy).Contents (Elt F)),
    binary main_v37 main_v84 main_v85 (addi : (⟨S8x64, .i32⟩ : BufTy).Contents (Elt F) → (⟨S8x64, .i32⟩ : BufTy).Contents (Elt F) → (⟨S8x64, .i32⟩ : BufTy).Contents (Elt F)),
    ternary main_v83 main_v85 main_v37 main_v86 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    unary main_v81 main_v87 (broadcastInDim S8x64x1 ![0, 1] bcast_S8x64_S8x64x1_0_1 : (⟨S8x64, .i32⟩ : BufTy).Contents (Elt F) → (⟨S8x64x1, .i32⟩ : BufTy).Contents (Elt F)),
    unary main_v86 main_v88 (broadcastInDim S8x64x1 ![0, 1] bcast_S8x64_S8x64x1_0_1 : (⟨S8x64, .i32⟩ : BufTy).Contents (Elt F) → (⟨S8x64x1, .i32⟩ : BufTy).Contents (Elt F)) ]

theorem refOps03a_sub : (refOps03a : List (HloOp τ sig (Elt F))).Forall fun op => op.bufs ⊆ tcRefs τ sig :=
  ⟨binary_bufs_sub .., ternary_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

theorem refOps03a_fresh : (refOps03a : List (HloOp τ sig (Elt F))).Forall fun op => op.fresh = ∅ := by
  simp only [List.Forall]; repeat' constructor

def refOps03aKept : List (Ref sig .tc) :=
  [main_arg0, main_arg1, main_arg2, main_arg3, main_arg4, main_arg5, main_arg6, main_arg7, main_arg8, main_v2, main_v58]

set_option maxHeartbeats 1000000 in

theorem refOps03a_writes_none {r : Ref sig .tc} (hr : r ∈ refOps03aKept) :
    ∀ op ∈ (refOps03a : List (HloOp τ sig (Elt F))), Proc.devRef (τ := τ) .tc r ∉ op.writes :=
  List.forall_iff_forall_mem.mp (by
    simp only [refOps03a, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem refOps03a_kept (V : Valuation τ sig (Elt F)) {r : Ref sig .tc} (hr : r ∈ refOps03aKept) :
    StableHlo.after (refOps03a (F := F)) V (Proc.devRef .tc r) = V (Proc.devRef .tc r) :=
  StableHlo.after_of_forall_not_mem _ V (refOps03a_writes_none hr)

end Cert.ReferenceIdeal.RunH

end
-- ==== Proof.RH.Ops03b.lean ====
import proofs.«134848_j7748121002193_1_alg».proof.Proof.Gen.ReferenceIdeal
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev refOps03b : List (HloOp τ sig (Elt F)) :=
  [ binary main_v87 main_v88 main_v89 ((fun a b => concatenate S8x64x2 2 [⟨S8x64x1, a⟩, ⟨S8x64x1, b⟩] concatenates_S8x64x1_S8x64x1_S8x64x2_d2) : (⟨S8x64x1, .i32⟩ : BufTy).Contents (Elt F) → (⟨S8x64x1, .i32⟩ : BufTy).Contents (Elt F) → (⟨S8x64x2, .i32⟩ : BufTy).Contents (Elt F)),
    ternary main_v76 main_v89 main_v2 main_v90 ((fun x i u => Host.scatter scatter_S8x6401_S8x64x2_S8x64_n_01_01_2 (fun _ b => b) x i u) : (⟨S8x6401, .i32⟩ : BufTy).Contents (Elt F) → (⟨S8x64x2, .i32⟩ : BufTy).Contents (Elt F) → (⟨S8x64, .i32⟩ : BufTy).Contents (Elt F) → (⟨S8x6401, .i32⟩ : BufTy).Contents (Elt F)),
    unary main_v90 main_v91 ((extractStridedSlice S8x6400 ![0, 0] · slices_S8x6401_S8x6400_0_0) : (⟨S8x6401, .i32⟩ : BufTy).Contents (Elt F) → (⟨S8x6400, .i32⟩ : BufTy).Contents (Elt F)) ]

theorem refOps03b_sub : (refOps03b : List (HloOp τ sig (Elt F))).Forall fun op => op.bufs ⊆ tcRefs τ sig :=
  ⟨binary_bufs_sub .., ternary_bufs_sub .., unary_bufs_sub ..⟩

theorem refOps03b_fresh : (refOps03b : List (HloOp τ sig (Elt F))).Forall fun op => op.fresh = ∅ := by
  simp only [List.Forall]; repeat' constructor

def refOps03bKept : List (Ref sig .tc) :=
  [main_arg0, main_arg1, main_arg2, main_arg3, main_arg4, main_arg5, main_arg6, main_arg7, main_arg8, main_v58, main_v75]

set_option maxHeartbeats 1000000 in

theorem refOps03b_writes_none {r : Ref sig .tc} (hr : r ∈ refOps03bKept) :
    ∀ op ∈ (refOps03b : List (HloOp τ sig (Elt F))), Proc.devRef (τ := τ) .tc r ∉ op.writes :=
  List.forall_iff_forall_mem.mp (by
    simp only [refOps03b, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem refOps03b_kept (V : Valuation τ sig (Elt F)) {r : Ref sig .tc} (hr : r ∈ refOps03bKept) :
    StableHlo.after (refOps03b (F := F)) V (Proc.devRef .tc r) = V (Proc.devRef .tc r) :=
  StableHlo.after_of_forall_not_mem _ V (refOps03b_writes_none hr)

end Cert.ReferenceIdeal.RunH

end
-- ==== Proof.RH.Ops04.lean ====
import proofs.«134848_j7748121002193_1_alg».proof.Proof.Gen.ReferenceIdeal
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev refOps04 : List (HloOp τ sig (Elt F)) :=
  [ reshape main_v91 main_v92 rfl shapeCasts_S8x6400_S8x80x80,
    nullary main_cst_26 (constant S_ .f32 0x00000000#32),
    unary main_cst_26 main_v93 (broadcastInDim S8x80x80 ![] bcast_S_S8x80x80 : (⟨S_, .f32⟩ : BufTy).Contents (Elt F) → (⟨S8x80x80, .f32⟩ : BufTy).Contents (Elt F)),
    binary main_v58 main_v93 main_v94 (cmpf (F := F) .ogt : (⟨S8x80x80, .f32⟩ : BufTy).Contents (Elt F) → (⟨S8x80x80, .f32⟩ : BufTy).Contents (Elt F) → (⟨S8x80x80, .i1⟩ : BufTy).Contents (Elt F)),
    reshape main_v94 main_v95 rfl shapeCasts_S8x80x80_S8x6400,
    unary main_v95 main_v96 ((extui 32 · natLt_1_32) : (⟨S8x6400, .i1⟩ : BufTy).Contents (Elt F) → (⟨S8x6400, .i32⟩ : BufTy).Contents (Elt F)),
    nullary main_c_27 (constantI S_ 32 0#32),
    binary main_v96 main_c_27 main_v97 ((fun x v => Host.reduce IntOp.addi x v reducesTo_S8x6400_S8_d1 h_S_) : (⟨S8x6400, .i32⟩ : BufTy).Contents (Elt F) → (⟨S_, .i32⟩ : BufTy).Contents (Elt F) → (⟨S8, .i32⟩ : BufTy).Contents (Elt F)),
    nullary main_c_28 (constantI S_ 32 1#32),
    unary main_c_28 main_v98 (broadcastInDim S8 ![] bcast_S_S8 : (⟨S_, .i32⟩ : BufTy).Contents (Elt F) → (⟨S8, .i32⟩ : BufTy).Contents (Elt F)),
    binary main_v97 main_v98 main_v99 (maxsi : (⟨S8, .i32⟩ : BufTy).Contents (Elt F) → (⟨S8, .i32⟩ : BufTy).Contents (Elt F) → (⟨S8, .i32⟩ : BufTy).Contents (Elt F)),
    unary main_v99 main_v100 (sitofp (F := F) .f32 : (⟨S8, .i32⟩ : BufTy).Contents (Elt F) → (⟨S8, .f32⟩ : BufTy).Contents (Elt F)),
    unary main_arg6 main_v101 (sitofp (F := F) .f32 : (⟨S8, .i32⟩ : BufTy).Contents (Elt F) → (⟨S8, .f32⟩ : BufTy).Contents (Elt F)),
    nullary main_cst_29 (constant S_ .f32 0x00000000#32),
    binary main_v101 main_cst_29 main_v102 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_30 (constant S_ .f32 0x3F800000#32),
    binary main_v102 main_cst_30 main_v103 (maximumf : (⟨S_, .f32⟩ : BufTy).Contents (Elt F) → (⟨S_, .f32⟩ : BufTy).Contents (Elt F) → (⟨S_, .f32⟩ : BufTy).Contents (Elt F)),
    unary main_arg0 main_v104 ((extractStridedSlice S8x1x80x80 ![0, 4, 0, 0] · slices_S8x15x80x80_S8x1x80x80_0_4_0_0) : (⟨S8x15x80x80, .f32⟩ : BufTy).Contents (Elt F) → (⟨S8x1x80x80, .f32⟩ : BufTy).Contents (Elt F)),
    reshape main_v104 main_v105 rfl shapeCasts_S8x1x80x80_S8x80x80,
    nullary main_cst_31 (constant S_ .f32 0x00000000#32),
    unary main_cst_31 main_v106 (broadcastInDim S8x80x80 ![] bcast_S_S8x80x80 : (⟨S_, .f32⟩ : BufTy).Contents (Elt F) → (⟨S8x80x80, .f32⟩ : BufTy).Contents (Elt F)),
    binary main_v105 main_v106 main_v107 (maximumf : (⟨S8x80x80, .f32⟩ : BufTy).Contents (Elt F) → (⟨S8x80x80, .f32⟩ : BufTy).Contents (Elt F) → (⟨S8x80x80, .f32⟩ : BufTy).Contents (Elt F)),
    binary main_v105 main_v58 main_v108 (mulf : (⟨S8x80x80, .f32⟩ : BufTy).Contents (Elt F) → (⟨S8x80x80, .f32⟩ : BufTy).Contents (Elt F) → (⟨S8x80x80, .f32⟩ : BufTy).Contents (Elt F)),
    binary main_v107 main_v108 main_v109 (subf : (⟨S8x80x80, .f32⟩ : BufTy).Contents (Elt F) → (⟨S8x80x80, .f32⟩ : BufTy).Contents (Elt F) → (⟨S8x80x80, .f32⟩ : BufTy).Contents (Elt F)),
    unary main_v105 main_v110 (Host.absf : (⟨S8x80x80, .f32⟩ : BufTy).Contents (Elt F) → (⟨S8x80x80, .f32⟩ : BufTy).Contents (Elt F)),
    unary main_v110 main_v111 (Host.negf : (⟨S8x80x80, .f32⟩ : BufTy).Contents (Elt F) → (⟨S8x80x80, .f32⟩ : BufTy).Contents (Elt F)),
    unary main_v111 main_v112 (Host.exp : (⟨S8x80x80, .f32⟩ : BufTy).Contents (Elt F) → (⟨S8x80x80, .f32⟩ : BufTy).Contents (Elt F)),
    unary main_v112 main_v113 (Host.log1p : (⟨S8x80x80, .f32⟩ : BufTy).Contents (Elt F) → (⟨S8x80x80, .f32⟩ : BufTy).Contents (Elt F)),
    binary main_v109 main_v113 main_v114 (addf : (⟨S8x80x80, .f32⟩ : BufTy).Contents (Elt F) → (⟨S8x80x80, .f32⟩ : BufTy).Contents (Elt F) → (⟨S8x80x80, .f32⟩ : BufTy).Contents (Elt F)),
    reshape main_v114 main_v115 rfl shapeCasts_S8x80x80_S8x6400 ]

theorem refOps04_sub : (refOps04 : List (HloOp τ sig (Elt F))).Forall fun op => op.bufs ⊆ tcRefs τ sig :=
  ⟨reshape_bufs_sub .., nullary_bufs_sub .., unary_bufs_sub .., binary_bufs_sub .., reshape_bufs_sub .., unary_bufs_sub .., nullary_bufs_sub .., binary_bufs_sub .., nullary_bufs_sub .., unary_bufs_sub .., binary_bufs_sub .., unary_bufs_sub .., unary_bufs_sub .., nullary_bufs_sub .., binary_bufs_sub .., nullary_bufs_sub .., binary_bufs_sub .., unary_bufs_sub .., reshape_bufs_sub .., nullary_bufs_sub .., unary_bufs_sub .., binary_bufs_sub .., binary_bufs_sub .., binary_bufs_sub .., unary_bufs_sub .., unary_bufs_sub .., unary_bufs_sub .., unary_bufs_sub .., binary_bufs_sub .., reshape_bufs_sub ..⟩

theorem refOps04_fresh : (refOps04 : List (HloOp τ sig (Elt F))).Forall fun op => op.fresh = ∅ := by
  simp only [List.Forall]; repeat' constructor

def refOps04Kept : List (Ref sig .tc) :=
  [main_arg0, main_arg1, main_arg2, main_arg3, main_arg4, main_arg5, main_arg6, main_arg7, main_arg8, main_v75]

set_option maxHeartbeats 1000000 in

theorem refOps04_writes_none {r : Ref sig .tc} (hr : r ∈ refOps04Kept) :
    ∀ op ∈ (refOps04 : List (HloOp τ sig (Elt F))), Proc.devRef (τ := τ) .tc r ∉ op.writes :=
  List.forall_iff_forall_mem.mp (by
    simp only [refOps04, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem refOps04_kept (V : Valuation τ sig (Elt F)) {r : Ref sig .tc} (hr : r ∈ refOps04Kept) :
    StableHlo.after (refOps04 (F := F)) V (Proc.devRef .tc r) = V (Proc.devRef .tc r) :=
  StableHlo.after_of_forall_not_mem _ V (refOps04_writes_none hr)

end Cert.ReferenceIdeal.RunH

end
-- ==== Proof.RH.Ops05.lean ====
import proofs.«134848_j7748121002193_1_alg».proof.Proof.Gen.ReferenceIdeal
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev refOps05 : List (HloOp τ sig (Elt F)) :=
  [ nullary main_cst_32 (constant S_ .f32 0x00000000#32),
    binary main_v115 main_cst_32 main_v116 ((fun x v => Host.reduceAdd x v reducesTo_S8x6400_S8_d1 h_S_) : (⟨S8x6400, .f32⟩ : BufTy).Contents (Elt F) → (⟨S_, .f32⟩ : BufTy).Contents (Elt F) → (⟨S8, .f32⟩ : BufTy).Contents (Elt F)),
    nullary main_cst_33 (constant S_ .f32 0x45C80000#32),
    unary main_cst_33 main_v117 (broadcastInDim S8 ![] bcast_S_S8 : (⟨S_, .f32⟩ : BufTy).Contents (Elt F) → (⟨S8, .f32⟩ : BufTy).Contents (Elt F)),
    binary main_v116 main_v117 main_v118 (Host.divf : (⟨S8, .f32⟩ : BufTy).Contents (Elt F) → (⟨S8, .f32⟩ : BufTy).Contents (Elt F) → (⟨S8, .f32⟩ : BufTy).Contents (Elt F)),
    unary main_arg0 main_v119 ((extractStridedSlice S8x4x80x80 ![0, 0, 0, 0] · slices_S8x15x80x80_S8x4x80x80_0_0_0_0) : (⟨S8x15x80x80, .f32⟩ : BufTy).Contents (Elt F) → (⟨S8x4x80x80, .f32⟩ : BufTy).Contents (Elt F)),
    unary main_v119 main_v120 ((transpose S8x80x80x4 [0, 2, 3, 1] · transposes_S8x4x80x80_S8x80x80x4_0_2_3_1) : (⟨S8x4x80x80, .f32⟩ : BufTy).Contents (Elt F) → (⟨S8x80x80x4, .f32⟩ : BufTy).Contents (Elt F)),
    unary main_v120 main_v121 (Host.negf : (⟨S8x80x80x4, .f32⟩ : BufTy).Contents (Elt F) → (⟨S8x80x80x4, .f32⟩ : BufTy).Contents (Elt F)),
    unary main_v121 main_v122 (Host.exp : (⟨S8x80x80x4, .f32⟩ : BufTy).Contents (Elt F) → (⟨S8x80x80x4, .f32⟩ : BufTy).Contents (Elt F)),
    nullary main_cst_34 (constant S_ .f32 0x3F800000#32),
    unary main_cst_34 main_v123 (broadcastInDim S8x80x80x4 ![] bcast_S_S8x80x80x4 : (⟨S_, .f32⟩ : BufTy).Contents (Elt F) → (⟨S8x80x80x4, .f32⟩ : BufTy).Contents (Elt F)),
    binary main_v123 main_v122 main_v124 (addf : (⟨S8x80x80x4, .f32⟩ : BufTy).Contents (Elt F) → (⟨S8x80x80x4, .f32⟩ : BufTy).Contents (Elt F) → (⟨S8x80x80x4, .f32⟩ : BufTy).Contents (Elt F)),
    nullary main_cst_35 (constant S_ .f32 0x3F800000#32),
    unary main_cst_35 main_v125 (broadcastInDim S8x80x80x4 ![] bcast_S_S8x80x80x4 : (⟨S_, .f32⟩ : BufTy).Contents (Elt F) → (⟨S8x80x80x4, .f32⟩ : BufTy).Contents (Elt F)),
    binary main_v125 main_v124 main_v126 (Host.divf : (⟨S8x80x80x4, .f32⟩ : BufTy).Contents (Elt F) → (⟨S8x80x80x4, .f32⟩ : BufTy).Contents (Elt F) → (⟨S8x80x80x4, .f32⟩ : BufTy).Contents (Elt F)),
    binary main_v126 main_v75 main_v127 (subf : (⟨S8x80x80x4, .f32⟩ : BufTy).Contents (Elt F) → (⟨S8x80x80x4, .f32⟩ : BufTy).Contents (Elt F) → (⟨S8x80x80x4, .f32⟩ : BufTy).Contents (Elt F)),
    unary main_v127 main_v128 (Host.absf : (⟨S8x80x80x4, .f32⟩ : BufTy).Contents (Elt F) → (⟨S8x80x80x4, .f32⟩ : BufTy).Contents (Elt F)),
    nullary main_cst_36 (constant S_ .f32 0x3F800000#32),
    unary main_cst_36 main_v129 (broadcastInDim S8x80x80x4 ![] bcast_S_S8x80x80x4 : (⟨S_, .f32⟩ : BufTy).Contents (Elt F) → (⟨S8x80x80x4, .f32⟩ : BufTy).Contents (Elt F)),
    binary main_v128 main_v129 main_v130 (cmpf (F := F) .olt : (⟨S8x80x80x4, .f32⟩ : BufTy).Contents (Elt F) → (⟨S8x80x80x4, .f32⟩ : BufTy).Contents (Elt F) → (⟨S8x80x80x4, .i1⟩ : BufTy).Contents (Elt F)),
    nullary main_cst_37 (constant S_ .f32 0x3F000000#32),
    unary main_cst_37 main_v131 (broadcastInDim S8x80x80x4 ![] bcast_S_S8x80x80x4 : (⟨S_, .f32⟩ : BufTy).Contents (Elt F) → (⟨S8x80x80x4, .f32⟩ : BufTy).Contents (Elt F)),
    binary main_v131 main_v128 main_v132 (mulf : (⟨S8x80x80x4, .f32⟩ : BufTy).Contents (Elt F) → (⟨S8x80x80x4, .f32⟩ : BufTy).Contents (Elt F) → (⟨S8x80x80x4, .f32⟩ : BufTy).Contents (Elt F)),
    binary main_v132 main_v128 main_v133 (mulf : (⟨S8x80x80x4, .f32⟩ : BufTy).Contents (Elt F) → (⟨S8x80x80x4, .f32⟩ : BufTy).Contents (Elt F) → (⟨S8x80x80x4, .f32⟩ : BufTy).Contents (Elt F)),
    nullary main_cst_38 (constant S_ .f32 0x3F000000#32),
    unary main_cst_38 main_v134 (broadcastInDim S8x80x80x4 ![] bcast_S_S8x80x80x4 : (⟨S_, .f32⟩ : BufTy).Contents (Elt F) → (⟨S8x80x80x4, .f32⟩ : BufTy).Contents (Elt F)),
    binary main_v128 main_v134 main_v135 (subf : (⟨S8x80x80x4, .f32⟩ : BufTy).Contents (Elt F) → (⟨S8x80x80x4, .f32⟩ : BufTy).Contents (Elt F) → (⟨S8x80x80x4, .f32⟩ : BufTy).Contents (Elt F)),
    TRef.ternary (TRef.of (T := ⟨S8x80x80x4, .i1⟩) main_v130) (TRef.of (T := ⟨S8x80x80x4, .f32⟩) main_v133) (TRef.of (T := ⟨S8x80x80x4, .f32⟩) main_v135) (TRef.of (T := ⟨S8x80x80x4, .f32⟩) main_v136) select,
    unary main_v94 main_v137 (broadcastInDim S8x80x80x1 ![0, 1, 2] bcast_S8x80x80_S8x80x80x1_0_1_2 : (⟨S8x80x80, .i1⟩ : BufTy).Contents (Elt F) → (⟨S8x80x80x1, .i1⟩ : BufTy).Contents (Elt F)),
    unary main_v137 main_v138 (uitofp (F := F) .f32 : (⟨S8x80x80x1, .i1⟩ : BufTy).Contents (Elt F) → (⟨S8x80x80x1, .f32⟩ : BufTy).Contents (Elt F)) ]

theorem refOps05_sub : (refOps05 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub ..⟩

theorem refOps05_fresh : (refOps05 : List (HloOp τ sig (Elt F))).Forall fun op => op.fresh = ∅ := by
  simp only [List.Forall]; repeat' constructor

def refOps05Kept : List (Ref sig .tc) :=
  [main_arg0, main_arg1, main_arg2, main_arg3, main_arg4, main_arg5, main_arg6, main_arg7, main_arg8, main_v92, main_v94, main_v100, main_v101, main_v103]

set_option maxHeartbeats 1000000 in

theorem refOps05_writes_none {r : Ref sig .tc} (hr : r ∈ refOps05Kept) :
    ∀ op ∈ (refOps05 : List (HloOp τ sig (Elt F))), Proc.devRef (τ := τ) .tc r ∉ op.writes :=
  List.forall_iff_forall_mem.mp (by
    simp only [refOps05, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem refOps05_kept (V : Valuation τ sig (Elt F)) {r : Ref sig .tc} (hr : r ∈ refOps05Kept) :
    StableHlo.after (refOps05 (F := F)) V (Proc.devRef .tc r) = V (Proc.devRef .tc r) :=
  StableHlo.after_of_forall_not_mem _ V (refOps05_writes_none hr)

end Cert.ReferenceIdeal.RunH

end
-- ==== Proof.RH.Ops06a.lean ====
import proofs.«134848_j7748121002193_1_alg».proof.Proof.Gen.ReferenceIdeal
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev refOps06a : List (HloOp τ sig (Elt F)) :=
  [ unary main_v138 main_v139 (broadcastInDim S8x80x80x4 ![0, 1, 2, 3] bcast_S8x80x80x1_S8x80x80x4_0_1_2_3 : (⟨S8x80x80x1, .f32⟩ : BufTy).Contents (Elt F) → (⟨S8x80x80x4, .f32⟩ : BufTy).Contents (Elt F)),
    binary main_v136 main_v139 main_v140 (mulf : (⟨S8x80x80x4, .f32⟩ : BufTy).Contents (Elt F) → (⟨S8x80x80x4, .f32⟩ : BufTy).Contents (Elt F) → (⟨S8x80x80x4, .f32⟩ : BufTy).Contents (Elt F)),
    reshape main_v140 main_v141 rfl shapeCasts_S8x80x80x4_S8x25600,
    nullary main_cst_39 (constant S_ .f32 0x00000000#32),
    binary main_v141 main_cst_39 main_v142 ((fun x v => Host.reduceAdd x v reducesTo_S8x25600_S8_d1 h_S_) : (⟨S8x25600, .f32⟩ : BufTy).Contents (Elt F) → (⟨S_, .f32⟩ : BufTy).Contents (Elt F) → (⟨S8, .f32⟩ : BufTy).Contents (Elt F)),
    nullary main_cst_40 (constant S_ .f32 0x40800000#32),
    unary main_cst_40 main_v143 (broadcastInDim S8 ![] bcast_S_S8 : (⟨S_, .f32⟩ : BufTy).Contents (Elt F) → (⟨S8, .f32⟩ : BufTy).Contents (Elt F)),
    binary main_v100 main_v143 main_v144 (mulf : (⟨S8, .f32⟩ : BufTy).Contents (Elt F) → (⟨S8, .f32⟩ : BufTy).Contents (Elt F) → (⟨S8, .f32⟩ : BufTy).Contents (Elt F)),
    binary main_v142 main_v144 main_v145 (Host.divf : (⟨S8, .f32⟩ : BufTy).Contents (Elt F) → (⟨S8, .f32⟩ : BufTy).Contents (Elt F) → (⟨S8, .f32⟩ : BufTy).Contents (Elt F)),
    unary main_arg0 main_v146 ((extractStridedSlice S8x10x80x80 ![0, 5, 0, 0] · slices_S8x15x80x80_S8x10x80x80_0_5_0_0) : (⟨S8x15x80x80, .f32⟩ : BufTy).Contents (Elt F) → (⟨S8x10x80x80, .f32⟩ : BufTy).Contents (Elt F)) ]

theorem refOps06a_sub : (refOps06a : List (HloOp τ sig (Elt F))).Forall fun op => op.bufs ⊆ tcRefs τ sig :=
  ⟨unary_bufs_sub .., binary_bufs_sub .., reshape_bufs_sub .., nullary_bufs_sub .., binary_bufs_sub .., nullary_bufs_sub .., unary_bufs_sub .., binary_bufs_sub .., binary_bufs_sub .., unary_bufs_sub ..⟩

theorem refOps06a_fresh : (refOps06a : List (HloOp τ sig (Elt F))).Forall fun op => op.fresh = ∅ := by
  simp only [List.Forall]; repeat' constructor

def refOps06aKept : List (Ref sig .tc) :=
  [main_arg0, main_arg1, main_arg2, main_arg3, main_arg4, main_arg5, main_arg6, main_arg7, main_arg8, main_v92, main_v94, main_v100, main_v101, main_v103, main_v118]

set_option maxHeartbeats 1000000 in

theorem refOps06a_writes_none {r : Ref sig .tc} (hr : r ∈ refOps06aKept) :
    ∀ op ∈ (refOps06a : List (HloOp τ sig (Elt F))), Proc.devRef (τ := τ) .tc r ∉ op.writes :=
  List.forall_iff_forall_mem.mp (by
    simp only [refOps06a, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem refOps06a_kept (V : Valuation τ sig (Elt F)) {r : Ref sig .tc} (hr : r ∈ refOps06aKept) :
    StableHlo.after (refOps06a (F := F)) V (Proc.devRef .tc r) = V (Proc.devRef .tc r) :=
  StableHlo.after_of_forall_not_mem _ V (refOps06a_writes_none hr)

end Cert.ReferenceIdeal.RunH

end
-- ==== Proof.RH.Ops06b.lean ====
import proofs.«134848_j7748121002193_1_alg».proof.Proof.Gen.ReferenceIdeal
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev refOps06b : List (HloOp τ sig (Elt F)) :=
  [ TRef.nullary (TRef.of (T := ⟨S_, .f32⟩) main_call3_cst) (constant S_ .f32 0xFF800000#32),
    TRef.binary (TRef.of (T := ⟨S8x10x80x80, .f32⟩) main_v146) (TRef.of (T := ⟨S_, .f32⟩) main_call3_cst) (TRef.of (T := ⟨S8x80x80, .f32⟩) main_call3_v0) (fun x v => Host.reduce FloatOps.maximumf x v reducesTo_S8x10x80x80_S8x80x80_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S8x80x80, .f32⟩) main_call3_v1) (broadcastInDim S8x80x80 ![] bcast_S_S8x80x80),
    TRef.binary (TRef.of (T := ⟨S8x80x80, .f32⟩) main_call3_v1) (TRef.of (T := ⟨S8x80x80, .f32⟩) main_call3_v0) (TRef.of (T := ⟨S8x80x80, .f32⟩) main_call3_v2) maximumf,
    TRef.unary (TRef.of (T := ⟨S8x80x80, .f32⟩) main_call3_v2) (TRef.of (T := ⟨S8x1x80x80, .f32⟩) main_call3_v3) (broadcastInDim S8x1x80x80 ![0, 2, 3] bcast_S8x80x80_S8x1x80x80_0_2_3),
    TRef.unary (TRef.of (T := ⟨S8x1x80x80, .f32⟩) main_call3_v3) (TRef.of (T := ⟨S8x10x80x80, .f32⟩) main_call3_v4) (broadcastInDim S8x10x80x80 ![0, 1, 2, 3] bcast_S8x1x80x80_S8x10x80x80_0_1_2_3),
    TRef.binary (TRef.of (T := ⟨S8x10x80x80, .f32⟩) main_v146) (TRef.of (T := ⟨S8x10x80x80, .f32⟩) main_call3_v4) (TRef.of (T := ⟨S8x10x80x80, .f32⟩) main_call3_v5) subf ]

theorem refOps06b_sub : (refOps06b : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub ..⟩

theorem refOps06b_fresh : (refOps06b : List (HloOp τ sig (Elt F))).Forall fun op => op.fresh = ∅ := by
  simp only [List.Forall]; repeat' constructor

def refOps06bKept : List (Ref sig .tc) :=
  [main_arg0, main_arg1, main_arg2, main_arg3, main_arg4, main_arg5, main_arg6, main_arg7, main_arg8, main_v92, main_v94, main_v100, main_v101, main_v103, main_v118, main_v145]

set_option maxHeartbeats 1000000 in

theorem refOps06b_writes_none {r : Ref sig .tc} (hr : r ∈ refOps06bKept) :
    ∀ op ∈ (refOps06b : List (HloOp τ sig (Elt F))), Proc.devRef (τ := τ) .tc r ∉ op.writes :=
  List.forall_iff_forall_mem.mp (by
    simp only [refOps06b, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem refOps06b_kept (V : Valuation τ sig (Elt F)) {r : Ref sig .tc} (hr : r ∈ refOps06bKept) :
    StableHlo.after (refOps06b (F := F)) V (Proc.devRef .tc r) = V (Proc.devRef .tc r) :=
  StableHlo.after_of_forall_not_mem _ V (refOps06b_writes_none hr)

end Cert.ReferenceIdeal.RunH

end
-- ==== Proof.RH.Ops06c.lean ====
import proofs.«134848_j7748121002193_1_alg».proof.Proof.Gen.ReferenceIdeal
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev refOps06c : List (HloOp τ sig (Elt F)) :=
  [ TRef.unary (TRef.of (T := ⟨S8x10x80x80, .f32⟩) main_call3_v5) (TRef.of (T := ⟨S8x10x80x80, .f32⟩) main_call3_v6) Host.exp,
    TRef.nullary (TRef.of (T := ⟨S_, .f32⟩) main_call3_cst_1) (constant S_ .f32 0x00000000#32),
    TRef.binary (TRef.of (T := ⟨S8x10x80x80, .f32⟩) main_call3_v6) (TRef.of (T := ⟨S_, .f32⟩) main_call3_cst_1) (TRef.of (T := ⟨S8x80x80, .f32⟩) main_call3_v7) (fun x v => Host.reduceAdd x v reducesTo_S8x10x80x80_S8x80x80_d1 h_S_),
    TRef.unary (TRef.of (T := ⟨S8x80x80, .f32⟩) main_call3_v7) (TRef.of (T := ⟨S8x1x80x80, .f32⟩) main_call3_v8) (broadcastInDim S8x1x80x80 ![0, 2, 3] bcast_S8x80x80_S8x1x80x80_0_2_3),
    TRef.unary (TRef.of (T := ⟨S8x1x80x80, .f32⟩) main_call3_v8) (TRef.of (T := ⟨S8x1x80x80, .f32⟩) main_call3_v9) Host.log,
    TRef.unary (TRef.of (T := ⟨S8x1x80x80, .f32⟩) main_call3_v9) (TRef.of (T := ⟨S8x10x80x80, .f32⟩) main_call3_v10) (broadcastInDim S8x10x80x80 ![0, 1, 2, 3] bcast_S8x1x80x80_S8x10x80x80_0_1_2_3),
    TRef.binary (TRef.of (T := ⟨S8x10x80x80, .f32⟩) main_call3_v5) (TRef.of (T := ⟨S8x10x80x80, .f32⟩) main_call3_v10) (TRef.of (T := ⟨S8x10x80x80, .f32⟩) main_v147) subf ]

theorem refOps06c_sub : (refOps06c : List (HloOp τ sig (Elt F))).Forall fun op => op.bufs ⊆ tcRefs τ sig :=
  ⟨unary_bufs_sub .., nullary_bufs_sub .., binary_bufs_sub .., unary_bufs_sub .., unary_bufs_sub .., unary_bufs_sub .., binary_bufs_sub ..⟩

theorem refOps06c_fresh : (refOps06c : List (HloOp τ sig (Elt F))).Forall fun op => op.fresh = ∅ := by
  simp only [List.Forall]; repeat' constructor

def refOps06cKept : List (Ref sig .tc) :=
  [main_arg0, main_arg1, main_arg2, main_arg3, main_arg4, main_arg5, main_arg6, main_arg7, main_arg8, main_v92, main_v94, main_v100, main_v101, main_v103, main_v118, main_v145]

set_option maxHeartbeats 1000000 in

theorem refOps06c_writes_none {r : Ref sig .tc} (hr : r ∈ refOps06cKept) :
    ∀ op ∈ (refOps06c : List (HloOp τ sig (Elt F))), Proc.devRef (τ := τ) .tc r ∉ op.writes :=
  List.forall_iff_forall_mem.mp (by
    simp only [refOps06c, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem refOps06c_kept (V : Valuation τ sig (Elt F)) {r : Ref sig .tc} (hr : r ∈ refOps06cKept) :
    StableHlo.after (refOps06c (F := F)) V (Proc.devRef .tc r) = V (Proc.devRef .tc r) :=
  StableHlo.after_of_forall_not_mem _ V (refOps06c_writes_none hr)

end Cert.ReferenceIdeal.RunH

end
-- ==== Proof.RH.Ops07.lean ====
import proofs.«134848_j7748121002193_1_alg».proof.Proof.Gen.ReferenceIdeal
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev refOps07 : List (HloOp τ sig (Elt F)) :=
  [ unary main_v92 main_v148 (broadcastInDim S8x1x80x80 ![0, 2, 3] bcast_S8x80x80_S8x1x80x80_0_2_3 : (⟨S8x80x80, .i32⟩ : BufTy).Contents (Elt F) → (⟨S8x1x80x80, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S8x1x80x80, .i32⟩) main_call4_v0) (broadcastInDim S8x1x80x80 ![] bcast_S_S8x1x80x80),
    TRef.binary (TRef.of (T := ⟨S8x1x80x80, .i32⟩) main_v148) (TRef.of (T := ⟨S8x1x80x80, .i32⟩) main_call4_v0) (TRef.of (T := ⟨S8x1x80x80, .i1⟩) main_call4_v1) (cmpi .slt),
    TRef.nullary (TRef.of (T := ⟨S_, .i32⟩) main_call4_c_0) (constantI S_ 32 10#32),
    TRef.unary (TRef.of (T := ⟨S_, .i32⟩) main_call4_c_0) (TRef.of (T := ⟨S8x1x80x80, .i32⟩) main_call4_v2) (broadcastInDim S8x1x80x80 ![] bcast_S_S8x1x80x80),
    TRef.binary (TRef.of (T := ⟨S8x1x80x80, .i32⟩) main_v148) (TRef.of (T := ⟨S8x1x80x80, .i32⟩) main_call4_v2) (TRef.of (T := ⟨S8x1x80x80, .i32⟩) main_call4_v3) addi,
    TRef.ternary (TRef.of (T := ⟨S8x1x80x80, .i1⟩) main_call4_v1) (TRef.of (T := ⟨S8x1x80x80, .i32⟩) main_call4_v3) (TRef.of (T := ⟨S8x1x80x80, .i32⟩) main_v148) (TRef.of (T := ⟨S8x1x80x80, .i32⟩) main_call4_v4) select,
    TRef.reshape (TRef.of (T := ⟨S8x1x80x80, .i32⟩) main_call4_v4) (TRef.of (T := ⟨S8x1x80x80x1, .i32⟩) main_call4_v5) rfl shapeCasts_S8x1x80x80_S8x1x80x80x1,
    TRef.nullary (TRef.of (T := ⟨S1, .i32⟩) main_call4_c_1) (constantI S1 32 9#32),
    TRef.nullary (TRef.of (T := ⟨S_, .i32⟩) main_call4_c_2) (constantI S_ 32 0#32),
    TRef.unary (TRef.of (T := ⟨S_, .i32⟩) main_call4_c_2) (TRef.of (T := ⟨S8x1x80x80x1, .i32⟩) main_call4_v6) (broadcastInDim S8x1x80x80x1 ![] bcast_S_S8x1x80x80x1),
    TRef.binary (TRef.of (T := ⟨S8x1x80x80x1, .i32⟩) main_call4_v5) (TRef.of (T := ⟨S8x1x80x80x1, .i32⟩) main_call4_v6) (TRef.of (T := ⟨S8x1x80x80x1, .i1⟩) main_call4_v7) (cmpi .sge),
    TRef.unary (TRef.of (T := ⟨S1, .i32⟩) main_call4_c_1) (TRef.of (T := ⟨S1x1x1x1x1, .i32⟩) main_call4_v8) (broadcastInDim S1x1x1x1x1 ![4] bcast_S1_S1x1x1x1x1_4),
    TRef.unary (TRef.of (T := ⟨S1x1x1x1x1, .i32⟩) main_call4_v8) (TRef.of (T := ⟨S8x1x80x80x1, .i32⟩) main_call4_v9) (broadcastInDim S8x1x80x80x1 ![0, 1, 2, 3, 4] bcast_S1x1x1x1x1_S8x1x80x80x1_0_1_2_3_4),
    TRef.binary (TRef.of (T := ⟨S8x1x80x80x1, .i32⟩) main_call4_v5) (TRef.of (T := ⟨S8x1x80x80x1, .i32⟩) main_call4_v9) (TRef.of (T := ⟨S8x1x80x80x1, .i1⟩) main_call4_v10) (cmpi .sle),
    TRef.binary (TRef.of (T := ⟨S8x1x80x80x1, .i1⟩) main_call4_v7) (TRef.of (T := ⟨S8x1x80x80x1, .i1⟩) main_call4_v10) (TRef.of (T := ⟨S8x1x80x80x1, .i1⟩) main_call4_v11) andi,
    TRef.nullary (TRef.of (T := ⟨S_, .i1⟩) main_call4_c_3) (constantI S_ 1 1#1),
    TRef.binary (TRef.of (T := ⟨S8x1x80x80x1, .i1⟩) main_call4_v11) (TRef.of (T := ⟨S_, .i1⟩) main_call4_c_3) (TRef.of (T := ⟨S8x1x80x80, .i1⟩) main_call4_v12) (fun x v => Host.reduce IntOp.andi x v reducesTo_S8x1x80x80x1_S8x1x80x80_d4 h_S_),
    TRef.binary (TRef.of (T := ⟨S8x10x80x80, .f32⟩) main_v147) (TRef.of (T := ⟨S8x1x80x80x1, .i32⟩) main_call4_v5) (TRef.of (T := ⟨S8x1x80x80, .f32⟩) main_call4_v13) (fun x i => Host.gather gather_S8x10x80x80_S8x1x80x80x1_S8x1x80x80_n_1_023_023_1_4_1111 x i),
    TRef.nullary (TRef.of (T := ⟨S_, .f32⟩) main_call4_cst) (constant S_ .f32 0x7FC00000#32),
    TRef.unary (TRef.of (T := ⟨S_, .f32⟩) main_call4_cst) (TRef.of (T := ⟨S8x1x80x80, .f32⟩) main_call4_v14) (broadcastInDim S8x1x80x80 ![] bcast_S_S8x1x80x80),
    TRef.ternary (TRef.of (T := ⟨S8x1x80x80, .i1⟩) main_call4_v12) (TRef.of (T := ⟨S8x1x80x80, .f32⟩) main_call4_v13) (TRef.of (T := ⟨S8x1x80x80, .f32⟩) main_call4_v14) (TRef.of (T := ⟨S8x1x80x80, .f32⟩) main_v149) select,
    reshape main_v149 main_v150 rfl shapeCasts_S8x1x80x80_S8x80x80,
    unary main_v150 main_v151 (Host.negf : (⟨S8x80x80, .f32⟩ : BufTy).Contents (Elt F) → (⟨S8x80x80, .f32⟩ : BufTy).Contents (Elt F)),
    unary main_v94 main_v152 (uitofp (F := F) .f32 : (⟨S8x80x80, .i1⟩ : BufTy).Contents (Elt F) → (⟨S8x80x80, .f32⟩ : BufTy).Contents (Elt F)),
    binary main_v151 main_v152 main_v153 (mulf : (⟨S8x80x80, .f32⟩ : BufTy).Contents (Elt F) → (⟨S8x80x80, .f32⟩ : BufTy).Contents (Elt F) → (⟨S8x80x80, .f32⟩ : BufTy).Contents (Elt F)),
    reshape main_v153 main_v154 rfl shapeCasts_S8x80x80_S8x6400,
    nullary main_cst_41 (constant S_ .f32 0x00000000#32),
    binary main_v154 main_cst_41 main_v155 ((fun x v => Host.reduceAdd x v reducesTo_S8x6400_S8_d1 h_S_) : (⟨S8x6400, .f32⟩ : BufTy).Contents (Elt F) → (⟨S_, .f32⟩ : BufTy).Contents (Elt F) → (⟨S8, .f32⟩ : BufTy).Contents (Elt F)),
    binary main_v155 main_v100 main_v156 (Host.divf : (⟨S8, .f32⟩ : BufTy).Contents (Elt F) → (⟨S8, .f32⟩ : BufTy).Contents (Elt F) → (⟨S8, .f32⟩ : BufTy).Contents (Elt F)),
    binary main_v118 main_v145 main_v157 (addf : (⟨S8, .f32⟩ : BufTy).Contents (Elt F) → (⟨S8, .f32⟩ : BufTy).Contents (Elt F) → (⟨S8, .f32⟩ : BufTy).Contents (Elt F)),
    binary main_v157 main_v156 main_v158 (addf : (⟨S8, .f32⟩ : BufTy).Contents (Elt F) → (⟨S8, .f32⟩ : BufTy).Contents (Elt F) → (⟨S8, .f32⟩ : BufTy).Contents (Elt F)),
    binary main_v158 main_v101 main_v159 (mulf : (⟨S8, .f32⟩ : BufTy).Contents (Elt F) → (⟨S8, .f32⟩ : BufTy).Contents (Elt F) → (⟨S8, .f32⟩ : BufTy).Contents (Elt F)),
    nullary main_cst_42 (constant S_ .f32 0x00000000#32),
    binary main_v159 main_cst_42 main_v160 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) ]

theorem refOps07_sub : (refOps07 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., unary_bufs_sub .., binary_bufs_sub .., reshape_bufs_sub .., nullary_bufs_sub .., binary_bufs_sub .., binary_bufs_sub .., binary_bufs_sub .., binary_bufs_sub .., binary_bufs_sub .., nullary_bufs_sub .., binary_bufs_sub ..⟩

theorem refOps07_fresh : (refOps07 : List (HloOp τ sig (Elt F))).Forall fun op => op.fresh = ∅ := by
  simp only [List.Forall]; repeat' constructor

def refOps07Kept : List (Ref sig .tc) :=
  [main_arg0, main_arg1, main_arg2, main_arg3, main_arg4, main_arg5, main_arg6, main_arg7, main_arg8, main_v103]

set_option maxHeartbeats 1000000 in

theorem refOps07_writes_none {r : Ref sig .tc} (hr : r ∈ refOps07Kept) :
    ∀ op ∈ (refOps07 : List (HloOp τ sig (Elt F))), Proc.devRef (τ := τ) .tc r ∉ op.writes :=
  List.forall_iff_forall_mem.mp (by
    simp only [refOps07, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem refOps07_kept (V : Valuation τ sig (Elt F)) {r : Ref sig .tc} (hr : r ∈ refOps07Kept) :
    StableHlo.after (refOps07 (F := F)) V (Proc.devRef .tc r) = V (Proc.devRef .tc r) :=
  StableHlo.after_of_forall_not_mem _ V (refOps07_writes_none hr)

end Cert.ReferenceIdeal.RunH

end
-- ==== Proof.RH.Ops08.lean ====
import proofs.«134848_j7748121002193_1_alg».proof.Proof.Gen.ReferenceIdeal
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev refOps08 : List (HloOp τ sig (Elt F)) :=
  [ binary main_v160 main_v103 main_v161 (Host.divf : (⟨S_, .f32⟩ : BufTy).Contents (Elt F) → (⟨S_, .f32⟩ : BufTy).Contents (Elt F) → (⟨S_, .f32⟩ : BufTy).Contents (Elt F)),
    nullary main_c_43 (constantI S_ 32 255#32),
    unary main_c_43 main_v162 (broadcastInDim S8x1024x1024 ![] bcast_S_S8x1024x1024 : (⟨S_, .i32⟩ : BufTy).Contents (Elt F) → (⟨S8x1024x1024, .i32⟩ : BufTy).Contents (Elt F)),
    binary main_arg3 main_v162 main_v163 (cmpi .ne : (⟨S8x1024x1024, .i32⟩ : BufTy).Contents (Elt F) → (⟨S8x1024x1024, .i32⟩ : BufTy).Contents (Elt F) → (⟨S8x1024x1024, .i1⟩ : BufTy).Contents (Elt F)),
    nullary main_c_44 (constantI S_ 32 0#32),
    TRef.unary (TRef.of (T := ⟨S_, .i32⟩) main_c_44) (TRef.of (T := ⟨S_, .i32⟩) main_call5_v0) id,
    TRef.unary (TRef.of (T := ⟨S_, .i32⟩) main_call5_v0) (TRef.of (T := ⟨S8x1024x1024, .i32⟩) main_call5_v1) (broadcastInDim S8x1024x1024 ![] bcast_S_S8x1024x1024),
    TRef.ternary (TRef.of (T := ⟨S8x1024x1024, .i1⟩) main_v163) (TRef.of (T := ⟨S8x1024x1024, .i32⟩) main_arg3) (TRef.of (T := ⟨S8x1024x1024, .i32⟩) main_call5_v1) (TRef.of (T := ⟨S8x1024x1024, .i32⟩) main_v164) select,
    unary main_v164 main_v165 (sitofp (F := F) .f32 : (⟨S8x1024x1024, .i32⟩ : BufTy).Contents (Elt F) → (⟨S8x1024x1024, .f32⟩ : BufTy).Contents (Elt F)),
    reshape main_arg2 main_v166 rfl shapeCasts_S8x1x1024x1024_S8x1024x1024,
    nullary main_cst_45 (constant S_ .f32 0x00000000#32),
    unary main_cst_45 main_v167 (broadcastInDim S8x1024x1024 ![] bcast_S_S8x1024x1024 : (⟨S_, .f32⟩ : BufTy).Contents (Elt F) → (⟨S8x1024x1024, .f32⟩ : BufTy).Contents (Elt F)),
    binary main_v166 main_v167 main_v168 (maximumf : (⟨S8x1024x1024, .f32⟩ : BufTy).Contents (Elt F) → (⟨S8x1024x1024, .f32⟩ : BufTy).Contents (Elt F) → (⟨S8x1024x1024, .f32⟩ : BufTy).Contents (Elt F)),
    binary main_v166 main_v165 main_v169 (mulf : (⟨S8x1024x1024, .f32⟩ : BufTy).Contents (Elt F) → (⟨S8x1024x1024, .f32⟩ : BufTy).Contents (Elt F) → (⟨S8x1024x1024, .f32⟩ : BufTy).Contents (Elt F)),
    binary main_v168 main_v169 main_v170 (subf : (⟨S8x1024x1024, .f32⟩ : BufTy).Contents (Elt F) → (⟨S8x1024x1024, .f32⟩ : BufTy).Contents (Elt F) → (⟨S8x1024x1024, .f32⟩ : BufTy).Contents (Elt F)),
    unary main_v166 main_v171 (Host.absf : (⟨S8x1024x1024, .f32⟩ : BufTy).Contents (Elt F) → (⟨S8x1024x1024, .f32⟩ : BufTy).Contents (Elt F)),
    unary main_v171 main_v172 (Host.negf : (⟨S8x1024x1024, .f32⟩ : BufTy).Contents (Elt F) → (⟨S8x1024x1024, .f32⟩ : BufTy).Contents (Elt F)),
    unary main_v172 main_v173 (Host.exp : (⟨S8x1024x1024, .f32⟩ : BufTy).Contents (Elt F) → (⟨S8x1024x1024, .f32⟩ : BufTy).Contents (Elt F)),
    unary main_v173 main_v174 (Host.log1p : (⟨S8x1024x1024, .f32⟩ : BufTy).Contents (Elt F) → (⟨S8x1024x1024, .f32⟩ : BufTy).Contents (Elt F)),
    binary main_v170 main_v174 main_v175 (addf : (⟨S8x1024x1024, .f32⟩ : BufTy).Contents (Elt F) → (⟨S8x1024x1024, .f32⟩ : BufTy).Contents (Elt F) → (⟨S8x1024x1024, .f32⟩ : BufTy).Contents (Elt F)),
    unary main_v163 main_v176 (uitofp (F := F) .f32 : (⟨S8x1024x1024, .i1⟩ : BufTy).Contents (Elt F) → (⟨S8x1024x1024, .f32⟩ : BufTy).Contents (Elt F)),
    binary main_v175 main_v176 main_v177 (mulf : (⟨S8x1024x1024, .f32⟩ : BufTy).Contents (Elt F) → (⟨S8x1024x1024, .f32⟩ : BufTy).Contents (Elt F) → (⟨S8x1024x1024, .f32⟩ : BufTy).Contents (Elt F)),
    reshape main_v163 main_v178 rfl shapeCasts_S8x1024x1024_S8x1048576,
    unary main_v178 main_v179 ((extui 32 · natLt_1_32) : (⟨S8x1048576, .i1⟩ : BufTy).Contents (Elt F) → (⟨S8x1048576, .i32⟩ : BufTy).Contents (Elt F)),
    nullary main_c_46 (constantI S_ 32 0#32),
    binary main_v179 main_c_46 main_v180 ((fun x v => Host.reduce IntOp.addi x v reducesTo_S8x1048576_S8_d1 h_S_) : (⟨S8x1048576, .i32⟩ : BufTy).Contents (Elt F) → (⟨S_, .i32⟩ : BufTy).Contents (Elt F) → (⟨S8, .i32⟩ : BufTy).Contents (Elt F)),
    nullary main_c_47 (constantI S_ 32 1#32),
    unary main_c_47 main_v181 (broadcastInDim S8 ![] bcast_S_S8 : (⟨S_, .i32⟩ : BufTy).Contents (Elt F) → (⟨S8, .i32⟩ : BufTy).Contents (Elt F)),
    binary main_v180 main_v181 main_v182 (maxsi : (⟨S8, .i32⟩ : BufTy).Contents (Elt F) → (⟨S8, .i32⟩ : BufTy).Contents (Elt F) → (⟨S8, .i32⟩ : BufTy).Contents (Elt F)),
    unary main_v182 main_v183 (sitofp (F := F) .f32 : (⟨S8, .i32⟩ : BufTy).Contents (Elt F) → (⟨S8, .f32⟩ : BufTy).Contents (Elt F)),
    reshape main_v177 main_v184 rfl shapeCasts_S8x1024x1024_S8x1048576,
    nullary main_cst_48 (constant S_ .f32 0x00000000#32),
    binary main_v184 main_cst_48 main_v185 ((fun x v => Host.reduceAdd x v reducesTo_S8x1048576_S8_d1 h_S_) : (⟨S8x1048576, .f32⟩ : BufTy).Contents (Elt F) → (⟨S_, .f32⟩ : BufTy).Contents (Elt F) → (⟨S8, .f32⟩ : BufTy).Contents (Elt F)),
    binary main_v185 main_v183 main_v186 (Host.divf : (⟨S8, .f32⟩ : BufTy).Contents (Elt F) → (⟨S8, .f32⟩ : BufTy).Contents (Elt F) → (⟨S8, .f32⟩ : BufTy).Contents (Elt F)),
    unary main_arg7 main_v187 (sitofp (F := F) .f32 : (⟨S8, .i32⟩ : BufTy).Contents (Elt F) → (⟨S8, .f32⟩ : BufTy).Contents (Elt F)),
    reshape main_v163 main_v188 rfl shapeCasts_S8x1024x1024_S8x1048576 ]

theorem refOps08_sub : (refOps08 : List (HloOp τ sig (Elt F))).Forall fun op => op.bufs ⊆ tcRefs τ sig :=
  ⟨binary_bufs_sub .., nullary_bufs_sub .., unary_bufs_sub .., binary_bufs_sub .., nullary_bufs_sub .., unary_bufs_sub .., unary_bufs_sub .., ternary_bufs_sub .., unary_bufs_sub .., reshape_bufs_sub .., nullary_bufs_sub .., unary_bufs_sub .., binary_bufs_sub .., binary_bufs_sub .., binary_bufs_sub .., unary_bufs_sub .., unary_bufs_sub .., unary_bufs_sub .., unary_bufs_sub .., binary_bufs_sub .., unary_bufs_sub .., binary_bufs_sub .., reshape_bufs_sub .., unary_bufs_sub .., nullary_bufs_sub .., binary_bufs_sub .., nullary_bufs_sub .., unary_bufs_sub .., binary_bufs_sub .., unary_bufs_sub .., reshape_bufs_sub .., nullary_bufs_sub .., binary_bufs_sub .., binary_bufs_sub .., unary_bufs_sub .., reshape_bufs_sub ..⟩

theorem refOps08_fresh : (refOps08 : List (HloOp τ sig (Elt F))).Forall fun op => op.fresh = ∅ := by
  simp only [List.Forall]; repeat' constructor

def refOps08Kept : List (Ref sig .tc) :=
  [main_arg0, main_arg1, main_arg2, main_arg3, main_arg4, main_arg5, main_arg6, main_arg7, main_arg8]

set_option maxHeartbeats 1000000 in

theorem refOps08_writes_none {r : Ref sig .tc} (hr : r ∈ refOps08Kept) :
    ∀ op ∈ (refOps08 : List (HloOp τ sig (Elt F))), Proc.devRef (τ := τ) .tc r ∉ op.writes :=
  List.forall_iff_forall_mem.mp (by
    simp only [refOps08, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem refOps08_kept (V : Valuation τ sig (Elt F)) {r : Ref sig .tc} (hr : r ∈ refOps08Kept) :
    StableHlo.after (refOps08 (F := F)) V (Proc.devRef .tc r) = V (Proc.devRef .tc r) :=
  StableHlo.after_of_forall_not_mem _ V (refOps08_writes_none hr)

end Cert.ReferenceIdeal.RunH

end
-- ==== Proof.RH.Ops09.lean ====
import proofs.«134848_j7748121002193_1_alg».proof.Proof.Gen.ReferenceIdeal
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev refOps09 : List (HloOp τ sig (Elt F)) :=
  [ nullary main_c_49 (constantI S_ 1 0#1),
    binary main_v188 main_c_49 main_v189 ((fun x v => Host.reduce IntOp.ori x v reducesTo_S8x1048576_S8_d1 h_S_) : (⟨S8x1048576, .i1⟩ : BufTy).Contents (Elt F) → (⟨S_, .i1⟩ : BufTy).Contents (Elt F) → (⟨S8, .i1⟩ : BufTy).Contents (Elt F)),
    unary main_v189 main_v190 (uitofp (F := F) .f32 : (⟨S8, .i1⟩ : BufTy).Contents (Elt F) → (⟨S8, .f32⟩ : BufTy).Contents (Elt F)),
    binary main_v187 main_v190 main_v191 (mulf : (⟨S8, .f32⟩ : BufTy).Contents (Elt F) → (⟨S8, .f32⟩ : BufTy).Contents (Elt F) → (⟨S8, .f32⟩ : BufTy).Contents (Elt F)),
    binary main_v186 main_v191 main_v192 (mulf : (⟨S8, .f32⟩ : BufTy).Contents (Elt F) → (⟨S8, .f32⟩ : BufTy).Contents (Elt F) → (⟨S8, .f32⟩ : BufTy).Contents (Elt F)),
    nullary main_cst_50 (constant S_ .f32 0x00000000#32),
    binary main_v192 main_cst_50 main_v193 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_51 (constant S_ .f32 0x00000000#32),
    binary main_v191 main_cst_51 main_v194 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_52 (constant S_ .f32 0x3F800000#32),
    binary main_v194 main_cst_52 main_v195 (maximumf : (⟨S_, .f32⟩ : BufTy).Contents (Elt F) → (⟨S_, .f32⟩ : BufTy).Contents (Elt F) → (⟨S_, .f32⟩ : BufTy).Contents (Elt F)),
    binary main_v193 main_v195 main_v196 (Host.divf : (⟨S_, .f32⟩ : BufTy).Contents (Elt F) → (⟨S_, .f32⟩ : BufTy).Contents (Elt F) → (⟨S_, .f32⟩ : BufTy).Contents (Elt F)),
    nullary main_c_53 (constantI S_ 32 255#32),
    unary main_c_53 main_v197 (broadcastInDim S8x3x1024x1024 ![] bcast_S_S8x3x1024x1024 : (⟨S_, .i32⟩ : BufTy).Contents (Elt F) → (⟨S8x3x1024x1024, .i32⟩ : BufTy).Contents (Elt F)),
    binary main_arg5 main_v197 main_v198 (cmpi .ne : (⟨S8x3x1024x1024, .i32⟩ : BufTy).Contents (Elt F) → (⟨S8x3x1024x1024, .i32⟩ : BufTy).Contents (Elt F) → (⟨S8x3x1024x1024, .i1⟩ : BufTy).Contents (Elt F)),
    nullary main_c_54 (constantI S_ 32 0#32),
    TRef.unary (TRef.of (T := ⟨S_, .i32⟩) main_c_54) (TRef.of (T := ⟨S_, .i32⟩) main_call6_v0) id,
    TRef.unary (TRef.of (T := ⟨S_, .i32⟩) main_call6_v0) (TRef.of (T := ⟨S8x3x1024x1024, .i32⟩) main_call6_v1) (broadcastInDim S8x3x1024x1024 ![] bcast_S_S8x3x1024x1024),
    TRef.ternary (TRef.of (T := ⟨S8x3x1024x1024, .i1⟩) main_v198) (TRef.of (T := ⟨S8x3x1024x1024, .i32⟩) main_arg5) (TRef.of (T := ⟨S8x3x1024x1024, .i32⟩) main_call6_v1) (TRef.of (T := ⟨S8x3x1024x1024, .i32⟩) main_v199) select,
    unary main_v199 main_v200 (sitofp (F := F) .f32 : (⟨S8x3x1024x1024, .i32⟩ : BufTy).Contents (Elt F) → (⟨S8x3x1024x1024, .f32⟩ : BufTy).Contents (Elt F)),
    nullary main_cst_55 (constant S_ .f32 0x00000000#32),
    unary main_cst_55 main_v201 (broadcastInDim S8x3x1024x1024 ![] bcast_S_S8x3x1024x1024 : (⟨S_, .f32⟩ : BufTy).Contents (Elt F) → (⟨S8x3x1024x1024, .f32⟩ : BufTy).Contents (Elt F)),
    binary main_arg4 main_v201 main_v202 (maximumf : (⟨S8x3x1024x1024, .f32⟩ : BufTy).Contents (Elt F) → (⟨S8x3x1024x1024, .f32⟩ : BufTy).Contents (Elt F) → (⟨S8x3x1024x1024, .f32⟩ : BufTy).Contents (Elt F)),
    binary main_arg4 main_v200 main_v203 (mulf : (⟨S8x3x1024x1024, .f32⟩ : BufTy).Contents (Elt F) → (⟨S8x3x1024x1024, .f32⟩ : BufTy).Contents (Elt F) → (⟨S8x3x1024x1024, .f32⟩ : BufTy).Contents (Elt F)),
    binary main_v202 main_v203 main_v204 (subf : (⟨S8x3x1024x1024, .f32⟩ : BufTy).Contents (Elt F) → (⟨S8x3x1024x1024, .f32⟩ : BufTy).Contents (Elt F) → (⟨S8x3x1024x1024, .f32⟩ : BufTy).Contents (Elt F)),
    unary main_arg4 main_v205 (Host.absf : (⟨S8x3x1024x1024, .f32⟩ : BufTy).Contents (Elt F) → (⟨S8x3x1024x1024, .f32⟩ : BufTy).Contents (Elt F)),
    unary main_v205 main_v206 (Host.negf : (⟨S8x3x1024x1024, .f32⟩ : BufTy).Contents (Elt F) → (⟨S8x3x1024x1024, .f32⟩ : BufTy).Contents (Elt F)),
    unary main_v206 main_v207 (Host.exp : (⟨S8x3x1024x1024, .f32⟩ : BufTy).Contents (Elt F) → (⟨S8x3x1024x1024, .f32⟩ : BufTy).Contents (Elt F)),
    unary main_v207 main_v208 (Host.log1p : (⟨S8x3x1024x1024, .f32⟩ : BufTy).Contents (Elt F) → (⟨S8x3x1024x1024, .f32⟩ : BufTy).Contents (Elt F)),
    binary main_v204 main_v208 main_v209 (addf : (⟨S8x3x1024x1024, .f32⟩ : BufTy).Contents (Elt F) → (⟨S8x3x1024x1024, .f32⟩ : BufTy).Contents (Elt F) → (⟨S8x3x1024x1024, .f32⟩ : BufTy).Contents (Elt F)),
    unary main_arg4 main_v210 (Host.negf : (⟨S8x3x1024x1024, .f32⟩ : BufTy).Contents (Elt F) → (⟨S8x3x1024x1024, .f32⟩ : BufTy).Contents (Elt F)) ]

theorem refOps09_sub : (refOps09 : List (HloOp τ sig (Elt F))).Forall fun op => op.bufs ⊆ tcRefs τ sig :=
  ⟨nullary_bufs_sub .., binary_bufs_sub .., unary_bufs_sub .., binary_bufs_sub .., binary_bufs_sub .., nullary_bufs_sub .., binary_bufs_sub .., nullary_bufs_sub .., binary_bufs_sub .., nullary_bufs_sub .., binary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., binary_bufs_sub .., binary_bufs_sub .., unary_bufs_sub .., unary_bufs_sub .., unary_bufs_sub .., unary_bufs_sub .., binary_bufs_sub .., unary_bufs_sub ..⟩

theorem refOps09_fresh : (refOps09 : List (HloOp τ sig (Elt F))).Forall fun op => op.fresh = ∅ := by
  simp only [List.Forall]; repeat' constructor

def refOps09Kept : List (Ref sig .tc) :=
  [main_arg0, main_arg1, main_arg2, main_arg3, main_arg4, main_arg5, main_arg6, main_arg7, main_arg8, main_v161]

set_option maxHeartbeats 1000000 in

theorem refOps09_writes_none {r : Ref sig .tc} (hr : r ∈ refOps09Kept) :
    ∀ op ∈ (refOps09 : List (HloOp τ sig (Elt F))), Proc.devRef (τ := τ) .tc r ∉ op.writes :=
  List.forall_iff_forall_mem.mp (by
    simp only [refOps09, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem refOps09_kept (V : Valuation τ sig (Elt F)) {r : Ref sig .tc} (hr : r ∈ refOps09Kept) :
    StableHlo.after (refOps09 (F := F)) V (Proc.devRef .tc r) = V (Proc.devRef .tc r) :=
  StableHlo.after_of_forall_not_mem _ V (refOps09_writes_none hr)

end Cert.ReferenceIdeal.RunH

end
-- ==== Proof.RH.Ops10.lean ====
import proofs.«134848_j7748121002193_1_alg».proof.Proof.Gen.ReferenceIdeal
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev refOps10 : List (HloOp τ sig (Elt F)) :=
  [ unary main_v210 main_v211 (Host.exp : (⟨S8x3x1024x1024, .f32⟩ : BufTy).Contents (Elt F) → (⟨S8x3x1024x1024, .f32⟩ : BufTy).Contents (Elt F)),
    nullary main_cst_56 (constant S_ .f32 0x3F800000#32),
    unary main_cst_56 main_v212 (broadcastInDim S8x3x1024x1024 ![] bcast_S_S8x3x1024x1024 : (⟨S_, .f32⟩ : BufTy).Contents (Elt F) → (⟨S8x3x1024x1024, .f32⟩ : BufTy).Contents (Elt F)),
    binary main_v212 main_v211 main_v213 (addf : (⟨S8x3x1024x1024, .f32⟩ : BufTy).Contents (Elt F) → (⟨S8x3x1024x1024, .f32⟩ : BufTy).Contents (Elt F) → (⟨S8x3x1024x1024, .f32⟩ : BufTy).Contents (Elt F)),
    nullary main_cst_57 (constant S_ .f32 0x3F800000#32),
    unary main_cst_57 main_v214 (broadcastInDim S8x3x1024x1024 ![] bcast_S_S8x3x1024x1024 : (⟨S_, .f32⟩ : BufTy).Contents (Elt F) → (⟨S8x3x1024x1024, .f32⟩ : BufTy).Contents (Elt F)),
    binary main_v214 main_v213 main_v215 (Host.divf : (⟨S8x3x1024x1024, .f32⟩ : BufTy).Contents (Elt F) → (⟨S8x3x1024x1024, .f32⟩ : BufTy).Contents (Elt F) → (⟨S8x3x1024x1024, .f32⟩ : BufTy).Contents (Elt F)),
    binary main_v215 main_v200 main_v216 (mulf : (⟨S8x3x1024x1024, .f32⟩ : BufTy).Contents (Elt F) → (⟨S8x3x1024x1024, .f32⟩ : BufTy).Contents (Elt F) → (⟨S8x3x1024x1024, .f32⟩ : BufTy).Contents (Elt F)),
    nullary main_cst_58 (constant S_ .f32 0x3F800000#32),
    unary main_cst_58 main_v217 (broadcastInDim S8x3x1024x1024 ![] bcast_S_S8x3x1024x1024 : (⟨S_, .f32⟩ : BufTy).Contents (Elt F) → (⟨S8x3x1024x1024, .f32⟩ : BufTy).Contents (Elt F)),
    binary main_v217 main_v215 main_v218 (subf : (⟨S8x3x1024x1024, .f32⟩ : BufTy).Contents (Elt F) → (⟨S8x3x1024x1024, .f32⟩ : BufTy).Contents (Elt F) → (⟨S8x3x1024x1024, .f32⟩ : BufTy).Contents (Elt F)),
    nullary main_cst_59 (constant S_ .f32 0x3F800000#32),
    unary main_cst_59 main_v219 (broadcastInDim S8x3x1024x1024 ![] bcast_S_S8x3x1024x1024 : (⟨S_, .f32⟩ : BufTy).Contents (Elt F) → (⟨S8x3x1024x1024, .f32⟩ : BufTy).Contents (Elt F)),
    binary main_v219 main_v200 main_v220 (subf : (⟨S8x3x1024x1024, .f32⟩ : BufTy).Contents (Elt F) → (⟨S8x3x1024x1024, .f32⟩ : BufTy).Contents (Elt F) → (⟨S8x3x1024x1024, .f32⟩ : BufTy).Contents (Elt F)),
    binary main_v218 main_v220 main_v221 (mulf : (⟨S8x3x1024x1024, .f32⟩ : BufTy).Contents (Elt F) → (⟨S8x3x1024x1024, .f32⟩ : BufTy).Contents (Elt F) → (⟨S8x3x1024x1024, .f32⟩ : BufTy).Contents (Elt F)),
    binary main_v216 main_v221 main_v222 (addf : (⟨S8x3x1024x1024, .f32⟩ : BufTy).Contents (Elt F) → (⟨S8x3x1024x1024, .f32⟩ : BufTy).Contents (Elt F) → (⟨S8x3x1024x1024, .f32⟩ : BufTy).Contents (Elt F)),
    reshape main_v198 main_v223 rfl shapeCasts_S8x3x1024x1024_S8x3x1048576,
    unary main_v223 main_v224 ((extui 32 · natLt_1_32) : (⟨S8x3x1048576, .i1⟩ : BufTy).Contents (Elt F) → (⟨S8x3x1048576, .i32⟩ : BufTy).Contents (Elt F)),
    nullary main_c_60 (constantI S_ 32 0#32),
    binary main_v224 main_c_60 main_v225 ((fun x v => Host.reduce IntOp.addi x v reducesTo_S8x3x1048576_S8x3_d2 h_S_) : (⟨S8x3x1048576, .i32⟩ : BufTy).Contents (Elt F) → (⟨S_, .i32⟩ : BufTy).Contents (Elt F) → (⟨S8x3, .i32⟩ : BufTy).Contents (Elt F)),
    nullary main_c_61 (constantI S_ 32 1#32),
    unary main_c_61 main_v226 (broadcastInDim S8x3 ![] bcast_S_S8x3 : (⟨S_, .i32⟩ : BufTy).Contents (Elt F) → (⟨S8x3, .i32⟩ : BufTy).Contents (Elt F)),
    binary main_v225 main_v226 main_v227 (maxsi : (⟨S8x3, .i32⟩ : BufTy).Contents (Elt F) → (⟨S8x3, .i32⟩ : BufTy).Contents (Elt F) → (⟨S8x3, .i32⟩ : BufTy).Contents (Elt F)),
    unary main_v227 main_v228 (sitofp (F := F) .f32 : (⟨S8x3, .i32⟩ : BufTy).Contents (Elt F) → (⟨S8x3, .f32⟩ : BufTy).Contents (Elt F)),
    nullary main_cst_62 (constant S_ .f32 0x3F800000#32),
    unary main_cst_62 main_v229 (broadcastInDim S8x3x1024x1024 ![] bcast_S_S8x3x1024x1024 : (⟨S_, .f32⟩ : BufTy).Contents (Elt F) → (⟨S8x3x1024x1024, .f32⟩ : BufTy).Contents (Elt F)),
    binary main_v229 main_v222 main_v230 (subf : (⟨S8x3x1024x1024, .f32⟩ : BufTy).Contents (Elt F) → (⟨S8x3x1024x1024, .f32⟩ : BufTy).Contents (Elt F) → (⟨S8x3x1024x1024, .f32⟩ : BufTy).Contents (Elt F)),
    nullary main_cst_63 (constant S_ .f32 0x40000000#32),
    unary main_cst_63 main_v231 (broadcastInDim S8x3x1024x1024 ![] bcast_S_S8x3x1024x1024 : (⟨S_, .f32⟩ : BufTy).Contents (Elt F) → (⟨S8x3x1024x1024, .f32⟩ : BufTy).Contents (Elt F)),
    binary main_v230 main_v231 main_v232 (Host.powf : (⟨S8x3x1024x1024, .f32⟩ : BufTy).Contents (Elt F) → (⟨S8x3x1024x1024, .f32⟩ : BufTy).Contents (Elt F) → (⟨S8x3x1024x1024, .f32⟩ : BufTy).Contents (Elt F)),
    binary main_v232 main_v209 main_v233 (mulf : (⟨S8x3x1024x1024, .f32⟩ : BufTy).Contents (Elt F) → (⟨S8x3x1024x1024, .f32⟩ : BufTy).Contents (Elt F) → (⟨S8x3x1024x1024, .f32⟩ : BufTy).Contents (Elt F)) ]

theorem refOps10_sub : (refOps10 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., reshape_bufs_sub .., unary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub ..⟩

theorem refOps10_fresh : (refOps10 : List (HloOp τ sig (Elt F))).Forall fun op => op.fresh = ∅ := by
  simp only [List.Forall]; repeat' constructor

def refOps10Kept : List (Ref sig .tc) :=
  [main_arg0, main_arg1, main_arg2, main_arg3, main_arg4, main_arg5, main_arg6, main_arg7, main_arg8, main_v161, main_v196, main_v198, main_v200]

set_option maxHeartbeats 1000000 in

theorem refOps10_writes_none {r : Ref sig .tc} (hr : r ∈ refOps10Kept) :
    ∀ op ∈ (refOps10 : List (HloOp τ sig (Elt F))), Proc.devRef (τ := τ) .tc r ∉ op.writes :=
  List.forall_iff_forall_mem.mp (by
    simp only [refOps10, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem refOps10_kept (V : Valuation τ sig (Elt F)) {r : Ref sig .tc} (hr : r ∈ refOps10Kept) :
    StableHlo.after (refOps10 (F := F)) V (Proc.devRef .tc r) = V (Proc.devRef .tc r) :=
  StableHlo.after_of_forall_not_mem _ V (refOps10_writes_none hr)

end Cert.ReferenceIdeal.RunH

end
-- ==== Proof.RH.Ops11.lean ====
import proofs.«134848_j7748121002193_1_alg».proof.Proof.Gen.ReferenceIdeal
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev refOps11 : List (HloOp τ sig (Elt F)) :=
  [ unary main_v198 main_v234 (uitofp (F := F) .f32 : (⟨S8x3x1024x1024, .i1⟩ : BufTy).Contents (Elt F) → (⟨S8x3x1024x1024, .f32⟩ : BufTy).Contents (Elt F)),
    binary main_v233 main_v234 main_v235 (mulf : (⟨S8x3x1024x1024, .f32⟩ : BufTy).Contents (Elt F) → (⟨S8x3x1024x1024, .f32⟩ : BufTy).Contents (Elt F) → (⟨S8x3x1024x1024, .f32⟩ : BufTy).Contents (Elt F)),
    reshape main_v235 main_v236 rfl shapeCasts_S8x3x1024x1024_S8x3x1048576,
    nullary main_cst_64 (constant S_ .f32 0x00000000#32),
    binary main_v236 main_cst_64 main_v237 ((fun x v => Host.reduceAdd x v reducesTo_S8x3x1048576_S8x3_d2 h_S_) : (⟨S8x3x1048576, .f32⟩ : BufTy).Contents (Elt F) → (⟨S_, .f32⟩ : BufTy).Contents (Elt F) → (⟨S8x3, .f32⟩ : BufTy).Contents (Elt F)),
    binary main_v237 main_v228 main_v238 (Host.divf : (⟨S8x3, .f32⟩ : BufTy).Contents (Elt F) → (⟨S8x3, .f32⟩ : BufTy).Contents (Elt F) → (⟨S8x3, .f32⟩ : BufTy).Contents (Elt F)),
    binary main_v215 main_v200 main_v239 (mulf : (⟨S8x3x1024x1024, .f32⟩ : BufTy).Contents (Elt F) → (⟨S8x3x1024x1024, .f32⟩ : BufTy).Contents (Elt F) → (⟨S8x3x1024x1024, .f32⟩ : BufTy).Contents (Elt F)),
    unary main_v198 main_v240 (uitofp (F := F) .f32 : (⟨S8x3x1024x1024, .i1⟩ : BufTy).Contents (Elt F) → (⟨S8x3x1024x1024, .f32⟩ : BufTy).Contents (Elt F)),
    binary main_v239 main_v240 main_v241 (mulf : (⟨S8x3x1024x1024, .f32⟩ : BufTy).Contents (Elt F) → (⟨S8x3x1024x1024, .f32⟩ : BufTy).Contents (Elt F) → (⟨S8x3x1024x1024, .f32⟩ : BufTy).Contents (Elt F)),
    reshape main_v241 main_v242 rfl shapeCasts_S8x3x1024x1024_S8x3x1048576,
    nullary main_cst_65 (constant S_ .f32 0x00000000#32),
    binary main_v242 main_cst_65 main_v243 ((fun x v => Host.reduceAdd x v reducesTo_S8x3x1048576_S8x3_d2 h_S_) : (⟨S8x3x1048576, .f32⟩ : BufTy).Contents (Elt F) → (⟨S_, .f32⟩ : BufTy).Contents (Elt F) → (⟨S8x3, .f32⟩ : BufTy).Contents (Elt F)),
    unary main_v198 main_v244 (uitofp (F := F) .f32 : (⟨S8x3x1024x1024, .i1⟩ : BufTy).Contents (Elt F) → (⟨S8x3x1024x1024, .f32⟩ : BufTy).Contents (Elt F)),
    binary main_v215 main_v244 main_v245 (mulf : (⟨S8x3x1024x1024, .f32⟩ : BufTy).Contents (Elt F) → (⟨S8x3x1024x1024, .f32⟩ : BufTy).Contents (Elt F) → (⟨S8x3x1024x1024, .f32⟩ : BufTy).Contents (Elt F)),
    reshape main_v245 main_v246 rfl shapeCasts_S8x3x1024x1024_S8x3x1048576,
    nullary main_cst_66 (constant S_ .f32 0x00000000#32),
    binary main_v246 main_cst_66 main_v247 ((fun x v => Host.reduceAdd x v reducesTo_S8x3x1048576_S8x3_d2 h_S_) : (⟨S8x3x1048576, .f32⟩ : BufTy).Contents (Elt F) → (⟨S_, .f32⟩ : BufTy).Contents (Elt F) → (⟨S8x3, .f32⟩ : BufTy).Contents (Elt F)),
    unary main_v198 main_v248 (uitofp (F := F) .f32 : (⟨S8x3x1024x1024, .i1⟩ : BufTy).Contents (Elt F) → (⟨S8x3x1024x1024, .f32⟩ : BufTy).Contents (Elt F)),
    binary main_v200 main_v248 main_v249 (mulf : (⟨S8x3x1024x1024, .f32⟩ : BufTy).Contents (Elt F) → (⟨S8x3x1024x1024, .f32⟩ : BufTy).Contents (Elt F) → (⟨S8x3x1024x1024, .f32⟩ : BufTy).Contents (Elt F)),
    reshape main_v249 main_v250 rfl shapeCasts_S8x3x1024x1024_S8x3x1048576,
    nullary main_cst_67 (constant S_ .f32 0x00000000#32),
    binary main_v250 main_cst_67 main_v251 ((fun x v => Host.reduceAdd x v reducesTo_S8x3x1048576_S8x3_d2 h_S_) : (⟨S8x3x1048576, .f32⟩ : BufTy).Contents (Elt F) → (⟨S_, .f32⟩ : BufTy).Contents (Elt F) → (⟨S8x3, .f32⟩ : BufTy).Contents (Elt F)),
    binary main_v247 main_v251 main_v252 (addf : (⟨S8x3, .f32⟩ : BufTy).Contents (Elt F) → (⟨S8x3, .f32⟩ : BufTy).Contents (Elt F) → (⟨S8x3, .f32⟩ : BufTy).Contents (Elt F)),
    nullary main_cst_68 (constant S_ .f32 0x40000000#32),
    unary main_cst_68 main_v253 (broadcastInDim S8x3 ![] bcast_S_S8x3 : (⟨S_, .f32⟩ : BufTy).Contents (Elt F) → (⟨S8x3, .f32⟩ : BufTy).Contents (Elt F)),
    binary main_v253 main_v243 main_v254 (mulf : (⟨S8x3, .f32⟩ : BufTy).Contents (Elt F) → (⟨S8x3, .f32⟩ : BufTy).Contents (Elt F) → (⟨S8x3, .f32⟩ : BufTy).Contents (Elt F)),
    nullary main_cst_69 (constant S_ .f32 0x358637BD#32),
    unary main_cst_69 main_v255 (broadcastInDim S8x3 ![] bcast_S_S8x3 : (⟨S_, .f32⟩ : BufTy).Contents (Elt F) → (⟨S8x3, .f32⟩ : BufTy).Contents (Elt F)),
    binary main_v254 main_v255 main_v256 (addf : (⟨S8x3, .f32⟩ : BufTy).Contents (Elt F) → (⟨S8x3, .f32⟩ : BufTy).Contents (Elt F) → (⟨S8x3, .f32⟩ : BufTy).Contents (Elt F)),
    nullary main_cst_70 (constant S_ .f32 0x358637BD#32) ]

theorem refOps11_sub : (refOps11 : List (HloOp τ sig (Elt F))).Forall fun op => op.bufs ⊆ tcRefs τ sig :=
  ⟨unary_bufs_sub .., binary_bufs_sub .., reshape_bufs_sub .., nullary_bufs_sub .., binary_bufs_sub .., binary_bufs_sub .., binary_bufs_sub .., unary_bufs_sub .., binary_bufs_sub .., reshape_bufs_sub .., nullary_bufs_sub .., binary_bufs_sub .., unary_bufs_sub .., binary_bufs_sub .., reshape_bufs_sub .., nullary_bufs_sub .., binary_bufs_sub .., unary_bufs_sub .., binary_bufs_sub .., reshape_bufs_sub .., nullary_bufs_sub .., binary_bufs_sub .., binary_bufs_sub .., nullary_bufs_sub .., unary_bufs_sub .., binary_bufs_sub .., nullary_bufs_sub .., unary_bufs_sub .., binary_bufs_sub .., nullary_bufs_sub ..⟩

theorem refOps11_fresh : (refOps11 : List (HloOp τ sig (Elt F))).Forall fun op => op.fresh = ∅ := by
  simp only [List.Forall]; repeat' constructor

def refOps11Kept : List (Ref sig .tc) :=
  [main_arg0, main_arg1, main_arg2, main_arg3, main_arg4, main_arg5, main_arg6, main_arg7, main_arg8, main_v161, main_v196, main_v198]

set_option maxHeartbeats 1000000 in

theorem refOps11_writes_none {r : Ref sig .tc} (hr : r ∈ refOps11Kept) :
    ∀ op ∈ (refOps11 : List (HloOp τ sig (Elt F))), Proc.devRef (τ := τ) .tc r ∉ op.writes :=
  List.forall_iff_forall_mem.mp (by
    simp only [refOps11, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem refOps11_kept (V : Valuation τ sig (Elt F)) {r : Ref sig .tc} (hr : r ∈ refOps11Kept) :
    StableHlo.after (refOps11 (F := F)) V (Proc.devRef .tc r) = V (Proc.devRef .tc r) :=
  StableHlo.after_of_forall_not_mem _ V (refOps11_writes_none hr)

end Cert.ReferenceIdeal.RunH

end
-- ==== Proof.RH.Ops12.lean ====
import proofs.«134848_j7748121002193_1_alg».proof.Proof.Gen.ReferenceIdeal
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev refOps12 : List (HloOp τ sig (Elt F)) :=
  [ unary main_cst_70 main_v257 (broadcastInDim S8x3 ![] bcast_S_S8x3 : (⟨S_, .f32⟩ : BufTy).Contents (Elt F) → (⟨S8x3, .f32⟩ : BufTy).Contents (Elt F)),
    binary main_v252 main_v257 main_v258 (addf : (⟨S8x3, .f32⟩ : BufTy).Contents (Elt F) → (⟨S8x3, .f32⟩ : BufTy).Contents (Elt F) → (⟨S8x3, .f32⟩ : BufTy).Contents (Elt F)),
    binary main_v256 main_v258 main_v259 (Host.divf : (⟨S8x3, .f32⟩ : BufTy).Contents (Elt F) → (⟨S8x3, .f32⟩ : BufTy).Contents (Elt F) → (⟨S8x3, .f32⟩ : BufTy).Contents (Elt F)),
    nullary main_cst_71 (constant S_ .f32 0x3F800000#32),
    unary main_cst_71 main_v260 (broadcastInDim S8x3 ![] bcast_S_S8x3 : (⟨S_, .f32⟩ : BufTy).Contents (Elt F) → (⟨S8x3, .f32⟩ : BufTy).Contents (Elt F)),
    binary main_v260 main_v259 main_v261 (subf : (⟨S8x3, .f32⟩ : BufTy).Contents (Elt F) → (⟨S8x3, .f32⟩ : BufTy).Contents (Elt F) → (⟨S8x3, .f32⟩ : BufTy).Contents (Elt F)),
    unary main_arg8 main_v262 (sitofp (F := F) .f32 : (⟨S8x3, .i32⟩ : BufTy).Contents (Elt F) → (⟨S8x3, .f32⟩ : BufTy).Contents (Elt F)),
    reshape main_v198 main_v263 rfl shapeCasts_S8x3x1024x1024_S8x3x1048576,
    nullary main_c_72 (constantI S_ 1 0#1),
    binary main_v263 main_c_72 main_v264 ((fun x v => Host.reduce IntOp.ori x v reducesTo_S8x3x1048576_S8x3_d2 h_S_) : (⟨S8x3x1048576, .i1⟩ : BufTy).Contents (Elt F) → (⟨S_, .i1⟩ : BufTy).Contents (Elt F) → (⟨S8x3, .i1⟩ : BufTy).Contents (Elt F)),
    unary main_v264 main_v265 (uitofp (F := F) .f32 : (⟨S8x3, .i1⟩ : BufTy).Contents (Elt F) → (⟨S8x3, .f32⟩ : BufTy).Contents (Elt F)),
    binary main_v262 main_v265 main_v266 (mulf : (⟨S8x3, .f32⟩ : BufTy).Contents (Elt F) → (⟨S8x3, .f32⟩ : BufTy).Contents (Elt F) → (⟨S8x3, .f32⟩ : BufTy).Contents (Elt F)),
    binary main_v238 main_v261 main_v267 (addf : (⟨S8x3, .f32⟩ : BufTy).Contents (Elt F) → (⟨S8x3, .f32⟩ : BufTy).Contents (Elt F) → (⟨S8x3, .f32⟩ : BufTy).Contents (Elt F)),
    binary main_v267 main_v266 main_v268 (mulf : (⟨S8x3, .f32⟩ : BufTy).Contents (Elt F) → (⟨S8x3, .f32⟩ : BufTy).Contents (Elt F) → (⟨S8x3, .f32⟩ : BufTy).Contents (Elt F)),
    nullary main_cst_73 (constant S_ .f32 0x00000000#32),
    binary main_v268 main_cst_73 main_v269 ((fun x v => Host.reduceAdd x v reducesTo_S8x3_S_d0_1 h_S_) : (⟨S8x3, .f32⟩ : BufTy).Contents (Elt F) → (⟨S_, .f32⟩ : BufTy).Contents (Elt F) → (⟨S_, .f32⟩ : BufTy).Contents (Elt F)),
    nullary main_cst_74 (constant S_ .f32 0x00000000#32),
    binary main_v266 main_cst_74 main_v270 ((fun x v => Host.reduceAdd x v reducesTo_S8x3_S_d0_1 h_S_) : (⟨S8x3, .f32⟩ : BufTy).Contents (Elt F) → (⟨S_, .f32⟩ : BufTy).Contents (Elt F) → (⟨S_, .f32⟩ : BufTy).Contents (Elt F)),
    nullary main_cst_75 (constant S_ .f32 0x3F800000#32),
    binary main_v270 main_cst_75 main_v271 (maximumf : (⟨S_, .f32⟩ : BufTy).Contents (Elt F) → (⟨S_, .f32⟩ : BufTy).Contents (Elt F) → (⟨S_, .f32⟩ : BufTy).Contents (Elt F)),
    binary main_v269 main_v271 main_v272 (Host.divf : (⟨S_, .f32⟩ : BufTy).Contents (Elt F) → (⟨S_, .f32⟩ : BufTy).Contents (Elt F) → (⟨S_, .f32⟩ : BufTy).Contents (Elt F)),
    nullary main_cst_76 (constant S_ .f32 0x3F800000#32),
    binary main_cst_76 main_v161 main_v273 (mulf : (⟨S_, .f32⟩ : BufTy).Contents (Elt F) → (⟨S_, .f32⟩ : BufTy).Contents (Elt F) → (⟨S_, .f32⟩ : BufTy).Contents (Elt F)),
    nullary main_cst_77 (constant S_ .f32 0x3F800000#32),
    binary main_cst_77 main_v196 main_v274 (mulf : (⟨S_, .f32⟩ : BufTy).Contents (Elt F) → (⟨S_, .f32⟩ : BufTy).Contents (Elt F) → (⟨S_, .f32⟩ : BufTy).Contents (Elt F)),
    binary main_v273 main_v274 main_v275 (addf : (⟨S_, .f32⟩ : BufTy).Contents (Elt F) → (⟨S_, .f32⟩ : BufTy).Contents (Elt F) → (⟨S_, .f32⟩ : BufTy).Contents (Elt F)),
    nullary main_cst_78 (constant S_ .f32 0x40000000#32),
    binary main_cst_78 main_v272 main_v276 (mulf : (⟨S_, .f32⟩ : BufTy).Contents (Elt F) → (⟨S_, .f32⟩ : BufTy).Contents (Elt F) → (⟨S_, .f32⟩ : BufTy).Contents (Elt F)),
    binary main_v275 main_v276 main_v277 (addf : (⟨S_, .f32⟩ : BufTy).Contents (Elt F) → (⟨S_, .f32⟩ : BufTy).Contents (Elt F) → (⟨S_, .f32⟩ : BufTy).Contents (Elt F)),
    unary main_v277 main_v278 (broadcastInDim S1 ![] bcast_S_S1 : (⟨S_, .f32⟩ : BufTy).Contents (Elt F) → (⟨S1, .f32⟩ : BufTy).Contents (Elt F)) ]

theorem refOps12_sub : (refOps12 : List (HloOp τ sig (Elt F))).Forall fun op => op.bufs ⊆ tcRefs τ sig :=
  ⟨unary_bufs_sub .., binary_bufs_sub .., binary_bufs_sub .., nullary_bufs_sub .., unary_bufs_sub .., binary_bufs_sub .., unary_bufs_sub .., reshape_bufs_sub .., nullary_bufs_sub .., binary_bufs_sub .., unary_bufs_sub .., binary_bufs_sub .., binary_bufs_sub .., binary_bufs_sub .., nullary_bufs_sub .., binary_bufs_sub .., nullary_bufs_sub .., binary_bufs_sub .., nullary_bufs_sub .., binary_bufs_sub .., binary_bufs_sub .., nullary_bufs_sub .., binary_bufs_sub .., nullary_bufs_sub .., binary_bufs_sub .., binary_bufs_sub .., nullary_bufs_sub .., binary_bufs_sub .., binary_bufs_sub .., unary_bufs_sub ..⟩

theorem refOps12_fresh : (refOps12 : List (HloOp τ sig (Elt F))).Forall fun op => op.fresh = ∅ := by
  simp only [List.Forall]; repeat' constructor

def refOps12Kept : List (Ref sig .tc) :=
  [main_arg0, main_arg1, main_arg2, main_arg3, main_arg4, main_arg5, main_arg6, main_arg7, main_arg8, main_v161, main_v196]

set_option maxHeartbeats 1000000 in

theorem refOps12_writes_none {r : Ref sig .tc} (hr : r ∈ refOps12Kept) :
    ∀ op ∈ (refOps12 : List (HloOp τ sig (Elt F))), Proc.devRef (τ := τ) .tc r ∉ op.writes :=
  List.forall_iff_forall_mem.mp (by
    simp only [refOps12, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem refOps12_kept (V : Valuation τ sig (Elt F)) {r : Ref sig .tc} (hr : r ∈ refOps12Kept) :
    StableHlo.after (refOps12 (F := F)) V (Proc.devRef .tc r) = V (Proc.devRef .tc r) :=
  StableHlo.after_of_forall_not_mem _ V (refOps12_writes_none hr)

end Cert.ReferenceIdeal.RunH

end
-- ==== Proof.RH.Ops13a.lean ====
import proofs.«134848_j7748121002193_1_alg».proof.Proof.Gen.ReferenceIdeal
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev refOps13a : List (HloOp τ sig (Elt F)) :=
  [ unary main_v161 main_v279 (broadcastInDim S1 ![] bcast_S_S1 : (⟨S_, .f32⟩ : BufTy).Contents (Elt F) → (⟨S1, .f32⟩ : BufTy).Contents (Elt F)),
    unary main_v196 main_v280 (broadcastInDim S1 ![] bcast_S_S1 : (⟨S_, .f32⟩ : BufTy).Contents (Elt F) → (⟨S1, .f32⟩ : BufTy).Contents (Elt F)),
    unary main_v272 main_v281 (broadcastInDim S1 ![] bcast_S_S1 : (⟨S_, .f32⟩ : BufTy).Contents (Elt F) → (⟨S1, .f32⟩ : BufTy).Contents (Elt F)) ]

theorem refOps13a_sub : (refOps13a : List (HloOp τ sig (Elt F))).Forall fun op => op.bufs ⊆ tcRefs τ sig :=
  ⟨unary_bufs_sub .., unary_bufs_sub .., unary_bufs_sub ..⟩

theorem refOps13a_fresh : (refOps13a : List (HloOp τ sig (Elt F))).Forall fun op => op.fresh = ∅ := by
  simp only [List.Forall]; repeat' constructor

def refOps13aKept : List (Ref sig .tc) :=
  [main_arg0, main_arg1, main_arg2, main_arg3, main_arg4, main_arg5, main_arg6, main_arg7, main_arg8, main_v278]

set_option maxHeartbeats 1000000 in

theorem refOps13a_writes_none {r : Ref sig .tc} (hr : r ∈ refOps13aKept) :
    ∀ op ∈ (refOps13a : List (HloOp τ sig (Elt F))), Proc.devRef (τ := τ) .tc r ∉ op.writes :=
  List.forall_iff_forall_mem.mp (by
    simp only [refOps13a, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem refOps13a_kept (V : Valuation τ sig (Elt F)) {r : Ref sig .tc} (hr : r ∈ refOps13aKept) :
    StableHlo.after (refOps13a (F := F)) V (Proc.devRef .tc r) = V (Proc.devRef .tc r) :=
  StableHlo.after_of_forall_not_mem _ V (refOps13a_writes_none hr)

end Cert.ReferenceIdeal.RunH

end
-- ==== Proof.RH.Ops13b.lean ====
import proofs.«134848_j7748121002193_1_alg».proof.Proof.Gen.ReferenceIdeal
import Idealize.ShloMosaic.Lib.StableHlo.Run

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

abbrev refOps13b : List (HloOp τ sig (Elt F)) :=
  [ nary ![main_v278, main_v279, main_v280, main_v281] main_v282 (fun u => concatenate S4 0 [⟨S1, u 0⟩, ⟨S1, u 1⟩, ⟨S1, u 2⟩, ⟨S1, u 3⟩] concatenates_S1_S1_S1_S1_S4_d0) ]

theorem refOps13b_sub : (refOps13b : List (HloOp τ sig (Elt F))).Forall fun op => op.bufs ⊆ tcRefs τ sig :=
  nary_bufs_sub ..

theorem refOps13b_fresh : (refOps13b : List (HloOp τ sig (Elt F))).Forall fun op => op.fresh = ∅ := by
  simp only [List.Forall]; repeat' constructor

def refOps13bKept : List (Ref sig .tc) :=
  [main_arg0, main_arg1, main_arg2, main_arg3, main_arg4, main_arg5, main_arg6, main_arg7, main_arg8]

set_option maxHeartbeats 1000000 in

theorem refOps13b_writes_none {r : Ref sig .tc} (hr : r ∈ refOps13bKept) :
    ∀ op ∈ (refOps13b : List (HloOp τ sig (Elt F))), Proc.devRef (τ := τ) .tc r ∉ op.writes :=
  List.forall_iff_forall_mem.mp (by
    simp only [refOps13b, List.Forall, StableHlo.nullary_writes, StableHlo.unary_writes, StableHlo.binary_writes,
      StableHlo.ternary_writes, StableHlo.quaternary_writes, StableHlo.reshape_writes, StableHlo.nary_writes,
      Finset.mem_singleton]
    repeat' apply And.intro
    all_goals exact StableHlo.devRef_ne_of_ne (ne_of_mem_of_not_mem hr (by decide)))

theorem refOps13b_kept (V : Valuation τ sig (Elt F)) {r : Ref sig .tc} (hr : r ∈ refOps13bKept) :
    StableHlo.after (refOps13b (F := F)) V (Proc.devRef .tc r) = V (Proc.devRef .tc r) :=
  StableHlo.after_of_forall_not_mem _ V (refOps13b_writes_none hr)

end Cert.ReferenceIdeal.RunH

end
-- ==== Proof.RH.MainEq.lean ====
import proofs.«134848_j7748121002193_1_alg».proof.Proof.Gen.ReferenceIdeal
import Idealize.ShloMosaic.Lib.StableHlo.Run
import Idealize.ShloMosaic.Lib.Pipeline.Frame
import proofs.«134848_j7748121002193_1_alg».proof.Proof.RH.Ops00
import proofs.«134848_j7748121002193_1_alg».proof.Proof.RH.Ops01
import proofs.«134848_j7748121002193_1_alg».proof.Proof.RH.Ops02a
import proofs.«134848_j7748121002193_1_alg».proof.Proof.RH.Ops02b
import proofs.«134848_j7748121002193_1_alg».proof.Proof.RH.Ops03a
import proofs.«134848_j7748121002193_1_alg».proof.Proof.RH.Ops03b
import proofs.«134848_j7748121002193_1_alg».proof.Proof.RH.Ops04
import proofs.«134848_j7748121002193_1_alg».proof.Proof.RH.Ops05
import proofs.«134848_j7748121002193_1_alg».proof.Proof.RH.Ops06a
import proofs.«134848_j7748121002193_1_alg».proof.Proof.RH.Ops06b
import proofs.«134848_j7748121002193_1_alg».proof.Proof.RH.Ops06c
import proofs.«134848_j7748121002193_1_alg».proof.Proof.RH.Ops07
import proofs.«134848_j7748121002193_1_alg».proof.Proof.RH.Ops08
import proofs.«134848_j7748121002193_1_alg».proof.Proof.RH.Ops09
import proofs.«134848_j7748121002193_1_alg».proof.Proof.RH.Ops10
import proofs.«134848_j7748121002193_1_alg».proof.Proof.RH.Ops11
import proofs.«134848_j7748121002193_1_alg».proof.Proof.RH.Ops12
import proofs.«134848_j7748121002193_1_alg».proof.Proof.RH.Ops13a
import proofs.«134848_j7748121002193_1_alg».proof.Proof.RH.Ops13b

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def winOps0 : List (HloOp τ sig (Elt F)) := refOps00 ++ refOps01

def winOps1 : List (HloOp τ sig (Elt F)) := refOps02a ++ refOps02b ++ refOps03a ++ refOps03b

def winOps2 : List (HloOp τ sig (Elt F)) := refOps04 ++ refOps05

def winOps3 : List (HloOp τ sig (Elt F)) := refOps06a ++ refOps06b ++ refOps06c ++ refOps07 ++ refOps08

def winOps4 : List (HloOp τ sig (Elt F)) := refOps09 ++ refOps10

def winOps5 : List (HloOp τ sig (Elt F)) := refOps11 ++ refOps12

def winOps6 : List (HloOp τ sig (Elt F)) := refOps13a ++ refOps13b

set_option maxHeartbeats 4000000 in

theorem main_part0_eq (c : Dev nD) : main_part0 (F := F) c = seq winOps0 := rfl

set_option maxHeartbeats 4000000 in

theorem main_part1_eq (c : Dev nD) : main_part1 (F := F) c = seq winOps1 := rfl

set_option maxHeartbeats 4000000 in

theorem main_part2_eq (c : Dev nD) : main_part2 (F := F) c = seq winOps2 := rfl

set_option maxHeartbeats 4000000 in

theorem main_part3_eq (c : Dev nD) : main_part3 (F := F) c = seq winOps3 := rfl

set_option maxHeartbeats 4000000 in

theorem main_part4_eq (c : Dev nD) : main_part4 (F := F) c = seq winOps4 := rfl

set_option maxHeartbeats 4000000 in

theorem main_part5_eq (c : Dev nD) : main_part5 (F := F) c = seq winOps5 := rfl

set_option maxHeartbeats 4000000 in

theorem main_part6_eq (c : Dev nD) : main_part6 (F := F) c = seq winOps6 := rfl

def allOps : List (HloOp τ sig (Elt F)) := winOps0 ++ (winOps1 ++ (winOps2 ++ (winOps3 ++ (winOps4 ++ (winOps5 ++ (winOps6))))))

theorem main_eq (c : Dev nD) : main (F := F) c = seq allOps := by
  simp only [allOps, seq_append, ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

theorem mem_allOps {op : HloOp τ sig (Elt F)} (h : op ∈ (allOps : List (HloOp τ sig (Elt F)))) :
    op ∈ (refOps00 : List (HloOp τ sig (Elt F))) ∨ op ∈ (refOps01 : List (HloOp τ sig (Elt F))) ∨ op ∈ (refOps02a : List (HloOp τ sig (Elt F))) ∨ op ∈ (refOps02b : List (HloOp τ sig (Elt F))) ∨ op ∈ (refOps03a : List (HloOp τ sig (Elt F))) ∨ op ∈ (refOps03b : List (HloOp τ sig (Elt F))) ∨ op ∈ (refOps04 : List (HloOp τ sig (Elt F))) ∨ op ∈ (refOps05 : List (HloOp τ sig (Elt F))) ∨ op ∈ (refOps06a : List (HloOp τ sig (Elt F))) ∨ op ∈ (refOps06b : List (HloOp τ sig (Elt F))) ∨ op ∈ (refOps06c : List (HloOp τ sig (Elt F))) ∨ op ∈ (refOps07 : List (HloOp τ sig (Elt F))) ∨ op ∈ (refOps08 : List (HloOp τ sig (Elt F))) ∨ op ∈ (refOps09 : List (HloOp τ sig (Elt F))) ∨ op ∈ (refOps10 : List (HloOp τ sig (Elt F))) ∨ op ∈ (refOps11 : List (HloOp τ sig (Elt F))) ∨ op ∈ (refOps12 : List (HloOp τ sig (Elt F))) ∨ op ∈ (refOps13a : List (HloOp τ sig (Elt F))) ∨ op ∈ (refOps13b : List (HloOp τ sig (Elt F))) := by
  simpa only [allOps, winOps0, winOps1, winOps2, winOps3, winOps4, winOps5, winOps6, List.mem_append, or_assoc] using h

theorem allOps_sub : (allOps : List (HloOp τ sig (Elt F))).Forall fun op => op.bufs ⊆ tcRefs τ sig :=
  List.forall_iff_forall_mem.mpr fun op h => by
    rcases mem_allOps h with h | h | h | h | h | h | h | h | h | h | h | h | h | h | h | h | h | h | h
    exacts [List.forall_iff_forall_mem.mp refOps00_sub op h, List.forall_iff_forall_mem.mp refOps01_sub op h, List.forall_iff_forall_mem.mp refOps02a_sub op h, List.forall_iff_forall_mem.mp refOps02b_sub op h, List.forall_iff_forall_mem.mp refOps03a_sub op h, List.forall_iff_forall_mem.mp refOps03b_sub op h, List.forall_iff_forall_mem.mp refOps04_sub op h, List.forall_iff_forall_mem.mp refOps05_sub op h, List.forall_iff_forall_mem.mp refOps06a_sub op h, List.forall_iff_forall_mem.mp refOps06b_sub op h, List.forall_iff_forall_mem.mp refOps06c_sub op h, List.forall_iff_forall_mem.mp refOps07_sub op h, List.forall_iff_forall_mem.mp refOps08_sub op h, List.forall_iff_forall_mem.mp refOps09_sub op h, List.forall_iff_forall_mem.mp refOps10_sub op h, List.forall_iff_forall_mem.mp refOps11_sub op h, List.forall_iff_forall_mem.mp refOps12_sub op h, List.forall_iff_forall_mem.mp refOps13a_sub op h, List.forall_iff_forall_mem.mp refOps13b_sub op h]

theorem allOps_fresh : ∀ op ∈ (allOps : List (HloOp τ sig (Elt F))), op.fresh = ∅ := fun op h => by
    rcases mem_allOps h with h | h | h | h | h | h | h | h | h | h | h | h | h | h | h | h | h | h | h
    exacts [List.forall_iff_forall_mem.mp refOps00_fresh op h, List.forall_iff_forall_mem.mp refOps01_fresh op h, List.forall_iff_forall_mem.mp refOps02a_fresh op h, List.forall_iff_forall_mem.mp refOps02b_fresh op h, List.forall_iff_forall_mem.mp refOps03a_fresh op h, List.forall_iff_forall_mem.mp refOps03b_fresh op h, List.forall_iff_forall_mem.mp refOps04_fresh op h, List.forall_iff_forall_mem.mp refOps05_fresh op h, List.forall_iff_forall_mem.mp refOps06a_fresh op h, List.forall_iff_forall_mem.mp refOps06b_fresh op h, List.forall_iff_forall_mem.mp refOps06c_fresh op h, List.forall_iff_forall_mem.mp refOps07_fresh op h, List.forall_iff_forall_mem.mp refOps08_fresh op h, List.forall_iff_forall_mem.mp refOps09_fresh op h, List.forall_iff_forall_mem.mp refOps10_fresh op h, List.forall_iff_forall_mem.mp refOps11_fresh op h, List.forall_iff_forall_mem.mp refOps12_fresh op h, List.forall_iff_forall_mem.mp refOps13a_fresh op h, List.forall_iff_forall_mem.mp refOps13b_fresh op h]

theorem after_allOps (V : Valuation τ sig (Elt F)) :
    StableHlo.after (allOps (F := F)) V = StableHlo.after refOps13b (StableHlo.after refOps13a (StableHlo.after refOps12 (StableHlo.after refOps11 (StableHlo.after refOps10 (StableHlo.after refOps09 (StableHlo.after refOps08 (StableHlo.after refOps07 (StableHlo.after refOps06c (StableHlo.after refOps06b (StableHlo.after refOps06a (StableHlo.after refOps05 (StableHlo.after refOps04 (StableHlo.after refOps03b (StableHlo.after refOps03a (StableHlo.after refOps02b (StableHlo.after refOps02a (StableHlo.after refOps01 (StableHlo.after refOps00 (V))))))))))))))))))) := by
  simp only [allOps, winOps0, winOps1, winOps2, winOps3, winOps4, winOps5, winOps6, StableHlo.after_append]

end Cert.ReferenceIdeal.RunH

end
-- ==== Proof.RH.Val00.lean ====
import proofs.«134848_j7748121002193_1_alg».proof.Proof.RefStages
import proofs.«134848_j7748121002193_1_alg».proof.Proof.RH.Ops00

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))
  (x1 : (⟨S8x64x5, .f32⟩ : BufTy).Contents (Elt F))

theorem refS00_main_v2
    (h_main_arg1 : V (Proc.devRef .tc main_arg1) = x1)
    :
    StableHlo.after (refOps00 (F := F)) V (Proc.devRef .tc main_v2) = ReadP.val_main_v2 (F := F) x1 := by
  after_results_simp
  rw [h_main_arg1]
  rfl

theorem refS00_main_v4
    (h_main_arg1 : V (Proc.devRef .tc main_arg1) = x1)
    :
    StableHlo.after (refOps00 (F := F)) V (Proc.devRef .tc main_v4) = ReadP.val_main_v4 (F := F) x1 := by
  after_results_simp
  rw [h_main_arg1]
  simp only [TRef.ofBuf, TRef.toBuf, cast_eq]
  rfl

theorem refS00_main_v19
    (h_main_arg1 : V (Proc.devRef .tc main_arg1) = x1)
    :
    StableHlo.after (refOps00 (F := F)) V (Proc.devRef .tc main_v19) = ReadP.val_main_v19 (F := F) x1 := by
  after_results_simp
  rw [h_main_arg1]
  rfl

theorem refS00_main_v21
    (h_main_arg1 : V (Proc.devRef .tc main_arg1) = x1)
    :
    StableHlo.after (refOps00 (F := F)) V (Proc.devRef .tc main_v21) = ReadP.val_main_v21 (F := F) x1 := by
  after_results_simp
  rw [h_main_arg1]
  simp only [TRef.ofBuf, TRef.toBuf, cast_eq]
  rfl

theorem refS00_main_cst_4
    :
    StableHlo.after (refOps00 (F := F)) V (Proc.devRef .tc main_cst_4) = ReadP.val_main_cst_4 (F := F) := by
  after_results_simp
  rfl

end Cert.ReferenceIdeal.RunH

end
-- ==== Proof.RH.Val01.lean ====
import proofs.«134848_j7748121002193_1_alg».proof.Proof.RefStages
import proofs.«134848_j7748121002193_1_alg».proof.Proof.RH.Ops01

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))
  (x1 : (⟨S8x64x5, .f32⟩ : BufTy).Contents (Elt F))

theorem refS01_main_v37
    (h_main_v19 : V (Proc.devRef .tc main_v19) = ReadP.val_main_v19 (F := F) x1)
    (h_main_v4 : V (Proc.devRef .tc main_v4) = ReadP.val_main_v4 (F := F) x1)
    (h_main_v21 : V (Proc.devRef .tc main_v21) = ReadP.val_main_v21 (F := F) x1)
    (h_main_cst_4 : V (Proc.devRef .tc main_cst_4) = ReadP.val_main_cst_4 (F := F))
    :
    StableHlo.after (refOps01 (F := F)) V (Proc.devRef .tc main_v37) = ReadP.val_main_v37 (F := F) x1 := by
  after_results_simp
  rw [h_main_v19, h_main_v4, h_main_v21, h_main_cst_4]
  simp only [TRef.ofBuf, TRef.toBuf, cast_eq]
  rfl

theorem refS01_main_v40
    :
    StableHlo.after (refOps01 (F := F)) V (Proc.devRef .tc main_v40) = ReadP.val_main_v40 (F := F) := by
  after_results_simp
  rfl

theorem refS01_main_v41
    :
    StableHlo.after (refOps01 (F := F)) V (Proc.devRef .tc main_v41) = ReadP.val_main_v41 (F := F) := by
  after_results_simp
  rfl

theorem refS01_main_v43
    :
    StableHlo.after (refOps01 (F := F)) V (Proc.devRef .tc main_v43) = ReadP.val_main_v43 (F := F) := by
  after_results_simp
  rfl

theorem refS01_main_v44
    :
    StableHlo.after (refOps01 (F := F)) V (Proc.devRef .tc main_v44) = ReadP.val_main_v44 (F := F) := by
  after_results_simp
  rfl

end Cert.ReferenceIdeal.RunH

end
-- ==== Proof.RH.Val02a.lean ====
import proofs.«134848_j7748121002193_1_alg».proof.Proof.RefStages
import proofs.«134848_j7748121002193_1_alg».proof.Proof.RH.Ops02a

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))
  (x1 : (⟨S8x64x5, .f32⟩ : BufTy).Contents (Elt F))

theorem refS02a_main_v52
    (h_main_v43 : V (Proc.devRef .tc main_v43) = ReadP.val_main_v43 (F := F))
    (h_main_v40 : V (Proc.devRef .tc main_v40) = ReadP.val_main_v40 (F := F))
    (h_main_v44 : V (Proc.devRef .tc main_v44) = ReadP.val_main_v44 (F := F))
    :
    StableHlo.after (refOps02a (F := F)) V (Proc.devRef .tc main_v52) = ReadP.val_main_v52 (F := F) := by
  after_results_simp
  rw [h_main_v43, h_main_v40, h_main_v44]
  rfl

theorem refS02a_main_v53
    (h_main_v37 : V (Proc.devRef .tc main_v37) = ReadP.val_main_v37 (F := F) x1)
    :
    StableHlo.after (refOps02a (F := F)) V (Proc.devRef .tc main_v53) = ReadP.val_main_v53 (F := F) x1 := by
  after_results_simp
  rw [h_main_v37]
  rfl

end Cert.ReferenceIdeal.RunH

end
-- ==== Proof.RH.Val02b.lean ====
import proofs.«134848_j7748121002193_1_alg».proof.Proof.RefStages
import proofs.«134848_j7748121002193_1_alg».proof.Proof.RH.Ops02b

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))
  (x1 : (⟨S8x64x5, .f32⟩ : BufTy).Contents (Elt F))

theorem refS02b_main_v58
    (h_main_v41 : V (Proc.devRef .tc main_v41) = ReadP.val_main_v41 (F := F))
    (h_main_v52 : V (Proc.devRef .tc main_v52) = ReadP.val_main_v52 (F := F))
    (h_main_v53 : V (Proc.devRef .tc main_v53) = ReadP.val_main_v53 (F := F) x1)
    :
    StableHlo.after (refOps02b (F := F)) V (Proc.devRef .tc main_v58) = ReadP.val_main_v58 (F := F) x1 := by
  after_results_simp
  rw [h_main_v41, h_main_v52, h_main_v53]
  rfl

theorem refS02b_main_v59
    :
    StableHlo.after (refOps02b (F := F)) V (Proc.devRef .tc main_v59) = ReadP.val_main_v59 (F := F) := by
  after_results_simp
  rfl

theorem refS02b_main_v70
    (h_main_v40 : V (Proc.devRef .tc main_v40) = ReadP.val_main_v40 (F := F))
    :
    StableHlo.after (refOps02b (F := F)) V (Proc.devRef .tc main_v70) = ReadP.val_main_v70 (F := F) := by
  after_results_simp
  rw [h_main_v40]
  rfl

theorem refS02b_main_v71
    (h_main_v37 : V (Proc.devRef .tc main_v37) = ReadP.val_main_v37 (F := F) x1)
    :
    StableHlo.after (refOps02b (F := F)) V (Proc.devRef .tc main_v71) = ReadP.val_main_v71 (F := F) x1 := by
  after_results_simp
  rw [h_main_v37]
  rfl

end Cert.ReferenceIdeal.RunH

end
-- ==== Proof.RH.Val03a.lean ====
import proofs.«134848_j7748121002193_1_alg».proof.Proof.RefStages
import proofs.«134848_j7748121002193_1_alg».proof.Proof.RH.Ops03a

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))
  (x1 : (⟨S8x64x5, .f32⟩ : BufTy).Contents (Elt F))

theorem refS03a_main_v75
    (h_main_v59 : V (Proc.devRef .tc main_v59) = ReadP.val_main_v59 (F := F))
    (h_main_v70 : V (Proc.devRef .tc main_v70) = ReadP.val_main_v70 (F := F))
    (h_main_v71 : V (Proc.devRef .tc main_v71) = ReadP.val_main_v71 (F := F) x1)
    (h_main_v4 : V (Proc.devRef .tc main_v4) = ReadP.val_main_v4 (F := F) x1)
    :
    StableHlo.after (refOps03a (F := F)) V (Proc.devRef .tc main_v75) = ReadP.val_main_v75 (F := F) x1 := by
  after_results_simp
  rw [h_main_v59, h_main_v70, h_main_v71, h_main_v4]
  rfl

theorem refS03a_main_v76
    :
    StableHlo.after (refOps03a (F := F)) V (Proc.devRef .tc main_v76) = ReadP.val_main_v76 (F := F) := by
  after_results_simp
  rfl

theorem refS03a_main_v87
    (h_main_v40 : V (Proc.devRef .tc main_v40) = ReadP.val_main_v40 (F := F))
    :
    StableHlo.after (refOps03a (F := F)) V (Proc.devRef .tc main_v87) = ReadP.val_main_v87 (F := F) := by
  after_results_simp
  rw [h_main_v40]
  rfl

theorem refS03a_main_v88
    (h_main_v37 : V (Proc.devRef .tc main_v37) = ReadP.val_main_v37 (F := F) x1)
    :
    StableHlo.after (refOps03a (F := F)) V (Proc.devRef .tc main_v88) = ReadP.val_main_v88 (F := F) x1 := by
  after_results_simp
  rw [h_main_v37]
  rfl

end Cert.ReferenceIdeal.RunH

end
-- ==== Proof.RH.Val03b.lean ====
import proofs.«134848_j7748121002193_1_alg».proof.Proof.RefStages
import proofs.«134848_j7748121002193_1_alg».proof.Proof.RH.Ops03b

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))
  (x1 : (⟨S8x64x5, .f32⟩ : BufTy).Contents (Elt F))

theorem refS03b_main_v91
    (h_main_v76 : V (Proc.devRef .tc main_v76) = ReadP.val_main_v76 (F := F))
    (h_main_v87 : V (Proc.devRef .tc main_v87) = ReadP.val_main_v87 (F := F))
    (h_main_v88 : V (Proc.devRef .tc main_v88) = ReadP.val_main_v88 (F := F) x1)
    (h_main_v2 : V (Proc.devRef .tc main_v2) = ReadP.val_main_v2 (F := F) x1)
    :
    StableHlo.after (refOps03b (F := F)) V (Proc.devRef .tc main_v91) = ReadP.val_main_v91 (F := F) x1 := by
  after_results_simp
  rw [h_main_v76, h_main_v87, h_main_v88, h_main_v2]
  rfl

end Cert.ReferenceIdeal.RunH

end
-- ==== Proof.RH.Val04.lean ====
import proofs.«134848_j7748121002193_1_alg».proof.Proof.RefStages
import proofs.«134848_j7748121002193_1_alg».proof.Proof.RH.Ops04

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))
  (x0 : (⟨S8x15x80x80, .f32⟩ : BufTy).Contents (Elt F))
  (x1 : (⟨S8x64x5, .f32⟩ : BufTy).Contents (Elt F))
  (x6 : (⟨S8, .i32⟩ : BufTy).Contents (Elt F))

theorem refS04_main_v92
    (h_main_v91 : V (Proc.devRef .tc main_v91) = ReadP.val_main_v91 (F := F) x1)
    :
    StableHlo.after (refOps04 (F := F)) V (Proc.devRef .tc main_v92) = ReadP.val_main_v92 (F := F) x1 := by
  after_results_simp
  rw [h_main_v91]
  rfl

theorem refS04_main_v94
    (h_main_v58 : V (Proc.devRef .tc main_v58) = ReadP.val_main_v58 (F := F) x1)
    :
    StableHlo.after (refOps04 (F := F)) V (Proc.devRef .tc main_v94) = ReadP.val_main_v94 (F := F) x1 := by
  after_results_simp
  rw [h_main_v58]
  rfl

theorem refS04_main_v100
    (h_main_v58 : V (Proc.devRef .tc main_v58) = ReadP.val_main_v58 (F := F) x1)
    :
    StableHlo.after (refOps04 (F := F)) V (Proc.devRef .tc main_v100) = ReadP.val_main_v100 (F := F) x1 := by
  after_results_simp
  rw [h_main_v58]
  rfl

theorem refS04_main_v101
    (h_main_arg6 : V (Proc.devRef .tc main_arg6) = x6)
    :
    StableHlo.after (refOps04 (F := F)) V (Proc.devRef .tc main_v101) = ReadP.val_main_v101 (F := F) x6 := by
  after_results_simp
  rw [h_main_arg6]
  rfl

theorem refS04_main_v103
    (h_main_arg6 : V (Proc.devRef .tc main_arg6) = x6)
    :
    StableHlo.after (refOps04 (F := F)) V (Proc.devRef .tc main_v103) = ReadP.val_main_v103 (F := F) x6 := by
  after_results_simp
  rw [h_main_arg6]
  rfl

theorem refS04_main_v115
    (h_main_arg0 : V (Proc.devRef .tc main_arg0) = x0)
    (h_main_v58 : V (Proc.devRef .tc main_v58) = ReadP.val_main_v58 (F := F) x1)
    :
    StableHlo.after (refOps04 (F := F)) V (Proc.devRef .tc main_v115) = ReadP.val_main_v115 (F := F) x0 x1 := by
  after_results_simp
  rw [h_main_arg0, h_main_v58]
  rfl

end Cert.ReferenceIdeal.RunH

end
-- ==== Proof.RH.Val05.lean ====
import proofs.«134848_j7748121002193_1_alg».proof.Proof.RefStages
import proofs.«134848_j7748121002193_1_alg».proof.Proof.RH.Ops05

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))
  (x0 : (⟨S8x15x80x80, .f32⟩ : BufTy).Contents (Elt F))
  (x1 : (⟨S8x64x5, .f32⟩ : BufTy).Contents (Elt F))

theorem refS05_main_v118
    (h_main_v115 : V (Proc.devRef .tc main_v115) = ReadP.val_main_v115 (F := F) x0 x1)
    :
    StableHlo.after (refOps05 (F := F)) V (Proc.devRef .tc main_v118) = ReadP.val_main_v118 (F := F) x0 x1 := by
  after_results_simp
  rw [h_main_v115]
  rfl

theorem refS05_main_v136
    (h_main_arg0 : V (Proc.devRef .tc main_arg0) = x0)
    (h_main_v75 : V (Proc.devRef .tc main_v75) = ReadP.val_main_v75 (F := F) x1)
    :
    StableHlo.after (refOps05 (F := F)) V (Proc.devRef .tc main_v136) = ReadP.val_main_v136 (F := F) x0 x1 := by
  after_results_simp
  rw [h_main_arg0, h_main_v75]
  simp only [TRef.ofBuf, TRef.toBuf, cast_eq]
  rfl

theorem refS05_main_v138
    (h_main_v94 : V (Proc.devRef .tc main_v94) = ReadP.val_main_v94 (F := F) x1)
    :
    StableHlo.after (refOps05 (F := F)) V (Proc.devRef .tc main_v138) = ReadP.val_main_v138 (F := F) x1 := by
  after_results_simp
  rw [h_main_v94]
  rfl

end Cert.ReferenceIdeal.RunH

end
-- ==== Proof.RH.Val06a.lean ====
import proofs.«134848_j7748121002193_1_alg».proof.Proof.RefStages
import proofs.«134848_j7748121002193_1_alg».proof.Proof.RH.Ops06a

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))
  (x0 : (⟨S8x15x80x80, .f32⟩ : BufTy).Contents (Elt F))
  (x1 : (⟨S8x64x5, .f32⟩ : BufTy).Contents (Elt F))

theorem refS06a_main_v145
    (h_main_v136 : V (Proc.devRef .tc main_v136) = ReadP.val_main_v136 (F := F) x0 x1)
    (h_main_v138 : V (Proc.devRef .tc main_v138) = ReadP.val_main_v138 (F := F) x1)
    (h_main_v100 : V (Proc.devRef .tc main_v100) = ReadP.val_main_v100 (F := F) x1)
    :
    StableHlo.after (refOps06a (F := F)) V (Proc.devRef .tc main_v145) = ReadP.val_main_v145 (F := F) x0 x1 := by
  after_results_simp
  rw [h_main_v136, h_main_v138, h_main_v100]
  rfl

theorem refS06a_main_v146
    (h_main_arg0 : V (Proc.devRef .tc main_arg0) = x0)
    :
    StableHlo.after (refOps06a (F := F)) V (Proc.devRef .tc main_v146) = ReadP.val_main_v146 (F := F) x0 := by
  after_results_simp
  rw [h_main_arg0]
  rfl

end Cert.ReferenceIdeal.RunH

end
-- ==== Proof.RH.Val06b.lean ====
import proofs.«134848_j7748121002193_1_alg».proof.Proof.RefStages
import proofs.«134848_j7748121002193_1_alg».proof.Proof.RH.Ops06b

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))
  (x0 : (⟨S8x15x80x80, .f32⟩ : BufTy).Contents (Elt F))

theorem refS06b_main_call3_v5
    (h_main_v146 : V (Proc.devRef .tc main_v146) = ReadP.val_main_v146 (F := F) x0)
    :
    StableHlo.after (refOps06b (F := F)) V (Proc.devRef .tc main_call3_v5) = ReadP.val_main_call3_v5 (F := F) x0 := by
  after_results_simp
  rw [h_main_v146]
  simp only [TRef.ofBuf, TRef.toBuf, cast_eq]
  rfl

end Cert.ReferenceIdeal.RunH

end
-- ==== Proof.RH.Val06c.lean ====
import proofs.«134848_j7748121002193_1_alg».proof.Proof.RefStages
import proofs.«134848_j7748121002193_1_alg».proof.Proof.RH.Ops06c

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))
  (x0 : (⟨S8x15x80x80, .f32⟩ : BufTy).Contents (Elt F))

theorem refS06c_main_v147
    (h_main_call3_v5 : V (Proc.devRef .tc main_call3_v5) = ReadP.val_main_call3_v5 (F := F) x0)
    :
    StableHlo.after (refOps06c (F := F)) V (Proc.devRef .tc main_v147) = ReadP.val_main_v147 (F := F) x0 := by
  after_results_simp
  rw [h_main_call3_v5]
  simp only [TRef.ofBuf, TRef.toBuf, cast_eq]
  rfl

end Cert.ReferenceIdeal.RunH

end
-- ==== Proof.RH.Val07.lean ====
import proofs.«134848_j7748121002193_1_alg».proof.Proof.RefStages
import proofs.«134848_j7748121002193_1_alg».proof.Proof.RH.Ops07

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))
  (x0 : (⟨S8x15x80x80, .f32⟩ : BufTy).Contents (Elt F))
  (x1 : (⟨S8x64x5, .f32⟩ : BufTy).Contents (Elt F))
  (x6 : (⟨S8, .i32⟩ : BufTy).Contents (Elt F))

theorem refS07_main_v160
    (h_main_v118 : V (Proc.devRef .tc main_v118) = ReadP.val_main_v118 (F := F) x0 x1)
    (h_main_v145 : V (Proc.devRef .tc main_v145) = ReadP.val_main_v145 (F := F) x0 x1)
    (h_main_v92 : V (Proc.devRef .tc main_v92) = ReadP.val_main_v92 (F := F) x1)
    (h_main_v147 : V (Proc.devRef .tc main_v147) = ReadP.val_main_v147 (F := F) x0)
    (h_main_v94 : V (Proc.devRef .tc main_v94) = ReadP.val_main_v94 (F := F) x1)
    (h_main_v100 : V (Proc.devRef .tc main_v100) = ReadP.val_main_v100 (F := F) x1)
    (h_main_v101 : V (Proc.devRef .tc main_v101) = ReadP.val_main_v101 (F := F) x6)
    :
    StableHlo.after (refOps07 (F := F)) V (Proc.devRef .tc main_v160) = ReadP.val_main_v160 (F := F) x0 x1 x6 := by
  after_results_simp
  rw [h_main_v118, h_main_v145, h_main_v92, h_main_v147, h_main_v94, h_main_v100, h_main_v101]
  simp only [TRef.ofBuf, TRef.toBuf, cast_eq]
  rfl

end Cert.ReferenceIdeal.RunH

end
-- ==== Proof.RH.Val08.lean ====
import proofs.«134848_j7748121002193_1_alg».proof.Proof.RefStages
import proofs.«134848_j7748121002193_1_alg».proof.Proof.RH.Ops08

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))
  (x0 : (⟨S8x15x80x80, .f32⟩ : BufTy).Contents (Elt F))
  (x1 : (⟨S8x64x5, .f32⟩ : BufTy).Contents (Elt F))
  (x2 : (⟨S8x1x1024x1024, .f32⟩ : BufTy).Contents (Elt F))
  (x3 : (⟨S8x1024x1024, .i32⟩ : BufTy).Contents (Elt F))
  (x6 : (⟨S8, .i32⟩ : BufTy).Contents (Elt F))
  (x7 : (⟨S8, .i32⟩ : BufTy).Contents (Elt F))

theorem refS08_main_v161
    (h_main_v160 : V (Proc.devRef .tc main_v160) = ReadP.val_main_v160 (F := F) x0 x1 x6)
    (h_main_v103 : V (Proc.devRef .tc main_v103) = ReadP.val_main_v103 (F := F) x6)
    :
    StableHlo.after (refOps08 (F := F)) V (Proc.devRef .tc main_v161) = ReadP.val_main_v161 (F := F) x0 x1 x6 := by
  after_results_simp
  rw [h_main_v160, h_main_v103]
  rfl

theorem refS08_main_v186
    (h_main_arg2 : V (Proc.devRef .tc main_arg2) = x2)
    (h_main_arg3 : V (Proc.devRef .tc main_arg3) = x3)
    :
    StableHlo.after (refOps08 (F := F)) V (Proc.devRef .tc main_v186) = ReadP.val_main_v186 (F := F) x2 x3 := by
  after_results_simp
  rw [h_main_arg2, h_main_arg3]
  simp only [TRef.ofBuf, TRef.toBuf, cast_eq]
  rfl

theorem refS08_main_v187
    (h_main_arg7 : V (Proc.devRef .tc main_arg7) = x7)
    :
    StableHlo.after (refOps08 (F := F)) V (Proc.devRef .tc main_v187) = ReadP.val_main_v187 (F := F) x7 := by
  after_results_simp
  rw [h_main_arg7]
  rfl

theorem refS08_main_v188
    (h_main_arg3 : V (Proc.devRef .tc main_arg3) = x3)
    :
    StableHlo.after (refOps08 (F := F)) V (Proc.devRef .tc main_v188) = ReadP.val_main_v188 (F := F) x3 := by
  after_results_simp
  rw [h_main_arg3]
  rfl

end Cert.ReferenceIdeal.RunH

end
-- ==== Proof.RH.Val09.lean ====
import proofs.«134848_j7748121002193_1_alg».proof.Proof.RefStages
import proofs.«134848_j7748121002193_1_alg».proof.Proof.RH.Ops09

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))
  (x2 : (⟨S8x1x1024x1024, .f32⟩ : BufTy).Contents (Elt F))
  (x3 : (⟨S8x1024x1024, .i32⟩ : BufTy).Contents (Elt F))
  (x4 : (⟨S8x3x1024x1024, .f32⟩ : BufTy).Contents (Elt F))
  (x5 : (⟨S8x3x1024x1024, .i32⟩ : BufTy).Contents (Elt F))
  (x7 : (⟨S8, .i32⟩ : BufTy).Contents (Elt F))

theorem refS09_main_v196
    (h_main_v186 : V (Proc.devRef .tc main_v186) = ReadP.val_main_v186 (F := F) x2 x3)
    (h_main_v187 : V (Proc.devRef .tc main_v187) = ReadP.val_main_v187 (F := F) x7)
    (h_main_v188 : V (Proc.devRef .tc main_v188) = ReadP.val_main_v188 (F := F) x3)
    :
    StableHlo.after (refOps09 (F := F)) V (Proc.devRef .tc main_v196) = ReadP.val_main_v196 (F := F) x2 x3 x7 := by
  after_results_simp
  rw [h_main_v186, h_main_v187, h_main_v188]
  rfl

theorem refS09_main_v198
    (h_main_arg5 : V (Proc.devRef .tc main_arg5) = x5)
    :
    StableHlo.after (refOps09 (F := F)) V (Proc.devRef .tc main_v198) = ReadP.val_main_v198 (F := F) x5 := by
  after_results_simp
  rw [h_main_arg5]
  rfl

theorem refS09_main_v200
    (h_main_arg5 : V (Proc.devRef .tc main_arg5) = x5)
    :
    StableHlo.after (refOps09 (F := F)) V (Proc.devRef .tc main_v200) = ReadP.val_main_v200 (F := F) x5 := by
  after_results_simp
  rw [h_main_arg5]
  simp only [TRef.ofBuf, TRef.toBuf, cast_eq]
  rfl

theorem refS09_main_v209
    (h_main_arg4 : V (Proc.devRef .tc main_arg4) = x4)
    (h_main_arg5 : V (Proc.devRef .tc main_arg5) = x5)
    :
    StableHlo.after (refOps09 (F := F)) V (Proc.devRef .tc main_v209) = ReadP.val_main_v209 (F := F) x4 x5 := by
  after_results_simp
  rw [h_main_arg4, h_main_arg5]
  simp only [TRef.ofBuf, TRef.toBuf, cast_eq]
  rfl

theorem refS09_main_v210
    (h_main_arg4 : V (Proc.devRef .tc main_arg4) = x4)
    :
    StableHlo.after (refOps09 (F := F)) V (Proc.devRef .tc main_v210) = ReadP.val_main_v210 (F := F) x4 := by
  after_results_simp
  rw [h_main_arg4]
  rfl

end Cert.ReferenceIdeal.RunH

end
-- ==== Proof.RH.Val10.lean ====
import proofs.«134848_j7748121002193_1_alg».proof.Proof.RefStages
import proofs.«134848_j7748121002193_1_alg».proof.Proof.RH.Ops10

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))
  (x4 : (⟨S8x3x1024x1024, .f32⟩ : BufTy).Contents (Elt F))
  (x5 : (⟨S8x3x1024x1024, .i32⟩ : BufTy).Contents (Elt F))

theorem refS10_main_v215
    (h_main_v210 : V (Proc.devRef .tc main_v210) = ReadP.val_main_v210 (F := F) x4)
    :
    StableHlo.after (refOps10 (F := F)) V (Proc.devRef .tc main_v215) = ReadP.val_main_v215 (F := F) x4 := by
  after_results_simp
  rw [h_main_v210]
  rfl

theorem refS10_main_v228
    (h_main_v198 : V (Proc.devRef .tc main_v198) = ReadP.val_main_v198 (F := F) x5)
    :
    StableHlo.after (refOps10 (F := F)) V (Proc.devRef .tc main_v228) = ReadP.val_main_v228 (F := F) x5 := by
  after_results_simp
  rw [h_main_v198]
  rfl

theorem refS10_main_v233
    (h_main_v210 : V (Proc.devRef .tc main_v210) = ReadP.val_main_v210 (F := F) x4)
    (h_main_v200 : V (Proc.devRef .tc main_v200) = ReadP.val_main_v200 (F := F) x5)
    (h_main_v209 : V (Proc.devRef .tc main_v209) = ReadP.val_main_v209 (F := F) x4 x5)
    :
    StableHlo.after (refOps10 (F := F)) V (Proc.devRef .tc main_v233) = ReadP.val_main_v233 (F := F) x4 x5 := by
  after_results_simp
  rw [h_main_v210, h_main_v200, h_main_v209]
  rfl

end Cert.ReferenceIdeal.RunH

end
-- ==== Proof.RH.Val11.lean ====
import proofs.«134848_j7748121002193_1_alg».proof.Proof.RefStages
import proofs.«134848_j7748121002193_1_alg».proof.Proof.RH.Ops11

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))
  (x4 : (⟨S8x3x1024x1024, .f32⟩ : BufTy).Contents (Elt F))
  (x5 : (⟨S8x3x1024x1024, .i32⟩ : BufTy).Contents (Elt F))

theorem refS11_main_v238
    (h_main_v233 : V (Proc.devRef .tc main_v233) = ReadP.val_main_v233 (F := F) x4 x5)
    (h_main_v198 : V (Proc.devRef .tc main_v198) = ReadP.val_main_v198 (F := F) x5)
    (h_main_v228 : V (Proc.devRef .tc main_v228) = ReadP.val_main_v228 (F := F) x5)
    :
    StableHlo.after (refOps11 (F := F)) V (Proc.devRef .tc main_v238) = ReadP.val_main_v238 (F := F) x4 x5 := by
  after_results_simp
  rw [h_main_v233, h_main_v198, h_main_v228]
  rfl

theorem refS11_main_v252
    (h_main_v215 : V (Proc.devRef .tc main_v215) = ReadP.val_main_v215 (F := F) x4)
    (h_main_v198 : V (Proc.devRef .tc main_v198) = ReadP.val_main_v198 (F := F) x5)
    (h_main_v200 : V (Proc.devRef .tc main_v200) = ReadP.val_main_v200 (F := F) x5)
    :
    StableHlo.after (refOps11 (F := F)) V (Proc.devRef .tc main_v252) = ReadP.val_main_v252 (F := F) x4 x5 := by
  after_results_simp
  rw [h_main_v215, h_main_v198, h_main_v200]
  rfl

theorem refS11_main_v256
    (h_main_v215 : V (Proc.devRef .tc main_v215) = ReadP.val_main_v215 (F := F) x4)
    (h_main_v200 : V (Proc.devRef .tc main_v200) = ReadP.val_main_v200 (F := F) x5)
    (h_main_v198 : V (Proc.devRef .tc main_v198) = ReadP.val_main_v198 (F := F) x5)
    :
    StableHlo.after (refOps11 (F := F)) V (Proc.devRef .tc main_v256) = ReadP.val_main_v256 (F := F) x4 x5 := by
  after_results_simp
  rw [h_main_v215, h_main_v200, h_main_v198]
  rfl

theorem refS11_main_cst_70
    :
    StableHlo.after (refOps11 (F := F)) V (Proc.devRef .tc main_cst_70) = ReadP.val_main_cst_70 (F := F) := by
  after_results_simp
  rfl

end Cert.ReferenceIdeal.RunH

end
-- ==== Proof.RH.Val12.lean ====
import proofs.«134848_j7748121002193_1_alg».proof.Proof.RefStages
import proofs.«134848_j7748121002193_1_alg».proof.Proof.RH.Ops12

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))
  (x0 : (⟨S8x15x80x80, .f32⟩ : BufTy).Contents (Elt F))
  (x1 : (⟨S8x64x5, .f32⟩ : BufTy).Contents (Elt F))
  (x2 : (⟨S8x1x1024x1024, .f32⟩ : BufTy).Contents (Elt F))
  (x3 : (⟨S8x1024x1024, .i32⟩ : BufTy).Contents (Elt F))
  (x4 : (⟨S8x3x1024x1024, .f32⟩ : BufTy).Contents (Elt F))
  (x5 : (⟨S8x3x1024x1024, .i32⟩ : BufTy).Contents (Elt F))
  (x6 : (⟨S8, .i32⟩ : BufTy).Contents (Elt F))
  (x7 : (⟨S8, .i32⟩ : BufTy).Contents (Elt F))
  (x8 : (⟨S8x3, .i32⟩ : BufTy).Contents (Elt F))

theorem refS12_main_v272
    (h_main_v238 : V (Proc.devRef .tc main_v238) = ReadP.val_main_v238 (F := F) x4 x5)
    (h_main_v256 : V (Proc.devRef .tc main_v256) = ReadP.val_main_v256 (F := F) x4 x5)
    (h_main_v252 : V (Proc.devRef .tc main_v252) = ReadP.val_main_v252 (F := F) x4 x5)
    (h_main_cst_70 : V (Proc.devRef .tc main_cst_70) = ReadP.val_main_cst_70 (F := F))
    (h_main_arg8 : V (Proc.devRef .tc main_arg8) = x8)
    (h_main_v198 : V (Proc.devRef .tc main_v198) = ReadP.val_main_v198 (F := F) x5)
    :
    StableHlo.after (refOps12 (F := F)) V (Proc.devRef .tc main_v272) = ReadP.val_main_v272 (F := F) x4 x5 x8 := by
  after_results_simp
  rw [h_main_v238, h_main_v256, h_main_v252, h_main_cst_70, h_main_arg8, h_main_v198]
  rfl

theorem refS12_main_v278
    (h_main_v161 : V (Proc.devRef .tc main_v161) = ReadP.val_main_v161 (F := F) x0 x1 x6)
    (h_main_v196 : V (Proc.devRef .tc main_v196) = ReadP.val_main_v196 (F := F) x2 x3 x7)
    (h_main_v238 : V (Proc.devRef .tc main_v238) = ReadP.val_main_v238 (F := F) x4 x5)
    (h_main_v256 : V (Proc.devRef .tc main_v256) = ReadP.val_main_v256 (F := F) x4 x5)
    (h_main_v252 : V (Proc.devRef .tc main_v252) = ReadP.val_main_v252 (F := F) x4 x5)
    (h_main_cst_70 : V (Proc.devRef .tc main_cst_70) = ReadP.val_main_cst_70 (F := F))
    (h_main_arg8 : V (Proc.devRef .tc main_arg8) = x8)
    (h_main_v198 : V (Proc.devRef .tc main_v198) = ReadP.val_main_v198 (F := F) x5)
    :
    StableHlo.after (refOps12 (F := F)) V (Proc.devRef .tc main_v278) = ReadP.val_main_v278 (F := F) x0 x1 x2 x3 x4 x5 x6 x7 x8 := by
  after_results_simp
  rw [h_main_v161, h_main_v196, h_main_v238, h_main_v256, h_main_v252, h_main_cst_70, h_main_arg8, h_main_v198]
  rfl

end Cert.ReferenceIdeal.RunH

end
-- ==== Proof.RH.Val13a.lean ====
import proofs.«134848_j7748121002193_1_alg».proof.Proof.RefStages
import proofs.«134848_j7748121002193_1_alg».proof.Proof.RH.Ops13a

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))
  (x0 : (⟨S8x15x80x80, .f32⟩ : BufTy).Contents (Elt F))
  (x1 : (⟨S8x64x5, .f32⟩ : BufTy).Contents (Elt F))
  (x2 : (⟨S8x1x1024x1024, .f32⟩ : BufTy).Contents (Elt F))
  (x3 : (⟨S8x1024x1024, .i32⟩ : BufTy).Contents (Elt F))
  (x4 : (⟨S8x3x1024x1024, .f32⟩ : BufTy).Contents (Elt F))
  (x5 : (⟨S8x3x1024x1024, .i32⟩ : BufTy).Contents (Elt F))
  (x6 : (⟨S8, .i32⟩ : BufTy).Contents (Elt F))
  (x7 : (⟨S8, .i32⟩ : BufTy).Contents (Elt F))
  (x8 : (⟨S8x3, .i32⟩ : BufTy).Contents (Elt F))

theorem refS13a_main_v279
    (h_main_v161 : V (Proc.devRef .tc main_v161) = ReadP.val_main_v161 (F := F) x0 x1 x6)
    :
    StableHlo.after (refOps13a (F := F)) V (Proc.devRef .tc main_v279) = ReadP.val_main_v279 (F := F) x0 x1 x6 := by
  after_results_simp
  rw [h_main_v161]
  rfl

theorem refS13a_main_v280
    (h_main_v196 : V (Proc.devRef .tc main_v196) = ReadP.val_main_v196 (F := F) x2 x3 x7)
    :
    StableHlo.after (refOps13a (F := F)) V (Proc.devRef .tc main_v280) = ReadP.val_main_v280 (F := F) x2 x3 x7 := by
  after_results_simp
  rw [h_main_v196]
  rfl

theorem refS13a_main_v281
    (h_main_v272 : V (Proc.devRef .tc main_v272) = ReadP.val_main_v272 (F := F) x4 x5 x8)
    :
    StableHlo.after (refOps13a (F := F)) V (Proc.devRef .tc main_v281) = ReadP.val_main_v281 (F := F) x4 x5 x8 := by
  after_results_simp
  rw [h_main_v272]
  rfl

end Cert.ReferenceIdeal.RunH

end
-- ==== Proof.RH.Val13b.lean ====
import proofs.«134848_j7748121002193_1_alg».proof.Proof.RefStages
import proofs.«134848_j7748121002193_1_alg».proof.Proof.RH.Ops13b

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))
  (x0 : (⟨S8x15x80x80, .f32⟩ : BufTy).Contents (Elt F))
  (x1 : (⟨S8x64x5, .f32⟩ : BufTy).Contents (Elt F))
  (x2 : (⟨S8x1x1024x1024, .f32⟩ : BufTy).Contents (Elt F))
  (x3 : (⟨S8x1024x1024, .i32⟩ : BufTy).Contents (Elt F))
  (x4 : (⟨S8x3x1024x1024, .f32⟩ : BufTy).Contents (Elt F))
  (x5 : (⟨S8x3x1024x1024, .i32⟩ : BufTy).Contents (Elt F))
  (x6 : (⟨S8, .i32⟩ : BufTy).Contents (Elt F))
  (x7 : (⟨S8, .i32⟩ : BufTy).Contents (Elt F))
  (x8 : (⟨S8x3, .i32⟩ : BufTy).Contents (Elt F))

theorem refS13b_main_v282
    (h_main_v278 : V (Proc.devRef .tc main_v278) = ReadP.val_main_v278 (F := F) x0 x1 x2 x3 x4 x5 x6 x7 x8)
    (h_main_v279 : V (Proc.devRef .tc main_v279) = ReadP.val_main_v279 (F := F) x0 x1 x6)
    (h_main_v280 : V (Proc.devRef .tc main_v280) = ReadP.val_main_v280 (F := F) x2 x3 x7)
    (h_main_v281 : V (Proc.devRef .tc main_v281) = ReadP.val_main_v281 (F := F) x4 x5 x8)
    :
    StableHlo.after (refOps13b (F := F)) V (Proc.devRef .tc main_v282) = ReadP.val_main_v282 (F := F) x0 x1 x2 x3 x4 x5 x6 x7 x8 := by
  after_results_simp
  simp only [Matrix.cons_val]
  rw [h_main_v278, h_main_v279, h_main_v280, h_main_v281]
  rfl

end Cert.ReferenceIdeal.RunH

end
-- ==== Proof.RH.Chain.lean ====
import proofs.«134848_j7748121002193_1_alg».proof.Proof.RefStages
import proofs.«134848_j7748121002193_1_alg».proof.Proof.RH.MainEq
import proofs.«134848_j7748121002193_1_alg».proof.Proof.RH.Val00
import proofs.«134848_j7748121002193_1_alg».proof.Proof.RH.Val01
import proofs.«134848_j7748121002193_1_alg».proof.Proof.RH.Val02a
import proofs.«134848_j7748121002193_1_alg».proof.Proof.RH.Val02b
import proofs.«134848_j7748121002193_1_alg».proof.Proof.RH.Val03a
import proofs.«134848_j7748121002193_1_alg».proof.Proof.RH.Val03b
import proofs.«134848_j7748121002193_1_alg».proof.Proof.RH.Val04
import proofs.«134848_j7748121002193_1_alg».proof.Proof.RH.Val05
import proofs.«134848_j7748121002193_1_alg».proof.Proof.RH.Val06a
import proofs.«134848_j7748121002193_1_alg».proof.Proof.RH.Val06b
import proofs.«134848_j7748121002193_1_alg».proof.Proof.RH.Val06c
import proofs.«134848_j7748121002193_1_alg».proof.Proof.RH.Val07
import proofs.«134848_j7748121002193_1_alg».proof.Proof.RH.Val08
import proofs.«134848_j7748121002193_1_alg».proof.Proof.RH.Val09
import proofs.«134848_j7748121002193_1_alg».proof.Proof.RH.Val10
import proofs.«134848_j7748121002193_1_alg».proof.Proof.RH.Val11
import proofs.«134848_j7748121002193_1_alg».proof.Proof.RH.Val12
import proofs.«134848_j7748121002193_1_alg».proof.Proof.RH.Val13a
import proofs.«134848_j7748121002193_1_alg».proof.Proof.RH.Val13b

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

abbrev in0 := m ((c.tc : Thread nD τ).loc main_arg0)
abbrev in1 := m ((c.tc : Thread nD τ).loc main_arg1)
abbrev in2 := m ((c.tc : Thread nD τ).loc main_arg2)
abbrev in3 := m ((c.tc : Thread nD τ).loc main_arg3)
abbrev in4 := m ((c.tc : Thread nD τ).loc main_arg4)
abbrev in5 := m ((c.tc : Thread nD τ).loc main_arg5)
abbrev in6 := m ((c.tc : Thread nD τ).loc main_arg6)
abbrev in7 := m ((c.tc : Thread nD τ).loc main_arg7)
abbrev in8 := m ((c.tc : Thread nD τ).loc main_arg8)

def W0 : Valuation τ sig (Elt F) := launchContents m c

def W1 : Valuation τ sig (Elt F) := StableHlo.after refOps00 (W0 m c)

def W2 : Valuation τ sig (Elt F) := StableHlo.after refOps01 (W1 m c)

def W3 : Valuation τ sig (Elt F) := StableHlo.after refOps02a (W2 m c)

def W4 : Valuation τ sig (Elt F) := StableHlo.after refOps02b (W3 m c)

def W5 : Valuation τ sig (Elt F) := StableHlo.after refOps03a (W4 m c)

def W6 : Valuation τ sig (Elt F) := StableHlo.after refOps03b (W5 m c)

def W7 : Valuation τ sig (Elt F) := StableHlo.after refOps04 (W6 m c)

def W8 : Valuation τ sig (Elt F) := StableHlo.after refOps05 (W7 m c)

def W9 : Valuation τ sig (Elt F) := StableHlo.after refOps06a (W8 m c)

def W10 : Valuation τ sig (Elt F) := StableHlo.after refOps06b (W9 m c)

def W11 : Valuation τ sig (Elt F) := StableHlo.after refOps06c (W10 m c)

def W12 : Valuation τ sig (Elt F) := StableHlo.after refOps07 (W11 m c)

def W13 : Valuation τ sig (Elt F) := StableHlo.after refOps08 (W12 m c)

def W14 : Valuation τ sig (Elt F) := StableHlo.after refOps09 (W13 m c)

def W15 : Valuation τ sig (Elt F) := StableHlo.after refOps10 (W14 m c)

def W16 : Valuation τ sig (Elt F) := StableHlo.after refOps11 (W15 m c)

def W17 : Valuation τ sig (Elt F) := StableHlo.after refOps12 (W16 m c)

def W18 : Valuation τ sig (Elt F) := StableHlo.after refOps13a (W17 m c)

def W19 : Valuation τ sig (Elt F) := StableHlo.after refOps13b (W18 m c)

def argRefs : List (Ref sig .tc) :=
  [main_arg0, main_arg1, main_arg2, main_arg3, main_arg4, main_arg5, main_arg6, main_arg7, main_arg8]

theorem w0_arg {r : Ref sig .tc} : W0 m c (Proc.devRef .tc r) = m ((c.tc : Thread nD τ).loc r) :=
  rfl
/-- No operation of a stretch writes an argument, so its buffer still holds the launch contents. -/
theorem w1_arg {r : Ref sig .tc} (hr : r ∈ argRefs) : W1 m c (Proc.devRef .tc r) = m ((c.tc : Thread nD τ).loc r) :=
  (refOps00_kept (W0 m c) ((by decide : ∀ a ∈ argRefs, a ∈ refOps00Kept) r hr)).trans (w0_arg m c)
theorem w2_arg {r : Ref sig .tc} (hr : r ∈ argRefs) : W2 m c (Proc.devRef .tc r) = m ((c.tc : Thread nD τ).loc r) :=
  (refOps01_kept (W1 m c) ((by decide : ∀ a ∈ argRefs, a ∈ refOps01Kept) r hr)).trans (w1_arg m c hr)
theorem w3_arg {r : Ref sig .tc} (hr : r ∈ argRefs) : W3 m c (Proc.devRef .tc r) = m ((c.tc : Thread nD τ).loc r) :=
  (refOps02a_kept (W2 m c) ((by decide : ∀ a ∈ argRefs, a ∈ refOps02aKept) r hr)).trans (w2_arg m c hr)
theorem w4_arg {r : Ref sig .tc} (hr : r ∈ argRefs) : W4 m c (Proc.devRef .tc r) = m ((c.tc : Thread nD τ).loc r) :=
  (refOps02b_kept (W3 m c) ((by decide : ∀ a ∈ argRefs, a ∈ refOps02bKept) r hr)).trans (w3_arg m c hr)
theorem w5_arg {r : Ref sig .tc} (hr : r ∈ argRefs) : W5 m c (Proc.devRef .tc r) = m ((c.tc : Thread nD τ).loc r) :=
  (refOps03a_kept (W4 m c) ((by decide : ∀ a ∈ argRefs, a ∈ refOps03aKept) r hr)).trans (w4_arg m c hr)
theorem w6_arg {r : Ref sig .tc} (hr : r ∈ argRefs) : W6 m c (Proc.devRef .tc r) = m ((c.tc : Thread nD τ).loc r) :=
  (refOps03b_kept (W5 m c) ((by decide : ∀ a ∈ argRefs, a ∈ refOps03bKept) r hr)).trans (w5_arg m c hr)
theorem w7_arg {r : Ref sig .tc} (hr : r ∈ argRefs) : W7 m c (Proc.devRef .tc r) = m ((c.tc : Thread nD τ).loc r) :=
  (refOps04_kept (W6 m c) ((by decide : ∀ a ∈ argRefs, a ∈ refOps04Kept) r hr)).trans (w6_arg m c hr)
theorem w8_arg {r : Ref sig .tc} (hr : r ∈ argRefs) : W8 m c (Proc.devRef .tc r) = m ((c.tc : Thread nD τ).loc r) :=
  (refOps05_kept (W7 m c) ((by decide : ∀ a ∈ argRefs, a ∈ refOps05Kept) r hr)).trans (w7_arg m c hr)
theorem w9_arg {r : Ref sig .tc} (hr : r ∈ argRefs) : W9 m c (Proc.devRef .tc r) = m ((c.tc : Thread nD τ).loc r) :=
  (refOps06a_kept (W8 m c) ((by decide : ∀ a ∈ argRefs, a ∈ refOps06aKept) r hr)).trans (w8_arg m c hr)
theorem w10_arg {r : Ref sig .tc} (hr : r ∈ argRefs) : W10 m c (Proc.devRef .tc r) = m ((c.tc : Thread nD τ).loc r) :=
  (refOps06b_kept (W9 m c) ((by decide : ∀ a ∈ argRefs, a ∈ refOps06bKept) r hr)).trans (w9_arg m c hr)
theorem w11_arg {r : Ref sig .tc} (hr : r ∈ argRefs) : W11 m c (Proc.devRef .tc r) = m ((c.tc : Thread nD τ).loc r) :=
  (refOps06c_kept (W10 m c) ((by decide : ∀ a ∈ argRefs, a ∈ refOps06cKept) r hr)).trans (w10_arg m c hr)
theorem w12_arg {r : Ref sig .tc} (hr : r ∈ argRefs) : W12 m c (Proc.devRef .tc r) = m ((c.tc : Thread nD τ).loc r) :=
  (refOps07_kept (W11 m c) ((by decide : ∀ a ∈ argRefs, a ∈ refOps07Kept) r hr)).trans (w11_arg m c hr)
theorem w13_arg {r : Ref sig .tc} (hr : r ∈ argRefs) : W13 m c (Proc.devRef .tc r) = m ((c.tc : Thread nD τ).loc r) :=
  (refOps08_kept (W12 m c) ((by decide : ∀ a ∈ argRefs, a ∈ refOps08Kept) r hr)).trans (w12_arg m c hr)
theorem w14_arg {r : Ref sig .tc} (hr : r ∈ argRefs) : W14 m c (Proc.devRef .tc r) = m ((c.tc : Thread nD τ).loc r) :=
  (refOps09_kept (W13 m c) ((by decide : ∀ a ∈ argRefs, a ∈ refOps09Kept) r hr)).trans (w13_arg m c hr)
theorem w15_arg {r : Ref sig .tc} (hr : r ∈ argRefs) : W15 m c (Proc.devRef .tc r) = m ((c.tc : Thread nD τ).loc r) :=
  (refOps10_kept (W14 m c) ((by decide : ∀ a ∈ argRefs, a ∈ refOps10Kept) r hr)).trans (w14_arg m c hr)
theorem w16_arg {r : Ref sig .tc} (hr : r ∈ argRefs) : W16 m c (Proc.devRef .tc r) = m ((c.tc : Thread nD τ).loc r) :=
  (refOps11_kept (W15 m c) ((by decide : ∀ a ∈ argRefs, a ∈ refOps11Kept) r hr)).trans (w15_arg m c hr)
theorem w17_arg {r : Ref sig .tc} (hr : r ∈ argRefs) : W17 m c (Proc.devRef .tc r) = m ((c.tc : Thread nD τ).loc r) :=
  (refOps12_kept (W16 m c) ((by decide : ∀ a ∈ argRefs, a ∈ refOps12Kept) r hr)).trans (w16_arg m c hr)
theorem w18_arg {r : Ref sig .tc} (hr : r ∈ argRefs) : W18 m c (Proc.devRef .tc r) = m ((c.tc : Thread nD τ).loc r) :=
  (refOps13a_kept (W17 m c) ((by decide : ∀ a ∈ argRefs, a ∈ refOps13aKept) r hr)).trans (w17_arg m c hr)
theorem w19_arg {r : Ref sig .tc} (hr : r ∈ argRefs) : W19 m c (Proc.devRef .tc r) = m ((c.tc : Thread nD τ).loc r) :=
  (refOps13b_kept (W18 m c) ((by decide : ∀ a ∈ argRefs, a ∈ refOps13bKept) r hr)).trans (w18_arg m c hr)

theorem w1_main_v2 : W1 m c (Proc.devRef .tc main_v2) = ReadP.val_main_v2 (F := F) (in1 m c) :=
  refS00_main_v2 (W0 m c) (in1 m c) (w0_arg m c (r := main_arg1))
theorem w1_main_v4 : W1 m c (Proc.devRef .tc main_v4) = ReadP.val_main_v4 (F := F) (in1 m c) :=
  refS00_main_v4 (W0 m c) (in1 m c) (w0_arg m c (r := main_arg1))
theorem w1_main_v19 : W1 m c (Proc.devRef .tc main_v19) = ReadP.val_main_v19 (F := F) (in1 m c) :=
  refS00_main_v19 (W0 m c) (in1 m c) (w0_arg m c (r := main_arg1))
theorem w1_main_v21 : W1 m c (Proc.devRef .tc main_v21) = ReadP.val_main_v21 (F := F) (in1 m c) :=
  refS00_main_v21 (W0 m c) (in1 m c) (w0_arg m c (r := main_arg1))
theorem w1_main_cst_4 : W1 m c (Proc.devRef .tc main_cst_4) = ReadP.val_main_cst_4 (F := F) :=
  refS00_main_cst_4 (W0 m c)

theorem w2_main_v2 : W2 m c (Proc.devRef .tc main_v2) = ReadP.val_main_v2 (F := F) (in1 m c) :=
  (refOps01_kept (W1 m c) (r := main_v2) (by decide)).trans (w1_main_v2 m c)
theorem w2_main_v4 : W2 m c (Proc.devRef .tc main_v4) = ReadP.val_main_v4 (F := F) (in1 m c) :=
  (refOps01_kept (W1 m c) (r := main_v4) (by decide)).trans (w1_main_v4 m c)
theorem w2_main_v37 : W2 m c (Proc.devRef .tc main_v37) = ReadP.val_main_v37 (F := F) (in1 m c) :=
  refS01_main_v37 (W1 m c) (in1 m c) (w1_main_v19 m c) (w1_main_v4 m c) (w1_main_v21 m c) (w1_main_cst_4 m c)
theorem w2_main_v40 : W2 m c (Proc.devRef .tc main_v40) = ReadP.val_main_v40 (F := F) :=
  refS01_main_v40 (W1 m c)
theorem w2_main_v41 : W2 m c (Proc.devRef .tc main_v41) = ReadP.val_main_v41 (F := F) :=
  refS01_main_v41 (W1 m c)
theorem w2_main_v43 : W2 m c (Proc.devRef .tc main_v43) = ReadP.val_main_v43 (F := F) :=
  refS01_main_v43 (W1 m c)
theorem w2_main_v44 : W2 m c (Proc.devRef .tc main_v44) = ReadP.val_main_v44 (F := F) :=
  refS01_main_v44 (W1 m c)

theorem w3_main_v2 : W3 m c (Proc.devRef .tc main_v2) = ReadP.val_main_v2 (F := F) (in1 m c) :=
  (refOps02a_kept (W2 m c) (r := main_v2) (by decide)).trans (w2_main_v2 m c)
theorem w3_main_v4 : W3 m c (Proc.devRef .tc main_v4) = ReadP.val_main_v4 (F := F) (in1 m c) :=
  (refOps02a_kept (W2 m c) (r := main_v4) (by decide)).trans (w2_main_v4 m c)
theorem w3_main_v37 : W3 m c (Proc.devRef .tc main_v37) = ReadP.val_main_v37 (F := F) (in1 m c) :=
  (refOps02a_kept (W2 m c) (r := main_v37) (by decide)).trans (w2_main_v37 m c)
theorem w3_main_v40 : W3 m c (Proc.devRef .tc main_v40) = ReadP.val_main_v40 (F := F) :=
  (refOps02a_kept (W2 m c) (r := main_v40) (by decide)).trans (w2_main_v40 m c)
theorem w3_main_v41 : W3 m c (Proc.devRef .tc main_v41) = ReadP.val_main_v41 (F := F) :=
  (refOps02a_kept (W2 m c) (r := main_v41) (by decide)).trans (w2_main_v41 m c)
theorem w3_main_v52 : W3 m c (Proc.devRef .tc main_v52) = ReadP.val_main_v52 (F := F) :=
  refS02a_main_v52 (W2 m c) (w2_main_v43 m c) (w2_main_v40 m c) (w2_main_v44 m c)
theorem w3_main_v53 : W3 m c (Proc.devRef .tc main_v53) = ReadP.val_main_v53 (F := F) (in1 m c) :=
  refS02a_main_v53 (W2 m c) (in1 m c) (w2_main_v37 m c)

theorem w4_main_v2 : W4 m c (Proc.devRef .tc main_v2) = ReadP.val_main_v2 (F := F) (in1 m c) :=
  (refOps02b_kept (W3 m c) (r := main_v2) (by decide)).trans (w3_main_v2 m c)
theorem w4_main_v4 : W4 m c (Proc.devRef .tc main_v4) = ReadP.val_main_v4 (F := F) (in1 m c) :=
  (refOps02b_kept (W3 m c) (r := main_v4) (by decide)).trans (w3_main_v4 m c)
theorem w4_main_v37 : W4 m c (Proc.devRef .tc main_v37) = ReadP.val_main_v37 (F := F) (in1 m c) :=
  (refOps02b_kept (W3 m c) (r := main_v37) (by decide)).trans (w3_main_v37 m c)
theorem w4_main_v40 : W4 m c (Proc.devRef .tc main_v40) = ReadP.val_main_v40 (F := F) :=
  (refOps02b_kept (W3 m c) (r := main_v40) (by decide)).trans (w3_main_v40 m c)
theorem w4_main_v58 : W4 m c (Proc.devRef .tc main_v58) = ReadP.val_main_v58 (F := F) (in1 m c) :=
  refS02b_main_v58 (W3 m c) (in1 m c) (w3_main_v41 m c) (w3_main_v52 m c) (w3_main_v53 m c)
theorem w4_main_v59 : W4 m c (Proc.devRef .tc main_v59) = ReadP.val_main_v59 (F := F) :=
  refS02b_main_v59 (W3 m c)
theorem w4_main_v70 : W4 m c (Proc.devRef .tc main_v70) = ReadP.val_main_v70 (F := F) :=
  refS02b_main_v70 (W3 m c) (w3_main_v40 m c)
theorem w4_main_v71 : W4 m c (Proc.devRef .tc main_v71) = ReadP.val_main_v71 (F := F) (in1 m c) :=
  refS02b_main_v71 (W3 m c) (in1 m c) (w3_main_v37 m c)

theorem w5_main_v2 : W5 m c (Proc.devRef .tc main_v2) = ReadP.val_main_v2 (F := F) (in1 m c) :=
  (refOps03a_kept (W4 m c) (r := main_v2) (by decide)).trans (w4_main_v2 m c)
theorem w5_main_v58 : W5 m c (Proc.devRef .tc main_v58) = ReadP.val_main_v58 (F := F) (in1 m c) :=
  (refOps03a_kept (W4 m c) (r := main_v58) (by decide)).trans (w4_main_v58 m c)
theorem w5_main_v75 : W5 m c (Proc.devRef .tc main_v75) = ReadP.val_main_v75 (F := F) (in1 m c) :=
  refS03a_main_v75 (W4 m c) (in1 m c) (w4_main_v59 m c) (w4_main_v70 m c) (w4_main_v71 m c) (w4_main_v4 m c)
theorem w5_main_v76 : W5 m c (Proc.devRef .tc main_v76) = ReadP.val_main_v76 (F := F) :=
  refS03a_main_v76 (W4 m c)
theorem w5_main_v87 : W5 m c (Proc.devRef .tc main_v87) = ReadP.val_main_v87 (F := F) :=
  refS03a_main_v87 (W4 m c) (w4_main_v40 m c)
theorem w5_main_v88 : W5 m c (Proc.devRef .tc main_v88) = ReadP.val_main_v88 (F := F) (in1 m c) :=
  refS03a_main_v88 (W4 m c) (in1 m c) (w4_main_v37 m c)

theorem w6_main_v58 : W6 m c (Proc.devRef .tc main_v58) = ReadP.val_main_v58 (F := F) (in1 m c) :=
  (refOps03b_kept (W5 m c) (r := main_v58) (by decide)).trans (w5_main_v58 m c)
theorem w6_main_v75 : W6 m c (Proc.devRef .tc main_v75) = ReadP.val_main_v75 (F := F) (in1 m c) :=
  (refOps03b_kept (W5 m c) (r := main_v75) (by decide)).trans (w5_main_v75 m c)
theorem w6_main_v91 : W6 m c (Proc.devRef .tc main_v91) = ReadP.val_main_v91 (F := F) (in1 m c) :=
  refS03b_main_v91 (W5 m c) (in1 m c) (w5_main_v76 m c) (w5_main_v87 m c) (w5_main_v88 m c) (w5_main_v2 m c)

theorem w7_main_v75 : W7 m c (Proc.devRef .tc main_v75) = ReadP.val_main_v75 (F := F) (in1 m c) :=
  (refOps04_kept (W6 m c) (r := main_v75) (by decide)).trans (w6_main_v75 m c)
theorem w7_main_v92 : W7 m c (Proc.devRef .tc main_v92) = ReadP.val_main_v92 (F := F) (in1 m c) :=
  refS04_main_v92 (W6 m c) (in1 m c) (w6_main_v91 m c)
theorem w7_main_v94 : W7 m c (Proc.devRef .tc main_v94) = ReadP.val_main_v94 (F := F) (in1 m c) :=
  refS04_main_v94 (W6 m c) (in1 m c) (w6_main_v58 m c)
theorem w7_main_v100 : W7 m c (Proc.devRef .tc main_v100) = ReadP.val_main_v100 (F := F) (in1 m c) :=
  refS04_main_v100 (W6 m c) (in1 m c) (w6_main_v58 m c)
theorem w7_main_v101 : W7 m c (Proc.devRef .tc main_v101) = ReadP.val_main_v101 (F := F) (in6 m c) :=
  refS04_main_v101 (W6 m c) (in6 m c) (w6_arg m c (r := main_arg6) (by decide))
theorem w7_main_v103 : W7 m c (Proc.devRef .tc main_v103) = ReadP.val_main_v103 (F := F) (in6 m c) :=
  refS04_main_v103 (W6 m c) (in6 m c) (w6_arg m c (r := main_arg6) (by decide))
theorem w7_main_v115 : W7 m c (Proc.devRef .tc main_v115) = ReadP.val_main_v115 (F := F) (in0 m c) (in1 m c) :=
  refS04_main_v115 (W6 m c) (in0 m c) (in1 m c) (w6_arg m c (r := main_arg0) (by decide)) (w6_main_v58 m c)

theorem w8_main_v92 : W8 m c (Proc.devRef .tc main_v92) = ReadP.val_main_v92 (F := F) (in1 m c) :=
  (refOps05_kept (W7 m c) (r := main_v92) (by decide)).trans (w7_main_v92 m c)
theorem w8_main_v94 : W8 m c (Proc.devRef .tc main_v94) = ReadP.val_main_v94 (F := F) (in1 m c) :=
  (refOps05_kept (W7 m c) (r := main_v94) (by decide)).trans (w7_main_v94 m c)
theorem w8_main_v100 : W8 m c (Proc.devRef .tc main_v100) = ReadP.val_main_v100 (F := F) (in1 m c) :=
  (refOps05_kept (W7 m c) (r := main_v100) (by decide)).trans (w7_main_v100 m c)
theorem w8_main_v101 : W8 m c (Proc.devRef .tc main_v101) = ReadP.val_main_v101 (F := F) (in6 m c) :=
  (refOps05_kept (W7 m c) (r := main_v101) (by decide)).trans (w7_main_v101 m c)
theorem w8_main_v103 : W8 m c (Proc.devRef .tc main_v103) = ReadP.val_main_v103 (F := F) (in6 m c) :=
  (refOps05_kept (W7 m c) (r := main_v103) (by decide)).trans (w7_main_v103 m c)
theorem w8_main_v118 : W8 m c (Proc.devRef .tc main_v118) = ReadP.val_main_v118 (F := F) (in0 m c) (in1 m c) :=
  refS05_main_v118 (W7 m c) (in0 m c) (in1 m c) (w7_main_v115 m c)
theorem w8_main_v136 : W8 m c (Proc.devRef .tc main_v136) = ReadP.val_main_v136 (F := F) (in0 m c) (in1 m c) :=
  refS05_main_v136 (W7 m c) (in0 m c) (in1 m c) (w7_arg m c (r := main_arg0) (by decide)) (w7_main_v75 m c)
theorem w8_main_v138 : W8 m c (Proc.devRef .tc main_v138) = ReadP.val_main_v138 (F := F) (in1 m c) :=
  refS05_main_v138 (W7 m c) (in1 m c) (w7_main_v94 m c)

theorem w9_main_v92 : W9 m c (Proc.devRef .tc main_v92) = ReadP.val_main_v92 (F := F) (in1 m c) :=
  (refOps06a_kept (W8 m c) (r := main_v92) (by decide)).trans (w8_main_v92 m c)
theorem w9_main_v94 : W9 m c (Proc.devRef .tc main_v94) = ReadP.val_main_v94 (F := F) (in1 m c) :=
  (refOps06a_kept (W8 m c) (r := main_v94) (by decide)).trans (w8_main_v94 m c)
theorem w9_main_v100 : W9 m c (Proc.devRef .tc main_v100) = ReadP.val_main_v100 (F := F) (in1 m c) :=
  (refOps06a_kept (W8 m c) (r := main_v100) (by decide)).trans (w8_main_v100 m c)
theorem w9_main_v101 : W9 m c (Proc.devRef .tc main_v101) = ReadP.val_main_v101 (F := F) (in6 m c) :=
  (refOps06a_kept (W8 m c) (r := main_v101) (by decide)).trans (w8_main_v101 m c)
theorem w9_main_v103 : W9 m c (Proc.devRef .tc main_v103) = ReadP.val_main_v103 (F := F) (in6 m c) :=
  (refOps06a_kept (W8 m c) (r := main_v103) (by decide)).trans (w8_main_v103 m c)
theorem w9_main_v118 : W9 m c (Proc.devRef .tc main_v118) = ReadP.val_main_v118 (F := F) (in0 m c) (in1 m c) :=
  (refOps06a_kept (W8 m c) (r := main_v118) (by decide)).trans (w8_main_v118 m c)
theorem w9_main_v145 : W9 m c (Proc.devRef .tc main_v145) = ReadP.val_main_v145 (F := F) (in0 m c) (in1 m c) :=
  refS06a_main_v145 (W8 m c) (in0 m c) (in1 m c) (w8_main_v136 m c) (w8_main_v138 m c) (w8_main_v100 m c)
theorem w9_main_v146 : W9 m c (Proc.devRef .tc main_v146) = ReadP.val_main_v146 (F := F) (in0 m c) :=
  refS06a_main_v146 (W8 m c) (in0 m c) (w8_arg m c (r := main_arg0) (by decide))

theorem w10_main_v92 : W10 m c (Proc.devRef .tc main_v92) = ReadP.val_main_v92 (F := F) (in1 m c) :=
  (refOps06b_kept (W9 m c) (r := main_v92) (by decide)).trans (w9_main_v92 m c)
theorem w10_main_v94 : W10 m c (Proc.devRef .tc main_v94) = ReadP.val_main_v94 (F := F) (in1 m c) :=
  (refOps06b_kept (W9 m c) (r := main_v94) (by decide)).trans (w9_main_v94 m c)
theorem w10_main_v100 : W10 m c (Proc.devRef .tc main_v100) = ReadP.val_main_v100 (F := F) (in1 m c) :=
  (refOps06b_kept (W9 m c) (r := main_v100) (by decide)).trans (w9_main_v100 m c)
theorem w10_main_v101 : W10 m c (Proc.devRef .tc main_v101) = ReadP.val_main_v101 (F := F) (in6 m c) :=
  (refOps06b_kept (W9 m c) (r := main_v101) (by decide)).trans (w9_main_v101 m c)
theorem w10_main_v103 : W10 m c (Proc.devRef .tc main_v103) = ReadP.val_main_v103 (F := F) (in6 m c) :=
  (refOps06b_kept (W9 m c) (r := main_v103) (by decide)).trans (w9_main_v103 m c)
theorem w10_main_v118 : W10 m c (Proc.devRef .tc main_v118) = ReadP.val_main_v118 (F := F) (in0 m c) (in1 m c) :=
  (refOps06b_kept (W9 m c) (r := main_v118) (by decide)).trans (w9_main_v118 m c)
theorem w10_main_v145 : W10 m c (Proc.devRef .tc main_v145) = ReadP.val_main_v145 (F := F) (in0 m c) (in1 m c) :=
  (refOps06b_kept (W9 m c) (r := main_v145) (by decide)).trans (w9_main_v145 m c)
theorem w10_main_call3_v5 : W10 m c (Proc.devRef .tc main_call3_v5) = ReadP.val_main_call3_v5 (F := F) (in0 m c) :=
  refS06b_main_call3_v5 (W9 m c) (in0 m c) (w9_main_v146 m c)

theorem w11_main_v92 : W11 m c (Proc.devRef .tc main_v92) = ReadP.val_main_v92 (F := F) (in1 m c) :=
  (refOps06c_kept (W10 m c) (r := main_v92) (by decide)).trans (w10_main_v92 m c)
theorem w11_main_v94 : W11 m c (Proc.devRef .tc main_v94) = ReadP.val_main_v94 (F := F) (in1 m c) :=
  (refOps06c_kept (W10 m c) (r := main_v94) (by decide)).trans (w10_main_v94 m c)
theorem w11_main_v100 : W11 m c (Proc.devRef .tc main_v100) = ReadP.val_main_v100 (F := F) (in1 m c) :=
  (refOps06c_kept (W10 m c) (r := main_v100) (by decide)).trans (w10_main_v100 m c)
theorem w11_main_v101 : W11 m c (Proc.devRef .tc main_v101) = ReadP.val_main_v101 (F := F) (in6 m c) :=
  (refOps06c_kept (W10 m c) (r := main_v101) (by decide)).trans (w10_main_v101 m c)
theorem w11_main_v103 : W11 m c (Proc.devRef .tc main_v103) = ReadP.val_main_v103 (F := F) (in6 m c) :=
  (refOps06c_kept (W10 m c) (r := main_v103) (by decide)).trans (w10_main_v103 m c)
theorem w11_main_v118 : W11 m c (Proc.devRef .tc main_v118) = ReadP.val_main_v118 (F := F) (in0 m c) (in1 m c) :=
  (refOps06c_kept (W10 m c) (r := main_v118) (by decide)).trans (w10_main_v118 m c)
theorem w11_main_v145 : W11 m c (Proc.devRef .tc main_v145) = ReadP.val_main_v145 (F := F) (in0 m c) (in1 m c) :=
  (refOps06c_kept (W10 m c) (r := main_v145) (by decide)).trans (w10_main_v145 m c)
theorem w11_main_v147 : W11 m c (Proc.devRef .tc main_v147) = ReadP.val_main_v147 (F := F) (in0 m c) :=
  refS06c_main_v147 (W10 m c) (in0 m c) (w10_main_call3_v5 m c)

theorem w12_main_v103 : W12 m c (Proc.devRef .tc main_v103) = ReadP.val_main_v103 (F := F) (in6 m c) :=
  (refOps07_kept (W11 m c) (r := main_v103) (by decide)).trans (w11_main_v103 m c)
theorem w12_main_v160 : W12 m c (Proc.devRef .tc main_v160) = ReadP.val_main_v160 (F := F) (in0 m c) (in1 m c) (in6 m c) :=
  refS07_main_v160 (W11 m c) (in0 m c) (in1 m c) (in6 m c) (w11_main_v118 m c) (w11_main_v145 m c) (w11_main_v92 m c) (w11_main_v147 m c) (w11_main_v94 m c) (w11_main_v100 m c) (w11_main_v101 m c)

theorem w13_main_v161 : W13 m c (Proc.devRef .tc main_v161) = ReadP.val_main_v161 (F := F) (in0 m c) (in1 m c) (in6 m c) :=
  refS08_main_v161 (W12 m c) (in0 m c) (in1 m c) (in6 m c) (w12_main_v160 m c) (w12_main_v103 m c)
theorem w13_main_v186 : W13 m c (Proc.devRef .tc main_v186) = ReadP.val_main_v186 (F := F) (in2 m c) (in3 m c) :=
  refS08_main_v186 (W12 m c) (in2 m c) (in3 m c) (w12_arg m c (r := main_arg2) (by decide)) (w12_arg m c (r := main_arg3) (by decide))
theorem w13_main_v187 : W13 m c (Proc.devRef .tc main_v187) = ReadP.val_main_v187 (F := F) (in7 m c) :=
  refS08_main_v187 (W12 m c) (in7 m c) (w12_arg m c (r := main_arg7) (by decide))
theorem w13_main_v188 : W13 m c (Proc.devRef .tc main_v188) = ReadP.val_main_v188 (F := F) (in3 m c) :=
  refS08_main_v188 (W12 m c) (in3 m c) (w12_arg m c (r := main_arg3) (by decide))

theorem w14_main_v161 : W14 m c (Proc.devRef .tc main_v161) = ReadP.val_main_v161 (F := F) (in0 m c) (in1 m c) (in6 m c) :=
  (refOps09_kept (W13 m c) (r := main_v161) (by decide)).trans (w13_main_v161 m c)
theorem w14_main_v196 : W14 m c (Proc.devRef .tc main_v196) = ReadP.val_main_v196 (F := F) (in2 m c) (in3 m c) (in7 m c) :=
  refS09_main_v196 (W13 m c) (in2 m c) (in3 m c) (in7 m c) (w13_main_v186 m c) (w13_main_v187 m c) (w13_main_v188 m c)
theorem w14_main_v198 : W14 m c (Proc.devRef .tc main_v198) = ReadP.val_main_v198 (F := F) (in5 m c) :=
  refS09_main_v198 (W13 m c) (in5 m c) (w13_arg m c (r := main_arg5) (by decide))
theorem w14_main_v200 : W14 m c (Proc.devRef .tc main_v200) = ReadP.val_main_v200 (F := F) (in5 m c) :=
  refS09_main_v200 (W13 m c) (in5 m c) (w13_arg m c (r := main_arg5) (by decide))
theorem w14_main_v209 : W14 m c (Proc.devRef .tc main_v209) = ReadP.val_main_v209 (F := F) (in4 m c) (in5 m c) :=
  refS09_main_v209 (W13 m c) (in4 m c) (in5 m c) (w13_arg m c (r := main_arg4) (by decide)) (w13_arg m c (r := main_arg5) (by decide))
theorem w14_main_v210 : W14 m c (Proc.devRef .tc main_v210) = ReadP.val_main_v210 (F := F) (in4 m c) :=
  refS09_main_v210 (W13 m c) (in4 m c) (w13_arg m c (r := main_arg4) (by decide))

theorem w15_main_v161 : W15 m c (Proc.devRef .tc main_v161) = ReadP.val_main_v161 (F := F) (in0 m c) (in1 m c) (in6 m c) :=
  (refOps10_kept (W14 m c) (r := main_v161) (by decide)).trans (w14_main_v161 m c)
theorem w15_main_v196 : W15 m c (Proc.devRef .tc main_v196) = ReadP.val_main_v196 (F := F) (in2 m c) (in3 m c) (in7 m c) :=
  (refOps10_kept (W14 m c) (r := main_v196) (by decide)).trans (w14_main_v196 m c)
theorem w15_main_v198 : W15 m c (Proc.devRef .tc main_v198) = ReadP.val_main_v198 (F := F) (in5 m c) :=
  (refOps10_kept (W14 m c) (r := main_v198) (by decide)).trans (w14_main_v198 m c)
theorem w15_main_v200 : W15 m c (Proc.devRef .tc main_v200) = ReadP.val_main_v200 (F := F) (in5 m c) :=
  (refOps10_kept (W14 m c) (r := main_v200) (by decide)).trans (w14_main_v200 m c)
theorem w15_main_v215 : W15 m c (Proc.devRef .tc main_v215) = ReadP.val_main_v215 (F := F) (in4 m c) :=
  refS10_main_v215 (W14 m c) (in4 m c) (w14_main_v210 m c)
theorem w15_main_v228 : W15 m c (Proc.devRef .tc main_v228) = ReadP.val_main_v228 (F := F) (in5 m c) :=
  refS10_main_v228 (W14 m c) (in5 m c) (w14_main_v198 m c)
theorem w15_main_v233 : W15 m c (Proc.devRef .tc main_v233) = ReadP.val_main_v233 (F := F) (in4 m c) (in5 m c) :=
  refS10_main_v233 (W14 m c) (in4 m c) (in5 m c) (w14_main_v210 m c) (w14_main_v200 m c) (w14_main_v209 m c)

theorem w16_main_v161 : W16 m c (Proc.devRef .tc main_v161) = ReadP.val_main_v161 (F := F) (in0 m c) (in1 m c) (in6 m c) :=
  (refOps11_kept (W15 m c) (r := main_v161) (by decide)).trans (w15_main_v161 m c)
theorem w16_main_v196 : W16 m c (Proc.devRef .tc main_v196) = ReadP.val_main_v196 (F := F) (in2 m c) (in3 m c) (in7 m c) :=
  (refOps11_kept (W15 m c) (r := main_v196) (by decide)).trans (w15_main_v196 m c)
theorem w16_main_v198 : W16 m c (Proc.devRef .tc main_v198) = ReadP.val_main_v198 (F := F) (in5 m c) :=
  (refOps11_kept (W15 m c) (r := main_v198) (by decide)).trans (w15_main_v198 m c)
theorem w16_main_v238 : W16 m c (Proc.devRef .tc main_v238) = ReadP.val_main_v238 (F := F) (in4 m c) (in5 m c) :=
  refS11_main_v238 (W15 m c) (in4 m c) (in5 m c) (w15_main_v233 m c) (w15_main_v198 m c) (w15_main_v228 m c)
theorem w16_main_v252 : W16 m c (Proc.devRef .tc main_v252) = ReadP.val_main_v252 (F := F) (in4 m c) (in5 m c) :=
  refS11_main_v252 (W15 m c) (in4 m c) (in5 m c) (w15_main_v215 m c) (w15_main_v198 m c) (w15_main_v200 m c)
theorem w16_main_v256 : W16 m c (Proc.devRef .tc main_v256) = ReadP.val_main_v256 (F := F) (in4 m c) (in5 m c) :=
  refS11_main_v256 (W15 m c) (in4 m c) (in5 m c) (w15_main_v215 m c) (w15_main_v200 m c) (w15_main_v198 m c)
theorem w16_main_cst_70 : W16 m c (Proc.devRef .tc main_cst_70) = ReadP.val_main_cst_70 (F := F) :=
  refS11_main_cst_70 (W15 m c)

theorem w17_main_v161 : W17 m c (Proc.devRef .tc main_v161) = ReadP.val_main_v161 (F := F) (in0 m c) (in1 m c) (in6 m c) :=
  (refOps12_kept (W16 m c) (r := main_v161) (by decide)).trans (w16_main_v161 m c)
theorem w17_main_v196 : W17 m c (Proc.devRef .tc main_v196) = ReadP.val_main_v196 (F := F) (in2 m c) (in3 m c) (in7 m c) :=
  (refOps12_kept (W16 m c) (r := main_v196) (by decide)).trans (w16_main_v196 m c)
theorem w17_main_v272 : W17 m c (Proc.devRef .tc main_v272) = ReadP.val_main_v272 (F := F) (in4 m c) (in5 m c) (in8 m c) :=
  refS12_main_v272 (W16 m c) (in4 m c) (in5 m c) (in8 m c) (w16_main_v238 m c) (w16_main_v256 m c) (w16_main_v252 m c) (w16_main_cst_70 m c) (w16_arg m c (r := main_arg8) (by decide)) (w16_main_v198 m c)
theorem w17_main_v278 : W17 m c (Proc.devRef .tc main_v278) = ReadP.val_main_v278 (F := F) (in0 m c) (in1 m c) (in2 m c) (in3 m c) (in4 m c) (in5 m c) (in6 m c) (in7 m c) (in8 m c) :=
  refS12_main_v278 (W16 m c) (in0 m c) (in1 m c) (in2 m c) (in3 m c) (in4 m c) (in5 m c) (in6 m c) (in7 m c) (in8 m c) (w16_main_v161 m c) (w16_main_v196 m c) (w16_main_v238 m c) (w16_main_v256 m c) (w16_main_v252 m c) (w16_main_cst_70 m c) (w16_arg m c (r := main_arg8) (by decide)) (w16_main_v198 m c)

theorem w18_main_v278 : W18 m c (Proc.devRef .tc main_v278) = ReadP.val_main_v278 (F := F) (in0 m c) (in1 m c) (in2 m c) (in3 m c) (in4 m c) (in5 m c) (in6 m c) (in7 m c) (in8 m c) :=
  (refOps13a_kept (W17 m c) (r := main_v278) (by decide)).trans (w17_main_v278 m c)
theorem w18_main_v279 : W18 m c (Proc.devRef .tc main_v279) = ReadP.val_main_v279 (F := F) (in0 m c) (in1 m c) (in6 m c) :=
  refS13a_main_v279 (W17 m c) (in0 m c) (in1 m c) (in6 m c) (w17_main_v161 m c)
theorem w18_main_v280 : W18 m c (Proc.devRef .tc main_v280) = ReadP.val_main_v280 (F := F) (in2 m c) (in3 m c) (in7 m c) :=
  refS13a_main_v280 (W17 m c) (in2 m c) (in3 m c) (in7 m c) (w17_main_v196 m c)
theorem w18_main_v281 : W18 m c (Proc.devRef .tc main_v281) = ReadP.val_main_v281 (F := F) (in4 m c) (in5 m c) (in8 m c) :=
  refS13a_main_v281 (W17 m c) (in4 m c) (in5 m c) (in8 m c) (w17_main_v272 m c)

theorem w19_main_v282 : W19 m c (Proc.devRef .tc main_v282) = ReadP.val_main_v282 (F := F) (in0 m c) (in1 m c) (in2 m c) (in3 m c) (in4 m c) (in5 m c) (in6 m c) (in7 m c) (in8 m c) :=
  refS13b_main_v282 (W18 m c) (in0 m c) (in1 m c) (in2 m c) (in3 m c) (in4 m c) (in5 m c) (in6 m c) (in7 m c) (in8 m c) (w18_main_v278 m c) (w18_main_v279 m c) (w18_main_v280 m c) (w18_main_v281 m c)

theorem after_allOps_launch : StableHlo.after (allOps (F := F)) (launchContents m c) = W19 m c :=
  after_allOps _

end Cert.ReferenceIdeal.RunH

end
-- ==== Proof.RefRunHand.lean ====
import proofs.«134848_j7748121002193_1_alg».proof.Proof.RH.Chain

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- Every weakly fair execution of the reference's @main ends with the result buffer at the last stage of the arguments
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v282) = Cert.ReferenceIdeal.ReadP.val_main_v282 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hW : ∀ b : Ref sig .tc, _ = W19 m c (Proc.devRef .tc b) := fun b => (h c b).trans (congrFun (after_allOps_launch m c) _)
    ⟨(hW main_v282).trans (w19_main_v282 m c),
      (hW main_arg0).trans (w19_arg m c (r := main_arg0) (by decide)),
      (hW main_arg1).trans (w19_arg m c (r := main_arg1) (by decide)),
      (hW main_arg2).trans (w19_arg m c (r := main_arg2) (by decide)),
      (hW main_arg3).trans (w19_arg m c (r := main_arg3) (by decide)),
      (hW main_arg4).trans (w19_arg m c (r := main_arg4) (by decide)),
      (hW main_arg5).trans (w19_arg m c (r := main_arg5) (by decide)),
      (hW main_arg6).trans (w19_arg m c (r := main_arg6) (by decide)),
      (hW main_arg7).trans (w19_arg m c (r := main_arg7) (by decide)),
      (hW main_arg8).trans (w19_arg m c (r := main_arg8) (by decide))⟩)
    (run_seq scopedRefs_eq scopedSems_eq defs main (fun _ => allOps) main_eq (fun _ => allOps_sub) m ρ (fun _ => allOps_fresh))

end Cert.ReferenceIdeal.RunH

end
-- ==== Proof.lean ====
/-
  A multi-task loss: a detection loss computed by host operations only, and a drivable-area and a lane-marking loss, each
  computed from sums a kernel accumulates band by band over the image rows; the reference takes whole-image sums.
  At the ideal instance a sum of extended reals regroups freely, a 0/1 indicator summed as reals is positive exactly when
  some pixel is valid, and the square of the real `1 - pt` is its product with itself; the rest is the same arithmetic.
-/
import proofs.«134848_j7748121002193_1_alg».proof.Defs
import proofs.«134848_j7748121002193_1_alg».proof.Proof.Gen.Kernel
import proofs.«134848_j7748121002193_1_alg».proof.Proof.Gen.KernelIdeal
import proofs.«134848_j7748121002193_1_alg».proof.Proof.Gen.ReferenceIdeal
import proofs.«134848_j7748121002193_1_alg».proof.Proof.Gen.Pre_finite_inputs
import proofs.«134848_j7748121002193_1_alg».proof.Proof.K.Frame
import proofs.«134848_j7748121002193_1_alg».proof.Proof.KI.Frame
import proofs.«134848_j7748121002193_1_alg».proof.Proof.KI.KerValue
import proofs.«134848_j7748121002193_1_alg».proof.Proof.RefRunHand
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame_any m ρ

theorem frame_ki : Cert.frame_KernelIdeal := fun m ρ _ => Cert.KernelIdeal.Hand.frame_any m ρ

theorem frame_ri : Cert.frame_ReferenceIdeal := fun m ρ _ =>
  (θ_run Cert.ReferenceIdeal.defs _ _).mono (fun _ h c => (h c).2) (Cert.ReferenceIdeal.RunH.run (F := Ideal) m ρ)

/-- Both idealized programs end with the result buffer at the reference's last stage of the (agreeing) arguments. -/
theorem algebraic : Cert.algebraic_KernelIdeal_ReferenceIdeal := by
  intro m ρ m' ρ' _ hagree
  refine ⟨fun c => Cert.ReferenceIdeal.ReadP.val_main_v282 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono (fun r h c =>
      ⟨(h c _ (Cert.KernelIdeal.Hand.mem_uc Cert.KernelIdeal.main_v212 (by decide))).trans (Cert.KernelIdeal.Hand.ker_result m ρ c),
       Cert.KernelIdeal.Hand.kept_of_run m ρ (h c)⟩)
      (Cert.KernelIdeal.Hand.run_all (F := Ideal) m ρ)
  · refine (θ_run Cert.ReferenceIdeal.defs _ _).mono (fun r h c => ⟨(h c).1.trans ?_, (h c).2⟩)
      (Cert.ReferenceIdeal.RunH.run (F := Ideal) m' ρ')
    rw [(hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
